-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v399) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x96x96x6 : Shape := ⟨4, ![64, 96, 96, 6]⟩
abbrev S64x96x96x1 : Shape := ⟨4, ![64, 96, 96, 1]⟩
abbrev S64x96x96x63 : Shape := ⟨4, ![64, 96, 96, 63]⟩
abbrev S64x32x6 : Shape := ⟨3, ![64, 32, 6]⟩
abbrev S64x32x63 : Shape := ⟨3, ![64, 32, 63]⟩
abbrev S64x32x1 : Shape := ⟨3, ![64, 32, 1]⟩
abbrev S64x32 : Shape := ⟨2, ![64, 32]⟩
abbrev S_ : Shape := ⟨0, ![]⟩

class Facts : Prop where
  slices_S64x32x6_S64x32x1_0_0_0 : S64x32x6.Slices ![0, 0, 0] S64x32x1
  shapeCasts_S64x32x1_S64x32 : S64x32x1.ShapeCasts S64x32
  bcast_S_S64x32 : S_.BroadcastsInDim S64x32 (![] : Fin 0 → Fin S64x32.rank)
  slices_S64x32x6_S64x32x1_0_0_1 : S64x32x6.Slices ![0, 0, 1] S64x32x1
  bcast_S_S64x96x96x6 : S_.BroadcastsInDim S64x96x96x6 (![] : Fin 0 → Fin S64x96x96x6.rank)
  reducesTo_S64x96x96x6_S_d0_1_2_3 : S64x96x96x6.ReducesTo [0, 1, 2, 3] S_
  h_S_ : 0 < S_.numel
  bcast_S_S64x96x96x1 : S_.BroadcastsInDim S64x96x96x1 (![] : Fin 0 → Fin S64x96x96x1.rank)
  reducesTo_S64x96x96x1_S_d0_1_2_3 : S64x96x96x1.ReducesTo [0, 1, 2, 3] S_
  bcast_S_S64x96x96x63 : S_.BroadcastsInDim S64x96x96x63 (![] : Fin 0 → Fin S64x96x96x63.rank)
  reducesTo_S64x96x96x63_S_d0_1_2_3 : S64x96x96x63.ReducesTo [0, 1, 2, 3] S_
  bcast_S_S64x32x6 : S_.BroadcastsInDim S64x32x6 (![] : Fin 0 → Fin S64x32x6.rank)
  reducesTo_S64x32x6_S_d0_1_2 : S64x32x6.ReducesTo [0, 1, 2] S_
  bcast_S_S64x32x63 : S_.BroadcastsInDim S64x32x63 (![] : Fin 0 → Fin S64x32x63.rank)
  reducesTo_S64x32x63_S_d0_1_2 : S64x32x63.ReducesTo [0, 1, 2] S_
  reducesTo_S64x32_S_d0_1 : S64x32.ReducesTo [0, 1] S_

variable [Facts]

def fn_part2 {F : FTy → Type} [FloatOps F] (main_v4 : IVec S64x32 32) (main_v9 : IVec S64x32 32) (main_v33 : IVec S_ 1) (main_v34 : IVec S64x32 32) : IVec S_ 1 :=
  let main_v35 : IVec S64x32 1 := cmpi .sge main_v4 main_v34
  let main_c_11 : IVec S_ 1 := constantI S_ 1 1#1
  let main_v36 : IVec S_ 1 := (fun x v => Host.reduce IntOp.andi x v reducesTo_S64x32_S_d0_1 h_S_) main_v35 main_c_11
  let main_v37 : IVec S_ 1 := andi main_v33 main_v36
  let main_c_12 : IVec S_ 32 := constantI S_ 32 96#32
  let main_v38 : IVec S64x32 32 := broadcastInDim S64x32 ![] bcast_S_S64x32 main_c_12
  let main_v39 : IVec S64x32 1 := cmpi .slt main_v4 main_v38
  let main_c_13 : IVec S_ 1 := constantI S_ 1 1#1
  let main_v40 : IVec S_ 1 := (fun x v => Host.reduce IntOp.andi x v reducesTo_S64x32_S_d0_1 h_S_) main_v39 main_c_13
  let main_v41 : IVec S_ 1 := andi main_v37 main_v40
  let main_c_14 : IVec S_ 32 := constantI S_ 32 0#32
  let main_v42 : IVec S64x32 32 := broadcastInDim S64x32 ![] bcast_S_S64x32 main_c_14
  let main_v43 : IVec S64x32 1 := cmpi .sge main_v9 main_v42
  let main_c_15 : IVec S_ 1 := constantI S_ 1 1#1
  let main_v44 : IVec S_ 1 := (fun x v => Host.reduce IntOp.andi x v reducesTo_S64x32_S_d0_1 h_S_) main_v43 main_c_15
  let main_v45 : IVec S_ 1 := andi main_v41 main_v44
  let main_c_16 : IVec S_ 32 := constantI S_ 32 96#32
  let main_v46 : IVec S64x32 32 := broadcastInDim S64x32 ![] bcast_S_S64x32 main_c_16
  let main_v47 : IVec S64x32 1 := cmpi .slt main_v9 main_v46
  let main_c_17 : IVec S_ 1 := constantI S_ 1 1#1
  let main_v48 : IVec S_ 1 := (fun x v => Host.reduce IntOp.andi x v reducesTo_S64x32_S_d0_1 h_S_) main_v47 main_c_17
  let main_v49 : IVec S_ 1 := andi main_v45 main_v48
  main_v49

def fn_part1 {F : FTy → Type} [FloatOps F] (main_arg2 : FVec F S64x96x96x63 .f32) (main_arg3 : FVec F S64x32x6 .f32) (main_arg4 : FVec F S64x32x63 .f32) (main_v4 : IVec S64x32 32) (main_v9 : IVec S64x32 32) (main_v13 : IVec S_ 1) (main_v17 : IVec S_ 1) : IVec S_ 1 :=
  let main_v18 : IVec S_ 1 := andi main_v13 main_v17
  let main_v19 : FVec F S64x96x96x63 .f32 := Host.absf main_arg2
  let main_cst_4 : FVec F S_ .f32 := constant S_ .f32 0x7F800000#32
  let main_v20 : FVec F S64x96x96x63 .f32 := broadcastInDim S64x96x96x63 ![] bcast_S_S64x96x96x63 main_cst_4
  let main_v21 : IVec S64x96x96x63 1 := cmpf .olt main_v19 main_v20
  let main_c_5 : IVec S_ 1 := constantI S_ 1 1#1
  let main_v22 : IVec S_ 1 := (fun x v => Host.reduce IntOp.andi x v reducesTo_S64x96x96x63_S_d0_1_2_3 h_S_) main_v21 main_c_5
  let main_v23 : IVec S_ 1 := andi main_v18 main_v22
  let main_v24 : FVec F S64x32x6 .f32 := Host.absf main_arg3
  let main_cst_6 : FVec F S_ .f32 := constant S_ .f32 0x7F800000#32
  let main_v25 : FVec F S64x32x6 .f32 := broadcastInDim S64x32x6 ![] bcast_S_S64x32x6 main_cst_6
  let main_v26 : IVec S64x32x6 1 := cmpf .olt main_v24 main_v25
  let main_c_7 : IVec S_ 1 := constantI S_ 1 1#1
  let main_v27 : IVec S_ 1 := (fun x v => Host.reduce IntOp.andi x v reducesTo_S64x32x6_S_d0_1_2 h_S_) main_v26 main_c_7
  let main_v28 : IVec S_ 1 := andi main_v23 main_v27
  let main_v29 : FVec F S64x32x63 .f32 := Host.absf main_arg4
  let main_cst_8 : FVec F S_ .f32 := constant S_ .f32 0x7F800000#32
  let main_v30 : FVec F S64x32x63 .f32 := broadcastInDim S64x32x63 ![] bcast_S_S64x32x63 main_cst_8
  let main_v31 : IVec S64x32x63 1 := cmpf .olt main_v29 main_v30
  let main_c_9 : IVec S_ 1 := constantI S_ 1 1#1
  let main_v32 : IVec S_ 1 := (fun x v => Host.reduce IntOp.andi x v reducesTo_S64x32x63_S_d0_1_2 h_S_) main_v31 main_c_9
  let main_v33 : IVec S_ 1 := andi main_v28 main_v32
  let main_c_10 : IVec S_ 32 := constantI S_ 32 0#32
  let main_v34 : IVec S64x32 32 := broadcastInDim S64x32 ![] bcast_S_S64x32 main_c_10
  fn_part2 (F := F) main_v4 main_v9 main_v33 main_v34

def fn {F : FTy → Type} [FloatOps F] (main_arg0 : FVec F S64x96x96x6 .f32) (main_arg1 : FVec F S64x96x96x1 .f32) (main_arg2 : FVec F S64x96x96x63 .f32) (main_arg3 : FVec F S64x32x6 .f32) (main_arg4 : FVec F S64x32x63 .f32) : IVec S_ 1 :=
  let main_v0 : FVec F S64x32x1 .f32 := (extractStridedSlice S64x32x1 ![0, 0, 0] · slices_S64x32x6_S64x32x1_0_0_0) main_arg3
  let main_v1 : FVec F S64x32 .f32 := shapeCast S64x32 main_v0 shapeCasts_S64x32x1_S64x32
  let main_cst : FVec F S_ .f32 := constant S_ .f32 0x42C00000#32
  let main_v2 : FVec F S64x32 .f32 := broadcastInDim S64x32 ![] bcast_S_S64x32 main_cst
  let main_v3 : FVec F S64x32 .f32 := mulf main_v1 main_v2
  let main_v4 : IVec S64x32 32 := fptosi 32 main_v3
  let main_v5 : FVec F S64x32x1 .f32 := (extractStridedSlice S64x32x1 ![0, 0, 1] · slices_S64x32x6_S64x32x1_0_0_1) main_arg3
  let main_v6 : FVec F S64x32 .f32 := shapeCast S64x32 main_v5 shapeCasts_S64x32x1_S64x32
  let main_cst_0 : FVec F S_ .f32 := constant S_ .f32 0x42C00000#32
  let main_v7 : FVec F S64x32 .f32 := broadcastInDim S64x32 ![] bcast_S_S64x32 main_cst_0
  let main_v8 : FVec F S64x32 .f32 := mulf main_v6 main_v7
  let main_v9 : IVec S64x32 32 := fptosi 32 main_v8
  let main_v10 : FVec F S64x96x96x6 .f32 := Host.absf main_arg0
  let main_cst_1 : FVec F S_ .f32 := constant S_ .f32 0x7F800000#32
  let main_v11 : FVec F S64x96x96x6 .f32 := broadcastInDim S64x96x96x6 ![] bcast_S_S64x96x96x6 main_cst_1
  let main_v12 : IVec S64x96x96x6 1 := cmpf .olt main_v10 main_v11
  let main_c : IVec S_ 1 := constantI S_ 1 1#1
  let main_v13 : IVec S_ 1 := (fun x v => Host.reduce IntOp.andi x v reducesTo_S64x96x96x6_S_d0_1_2_3 h_S_) main_v12 main_c
  let main_v14 : FVec F S64x96x96x1 .f32 := Host.absf main_arg1
  let main_cst_2 : FVec F S_ .f32 := constant S_ .f32 0x7F800000#32
  let main_v15 : FVec F S64x96x96x1 .f32 := broadcastInDim S64x96x96x1 ![] bcast_S_S64x96x96x1 main_cst_2
  let main_v16 : IVec S64x96x96x1 1 := cmpf .olt main_v14 main_v15
  let main_c_3 : IVec S_ 1 := constantI S_ 1 1#1
  let main_v17 : IVec S_ 1 := (fun x v => Host.reduce IntOp.andi x v reducesTo_S64x96x96x1_S_d0_1_2_3 h_S_) main_v16 main_c_3
  fn_part1 (F := F) main_arg2 main_arg3 main_arg4 main_v4 main_v9 main_v13 main_v17
-- ==== Kernel.lean ====
abbrev S64x96x96x6 : Shape := ⟨4, ![64, 96, 96, 6]⟩
abbrev S64x96x96x1 : Shape := ⟨4, ![64, 96, 96, 1]⟩
abbrev S64x96x96x63 : Shape := ⟨4, ![64, 96, 96, 63]⟩
abbrev S64x32x6 : Shape := ⟨3, ![64, 32, 6]⟩
abbrev S64x32x63 : Shape := ⟨3, ![64, 32, 63]⟩
abbrev S64x32x1 : Shape := ⟨3, ![64, 32, 1]⟩
abbrev S64x32 : Shape := ⟨2, ![64, 32]⟩
abbrev S_ : Shape := ⟨0, ![]⟩
abbrev S64x32x8 : Shape := ⟨3, ![64, 32, 8]⟩
abbrev S64x32x4 : Shape := ⟨3, ![64, 32, 4]⟩
abbrev S64x9216x6 : Shape := ⟨3, ![64, 9216, 6]⟩
abbrev S64x9216x1 : Shape := ⟨3, ![64, 9216, 1]⟩
abbrev S64x9216x63 : Shape := ⟨3, ![64, 9216, 63]⟩
abbrev S64x1x8 : Shape := ⟨3, ![64, 1, 8]⟩
abbrev S1x9216x6 : Shape := ⟨3, ![1, 9216, 6]⟩
abbrev S1x9216x1 : Shape := ⟨3, ![1, 9216, 1]⟩
abbrev S1x9216x63 : Shape := ⟨3, ![1, 9216, 63]⟩
abbrev S1x32x1 : Shape := ⟨3, ![1, 32, 1]⟩
abbrev S1x32x8 : Shape := ⟨3, ![1, 32, 8]⟩
abbrev S1x32x4 : Shape := ⟨3, ![1, 32, 4]⟩
abbrev S1x32x63 : Shape := ⟨3, ![1, 32, 63]⟩
abbrev S1x1x8 : Shape := ⟨3, ![1, 1, 8]⟩
abbrev S9216x6 : Shape := ⟨2, ![9216, 6]⟩
abbrev S9216x1 : Shape := ⟨2, ![9216, 1]⟩
abbrev S9216x63 : Shape := ⟨2, ![9216, 63]⟩
abbrev S32x1 : Shape := ⟨2, ![32, 1]⟩
abbrev S32x8 : Shape := ⟨2, ![32, 8]⟩
abbrev S32x63 : Shape := ⟨2, ![32, 63]⟩
abbrev S32x9216 : Shape := ⟨2, ![32, 9216]⟩
abbrev S32x6 : Shape := ⟨2, ![32, 6]⟩
abbrev S1 : Shape := ⟨1, ![1]⟩
abbrev S1x1 : Shape := ⟨2, ![1, 1]⟩
abbrev S32 : Shape := ⟨1, ![32]⟩
abbrev S9216 : Shape := ⟨1, ![9216]⟩
abbrev S1x9216 : Shape := ⟨2, ![1, 9216]⟩
abbrev S32x4 : Shape := ⟨2, ![32, 4]⟩
abbrev S1x8 : Shape := ⟨2, ![1, 8]⟩
abbrev S64x8 : Shape := ⟨2, ![64, 8]⟩
abbrev S8 : Shape := ⟨1, ![8]⟩
abbrev S2048x4 : Shape := ⟨2, ![2048, 4]⟩
abbrev S2048x1 : Shape := ⟨2, ![2048, 1]⟩
abbrev S2048 : Shape := ⟨1, ![2048]⟩
abbrev S1x2048 : Shape := ⟨2, ![1, 2048]⟩
abbrev S256x4 : Shape := ⟨2, ![256, 4]⟩
abbrev S256x1 : Shape := ⟨2, ![256, 1]⟩
abbrev S256 : Shape := ⟨1, ![256]⟩
abbrev S256x2048 : Shape := ⟨2, ![256, 2048]⟩
abbrev S4 : Shape := ⟨1, ![4]⟩

abbrev nBuf : Space → Nat
  | .hbm => 120
  | .vmem => 21
  | .smem => 0
  | _ => 0

abbrev bufTy : (tb : Table) → Fin (tcTables nBuf tb) → BufTy
  | .hbm, ⟨0, _⟩ => ⟨S64x96x96x6, .f32⟩
  | .hbm, ⟨1, _⟩ => ⟨S64x96x96x1, .f32⟩
  | .hbm, ⟨2, _⟩ => ⟨S64x96x96x63, .f32⟩
  | .hbm, ⟨3, _⟩ => ⟨S64x32x6, .f32⟩
  | .hbm, ⟨4, _⟩ => ⟨S64x32x63, .f32⟩
  | .hbm, ⟨5, _⟩ => ⟨S64x32x1, .f32⟩
  | .hbm, ⟨6, _⟩ => ⟨S64x32, .f32⟩
  | .hbm, ⟨7, _⟩ => ⟨S_, .f32⟩
  | .hbm, ⟨8, _⟩ => ⟨S64x32, .f32⟩
  | .hbm, ⟨9, _⟩ => ⟨S64x32, .f32⟩
  | .hbm, ⟨10, _⟩ => ⟨S64x32x1, .f32⟩
  | .hbm, ⟨11, _⟩ => ⟨S64x32, .f32⟩
  | .hbm, ⟨12, _⟩ => ⟨S_, .f32⟩
  | .hbm, ⟨13, _⟩ => ⟨S64x32, .f32⟩
  | .hbm, ⟨14, _⟩ => ⟨S64x32, .f32⟩
  | .hbm, ⟨15, _⟩ => ⟨S64x32x1, .f32⟩
  | .hbm, ⟨16, _⟩ => ⟨S64x32, .f32⟩
  | .hbm, ⟨17, _⟩ => ⟨S64x32x1, .f32⟩
  | .hbm, ⟨18, _⟩ => ⟨S64x32, .f32⟩
  | .hbm, ⟨19, _⟩ => ⟨S_, .f32⟩
  | .hbm, ⟨20, _⟩ => ⟨S64x32, .f32⟩
  | .hbm, ⟨21, _⟩ => ⟨S64x32, .f32⟩
  | .hbm, ⟨22, _⟩ => ⟨S64x32x1, .f32⟩
  | .hbm, ⟨23, _⟩ => ⟨S64x32, .f32⟩
  | .hbm, ⟨24, _⟩ => ⟨S_, .f32⟩
  | .hbm, ⟨25, _⟩ => ⟨S64x32, .f32⟩
  | .hbm, ⟨26, _⟩ => ⟨S64x32, .f32⟩
  | .hbm, ⟨27, _⟩ => ⟨S64x32x1, .f32⟩
  | .hbm, ⟨28, _⟩ => ⟨S64x32, .f32⟩
  | .hbm, ⟨29, _⟩ => ⟨S64x32, .i32⟩
  | .hbm, ⟨30, _⟩ => ⟨S64x32, .i32⟩
  | .hbm, ⟨31, _⟩ => ⟨S64x32, .f32⟩
  | .hbm, ⟨32, _⟩ => ⟨S64x32, .f32⟩
  | .hbm, ⟨33, _⟩ => ⟨S64x32, .f32⟩
  | .hbm, ⟨34, _⟩ => ⟨S64x32, .f32⟩
  | .hbm, ⟨35, _⟩ => ⟨S_, .f32⟩
  | .hbm, ⟨36, _⟩ => ⟨S64x32, .f32⟩
  | .hbm, ⟨37, _⟩ => ⟨S64x32, .f32⟩
  | .hbm, ⟨38, _⟩ => ⟨S_, .f32⟩
  | .hbm, ⟨39, _⟩ => ⟨S64x32, .f32⟩
  | .hbm, ⟨40, _⟩ => ⟨S64x32, .f32⟩
  | .hbm, ⟨41, _⟩ => ⟨S64x32, .f32⟩
  | .hbm, ⟨42, _⟩ => ⟨S_, .f32⟩
  | .hbm, ⟨43, _⟩ => ⟨S64x32, .f32⟩
  | .hbm, ⟨44, _⟩ => ⟨S64x32, .f32⟩
  | .hbm, ⟨45, _⟩ => ⟨S_, .f32⟩
  | .hbm, ⟨46, _⟩ => ⟨S64x32, .f32⟩
  | .hbm, ⟨47, _⟩ => ⟨S64x32, .f32⟩
  | .hbm, ⟨48, _⟩ => ⟨S64x32, .f32⟩
  | .hbm, ⟨49, _⟩ => ⟨S_, .f32⟩
  | .hbm, ⟨50, _⟩ => ⟨S64x32, .f32⟩
  | .hbm, ⟨51, _⟩ => ⟨S64x32, .f32⟩
  | .hbm, ⟨52, _⟩ => ⟨S64x32, .f32⟩
  | .hbm, ⟨53, _⟩ => ⟨S64x32, .f32⟩
  | .hbm, ⟨54, _⟩ => ⟨S64x32, .f32⟩
  | .hbm, ⟨55, _⟩ => ⟨S_, .i32⟩
  | .hbm, ⟨56, _⟩ => ⟨S64x32, .i32⟩
  | .hbm, ⟨57, _⟩ => ⟨S64x32, .i32⟩
  | .hbm, ⟨58, _⟩ => ⟨S64x32, .i32⟩
  | .hbm, ⟨59, _⟩ => ⟨S64x32x1, .f32⟩
  | .hbm, ⟨60, _⟩ => ⟨S64x32x1, .f32⟩
  | .hbm, ⟨61, _⟩ => ⟨S64x32x1, .f32⟩
  | .hbm, ⟨62, _⟩ => ⟨S64x32x1, .f32⟩
  | .hbm, ⟨63, _⟩ => ⟨S64x32x1, .f32⟩
  | .hbm, ⟨64, _⟩ => ⟨S64x32x1, .f32⟩
  | .hbm, ⟨65, _⟩ => ⟨S64x32x1, .f32⟩
  | .hbm, ⟨66, _⟩ => ⟨S64x32x1, .f32⟩
  | .hbm, ⟨67, _⟩ => ⟨S64x32x8, .f32⟩
  | .hbm, ⟨68, _⟩ => ⟨S64x32x1, .f32⟩
  | .hbm, ⟨69, _⟩ => ⟨S64x32x1, .f32⟩
  | .hbm, ⟨70, _⟩ => ⟨S64x32x1, .f32⟩
  | .hbm, ⟨71, _⟩ => ⟨S64x32x1, .f32⟩
  | .hbm, ⟨72, _⟩ => ⟨S64x32x4, .f32⟩
  | .hbm, ⟨73, _⟩ => ⟨S64x32x1, .i32⟩
  | .hbm, ⟨74, _⟩ => ⟨S64x9216x6, .f32⟩
  | .hbm, ⟨75, _⟩ => ⟨S64x9216x1, .f32⟩
  | .hbm, ⟨76, _⟩ => ⟨S64x9216x63, .f32⟩
  | .hbm, ⟨77, _⟩ => ⟨S64x32x4, .f32⟩
  | .hbm, ⟨78, _⟩ => ⟨S64x1x8, .f32⟩
  | .hbm, ⟨79, _⟩ => ⟨S64x8, .f32⟩
  | .hbm, ⟨80, _⟩ => ⟨S_, .f32⟩
  | .hbm, ⟨81, _⟩ => ⟨S8, .f32⟩
  | .hbm, ⟨82, _⟩ => ⟨S1, .f32⟩
  | .hbm, ⟨83, _⟩ => ⟨S_, .f32⟩
  | .hbm, ⟨84, _⟩ => ⟨S1, .f32⟩
  | .hbm, ⟨85, _⟩ => ⟨S_, .f32⟩
  | .hbm, ⟨86, _⟩ => ⟨S1, .f32⟩
  | .hbm, ⟨87, _⟩ => ⟨S_, .f32⟩
  | .hbm, ⟨88, _⟩ => ⟨S1, .f32⟩
  | .hbm, ⟨89, _⟩ => ⟨S_, .f32⟩
  | .hbm, ⟨90, _⟩ => ⟨S1, .f32⟩
  | .hbm, ⟨91, _⟩ => ⟨S_, .f32⟩
  | .hbm, ⟨92, _⟩ => ⟨S1, .f32⟩
  | .hbm, ⟨93, _⟩ => ⟨S_, .f32⟩
  | .hbm, ⟨94, _⟩ => ⟨S1, .f32⟩
  | .hbm, ⟨95, _⟩ => ⟨S_, .f32⟩
  | .hbm, ⟨96, _⟩ => ⟨S1, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S2048x4, .f32⟩
  | .hbm, ⟨110, _⟩ => ⟨S2048x4, .f32⟩
  | .hbm, ⟨111, _⟩ => ⟨S1x1, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S1, .f32⟩
  | .hbm, ⟨116, _⟩ => ⟨S1, .f32⟩
  | .hbm, ⟨117, _⟩ => ⟨S1, .f32⟩
  | .hbm, ⟨118, _⟩ => ⟨S1, .f32⟩
  | .hbm, ⟨119, _⟩ => ⟨S4, .f32⟩
  | .local _ .vmem, ⟨0, _⟩ => ⟨S1x9216x6, .f32⟩
  | .local _ .vmem, ⟨1, _⟩ => ⟨S1x9216x6, .f32⟩
  | .local _ .vmem, ⟨2, _⟩ => ⟨S1x9216x1, .f32⟩
  | .local _ .vmem, ⟨3, _⟩ => ⟨S1x9216x1, .f32⟩
  | .local _ .vmem, ⟨4, _⟩ => ⟨S1x9216x63, .f32⟩
  | .local _ .vmem, ⟨5, _⟩ => ⟨S1x9216x63, .f32⟩
  | .local _ .vmem, ⟨6, _⟩ => ⟨S1x32x1, .i32⟩
  | .local _ .vmem, ⟨7, _⟩ => ⟨S1x32x1, .i32⟩
  | .local _ .vmem, ⟨8, _⟩ => ⟨S1x32x8, .f32⟩
  | .local _ .vmem, ⟨9, _⟩ => ⟨S1x32x8, .f32⟩
  | .local _ .vmem, ⟨10, _⟩ => ⟨S1x32x4, .f32⟩
  | .local _ .vmem, ⟨11, _⟩ => ⟨S1x32x4, .f32⟩
  | .local _ .vmem, ⟨12, _⟩ => ⟨S1x32x63, .f32⟩
  | .local _ .vmem, ⟨13, _⟩ => ⟨S1x32x63, .f32⟩
  | .local _ .vmem, ⟨14, _⟩ => ⟨S1x32x4, .f32⟩
  | .local _ .vmem, ⟨15, _⟩ => ⟨S1x32x4, .f32⟩
  | .local _ .vmem, ⟨16, _⟩ => ⟨S1x1x8, .f32⟩
  | .local _ .vmem, ⟨17, _⟩ => ⟨S1x1x8, .f32⟩
  | .local _ .vmem, ⟨18, _⟩ => ⟨S2048x4, .f32⟩
  | .local _ .vmem, ⟨19, _⟩ => ⟨S2048x4, .f32⟩
  | .local _ .vmem, ⟨20, _⟩ => ⟨S1x1, .f32⟩
  | _, _ => ⟨S64x96x96x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62_0 : Ref sig .tc := ⟨.hbm, 77, rfl⟩
abbrev main_v62_1 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_9 : Ref sig .tc := ⟨.hbm, 103, rfl⟩
abbrev main_v86 : Ref sig .tc := ⟨.hbm, 104, rfl⟩
abbrev main_cst_10 : Ref sig .tc := ⟨.hbm, 105, rfl⟩
abbrev main_v87 : Ref sig .tc := ⟨.hbm, 106, rfl⟩
abbrev main_cst_11 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_12 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg2_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem1_0 : DmaSem sig := 19
abbrev cc1_sem2_0 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x9216x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9216x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9216x63 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x63 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![1], ![false]⟩

@[reducible] def k1_t1_loop : Scf.Loop 32 :=
  let c0_i32 : BitVec 32 := 0#32
  let c8_i32 : BitVec 32 := 8#32
  let v39 : BitVec 32 := Scalar.addi c0_i32 c8_i32
  let c1_i32 : BitVec 32 := 1#32
  ⟨c0_i32, v39, c1_i32⟩
def k1_mult1 (k1_t1 : Fin k1_t1_loop.trips) : BitVec 32 :=
  let c0_i32 : BitVec 32 := 0#32
  let c1_i32 : BitVec 32 := 1#32
  let arg4 : BitVec 32 := Scf.iv c0_i32 c1_i32 k1_t1
  let c256_i32 : BitVec 32 := 256#32
  let v42 : BitVec 32 := Scalar.muli arg4 c256_i32
  v42
def k1_off1 (k1_t1 : Fin k1_t1_loop.trips) : Fin 2 → Nat :=
  let c0_i32 : BitVec 32 := 0#32
  let c1_i32 : BitVec 32 := 1#32
  let arg4 : BitVec 32 := Scf.iv c0_i32 c1_i32 k1_t1
  let c256_i32 : BitVec 32 := 256#32
  let v42 : BitVec 32 := Scalar.muli arg4 c256_i32
  let v43 : BitVec 32 := v42
  let v44 : Index := Scalar.indexCast v43
  let c0_8 : Index := 0#32
  ![v44.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  slices_S64x32x6_S64x32x1_0_0_0 : S64x32x6.Slices ![0, 0, 0] S64x32x1
  shapeCasts_S64x32x1_S64x32 : S64x32x1.ShapeCasts S64x32
  bcast_S_S64x32 : S_.BroadcastsInDim S64x32 (![] : Fin 0 → Fin S64x32.rank)
  slices_S64x32x6_S64x32x1_0_0_1 : S64x32x6.Slices ![0, 0, 1] S64x32x1
  slices_S64x32x6_S64x32x1_0_0_2 : S64x32x6.Slices ![0, 0, 2] S64x32x1
  slices_S64x32x6_S64x32x1_0_0_3 : S64x32x6.Slices ![0, 0, 3] S64x32x1
  slices_S64x32x6_S64x32x1_0_0_4 : S64x32x6.Slices ![0, 0, 4] S64x32x1
  slices_S64x32x6_S64x32x1_0_0_5 : S64x32x6.Slices ![0, 0, 5] S64x32x1
  bcast_S64x32_S64x32x1_0_1 : S64x32.BroadcastsInDim S64x32x1 (![0, 1] : Fin 2 → Fin S64x32x1.rank)
  concatenates_S64x32x1_S64x32x1_S64x32x1_S64x32x1_S64x32x1_S64x32x1_S64x32x1_S64x32x1_S64x32x8_d2 : Shape.Concatenates [S64x32x1, S64x32x1, S64x32x1, S64x32x1, S64x32x1, S64x32x1, S64x32x1, S64x32x1] S64x32x8 2
  concatenates_S64x32x1_S64x32x1_S64x32x1_S64x32x1_S64x32x4_d2 : Shape.Concatenates [S64x32x1, S64x32x1, S64x32x1, S64x32x1] S64x32x4 2
  shapeCasts_S64x96x96x6_S64x9216x6 : S64x96x96x6.ShapeCasts S64x9216x6
  shapeCasts_S64x96x96x1_S64x9216x1 : S64x96x96x1.ShapeCasts S64x9216x1
  shapeCasts_S64x96x96x63_S64x9216x63 : S64x96x96x63.ShapeCasts S64x9216x63
  inb_S1x9216x6_S1x9216x6_0_0_0 : ∀ a, (![0, 0, 0] : Fin 3 → Nat) a + S1x9216x6.size a ≤ S1x9216x6.size a
  h_S1x9216x6 : 0 < S1x9216x6.numel
  shapeCasts_S1x9216x6_S9216x6 : S1x9216x6.ShapeCasts S9216x6
  inb_S1x9216x1_S1x9216x1_0_0_0 : ∀ a, (![0, 0, 0] : Fin 3 → Nat) a + S1x9216x1.size a ≤ S1x9216x1.size a
  h_S1x9216x1 : 0 < S1x9216x1.numel
  shapeCasts_S1x9216x1_S9216x1 : S1x9216x1.ShapeCasts S9216x1
  inb_S1x9216x63_S1x9216x63_0_0_0 : ∀ a, (![0, 0, 0] : Fin 3 → Nat) a + S1x9216x63.size a ≤ S1x9216x63.size a
  h_S1x9216x63 : 0 < S1x9216x63.numel
  shapeCasts_S1x9216x63_S9216x63 : S1x9216x63.ShapeCasts S9216x63
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  inb_S1x32x8_S1x32x8_0_0_0 : ∀ a, (![0, 0, 0] : Fin 3 → Nat) a + S1x32x8.size a ≤ S1x32x8.size a
  h_S1x32x8 : 0 < S1x32x8.numel
  shapeCasts_S1x32x8_S32x8 : S1x32x8.ShapeCasts S32x8
  inb_S1x32x63_S1x32x63_0_0_0 : ∀ a, (![0, 0, 0] : Fin 3 → Nat) a + S1x32x63.size a ≤ S1x32x63.size a
  h_S1x32x63 : 0 < S1x32x63.numel
  shapeCasts_S1x32x63_S32x63 : S1x32x63.ShapeCasts S32x63
  iota_S32x9216_d1_w32 : S32x9216.Iotas .tc 32 [1]
  broadcasts_S32x1_S32x9216 : S32x1.Broadcasts S32x9216
  natLt_1_32 : 1 < 32
  slices_S32x6_o0_0_S32x1 : S32x6.Slices ![0, 0] S32x1
  slices_S32x6_o0_1_S32x1 : S32x6.Slices ![0, 1] S32x1
  slices_S32x6_o0_2_S32x1 : S32x6.Slices ![0, 2] S32x1
  slices_S32x6_o0_3_S32x1 : S32x6.Slices ![0, 3] S32x1
  slices_S32x6_o0_4_S32x1 : S32x6.Slices ![0, 4] S32x1
  slices_S32x6_o0_5_S32x1 : S32x6.Slices ![0, 5] S32x1
  slices_S32x8_o0_0_S32x1 : S32x8.Slices ![0, 0] S32x1
  slices_S32x8_o0_1_S32x1 : S32x8.Slices ![0, 1] S32x1
  slices_S32x8_o0_2_S32x1 : S32x8.Slices ![0, 2] S32x1
  slices_S32x8_o0_3_S32x1 : S32x8.Slices ![0, 3] S32x1
  slices_S32x8_o0_4_S32x1 : S32x8.Slices ![0, 4] S32x1
  slices_S32x8_o0_5_S32x1 : S32x8.Slices ![0, 5] S32x1
  slices_S32x8_o0_6_S32x1 : S32x8.Slices ![0, 6] S32x1
  slices_S32x8_o0_7_S32x1 : S32x8.Slices ![0, 7] S32x1
  reduces_S32x1_S1 : S32x1.Reduces [0] S1
  shapeCasts_S1_S1x1 : S1.ShapeCasts S1x1
  reduces_S32x63_S32 : S32x63.Reduces [1] S32
  shapeCasts_S32_S32x1 : S32.ShapeCasts S32x1
  reduces_S32x9216_S9216 : S32x9216.Reduces [0] S9216
  shapeCasts_S9216_S1x9216 : S9216.ShapeCasts S1x9216
  reduces_S9216x1_S1 : S9216x1.Reduces [0] S1
  concatenates_S32x1_S32x1_S32x1_S32x1_S32x4_d1 : Shape.Concatenates [S32x1, S32x1, S32x1, S32x1] S32x4 1
  inb_S1x32x4_S1x32x4_0_0_0 : ∀ a, (![0, 0, 0] : Fin 3 → Nat) a + S1x32x4.size a ≤ S1x32x4.size a
  h_S1x32x4 : 0 < S1x32x4.numel
  shapeCasts_S1x32x4_S32x4 : S1x32x4.ShapeCasts S32x4
  shapeCasts_S32x4_S1x32x4 : S32x4.ShapeCasts S1x32x4
  concatenates_S1x1_S1x1_S1x1_S1x1_S1x1_S1x1_S1x1_S1x1_S1x8_d1 : Shape.Concatenates [S1x1, S1x1, S1x1, S1x1, S1x1, S1x1, S1x1, S1x1] S1x8 1
  inb_S1x1x8_S1x1x8_0_0_0 : ∀ a, (![0, 0, 0] : Fin 3 → Nat) a + S1x1x8.size a ≤ S1x1x8.size a
  h_S1x1x8 : 0 < S1x1x8.numel
  shapeCasts_S1x1x8_S1x8 : S1x1x8.ShapeCasts S1x8
  shapeCasts_S1x8_S1x1x8 : S1x8.ShapeCasts S1x1x8
  shapeCasts_S64x1x8_S64x8 : S64x1x8.ShapeCasts S64x8
  reducesTo_S64x8_S8_d0 : S64x8.ReducesTo [0] S8
  h_S_ : 0 < S_.numel
  slices_S8_S1_0 : S8.Slices ![0] S1
  shapeCasts_S1_S_ : S1.ShapeCasts S_
  slices_S8_S1_1 : S8.Slices ![1] S1
  slices_S8_S1_2 : S8.Slices ![2] S1
  slices_S8_S1_3 : S8.Slices ![3] S1
  slices_S8_S1_4 : S8.Slices ![4] S1
  slices_S8_S1_5 : S8.Slices ![5] S1
  slices_S8_S1_6 : S8.Slices ![6] S1
  slices_S8_S1_7 : S8.Slices ![7] S1
  shapeCasts_S64x32x4_S2048x4 : S64x32x4.ShapeCasts S2048x4
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  slices_S2048x4_o0_0_S2048x1 : S2048x4.Slices ![0, 0] S2048x1
  shapeCasts_S2048x1_S2048 : S2048x1.ShapeCasts S2048
  slices_S2048x4_o0_1_S2048x1 : S2048x4.Slices ![0, 1] S2048x1
  slices_S2048x4_o0_2_S2048x1 : S2048x4.Slices ![0, 2] S2048x1
  slices_S2048x4_o0_3_S2048x1 : S2048x4.Slices ![0, 3] S2048x1
  shapeCasts_S2048_S2048x1 : S2048.ShapeCasts S2048x1
  concatenates_S2048x1_S2048x1_S2048x1_S2048x1_S2048x4_d1 : Shape.Concatenates [S2048x1, S2048x1, S2048x1, S2048x1] S2048x4 1
  transposes_S2048x1_p1_0_S1x2048 : S2048x1.Transposes [1, 0] S1x2048
  h_S256x4 : 0 < S256x4.numel
  shapeCasts_S256x4_S256x4 : S256x4.ShapeCasts S256x4
  slices_S256x4_o0_0_S256x1 : S256x4.Slices ![0, 0] S256x1
  shapeCasts_S256x1_S256 : S256x1.ShapeCasts S256
  slices_S256x4_o0_1_S256x1 : S256x4.Slices ![0, 1] S256x1
  slices_S256x4_o0_2_S256x1 : S256x4.Slices ![0, 2] S256x1
  slices_S256x4_o0_3_S256x1 : S256x4.Slices ![0, 3] S256x1
  shapeCasts_S256_S256x1 : S256.ShapeCasts S256x1
  concatenates_S256x1_S256x1_S256x1_S256x1_S256x4_d1 : Shape.Concatenates [S256x1, S256x1, S256x1, S256x1] S256x4 1
  broadcasts_S256x1_S256x2048 : S256x1.Broadcasts S256x2048
  broadcasts_S1x2048_S256x2048 : S1x2048.Broadcasts S256x2048
  reduces_S256x2048_S256 : S256x2048.Reduces [1] S256
  reduces_S256x1_S1 : S256x1.Reduces [0] S1
  inb_S1x1_S1x1_0_0 : ∀ a, (![0, 0] : Fin 2 → Nat) a + S1x1.size a ≤ S1x1.size a
  h_S1x1 : 0 < S1x1.numel
  shapeCasts_S1x1_S_ : S1x1.ShapeCasts S_
  bcast_S_S1 : S_.BroadcastsInDim S1 (![] : Fin 0 → Fin S1.rank)
  concatenates_S1_S1_S1_S1_S4_d0 : Shape.Concatenates [S1, S1, S1, S1] S4 0
  dot_S32x9216_S9216x6_S32x6_1_0_0_1_n_n_wf : DotDims.WF S32x9216 S9216x6 S32x6 [1] [0] [0] [1] [] []
  dot_S32x9216_S9216x63_S32x63_1_0_0_1_n_n_wf : DotDims.WF S32x9216 S9216x63 S32x63 [1] [0] [0] [1] [] []
  dot_S1x9216_S9216x1_S1x1_1_0_0_1_n_n_wf : DotDims.WF S1x9216 S9216x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9216x6.size a ≤ S64x9216x6.size a
  hwx0_0 : ∀ i : grid0.Coords, EltTy.bits .f32 = 32 ∨ (Rect.block (s := S64x9216x6) S1x9216x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x9216x1.size a ≤ S64x9216x1.size a
  hwx0_1 : ∀ i : grid0.Coords, EltTy.bits .f32 = 32 ∨ (Rect.block (s := S64x9216x1) S1x9216x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x9216x63.size a ≤ S64x9216x63.size a
  hwx0_2 : ∀ i : grid0.Coords, EltTy.bits .f32 = 32 ∨ (Rect.block (s := S64x9216x63) S1x9216x63.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x1.size a ≤ S64x32x1.size a
  hwx0_3 : ∀ i : grid0.Coords, EltTy.bits .i32 = 32 ∨ (Rect.block (s := S64x32x1) S1x32x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x8.size a ≤ S64x32x8.size a
  hwx0_4 : ∀ i : grid0.Coords, EltTy.bits .f32 = 32 ∨ (Rect.block (s := S64x32x8) S1x32x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x4.size a ≤ S64x32x4.size a
  hwx0_5 : ∀ i : grid0.Coords, EltTy.bits .f32 = 32 ∨ (Rect.block (s := S64x32x4) S1x32x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x63.size a ≤ S64x32x63.size a
  hwx0_6 : ∀ i : grid0.Coords, EltTy.bits .f32 = 32 ∨ (Rect.block (s := S64x32x63) S1x32x63.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x4.size a ≤ S64x32x4.size a
  hwx0_7 : ∀ i : grid0.Coords, EltTy.bits .f32 = 32 ∨ (Rect.block (s := S64x32x4) S1x32x4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x8.size a ≤ S64x1x8.size a
  hwx0_8 : ∀ i : grid0.Coords, EltTy.bits .f32 = 32 ∨ (Rect.block (s := S64x1x8) S1x1x8.size (cc0_transform_8 i) (hinb0_8 i)).WholeWords (EltTy.packing .f32)
  hrank1 : 0 < grid1.rank
  k1_t1_ok : k1_t1_loop.OK
  k1_mult1_dvd : ∀ k1_t1 : Fin k1_t1_loop.trips, 256 ∣ (k1_mult1 k1_t1).toNat
  k1_off1_inb : ∀ k1_t1 : Fin k1_t1_loop.trips, ∀ a, (k1_off1 k1_t1) a + S256x4.size a ≤ S2048x4.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x4.size a ≤ S2048x4.size a
  hwx1_0 : ∀ i : grid1.Coords, EltTy.bits .f32 = 32 ∨ (Rect.block (s := S2048x4) S2048x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x4.size a ≤ S2048x4.size a
  hwx1_1 : ∀ i : grid1.Coords, EltTy.bits .f32 = 32 ∨ (Rect.block (s := S2048x4) S2048x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S32x9216_S9216x6_S32x6_1_0_0_1_n_n : DotDims S32x9216 S9216x6 S32x6 where
  lhsContracting := [1]
  rhsContracting := [0]
  lhsNonContracting := [0]
  rhsNonContracting := [1]
  lhsBatch := []
  rhsBatch := []
  wf := dot_S32x9216_S9216x6_S32x6_1_0_0_1_n_n_wf
def dot_S32x9216_S9216x63_S32x63_1_0_0_1_n_n : DotDims S32x9216 S9216x63 S32x63 where
  lhsContracting := [1]
  rhsContracting := [0]
  lhsNonContracting := [0]
  rhsNonContracting := [1]
  lhsBatch := []
  rhsBatch := []
  wf := dot_S32x9216_S9216x63_S32x63_1_0_0_1_n_n_wf
def dot_S1x9216_S9216x1_S1x1_1_0_0_1_n_n : DotDims S1x9216 S9216x1 S1x1 where
  lhsContracting := [1]
  rhsContracting := [0]
  lhsNonContracting := [0]
  rhsNonContracting := [1]
  lhsBatch := []
  rhsBatch := []
  wf := dot_S1x9216_S9216x1_S1x1_1_0_0_1_n_n_wf

abbrev win0_0 : Pipeline.Window sig grid0 :=
  Pipeline.Window.ofSpec (Memref.whole main_v59) S1x9216x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S1x9216x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v61) S1x9216x63.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v58) S1x32x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v52) S1x32x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v57) S1x32x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1x32x63.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v62_0) S1x32x4.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v62_1) S1x1x8.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v89) S2048x4.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v90) S2048x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v91) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x96x96x6 : Shape := ⟨4, ![64, 96, 96, 6]⟩
abbrev S64x96x96x1 : Shape := ⟨4, ![64, 96, 96, 1]⟩
abbrev S64x96x96x63 : Shape := ⟨4, ![64, 96, 96, 63]⟩
abbrev S64x32x6 : Shape := ⟨3, ![64, 32, 6]⟩
abbrev S64x32x63 : Shape := ⟨3, ![64, 32, 63]⟩
abbrev S64x96x96 : Shape := ⟨3, ![64, 96, 96]⟩
abbrev S64x32x1 : Shape := ⟨3, ![64, 32, 1]⟩
abbrev S64x32 : Shape := ⟨2, ![64, 32]⟩
abbrev S_ : Shape := ⟨0, ![]⟩
abbrev S64 : Shape := ⟨1, ![64]⟩
abbrev S64x1 : Shape := ⟨2, ![64, 1]⟩
abbrev S64x32x3 : Shape := ⟨3, ![64, 32, 3]⟩
abbrev S64x32x4 : Shape := ⟨3, ![64, 32, 4]⟩
abbrev S2048x4 : Shape := ⟨2, ![2048, 4]⟩
abbrev S2048x1 : Shape := ⟨2, ![2048, 1]⟩
abbrev S2048 : Shape := ⟨1, ![2048]⟩
abbrev S2048x2 : Shape := ⟨2, ![2048, 2]⟩
abbrev S2048x1x2 : Shape := ⟨3, ![2048, 1, 2]⟩
abbrev S1x2048x2 : Shape := ⟨3, ![1, 2048, 2]⟩
abbrev S2048x2048x2 : Shape := ⟨3, ![2048, 2048, 2]⟩
abbrev S2048x2048x1 : Shape := ⟨3, ![2048, 2048, 1]⟩
abbrev S2048x2048 : Shape := ⟨2, ![2048, 2048]⟩
abbrev S1x2048 : Shape := ⟨2, ![1, 2048]⟩
abbrev S1 : Shape := ⟨1, ![1]⟩
abbrev S4 : Shape := ⟨1, ![4]⟩

abbrev nBuf : Space → Nat
  | .hbm => 524
  | .vmem => 0
  | .smem => 0
  | _ => 0

abbrev hbmTy0_0 (i : Nat) : BufTy := match i % 128 with
  | 0 => ⟨S64x96x96x6, .f32⟩
  | 1 => ⟨S64x96x96x1, .f32⟩
  | 2 => ⟨S64x96x96x63, .f32⟩
  | 3 => ⟨S64x32x6, .f32⟩
  | 4 => ⟨S64x32x63, .f32⟩
  | 5 => ⟨S64x96x96x1, .f32⟩
  | 6 => ⟨S64x96x96, .f32⟩
  | 7 => ⟨S64x96x96x1, .f32⟩
  | 8 => ⟨S64x96x96, .f32⟩
  | 9 => ⟨S64x96x96x1, .f32⟩
  | 10 => ⟨S64x96x96, .f32⟩
  | 11 => ⟨S64x96x96x1, .f32⟩
  | 12 => ⟨S64x96x96, .f32⟩
  | 13 => ⟨S64x96x96x1, .f32⟩
  | 14 => ⟨S64x96x96, .f32⟩
  | 15 => ⟨S64x96x96x1, .f32⟩
  | 16 => ⟨S64x96x96, .f32⟩
  | 17 => ⟨S64x96x96, .f32⟩
  | 18 => ⟨S64x32x1, .f32⟩
  | 19 => ⟨S64x32, .f32⟩
  | 20 => ⟨S_, .f32⟩
  | 21 => ⟨S64x32, .f32⟩
  | 22 => ⟨S64x32, .f32⟩
  | 23 => ⟨S64x32x1, .f32⟩
  | 24 => ⟨S64x32, .f32⟩
  | 25 => ⟨S_, .f32⟩
  | 26 => ⟨S64x32, .f32⟩
  | 27 => ⟨S64x32, .f32⟩
  | 28 => ⟨S64x32x1, .f32⟩
  | 29 => ⟨S64x32, .f32⟩
  | 30 => ⟨S64x32x1, .f32⟩
  | 31 => ⟨S64x32, .f32⟩
  | 32 => ⟨S_, .f32⟩
  | 33 => ⟨S64x32, .f32⟩
  | 34 => ⟨S64x32, .f32⟩
  | 35 => ⟨S64x32x1, .f32⟩
  | 36 => ⟨S64x32, .f32⟩
  | 37 => ⟨S_, .f32⟩
  | 38 => ⟨S64x32, .f32⟩
  | 39 => ⟨S64x32, .f32⟩
  | 40 => ⟨S64x32x1, .f32⟩
  | 41 => ⟨S64x32, .f32⟩
  | 42 => ⟨S64x32, .i32⟩
  | 43 => ⟨S64x32, .i32⟩
  | 44 => ⟨S64, .i32⟩
  | 45 => ⟨S64x1, .i32⟩
  | 46 => ⟨S_, .i32⟩
  | 47 => ⟨S64x1, .i32⟩
  | 48 => ⟨S64x1, .i1⟩
  | 49 => ⟨S_, .i32⟩
  | 50 => ⟨S64x1, .i32⟩
  | 51 => ⟨S64x1, .i32⟩
  | 52 => ⟨S64x1, .i32⟩
  | 53 => ⟨S_, .i32⟩
  | 54 => ⟨S64x32, .i32⟩
  | 55 => ⟨S64x32, .i1⟩
  | 56 => ⟨S_, .i32⟩
  | 57 => ⟨S64x32, .i32⟩
  | 58 => ⟨S64x32, .i32⟩
  | 59 => ⟨S64x32, .i32⟩
  | 60 => ⟨S_, .i32⟩
  | 61 => ⟨S64x32, .i32⟩
  | 62 => ⟨S64x32, .i1⟩
  | 63 => ⟨S_, .i32⟩
  | 64 => ⟨S64x32, .i32⟩
  | 65 => ⟨S64x32, .i32⟩
  | 66 => ⟨S64x32, .i32⟩
  | 67 => ⟨S64x32, .i32⟩
  | 68 => ⟨S64x32x1, .i32⟩
  | 69 => ⟨S64x32x1, .i32⟩
  | 70 => ⟨S64x32x1, .i32⟩
  | 71 => ⟨S64x32x3, .i32⟩
  | 72 => ⟨S64x32, .f32⟩
  | 73 => ⟨S_, .i32⟩
  | 74 => ⟨S64x1, .i32⟩
  | 75 => ⟨S64x1, .i1⟩
  | 76 => ⟨S_, .i32⟩
  | 77 => ⟨S64x1, .i32⟩
  | 78 => ⟨S64x1, .i32⟩
  | 79 => ⟨S64x1, .i32⟩
  | 80 => ⟨S_, .i32⟩
  | 81 => ⟨S64x32, .i32⟩
  | 82 => ⟨S64x32, .i1⟩
  | 83 => ⟨S_, .i32⟩
  | 84 => ⟨S64x32, .i32⟩
  | 85 => ⟨S64x32, .i32⟩
  | 86 => ⟨S64x32, .i32⟩
  | 87 => ⟨S_, .i32⟩
  | 88 => ⟨S64x32, .i32⟩
  | 89 => ⟨S64x32, .i1⟩
  | 90 => ⟨S_, .i32⟩
  | 91 => ⟨S64x32, .i32⟩
  | 92 => ⟨S64x32, .i32⟩
  | 93 => ⟨S64x32, .i32⟩
  | 94 => ⟨S64x32, .i32⟩
  | 95 => ⟨S64x32x1, .i32⟩
  | 96 => ⟨S64x32x1, .i32⟩
  | 97 => ⟨S64x32x1, .i32⟩
  | 98 => ⟨S64x32x3, .i32⟩
  | 99 => ⟨S64x32, .f32⟩
  | 100 => ⟨S_, .i32⟩
  | 101 => ⟨S64x1, .i32⟩
  | 102 => ⟨S64x1, .i1⟩
  | 103 => ⟨S_, .i32⟩
  | 104 => ⟨S64x1, .i32⟩
  | 105 => ⟨S64x1, .i32⟩
  | 106 => ⟨S64x1, .i32⟩
  | 107 => ⟨S_, .i32⟩
  | 108 => ⟨S64x32, .i32⟩
  | 109 => ⟨S64x32, .i1⟩
  | 110 => ⟨S_, .i32⟩
  | 111 => ⟨S64x32, .i32⟩
  | 112 => ⟨S64x32, .i32⟩
  | 113 => ⟨S64x32, .i32⟩
  | 114 => ⟨S_, .i32⟩
  | 115 => ⟨S64x32, .i32⟩
  | 116 => ⟨S64x32, .i1⟩
  | 117 => ⟨S_, .i32⟩
  | 118 => ⟨S64x32, .i32⟩
  | 119 => ⟨S64x32, .i32⟩
  | 120 => ⟨S64x32, .i32⟩
  | 121 => ⟨S64x32, .i32⟩
  | 122 => ⟨S64x32x1, .i32⟩
  | 123 => ⟨S64x32x1, .i32⟩
  | 124 => ⟨S64x32x1, .i32⟩
  | 125 => ⟨S64x32x3, .i32⟩
  | 126 => ⟨S64x32, .f32⟩
  | 127 => ⟨S_, .i32⟩
  | _ => ⟨S64x96x96x6, .f32⟩

abbrev hbmTy0_1 (i : Nat) : BufTy := match i % 128 with
  | 0 => ⟨S64x1, .i32⟩
  | 1 => ⟨S64x1, .i1⟩
  | 2 => ⟨S_, .i32⟩
  | 3 => ⟨S64x1, .i32⟩
  | 4 => ⟨S64x1, .i32⟩
  | 5 => ⟨S64x1, .i32⟩
  | 6 => ⟨S_, .i32⟩
  | 7 => ⟨S64x32, .i32⟩
  | 8 => ⟨S64x32, .i1⟩
  | 9 => ⟨S_, .i32⟩
  | 10 => ⟨S64x32, .i32⟩
  | 11 => ⟨S64x32, .i32⟩
  | 12 => ⟨S64x32, .i32⟩
  | 13 => ⟨S_, .i32⟩
  | 14 => ⟨S64x32, .i32⟩
  | 15 => ⟨S64x32, .i1⟩
  | 16 => ⟨S_, .i32⟩
  | 17 => ⟨S64x32, .i32⟩
  | 18 => ⟨S64x32, .i32⟩
  | 19 => ⟨S64x32, .i32⟩
  | 20 => ⟨S64x32, .i32⟩
  | 21 => ⟨S64x32x1, .i32⟩
  | 22 => ⟨S64x32x1, .i32⟩
  | 23 => ⟨S64x32x1, .i32⟩
  | 24 => ⟨S64x32x3, .i32⟩
  | 25 => ⟨S64x32, .f32⟩
  | 26 => ⟨S_, .i32⟩
  | 27 => ⟨S64x1, .i32⟩
  | 28 => ⟨S64x1, .i1⟩
  | 29 => ⟨S_, .i32⟩
  | 30 => ⟨S64x1, .i32⟩
  | 31 => ⟨S64x1, .i32⟩
  | 32 => ⟨S64x1, .i32⟩
  | 33 => ⟨S_, .i32⟩
  | 34 => ⟨S64x32, .i32⟩
  | 35 => ⟨S64x32, .i1⟩
  | 36 => ⟨S_, .i32⟩
  | 37 => ⟨S64x32, .i32⟩
  | 38 => ⟨S64x32, .i32⟩
  | 39 => ⟨S64x32, .i32⟩
  | 40 => ⟨S_, .i32⟩
  | 41 => ⟨S64x32, .i32⟩
  | 42 => ⟨S64x32, .i1⟩
  | 43 => ⟨S_, .i32⟩
  | 44 => ⟨S64x32, .i32⟩
  | 45 => ⟨S64x32, .i32⟩
  | 46 => ⟨S64x32, .i32⟩
  | 47 => ⟨S64x32, .i32⟩
  | 48 => ⟨S64x32x1, .i32⟩
  | 49 => ⟨S64x32x1, .i32⟩
  | 50 => ⟨S64x32x1, .i32⟩
  | 51 => ⟨S64x32x3, .i32⟩
  | 52 => ⟨S64x32, .f32⟩
  | 53 => ⟨S_, .i32⟩
  | 54 => ⟨S64x1, .i32⟩
  | 55 => ⟨S64x1, .i1⟩
  | 56 => ⟨S_, .i32⟩
  | 57 => ⟨S64x1, .i32⟩
  | 58 => ⟨S64x1, .i32⟩
  | 59 => ⟨S64x1, .i32⟩
  | 60 => ⟨S_, .i32⟩
  | 61 => ⟨S64x32, .i32⟩
  | 62 => ⟨S64x32, .i1⟩
  | 63 => ⟨S_, .i32⟩
  | 64 => ⟨S64x32, .i32⟩
  | 65 => ⟨S64x32, .i32⟩
  | 66 => ⟨S64x32, .i32⟩
  | 67 => ⟨S_, .i32⟩
  | 68 => ⟨S64x32, .i32⟩
  | 69 => ⟨S64x32, .i1⟩
  | 70 => ⟨S_, .i32⟩
  | 71 => ⟨S64x32, .i32⟩
  | 72 => ⟨S64x32, .i32⟩
  | 73 => ⟨S64x32, .i32⟩
  | 74 => ⟨S64x32, .i32⟩
  | 75 => ⟨S64x32x1, .i32⟩
  | 76 => ⟨S64x32x1, .i32⟩
  | 77 => ⟨S64x32x1, .i32⟩
  | 78 => ⟨S64x32x3, .i32⟩
  | 79 => ⟨S64x32, .f32⟩
  | 80 => ⟨S_, .i32⟩
  | 81 => ⟨S64x1, .i32⟩
  | 82 => ⟨S64x1, .i1⟩
  | 83 => ⟨S_, .i32⟩
  | 84 => ⟨S64x1, .i32⟩
  | 85 => ⟨S64x1, .i32⟩
  | 86 => ⟨S64x1, .i32⟩
  | 87 => ⟨S_, .i32⟩
  | 88 => ⟨S64x32, .i32⟩
  | 89 => ⟨S64x32, .i1⟩
  | 90 => ⟨S_, .i32⟩
  | 91 => ⟨S64x32, .i32⟩
  | 92 => ⟨S64x32, .i32⟩
  | 93 => ⟨S64x32, .i32⟩
  | 94 => ⟨S_, .i32⟩
  | 95 => ⟨S64x32, .i32⟩
  | 96 => ⟨S64x32, .i1⟩
  | 97 => ⟨S_, .i32⟩
  | 98 => ⟨S64x32, .i32⟩
  | 99 => ⟨S64x32, .i32⟩
  | 100 => ⟨S64x32, .i32⟩
  | 101 => ⟨S64x32, .i32⟩
  | 102 => ⟨S64x32x1, .i32⟩
  | 103 => ⟨S64x32x1, .i32⟩
  | 104 => ⟨S64x32x1, .i32⟩
  | 105 => ⟨S64x32x3, .i32⟩
  | 106 => ⟨S64x32x63, .f32⟩
  | 107 => ⟨S64x32, .f32⟩
  | 108 => ⟨S64x32, .f32⟩
  | 109 => ⟨S64x32, .f32⟩
  | 110 => ⟨S64x32, .f32⟩
  | 111 => ⟨S_, .f32⟩
  | 112 => ⟨S64x32, .f32⟩
  | 113 => ⟨S64x32, .f32⟩
  | 114 => ⟨S_, .f32⟩
  | 115 => ⟨S64x32, .f32⟩
  | 116 => ⟨S64x32, .f32⟩
  | 117 => ⟨S64x32, .f32⟩
  | 118 => ⟨S_, .f32⟩
  | 119 => ⟨S64x32, .f32⟩
  | 120 => ⟨S64x32, .f32⟩
  | 121 => ⟨S_, .f32⟩
  | 122 => ⟨S64x32, .f32⟩
  | 123 => ⟨S64x32, .f32⟩
  | 124 => ⟨S64x32, .f32⟩
  | 125 => ⟨S_, .f32⟩
  | 126 => ⟨S64x32, .f32⟩
  | 127 => ⟨S64x32, .f32⟩
  | _ => ⟨S64x96x96x6, .f32⟩

abbrev hbmTy0_2 (i : Nat) : BufTy := match i % 128 with
  | 0 => ⟨S64x32, .f32⟩
  | 1 => ⟨S64x32, .f32⟩
  | 2 => ⟨S64x32, .f32⟩
  | 3 => ⟨S_, .f32⟩
  | 4 => ⟨S_, .f32⟩
  | 5 => ⟨S_, .f32⟩
  | 6 => ⟨S_, .f32⟩
  | 7 => ⟨S64x32, .f32⟩
  | 8 => ⟨S64x32, .f32⟩
  | 9 => ⟨S_, .f32⟩
  | 10 => ⟨S_, .f32⟩
  | 11 => ⟨S_, .f32⟩
  | 12 => ⟨S_, .f32⟩
  | 13 => ⟨S_, .f32⟩
  | 14 => ⟨S64x32, .f32⟩
  | 15 => ⟨S64x32, .f32⟩
  | 16 => ⟨S_, .f32⟩
  | 17 => ⟨S_, .f32⟩
  | 18 => ⟨S_, .f32⟩
  | 19 => ⟨S_, .f32⟩
  | 20 => ⟨S_, .f32⟩
  | 21 => ⟨S64x32, .f32⟩
  | 22 => ⟨S64x32, .f32⟩
  | 23 => ⟨S_, .f32⟩
  | 24 => ⟨S_, .f32⟩
  | 25 => ⟨S_, .f32⟩
  | 26 => ⟨S_, .f32⟩
  | 27 => ⟨S_, .f32⟩
  | 28 => ⟨S64x32, .f32⟩
  | 29 => ⟨S64x32, .f32⟩
  | 30 => ⟨S_, .f32⟩
  | 31 => ⟨S_, .f32⟩
  | 32 => ⟨S_, .f32⟩
  | 33 => ⟨S_, .f32⟩
  | 34 => ⟨S_, .f32⟩
  | 35 => ⟨S64x32, .f32⟩
  | 36 => ⟨S64x32, .f32⟩
  | 37 => ⟨S_, .f32⟩
  | 38 => ⟨S_, .f32⟩
  | 39 => ⟨S_, .f32⟩
  | 40 => ⟨S_, .f32⟩
  | 41 => ⟨S_, .f32⟩
  | 42 => ⟨S64x32x63, .f32⟩
  | 43 => ⟨S64x32x63, .f32⟩
  | 44 => ⟨S_, .f32⟩
  | 45 => ⟨S_, .f32⟩
  | 46 => ⟨S_, .f32⟩
  | 47 => ⟨S_, .f32⟩
  | 48 => ⟨S_, .f32⟩
  | 49 => ⟨S64x96x96, .f32⟩
  | 50 => ⟨S_, .i32⟩
  | 51 => ⟨S64x1, .i32⟩
  | 52 => ⟨S64x1, .i1⟩
  | 53 => ⟨S_, .i32⟩
  | 54 => ⟨S64x1, .i32⟩
  | 55 => ⟨S64x1, .i32⟩
  | 56 => ⟨S64x1, .i32⟩
  | 57 => ⟨S_, .i32⟩
  | 58 => ⟨S64x32, .i32⟩
  | 59 => ⟨S64x32, .i1⟩
  | 60 => ⟨S_, .i32⟩
  | 61 => ⟨S64x32, .i32⟩
  | 62 => ⟨S64x32, .i32⟩
  | 63 => ⟨S64x32, .i32⟩
  | 64 => ⟨S_, .i32⟩
  | 65 => ⟨S64x32, .i32⟩
  | 66 => ⟨S64x32, .i1⟩
  | 67 => ⟨S_, .i32⟩
  | 68 => ⟨S64x32, .i32⟩
  | 69 => ⟨S64x32, .i32⟩
  | 70 => ⟨S64x32, .i32⟩
  | 71 => ⟨S64x32, .i32⟩
  | 72 => ⟨S64x32x1, .i32⟩
  | 73 => ⟨S64x32x1, .i32⟩
  | 74 => ⟨S64x32x1, .i32⟩
  | 75 => ⟨S64x32x3, .i32⟩
  | 76 => ⟨S_, .f32⟩
  | 77 => ⟨S64x32, .f32⟩
  | 78 => ⟨S64x96x96, .f32⟩
  | 79 => ⟨S_, .f32⟩
  | 80 => ⟨S64x96x96, .f32⟩
  | 81 => ⟨S64x96x96, .f32⟩
  | 82 => ⟨S64x96x96, .f32⟩
  | 83 => ⟨S_, .f32⟩
  | 84 => ⟨S64x96x96, .f32⟩
  | 85 => ⟨S64x96x96, .f32⟩
  | 86 => ⟨S64x96x96, .f32⟩
  | 87 => ⟨S64x96x96, .f32⟩
  | 88 => ⟨S64x96x96, .i1⟩
  | 89 => ⟨S64x96x96, .f32⟩
  | 90 => ⟨S64x96x96, .f32⟩
  | 91 => ⟨S64x96x96, .f32⟩
  | 92 => ⟨S64x96x96, .f32⟩
  | 93 => ⟨S64x96x96, .f32⟩
  | 94 => ⟨S64x96x96, .f32⟩
  | 95 => ⟨S64x96x96, .f32⟩
  | 96 => ⟨S64x96x96, .f32⟩
  | 97 => ⟨S64x96x96, .f32⟩
  | 98 => ⟨S_, .f32⟩
  | 99 => ⟨S64x96x96, .f32⟩
  | 100 => ⟨S64x96x96, .f32⟩
  | 101 => ⟨S_, .f32⟩
  | 102 => ⟨S64x96x96, .f32⟩
  | 103 => ⟨S64x96x96, .f32⟩
  | 104 => ⟨S64x96x96, .f32⟩
  | 105 => ⟨S64x96x96, .f32⟩
  | 106 => ⟨S64x96x96, .i1⟩
  | 107 => ⟨S64x96x96, .f32⟩
  | 108 => ⟨S64x96x96, .f32⟩
  | 109 => ⟨S64x96x96, .f32⟩
  | 110 => ⟨S64x96x96, .f32⟩
  | 111 => ⟨S64x96x96, .f32⟩
  | 112 => ⟨S64x96x96, .f32⟩
  | 113 => ⟨S64x96x96, .f32⟩
  | 114 => ⟨S64x96x96, .f32⟩
  | 115 => ⟨S64x96x96, .f32⟩
  | 116 => ⟨S64x96x96, .f32⟩
  | 117 => ⟨S_, .f32⟩
  | 118 => ⟨S_, .f32⟩
  | 119 => ⟨S_, .f32⟩
  | 120 => ⟨S_, .f32⟩
  | 121 => ⟨S64x32, .f32⟩
  | 122 => ⟨S64x32, .f32⟩
  | 123 => ⟨S64x32, .f32⟩
  | 124 => ⟨S64x32, .f32⟩
  | 125 => ⟨S64x32, .f32⟩
  | 126 => ⟨S_, .f32⟩
  | 127 => ⟨S64x32, .f32⟩
  | _ => ⟨S64x96x96x6, .f32⟩

abbrev hbmTy0_3 (i : Nat) : BufTy := match i % 128 with
  | 0 => ⟨S64x32, .f32⟩
  | 1 => ⟨S64x32, .f32⟩
  | 2 => ⟨S_, .f32⟩
  | 3 => ⟨S64x32, .f32⟩
  | 4 => ⟨S64x32, .f32⟩
  | 5 => ⟨S64x32x1, .f32⟩
  | 6 => ⟨S64x32x1, .f32⟩
  | 7 => ⟨S64x32x1, .f32⟩
  | 8 => ⟨S64x32x1, .f32⟩
  | 9 => ⟨S64x32x4, .f32⟩
  | 10 => ⟨S2048x4, .f32⟩
  | 11 => ⟨S64x32x1, .f32⟩
  | 12 => ⟨S64x32x1, .f32⟩
  | 13 => ⟨S64x32x1, .f32⟩
  | 14 => ⟨S64x32x1, .f32⟩
  | 15 => ⟨S64x32x4, .f32⟩
  | 16 => ⟨S2048x4, .f32⟩
  | 17 => ⟨S2048x1, .f32⟩
  | 18 => ⟨S2048, .f32⟩
  | 19 => ⟨S2048x1, .f32⟩
  | 20 => ⟨S2048, .f32⟩
  | 21 => ⟨S2048x1, .f32⟩
  | 22 => ⟨S2048, .f32⟩
  | 23 => ⟨S2048x1, .f32⟩
  | 24 => ⟨S2048, .f32⟩
  | 25 => ⟨S_, .f32⟩
  | 26 => ⟨S2048, .f32⟩
  | 27 => ⟨S2048, .f32⟩
  | 28 => ⟨S2048, .f32⟩
  | 29 => ⟨S_, .f32⟩
  | 30 => ⟨S2048, .f32⟩
  | 31 => ⟨S2048, .f32⟩
  | 32 => ⟨S2048, .f32⟩
  | 33 => ⟨S_, .f32⟩
  | 34 => ⟨S2048, .f32⟩
  | 35 => ⟨S2048, .f32⟩
  | 36 => ⟨S2048, .f32⟩
  | 37 => ⟨S_, .f32⟩
  | 38 => ⟨S2048, .f32⟩
  | 39 => ⟨S2048, .f32⟩
  | 40 => ⟨S2048, .f32⟩
  | 41 => ⟨S2048x1, .f32⟩
  | 42 => ⟨S2048x1, .f32⟩
  | 43 => ⟨S2048x1, .f32⟩
  | 44 => ⟨S2048x1, .f32⟩
  | 45 => ⟨S2048x4, .f32⟩
  | 46 => ⟨S2048x1, .f32⟩
  | 47 => ⟨S2048, .f32⟩
  | 48 => ⟨S2048x1, .f32⟩
  | 49 => ⟨S2048, .f32⟩
  | 50 => ⟨S2048x1, .f32⟩
  | 51 => ⟨S2048, .f32⟩
  | 52 => ⟨S2048x1, .f32⟩
  | 53 => ⟨S2048, .f32⟩
  | 54 => ⟨S_, .f32⟩
  | 55 => ⟨S2048, .f32⟩
  | 56 => ⟨S2048, .f32⟩
  | 57 => ⟨S2048, .f32⟩
  | 58 => ⟨S_, .f32⟩
  | 59 => ⟨S2048, .f32⟩
  | 60 => ⟨S2048, .f32⟩
  | 61 => ⟨S2048, .f32⟩
  | 62 => ⟨S_, .f32⟩
  | 63 => ⟨S2048, .f32⟩
  | 64 => ⟨S2048, .f32⟩
  | 65 => ⟨S2048, .f32⟩
  | 66 => ⟨S_, .f32⟩
  | 67 => ⟨S2048, .f32⟩
  | 68 => ⟨S2048, .f32⟩
  | 69 => ⟨S2048, .f32⟩
  | 70 => ⟨S2048x1, .f32⟩
  | 71 => ⟨S2048x1, .f32⟩
  | 72 => ⟨S2048x1, .f32⟩
  | 73 => ⟨S2048x1, .f32⟩
  | 74 => ⟨S2048x4, .f32⟩
  | 75 => ⟨S2048x1, .f32⟩
  | 76 => ⟨S2048, .f32⟩
  | 77 => ⟨S2048x1, .f32⟩
  | 78 => ⟨S2048, .f32⟩
  | 79 => ⟨S2048, .f32⟩
  | 80 => ⟨S2048x1, .f32⟩
  | 81 => ⟨S2048, .f32⟩
  | 82 => ⟨S2048x1, .f32⟩
  | 83 => ⟨S2048, .f32⟩
  | 84 => ⟨S2048, .f32⟩
  | 85 => ⟨S2048, .f32⟩
  | 86 => ⟨S2048x1, .f32⟩
  | 87 => ⟨S2048, .f32⟩
  | 88 => ⟨S2048x1, .f32⟩
  | 89 => ⟨S2048, .f32⟩
  | 90 => ⟨S2048, .f32⟩
  | 91 => ⟨S2048x1, .f32⟩
  | 92 => ⟨S2048, .f32⟩
  | 93 => ⟨S2048x1, .f32⟩
  | 94 => ⟨S2048, .f32⟩
  | 95 => ⟨S2048, .f32⟩
  | 96 => ⟨S2048, .f32⟩
  | 97 => ⟨S2048x2, .f32⟩
  | 98 => ⟨S2048x1x2, .f32⟩
  | 99 => ⟨S2048x2, .f32⟩
  | 100 => ⟨S1x2048x2, .f32⟩
  | 101 => ⟨S2048x2048x2, .f32⟩
  | 102 => ⟨S2048x2048x2, .f32⟩
  | 103 => ⟨S2048x2048x2, .f32⟩
  | 104 => ⟨S2048x2, .f32⟩
  | 105 => ⟨S2048x1x2, .f32⟩
  | 106 => ⟨S2048x2, .f32⟩
  | 107 => ⟨S1x2048x2, .f32⟩
  | 108 => ⟨S2048x2048x2, .f32⟩
  | 109 => ⟨S2048x2048x2, .f32⟩
  | 110 => ⟨S2048x2048x2, .f32⟩
  | 111 => ⟨S2048x2048x2, .f32⟩
  | 112 => ⟨S_, .f32⟩
  | 113 => ⟨S_, .f32⟩
  | 114 => ⟨S2048x2048x2, .f32⟩
  | 115 => ⟨S2048x2048x2, .f32⟩
  | 116 => ⟨S2048x2048x1, .f32⟩
  | 117 => ⟨S2048x2048, .f32⟩
  | 118 => ⟨S2048x2048x1, .f32⟩
  | 119 => ⟨S2048x2048, .f32⟩
  | 120 => ⟨S2048x2048, .f32⟩
  | 121 => ⟨S2048x1, .f32⟩
  | 122 => ⟨S1x2048, .f32⟩
  | 123 => ⟨S2048x2048, .f32⟩
  | 124 => ⟨S2048x2048, .f32⟩
  | 125 => ⟨S2048x2048, .f32⟩
  | 126 => ⟨S2048x2048, .f32⟩
  | 127 => ⟨S2048x2048, .f32⟩
  | _ => ⟨S64x96x96x6, .f32⟩

abbrev hbmTy0_4 (i : Nat) : BufTy := match i % 128 with
  | 0 => ⟨S_, .f32⟩
  | 1 => ⟨S2048x2048, .f32⟩
  | 2 => ⟨S2048x2048, .f32⟩
  | 3 => ⟨S_, .f32⟩
  | 4 => ⟨S_, .f32⟩
  | 5 => ⟨S_, .f32⟩
  | 6 => ⟨S_, .f32⟩
  | 7 => ⟨S1, .f32⟩
  | 8 => ⟨S1, .f32⟩
  | 9 => ⟨S1, .f32⟩
  | 10 => ⟨S1, .f32⟩
  | 11 => ⟨S4, .f32⟩
  | _ => ⟨S64x96x96x6, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x96x96x6, .f32⟩

abbrev bufTy : (tb : Table) → Fin (tcTables nBuf tb) → BufTy
  | .hbm, ⟨i, _⟩ => hbmTy i
  | _, _ => ⟨S64x96x96x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_4 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_6 : Ref sig .tc := ⟨.hbm, 60, rfl⟩
abbrev main_v47 : Ref sig .tc := ⟨.hbm, 61, rfl⟩
abbrev main_v48 : Ref sig .tc := ⟨.hbm, 62, rfl⟩
abbrev main_c_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_8 : Ref sig .tc := ⟨.hbm, 73, rfl⟩
abbrev main_v58 : Ref sig .tc := ⟨.hbm, 74, rfl⟩
abbrev main_v59 : Ref sig .tc := ⟨.hbm, 75, rfl⟩
abbrev main_c_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_10 : Ref sig .tc := ⟨.hbm, 80, rfl⟩
abbrev main_v63 : Ref sig .tc := ⟨.hbm, 81, rfl⟩
abbrev main_v64 : Ref sig .tc := ⟨.hbm, 82, rfl⟩
abbrev main_c_11 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c_12 : Ref sig .tc := ⟨.hbm, 87, rfl⟩
abbrev main_v68 : Ref sig .tc := ⟨.hbm, 88, rfl⟩
abbrev main_v69 : Ref sig .tc := ⟨.hbm, 89, rfl⟩
abbrev main_c_13 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_14 : Ref sig .tc := ⟨.hbm, 100, rfl⟩
abbrev main_v79 : Ref sig .tc := ⟨.hbm, 101, rfl⟩
abbrev main_v80 : Ref sig .tc := ⟨.hbm, 102, rfl⟩
abbrev main_c_15 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_16 : Ref sig .tc := ⟨.hbm, 107, rfl⟩
abbrev main_v84 : Ref sig .tc := ⟨.hbm, 108, rfl⟩
abbrev main_v85 : Ref sig .tc := ⟨.hbm, 109, rfl⟩
abbrev main_c_17 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_18 : Ref sig .tc := ⟨.hbm, 114, rfl⟩
abbrev main_v89 : Ref sig .tc := ⟨.hbm, 115, rfl⟩
abbrev main_v90 : Ref sig .tc := ⟨.hbm, 116, rfl⟩
abbrev main_c_19 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_c_20 : Ref sig .tc := ⟨.hbm, 127, rfl⟩
abbrev main_v100 : Ref sig .tc := ⟨.hbm, 128, rfl⟩
abbrev main_v101 : Ref sig .tc := ⟨.hbm, 129, rfl⟩
abbrev main_c_21 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_c_22 : Ref sig .tc := ⟨.hbm, 134, rfl⟩
abbrev main_v105 : Ref sig .tc := ⟨.hbm, 135, rfl⟩
abbrev main_v106 : Ref sig .tc := ⟨.hbm, 136, rfl⟩
abbrev main_c_23 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_c_24 : Ref sig .tc := ⟨.hbm, 141, rfl⟩
abbrev main_v110 : Ref sig .tc := ⟨.hbm, 142, rfl⟩
abbrev main_v111 : Ref sig .tc := ⟨.hbm, 143, rfl⟩
abbrev main_c_25 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_c_26 : Ref sig .tc := ⟨.hbm, 154, rfl⟩
abbrev main_v121 : Ref sig .tc := ⟨.hbm, 155, rfl⟩
abbrev main_v122 : Ref sig .tc := ⟨.hbm, 156, rfl⟩
abbrev main_c_27 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_c_28 : Ref sig .tc := ⟨.hbm, 161, rfl⟩
abbrev main_v126 : Ref sig .tc := ⟨.hbm, 162, rfl⟩
abbrev main_v127 : Ref sig .tc := ⟨.hbm, 163, rfl⟩
abbrev main_c_29 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_c_30 : Ref sig .tc := ⟨.hbm, 168, rfl⟩
abbrev main_v131 : Ref sig .tc := ⟨.hbm, 169, rfl⟩
abbrev main_v132 : Ref sig .tc := ⟨.hbm, 170, rfl⟩
abbrev main_c_31 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_c_32 : Ref sig .tc := ⟨.hbm, 181, rfl⟩
abbrev main_v142 : Ref sig .tc := ⟨.hbm, 182, rfl⟩
abbrev main_v143 : Ref sig .tc := ⟨.hbm, 183, rfl⟩
abbrev main_c_33 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_c_34 : Ref sig .tc := ⟨.hbm, 188, rfl⟩
abbrev main_v147 : Ref sig .tc := ⟨.hbm, 189, rfl⟩
abbrev main_v148 : Ref sig .tc := ⟨.hbm, 190, rfl⟩
abbrev main_c_35 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_c_36 : Ref sig .tc := ⟨.hbm, 195, rfl⟩
abbrev main_v152 : Ref sig .tc := ⟨.hbm, 196, rfl⟩
abbrev main_v153 : Ref sig .tc := ⟨.hbm, 197, rfl⟩
abbrev main_c_37 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_c_38 : Ref sig .tc := ⟨.hbm, 208, rfl⟩
abbrev main_v163 : Ref sig .tc := ⟨.hbm, 209, rfl⟩
abbrev main_v164 : Ref sig .tc := ⟨.hbm, 210, rfl⟩
abbrev main_c_39 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_c_40 : Ref sig .tc := ⟨.hbm, 215, rfl⟩
abbrev main_v168 : Ref sig .tc := ⟨.hbm, 216, rfl⟩
abbrev main_v169 : Ref sig .tc := ⟨.hbm, 217, rfl⟩
abbrev main_c_41 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_c_42 : Ref sig .tc := ⟨.hbm, 222, rfl⟩
abbrev main_v173 : Ref sig .tc := ⟨.hbm, 223, rfl⟩
abbrev main_v174 : Ref sig .tc := ⟨.hbm, 224, rfl⟩
abbrev main_c_43 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_cst_44 : Ref sig .tc := ⟨.hbm, 239, rfl⟩
abbrev main_v188 : Ref sig .tc := ⟨.hbm, 240, rfl⟩
abbrev main_v189 : Ref sig .tc := ⟨.hbm, 241, rfl⟩
abbrev main_cst_45 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_cst_46 : Ref sig .tc := ⟨.hbm, 246, rfl⟩
abbrev main_v193 : Ref sig .tc := ⟨.hbm, 247, rfl⟩
abbrev main_v194 : Ref sig .tc := ⟨.hbm, 248, rfl⟩
abbrev main_cst_47 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_cst_48 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_cst_49 : Ref sig .tc := ⟨.hbm, 259, rfl⟩
abbrev main_v203 : Ref sig .tc := ⟨.hbm, 260, rfl⟩
abbrev main_cst_50 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_cst_51 : Ref sig .tc := ⟨.hbm, 265, rfl⟩
abbrev main_v207 : Ref sig .tc := ⟨.hbm, 266, rfl⟩
abbrev main_cst_52 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_cst_53 : Ref sig .tc := ⟨.hbm, 272, rfl⟩
abbrev main_v212 : Ref sig .tc := ⟨.hbm, 273, rfl⟩
abbrev main_cst_54 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_cst_55 : Ref sig .tc := ⟨.hbm, 279, rfl⟩
abbrev main_v217 : Ref sig .tc := ⟨.hbm, 280, rfl⟩
abbrev main_cst_56 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_cst_57 : Ref sig .tc := ⟨.hbm, 286, rfl⟩
abbrev main_v222 : Ref sig .tc := ⟨.hbm, 287, rfl⟩
abbrev main_cst_58 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_cst_59 : Ref sig .tc := ⟨.hbm, 293, rfl⟩
abbrev main_v227 : Ref sig .tc := ⟨.hbm, 294, rfl⟩
abbrev main_cst_60 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_cst_61 : Ref sig .tc := ⟨.hbm, 300, rfl⟩
abbrev main_v232 : Ref sig .tc := ⟨.hbm, 301, rfl⟩
abbrev main_cst_62 : Ref sig .tc := ⟨.hbm, 302, rfl⟩
abbrev main_v233 : Ref sig .tc := ⟨.hbm, 303, rfl⟩
abbrev main_cst_63 : Ref sig .tc := ⟨.hbm, 304, rfl⟩
abbrev main_v234 : Ref sig .tc := ⟨.hbm, 305, rfl⟩
abbrev main_c_64 : Ref sig .tc := ⟨.hbm, 306, rfl⟩
abbrev main_v235 : Ref sig .tc := ⟨.hbm, 307, rfl⟩
abbrev main_v236 : Ref sig .tc := ⟨.hbm, 308, rfl⟩
abbrev main_c_65 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_c_66 : Ref sig .tc := ⟨.hbm, 313, rfl⟩
abbrev main_v240 : Ref sig .tc := ⟨.hbm, 314, rfl⟩
abbrev main_v241 : Ref sig .tc := ⟨.hbm, 315, rfl⟩
abbrev main_c_67 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_c_68 : Ref sig .tc := ⟨.hbm, 320, rfl⟩
abbrev main_v245 : Ref sig .tc := ⟨.hbm, 321, rfl⟩
abbrev main_v246 : Ref sig .tc := ⟨.hbm, 322, rfl⟩
abbrev main_c_69 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_cst_70 : Ref sig .tc := ⟨.hbm, 332, rfl⟩
abbrev main_v255 : Ref sig .tc := ⟨.hbm, 333, rfl⟩
abbrev main_v256 : Ref sig .tc := ⟨.hbm, 334, rfl⟩
abbrev main_cst_71 : Ref sig .tc := ⟨.hbm, 335, rfl⟩
abbrev main_v257 : Ref sig .tc := ⟨.hbm, 336, rfl⟩
abbrev main_v258 : Ref sig .tc := ⟨.hbm, 337, rfl⟩
abbrev main_v259 : Ref sig .tc := ⟨.hbm, 338, rfl⟩
abbrev main_call0_cst : Ref sig .tc := ⟨.hbm, 339, rfl⟩
abbrev main_call0_v0 : Ref sig .tc := ⟨.hbm, 340, rfl⟩
abbrev main_call0_v1 : Ref sig .tc := ⟨.hbm, 341, rfl⟩
abbrev main_call0_v2 : Ref sig .tc := ⟨.hbm, 342, rfl⟩
abbrev main_call0_v3 : Ref sig .tc := ⟨.hbm, 343, rfl⟩
abbrev main_call0_v4 : Ref sig .tc := ⟨.hbm, 344, rfl⟩
abbrev main_call0_v5 : Ref sig .tc := ⟨.hbm, 345, rfl⟩
abbrev main_call0_v6 : Ref sig .tc := ⟨.hbm, 346, rfl⟩
abbrev main_call0_v7 : Ref sig .tc := ⟨.hbm, 347, rfl⟩
abbrev main_call0_v8 : Ref sig .tc := ⟨.hbm, 348, rfl⟩
abbrev main_call0_v9 : Ref sig .tc := ⟨.hbm, 349, rfl⟩
abbrev main_call0_v10 : Ref sig .tc := ⟨.hbm, 350, rfl⟩
abbrev main_call0_v11 : Ref sig .tc := ⟨.hbm, 351, rfl⟩
abbrev main_v260 : Ref sig .tc := ⟨.hbm, 352, rfl⟩
abbrev main_v261 : Ref sig .tc := ⟨.hbm, 353, rfl⟩
abbrev main_cst_72 : Ref sig .tc := ⟨.hbm, 354, rfl⟩
abbrev main_v262 : Ref sig .tc := ⟨.hbm, 355, rfl⟩
abbrev main_v263 : Ref sig .tc := ⟨.hbm, 356, rfl⟩
abbrev main_call1_cst : Ref sig .tc := ⟨.hbm, 357, rfl⟩
abbrev main_call1_v0 : Ref sig .tc := ⟨.hbm, 358, rfl⟩
abbrev main_call1_v1 : Ref sig .tc := ⟨.hbm, 359, rfl⟩
abbrev main_call1_v2 : Ref sig .tc := ⟨.hbm, 360, rfl⟩
abbrev main_call1_v3 : Ref sig .tc := ⟨.hbm, 361, rfl⟩
abbrev main_call1_v4 : Ref sig .tc := ⟨.hbm, 362, rfl⟩
abbrev main_call1_v5 : Ref sig .tc := ⟨.hbm, 363, rfl⟩
abbrev main_call1_v6 : Ref sig .tc := ⟨.hbm, 364, rfl⟩
abbrev main_call1_v7 : Ref sig .tc := ⟨.hbm, 365, rfl⟩
abbrev main_call1_v8 : Ref sig .tc := ⟨.hbm, 366, rfl⟩
abbrev main_call1_v9 : Ref sig .tc := ⟨.hbm, 367, rfl⟩
abbrev main_call1_v10 : Ref sig .tc := ⟨.hbm, 368, rfl⟩
abbrev main_call1_v11 : Ref sig .tc := ⟨.hbm, 369, rfl⟩
abbrev main_v264 : Ref sig .tc := ⟨.hbm, 370, rfl⟩
abbrev main_v265 : Ref sig .tc := ⟨.hbm, 371, rfl⟩
abbrev main_v266 : Ref sig .tc := ⟨.hbm, 372, rfl⟩
abbrev main_cst_73 : Ref sig .tc := ⟨.hbm, 373, rfl⟩
abbrev main_v267 : Ref sig .tc := ⟨.hbm, 374, rfl⟩
abbrev main_cst_74 : Ref sig .tc := ⟨.hbm, 375, rfl⟩
abbrev main_v268 : Ref sig .tc := ⟨.hbm, 376, rfl⟩
abbrev main_v269 : Ref sig .tc := ⟨.hbm, 377, rfl⟩
abbrev main_v270 : Ref sig .tc := ⟨.hbm, 378, rfl⟩
abbrev main_v271 : Ref sig .tc := ⟨.hbm, 379, rfl⟩
abbrev main_v272 : Ref sig .tc := ⟨.hbm, 380, rfl⟩
abbrev main_v273 : Ref sig .tc := ⟨.hbm, 381, rfl⟩
abbrev main_cst_75 : Ref sig .tc := ⟨.hbm, 382, rfl⟩
abbrev main_v274 : Ref sig .tc := ⟨.hbm, 383, rfl⟩
abbrev main_v275 : Ref sig .tc := ⟨.hbm, 384, rfl⟩
abbrev main_v276 : Ref sig .tc := ⟨.hbm, 385, rfl⟩
abbrev main_cst_76 : Ref sig .tc := ⟨.hbm, 386, rfl⟩
abbrev main_v277 : Ref sig .tc := ⟨.hbm, 387, rfl⟩
abbrev main_v278 : Ref sig .tc := ⟨.hbm, 388, rfl⟩
abbrev main_v279 : Ref sig .tc := ⟨.hbm, 389, rfl⟩
abbrev main_v280 : Ref sig .tc := ⟨.hbm, 390, rfl⟩
abbrev main_v281 : Ref sig .tc := ⟨.hbm, 391, rfl⟩
abbrev main_v282 : Ref sig .tc := ⟨.hbm, 392, rfl⟩
abbrev main_v283 : Ref sig .tc := ⟨.hbm, 393, rfl⟩
abbrev main_v284 : Ref sig .tc := ⟨.hbm, 394, rfl⟩
abbrev main_v285 : Ref sig .tc := ⟨.hbm, 395, rfl⟩
abbrev main_v286 : Ref sig .tc := ⟨.hbm, 396, rfl⟩
abbrev main_v287 : Ref sig .tc := ⟨.hbm, 397, rfl⟩
abbrev main_v288 : Ref sig .tc := ⟨.hbm, 398, rfl⟩
abbrev main_v289 : Ref sig .tc := ⟨.hbm, 399, rfl⟩
abbrev main_v290 : Ref sig .tc := ⟨.hbm, 400, rfl⟩
abbrev main_v291 : Ref sig .tc := ⟨.hbm, 401, rfl⟩
abbrev main_v292 : Ref sig .tc := ⟨.hbm, 402, rfl⟩
abbrev main_v293 : Ref sig .tc := ⟨.hbm, 403, rfl⟩
abbrev main_v294 : Ref sig .tc := ⟨.hbm, 404, rfl⟩
abbrev main_v295 : Ref sig .tc := ⟨.hbm, 405, rfl⟩
abbrev main_v296 : Ref sig .tc := ⟨.hbm, 406, rfl⟩
abbrev main_v297 : Ref sig .tc := ⟨.hbm, 407, rfl⟩
abbrev main_v298 : Ref sig .tc := ⟨.hbm, 408, rfl⟩
abbrev main_cst_77 : Ref sig .tc := ⟨.hbm, 409, rfl⟩
abbrev main_v299 : Ref sig .tc := ⟨.hbm, 410, rfl⟩
abbrev main_v300 : Ref sig .tc := ⟨.hbm, 411, rfl⟩
abbrev main_v301 : Ref sig .tc := ⟨.hbm, 412, rfl⟩
abbrev main_cst_78 : Ref sig .tc := ⟨.hbm, 413, rfl⟩
abbrev main_v302 : Ref sig .tc := ⟨.hbm, 414, rfl⟩
abbrev main_v303 : Ref sig .tc := ⟨.hbm, 415, rfl⟩
abbrev main_v304 : Ref sig .tc := ⟨.hbm, 416, rfl⟩
abbrev main_cst_79 : Ref sig .tc := ⟨.hbm, 417, rfl⟩
abbrev main_v305 : Ref sig .tc := ⟨.hbm, 418, rfl⟩
abbrev main_v306 : Ref sig .tc := ⟨.hbm, 419, rfl⟩
abbrev main_v307 : Ref sig .tc := ⟨.hbm, 420, rfl⟩
abbrev main_cst_80 : Ref sig .tc := ⟨.hbm, 421, rfl⟩
abbrev main_v308 : Ref sig .tc := ⟨.hbm, 422, rfl⟩
abbrev main_v309 : Ref sig .tc := ⟨.hbm, 423, rfl⟩
abbrev main_v310 : Ref sig .tc := ⟨.hbm, 424, rfl⟩
abbrev main_v311 : Ref sig .tc := ⟨.hbm, 425, rfl⟩
abbrev main_v312 : Ref sig .tc := ⟨.hbm, 426, rfl⟩
abbrev main_v313 : Ref sig .tc := ⟨.hbm, 427, rfl⟩
abbrev main_v314 : Ref sig .tc := ⟨.hbm, 428, rfl⟩
abbrev main_v315 : Ref sig .tc := ⟨.hbm, 429, rfl⟩
abbrev main_v316 : Ref sig .tc := ⟨.hbm, 430, rfl⟩
abbrev main_v317 : Ref sig .tc := ⟨.hbm, 431, rfl⟩
abbrev main_v318 : Ref sig .tc := ⟨.hbm, 432, rfl⟩
abbrev main_v319 : Ref sig .tc := ⟨.hbm, 433, rfl⟩
abbrev main_v320 : Ref sig .tc := ⟨.hbm, 434, rfl⟩
abbrev main_v321 : Ref sig .tc := ⟨.hbm, 435, rfl⟩
abbrev main_v322 : Ref sig .tc := ⟨.hbm, 436, rfl⟩
abbrev main_v323 : Ref sig .tc := ⟨.hbm, 437, rfl⟩
abbrev main_cst_81 : Ref sig .tc := ⟨.hbm, 438, rfl⟩
abbrev main_v324 : Ref sig .tc := ⟨.hbm, 439, rfl⟩
abbrev main_v325 : Ref sig .tc := ⟨.hbm, 440, rfl⟩
abbrev main_v326 : Ref sig .tc := ⟨.hbm, 441, rfl⟩
abbrev main_cst_82 : Ref sig .tc := ⟨.hbm, 442, rfl⟩
abbrev main_v327 : Ref sig .tc := ⟨.hbm, 443, rfl⟩
abbrev main_v328 : Ref sig .tc := ⟨.hbm, 444, rfl⟩
abbrev main_v329 : Ref sig .tc := ⟨.hbm, 445, rfl⟩
abbrev main_cst_83 : Ref sig .tc := ⟨.hbm, 446, rfl⟩
abbrev main_v330 : Ref sig .tc := ⟨.hbm, 447, rfl⟩
abbrev main_v331 : Ref sig .tc := ⟨.hbm, 448, rfl⟩
abbrev main_v332 : Ref sig .tc := ⟨.hbm, 449, rfl⟩
abbrev main_cst_84 : Ref sig .tc := ⟨.hbm, 450, rfl⟩
abbrev main_v333 : Ref sig .tc := ⟨.hbm, 451, rfl⟩
abbrev main_v334 : Ref sig .tc := ⟨.hbm, 452, rfl⟩
abbrev main_v335 : Ref sig .tc := ⟨.hbm, 453, rfl⟩
abbrev main_v336 : Ref sig .tc := ⟨.hbm, 454, rfl⟩
abbrev main_v337 : Ref sig .tc := ⟨.hbm, 455, rfl⟩
abbrev main_v338 : Ref sig .tc := ⟨.hbm, 456, rfl⟩
abbrev main_v339 : Ref sig .tc := ⟨.hbm, 457, rfl⟩
abbrev main_v340 : Ref sig .tc := ⟨.hbm, 458, rfl⟩
abbrev main_v341 : Ref sig .tc := ⟨.hbm, 459, rfl⟩
abbrev main_v342 : Ref sig .tc := ⟨.hbm, 460, rfl⟩
abbrev main_v343 : Ref sig .tc := ⟨.hbm, 461, rfl⟩
abbrev main_v344 : Ref sig .tc := ⟨.hbm, 462, rfl⟩
abbrev main_v345 : Ref sig .tc := ⟨.hbm, 463, rfl⟩
abbrev main_v346 : Ref sig .tc := ⟨.hbm, 464, rfl⟩
abbrev main_v347 : Ref sig .tc := ⟨.hbm, 465, rfl⟩
abbrev main_v348 : Ref sig .tc := ⟨.hbm, 466, rfl⟩
abbrev main_v349 : Ref sig .tc := ⟨.hbm, 467, rfl⟩
abbrev main_v350 : Ref sig .tc := ⟨.hbm, 468, rfl⟩
abbrev main_v351 : Ref sig .tc := ⟨.hbm, 469, rfl⟩
abbrev main_v352 : Ref sig .tc := ⟨.hbm, 470, rfl⟩
abbrev main_v353 : Ref sig .tc := ⟨.hbm, 471, rfl⟩
abbrev main_v354 : Ref sig .tc := ⟨.hbm, 472, rfl⟩
abbrev main_v355 : Ref sig .tc := ⟨.hbm, 473, rfl⟩
abbrev main_v356 : Ref sig .tc := ⟨.hbm, 474, rfl⟩
abbrev main_v357 : Ref sig .tc := ⟨.hbm, 475, rfl⟩
abbrev main_v358 : Ref sig .tc := ⟨.hbm, 476, rfl⟩
abbrev main_v359 : Ref sig .tc := ⟨.hbm, 477, rfl⟩
abbrev main_v360 : Ref sig .tc := ⟨.hbm, 478, rfl⟩
abbrev main_v361 : Ref sig .tc := ⟨.hbm, 479, rfl⟩
abbrev main_v362 : Ref sig .tc := ⟨.hbm, 480, rfl⟩
abbrev main_v363 : Ref sig .tc := ⟨.hbm, 481, rfl⟩
abbrev main_v364 : Ref sig .tc := ⟨.hbm, 482, rfl⟩
abbrev main_v365 : Ref sig .tc := ⟨.hbm, 483, rfl⟩
abbrev main_v366 : Ref sig .tc := ⟨.hbm, 484, rfl⟩
abbrev main_v367 : Ref sig .tc := ⟨.hbm, 485, rfl⟩
abbrev main_v368 : Ref sig .tc := ⟨.hbm, 486, rfl⟩
abbrev main_v369 : Ref sig .tc := ⟨.hbm, 487, rfl⟩
abbrev main_v370 : Ref sig .tc := ⟨.hbm, 488, rfl⟩
abbrev main_v371 : Ref sig .tc := ⟨.hbm, 489, rfl⟩
abbrev main_v372 : Ref sig .tc := ⟨.hbm, 490, rfl⟩
abbrev main_v373 : Ref sig .tc := ⟨.hbm, 491, rfl⟩
abbrev main_v374 : Ref sig .tc := ⟨.hbm, 492, rfl⟩
abbrev main_v375 : Ref sig .tc := ⟨.hbm, 493, rfl⟩
abbrev main_v376 : Ref sig .tc := ⟨.hbm, 494, rfl⟩
abbrev main_v377 : Ref sig .tc := ⟨.hbm, 495, rfl⟩
abbrev main_cst_85 : Ref sig .tc := ⟨.hbm, 496, rfl⟩
abbrev main_call2_v0 : Ref sig .tc := ⟨.hbm, 497, rfl⟩
abbrev main_call2_v1 : Ref sig .tc := ⟨.hbm, 498, rfl⟩
abbrev main_v378 : Ref sig .tc := ⟨.hbm, 499, rfl⟩
abbrev main_v379 : Ref sig .tc := ⟨.hbm, 500, rfl⟩
abbrev main_v380 : Ref sig .tc := ⟨.hbm, 501, rfl⟩
abbrev main_v381 : Ref sig .tc := ⟨.hbm, 502, rfl⟩
abbrev main_v382 : Ref sig .tc := ⟨.hbm, 503, rfl⟩
abbrev main_v383 : Ref sig .tc := ⟨.hbm, 504, rfl⟩
abbrev main_v384 : Ref sig .tc := ⟨.hbm, 505, rfl⟩
abbrev main_v385 : Ref sig .tc := ⟨.hbm, 506, rfl⟩
abbrev main_v386 : Ref sig .tc := ⟨.hbm, 507, rfl⟩
abbrev main_v387 : Ref sig .tc := ⟨.hbm, 508, rfl⟩
abbrev main_v388 : Ref sig .tc := ⟨.hbm, 509, rfl⟩
abbrev main_v389 : Ref sig .tc := ⟨.hbm, 510, rfl⟩
abbrev main_v390 : Ref sig .tc := ⟨.hbm, 511, rfl⟩
abbrev main_cst_86 : Ref sig .tc := ⟨.hbm, 512, rfl⟩
abbrev main_v391 : Ref sig .tc := ⟨.hbm, 513, rfl⟩
abbrev main_v392 : Ref sig .tc := ⟨.hbm, 514, rfl⟩
abbrev main_cst_87 : Ref sig .tc := ⟨.hbm, 515, rfl⟩
abbrev main_v393 : Ref sig .tc := ⟨.hbm, 516, rfl⟩
abbrev main_cst_88 : Ref sig .tc := ⟨.hbm, 517, rfl⟩
abbrev main_v394 : Ref sig .tc := ⟨.hbm, 518, rfl⟩
abbrev main_v395 : Ref sig .tc := ⟨.hbm, 519, rfl⟩
abbrev main_v396 : Ref sig .tc := ⟨.hbm, 520, rfl⟩
abbrev main_v397 : Ref sig .tc := ⟨.hbm, 521, rfl⟩
abbrev main_v398 : Ref sig .tc := ⟨.hbm, 522, rfl⟩
abbrev main_v399 : Ref sig .tc := ⟨.hbm, 523, rfl⟩

abbrev nD : Nat := 1
abbrev τ : Topo := Topo.v7x

variable {F : FTy → Type} [FloatOps F]

class Facts₀ : Prop where
  slices_S64x96x96x6_S64x96x96x1_0_0_0_0 : S64x96x96x6.Slices ![0, 0, 0, 0] S64x96x96x1
  shapeCasts_S64x96x96x1_S64x96x96 : S64x96x96x1.ShapeCasts S64x96x96
  slices_S64x96x96x6_S64x96x96x1_0_0_0_1 : S64x96x96x6.Slices ![0, 0, 0, 1] S64x96x96x1
  slices_S64x96x96x6_S64x96x96x1_0_0_0_2 : S64x96x96x6.Slices ![0, 0, 0, 2] S64x96x96x1
  slices_S64x96x96x6_S64x96x96x1_0_0_0_3 : S64x96x96x6.Slices ![0, 0, 0, 3] S64x96x96x1
  slices_S64x96x96x6_S64x96x96x1_0_0_0_4 : S64x96x96x6.Slices ![0, 0, 0, 4] S64x96x96x1
  slices_S64x96x96x6_S64x96x96x1_0_0_0_5 : S64x96x96x6.Slices ![0, 0, 0, 5] S64x96x96x1
  slices_S64x32x6_S64x32x1_0_0_0 : S64x32x6.Slices ![0, 0, 0] S64x32x1
  shapeCasts_S64x32x1_S64x32 : S64x32x1.ShapeCasts S64x32
  bcast_S_S64x32 : S_.BroadcastsInDim S64x32 (![] : Fin 0 → Fin S64x32.rank)
  slices_S64x32x6_S64x32x1_0_0_1 : S64x32x6.Slices ![0, 0, 1] S64x32x1
  slices_S64x32x6_S64x32x1_0_0_2 : S64x32x6.Slices ![0, 0, 2] S64x32x1
  slices_S64x32x6_S64x32x1_0_0_3 : S64x32x6.Slices ![0, 0, 3] S64x32x1
  slices_S64x32x6_S64x32x1_0_0_4 : S64x32x6.Slices ![0, 0, 4] S64x32x1
  slices_S64x32x6_S64x32x1_0_0_5 : S64x32x6.Slices ![0, 0, 5] S64x32x1
  bcast_S64_S64x1_0 : S64.BroadcastsInDim S64x1 (![0] : Fin 1 → Fin S64x1.rank)
  bcast_S_S64x1 : S_.BroadcastsInDim S64x1 (![] : Fin 0 → Fin S64x1.rank)
  bcast_S64x1_S64x32_0_1 : S64x1.BroadcastsInDim S64x32 (![0, 1] : Fin 2 → Fin S64x32.rank)
  bcast_S64x32_S64x32x1_0_1 : S64x32.BroadcastsInDim S64x32x1 (![0, 1] : Fin 2 → Fin S64x32x1.rank)
  concatenates_S64x32x1_S64x32x1_S64x32x1_S64x32x3_d2 : Shape.Concatenates [S64x32x1, S64x32x1, S64x32x1] S64x32x3 2
  reducesTo_S64x32_S_d0_1 : S64x32.ReducesTo [0, 1] S_
  h_S_ : 0 < S_.numel
  reducesTo_S64x32x63_S_d0_1_2 : S64x32x63.ReducesTo [0, 1, 2] S_
  bcast_S_S64x96x96 : S_.BroadcastsInDim S64x96x96 (![] : Fin 0 → Fin S64x96x96.rank)
  reducesTo_S64x96x96_S_d0_1_2 : S64x96x96.ReducesTo [0, 1, 2] S_
  concatenates_S64x32x1_S64x32x1_S64x32x1_S64x32x1_S64x32x4_d2 : Shape.Concatenates [S64x32x1, S64x32x1, S64x32x1, S64x32x1] S64x32x4 2
  shapeCasts_S64x32x4_S2048x4 : S64x32x4.ShapeCasts S2048x4
  slices_S2048x4_S2048x1_0_0 : S2048x4.Slices ![0, 0] S2048x1
  shapeCasts_S2048x1_S2048 : S2048x1.ShapeCasts S2048
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x1_S2048x1_S2048x4_d1 : Shape.Concatenates [S2048x1, S2048x1, S2048x1, S2048x1] S2048x4 1
  slices_S2048x4_S2048x2_0_0 : S2048x4.Slices ![0, 0] S2048x2
  bcast_S2048x2_S2048x1x2_0_2 : S2048x2.BroadcastsInDim S2048x1x2 (![0, 2] : Fin 2 → Fin S2048x1x2.rank)
  bcast_S2048x2_S1x2048x2_1_2 : S2048x2.BroadcastsInDim S1x2048x2 (![1, 2] : Fin 2 → Fin S1x2048x2.rank)
  bcast_S2048x1x2_S2048x2048x2_0_1_2 : S2048x1x2.BroadcastsInDim S2048x2048x2 (![0, 1, 2] : Fin 3 → Fin S2048x2048x2.rank)
  bcast_S1x2048x2_S2048x2048x2_0_1_2 : S1x2048x2.BroadcastsInDim S2048x2048x2 (![0, 1, 2] : Fin 3 → Fin S2048x2048x2.rank)
  slices_S2048x4_S2048x2_0_2 : S2048x4.Slices ![0, 2] S2048x2
  bcast_S_S2048x2048x2 : S_.BroadcastsInDim S2048x2048x2 (![] : Fin 0 → Fin S2048x2048x2.rank)
  slices_S2048x2048x2_S2048x2048x1_0_0_0 : S2048x2048x2.Slices ![0, 0, 0] S2048x2048x1
  shapeCasts_S2048x2048x1_S2048x2048 : S2048x2048x1.ShapeCasts S2048x2048
  slices_S2048x2048x2_S2048x2048x1_0_0_1 : S2048x2048x2.Slices ![0, 0, 1] S2048x2048x1
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  reducesTo_S2048x2048_S_d0_1 : S2048x2048.ReducesTo [0, 1] S_
  bcast_S_S1 : S_.BroadcastsInDim S1 (![] : Fin 0 → Fin S1.rank)
  concatenates_S1_S1_S1_S1_S4_d0 : Shape.Concatenates [S1, S1, S1, S1] S4 0
  gather_S64x96x96_S64x32x3_S64x32_n_012_n_n_012_2_111_wf : GatherDims.WF S64x96x96 S64x32x3 S64x32 [] [0, 1, 2] [] [0, 1, 2] [] 2 ![1, 1, 1]
  gather_S64x96x96x63_S64x32x3_S64x32x63_2_012_n_n_012_2_11163_wf : GatherDims.WF S64x96x96x63 S64x32x3 S64x32x63 [2] [0, 1, 2] [] [0, 1, 2] [] 2 ![1, 1, 1, 63]
  scatter_S64x96x96_S64x32x3_S64x32_n_012_012_2_wf : ScatterDims.WF S64x96x96 S64x32x3 S64x32 [] [0, 1, 2] [0, 1, 2] 2

variable [Facts₀]

def gather_S64x96x96_S64x32x3_S64x32_n_012_n_n_012_2_111 : GatherDims S64x96x96 S64x32x3 S64x32 where
  offsetDims := []
  collapsedSliceDims := [0, 1, 2]
  operandBatchingDims := []
  startIndicesBatchingDims := []
  startIndexMap := [0, 1, 2]
  indexVectorDim := 2
  sliceSizes := ![1, 1, 1]
  wf := gather_S64x96x96_S64x32x3_S64x32_n_012_n_n_012_2_111_wf
def gather_S64x96x96x63_S64x32x3_S64x32x63_2_012_n_n_012_2_11163 : GatherDims S64x96x96x63 S64x32x3 S64x32x63 where
  offsetDims := [2]
  collapsedSliceDims := [0, 1, 2]
  operandBatchingDims := []
  startIndicesBatchingDims := []
  startIndexMap := [0, 1, 2]
  indexVectorDim := 2
  sliceSizes := ![1, 1, 1, 63]
  wf := gather_S64x96x96x63_S64x32x3_S64x32x63_2_012_n_n_012_2_11163_wf
def scatter_S64x96x96_S64x32x3_S64x32_n_012_012_2 : ScatterDims S64x96x96 S64x32x3 S64x32 where
  updateWindowDims := []
  insertedWindowDims := [0, 1, 2]
  scatterDimsToOperandDims := [0, 1, 2]
  indexVectorDim := 2
  wf := scatter_S64x96x96_S64x32x3_S64x32_n_012_012_2_wf

class Facts : Prop extends Facts₀ where

variable [Facts]
-- ==== Proof.K.Body0.lean ====
import proofs.«431468_j28140625724039_3_alg».proof.Proof.Gen.Kernel.Launch
import proofs.«431468_j28140625724039_3_alg».proof.Proof.Gen.Kernel.Skeleton
import proofs.«431468_j28140625724039_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x9216x6 := Rect.unit (s := S1x9216x6) ![0, 0, 0] S1x9216x6.size inb_S1x9216x6_S1x9216x6_0_0_0
abbrev r0_1 : Rect S1x9216x1 := Rect.unit (s := S1x9216x1) ![0, 0, 0] S1x9216x1.size inb_S1x9216x1_S1x9216x1_0_0_0
abbrev r0_2 : Rect S1x9216x63 := Rect.unit (s := S1x9216x63) ![0, 0, 0] S1x9216x63.size inb_S1x9216x63_S1x9216x63_0_0_0
abbrev r0_3 : Rect S1x32x1 := Rect.unit (s := S1x32x1) ![0, 0, 0] S1x32x1.size inb_S1x32x1_S1x32x1_0_0_0
abbrev r0_4 : Rect S1x32x8 := Rect.unit (s := S1x32x8) ![0, 0, 0] S1x32x8.size inb_S1x32x8_S1x32x8_0_0_0
abbrev r0_6 : Rect S1x32x63 := Rect.unit (s := S1x32x63) ![0, 0, 0] S1x32x63.size inb_S1x32x63_S1x32x63_0_0_0
abbrev r0_7 : Rect S1x32x4 := Rect.unit (s := S1x32x4) ![0, 0, 0] S1x32x4.size inb_S1x32x4_S1x32x4_0_0_0
abbrev r0_8 : Rect S1x1x8 := Rect.unit (s := S1x1x8) ![0, 0, 0] S1x1x8.size inb_S1x1x8_S1x1x8_0_0_0

def out0_7 (x0 : Vec F S1x9216x6 .f32) (x3 : Vec F S1x32x1 .i32) (x4 : Vec F S1x32x8 .f32) : Vec F S1x32x4 .f32 :=
  View.canon [⟨r0_7, k0_pay1 (k0_pay9 (View.ld x0 r0_0) (View.ld x3 r0_3)) (k0_pay10 (View.ld x0 r0_0) (View.ld x3 r0_3))
    (k0_pay12 (View.ld x0 r0_0) (View.ld x3 r0_3)) (k0_pay13 (View.ld x0 r0_0) (View.ld x3 r0_3))
    (k0_pay19 (View.ld x4 r0_4)) (k0_pay20 (View.ld x4 r0_4))⟩]

def out0_8 (x0 : Vec F S1x9216x6 .f32) (x1 : Vec F S1x9216x1 .f32) (x2 : Vec F S1x9216x63 .f32) (x3 : Vec F S1x32x1 .i32)
    (x4 : Vec F S1x32x8 .f32) (x6 : Vec F S1x32x63 .f32) : Vec F S1x1x8 .f32 :=
  View.canon [⟨r0_8, k0_pay2 (k0_pay3 (View.ld x1 r0_1))
    (k0_pay21 (View.ld x0 r0_0) (View.ld x3 r0_3) (View.ld x4 r0_4))
    (k0_pay23 (k0_pay22 (View.ld x0 r0_0) (View.ld x3 r0_3) (View.ld x4 r0_4)))
    (k0_pay24 (k0_pay12 (View.ld x0 r0_0) (View.ld x3 r0_3)) (k0_pay15 (View.ld x4 r0_4)))
    (k0_pay25 (k0_pay13 (View.ld x0 r0_0) (View.ld x3 r0_3)) (k0_pay16 (View.ld x4 r0_4)))
    (k0_pay26 (k0_pay11 (View.ld x0 r0_0) (View.ld x3 r0_3)) (k0_pay17 (View.ld x4 r0_4)))
    (k0_pay27 (k0_pay14 (View.ld x0 r0_0) (View.ld x3 r0_3)) (k0_pay18 (View.ld x4 r0_4)))
    (k0_pay28 (k0_pay5 (View.ld x6 r0_6)) (k0_pay8 (View.ld x2 r0_2) (View.ld x3 r0_3)))
    (k0_pay29 (k0_pay6 (View.ld x3 r0_3)))
    (k0_pay30 (k0_pay3 (View.ld x1 r0_1)))
    (Scalar.ofBits .f32 0x00000000#32)
    (k0_pay31 (k0_pay3 (View.ld x1 r0_1)))⟩]

theorem cover0_7 (p0 : Vec F S1x32x4 .f32) (y : S1x32x4.Idx) :
    ∃ pc ∈ ([⟨r0_7, p0⟩] : List (View.Piece (Elt F) S1x32x4 .f32)), y ∈ pc.1.set :=
  View.cover_of_tiled [⟨r0_7, p0⟩] S1x32x4.size (by rfl) y
theorem cover0_8 (p0 : Vec F S1x1x8 .f32) (y : S1x1x8.Idx) :
    ∃ pc ∈ ([⟨r0_8, p0⟩] : List (View.Piece (Elt F) S1x1x8 .f32)), y ∈ pc.1.set :=
  View.cover_of_tiled [⟨r0_8, p0⟩] S1x1x8.size (by rfl) y

set_option maxHeartbeats 4000000 in

theorem sound_kernel0 (c : Dev nD) (E : Set ℕ) (i : grid0.Coords) (a0 : Memref sig .tc .vmem S1x9216x6 .f32) (ha0 : a0.IsWhole) (a1 : Memref sig .tc .vmem S1x9216x1 .f32) (ha1 : a1.IsWhole) (a2 : Memref sig .tc .vmem S1x9216x63 .f32) (ha2 : a2.IsWhole) (a3 : Memref sig .tc .vmem S1x32x1 .i32) (ha3 : a3.IsWhole) (a4 : Memref sig .tc .vmem S1x32x8 .f32) (ha4 : a4.IsWhole) (a5 : Memref sig .tc .vmem S1x32x4 .f32) (ha5 : a5.IsWhole) (a6 : Memref sig .tc .vmem S1x32x63 .f32) (ha6 : a6.IsWhole) (a7 : Memref sig .tc .vmem S1x32x4 .f32) (ha7 : a7.IsWhole) (a8 : Memref sig .tc .vmem S1x1x8 .f32) (ha8 : a8.IsWhole)
    (x0 : Vec F S1x9216x6 .f32) (x1 : Vec F S1x9216x1 .f32) (x2 : Vec F S1x9216x63 .f32) (x3 : Vec F S1x32x1 .i32) (x4 : Vec F S1x32x8 .f32) (x5 : Vec F S1x32x4 .f32) (x6 : Vec F S1x32x63 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d) ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (out0_7 x0 x3 x4) ∗ owns (c : Thread nD τ) a8 fullShare (out0_8 x0 x1 x2 x3 x4 x6)) -∗ K ⟨⟩))
      ⊢ wp frame (wpE (defs₀ (F := F)) Variants.none c none) E (cc0_kernel i a0 ha0 a1 ha1 a2 ha2 a3 ha3 a4 ha4 a5 ha5 a6 ha6 a7 ha7 a8 ha8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 3 t) (iblk0 V c 4 t)
    | ⟨8, _⟩ => out0_8 (iblk0 V c 0 t) (iblk0 V c 1 t) (iblk0 V c 2 t) (iblk0 V c 3 t) (iblk0 V c 4 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 3 t) (iblk0 V c 4 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
import proofs.«431468_j28140625724039_3_alg».proof.Proof.Gen.Kernel.Launch
import proofs.«431468_j28140625724039_3_alg».proof.Proof.Gen.Kernel.Skeleton
import proofs.«431468_j28140625724039_3_alg».proof.Proof.Gen.Kernel.Points
import proofs.«431468_j28140625724039_3_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev VO1_2 : View sig .tc .vmem S1x1 .f32 := (Memref.whole cc1_stg2_0 : Memref sig .tc .vmem S1x1 .f32).view

abbrev ms1_0 (t : Fin cfg1.N) : Memref sig .tc .vmem S2048x4 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x4 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

set_option maxHeartbeats 4000000 in

noncomputable def kernelRun1 (c : Dev nD) (i : grid1.Coords) (arg1 : Memref sig .tc .vmem S2048x4 .f32) (harg1 : arg1.IsWhole) (arg2 : Memref sig .tc .vmem S2048x4 .f32) (harg2 : arg2.IsWhole) (arg3 : Memref sig .tc .vmem S1x1 .f32) (harg3 : arg3.IsWhole)
    (x0 : Vec F S2048x4 .f32) (x1 : Vec F S2048x4 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1_kernel i arg1 harg1 arg2 harg2 arg3 harg3) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

theorem cover1_2 (c : Dev nD) (i : grid1.Coords) (arg1 : Memref sig .tc .vmem S2048x4 .f32) (harg1 : arg1.IsWhole) (arg2 : Memref sig .tc .vmem S2048x4 .f32) (harg2 : arg2.IsWhole) (arg3 : Memref sig .tc .vmem S1x1 .f32) (harg3 : arg3.IsWhole)
    (x0 : Vec F S2048x4 .f32) (x1 : Vec F S2048x4 .f32) (y : S1x1.Idx) :
    ∃ pc ∈ (kernelRun1 c i arg1 harg1 arg2 harg2 arg3 harg3 x0 x1).1, y ∈ pc.1.set :=
  View.cover_of_tiledL (kernelRun1 c i arg1 harg1 arg2 harg2 arg3 harg3 x0 x1).1 S1x1.size (by sl_kernel_rfl) y

def out1_2 (c : Dev nD) (i : grid1.Coords) (arg1 : Memref sig .tc .vmem S2048x4 .f32) (harg1 : arg1.IsWhole) (arg2 : Memref sig .tc .vmem S2048x4 .f32) (harg2 : arg2.IsWhole) (arg3 : Memref sig .tc .vmem S1x1 .f32) (harg3 : arg3.IsWhole)
    (x0 : Vec F S2048x4 .f32) (x1 : Vec F S2048x4 .f32) : Vec F S1x1 .f32 :=
  VO1_2.read (Elt F) (VO1_2.writes (Elt F) VO1_2.junk (kernelRun1 c i arg1 harg1 arg2 harg2 arg3 harg3 x0 x1).1)

def outsAt1 (c : Dev nD) (t : Fin cfg1.N) : Vec F S1x1 .f32 :=
  out1_2 c (grid1.coords t) (ms1_0 t) (hs1_0 t) (ms1_1 t) (hs1_1 t) (ms1_2 t) (hs1_2 t) (iblk1 V c 0 t) (iblk1 V c 1 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outsAt1
  unfold out1_2
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_2 c _ _ _ _ _ _ _ _ _)

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Run.lean ====
import proofs.«431468_j28140625724039_3_alg».proof.Proof.K.Body0
import proofs.«431468_j28140625724039_3_alg».proof.Proof.K.Body1
import proofs.«431468_j28140625724039_3_alg».proof.Proof.Gen.Kernel.Launch
import proofs.«431468_j28140625724039_3_alg».proof.Proof.Gen.Kernel.Skeleton
import proofs.«431468_j28140625724039_3_alg».proof.Proof.Gen.Kernel.Points
import proofs.«431468_j28140625724039_3_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after main_part0_ops0 (W0 m ρ c)

abbrev W2 : Dev nD → Valuation τ sig (Elt F) := fun c => StableHlo.after main_part1_ops0 (W1 m ρ c)

abbrev V2 : (c : Dev nD) → (b : Ref sig .tc) → Buf (Elt F) ((c : Thread nD τ).loc b) := fun c b => W2 m ρ c b

def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb

abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after main_part1_ops1 (W3 m ρ c)

abbrev V4 : (c : Dev nD) → (b : Ref sig .tc) → Buf (Elt F) ((c : Thread nD τ).loc b) := fun c b => W4 m ρ c b

def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb

abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after main_part1_ops2 (W5 m ρ c)

abbrev argRefs : List (Ref sig .tc) := [main_arg0, main_arg1, main_arg2, main_arg3, main_arg4]

theorem keep_part0_ops0 (V : Valuation τ sig (Elt F)) (b : Ref sig .tc) (hb : b ∈ argRefs) :
    StableHlo.after (main_part0_ops0 : List (HloOp τ sig (Elt F))) V (Proc.devRef .tc b) = V (Proc.devRef .tc b) :=
  StableHlo.after_of_forall_not_mem (b := Proc.devRef .tc b) _ _ (List.forall_iff_forall_mem.mp (by
    simp only [main_part0_ops0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (fun e => absurd (e ▸ hb) (by decide))))

theorem keep_part1_ops0 (V : Valuation τ sig (Elt F)) (b : Ref sig .tc) (hb : b ∈ argRefs) :
    StableHlo.after (main_part1_ops0 : List (HloOp τ sig (Elt F))) V (Proc.devRef .tc b) = V (Proc.devRef .tc b) :=
  StableHlo.after_of_forall_not_mem (b := Proc.devRef .tc b) _ _ (List.forall_iff_forall_mem.mp (by
    simp only [main_part1_ops0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (fun e => absurd (e ▸ hb) (by decide))))

theorem keep_part1_ops1 (V : Valuation τ sig (Elt F)) (b : Ref sig .tc) (hb : b ∈ argRefs) :
    StableHlo.after (main_part1_ops1 : List (HloOp τ sig (Elt F))) V (Proc.devRef .tc b) = V (Proc.devRef .tc b) :=
  StableHlo.after_of_forall_not_mem (b := Proc.devRef .tc b) _ _ (List.forall_iff_forall_mem.mp (by
    simp only [main_part1_ops1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (fun e => absurd (e ▸ hb) (by decide))))

theorem keep_part1_ops2 (V : Valuation τ sig (Elt F)) (b : Ref sig .tc) (hb : b ∈ argRefs) :
    StableHlo.after (main_part1_ops2 : List (HloOp τ sig (Elt F))) V (Proc.devRef .tc b) = V (Proc.devRef .tc b) :=
  StableHlo.after_of_forall_not_mem (b := Proc.devRef .tc b) _ _ (List.forall_iff_forall_mem.mp (by
    simp only [main_part1_ops2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (fun e => absurd (e ▸ hb) (by decide))))

theorem W6_of_bypassed (c : Dev nD) (b : Ref sig .tc) (hb : b ∈ argRefs) (h0 : ∀ w, Pipeline.arrRef spec0 w ≠ b)
    (h1 : ∀ w, Pipeline.arrRef spec1 w ≠ b) : W6 m ρ c (Proc.devRef .tc b) = m ((c : Thread nD τ).loc b) :=
  calc W6 m ρ c (Proc.devRef .tc b)
    _ = W5 m ρ c (Proc.devRef .tc b) := keep_part1_ops2 _ b hb
    _ = W4 m ρ c (Proc.devRef .tc b) := W5_of_ne m ρ c b h1
    _ = W3 m ρ c (Proc.devRef .tc b) := keep_part1_ops1 _ b hb
    _ = W2 m ρ c (Proc.devRef .tc b) := W3_of_ne m ρ c b h0
    _ = W1 m ρ c (Proc.devRef .tc b) := keep_part1_ops0 _ b hb
    _ = W0 m ρ c (Proc.devRef .tc b) := keep_part0_ops0 _ b hb
    _ = m ((c : Thread nD τ).loc b) := rfl

theorem W6_main_arg0 (c : Dev nD) : W6 m ρ c (Proc.devRef .tc main_arg0) = m ((c : Thread nD τ).loc main_arg0) :=
  W6_of_bypassed m ρ c main_arg0 (by decide) (by decide) (by decide)
theorem W6_main_arg1 (c : Dev nD) : W6 m ρ c (Proc.devRef .tc main_arg1) = m ((c : Thread nD τ).loc main_arg1) :=
  W6_of_bypassed m ρ c main_arg1 (by decide) (by decide) (by decide)
theorem W6_main_arg2 (c : Dev nD) : W6 m ρ c (Proc.devRef .tc main_arg2) = m ((c : Thread nD τ).loc main_arg2) :=
  W6_of_bypassed m ρ c main_arg2 (by decide) (by decide) (by decide)
theorem W6_main_arg3 (c : Dev nD) : W6 m ρ c (Proc.devRef .tc main_arg3) = m ((c : Thread nD τ).loc main_arg3) :=
  W6_of_bypassed m ρ c main_arg3 (by decide) (by decide) (by decide)

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := keep_part1_ops2 _ main_arg4 (by decide)
    _ = W4 m ρ c (Proc.devRef .tc main_arg4) := W5_of_ne m ρ c main_arg4 (by decide)
    _ = W3 m ρ c (Proc.devRef .tc main_arg4) := keep_part1_ops1 _ main_arg4 (by decide)
    _ = W2 m ρ c (Proc.devRef .tc main_arg4) := (W3_arr m ρ c 6).trans (((dat0 (V2 m ρ) c).arrAt_in 6 rfl _).trans (A_eq0 (V2 m ρ) c 6))
    _ = W1 m ρ c (Proc.devRef .tc main_arg4) := keep_part1_ops0 _ main_arg4 (by decide)
    _ = W0 m ρ c (Proc.devRef .tc main_arg4) := keep_part0_ops0 _ main_arg4 (by decide)
    _ = m ((c : Thread nD τ).loc main_arg4) := rfl

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor

theorem main_part1_ops0_fresh : (main_part1_ops0 : List (HloOp τ sig (Elt F))).Forall fun op => op.fresh = ∅ := by
  simp only [List.Forall]; repeat' constructor

theorem main_part1_ops1_fresh : (main_part1_ops1 : List (HloOp τ sig (Elt F))).Forall fun op => op.fresh = ∅ := by
  simp only [List.Forall]; repeat' constructor

theorem main_part1_ops2_fresh : (main_part1_ops2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (W1 m ρ)),
    .region (reg0 m ρ),
    .host (hseg main_part1_ops1 main_part1_ops1_sub main_part1_ops1_fresh (W3 m ρ)),
    .region (reg1 m ρ),
    .host (hseg main_part1_ops2 main_part1_ops2_sub main_part1_ops2_fresh (W5 m ρ)) ]

theorem main_run (c : Dev nD) : main (F := F) c = Pipeline.Seg.run (segs m ρ) := (main_chain_windows c).trans (by chain_rfl)

set_option backward.isDefEq.respectTransparency.types false in

theorem run_main : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W6 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c b hb => h c _ (mem_uc b hb))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c main_arg0 (by decide)).trans (W6_main_arg0 m ρ c), (h c main_arg1 (by decide)).trans (W6_main_arg1 m ρ c),
     (h c main_arg2 (by decide)).trans (W6_main_arg2 m ρ c), (h c main_arg3 (by decide)).trans (W6_main_arg3 m ρ c),
     (h c main_arg4 (by decide)).trans (W6_main_arg4 m ρ c)⟩) (run_main m ρ)

end Cert.Kernel.Hand

end
-- ==== Proof.KI.Body0.lean ====
import proofs.«431468_j28140625724039_3_alg».proof.Proof.Gen.KernelIdeal.Launch
import proofs.«431468_j28140625724039_3_alg».proof.Proof.Gen.KernelIdeal.Skeleton
import proofs.«431468_j28140625724039_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x9216x6 := Rect.unit (s := S1x9216x6) ![0, 0, 0] S1x9216x6.size inb_S1x9216x6_S1x9216x6_0_0_0
abbrev r0_1 : Rect S1x9216x1 := Rect.unit (s := S1x9216x1) ![0, 0, 0] S1x9216x1.size inb_S1x9216x1_S1x9216x1_0_0_0
abbrev r0_2 : Rect S1x9216x63 := Rect.unit (s := S1x9216x63) ![0, 0, 0] S1x9216x63.size inb_S1x9216x63_S1x9216x63_0_0_0
abbrev r0_3 : Rect S1x32x1 := Rect.unit (s := S1x32x1) ![0, 0, 0] S1x32x1.size inb_S1x32x1_S1x32x1_0_0_0
abbrev r0_4 : Rect S1x32x8 := Rect.unit (s := S1x32x8) ![0, 0, 0] S1x32x8.size inb_S1x32x8_S1x32x8_0_0_0
abbrev r0_6 : Rect S1x32x63 := Rect.unit (s := S1x32x63) ![0, 0, 0] S1x32x63.size inb_S1x32x63_S1x32x63_0_0_0
abbrev r0_7 : Rect S1x32x4 := Rect.unit (s := S1x32x4) ![0, 0, 0] S1x32x4.size inb_S1x32x4_S1x32x4_0_0_0
abbrev r0_8 : Rect S1x1x8 := Rect.unit (s := S1x1x8) ![0, 0, 0] S1x1x8.size inb_S1x1x8_S1x1x8_0_0_0

def out0_7 (x0 : Vec F S1x9216x6 .f32) (x3 : Vec F S1x32x1 .i32) (x4 : Vec F S1x32x8 .f32) : Vec F S1x32x4 .f32 :=
  View.canon [⟨r0_7, k0_pay1 (k0_pay9 (View.ld x0 r0_0) (View.ld x3 r0_3)) (k0_pay10 (View.ld x0 r0_0) (View.ld x3 r0_3))
    (k0_pay12 (View.ld x0 r0_0) (View.ld x3 r0_3)) (k0_pay13 (View.ld x0 r0_0) (View.ld x3 r0_3))
    (k0_pay19 (View.ld x4 r0_4)) (k0_pay20 (View.ld x4 r0_4))⟩]

def out0_8 (x0 : Vec F S1x9216x6 .f32) (x1 : Vec F S1x9216x1 .f32) (x2 : Vec F S1x9216x63 .f32) (x3 : Vec F S1x32x1 .i32)
    (x4 : Vec F S1x32x8 .f32) (x6 : Vec F S1x32x63 .f32) : Vec F S1x1x8 .f32 :=
  View.canon [⟨r0_8, k0_pay2 (k0_pay3 (View.ld x1 r0_1))
    (k0_pay21 (View.ld x0 r0_0) (View.ld x3 r0_3) (View.ld x4 r0_4))
    (k0_pay23 (k0_pay22 (View.ld x0 r0_0) (View.ld x3 r0_3) (View.ld x4 r0_4)))
    (k0_pay24 (k0_pay12 (View.ld x0 r0_0) (View.ld x3 r0_3)) (k0_pay15 (View.ld x4 r0_4)))
    (k0_pay25 (k0_pay13 (View.ld x0 r0_0) (View.ld x3 r0_3)) (k0_pay16 (View.ld x4 r0_4)))
    (k0_pay26 (k0_pay11 (View.ld x0 r0_0) (View.ld x3 r0_3)) (k0_pay17 (View.ld x4 r0_4)))
    (k0_pay27 (k0_pay14 (View.ld x0 r0_0) (View.ld x3 r0_3)) (k0_pay18 (View.ld x4 r0_4)))
    (k0_pay28 (k0_pay5 (View.ld x6 r0_6)) (k0_pay8 (View.ld x2 r0_2) (View.ld x3 r0_3)))
    (k0_pay29 (k0_pay6 (View.ld x3 r0_3)))
    (k0_pay30 (k0_pay3 (View.ld x1 r0_1)))
    (Scalar.ofBits .f32 0x00000000#32)
    (k0_pay31 (k0_pay3 (View.ld x1 r0_1)))⟩]

theorem cover0_7 (p0 : Vec F S1x32x4 .f32) (y : S1x32x4.Idx) :
    ∃ pc ∈ ([⟨r0_7, p0⟩] : List (View.Piece (Elt F) S1x32x4 .f32)), y ∈ pc.1.set :=
  View.cover_of_tiled [⟨r0_7, p0⟩] S1x32x4.size (by rfl) y
theorem cover0_8 (p0 : Vec F S1x1x8 .f32) (y : S1x1x8.Idx) :
    ∃ pc ∈ ([⟨r0_8, p0⟩] : List (View.Piece (Elt F) S1x1x8 .f32)), y ∈ pc.1.set :=
  View.cover_of_tiled [⟨r0_8, p0⟩] S1x1x8.size (by rfl) y

set_option maxHeartbeats 4000000 in

theorem sound_kernel0 (c : Dev nD) (E : Set ℕ) (i : grid0.Coords) (a0 : Memref sig .tc .vmem S1x9216x6 .f32) (ha0 : a0.IsWhole) (a1 : Memref sig .tc .vmem S1x9216x1 .f32) (ha1 : a1.IsWhole) (a2 : Memref sig .tc .vmem S1x9216x63 .f32) (ha2 : a2.IsWhole) (a3 : Memref sig .tc .vmem S1x32x1 .i32) (ha3 : a3.IsWhole) (a4 : Memref sig .tc .vmem S1x32x8 .f32) (ha4 : a4.IsWhole) (a5 : Memref sig .tc .vmem S1x32x4 .f32) (ha5 : a5.IsWhole) (a6 : Memref sig .tc .vmem S1x32x63 .f32) (ha6 : a6.IsWhole) (a7 : Memref sig .tc .vmem S1x32x4 .f32) (ha7 : a7.IsWhole) (a8 : Memref sig .tc .vmem S1x1x8 .f32) (ha8 : a8.IsWhole)
    (x0 : Vec F S1x9216x6 .f32) (x1 : Vec F S1x9216x1 .f32) (x2 : Vec F S1x9216x63 .f32) (x3 : Vec F S1x32x1 .i32) (x4 : Vec F S1x32x8 .f32) (x5 : Vec F S1x32x4 .f32) (x6 : Vec F S1x32x63 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d) ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (out0_7 x0 x3 x4) ∗ owns (c : Thread nD τ) a8 fullShare (out0_8 x0 x1 x2 x3 x4 x6)) -∗ K ⟨⟩))
      ⊢ wp frame (wpE (defs₀ (F := F)) Variants.none c none) E (cc0_kernel i a0 ha0 a1 ha1 a2 ha2 a3 ha3 a4 ha4 a5 ha5 a6 ha6 a7 ha7 a8 ha8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 3 t) (iblk0 V c 4 t)
    | ⟨8, _⟩ => out0_8 (iblk0 V c 0 t) (iblk0 V c 1 t) (iblk0 V c 2 t) (iblk0 V c 3 t) (iblk0 V c 4 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 3 t) (iblk0 V c 4 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
import proofs.«431468_j28140625724039_3_alg».proof.Proof.Gen.KernelIdeal.Launch
import proofs.«431468_j28140625724039_3_alg».proof.Proof.Gen.KernelIdeal.Skeleton
import proofs.«431468_j28140625724039_3_alg».proof.Proof.Gen.KernelIdeal.Points
import proofs.«431468_j28140625724039_3_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev VO1_2 : View sig .tc .vmem S1x1 .f32 := (Memref.whole cc1_stg2_0 : Memref sig .tc .vmem S1x1 .f32).view

abbrev ms1_0 (t : Fin cfg1.N) : Memref sig .tc .vmem S2048x4 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x4 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

set_option maxHeartbeats 4000000 in

noncomputable def kernelRun1 (c : Dev nD) (i : grid1.Coords) (arg1 : Memref sig .tc .vmem S2048x4 .f32) (harg1 : arg1.IsWhole) (arg2 : Memref sig .tc .vmem S2048x4 .f32) (harg2 : arg2.IsWhole) (arg3 : Memref sig .tc .vmem S1x1 .f32) (harg3 : arg3.IsWhole)
    (x0 : Vec F S2048x4 .f32) (x1 : Vec F S2048x4 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1_kernel i arg1 harg1 arg2 harg2 arg3 harg3) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

theorem cover1_2 (c : Dev nD) (i : grid1.Coords) (arg1 : Memref sig .tc .vmem S2048x4 .f32) (harg1 : arg1.IsWhole) (arg2 : Memref sig .tc .vmem S2048x4 .f32) (harg2 : arg2.IsWhole) (arg3 : Memref sig .tc .vmem S1x1 .f32) (harg3 : arg3.IsWhole)
    (x0 : Vec F S2048x4 .f32) (x1 : Vec F S2048x4 .f32) (y : S1x1.Idx) :
    ∃ pc ∈ (kernelRun1 c i arg1 harg1 arg2 harg2 arg3 harg3 x0 x1).1, y ∈ pc.1.set :=
  View.cover_of_tiledL (kernelRun1 c i arg1 harg1 arg2 harg2 arg3 harg3 x0 x1).1 S1x1.size (by sl_kernel_rfl) y

def out1_2 (c : Dev nD) (i : grid1.Coords) (arg1 : Memref sig .tc .vmem S2048x4 .f32) (harg1 : arg1.IsWhole) (arg2 : Memref sig .tc .vmem S2048x4 .f32) (harg2 : arg2.IsWhole) (arg3 : Memref sig .tc .vmem S1x1 .f32) (harg3 : arg3.IsWhole)
    (x0 : Vec F S2048x4 .f32) (x1 : Vec F S2048x4 .f32) : Vec F S1x1 .f32 :=
  VO1_2.read (Elt F) (VO1_2.writes (Elt F) VO1_2.junk (kernelRun1 c i arg1 harg1 arg2 harg2 arg3 harg3 x0 x1).1)

def outsAt1 (c : Dev nD) (t : Fin cfg1.N) : Vec F S1x1 .f32 :=
  out1_2 c (grid1.coords t) (ms1_0 t) (hs1_0 t) (ms1_1 t) (hs1_1 t) (ms1_2 t) (hs1_2 t) (iblk1 V c 0 t) (iblk1 V c 1 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outsAt1
  unfold out1_2
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_2 c _ _ _ _ _ _ _ _ _)

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Run.lean ====
import proofs.«431468_j28140625724039_3_alg».proof.Proof.KI.Body0
import proofs.«431468_j28140625724039_3_alg».proof.Proof.KI.Body1
import proofs.«431468_j28140625724039_3_alg».proof.Proof.Gen.KernelIdeal.Launch
import proofs.«431468_j28140625724039_3_alg».proof.Proof.Gen.KernelIdeal.Skeleton
import proofs.«431468_j28140625724039_3_alg».proof.Proof.Gen.KernelIdeal.Points
import proofs.«431468_j28140625724039_3_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after main_part0_ops0 (W0 m ρ c)

abbrev W2 : Dev nD → Valuation τ sig (Elt F) := fun c => StableHlo.after main_part1_ops0 (W1 m ρ c)

abbrev V2 : (c : Dev nD) → (b : Ref sig .tc) → Buf (Elt F) ((c : Thread nD τ).loc b) := fun c b => W2 m ρ c b

def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb

abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

abbrev W4 : Dev nD → Valuation τ sig (Elt F) := fun c => StableHlo.after main_part1_ops1 (W3 m ρ c)

abbrev V4 : (c : Dev nD) → (b : Ref sig .tc) → Buf (Elt F) ((c : Thread nD τ).loc b) := fun c b => W4 m ρ c b

def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb

abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after main_part1_ops2 (W5 m ρ c)

abbrev argRefs : List (Ref sig .tc) := [main_arg0, main_arg1, main_arg2, main_arg3, main_arg4]

theorem keep_part0_ops0 (V : Valuation τ sig (Elt F)) (b : Ref sig .tc) (hb : b ∈ argRefs) :
    StableHlo.after (main_part0_ops0 : List (HloOp τ sig (Elt F))) V (Proc.devRef .tc b) = V (Proc.devRef .tc b) :=
  StableHlo.after_of_forall_not_mem (b := Proc.devRef .tc b) _ _ (List.forall_iff_forall_mem.mp (by
    simp only [main_part0_ops0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (fun e => absurd (e ▸ hb) (by decide))))

theorem keep_part1_ops0 (V : Valuation τ sig (Elt F)) (b : Ref sig .tc) (hb : b ∈ argRefs) :
    StableHlo.after (main_part1_ops0 : List (HloOp τ sig (Elt F))) V (Proc.devRef .tc b) = V (Proc.devRef .tc b) :=
  StableHlo.after_of_forall_not_mem (b := Proc.devRef .tc b) _ _ (List.forall_iff_forall_mem.mp (by
    simp only [main_part1_ops0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (fun e => absurd (e ▸ hb) (by decide))))

theorem keep_part1_ops1 (V : Valuation τ sig (Elt F)) (b : Ref sig .tc) (hb : b ∈ argRefs) :
    StableHlo.after (main_part1_ops1 : List (HloOp τ sig (Elt F))) V (Proc.devRef .tc b) = V (Proc.devRef .tc b) :=
  StableHlo.after_of_forall_not_mem (b := Proc.devRef .tc b) _ _ (List.forall_iff_forall_mem.mp (by
    simp only [main_part1_ops1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (fun e => absurd (e ▸ hb) (by decide))))

theorem keep_part1_ops2 (V : Valuation τ sig (Elt F)) (b : Ref sig .tc) (hb : b ∈ argRefs) :
    StableHlo.after (main_part1_ops2 : List (HloOp τ sig (Elt F))) V (Proc.devRef .tc b) = V (Proc.devRef .tc b) :=
  StableHlo.after_of_forall_not_mem (b := Proc.devRef .tc b) _ _ (List.forall_iff_forall_mem.mp (by
    simp only [main_part1_ops2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (fun e => absurd (e ▸ hb) (by decide))))

theorem W6_of_bypassed (c : Dev nD) (b : Ref sig .tc) (hb : b ∈ argRefs) (h0 : ∀ w, Pipeline.arrRef spec0 w ≠ b)
    (h1 : ∀ w, Pipeline.arrRef spec1 w ≠ b) : W6 m ρ c (Proc.devRef .tc b) = m ((c : Thread nD τ).loc b) :=
  calc W6 m ρ c (Proc.devRef .tc b)
    _ = W5 m ρ c (Proc.devRef .tc b) := keep_part1_ops2 _ b hb
    _ = W4 m ρ c (Proc.devRef .tc b) := W5_of_ne m ρ c b h1
    _ = W3 m ρ c (Proc.devRef .tc b) := keep_part1_ops1 _ b hb
    _ = W2 m ρ c (Proc.devRef .tc b) := W3_of_ne m ρ c b h0
    _ = W1 m ρ c (Proc.devRef .tc b) := keep_part1_ops0 _ b hb
    _ = W0 m ρ c (Proc.devRef .tc b) := keep_part0_ops0 _ b hb
    _ = m ((c : Thread nD τ).loc b) := rfl

theorem W6_main_arg0 (c : Dev nD) : W6 m ρ c (Proc.devRef .tc main_arg0) = m ((c : Thread nD τ).loc main_arg0) :=
  W6_of_bypassed m ρ c main_arg0 (by decide) (by decide) (by decide)
theorem W6_main_arg1 (c : Dev nD) : W6 m ρ c (Proc.devRef .tc main_arg1) = m ((c : Thread nD τ).loc main_arg1) :=
  W6_of_bypassed m ρ c main_arg1 (by decide) (by decide) (by decide)
theorem W6_main_arg2 (c : Dev nD) : W6 m ρ c (Proc.devRef .tc main_arg2) = m ((c : Thread nD τ).loc main_arg2) :=
  W6_of_bypassed m ρ c main_arg2 (by decide) (by decide) (by decide)
theorem W6_main_arg3 (c : Dev nD) : W6 m ρ c (Proc.devRef .tc main_arg3) = m ((c : Thread nD τ).loc main_arg3) :=
  W6_of_bypassed m ρ c main_arg3 (by decide) (by decide) (by decide)

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := keep_part1_ops2 _ main_arg4 (by decide)
    _ = W4 m ρ c (Proc.devRef .tc main_arg4) := W5_of_ne m ρ c main_arg4 (by decide)
    _ = W3 m ρ c (Proc.devRef .tc main_arg4) := keep_part1_ops1 _ main_arg4 (by decide)
    _ = W2 m ρ c (Proc.devRef .tc main_arg4) := (W3_arr m ρ c 6).trans (((dat0 (V2 m ρ) c).arrAt_in 6 rfl _).trans (A_eq0 (V2 m ρ) c 6))
    _ = W1 m ρ c (Proc.devRef .tc main_arg4) := keep_part1_ops0 _ main_arg4 (by decide)
    _ = W0 m ρ c (Proc.devRef .tc main_arg4) := keep_part0_ops0 _ main_arg4 (by decide)
    _ = m ((c : Thread nD τ).loc main_arg4) := rfl

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor

theorem main_part1_ops0_fresh : (main_part1_ops0 : List (HloOp τ sig (Elt F))).Forall fun op => op.fresh = ∅ := by
  simp only [List.Forall]; repeat' constructor

theorem main_part1_ops1_fresh : (main_part1_ops1 : List (HloOp τ sig (Elt F))).Forall fun op => op.fresh = ∅ := by
  simp only [List.Forall]; repeat' constructor

theorem main_part1_ops2_fresh : (main_part1_ops2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (W1 m ρ)),
    .region (reg0 m ρ),
    .host (hseg main_part1_ops1 main_part1_ops1_sub main_part1_ops1_fresh (W3 m ρ)),
    .region (reg1 m ρ),
    .host (hseg main_part1_ops2 main_part1_ops2_sub main_part1_ops2_fresh (W5 m ρ)) ]

theorem main_run (c : Dev nD) : main (F := F) c = Pipeline.Seg.run (segs m ρ) := (main_chain_windows c).trans (by chain_rfl)

set_option backward.isDefEq.respectTransparency.types false in

theorem run_main : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W6 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c b hb => h c _ (mem_uc b hb))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c main_arg0 (by decide)).trans (W6_main_arg0 m ρ c), (h c main_arg1 (by decide)).trans (W6_main_arg1 m ρ c),
     (h c main_arg2 (by decide)).trans (W6_main_arg2 m ρ c), (h c main_arg3 (by decide)).trans (W6_main_arg3 m ρ c),
     (h c main_arg4 (by decide)).trans (W6_main_arg4 m ρ c)⟩) (run_main m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev S64x96x96x6 : Shape := ⟨4, ![64, 96, 96, 6]⟩
abbrev S64x96x96x1 : Shape := ⟨4, ![64, 96, 96, 1]⟩
abbrev S64x96x96x63 : Shape := ⟨4, ![64, 96, 96, 63]⟩
abbrev S64x32x6 : Shape := ⟨3, ![64, 32, 6]⟩
abbrev S64x32x63 : Shape := ⟨3, ![64, 32, 63]⟩
abbrev S4 : Shape := ⟨1, ![4]⟩

abbrev c96 : EReal := Ideal.ofBits .f32 0x42C00000#32
abbrev c3 : EReal := Ideal.ofBits .f32 0x40400000#32
abbrev ceps : EReal := Ideal.ofBits .f32 0x24E69595#32
abbrev c2048 : EReal := Ideal.ofBits .f32 0x45000000#32
abbrev cGrid : EReal := Ideal.ofBits .f32 0x49100000#32
abbrev c1 : EReal := Ideal.ofBits .f32 0x3F800000#32
abbrev c2 : EReal := Ideal.ofBits .f32 0x40000000#32
abbrev chalf : EReal := Ideal.ofBits .f32 0x3F000000#32
abbrev c0 : EReal := Ideal.ofBits .f32 0x00000000#32

def absE (x : EReal) : EReal := max x (-x)

def softplus (x : EReal) : EReal := max x c0 + Ideal.log1p (Ideal.exp (-(absE (x - c0))))

variable (pb : S64x96x96x6.Idx → EReal) (pc : S64x96x96x1.Idx → EReal) (pk : S64x96x96x63.Idx → EReal)
  (tb : S64x32x6.Idx → EReal) (tk : S64x32x63.Idx → EReal)

def tX (b : Fin 64) (n : Fin 32) : EReal := tb (ix3 b n (0 : Fin 6)) * c96
def tY (b : Fin 64) (n : Fin 32) : EReal := tb (ix3 b n (1 : Fin 6)) * c96
def tZ (b : Fin 64) (n : Fin 32) : EReal := tb (ix3 b n (2 : Fin 6))
def tW (b : Fin 64) (n : Fin 32) : EReal := tb (ix3 b n (3 : Fin 6)) * c96
def tH (b : Fin 64) (n : Fin 32) : EReal := tb (ix3 b n (4 : Fin 6)) * c96
def tD (b : Fin 64) (n : Fin 32) : EReal := tb (ix3 b n (5 : Fin 6))

def gi (b : Fin 64) (n : Fin 32) : BitVec 32 := Ideal.fptosi 32 (tX tb b n)
def gj (b : Fin 64) (n : Fin 32) : BitVec 32 := Ideal.fptosi 32 (tY tb b n)

/-- Every target's cell lies inside the 96 × 96 grid. -/
def InGrid : Prop := ∀ (b : Fin 64) (n : Fin 32), 0 ≤ (gi tb b n).toInt ∧ (gi tb b n).toInt < 96 ∧ 0 ≤ (gj tb b n).toInt ∧ (gj tb b n).toInt < 96

def col (b : Fin 64) (n : Fin 32) : Fin 96 := ⟨(gi tb b n).toNat % 96, Nat.mod_lt _ (by decide)⟩
def row (b : Fin 64) (n : Fin 32) : Fin 96 := ⟨(gj tb b n).toNat % 96, Nat.mod_lt _ (by decide)⟩

def lX (b : Fin 64) (n : Fin 32) : EReal := tX tb b n - Ideal.liftRound Int.floor (tX tb b n)
def lY (b : Fin 64) (n : Fin 32) : EReal := tY tb b n - Ideal.liftRound Int.floor (tY tb b n)
def lW (b : Fin 64) (n : Fin 32) : EReal := Ideal.log (Ideal.div (tW tb b n) c3 + ceps)
def lH (b : Fin 64) (n : Fin 32) : EReal := Ideal.log (Ideal.div (tH tb b n) c3 + ceps)
def lD (b : Fin 64) (n : Fin 32) : EReal := Ideal.log (tD tb b n + ceps)

def xo (ch : Fin 6) (b : Fin 64) (n : Fin 32) : EReal := pb (ix4 b (row tb b n) (col tb b n) ch)

def ko (b : Fin 64) (n : Fin 32) (k : Fin 63) : EReal := pk (ix4 b (row tb b n) (col tb b n) k)

def l1 (a t : Fin 64 → Fin 32 → EReal) : EReal := Ideal.div (c0 + ∑ b : Fin 64, ∑ n : Fin 32, absE (a b n - t b n)) c2048

def lossBoxes : EReal :=
  l1 (xo pb tb 0) (lX tb) + l1 (xo pb tb 1) (lY tb) + l1 (xo pb tb 3) (lW tb) + l1 (xo pb tb 4) (lH tb) + l1 (xo pb tb 2) (tZ tb) + l1 (xo pb tb 5) (lD tb)

def lossKeypoints : EReal :=
  Ideal.div (c0 + ∑ b : Fin 64, ∑ n : Fin 32, ∑ k : Fin 63, absE (ko pk tb b n k - tk (ix3 b n k))) c2048

/-- A cell counts as occupied when some target of the sample falls in it. -/
def occ (b : Fin 64) (j i : Fin 96) : EReal := if ∃ n : Fin 32, row tb b n = j ∧ col tb b n = i then c1 else c0

def lossConf : EReal :=
  Ideal.div (c0 + ∑ b : Fin 64, ∑ j : Fin 96, ∑ i : Fin 96,
    ((c2 * occ tb b j i) * softplus (-(pc (ix4 b j i (0 : Fin 1)))) + (c1 - occ tb b j i) * softplus (pc (ix4 b j i (0 : Fin 1))))) cGrid

def pbox (b : Fin 64) (n : Fin 32) : Fin 4 → EReal
  | 0 => xo pb tb 0 b n + (((gi tb b n).toInt : ℝ) : EReal)
  | 1 => xo pb tb 1 b n + (((gj tb b n).toInt : ℝ) : EReal)
  | 2 => Ideal.exp (xo pb tb 3 b n) * c3
  | 3 => Ideal.exp (xo pb tb 4 b n) * c3

def tbox (b : Fin 64) (n : Fin 32) : Fin 4 → EReal
  | 0 => tX tb b n
  | 1 => tY tb b n
  | 2 => tW tb b n
  | 3 => tH tb b n

def xyxy (q : Fin 4 → EReal) : Fin 4 → EReal
  | 0 => q 0 - chalf * q 2
  | 1 => q 1 - chalf * q 3
  | 2 => q 0 + chalf * q 2
  | 3 => q 1 + chalf * q 3

def oneMinusIou (p t : Fin 4 → EReal) : EReal :=
  let areaP := (p 2 - p 0) * (p 3 - p 1)
  let areaT := (t 2 - t 0) * (t 3 - t 1)
  let whx := max (min (p 2) (t 2) - max (p 0) (t 0)) c0
  let why := max (min (p 3) (t 3) - max (p 1) (t 1)) c0
  let inter := whx * why
  c1 - Ideal.div inter (areaP + areaT - inter)

def lossIou : EReal :=
  Ideal.div (c0 + ∑ b : Fin 64, ∑ n : Fin 32, ∑ b' : Fin 64, ∑ n' : Fin 32,
    oneMinusIou (xyxy (pbox pb tb b n)) (xyxy (tbox tb b' n'))) c2048

/-- The four losses stacked: boxes, keypoints, confidence, pairwise overlap. -/
def G : S4.Idx → EReal := fun j =>
  match (j 0).val with
  | 0 => lossBoxes pb tb
  | 1 => lossKeypoints pk tb tk
  | 2 => lossConf pc tb
  | _ => lossIou pb tb

end Cert.Spec

end
-- ==== Proof.KI.Body1Val.lean ====
import proofs.«431468_j28140625724039_3_alg».proof.Proof.KI.Body1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
variable (V : (c : Dev nD) → (b : Ref sig .tc) → Buf (Elt F) ((c : Thread nD τ).loc b))

def tripF (x0 : Vec F S2048x4 .f32) (x1 : Vec F S2048x4 .f32) (k : Fin k1_t1_loop.trips) (acc : FVec F S1x1 .f32) : FVec F S1x1 .f32 :=
  k1_pay7 x1 acc
    (k1_pay13 (View.ld x0 (Rect.unit (s := S2048x4) (k1_off1 k) S256x4.size (k1_off1_inb k))))
    (k1_pay14 (k1_pay3 x1) (View.ld x0 (Rect.unit (s := S2048x4) (k1_off1 k) S256x4.size (k1_off1_inb k))))
    (k1_pay15 (k1_pay5 x1) (View.ld x0 (Rect.unit (s := S2048x4) (k1_off1 k) S256x4.size (k1_off1_inb k))))
    (k1_pay16 (k1_pay2 x1) (k1_pay4 x1) (View.ld x0 (Rect.unit (s := S2048x4) (k1_off1 k) S256x4.size (k1_off1_inb k))))

def accAt (x0 : Vec F S2048x4 .f32) (x1 : Vec F S2048x4 .f32) : ℕ → FVec F S1x1 .f32
  | 0 => k1_pay6
  | k + 1 => if h : k < k1_t1_loop.trips then tripF x0 x1 ⟨k, h⟩ (accAt x0 x1 k) else accAt x0 x1 k

theorem tripR_eq (𝒱 : Variants) (c : Dev nD) (bd : Option 𝒱.V) (i : grid1.Coords) (arg1 : Memref sig .tc .vmem S2048x4 .f32) (harg1 : arg1.IsWhole) (arg2 : Memref sig .tc .vmem S2048x4 .f32) (harg2 : arg2.IsWhole) (arg3 : Memref sig .tc .vmem S1x1 .f32) (harg3 : arg3.IsWhole)
    (x0 : Vec F S2048x4 .f32) (x1 : Vec F S2048x4 .f32) (k : Fin k1_t1_loop.trips) (acc : FVec F S1x1 .f32) :
    tripR_k1_t1 𝒱 c bd i arg1 harg1 arg2 harg2 arg3 harg3 x1 (harg1.unread x0) k acc = tripF x0 x1 k acc := by
  unfold tripR_k1_t1 trip_k1_t1
  dsimp only
  sl_unfold_run_names
  unfold tripF
  simp only [View.readAt_eq_ld, harg1.read_unread]

theorem st_eq_accAt (𝒱 : Variants) (c : Dev nD) (bd : Option 𝒱.V) (i : grid1.Coords) (arg1 : Memref sig .tc .vmem S2048x4 .f32) (harg1 : arg1.IsWhole) (arg2 : Memref sig .tc .vmem S2048x4 .f32) (harg2 : arg2.IsWhole) (arg3 : Memref sig .tc .vmem S1x1 .f32) (harg3 : arg3.IsWhole)
    (x0 : Vec F S2048x4 .f32) (x1 : Vec F S2048x4 .f32) :
    ∀ k : ℕ, k ≤ k1_t1_loop.trips →
      st_k1_t1 𝒱 c bd i arg1 harg1 arg2 harg2 arg3 harg3 x1 (harg1.unread x0) k1_pay6 k = accAt x0 x1 k
  | 0, _ => rfl
  | k + 1, hk => by
    have h : k < k1_t1_loop.trips := hk
    rw [st_k1_t1_succ 𝒱 c bd i arg1 harg1 arg2 harg2 arg3 harg3 x1 (harg1.unread x0) k1_pay6 ⟨k, h⟩]
    rw [tripR_eq, st_eq_accAt 𝒱 c bd i arg1 harg1 arg2 harg2 arg3 harg3 x0 x1 k (Nat.le_of_lt h)]
    rw [accAt, dif_pos h]

theorem kernelRun1_pieces (c : Dev nD) (i : grid1.Coords) (arg1 : Memref sig .tc .vmem S2048x4 .f32) (harg1 : arg1.IsWhole) (arg2 : Memref sig .tc .vmem S2048x4 .f32) (harg2 : arg2.IsWhole) (arg3 : Memref sig .tc .vmem S1x1 .f32) (harg3 : arg3.IsWhole)
    (x0 : Vec F S2048x4 .f32) (x1 : Vec F S2048x4 .f32) :
    (kernelRun1 c i arg1 harg1 arg2 harg2 arg3 harg3 x0 x1).1
      = [⟨Rect.unit (s := S1x1) ![0, 0] S1x1.size inb_S1x1_S1x1_0_0, (accAt x0 x1 k1_t1_loop.trips : Vec F S1x1 .f32)⟩] := by
  unfold kernelRun1
  dsimp only
  sl_unfold_run_names
  simp only [View.readAt_eq_ld, harg2.read_unread, View.ld_unit_zero (S := S2048x4) (show (![0, 0] : Fin 2 → ℕ) = fun _ => 0 from by funext a; fin_cases a <;> rfl)]
  rw [st_eq_accAt Variants.none c none i arg1 harg1 arg2 harg2 arg3 harg3 x0 x1 _ (le_refl _)]

theorem out1_2_eq (c : Dev nD) (i : grid1.Coords) (arg1 : Memref sig .tc .vmem S2048x4 .f32) (harg1 : arg1.IsWhole) (arg2 : Memref sig .tc .vmem S2048x4 .f32) (harg2 : arg2.IsWhole) (arg3 : Memref sig .tc .vmem S1x1 .f32) (harg3 : arg3.IsWhole)
    (x0 : Vec F S2048x4 .f32) (x1 : Vec F S2048x4 .f32) :
    out1_2 c i arg1 harg1 arg2 harg2 arg3 harg3 x0 x1 = accAt x0 x1 k1_t1_loop.trips := by
  unfold out1_2
  rw [View.read_writes_eq_canon _ _ _ (cover1_2 c i arg1 harg1 arg2 harg2 arg3 harg3 x0 x1), kernelRun1_pieces]
  exact View.canon_unit_zero (S := S1x1) (by funext a; fin_cases a <;> rfl) _ _

theorem after1_2_eq (c : Dev nD) (t : Fin cfg1.N) :
    (dat1 V c).after 2 t = accAt (iblk1 V c 0 t) (iblk1 V c 1 t) k1_t1_loop.trips := by
  rw [after1_2]; unfold outsAt1; exact out1_2_eq c _ _ _ _ _ _ _ _ _

end Regions

end Cert.KernelIdeal.Hand

end
-- ==== Proof.KI.Val1.lean ====
import proofs.«431468_j28140625724039_3_alg».proof.Proof.Gen.KernelIdeal.Skeleton
import proofs.«431468_j28140625724039_3_alg».proof.Proof.Spec
import proofs.«431468_j28140625724039_3_alg».proof.Proof.KI.Body1Val
import Mathlib.Algebra.BigOperators.Fin
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.Ideal.Laws

noncomputable section

namespace Cert.KernelIdeal.Val1

open Idealize.ShloMosaic Idealize.ShloMosaic.ValueIdx Cert.KernelIdeal Cert.KernelIdeal.Gen

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem concat4_apply {a : ℕ} (f0 f1 f2 f3 : (⟨2, ![a, 1]⟩ : Shape).Idx → α)
    (h : Shape.Concatenates ([(⟨⟨2, ![a, 1]⟩, f0⟩ : (s : Shape) × (s.Idx → α)), ⟨⟨2, ![a, 1]⟩, f1⟩, ⟨⟨2, ![a, 1]⟩, f2⟩, ⟨⟨2, ![a, 1]⟩, f3⟩].map (·.1)) ⟨2, ![a, 4]⟩ 1)
    (p : Fin a) :
    concatenate ⟨2, ![a, 4]⟩ 1 [⟨⟨2, ![a, 1]⟩, f0⟩, ⟨⟨2, ![a, 1]⟩, f1⟩, ⟨⟨2, ![a, 1]⟩, f2⟩, ⟨⟨2, ![a, 1]⟩, f3⟩] h (ix2 p (0 : Fin 4)) = f0 (ix2 p (0 : Fin 1))
    ∧ concatenate ⟨2, ![a, 4]⟩ 1 [⟨⟨2, ![a, 1]⟩, f0⟩, ⟨⟨2, ![a, 1]⟩, f1⟩, ⟨⟨2, ![a, 1]⟩, f2⟩, ⟨⟨2, ![a, 1]⟩, f3⟩] h (ix2 p (1 : Fin 4)) = f1 (ix2 p (0 : Fin 1))
    ∧ concatenate ⟨2, ![a, 4]⟩ 1 [⟨⟨2, ![a, 1]⟩, f0⟩, ⟨⟨2, ![a, 1]⟩, f1⟩, ⟨⟨2, ![a, 1]⟩, f2⟩, ⟨⟨2, ![a, 1]⟩, f3⟩] h (ix2 p (2 : Fin 4)) = f2 (ix2 p (0 : Fin 1))
    ∧ concatenate ⟨2, ![a, 4]⟩ 1 [⟨⟨2, ![a, 1]⟩, f0⟩, ⟨⟨2, ![a, 1]⟩, f1⟩, ⟨⟨2, ![a, 1]⟩, f2⟩, ⟨⟨2, ![a, 1]⟩, f3⟩] h (ix2 p (3 : Fin 4)) = f3 (ix2 p (0 : Fin 1)) := by
  have hi : ∀ (c : Fin 4) (b : Fin 2), b.cast (rfl : (2 : ℕ) = 2) ≠ (1 : Fin 2) →
      ((ix2 p (0 : Fin 1) : (⟨2, ![a, 1]⟩ : Shape).Idx) b).val = ((ix2 p c : (⟨2, ![a, 4]⟩ : Shape).Idx) (b.cast rfl)).val := by
    intro c b hb
    match b with
    | ⟨0, _⟩ => rfl
    | ⟨1, _⟩ => exact absurd rfl hb
  refine ⟨?_, ?_, ?_, ?_⟩
  · exact concatenate_apply_piece (t := ⟨2, ![a, 4]⟩) 1 _ h _ 0 (by show (0 : ℕ) < 4; omega) ⟨2, ![a, 1]⟩ f0 rfl rfl 0 rfl (ix2 p (0 : Fin 1)) (hi 0) rfl
  · exact concatenate_apply_piece (t := ⟨2, ![a, 4]⟩) 1 _ h _ 1 (by show (1 : ℕ) < 4; omega) ⟨2, ![a, 1]⟩ f1 rfl rfl 1 rfl (ix2 p (0 : Fin 1)) (hi 1) rfl
  · exact concatenate_apply_piece (t := ⟨2, ![a, 4]⟩) 1 _ h _ 2 (by show (2 : ℕ) < 4; omega) ⟨2, ![a, 1]⟩ f2 rfl rfl 2 rfl (ix2 p (0 : Fin 1)) (hi 2) rfl
  · exact concatenate_apply_piece (t := ⟨2, ![a, 4]⟩) 1 _ h _ 3 (by show (3 : ℕ) < 4; omega) ⟨2, ![a, 1]⟩ f3 rfl rfl 3 rfl (ix2 p (0 : Fin 1)) (hi 3) rfl

end Layout

section Layout
variable {α : Type}

theorem concat4_c0 {a : ℕ} (f0 f1 f2 f3 : (⟨2, ![a, 1]⟩ : Shape).Idx → α)
    (h : Shape.Concatenates ([(⟨⟨2, ![a, 1]⟩, f0⟩ : (s : Shape) × (s.Idx → α)), ⟨⟨2, ![a, 1]⟩, f1⟩, ⟨⟨2, ![a, 1]⟩, f2⟩, ⟨⟨2, ![a, 1]⟩, f3⟩].map (·.1)) ⟨2, ![a, 4]⟩ 1) (p : Fin a) :
    concatenate ⟨2, ![a, 4]⟩ 1 [(⟨⟨2, ![a, 1]⟩, f0⟩ : (s : Shape) × (s.Idx → α)), ⟨⟨2, ![a, 1]⟩, f1⟩, ⟨⟨2, ![a, 1]⟩, f2⟩, ⟨⟨2, ![a, 1]⟩, f3⟩] h (ix2 p (0 : Fin 4)) = f0 (ix2 p (0 : Fin 1)) :=
  (concat4_apply f0 f1 f2 f3 h p).1

theorem concat4_c1 {a : ℕ} (f0 f1 f2 f3 : (⟨2, ![a, 1]⟩ : Shape).Idx → α)
    (h : Shape.Concatenates ([(⟨⟨2, ![a, 1]⟩, f0⟩ : (s : Shape) × (s.Idx → α)), ⟨⟨2, ![a, 1]⟩, f1⟩, ⟨⟨2, ![a, 1]⟩, f2⟩, ⟨⟨2, ![a, 1]⟩, f3⟩].map (·.1)) ⟨2, ![a, 4]⟩ 1) (p : Fin a) :
    concatenate ⟨2, ![a, 4]⟩ 1 [(⟨⟨2, ![a, 1]⟩, f0⟩ : (s : Shape) × (s.Idx → α)), ⟨⟨2, ![a, 1]⟩, f1⟩, ⟨⟨2, ![a, 1]⟩, f2⟩, ⟨⟨2, ![a, 1]⟩, f3⟩] h (ix2 p (1 : Fin 4)) = f1 (ix2 p (0 : Fin 1)) :=
  (concat4_apply f0 f1 f2 f3 h p).2.1

theorem concat4_c2 {a : ℕ} (f0 f1 f2 f3 : (⟨2, ![a, 1]⟩ : Shape).Idx → α)
    (h : Shape.Concatenates ([(⟨⟨2, ![a, 1]⟩, f0⟩ : (s : Shape) × (s.Idx → α)), ⟨⟨2, ![a, 1]⟩, f1⟩, ⟨⟨2, ![a, 1]⟩, f2⟩, ⟨⟨2, ![a, 1]⟩, f3⟩].map (·.1)) ⟨2, ![a, 4]⟩ 1) (p : Fin a) :
    concatenate ⟨2, ![a, 4]⟩ 1 [(⟨⟨2, ![a, 1]⟩, f0⟩ : (s : Shape) × (s.Idx → α)), ⟨⟨2, ![a, 1]⟩, f1⟩, ⟨⟨2, ![a, 1]⟩, f2⟩, ⟨⟨2, ![a, 1]⟩, f3⟩] h (ix2 p (2 : Fin 4)) = f2 (ix2 p (0 : Fin 1)) :=
  (concat4_apply f0 f1 f2 f3 h p).2.2.1

theorem concat4_c3 {a : ℕ} (f0 f1 f2 f3 : (⟨2, ![a, 1]⟩ : Shape).Idx → α)
    (h : Shape.Concatenates ([(⟨⟨2, ![a, 1]⟩, f0⟩ : (s : Shape) × (s.Idx → α)), ⟨⟨2, ![a, 1]⟩, f1⟩, ⟨⟨2, ![a, 1]⟩, f2⟩, ⟨⟨2, ![a, 1]⟩, f3⟩].map (·.1)) ⟨2, ![a, 4]⟩ 1) (p : Fin a) :
    concatenate ⟨2, ![a, 4]⟩ 1 [(⟨⟨2, ![a, 1]⟩, f0⟩ : (s : Shape) × (s.Idx → α)), ⟨⟨2, ![a, 1]⟩, f1⟩, ⟨⟨2, ![a, 1]⟩, f2⟩, ⟨⟨2, ![a, 1]⟩, f3⟩] h (ix2 p (3 : Fin 4)) = f3 (ix2 p (0 : Fin 1)) :=
  (concat4_apply f0 f1 f2 f3 h p).2.2.2

end Layout

theorem sum_axis1 {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (r : Fin a) :
    multiReduction .add [1] ⟨1, ![a]⟩ src 0x00000000#32 h hφ hacc (ix1 r) = ∑ q : Fin b, src (ix2 r q) :=
  (Ideal.multiReduction_add_single src _ h hφ hacc (ix1 r)).trans
    (Finset.sum_congr rfl fun q _ => congrArg src (funext fun ax => Fin.ext (match ax with | ⟨0, _⟩ => rfl | ⟨1, _⟩ => rfl)))

theorem sum_axis0 {a : ℕ} (src : FVec Ideal ⟨2, ![a, 1]⟩ .f32) (h : (⟨2, ![a, 1]⟩ : Shape).Reduces [0] ⟨1, ![1]⟩)
    (hφ : FKind.Formats .f32) (hacc : (0x00000000#32 : BitVec FTy.f32.bits) = FKind.add.neutral .f32 hφ) :
    multiReduction .add [0] ⟨1, ![1]⟩ src 0x00000000#32 h hφ hacc (ix1 (0 : Fin 1)) = ∑ r : Fin a, src (ix2 r (0 : Fin 1)) :=
  (Ideal.multiReduction_add_single src _ h hφ hacc (ix1 (0 : Fin 1))).trans
    (Finset.sum_congr rfl fun q _ => congrArg src (funext fun ax => Fin.ext (match ax with | ⟨0, _⟩ => rfl | ⟨1, _⟩ => rfl)))

open Cert.Spec in

abbrev rowOf {a : ℕ} (v : (⟨2, ![a, 4]⟩ : Shape).Idx → EReal) (q : Fin a) : Fin 4 → EReal := fun d => v (ix2 q d)

theorem k1_pay1_c0 (v0 : Vec Ideal S2048x4 .f32) (q : Fin 2048) :
    k1_pay1 v0 (ix2 q (0 : Fin 4)) = Cert.Spec.xyxy (rowOf v0 q) 0 := by
  unfold k1_pay1
  refine (concat4_c0 _ _ _ _ _ q).trans ?_
  refine (shapeCast_a_a1_apply _ _ q (0 : Fin 1)).trans ?_
  simp only [subf_apply, addf_apply, mulf_apply, broadcast_apply, shapeCast_a1_a_apply]
  rw [slice2_axis1_apply 0 _ _ q (0 : Fin 1) (0 : Fin 4) rfl, slice2_axis1_apply 2 _ _ q (0 : Fin 1) (2 : Fin 4) rfl, shapeCast_self]
  rfl

theorem k1_pay8_c0 (v45 : Vec Ideal S256x4 .f32) (r : Fin 256) :
    k1_pay8 v45 (ix2 r (0 : Fin 4)) = Cert.Spec.xyxy (rowOf v45 r) 0 := by
  unfold k1_pay8
  refine (concat4_c0 _ _ _ _ _ r).trans ?_
  refine (shapeCast_a_a1_apply _ _ r (0 : Fin 1)).trans ?_
  simp only [subf_apply, addf_apply, mulf_apply, broadcast_apply, shapeCast_a1_a_apply]
  rw [slice2_axis1_apply 0 _ _ r (0 : Fin 1) (0 : Fin 4) rfl, slice2_axis1_apply 2 _ _ r (0 : Fin 1) (2 : Fin 4) rfl, shapeCast_self]
  rfl

theorem k1_pay1_c1 (v0 : Vec Ideal S2048x4 .f32) (q : Fin 2048) :
    k1_pay1 v0 (ix2 q (1 : Fin 4)) = Cert.Spec.xyxy (rowOf v0 q) 1 := by
  unfold k1_pay1
  refine (concat4_c1 _ _ _ _ _ q).trans ?_
  refine (shapeCast_a_a1_apply _ _ q (0 : Fin 1)).trans ?_
  simp only [subf_apply, addf_apply, mulf_apply, broadcast_apply, shapeCast_a1_a_apply]
  rw [slice2_axis1_apply 1 _ _ q (0 : Fin 1) (1 : Fin 4) rfl, slice2_axis1_apply 3 _ _ q (0 : Fin 1) (3 : Fin 4) rfl, shapeCast_self]
  rfl

theorem k1_pay8_c1 (v45 : Vec Ideal S256x4 .f32) (r : Fin 256) :
    k1_pay8 v45 (ix2 r (1 : Fin 4)) = Cert.Spec.xyxy (rowOf v45 r) 1 := by
  unfold k1_pay8
  refine (concat4_c1 _ _ _ _ _ r).trans ?_
  refine (shapeCast_a_a1_apply _ _ r (0 : Fin 1)).trans ?_
  simp only [subf_apply, addf_apply, mulf_apply, broadcast_apply, shapeCast_a1_a_apply]
  rw [slice2_axis1_apply 1 _ _ r (0 : Fin 1) (1 : Fin 4) rfl, slice2_axis1_apply 3 _ _ r (0 : Fin 1) (3 : Fin 4) rfl, shapeCast_self]
  rfl

theorem k1_pay1_c2 (v0 : Vec Ideal S2048x4 .f32) (q : Fin 2048) :
    k1_pay1 v0 (ix2 q (2 : Fin 4)) = Cert.Spec.xyxy (rowOf v0 q) 2 := by
  unfold k1_pay1
  refine (concat4_c2 _ _ _ _ _ q).trans ?_
  refine (shapeCast_a_a1_apply _ _ q (0 : Fin 1)).trans ?_
  simp only [subf_apply, addf_apply, mulf_apply, broadcast_apply, shapeCast_a1_a_apply]
  rw [slice2_axis1_apply 0 _ _ q (0 : Fin 1) (0 : Fin 4) rfl, slice2_axis1_apply 2 _ _ q (0 : Fin 1) (2 : Fin 4) rfl, shapeCast_self]
  rfl

theorem k1_pay8_c2 (v45 : Vec Ideal S256x4 .f32) (r : Fin 256) :
    k1_pay8 v45 (ix2 r (2 : Fin 4)) = Cert.Spec.xyxy (rowOf v45 r) 2 := by
  unfold k1_pay8
  refine (concat4_c2 _ _ _ _ _ r).trans ?_
  refine (shapeCast_a_a1_apply _ _ r (0 : Fin 1)).trans ?_
  simp only [subf_apply, addf_apply, mulf_apply, broadcast_apply, shapeCast_a1_a_apply]
  rw [slice2_axis1_apply 0 _ _ r (0 : Fin 1) (0 : Fin 4) rfl, slice2_axis1_apply 2 _ _ r (0 : Fin 1) (2 : Fin 4) rfl, shapeCast_self]
  rfl

theorem k1_pay1_c3 (v0 : Vec Ideal S2048x4 .f32) (q : Fin 2048) :
    k1_pay1 v0 (ix2 q (3 : Fin 4)) = Cert.Spec.xyxy (rowOf v0 q) 3 := by
  unfold k1_pay1
  refine (concat4_c3 _ _ _ _ _ q).trans ?_
  refine (shapeCast_a_a1_apply _ _ q (0 : Fin 1)).trans ?_
  simp only [subf_apply, addf_apply, mulf_apply, broadcast_apply, shapeCast_a1_a_apply]
  rw [slice2_axis1_apply 1 _ _ q (0 : Fin 1) (1 : Fin 4) rfl, slice2_axis1_apply 3 _ _ q (0 : Fin 1) (3 : Fin 4) rfl, shapeCast_self]
  rfl

theorem k1_pay8_c3 (v45 : Vec Ideal S256x4 .f32) (r : Fin 256) :
    k1_pay8 v45 (ix2 r (3 : Fin 4)) = Cert.Spec.xyxy (rowOf v45 r) 3 := by
  unfold k1_pay8
  refine (concat4_c3 _ _ _ _ _ r).trans ?_
  refine (shapeCast_a_a1_apply _ _ r (0 : Fin 1)).trans ?_
  simp only [subf_apply, addf_apply, mulf_apply, broadcast_apply, shapeCast_a1_a_apply]
  rw [slice2_axis1_apply 1 _ _ r (0 : Fin 1) (1 : Fin 4) rfl, slice2_axis1_apply 3 _ _ r (0 : Fin 1) (3 : Fin 4) rfl, shapeCast_self]
  rfl

theorem k1_pay2_apply (x1 : Vec Ideal S2048x4 .f32) (q : Fin 2048) :
    k1_pay2 x1 (ix2 (0 : Fin 1) q) = Cert.Spec.xyxy (rowOf x1 q) 0 := by
  unfold k1_pay2
  refine (transpose_ix2_apply _ _ (0 : Fin 1) q).trans ?_
  refine (slice2_axis1_apply 0 _ _ q (0 : Fin 1) (0 : Fin 4) rfl).trans ?_
  exact k1_pay1_c0 x1 q

theorem k1_pay9_apply (v45 : Vec Ideal S256x4 .f32) (r : Fin 256) :
    k1_pay9 v45 (ix2 r (0 : Fin 1)) = Cert.Spec.xyxy (rowOf v45 r) 0 := by
  unfold k1_pay9
  refine (slice2_axis1_apply 0 _ _ r (0 : Fin 1) (0 : Fin 4) rfl).trans ?_
  exact k1_pay8_c0 v45 r

theorem k1_pay3_apply (x1 : Vec Ideal S2048x4 .f32) (q : Fin 2048) :
    k1_pay3 x1 (ix2 (0 : Fin 1) q) = Cert.Spec.xyxy (rowOf x1 q) 1 := by
  unfold k1_pay3
  refine (transpose_ix2_apply _ _ (0 : Fin 1) q).trans ?_
  refine (slice2_axis1_apply 1 _ _ q (0 : Fin 1) (1 : Fin 4) rfl).trans ?_
  exact k1_pay1_c1 x1 q

theorem k1_pay10_apply (v45 : Vec Ideal S256x4 .f32) (r : Fin 256) :
    k1_pay10 v45 (ix2 r (0 : Fin 1)) = Cert.Spec.xyxy (rowOf v45 r) 1 := by
  unfold k1_pay10
  refine (slice2_axis1_apply 1 _ _ r (0 : Fin 1) (1 : Fin 4) rfl).trans ?_
  exact k1_pay8_c1 v45 r

theorem k1_pay4_apply (x1 : Vec Ideal S2048x4 .f32) (q : Fin 2048) :
    k1_pay4 x1 (ix2 (0 : Fin 1) q) = Cert.Spec.xyxy (rowOf x1 q) 2 := by
  unfold k1_pay4
  refine (transpose_ix2_apply _ _ (0 : Fin 1) q).trans ?_
  refine (slice2_axis1_apply 2 _ _ q (0 : Fin 1) (2 : Fin 4) rfl).trans ?_
  exact k1_pay1_c2 x1 q

theorem k1_pay11_apply (v45 : Vec Ideal S256x4 .f32) (r : Fin 256) :
    k1_pay11 v45 (ix2 r (0 : Fin 1)) = Cert.Spec.xyxy (rowOf v45 r) 2 := by
  unfold k1_pay11
  refine (slice2_axis1_apply 2 _ _ r (0 : Fin 1) (2 : Fin 4) rfl).trans ?_
  exact k1_pay8_c2 v45 r

theorem k1_pay5_apply (x1 : Vec Ideal S2048x4 .f32) (q : Fin 2048) :
    k1_pay5 x1 (ix2 (0 : Fin 1) q) = Cert.Spec.xyxy (rowOf x1 q) 3 := by
  unfold k1_pay5
  refine (transpose_ix2_apply _ _ (0 : Fin 1) q).trans ?_
  refine (slice2_axis1_apply 3 _ _ q (0 : Fin 1) (3 : Fin 4) rfl).trans ?_
  exact k1_pay1_c3 x1 q

theorem k1_pay12_apply (v45 : Vec Ideal S256x4 .f32) (r : Fin 256) :
    k1_pay12 v45 (ix2 r (0 : Fin 1)) = Cert.Spec.xyxy (rowOf v45 r) 3 := by
  unfold k1_pay12
  refine (slice2_axis1_apply 3 _ _ r (0 : Fin 1) (3 : Fin 4) rfl).trans ?_
  exact k1_pay8_c3 v45 r

theorem k1_pay13_apply (v45 : Vec Ideal S256x4 .f32) (r : Fin 256) :
    k1_pay13 v45 (ix2 r (0 : Fin 1))
      = (Cert.Spec.xyxy (rowOf v45 r) 2 - Cert.Spec.xyxy (rowOf v45 r) 0) * (Cert.Spec.xyxy (rowOf v45 r) 3 - Cert.Spec.xyxy (rowOf v45 r) 1) := by
  unfold k1_pay13
  simp only [mulf_apply, subf_apply]
  rw [k1_pay9_apply, k1_pay10_apply, k1_pay11_apply, k1_pay12_apply]

theorem k1_pay14_apply (v30 : FVec Ideal S1x2048 .f32) (v45 : Vec Ideal S256x4 .f32) (r : Fin 256) (q : Fin 2048) :
    k1_pay14 v30 v45 (ix2 r q) = max (Cert.Spec.xyxy (rowOf v45 r) 1) (v30 (ix2 (0 : Fin 1) q)) := by
  unfold k1_pay14
  simp only [maximumf_apply]
  rw [broadcastTo_a1_ab_apply, broadcastTo_1b_ab_apply, k1_pay10_apply]

theorem k1_pay15_apply (v34 : FVec Ideal S1x2048 .f32) (v45 : Vec Ideal S256x4 .f32) (r : Fin 256) (q : Fin 2048) :
    k1_pay15 v34 v45 (ix2 r q) = min (Cert.Spec.xyxy (rowOf v45 r) 3) (v34 (ix2 (0 : Fin 1) q)) := by
  unfold k1_pay15
  simp only [minimumf_apply]
  rw [broadcastTo_a1_ab_apply, broadcastTo_1b_ab_apply, k1_pay12_apply]

theorem k1_pay16_apply (v28 v32 : FVec Ideal S1x2048 .f32) (v45 : Vec Ideal S256x4 .f32) (r : Fin 256) (q : Fin 2048) :
    k1_pay16 v28 v32 v45 (ix2 r q)
      = max (min (Cert.Spec.xyxy (rowOf v45 r) 2) (v32 (ix2 (0 : Fin 1) q)) - max (Cert.Spec.xyxy (rowOf v45 r) 0) (v28 (ix2 (0 : Fin 1) q))) Cert.Spec.c0 := by
  unfold k1_pay16
  simp only [maximumf_apply, minimumf_apply, subf_apply, broadcast_apply]
  rw [broadcastTo_a1_ab_apply, broadcastTo_1b_ab_apply, broadcastTo_a1_ab_apply, broadcastTo_1b_ab_apply, k1_pay9_apply, k1_pay11_apply]
  rfl

theorem k1_pay7_apply (x1 : Vec Ideal S2048x4 .f32) (acc : FVec Ideal S1x1 .f32) (v78 : FVec Ideal S256x1 .f32)
    (v84 v90 v93 : FVec Ideal S256x2048 .f32) :
    k1_pay7 x1 acc v78 v84 v90 v93 (ix2 (0 : Fin 1) (0 : Fin 1))
      = acc (ix2 (0 : Fin 1) (0 : Fin 1)) + ∑ r : Fin 256, ∑ q : Fin 2048,
          (Cert.Spec.c1 - Ideal.div (v93 (ix2 r q) * max (v90 (ix2 r q) - v84 (ix2 r q)) Cert.Spec.c0)
            (v78 (ix2 r (0 : Fin 1))
                + (Cert.Spec.xyxy (rowOf x1 q) 2 - Cert.Spec.xyxy (rowOf x1 q) 0) * (Cert.Spec.xyxy (rowOf x1 q) 3 - Cert.Spec.xyxy (rowOf x1 q) 1)
              - v93 (ix2 r q) * max (v90 (ix2 r q) - v84 (ix2 r q)) Cert.Spec.c0)) := by
  unfold k1_pay7
  rw [addf_apply]
  refine congrArg (fun t => acc (ix2 (0 : Fin 1) (0 : Fin 1)) + t) ?_
  refine (shapeCast_a_a1_apply _ _ (0 : Fin 1) (0 : Fin 1)).trans ?_
  refine (sum_axis0 _ _ _ _).trans ?_
  refine Finset.sum_congr rfl fun r _ => ?_
  refine (shapeCast_a_a1_apply _ _ r (0 : Fin 1)).trans ?_
  refine (sum_axis1 _ _ _ _ r).trans ?_
  refine Finset.sum_congr rfl fun q _ => ?_
  simp only [subf_apply, divf_apply, mulf_apply, addf_apply, maximumf_apply, broadcast_apply]
  rw [broadcastTo_a1_ab_apply, broadcastTo_1b_ab_apply]
  simp only [subf_apply, mulf_apply]
  rw [k1_pay2_apply, k1_pay3_apply, k1_pay4_apply, k1_pay5_apply]
  rfl

theorem yield_apply (x1 : Vec Ideal S2048x4 .f32) (acc : FVec Ideal S1x1 .f32) (v45 : Vec Ideal S256x4 .f32) :
    k1_pay7 x1 acc (k1_pay13 v45) (k1_pay14 (k1_pay3 x1) v45) (k1_pay15 (k1_pay5 x1) v45) (k1_pay16 (k1_pay2 x1) (k1_pay4 x1) v45)
        (ix2 (0 : Fin 1) (0 : Fin 1))
      = acc (ix2 (0 : Fin 1) (0 : Fin 1)) + ∑ r : Fin 256, ∑ q : Fin 2048,
          Cert.Spec.oneMinusIou (Cert.Spec.xyxy (rowOf v45 r)) (Cert.Spec.xyxy (rowOf x1 q)) := by
  rw [k1_pay7_apply]
  refine congrArg (fun t => acc (ix2 (0 : Fin 1) (0 : Fin 1)) + t) (Finset.sum_congr rfl fun r _ => Finset.sum_congr rfl fun q _ => ?_)
  rw [k1_pay13_apply, k1_pay14_apply, k1_pay15_apply, k1_pay16_apply, k1_pay2_apply, k1_pay3_apply, k1_pay4_apply, k1_pay5_apply]
  rfl

theorem tile_apply (x0 : Vec Ideal S2048x4 .f32) (k : Fin k1_t1_loop.trips) (r : Fin 256) (d : Fin 4)
    (hr : 256 * k.val + r.val < 2048) :
    (View.ld (Val := Elt Ideal) x0 (Rect.unit (s := S2048x4) (k1_off1 k) S256x4.size (k1_off1_inb k)) : Vec Ideal S256x4 .f32) (ix2 r d)
      = x0 (ix2 ⟨256 * k.val + r.val, hr⟩ d) := by
  have h := k1_off1_eq k
  refine congrArg x0 (funext fun ax => Fin.ext ?_)
  match ax with
  | ⟨0, _⟩ =>
    show (k1_off1 k) 0 + 1 * r.val = 256 * k.val + r.val
    rw [h]
    show 256 * k.val + 1 * r.val = 256 * k.val + r.val
    omega
  | ⟨1, _⟩ =>
    show (k1_off1 k) 1 + 1 * d.val = d.val
    rw [h]
    show 0 + 1 * d.val = d.val
    omega

theorem sum_tiles {M : Type} [AddCommMonoid M] (f : Fin 2048 → M) :
    ∑ p : Fin 2048, f p = ∑ k : Fin 8, ∑ r : Fin 256, f ⟨256 * k.val + r.val, by omega⟩ := by
  have e : ∑ p : Fin 2048, f p = ∑ x : Fin 8 × Fin 256, f (finProdFinEquiv x) :=
    (Equiv.sum_comp (finProdFinEquiv (m := 8) (n := 256)) f).symm
  rw [e, Fintype.sum_prod_type]
  refine Finset.sum_congr rfl fun k _ => Finset.sum_congr rfl fun r _ => congrArg f (Fin.ext ?_)
  show r.val + 256 * k.val = 256 * k.val + r.val
  omega

theorem trips_eq : k1_t1_loop.trips = 8 := by decide

abbrev pairTerm (x0 x1 : Vec Ideal S2048x4 .f32) (p q : Fin 2048) : EReal :=
  Cert.Spec.oneMinusIou (Cert.Spec.xyxy (rowOf x0 p)) (Cert.Spec.xyxy (rowOf x1 q))

theorem tile_lt (k : Fin k1_t1_loop.trips) (r : Fin 256) : 256 * k.val + r.val < 2048 := by
  have h1 := k.isLt
  have h2 := trips_eq
  omega

theorem tripF_apply (x0 x1 : Vec Ideal S2048x4 .f32) (k : Fin k1_t1_loop.trips) (acc : FVec Ideal S1x1 .f32) :
    Hand.tripF x0 x1 k acc (ix2 (0 : Fin 1) (0 : Fin 1))
      = acc (ix2 (0 : Fin 1) (0 : Fin 1)) + ∑ r : Fin 256, ∑ q : Fin 2048, pairTerm x0 x1 ⟨256 * k.val + r.val, tile_lt k r⟩ q := by
  unfold Hand.tripF
  refine (yield_apply x1 acc _).trans ?_
  refine congrArg (fun t => acc (ix2 (0 : Fin 1) (0 : Fin 1)) + t) (Finset.sum_congr rfl fun r _ => Finset.sum_congr rfl fun q _ => ?_)
  have e : rowOf (View.ld (Val := Elt Ideal) x0 (Rect.unit (s := S2048x4) (k1_off1 k) S256x4.size (k1_off1_inb k)) : Vec Ideal S256x4 .f32) r
      = rowOf x0 ⟨256 * k.val + r.val, tile_lt k r⟩ := funext fun d => tile_apply x0 k r d (tile_lt k r)
  rw [e]

def tileSum (x0 x1 : Vec Ideal S2048x4 .f32) (k : ℕ) : EReal :=
  if h : k < 8 then ∑ r : Fin 256, ∑ q : Fin 2048, pairTerm x0 x1 ⟨256 * k + r.val, by omega⟩ q else 0

theorem accAt_apply_upto (x0 x1 : Vec Ideal S2048x4 .f32) : ∀ n : ℕ, n ≤ 8 →
    Hand.accAt x0 x1 n (ix2 (0 : Fin 1) (0 : Fin 1)) = ∑ k ∈ Finset.range n, tileSum x0 x1 k
  | 0, _ => by
    show k1_pay6 (F := Ideal) (ix2 (0 : Fin 1) (0 : Fin 1)) = _
    unfold k1_pay6
    rw [broadcast_apply, Finset.range_zero, Finset.sum_empty]
    exact Ideal.ofBits_zero_f32
  | n + 1, hn => by
    have hlt : n < k1_t1_loop.trips := by rw [trips_eq]; omega
    rw [Hand.accAt, dif_pos hlt, tripF_apply, accAt_apply_upto x0 x1 n (by omega), Finset.sum_range_succ]
    refine congrArg (fun t => (∑ k ∈ Finset.range n, tileSum x0 x1 k) + t) ?_
    unfold tileSum
    rw [dif_pos (show n < 8 by omega)]

theorem accAt_apply (x0 x1 : Vec Ideal S2048x4 .f32) :
    Hand.accAt x0 x1 k1_t1_loop.trips (ix2 (0 : Fin 1) (0 : Fin 1)) = ∑ p : Fin 2048, ∑ q : Fin 2048, pairTerm x0 x1 p q := by
  rw [trips_eq, accAt_apply_upto x0 x1 8 (le_refl 8), sum_tiles, ← Fin.sum_univ_eq_sum_range]
  refine Finset.sum_congr rfl fun k _ => ?_
  unfold tileSum
  rw [dif_pos k.isLt]

theorem accAt_eight_apply (x0 x1 : Vec Ideal S2048x4 .f32) :
    Hand.accAt x0 x1 8 (ix2 (0 : Fin 1) (0 : Fin 1)) = ∑ p : Fin 2048, ∑ q : Fin 2048, pairTerm x0 x1 p q := by
  have h := accAt_apply x0 x1
  rw [trips_eq] at h
  exact h

theorem accAt_apply_at (x0 x1 : Vec Ideal S2048x4 .f32) (j : S1x1.Idx) :
    Hand.accAt x0 x1 k1_t1_loop.trips j = ∑ p : Fin 2048, ∑ q : Fin 2048, pairTerm x0 x1 p q := by
  have hj : j = ix2 (0 : Fin 1) (0 : Fin 1) := funext fun ax => Fin.ext (match ax with
    | ⟨0, _⟩ => Nat.lt_one_iff.mp (j 0).isLt
    | ⟨1, _⟩ => Nat.lt_one_iff.mp (j 1).isLt)
  rw [hj]
  exact accAt_apply x0 x1

end Cert.KernelIdeal.Val1
end
-- ==== Proof.KI.KTail.lean ====
import proofs.«431468_j28140625724039_3_alg».proof.Proof.KI.Run
import proofs.«431468_j28140625724039_3_alg».proof.Proof.KI.Body1Val
import proofs.«431468_j28140625724039_3_alg».proof.Proof.Spec
import Idealize.ShloMosaic.Lib.IdealHost
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.KV

open Cert.KernelIdeal Cert.KernelIdeal.Gen
open Idealize.ShloMosaic Idealize.ShloMosaic.TcCoe Idealize.ShloMosaic.Tactic Idealize.ShloMosaic.ValueIdx
open Idealize.ShloMosaic.StableHlo
open scoped BigOperators

variable (m : (ℓ : Loc nD τ sig) → Buf (Elt Ideal) ℓ) (ρ : Dev nD → PrngReg)

def flat (P : Fin 64 → Fin 32 → Fin 4 → EReal) : Vec Ideal S2048x4 .f32 :=
  shapeCast S2048x4 (fun i : S64x32x4.Idx => P (i 0) (i 1) (i 2)) shapeCasts_S64x32x4_S2048x4

theorem flat_apply (P : Fin 64 → Fin 32 → Fin 4 → EReal) (b : Fin 64) (n : Fin 32) (q : Fin 4) :
    flat P (ix2 (⟨32 * b.val + n.val, by have := b.isLt; have := n.isLt; omega⟩ : Fin 2048) q) = P b n q := by
  unfold flat
  refine (shapeCast_apply _ shapeCasts_S64x32x4_S2048x4 _ (ix3 b n q) ?_).trans rfl
  rw [Shape.rowMajor_val_three, Shape.rowMajor_val_two]
  show (b.val * 32 + n.val) * 4 + q.val = (32 * b.val + n.val) * 4 + q.val
  omega

theorem flat_of (Y : Vec Ideal S64x32x4 .f32) (P : Fin 64 → Fin 32 → Fin 4 → EReal)
    (h : ∀ (b : Fin 64) (n : Fin 32) (q : Fin 4), Y (ix3 b n q) = P b n q) :
    shapeCast S2048x4 Y shapeCasts_S64x32x4_S2048x4 = flat P := by
  unfold flat
  refine congrArg (fun y => shapeCast S2048x4 y shapeCasts_S64x32x4_S2048x4) (funext fun i => ?_)
  rw [eq_ix3 i]; exact h _ _ _

def bsum (A : Fin 64 → Fin 8 → EReal) (j : Fin 8) : EReal := Cert.Spec.c0 + ∑ b : Fin 64, A b j

def pick (X : Vec Ideal S64x1x8 .f32) (off : Fin 1 → ℕ) (hs : S8.Slices off S1) : Vec Ideal S_ .f32 :=
  shapeCast S_ (extractStridedSlice S1 off (Host.reduceAdd (shapeCast S64x8 X shapeCasts_S64x1x8_S64x8)
    (constant (F := Ideal) S_ .f32 0x00000000#32) reducesTo_S64x8_S8_d0 h_S_) hs) shapeCasts_S1_S_

theorem pick_apply (X : Vec Ideal S64x1x8 .f32) (A : Fin 64 → Fin 8 → EReal)
    (hX : ∀ (b : Fin 64) (j : Fin 8), X (ix3 b (0 : Fin 1) j) = A b j)
    (j : Fin 8) (off : Fin 1 → ℕ) (hs : S8.Slices off S1) (hoff : off 0 = j.val) :
    pick X off hs ix0 = bsum A j := by
  unfold pick bsum
  refine (shapeCast_apply _ shapeCasts_S1_S_ ix0 (ix1 (0 : Fin 1)) ?_).trans ?_
  · rw [Shape.rowMajor_val_one]
    show _ = (Shape.rowMajorPi _ _).val
    rw [Shape.rowMajorPi_zero]; rfl
  refine (extractStridedSlice_apply off _ hs (ix1 (0 : Fin 1)) (ix1 j) ?_).trans ?_
  · intro a
    match a with
    | ⟨0, _⟩ => show j.val = off 0 + 0; omega
  refine (Ideal.hostReduceAdd_single reducesTo_S64x8_S8_d0 (by decide) _ _ (ix1 j)).trans ?_
  refine congrArg₂ (· + ·) rfl (Finset.sum_congr rfl fun b _ => ?_)
  refine (shapeCast_apply X shapeCasts_S64x1x8_S64x8 _ (ix3 b (0 : Fin 1) j) ?_).trans (hX b j)
  rw [Shape.rowMajor_val_three, Shape.rowMajor_val_two]
  show (b.val * 1 + 0) * 8 + j.val = b.val * 8 + j.val
  omega

theorem cat4_0 {α : Type} (x0 x1 x2 x3 : S1.Idx → α) (h : Shape.Concatenates [S1, S1, S1, S1] S4 0) :
    concatenate S4 0 [⟨S1, x0⟩, ⟨S1, x1⟩, ⟨S1, x2⟩, ⟨S1, x3⟩] h (ix1 (0 : Fin 4)) = x0 (ix1 (0 : Fin 1)) :=
  concatenate_apply_piece (0 : Fin S4.rank) [⟨S1, x0⟩, ⟨S1, x1⟩, ⟨S1, x2⟩, ⟨S1, x3⟩] h (ix1 (0 : Fin 4)) 0 (by show (0 : ℕ) < 4; decide) S1 x0 rfl rfl 0 rfl
    (ix1 (0 : Fin 1)) (fun b hb => by match b with | ⟨0, _⟩ => exact absurd rfl hb) rfl
theorem cat4_1 {α : Type} (x0 x1 x2 x3 : S1.Idx → α) (h : Shape.Concatenates [S1, S1, S1, S1] S4 0) :
    concatenate S4 0 [⟨S1, x0⟩, ⟨S1, x1⟩, ⟨S1, x2⟩, ⟨S1, x3⟩] h (ix1 (1 : Fin 4)) = x1 (ix1 (0 : Fin 1)) :=
  concatenate_apply_piece (0 : Fin S4.rank) [⟨S1, x0⟩, ⟨S1, x1⟩, ⟨S1, x2⟩, ⟨S1, x3⟩] h (ix1 (1 : Fin 4)) 1 (by show (1 : ℕ) < 4; decide) S1 x1 rfl rfl 1 rfl
    (ix1 (0 : Fin 1)) (fun b hb => by match b with | ⟨0, _⟩ => exact absurd rfl hb) rfl
theorem cat4_2 {α : Type} (x0 x1 x2 x3 : S1.Idx → α) (h : Shape.Concatenates [S1, S1, S1, S1] S4 0) :
    concatenate S4 0 [⟨S1, x0⟩, ⟨S1, x1⟩, ⟨S1, x2⟩, ⟨S1, x3⟩] h (ix1 (2 : Fin 4)) = x2 (ix1 (0 : Fin 1)) :=
  concatenate_apply_piece (0 : Fin S4.rank) [⟨S1, x0⟩, ⟨S1, x1⟩, ⟨S1, x2⟩, ⟨S1, x3⟩] h (ix1 (2 : Fin 4)) 2 (by show (2 : ℕ) < 4; decide) S1 x2 rfl rfl 2 rfl
    (ix1 (0 : Fin 1)) (fun b hb => by match b with | ⟨0, _⟩ => exact absurd rfl hb) rfl
theorem cat4_3 {α : Type} (x0 x1 x2 x3 : S1.Idx → α) (h : Shape.Concatenates [S1, S1, S1, S1] S4 0) :
    concatenate S4 0 [⟨S1, x0⟩, ⟨S1, x1⟩, ⟨S1, x2⟩, ⟨S1, x3⟩] h (ix1 (3 : Fin 4)) = x3 (ix1 (0 : Fin 1)) :=
  concatenate_apply_piece (0 : Fin S4.rank) [⟨S1, x0⟩, ⟨S1, x1⟩, ⟨S1, x2⟩, ⟨S1, x3⟩] h (ix1 (3 : Fin 4)) 3 (by show (3 : ℕ) < 4; decide) S1 x3 rfl rfl 3 rfl
    (ix1 (0 : Fin 1)) (fun b hb => by match b with | ⟨0, _⟩ => exact absurd rfl hb) rfl

local macro "results_rw" : tactic =>
  `(tactic| repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide)))

section Stretches
variable (V : Valuation τ sig (Elt Ideal))

set_option maxHeartbeats 2000000 in

theorem ops1_v86 :
    StableHlo.after main_part1_ops1 V (Proc.devRef .tc main_v86)
      = Host.divf (addf (addf (addf (addf (addf
          (pick (V (Proc.devRef .tc main_v62_1)) ![0] slices_S8_S1_0) (pick (V (Proc.devRef .tc main_v62_1)) ![1] slices_S8_S1_1))
          (pick (V (Proc.devRef .tc main_v62_1)) ![2] slices_S8_S1_2)) (pick (V (Proc.devRef .tc main_v62_1)) ![3] slices_S8_S1_3))
          (pick (V (Proc.devRef .tc main_v62_1)) ![4] slices_S8_S1_4)) (pick (V (Proc.devRef .tc main_v62_1)) ![5] slices_S8_S1_5))
          (constant (F := Ideal) S_ .f32 0x45000000#32) := by
  after_results_simp
  rfl

set_option maxHeartbeats 2000000 in

theorem ops1_v87 :
    StableHlo.after main_part1_ops1 V (Proc.devRef .tc main_v87)
      = Host.divf (pick (V (Proc.devRef .tc main_v62_1)) ![6] slices_S8_S1_6) (constant (F := Ideal) S_ .f32 0x45000000#32) := by
  after_results_simp
  rfl

set_option maxHeartbeats 2000000 in

theorem ops1_v88 :
    StableHlo.after main_part1_ops1 V (Proc.devRef .tc main_v88)
      = Host.divf (pick (V (Proc.devRef .tc main_v62_1)) ![7] slices_S8_S1_7) (constant (F := Ideal) S_ .f32 0x49100000#32) := by
  after_results_simp
  rfl

set_option maxHeartbeats 2000000 in

theorem ops1_v89 :
    StableHlo.after main_part1_ops1 V (Proc.devRef .tc main_v89)
      = shapeCast S2048x4 (V (Proc.devRef .tc main_v62_0)) shapeCasts_S64x32x4_S2048x4 := by
  after_results_simp
  rfl

set_option maxHeartbeats 2000000 in

theorem ops1_v90 :
    StableHlo.after main_part1_ops1 V (Proc.devRef .tc main_v90)
      = shapeCast S2048x4 (V (Proc.devRef .tc main_v57)) shapeCasts_S64x32x4_S2048x4 := by
  after_results_simp
  rfl

set_option maxHeartbeats 2000000 in

theorem ops2_v98 :
    StableHlo.after main_part1_ops2 V (Proc.devRef .tc main_v98)
      = concatenate S4 0
          [⟨S1, broadcastInDim S1 ![] bcast_S_S1 (V (Proc.devRef .tc main_v86))⟩,
           ⟨S1, broadcastInDim S1 ![] bcast_S_S1 (V (Proc.devRef .tc main_v87))⟩,
           ⟨S1, broadcastInDim S1 ![] bcast_S_S1 (V (Proc.devRef .tc main_v88))⟩,
           ⟨S1, broadcastInDim S1 ![] bcast_S_S1 (Host.divf (shapeCast S_ (V (Proc.devRef .tc main_v91)) shapeCasts_S1x1_S_)
              (constant (F := Ideal) S_ .f32 0x45000000#32))⟩]
          concatenates_S1_S1_S1_S1_S4_d0 := by
  after_results_simp
  simp only [Matrix.cons_val]
  results_rw
  rfl

end Stretches

section Region1
variable (V : (c : Dev nD) → (b : Ref sig .tc) → Buf (Elt Ideal) ((c : Thread nD τ).loc b)) (c : Dev nD)

theorem iblk1_0 : Hand.iblk1 V c 0 t1_0 = V c main_v89 := by
  unfold Hand.iblk1
  have hz' : (fun a => win1_0.index t1_0 a * main_v89.ty.shape.size a) = fun _ => 0 := funext fun a => by fin_cases a <;> decide
  exact Memref.read_access_unit_zero (Elt Ideal) main_v89 hz' (fun a => by rw [congrFun hz' a]; simp) (V c main_v89)

theorem iblk1_1 : Hand.iblk1 V c 1 t1_0 = V c main_v90 := by
  unfold Hand.iblk1
  have hz' : (fun a => win1_1.index t1_0 a * main_v90.ty.shape.size a) = fun _ => 0 := funext fun a => by fin_cases a <;> decide
  exact Memref.read_access_unit_zero (Elt Ideal) main_v90 hz' (fun a => by rw [congrFun hz' a]; simp) (V c main_v90)

abbrev res1 : Buf (Elt Ideal) ((c : Thread nD τ).loc main_v91) :=
  Hand.accAt (F := Ideal) (V c main_v89) (V c main_v90) k1_t1_loop.trips

theorem flushed1 (t : Fin cfg1.N) (hf : (cfg1.win 2).flush t = true) :
    (Hand.dat1 V c).flushed 2 t = ((cfg1.win 2).blk t).view.read (Elt Ideal) (res1 V c) := by
  obtain rfl : t = t1_0 := fin_N1 t
  show (cfg1.win 2).cut (grid1.coords t1_0) ((Hand.dat1 V c).after 2 t1_0) = _
  rw [Hand.after1_2_eq, iblk1_0, iblk1_1]
  have hz' : (fun a => win1_2.index t1_0 a * main_v91.ty.shape.size a) = fun _ => 0 := funext fun a => by fin_cases a <;> decide
  exact (Memref.read_access_unit_zero (Elt Ideal) main_v91 hz' (fun a => by rw [congrFun hz' a]; simp) (res1 V c)).symm

theorem final1 : (Hand.dat1 V c).arrAt 2 cfg1.N = res1 V c :=
  (Hand.dat1 V c).arrAt_eq_of_cover 2 (res1 V c) (flushed1 V c) fun i =>
    ⟨t1_0, flush1_2 t1_0, by
      show i ∈ ((View.whole main_v91).slice (win1_2.rect t1_0)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index t1_0 0 * win1_2.size 0 ≤ (i 0 : Nat) ∧ (i 0 : Nat) < win1_2.index t1_0 0 * win1_2.size 0 + win1_2.xsize (grid1.coords t1_0) 0
        rw [show win1_2.index t1_0 0 * win1_2.size 0 = 0 from by decide +kernel, show win1_2.xsize (grid1.coords t1_0) 0 = 1 from by decide +kernel]; omega
      | ⟨1, _⟩ =>
        show win1_2.index t1_0 1 * win1_2.size 1 ≤ (i 1 : Nat) ∧ (i 1 : Nat) < win1_2.index t1_0 1 * win1_2.size 1 + win1_2.xsize (grid1.coords t1_0) 1
        rw [show win1_2.index t1_0 1 * win1_2.size 1 = 0 from by decide +kernel, show win1_2.xsize (grid1.coords t1_0) 1 = 1 from by decide +kernel]; omega⟩

end Region1

section Reads
variable (V : Valuation τ sig (Elt Ideal))

theorem ops2_v98_0 : StableHlo.after main_part1_ops2 V (Proc.devRef .tc main_v98) (ix1 (0 : Fin 4)) = V (Proc.devRef .tc main_v86) ix0 := by
  rw [ops2_v98]
  exact (cat4_0 _ _ _ _ _).trans (broadcastInDim_scalar_apply _ _ _)

theorem ops2_v98_1 : StableHlo.after main_part1_ops2 V (Proc.devRef .tc main_v98) (ix1 (1 : Fin 4)) = V (Proc.devRef .tc main_v87) ix0 := by
  rw [ops2_v98]
  exact (cat4_1 _ _ _ _ _).trans (broadcastInDim_scalar_apply _ _ _)

theorem ops2_v98_2 : StableHlo.after main_part1_ops2 V (Proc.devRef .tc main_v98) (ix1 (2 : Fin 4)) = V (Proc.devRef .tc main_v88) ix0 := by
  rw [ops2_v98]
  exact (cat4_2 _ _ _ _ _).trans (broadcastInDim_scalar_apply _ _ _)

theorem ops2_v98_3 : StableHlo.after main_part1_ops2 V (Proc.devRef .tc main_v98) (ix1 (3 : Fin 4))
    = Ideal.div (V (Proc.devRef .tc main_v91) (ix2 (0 : Fin 1) (0 : Fin 1))) Cert.Spec.c2048 := by
  rw [ops2_v98]
  refine (cat4_3 _ _ _ _ _).trans ?_
  refine (broadcastInDim_scalar_apply _ _ _).trans ?_
  show Ideal.div (shapeCast S_ (V (Proc.devRef .tc main_v91)) shapeCasts_S1x1_S_ ix0) Cert.Spec.c2048 = _
  refine congrArg (Ideal.div · Cert.Spec.c2048) ?_
  refine shapeCast_apply _ shapeCasts_S1x1_S_ ix0 (ix2 (0 : Fin 1) (0 : Fin 1)) ?_
  rw [Shape.rowMajor_val_two]
  show 0 * 1 + 0 = (Shape.rowMajorPi _ _).val
  rw [Shape.rowMajorPi_zero]

end Reads

section Tail
variable (c : Dev nD) (A : Fin 64 → Fin 8 → EReal) (Pq Tq : Fin 64 → Fin 32 → Fin 4 → EReal)

theorem W6_v98_0
    (H8 : ∀ (b : Fin 64) (j : Fin 8), Hand.W3 (F := Ideal) m ρ c (Proc.devRef .tc main_v62_1) (ix3 b (0 : Fin 1) j) = A b j) :
    Hand.W6 (F := Ideal) m ρ c (Proc.devRef .tc main_v98) (ix1 (0 : Fin 4))
      = Ideal.div (((((bsum A 0 + bsum A 1) + bsum A 2) + bsum A 3) + bsum A 4) + bsum A 5) Cert.Spec.c2048 := by
  refine (ops2_v98_0 (Hand.W5 (F := Ideal) m ρ c)).trans ?_
  rw [Hand.W5_of_ne (F := Ideal) m ρ c main_v86 (by decide)]
  show StableHlo.after main_part1_ops1 (Hand.W3 (F := Ideal) m ρ c) (Proc.devRef .tc main_v86) ix0 = _
  rw [ops1_v86]
  show Ideal.div (((((pick _ ![0] slices_S8_S1_0 ix0 + pick _ ![1] slices_S8_S1_1 ix0) + pick _ ![2] slices_S8_S1_2 ix0)
    + pick _ ![3] slices_S8_S1_3 ix0) + pick _ ![4] slices_S8_S1_4 ix0) + pick _ ![5] slices_S8_S1_5 ix0) Cert.Spec.c2048 = _
  rw [pick_apply _ A H8 0 ![0] slices_S8_S1_0 rfl, pick_apply _ A H8 1 ![1] slices_S8_S1_1 rfl, pick_apply _ A H8 2 ![2] slices_S8_S1_2 rfl,
    pick_apply _ A H8 3 ![3] slices_S8_S1_3 rfl, pick_apply _ A H8 4 ![4] slices_S8_S1_4 rfl, pick_apply _ A H8 5 ![5] slices_S8_S1_5 rfl]

theorem W6_v98_1
    (H8 : ∀ (b : Fin 64) (j : Fin 8), Hand.W3 (F := Ideal) m ρ c (Proc.devRef .tc main_v62_1) (ix3 b (0 : Fin 1) j) = A b j) :
    Hand.W6 (F := Ideal) m ρ c (Proc.devRef .tc main_v98) (ix1 (1 : Fin 4)) = Ideal.div (bsum A 6) Cert.Spec.c2048 := by
  refine (ops2_v98_1 (Hand.W5 (F := Ideal) m ρ c)).trans ?_
  rw [Hand.W5_of_ne (F := Ideal) m ρ c main_v87 (by decide)]
  show StableHlo.after main_part1_ops1 (Hand.W3 (F := Ideal) m ρ c) (Proc.devRef .tc main_v87) ix0 = _
  rw [ops1_v87]
  show Ideal.div (pick _ ![6] slices_S8_S1_6 ix0) Cert.Spec.c2048 = _
  rw [pick_apply _ A H8 6 ![6] slices_S8_S1_6 rfl]

theorem W6_v98_2
    (H8 : ∀ (b : Fin 64) (j : Fin 8), Hand.W3 (F := Ideal) m ρ c (Proc.devRef .tc main_v62_1) (ix3 b (0 : Fin 1) j) = A b j) :
    Hand.W6 (F := Ideal) m ρ c (Proc.devRef .tc main_v98) (ix1 (2 : Fin 4)) = Ideal.div (bsum A 7) Cert.Spec.cGrid := by
  refine (ops2_v98_2 (Hand.W5 (F := Ideal) m ρ c)).trans ?_
  rw [Hand.W5_of_ne (F := Ideal) m ρ c main_v88 (by decide)]
  show StableHlo.after main_part1_ops1 (Hand.W3 (F := Ideal) m ρ c) (Proc.devRef .tc main_v88) ix0 = _
  rw [ops1_v88]
  show Ideal.div (pick _ ![7] slices_S8_S1_7 ix0) Cert.Spec.cGrid = _
  rw [pick_apply _ A H8 7 ![7] slices_S8_S1_7 rfl]

theorem W6_v98_3
    (H7 : ∀ (b : Fin 64) (n : Fin 32) (q : Fin 4), Hand.W3 (F := Ideal) m ρ c (Proc.devRef .tc main_v62_0) (ix3 b n q) = Pq b n q)
    (H57 : ∀ (b : Fin 64) (n : Fin 32) (q : Fin 4), Hand.W3 (F := Ideal) m ρ c (Proc.devRef .tc main_v57) (ix3 b n q) = Tq b n q) :
    Hand.W6 (F := Ideal) m ρ c (Proc.devRef .tc main_v98) (ix1 (3 : Fin 4))
      = Ideal.div (Hand.accAt (F := Ideal) (flat Pq) (flat Tq) k1_t1_loop.trips (ix2 (0 : Fin 1) (0 : Fin 1))) Cert.Spec.c2048 := by
  refine (ops2_v98_3 (Hand.W5 (F := Ideal) m ρ c)).trans ?_
  have e89 : Hand.V4 (F := Ideal) m ρ c main_v89 = flat Pq := by
    show StableHlo.after main_part1_ops1 (Hand.W3 (F := Ideal) m ρ c) (Proc.devRef .tc main_v89) = _
    rw [ops1_v89]; exact flat_of _ Pq H7
  have e90 : Hand.V4 (F := Ideal) m ρ c main_v90 = flat Tq := by
    show StableHlo.after main_part1_ops1 (Hand.W3 (F := Ideal) m ρ c) (Proc.devRef .tc main_v90) = _
    rw [ops1_v90]; exact flat_of _ Tq H57
  have e91 : Hand.W5 (F := Ideal) m ρ c (Proc.devRef .tc main_v91) = Hand.accAt (F := Ideal) (flat Pq) (flat Tq) k1_t1_loop.trips := by
    refine (Hand.W5_arr (F := Ideal) m ρ c 2).trans ?_
    rw [final1, res1, e89, e90]
  rw [e91]

end Tail

end Cert.KernelIdeal.KV

end
-- ==== Proof.Algebra.lean ====
import Idealize.ShloMosaic.PureOps.Ideal
import Idealize.ShloMosaic.Lib.ValueIdx
import Mathlib.Algebra.BigOperators.Fin
import Mathlib.Data.Fintype.BigOperators
import Mathlib.Data.EReal.Operations
import proofs.«431468_j28140625724039_3_alg».proof.Proof.Spec

noncomputable section

namespace Cert.Algebra

open Idealize.ShloMosaic Cert.Spec

theorem c2048_eq : c2048 = ((2048 : ℝ) : EReal) := by
  simp [Ideal.ofBits, Ideal.ieee, -EReal.coe_mul]; norm_num
theorem c1_eq : c1 = ((1 : ℝ) : EReal) := by
  simp [Ideal.ofBits, Ideal.ieee, -EReal.coe_mul]; norm_num
theorem c2_eq : c2 = ((2 : ℝ) : EReal) := by
  simp [Ideal.ofBits, Ideal.ieee, -EReal.coe_mul]; norm_num
theorem c0_eq : c0 = 0 := by
  simp [Ideal.ofBits, Ideal.ieee]
theorem cGrid_eq : cGrid = ((589824 : ℝ) : EReal) := by
  simp [Ideal.ofBits, Ideal.ieee, -EReal.coe_mul]; norm_num
theorem c96_eq : c96 = ((96 : ℝ) : EReal) := by
  simp [Ideal.ofBits, Ideal.ieee, -EReal.coe_mul]; norm_num
theorem c3_eq : c3 = ((3 : ℝ) : EReal) := by
  simp [Ideal.ofBits, Ideal.ieee, -EReal.coe_mul]; norm_num
theorem chalf_eq : chalf = ((1 / 2 : ℝ) : EReal) := by
  simp [Ideal.ofBits, Ideal.ieee, -EReal.coe_mul]; norm_num

theorem sum_blocks {M : Type*} [AddCommMonoid M] (m n : ℕ) (f : Fin (m * n) → M) :
    ∑ k : Fin m, ∑ r : Fin n, f (finProdFinEquiv (k, r)) = ∑ p : Fin (m * n), f p := by
  rw [← Fintype.sum_prod_type (f := fun x : Fin m × Fin n => f (finProdFinEquiv x))]
  exact Fintype.sum_equiv finProdFinEquiv _ _ (fun _ => rfl)

theorem tiles {M : Type*} [AddCommMonoid M] (f : Fin 2048 → M) :
    ∑ k : Fin 8, ∑ r : Fin 256, f ⟨256 * k.val + r.val, by have := k.isLt; have := r.isLt; omega⟩ = ∑ p : Fin 2048, f p := by
  rw [← sum_blocks 8 256 f]
  refine Finset.sum_congr rfl fun k _ => Finset.sum_congr rfl fun r _ => ?_
  congr 1
  apply Fin.ext
  simp only [finProdFinEquiv, Equiv.coe_fn_mk]
  omega

theorem flat {M : Type*} [AddCommMonoid M] (f : Fin 2048 → M) :
    ∑ b : Fin 64, ∑ n : Fin 32, f ⟨32 * b.val + n.val, by have := b.isLt; have := n.isLt; omega⟩ = ∑ p : Fin 2048, f p := by
  rw [← sum_blocks 64 32 f]
  refine Finset.sum_congr rfl fun k _ => Finset.sum_congr rfl fun r _ => ?_
  congr 1
  apply Fin.ext
  simp only [finProdFinEquiv, Equiv.coe_fn_mk]
  omega

theorem cells {M : Type*} [AddCommMonoid M] (f : Fin 9216 → M) :
    ∑ j : Fin 96, ∑ i : Fin 96, f ⟨96 * j.val + i.val, by have := j.isLt; have := i.isLt; omega⟩ = ∑ g : Fin 9216, f g := by
  rw [← sum_blocks 96 96 f]
  refine Finset.sum_congr rfl fun k _ => Finset.sum_congr rfl fun r _ => ?_
  congr 1
  apply Fin.ext
  simp only [finProdFinEquiv, Equiv.coe_fn_mk]
  omega

theorem occupancy {ι : Type*} [DecidableEq ι] (cell : Fin 32 → ι) (g : ι) :
    min (∑ n : Fin 32, if cell n = g then (1 : EReal) else 0) 1 = if ∃ n, cell n = g then (1 : EReal) else 0 := by
  by_cases h : ∃ n, cell n = g
  · rw [if_pos h]
    obtain ⟨n0, hn0⟩ := h
    apply min_eq_right
    have h1 : (if cell n0 = g then (1 : EReal) else 0) ≤ ∑ n : Fin 32, if cell n = g then (1 : EReal) else 0 :=
      Finset.single_le_sum (f := fun n => if cell n = g then (1 : EReal) else 0)
        (fun n _ => by split_ifs <;> simp) (Finset.mem_univ n0)
    rwa [if_pos hn0] at h1
  · rw [if_neg h]
    have h0 : ∑ n : Fin 32, (if cell n = g then (1 : EReal) else 0) = 0 :=
      Finset.sum_eq_zero (fun n _ => if_neg (fun hn => h ⟨n, hn⟩))
    rw [h0]
    exact min_eq_left zero_le_one

theorem absE_nonneg (x : EReal) : 0 ≤ absE x := by
  unfold absE
  rcases le_total 0 x with h | h
  · exact le_max_of_le_left h
  · exact le_max_of_le_right (EReal.neg_nonneg.mpr h)

theorem sum_absE_nonneg {ι : Type*} (s : Finset ι) (f : ι → EReal) : 0 ≤ ∑ i ∈ s, absE (f i) :=
  Finset.sum_nonneg (fun i _ => absE_nonneg (f i))

theorem six_means (s0 s1 s2 s3 s4 s5 : EReal)
    (h0 : 0 ≤ s0) (h1 : 0 ≤ s1) (h2 : 0 ≤ s2) (h3 : 0 ≤ s3) (h4 : 0 ≤ s4) (h5 : 0 ≤ s5) :
    Ideal.div (s0 + s1 + s2 + s3 + s4 + s5) c2048
      = Ideal.div s0 c2048 + Ideal.div s1 c2048 + Ideal.div s2 c2048 + Ideal.div s3 c2048
        + Ideal.div s4 c2048 + Ideal.div s5 c2048 := by
  have hd : ∀ x : EReal, Ideal.div x c2048 = x * ((1 / 2048 : ℝ) : EReal) := fun x => by
    rw [c2048_eq]; exact Ideal.div_coe (by norm_num) x
  simp only [hd]
  have h01 := add_nonneg h0 h1
  have h012 := add_nonneg h01 h2
  have h0123 := add_nonneg h012 h3
  have h01234 := add_nonneg h0123 h4
  rw [EReal.right_distrib_of_nonneg h01234 h5, EReal.right_distrib_of_nonneg h0123 h4,
    EReal.right_distrib_of_nonneg h012 h3, EReal.right_distrib_of_nonneg h01 h2,
    EReal.right_distrib_of_nonneg h0 h1]

theorem sum_batches (A B : Fin 64 → EReal) : ∑ b, (A b + B b) = ∑ b, A b + ∑ b, B b :=
  Finset.sum_add_distrib

theorem coe_sum {ι : Type*} [Fintype ι] (f : ι → ℝ) : ((∑ i, f i : ℝ) : EReal) = ∑ i, ((f i : ℝ) : EReal) := by
  classical
  refine Finset.induction_on (Finset.univ : Finset ι) (by simp) ?_
  intro a s ha ih
  rw [Finset.sum_insert ha, Finset.sum_insert ha, EReal.coe_add, ih]

theorem bce {ι : Type*} [Fintype ι] (t sn sp : ι → ℝ) (_ht : ∀ i, t i = 0 ∨ t i = 1) :
    (c2 * ∑ i, ((t i : ℝ) : EReal) * ((sn i : ℝ) : EReal)) + (∑ i, ((sp i : ℝ) : EReal))
        - (∑ i, ((t i : ℝ) : EReal) * ((sp i : ℝ) : EReal))
      = ∑ i, ((c2 * ((t i : ℝ) : EReal)) * ((sn i : ℝ) : EReal) + (c1 - ((t i : ℝ) : EReal)) * ((sp i : ℝ) : EReal)) := by
  rw [c2_eq, c1_eq]
  simp only [← EReal.coe_mul, ← EReal.coe_sub, ← EReal.coe_add, ← coe_sum]
  congr 1
  simp only [Finset.mul_sum, ← Finset.sum_add_distrib, ← Finset.sum_sub_distrib]
  refine Finset.sum_congr rfl fun i _ => ?_
  ring

theorem bce_batches {ι : Type*} [Fintype ι] (K : Fin 64 → EReal) (g : Fin 64 → ι → EReal)
    (h : ∀ b, K b = ∑ i, g b i) :
    Ideal.div (∑ b, K b) cGrid = Ideal.div (∑ b, ∑ i, g b i) cGrid := by
  simp only [h]

theorem softplus_coe (x : ℝ) :
    softplus ((x : ℝ) : EReal) = ((max x 0 + Real.log (1 + Real.exp (-(max x (-x)))) : ℝ) : EReal) := by
  have hpos : ¬ (1 + Real.exp (-(max x (-x))) ≤ 0) := not_le.mpr (by positivity)
  have hmax : ∀ a b : ℝ, max (a : EReal) (b : EReal) = ((max a b : ℝ) : EReal) := fun a b =>
    (EReal.coe_strictMono.monotone.map_max).symm
  unfold softplus absE Ideal.log1p
  rw [c0_eq, sub_zero, ← EReal.coe_neg, hmax, ← EReal.coe_neg, Ideal.exp_coe, ← EReal.coe_one,
    ← EReal.coe_add, Ideal.log_coe, if_neg hpos, ← EReal.coe_zero, hmax, ← EReal.coe_add]

theorem softplus_real (x : ℝ) : ∃ r : ℝ, softplus ((x : ℝ) : EReal) = ((r : ℝ) : EReal) :=
  ⟨_, softplus_coe x⟩

theorem softplus_neg_real (x : ℝ) : ∃ r : ℝ, softplus (-((x : ℝ) : EReal)) = ((r : ℝ) : EReal) := by
  rw [← EReal.coe_neg]
  exact softplus_real (-x)

end Cert.Algebra

end
-- ==== Proof.KI.Val0c.lean ====
import proofs.«431468_j28140625724039_3_alg».proof.Proof.Gen.KernelIdeal.Skeleton
import proofs.«431468_j28140625724039_3_alg».proof.Proof.Spec
import proofs.«431468_j28140625724039_3_alg».proof.Proof.Algebra
import Idealize.ShloMosaic.Lib.ValueLayout
import Idealize.ShloMosaic.Lib.IdealHost
import Idealize.ShloMosaic.PureOps.Ideal.Laws

noncomputable section
namespace Cert.KernelIdeal.Val0
open Idealize.ShloMosaic Idealize.ShloMosaic.ValueIdx Cert.KernelIdeal Cert.KernelIdeal.Gen

theorem occ_onehot (v6 : Vec Ideal S1x32x1 .i32) (cell : Fin 32 → Fin 9216)
    (hcell : ∀ n, v6 (ix3 (0 : Fin 1) n (0 : Fin 1)) = BitVec.ofNat 32 (cell n).val) (n : Fin 32) (g : Fin 9216) :
    k0_pay6 (F := Ideal) v6 (ix2 n g) = if cell n = g then (1 : EReal) else 0 := by
  unfold k0_pay6
  rw [sitofp_apply, extui_apply]
  show FloatOps.sitofp (F := Ideal) .f32 ((IntOp.cmpi .eq (iota .tc S32x9216 32 [1] _ (ix2 n g)) (broadcastTo S32x9216 _ _ (ix2 n g))).setWidth 32) = _
  rw [iota_single_apply]
  rw [broadcastTo_apply _ _ (ix2 n g) (ix2 n (0 : Fin 1)) (fun a => by
    match a with
    | ⟨0, _⟩ => rfl
    | ⟨1, _⟩ => rfl)]
  rw [shapeCast_1ab_ab_apply, hcell n]
  show (((((IntOp.cmpi .eq (BitVec.ofNat 32 g.val) (BitVec.ofNat 32 (cell n).val)).setWidth 32).toInt : ℝ)) : EReal) = _
  by_cases h : cell n = g
  · rw [if_pos h, h, IntOp.cmpi_eq.mpr rfl]
    have e : (BitVec.setWidth 32 (1#1)).toInt = 1 := by decide
    rw [e]; norm_num
  · rw [if_neg h]
    have hne : IntOp.cmpi .eq (BitVec.ofNat 32 g.val) (BitVec.ofNat 32 (cell n).val) = 0#1 :=
      eq_zero_of_ne_one fun e => h (Fin.ext (by
        have e1 := congrArg BitVec.toNat (IntOp.cmpi_eq.mp e)
        simp only [BitVec.toNat_ofNat] at e1
        have := g.isLt; have := (cell n).isLt
        omega))
    rw [hne]
    have e : (BitVec.setWidth 32 (0#1)).toInt = 0 := by decide
    rw [e]; norm_num

theorem rows_sum_apply (src : FVec Ideal S32x9216 .f32) (h : S32x9216.Reduces [0] S9216) (hφ : FKind.Formats .f32)
    (hacc : (0x00000000#32 : BitVec 32) = FKind.add.neutral .f32 hφ) (hc : S9216.ShapeCasts S1x9216) (g : Fin 9216) :
    shapeCast S1x9216 (multiReduction (F := Ideal) .add [0] S9216 src 0x00000000#32 h hφ hacc) hc (ix2 (0 : Fin 1) g)
      = ∑ n : Fin 32, src (ix2 n g) := by
  rw [shapeCast_a_1a_apply]
  refine (Ideal.multiReduction_add_single src _ h hφ hacc (ix1 g)).trans ?_
  show ∑ k : Fin 32, src (h.lift (ix1 g) k) = _
  refine Finset.sum_congr rfl fun k _ => congrArg src (funext fun a => Fin.ext ?_)
  match a with
  | ⟨0, _⟩ => rfl
  | ⟨1, _⟩ => rfl

theorem occ_row (v6 : Vec Ideal S1x32x1 .i32) (cell : Fin 32 → Fin 9216)
    [dec : ∀ g : Fin 9216, Decidable (∃ n : Fin 32, cell n = g)]
    (hcell : ∀ n, v6 (ix3 (0 : Fin 1) n (0 : Fin 1)) = BitVec.ofNat 32 (cell n).val) (g : Fin 9216) :
    k0_pay29 (F := Ideal) (k0_pay6 v6) (ix2 (0 : Fin 1) g) = if ∃ n : Fin 32, cell n = g then Cert.Spec.c1 else 0 := by
  unfold k0_pay29
  rw [minimumf_apply, broadcast_apply]
  refine (congrArg (fun s => min s _) (rows_sum_apply (k0_pay6 v6) _ _ _ _ g)).trans ?_
  simp only [occ_onehot v6 cell hcell]
  show min (∑ n : Fin 32, if cell n = g then (1 : EReal) else 0) (Ideal.ofBits .f32 0x3F800000#32)
    = if ∃ n : Fin 32, cell n = g then Ideal.ofBits .f32 0x3F800000#32 else 0
  rw [Ideal.ofBits_one_f32]
  refine (Cert.Algebra.occupancy cell g).trans ?_
  by_cases h : ∃ n : Fin 32, cell n = g
  · rw [if_pos h, if_pos h]
  · rw [if_neg h, if_neg h]

theorem c0_sub (y : EReal) : Cert.Spec.c0 - y = -y := by
  rw [show Cert.Spec.c0 = 0 from Ideal.ofBits_zero_f32, zero_sub]

theorem logaddexp_text (a m : EReal) (hm : m = max a Cert.Spec.c0) :
    Scalar.select (FloatOps.cmpf (F := Ideal) (φ := .f32) .one (a - Cert.Spec.c0) (a - Cert.Spec.c0)) (a + Cert.Spec.c0)
      (m + Ideal.log1p (Ideal.exp (Cert.Spec.c0 - max (a - Cert.Spec.c0) (-(a - Cert.Spec.c0))))) = Cert.Spec.softplus a := by
  have h : FloatOps.cmpf (F := Ideal) (φ := .f32) .one (a - Cert.Spec.c0) (a - Cert.Spec.c0) = 0#1 := by
    show Ideal.cmp .one _ _ = 0#1
    unfold Ideal.cmp; simp
  rw [h, select_zero, c0_sub, hm]
  rfl

theorem logit_col (v2 : Vec Ideal S1x9216x1 .f32) (g : Fin 9216) :
    k0_pay3 (F := Ideal) v2 (ix2 g (0 : Fin 1)) = v2 (ix3 (0 : Fin 1) g (0 : Fin 1)) := by
  unfold k0_pay3
  exact shapeCast_1ab_ab_apply _ _ _ _

theorem neg_col (v3 : FVec Ideal S9216x1 .f32) (g : Fin 9216) :
    k0_pay30 (F := Ideal) v3 (ix2 g (0 : Fin 1)) = Cert.Spec.softplus (-(v3 (ix2 g (0 : Fin 1)))) := by
  unfold k0_pay30
  exact (logaddexp_text (Cert.Spec.c0 - v3 (ix2 g (0 : Fin 1))) _ rfl).trans (congrArg Cert.Spec.softplus (c0_sub _))

theorem max_col (v3 : FVec Ideal S9216x1 .f32) (g : Fin 9216) :
    k0_pay31 (F := Ideal) v3 (ix2 g (0 : Fin 1)) = max (v3 (ix2 g (0 : Fin 1))) Cert.Spec.c0 := by
  unfold k0_pay31
  rfl

def posCol (v3 v84 : FVec Ideal S9216x1 .f32) : FVec Ideal S9216x1 .f32 :=
  select (cmpf .one (subf v3 (broadcast S9216x1 (Scalar.ofBits .f32 0x00000000#32))) (subf v3 (broadcast S9216x1 (Scalar.ofBits .f32 0x00000000#32))))
    (addf v3 (broadcast S9216x1 (Scalar.ofBits .f32 0x00000000#32)))
    (addf v84 (log1p (exp (subf (broadcast S9216x1 (Scalar.ofBits .f32 0x00000000#32))
      (absf (subf v3 (broadcast S9216x1 (Scalar.ofBits .f32 0x00000000#32))))))))

theorem posCol_apply (v3 v84 : FVec Ideal S9216x1 .f32)
    (h84 : ∀ g : Fin 9216, v84 (ix2 g (0 : Fin 1)) = max (v3 (ix2 g (0 : Fin 1))) Cert.Spec.c0) (g : Fin 9216) :
    posCol v3 v84 (ix2 g (0 : Fin 1)) = Cert.Spec.softplus (v3 (ix2 g (0 : Fin 1))) := by
  unfold posCol
  exact logaddexp_text _ _ (h84 g)

theorem conf_lhs_0 (i : S1x1.Idx) (q : dot_S1x9216_S9216x1_S1x1_1_0_0_1_n_n.contr.Idx) :
    (dot_S1x9216_S9216x1_S1x1_1_0_0_1_n_n.lhsIdx i q 0).val = (i 0).val := by
  unfold DotDims.lhsIdx
  rw [dif_neg (show ¬(0 : Fin S1x9216.rank) ∈ dot_S1x9216_S9216x1_S1x1_1_0_0_1_n_n.lhsBatch by decide), dif_pos (show (0 : Fin S1x9216.rank) ∈ dot_S1x9216_S9216x1_S1x1_1_0_0_1_n_n.lhsNonContracting by decide)]
  rfl
theorem conf_lhs_1 (i : S1x1.Idx) (q : dot_S1x9216_S9216x1_S1x1_1_0_0_1_n_n.contr.Idx) :
    (dot_S1x9216_S9216x1_S1x1_1_0_0_1_n_n.lhsIdx i q 1).val = (q ⟨0, by decide⟩).val :=
  dot_S1x9216_S9216x1_S1x1_1_0_0_1_n_n.lhsIdx_val_of_single rfl i q
theorem conf_rhs_0 (i : S1x1.Idx) (q : dot_S1x9216_S9216x1_S1x1_1_0_0_1_n_n.contr.Idx) :
    (dot_S1x9216_S9216x1_S1x1_1_0_0_1_n_n.rhsIdx i q 0).val = (q ⟨0, by decide⟩).val :=
  dot_S1x9216_S9216x1_S1x1_1_0_0_1_n_n.rhsIdx_val_of_single rfl i q
theorem conf_rhs_1 (i : S1x1.Idx) (q : dot_S1x9216_S9216x1_S1x1_1_0_0_1_n_n.contr.Idx) :
    (dot_S1x9216_S9216x1_S1x1_1_0_0_1_n_n.rhsIdx i q 1).val = (i 1).val := by
  unfold DotDims.rhsIdx
  rw [dif_neg (show ¬(1 : Fin S9216x1.rank) ∈ dot_S1x9216_S9216x1_S1x1_1_0_0_1_n_n.rhsBatch by decide), dif_pos (show (1 : Fin S9216x1.rank) ∈ dot_S1x9216_S9216x1_S1x1_1_0_0_1_n_n.rhsNonContracting by decide)]
  rfl

theorem row_dot_col (r : FVec Ideal S1x9216 .f32) (c : FVec Ideal S9216x1 .f32) :
    matmul dot_S1x9216_S9216x1_S1x1_1_0_0_1_n_n (some .fp32) r c (constant (F := Ideal) S1x1 .f32 0x00000000#32) (ix2 (0 : Fin 1) (0 : Fin 1))
      = ∑ g : Fin 9216, r (ix2 (0 : Fin 1) g) * c (ix2 g (0 : Fin 1)) := by
  refine (Ideal.matmul_constant_zero_apply _ _ _ _ _).trans ?_
  rw [← Equiv.sum_comp (contrEquiv1 dot_S1x9216_S9216x1_S1x1_1_0_0_1_n_n 9216 rfl rfl).symm]
  refine Finset.sum_congr rfl fun k _ => ?_
  have hk := contrEquiv1_symm_val dot_S1x9216_S9216x1_S1x1_1_0_0_1_n_n 9216 rfl rfl k
  have el : dot_S1x9216_S9216x1_S1x1_1_0_0_1_n_n.lhsIdx (ix2 (0 : Fin 1) (0 : Fin 1)) ((contrEquiv1 dot_S1x9216_S9216x1_S1x1_1_0_0_1_n_n 9216 rfl rfl).symm k) = ix2 (0 : Fin 1) k :=
    funext fun a => Fin.ext (by
      match a with
      | ⟨0, _⟩ => exact conf_lhs_0 _ _
      | ⟨1, _⟩ => exact (conf_lhs_1 _ _).trans hk)
  have er : dot_S1x9216_S9216x1_S1x1_1_0_0_1_n_n.rhsIdx (ix2 (0 : Fin 1) (0 : Fin 1)) ((contrEquiv1 dot_S1x9216_S9216x1_S1x1_1_0_0_1_n_n 9216 rfl rfl).symm k) = ix2 k (0 : Fin 1) :=
    funext fun a => Fin.ext (by
      match a with
      | ⟨0, _⟩ => exact (conf_rhs_0 _ _).trans hk
      | ⟨1, _⟩ => exact conf_rhs_1 _ _)
  rw [el, er]

theorem col_sum_apply (src : FVec Ideal S9216x1 .f32) (h : S9216x1.Reduces [0] S1) (hφ : FKind.Formats .f32)
    (hacc : (0x00000000#32 : BitVec 32) = FKind.add.neutral .f32 hφ) (hc : S1.ShapeCasts S1x1) :
    shapeCast S1x1 (multiReduction (F := Ideal) .add [0] S1 src 0x00000000#32 h hφ hacc) hc (ix2 (0 : Fin 1) (0 : Fin 1))
      = ∑ g : Fin 9216, src (ix2 g (0 : Fin 1)) := by
  rw [shapeCast_a_1a_apply]
  refine (Ideal.multiReduction_add_single src _ h hφ hacc (ix1 (0 : Fin 1))).trans ?_
  show ∑ k : Fin 9216, src (h.lift (ix1 (0 : Fin 1)) k) = _
  refine Finset.sum_congr rfl fun k _ => congrArg src (funext fun a => Fin.ext ?_)
  match a with
  | ⟨0, _⟩ => rfl
  | ⟨1, _⟩ => rfl

theorem last_of_eight (y0 y1 y2 y3 y4 y5 y6 y7 : FVec Ideal S1x1 .f32) (h : Shape.Concatenates [S1x1, S1x1, S1x1, S1x1, S1x1, S1x1, S1x1, S1x1] S1x8 1) :
    concatenate S1x8 1 [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (7 : Fin 8)) = y7 (ix2 (0 : Fin 1) (0 : Fin 1)) :=
  concatenate_apply_piece (t := S1x8) (1 : Fin 2) [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (7 : Fin 8)) 7 (show 7 < 8 by decide) S1x1 y7 rfl rfl 7 rfl (ix2 (0 : Fin 1) (0 : Fin 1))
    (fun b hb => by
      match b with
      | ⟨0, _⟩ => rfl
      | ⟨1, _⟩ => exact absurd rfl hb) rfl

theorem pay2_last (v3 : FVec Ideal S9216x1 .f32) (a36 a40 a44 a48 a52 a56 a62 : FVec Ideal S1x1 .f32)
    (v66 : FVec Ideal S1x9216 .f32) (v82 v84 : FVec Ideal S9216x1 .f32)
    (h84 : ∀ g : Fin 9216, v84 (ix2 g (0 : Fin 1)) = max (v3 (ix2 g (0 : Fin 1))) Cert.Spec.c0) :
    k0_pay2 (F := Ideal) v3 a36 a40 a44 a48 a52 a56 a62 v66 v82 (Scalar.ofBits .f32 0x00000000#32) v84
        (ix3 (0 : Fin 1) (0 : Fin 1) (7 : Fin 8))
      = Cert.Spec.c2 * (∑ g : Fin 9216, v66 (ix2 (0 : Fin 1) g) * v82 (ix2 g (0 : Fin 1)))
        + (∑ g : Fin 9216, Cert.Spec.softplus (v3 (ix2 g (0 : Fin 1))))
        - (∑ g : Fin 9216, v66 (ix2 (0 : Fin 1) g) * Cert.Spec.softplus (v3 (ix2 g (0 : Fin 1)))) := by
  unfold k0_pay2
  rw [shapeCast_ab_1ab_apply]
  refine (last_of_eight _ _ _ _ _ _ _ _ _).trans ?_
  have e1 := row_dot_col v66 v82
  have e2 := row_dot_col v66 (posCol v3 v84)
  have e3 := col_sum_apply (posCol v3 v84) reduces_S9216x1_S1 (.inl rfl) rfl shapeCasts_S1_S1x1
  refine (congrArg₂ (fun x y : EReal => x - y) (congrArg₂ (fun x y : EReal => Cert.Spec.c2 * x + y) e1 e3) e2).trans ?_
  simp only [posCol_apply v3 v84 h84]

theorem conf_term (v2 : Vec Ideal S1x9216x1 .f32) (v6 : Vec Ideal S1x32x1 .i32) (cell : Fin 32 → Fin 9216)
    [dec : ∀ g : Fin 9216, Decidable (∃ n : Fin 32, cell n = g)]
    (hcell : ∀ n, v6 (ix3 (0 : Fin 1) n (0 : Fin 1)) = BitVec.ofNat 32 (cell n).val)
    (a36 a40 a44 a48 a52 a56 a62 : FVec Ideal S1x1 .f32) :
    k0_pay2 (F := Ideal) (k0_pay3 v2) a36 a40 a44 a48 a52 a56 a62 (k0_pay29 (k0_pay6 v6)) (k0_pay30 (k0_pay3 v2))
        (Scalar.ofBits .f32 0x00000000#32) (k0_pay31 (k0_pay3 v2)) (ix3 (0 : Fin 1) (0 : Fin 1) (7 : Fin 8))
      = Cert.Spec.c2 * (∑ g : Fin 9216, (if ∃ n : Fin 32, cell n = g then Cert.Spec.c1 else 0)
            * Cert.Spec.softplus (-(v2 (ix3 (0 : Fin 1) g (0 : Fin 1)))))
        + (∑ g : Fin 9216, Cert.Spec.softplus (v2 (ix3 (0 : Fin 1) g (0 : Fin 1))))
        - (∑ g : Fin 9216, (if ∃ n : Fin 32, cell n = g then Cert.Spec.c1 else 0)
            * Cert.Spec.softplus (v2 (ix3 (0 : Fin 1) g (0 : Fin 1)))) := by
  refine (pay2_last (k0_pay3 v2) a36 a40 a44 a48 a52 a56 a62 _ _ _ (max_col (k0_pay3 v2))).trans ?_
  simp only [occ_row v6 cell hcell, neg_col, logit_col]

end Cert.KernelIdeal.Val0
end
-- ==== Proof.KI.Val0.lean ====
import proofs.«431468_j28140625724039_3_alg».proof.Proof.Gen.KernelIdeal.Skeleton
import proofs.«431468_j28140625724039_3_alg».proof.Proof.Spec
import proofs.«431468_j28140625724039_3_alg».proof.Proof.KI.Val0c
import Idealize.ShloMosaic.Lib.ValueLayout
import Idealize.ShloMosaic.Lib.IdealHost
import Idealize.ShloMosaic.PureOps.Ideal.Laws

noncomputable section
namespace Cert.KernelIdeal.Val0
open Idealize.ShloMosaic Idealize.ShloMosaic.ValueIdx Cert.KernelIdeal Cert.KernelIdeal.Gen

abbrev P7 (v0 : Vec Ideal S1x9216x6 .f32) (v6 : Vec Ideal S1x32x1 .i32) (v8 : Vec Ideal S1x32x8 .f32) : FVec Ideal S1x32x4 .f32 :=
  k0_pay1 (k0_pay9 v0 v6) (k0_pay10 v0 v6) (k0_pay12 v0 v6) (k0_pay13 v0 v6) (k0_pay19 v8) (k0_pay20 v8)

abbrev P8 (v0 : Vec Ideal S1x9216x6 .f32) (v2 : Vec Ideal S1x9216x1 .f32) (v4 : Vec Ideal S1x9216x63 .f32)
    (v6 : Vec Ideal S1x32x1 .i32) (v8 : Vec Ideal S1x32x8 .f32) (v10 : Vec Ideal S1x32x63 .f32) : FVec Ideal S1x1x8 .f32 :=
  k0_pay2 (k0_pay3 v2) (k0_pay21 v0 v6 v8) (k0_pay23 (k0_pay22 v0 v6 v8)) (k0_pay24 (k0_pay12 v0 v6) (k0_pay15 v8))
    (k0_pay25 (k0_pay13 v0 v6) (k0_pay16 v8)) (k0_pay26 (k0_pay11 v0 v6) (k0_pay17 v8)) (k0_pay27 (k0_pay14 v0 v6) (k0_pay18 v8))
    (k0_pay28 (k0_pay5 v10) (k0_pay8 v4 v6)) (k0_pay29 (k0_pay6 v6)) (k0_pay30 (k0_pay3 v2)) (Scalar.ofBits .f32 0x00000000#32)
    (k0_pay31 (k0_pay3 v2))

def T (cell : Fin 32 → Fin 9216) (g : Fin 9216) : EReal := if ∃ n : Fin 32, cell n = g then Cert.Spec.c1 else 0

theorem onehot_apply (v6 : Vec Ideal S1x32x1 .i32) (cell : Fin 32 → Fin 9216)
    (hcell : ∀ n, v6 (ix3 (0 : Fin 1) n (0 : Fin 1)) = BitVec.ofNat 32 (cell n).val) (n : Fin 32) (g : Fin 9216) :
    k0_pay6 (F := Ideal) v6 (ix2 n g) = if cell n = g then (1 : EReal) else 0 := by
  unfold k0_pay6
  rw [sitofp_apply, extui_apply]
  show FloatOps.sitofp (F := Ideal) .f32 ((IntOp.cmpi .eq (iota .tc S32x9216 32 [1] _ (ix2 n g)) (broadcastTo S32x9216 _ _ (ix2 n g))).setWidth 32) = _
  rw [iota_single_apply]
  rw [broadcastTo_apply _ _ (ix2 n g) (ix2 n (0 : Fin 1)) (fun a => by
    match a with
    | ⟨0, _⟩ => rfl
    | ⟨1, _⟩ => rfl)]
  rw [shapeCast_1ab_ab_apply, hcell n]
  show (((((IntOp.cmpi .eq (BitVec.ofNat 32 g.val) (BitVec.ofNat 32 (cell n).val)).setWidth 32).toInt : ℝ)) : EReal) = _
  by_cases h : cell n = g
  · rw [if_pos h, h, IntOp.cmpi_eq.mpr rfl]
    have e : (BitVec.setWidth 32 (1#1)).toInt = 1 := by decide
    rw [e]; norm_num
  · rw [if_neg h]
    have hne : IntOp.cmpi .eq (BitVec.ofNat 32 g.val) (BitVec.ofNat 32 (cell n).val) = 0#1 :=
      eq_zero_of_ne_one fun e => h (Fin.ext (by
        have e1 := congrArg BitVec.toNat (IntOp.cmpi_eq.mp e)
        simp only [BitVec.toNat_ofNat] at e1
        have := g.isLt; have := (cell n).isLt
        omega))
    rw [hne]
    have e : (BitVec.setWidth 32 (0#1)).toInt = 0 := by decide
    rw [e]; norm_num

theorem lhs6_0 (i : S32x6.Idx) (q : dot_S32x9216_S9216x6_S32x6_1_0_0_1_n_n.contr.Idx) :
    (dot_S32x9216_S9216x6_S32x6_1_0_0_1_n_n.lhsIdx i q 0).val = (i 0).val := by
  unfold DotDims.lhsIdx
  rw [dif_neg (show ¬(0 : Fin S32x9216.rank) ∈ dot_S32x9216_S9216x6_S32x6_1_0_0_1_n_n.lhsBatch by decide), dif_pos (show (0 : Fin S32x9216.rank) ∈ dot_S32x9216_S9216x6_S32x6_1_0_0_1_n_n.lhsNonContracting by decide)]
  rfl
theorem lhs6_1 (i : S32x6.Idx) (q : dot_S32x9216_S9216x6_S32x6_1_0_0_1_n_n.contr.Idx) :
    (dot_S32x9216_S9216x6_S32x6_1_0_0_1_n_n.lhsIdx i q 1).val = (q ⟨0, by decide⟩).val :=
  dot_S32x9216_S9216x6_S32x6_1_0_0_1_n_n.lhsIdx_val_of_single rfl i q
theorem rhs6_0 (i : S32x6.Idx) (q : dot_S32x9216_S9216x6_S32x6_1_0_0_1_n_n.contr.Idx) :
    (dot_S32x9216_S9216x6_S32x6_1_0_0_1_n_n.rhsIdx i q 0).val = (q ⟨0, by decide⟩).val :=
  dot_S32x9216_S9216x6_S32x6_1_0_0_1_n_n.rhsIdx_val_of_single rfl i q
theorem rhs6_1 (i : S32x6.Idx) (q : dot_S32x9216_S9216x6_S32x6_1_0_0_1_n_n.contr.Idx) :
    (dot_S32x9216_S9216x6_S32x6_1_0_0_1_n_n.rhsIdx i q 1).val = (i 1).val := by
  unfold DotDims.rhsIdx
  rw [dif_neg (show ¬(1 : Fin S9216x6.rank) ∈ dot_S32x9216_S9216x6_S32x6_1_0_0_1_n_n.rhsBatch by decide), dif_pos (show (1 : Fin S9216x6.rank) ∈ dot_S32x9216_S9216x6_S32x6_1_0_0_1_n_n.rhsNonContracting by decide)]
  rfl

theorem gather6 (v0 : Vec Ideal S1x9216x6 .f32) (v6 : Vec Ideal S1x32x1 .i32) (cell : Fin 32 → Fin 9216)
    (hcell : ∀ n, v6 (ix3 (0 : Fin 1) n (0 : Fin 1)) = BitVec.ofNat 32 (cell n).val) (n : Fin 32) (ch : Fin 6) :
    k0_pay7 (F := Ideal) v0 v6 (ix2 n ch) = v0 (ix3 (0 : Fin 1) (cell n) ch) := by
  unfold k0_pay7
  refine (Ideal.matmul_constant_zero_apply _ _ _ _ _).trans ?_
  rw [← Equiv.sum_comp (contrEquiv1 dot_S32x9216_S9216x6_S32x6_1_0_0_1_n_n 9216 rfl rfl).symm]
  refine (Finset.sum_congr rfl (g := fun k : Fin 9216 => if cell n = k then v0 (ix3 (0 : Fin 1) k ch) else 0) fun k _ => ?_).trans
    (by rw [Finset.sum_ite_eq, if_pos (Finset.mem_univ _)])
  have hk := contrEquiv1_symm_val dot_S32x9216_S9216x6_S32x6_1_0_0_1_n_n 9216 rfl rfl k
  have el : dot_S32x9216_S9216x6_S32x6_1_0_0_1_n_n.lhsIdx (ix2 n ch) ((contrEquiv1 dot_S32x9216_S9216x6_S32x6_1_0_0_1_n_n 9216 rfl rfl).symm k) = ix2 n k :=
    funext fun a => Fin.ext (by
      match a with
      | ⟨0, _⟩ => exact lhs6_0 _ _
      | ⟨1, _⟩ => exact (lhs6_1 _ _).trans hk)
  have er : dot_S32x9216_S9216x6_S32x6_1_0_0_1_n_n.rhsIdx (ix2 n ch) ((contrEquiv1 dot_S32x9216_S9216x6_S32x6_1_0_0_1_n_n 9216 rfl rfl).symm k) = ix2 k ch :=
    funext fun a => Fin.ext (by
      match a with
      | ⟨0, _⟩ => exact (rhs6_0 _ _).trans hk
      | ⟨1, _⟩ => exact rhs6_1 _ _)
  rw [el, er, onehot_apply v6 cell hcell, shapeCast_1ab_ab_apply]
  by_cases h : cell n = k
  · rw [if_pos h, if_pos h, one_mul]
  · rw [if_neg h, if_neg h, zero_mul]

theorem lhs63_0 (i : S32x63.Idx) (q : dot_S32x9216_S9216x63_S32x63_1_0_0_1_n_n.contr.Idx) :
    (dot_S32x9216_S9216x63_S32x63_1_0_0_1_n_n.lhsIdx i q 0).val = (i 0).val := by
  unfold DotDims.lhsIdx
  rw [dif_neg (show ¬(0 : Fin S32x9216.rank) ∈ dot_S32x9216_S9216x63_S32x63_1_0_0_1_n_n.lhsBatch by decide), dif_pos (show (0 : Fin S32x9216.rank) ∈ dot_S32x9216_S9216x63_S32x63_1_0_0_1_n_n.lhsNonContracting by decide)]
  rfl
theorem lhs63_1 (i : S32x63.Idx) (q : dot_S32x9216_S9216x63_S32x63_1_0_0_1_n_n.contr.Idx) :
    (dot_S32x9216_S9216x63_S32x63_1_0_0_1_n_n.lhsIdx i q 1).val = (q ⟨0, by decide⟩).val :=
  dot_S32x9216_S9216x63_S32x63_1_0_0_1_n_n.lhsIdx_val_of_single rfl i q
theorem rhs63_0 (i : S32x63.Idx) (q : dot_S32x9216_S9216x63_S32x63_1_0_0_1_n_n.contr.Idx) :
    (dot_S32x9216_S9216x63_S32x63_1_0_0_1_n_n.rhsIdx i q 0).val = (q ⟨0, by decide⟩).val :=
  dot_S32x9216_S9216x63_S32x63_1_0_0_1_n_n.rhsIdx_val_of_single rfl i q
theorem rhs63_1 (i : S32x63.Idx) (q : dot_S32x9216_S9216x63_S32x63_1_0_0_1_n_n.contr.Idx) :
    (dot_S32x9216_S9216x63_S32x63_1_0_0_1_n_n.rhsIdx i q 1).val = (i 1).val := by
  unfold DotDims.rhsIdx
  rw [dif_neg (show ¬(1 : Fin S9216x63.rank) ∈ dot_S32x9216_S9216x63_S32x63_1_0_0_1_n_n.rhsBatch by decide), dif_pos (show (1 : Fin S9216x63.rank) ∈ dot_S32x9216_S9216x63_S32x63_1_0_0_1_n_n.rhsNonContracting by decide)]
  rfl

theorem gather63 (v4 : Vec Ideal S1x9216x63 .f32) (v6 : Vec Ideal S1x32x1 .i32) (cell : Fin 32 → Fin 9216)
    (hcell : ∀ n, v6 (ix3 (0 : Fin 1) n (0 : Fin 1)) = BitVec.ofNat 32 (cell n).val) (n : Fin 32) (k : Fin 63) :
    k0_pay8 (F := Ideal) v4 v6 (ix2 n k) = v4 (ix3 (0 : Fin 1) (cell n) k) := by
  unfold k0_pay8
  refine (Ideal.matmul_constant_zero_apply _ _ _ _ _).trans ?_
  rw [← Equiv.sum_comp (contrEquiv1 dot_S32x9216_S9216x63_S32x63_1_0_0_1_n_n 9216 rfl rfl).symm]
  refine (Finset.sum_congr rfl (g := fun g : Fin 9216 => if cell n = g then v4 (ix3 (0 : Fin 1) g k) else 0) fun g _ => ?_).trans
    (by rw [Finset.sum_ite_eq, if_pos (Finset.mem_univ _)])
  have hk := contrEquiv1_symm_val dot_S32x9216_S9216x63_S32x63_1_0_0_1_n_n 9216 rfl rfl g
  have el : dot_S32x9216_S9216x63_S32x63_1_0_0_1_n_n.lhsIdx (ix2 n k) ((contrEquiv1 dot_S32x9216_S9216x63_S32x63_1_0_0_1_n_n 9216 rfl rfl).symm g) = ix2 n g :=
    funext fun a => Fin.ext (by
      match a with
      | ⟨0, _⟩ => exact lhs63_0 _ _
      | ⟨1, _⟩ => exact (lhs63_1 _ _).trans hk)
  have er : dot_S32x9216_S9216x63_S32x63_1_0_0_1_n_n.rhsIdx (ix2 n k) ((contrEquiv1 dot_S32x9216_S9216x63_S32x63_1_0_0_1_n_n 9216 rfl rfl).symm g) = ix2 g k :=
    funext fun a => Fin.ext (by
      match a with
      | ⟨0, _⟩ => exact (rhs63_0 _ _).trans hk
      | ⟨1, _⟩ => exact rhs63_1 _ _)
  rw [el, er, onehot_apply v6 cell hcell, shapeCast_1ab_ab_apply]
  by_cases h : cell n = g
  · rw [if_pos h, if_pos h, one_mul]
  · rw [if_neg h, if_neg h, zero_mul]

section Columns
variable (v0 : Vec Ideal S1x9216x6 .f32) (v6 : Vec Ideal S1x32x1 .i32) (v8 : Vec Ideal S1x32x8 .f32)
  (cell : Fin 32 → Fin 9216) (hcell : ∀ n, v6 (ix3 (0 : Fin 1) n (0 : Fin 1)) = BitVec.ofNat 32 (cell n).val) (n : Fin 32)

theorem pay15_apply : k0_pay15 (F := Ideal) v8 (ix2 n (0 : Fin 1)) = v8 (ix3 (0 : Fin 1) n (2 : Fin 8)) := by
  unfold k0_pay15 k0_pay4
  exact (slice2_axis1_apply 2 _ _ n (0 : Fin 1) (2 : Fin 8) rfl).trans (shapeCast_1ab_ab_apply _ _ _ _)
theorem pay16_apply : k0_pay16 (F := Ideal) v8 (ix2 n (0 : Fin 1)) = v8 (ix3 (0 : Fin 1) n (3 : Fin 8)) := by
  unfold k0_pay16 k0_pay4
  exact (slice2_axis1_apply 3 _ _ n (0 : Fin 1) (3 : Fin 8) rfl).trans (shapeCast_1ab_ab_apply _ _ _ _)
theorem pay17_apply : k0_pay17 (F := Ideal) v8 (ix2 n (0 : Fin 1)) = v8 (ix3 (0 : Fin 1) n (4 : Fin 8)) := by
  unfold k0_pay17 k0_pay4
  exact (slice2_axis1_apply 4 _ _ n (0 : Fin 1) (4 : Fin 8) rfl).trans (shapeCast_1ab_ab_apply _ _ _ _)
theorem pay18_apply : k0_pay18 (F := Ideal) v8 (ix2 n (0 : Fin 1)) = v8 (ix3 (0 : Fin 1) n (5 : Fin 8)) := by
  unfold k0_pay18 k0_pay4
  exact (slice2_axis1_apply 5 _ _ n (0 : Fin 1) (5 : Fin 8) rfl).trans (shapeCast_1ab_ab_apply _ _ _ _)
theorem pay19_apply : k0_pay19 (F := Ideal) v8 (ix2 n (0 : Fin 1)) = v8 (ix3 (0 : Fin 1) n (6 : Fin 8)) := by
  unfold k0_pay19 k0_pay4
  exact (slice2_axis1_apply 6 _ _ n (0 : Fin 1) (6 : Fin 8) rfl).trans (shapeCast_1ab_ab_apply _ _ _ _)
theorem pay20_apply : k0_pay20 (F := Ideal) v8 (ix2 n (0 : Fin 1)) = v8 (ix3 (0 : Fin 1) n (7 : Fin 8)) := by
  unfold k0_pay20 k0_pay4
  exact (slice2_axis1_apply 7 _ _ n (0 : Fin 1) (7 : Fin 8) rfl).trans (shapeCast_1ab_ab_apply _ _ _ _)

include hcell
theorem pay9_apply : k0_pay9 (F := Ideal) v0 v6 (ix2 n (0 : Fin 1)) = v0 (ix3 (0 : Fin 1) (cell n) (0 : Fin 6)) := by
  unfold k0_pay9
  exact (slice2_axis1_apply 0 _ _ n (0 : Fin 1) (0 : Fin 6) rfl).trans (gather6 v0 v6 cell hcell n _)
theorem pay10_apply : k0_pay10 (F := Ideal) v0 v6 (ix2 n (0 : Fin 1)) = v0 (ix3 (0 : Fin 1) (cell n) (1 : Fin 6)) := by
  unfold k0_pay10
  exact (slice2_axis1_apply 1 _ _ n (0 : Fin 1) (1 : Fin 6) rfl).trans (gather6 v0 v6 cell hcell n _)
theorem pay11_apply : k0_pay11 (F := Ideal) v0 v6 (ix2 n (0 : Fin 1)) = v0 (ix3 (0 : Fin 1) (cell n) (2 : Fin 6)) := by
  unfold k0_pay11
  exact (slice2_axis1_apply 2 _ _ n (0 : Fin 1) (2 : Fin 6) rfl).trans (gather6 v0 v6 cell hcell n _)
theorem pay12_apply : k0_pay12 (F := Ideal) v0 v6 (ix2 n (0 : Fin 1)) = v0 (ix3 (0 : Fin 1) (cell n) (3 : Fin 6)) := by
  unfold k0_pay12
  exact (slice2_axis1_apply 3 _ _ n (0 : Fin 1) (3 : Fin 6) rfl).trans (gather6 v0 v6 cell hcell n _)
theorem pay13_apply : k0_pay13 (F := Ideal) v0 v6 (ix2 n (0 : Fin 1)) = v0 (ix3 (0 : Fin 1) (cell n) (4 : Fin 6)) := by
  unfold k0_pay13
  exact (slice2_axis1_apply 4 _ _ n (0 : Fin 1) (4 : Fin 6) rfl).trans (gather6 v0 v6 cell hcell n _)
theorem pay14_apply : k0_pay14 (F := Ideal) v0 v6 (ix2 n (0 : Fin 1)) = v0 (ix3 (0 : Fin 1) (cell n) (5 : Fin 6)) := by
  unfold k0_pay14
  exact (slice2_axis1_apply 5 _ _ n (0 : Fin 1) (5 : Fin 6) rfl).trans (gather6 v0 v6 cell hcell n _)

end Columns

theorem sum32_apply (src : FVec Ideal S32x1 .f32) (h : S32x1.Reduces [0] S1) (hφ : FKind.Formats .f32)
    (hacc : (0x00000000#32 : BitVec 32) = FKind.add.neutral .f32 hφ) (hc : S1.ShapeCasts S1x1) :
    shapeCast S1x1 (multiReduction (F := Ideal) .add [0] S1 src 0x00000000#32 h hφ hacc) hc (ix2 (0 : Fin 1) (0 : Fin 1))
      = ∑ n : Fin 32, src (ix2 n (0 : Fin 1)) := by
  rw [shapeCast_a_1a_apply]
  refine (Ideal.multiReduction_add_single src _ h hφ hacc (ix1 (0 : Fin 1))).trans ?_
  show ∑ k : Fin 32, src (h.lift (ix1 (0 : Fin 1)) k) = _
  refine Finset.sum_congr rfl fun k _ => congrArg src (funext fun a => Fin.ext ?_)
  match a with
  | ⟨0, _⟩ => rfl
  | ⟨1, _⟩ => rfl

theorem cat4_0 (x0 x1 x2 x3 : FVec Ideal S32x1 .f32) (h : Shape.Concatenates [S32x1, S32x1, S32x1, S32x1] S32x4 1) (n : Fin 32) :
    concatenate S32x4 1 [⟨S32x1, x0⟩, ⟨S32x1, x1⟩, ⟨S32x1, x2⟩, ⟨S32x1, x3⟩] h (ix2 n (0 : Fin 4)) = x0 (ix2 n (0 : Fin 1)) :=
  concatenate_apply_piece (t := S32x4) (1 : Fin 2) [⟨S32x1, x0⟩, ⟨S32x1, x1⟩, ⟨S32x1, x2⟩, ⟨S32x1, x3⟩] h (ix2 n (0 : Fin 4)) 0 (show 0 < 4 by decide) S32x1 x0 rfl rfl 0 rfl (ix2 n (0 : Fin 1))
    (fun b hb => by
      match b with
      | ⟨0, _⟩ => rfl
      | ⟨1, _⟩ => exact absurd rfl hb) rfl

theorem cat4_1 (x0 x1 x2 x3 : FVec Ideal S32x1 .f32) (h : Shape.Concatenates [S32x1, S32x1, S32x1, S32x1] S32x4 1) (n : Fin 32) :
    concatenate S32x4 1 [⟨S32x1, x0⟩, ⟨S32x1, x1⟩, ⟨S32x1, x2⟩, ⟨S32x1, x3⟩] h (ix2 n (1 : Fin 4)) = x1 (ix2 n (0 : Fin 1)) :=
  concatenate_apply_piece (t := S32x4) (1 : Fin 2) [⟨S32x1, x0⟩, ⟨S32x1, x1⟩, ⟨S32x1, x2⟩, ⟨S32x1, x3⟩] h (ix2 n (1 : Fin 4)) 1 (show 1 < 4 by decide) S32x1 x1 rfl rfl 1 rfl (ix2 n (0 : Fin 1))
    (fun b hb => by
      match b with
      | ⟨0, _⟩ => rfl
      | ⟨1, _⟩ => exact absurd rfl hb) rfl

theorem cat4_2 (x0 x1 x2 x3 : FVec Ideal S32x1 .f32) (h : Shape.Concatenates [S32x1, S32x1, S32x1, S32x1] S32x4 1) (n : Fin 32) :
    concatenate S32x4 1 [⟨S32x1, x0⟩, ⟨S32x1, x1⟩, ⟨S32x1, x2⟩, ⟨S32x1, x3⟩] h (ix2 n (2 : Fin 4)) = x2 (ix2 n (0 : Fin 1)) :=
  concatenate_apply_piece (t := S32x4) (1 : Fin 2) [⟨S32x1, x0⟩, ⟨S32x1, x1⟩, ⟨S32x1, x2⟩, ⟨S32x1, x3⟩] h (ix2 n (2 : Fin 4)) 2 (show 2 < 4 by decide) S32x1 x2 rfl rfl 2 rfl (ix2 n (0 : Fin 1))
    (fun b hb => by
      match b with
      | ⟨0, _⟩ => rfl
      | ⟨1, _⟩ => exact absurd rfl hb) rfl

theorem cat4_3 (x0 x1 x2 x3 : FVec Ideal S32x1 .f32) (h : Shape.Concatenates [S32x1, S32x1, S32x1, S32x1] S32x4 1) (n : Fin 32) :
    concatenate S32x4 1 [⟨S32x1, x0⟩, ⟨S32x1, x1⟩, ⟨S32x1, x2⟩, ⟨S32x1, x3⟩] h (ix2 n (3 : Fin 4)) = x3 (ix2 n (0 : Fin 1)) :=
  concatenate_apply_piece (t := S32x4) (1 : Fin 2) [⟨S32x1, x0⟩, ⟨S32x1, x1⟩, ⟨S32x1, x2⟩, ⟨S32x1, x3⟩] h (ix2 n (3 : Fin 4)) 3 (show 3 < 4 by decide) S32x1 x3 rfl rfl 3 rfl (ix2 n (0 : Fin 1))
    (fun b hb => by
      match b with
      | ⟨0, _⟩ => rfl
      | ⟨1, _⟩ => exact absurd rfl hb) rfl

theorem cat8_0 (y0 y1 y2 y3 y4 y5 y6 y7 : FVec Ideal S1x1 .f32) (h : Shape.Concatenates [S1x1, S1x1, S1x1, S1x1, S1x1, S1x1, S1x1, S1x1] S1x8 1) :
    concatenate S1x8 1 [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (0 : Fin 8)) = y0 (ix2 (0 : Fin 1) (0 : Fin 1)) :=
  concatenate_apply_piece (t := S1x8) (1 : Fin 2) [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (0 : Fin 8)) 0 (show 0 < 8 by decide) S1x1 y0 rfl rfl 0 rfl (ix2 (0 : Fin 1) (0 : Fin 1))
    (fun b hb => by
      match b with
      | ⟨0, _⟩ => rfl
      | ⟨1, _⟩ => exact absurd rfl hb) rfl

theorem cat8_1 (y0 y1 y2 y3 y4 y5 y6 y7 : FVec Ideal S1x1 .f32) (h : Shape.Concatenates [S1x1, S1x1, S1x1, S1x1, S1x1, S1x1, S1x1, S1x1] S1x8 1) :
    concatenate S1x8 1 [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (1 : Fin 8)) = y1 (ix2 (0 : Fin 1) (0 : Fin 1)) :=
  concatenate_apply_piece (t := S1x8) (1 : Fin 2) [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (1 : Fin 8)) 1 (show 1 < 8 by decide) S1x1 y1 rfl rfl 1 rfl (ix2 (0 : Fin 1) (0 : Fin 1))
    (fun b hb => by
      match b with
      | ⟨0, _⟩ => rfl
      | ⟨1, _⟩ => exact absurd rfl hb) rfl

theorem cat8_2 (y0 y1 y2 y3 y4 y5 y6 y7 : FVec Ideal S1x1 .f32) (h : Shape.Concatenates [S1x1, S1x1, S1x1, S1x1, S1x1, S1x1, S1x1, S1x1] S1x8 1) :
    concatenate S1x8 1 [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (2 : Fin 8)) = y2 (ix2 (0 : Fin 1) (0 : Fin 1)) :=
  concatenate_apply_piece (t := S1x8) (1 : Fin 2) [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (2 : Fin 8)) 2 (show 2 < 8 by decide) S1x1 y2 rfl rfl 2 rfl (ix2 (0 : Fin 1) (0 : Fin 1))
    (fun b hb => by
      match b with
      | ⟨0, _⟩ => rfl
      | ⟨1, _⟩ => exact absurd rfl hb) rfl

theorem cat8_3 (y0 y1 y2 y3 y4 y5 y6 y7 : FVec Ideal S1x1 .f32) (h : Shape.Concatenates [S1x1, S1x1, S1x1, S1x1, S1x1, S1x1, S1x1, S1x1] S1x8 1) :
    concatenate S1x8 1 [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (3 : Fin 8)) = y3 (ix2 (0 : Fin 1) (0 : Fin 1)) :=
  concatenate_apply_piece (t := S1x8) (1 : Fin 2) [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (3 : Fin 8)) 3 (show 3 < 8 by decide) S1x1 y3 rfl rfl 3 rfl (ix2 (0 : Fin 1) (0 : Fin 1))
    (fun b hb => by
      match b with
      | ⟨0, _⟩ => rfl
      | ⟨1, _⟩ => exact absurd rfl hb) rfl

theorem cat8_4 (y0 y1 y2 y3 y4 y5 y6 y7 : FVec Ideal S1x1 .f32) (h : Shape.Concatenates [S1x1, S1x1, S1x1, S1x1, S1x1, S1x1, S1x1, S1x1] S1x8 1) :
    concatenate S1x8 1 [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (4 : Fin 8)) = y4 (ix2 (0 : Fin 1) (0 : Fin 1)) :=
  concatenate_apply_piece (t := S1x8) (1 : Fin 2) [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (4 : Fin 8)) 4 (show 4 < 8 by decide) S1x1 y4 rfl rfl 4 rfl (ix2 (0 : Fin 1) (0 : Fin 1))
    (fun b hb => by
      match b with
      | ⟨0, _⟩ => rfl
      | ⟨1, _⟩ => exact absurd rfl hb) rfl

theorem cat8_5 (y0 y1 y2 y3 y4 y5 y6 y7 : FVec Ideal S1x1 .f32) (h : Shape.Concatenates [S1x1, S1x1, S1x1, S1x1, S1x1, S1x1, S1x1, S1x1] S1x8 1) :
    concatenate S1x8 1 [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (5 : Fin 8)) = y5 (ix2 (0 : Fin 1) (0 : Fin 1)) :=
  concatenate_apply_piece (t := S1x8) (1 : Fin 2) [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (5 : Fin 8)) 5 (show 5 < 8 by decide) S1x1 y5 rfl rfl 5 rfl (ix2 (0 : Fin 1) (0 : Fin 1))
    (fun b hb => by
      match b with
      | ⟨0, _⟩ => rfl
      | ⟨1, _⟩ => exact absurd rfl hb) rfl

theorem cat8_6 (y0 y1 y2 y3 y4 y5 y6 y7 : FVec Ideal S1x1 .f32) (h : Shape.Concatenates [S1x1, S1x1, S1x1, S1x1, S1x1, S1x1, S1x1, S1x1] S1x8 1) :
    concatenate S1x8 1 [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (6 : Fin 8)) = y6 (ix2 (0 : Fin 1) (0 : Fin 1)) :=
  concatenate_apply_piece (t := S1x8) (1 : Fin 2) [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (6 : Fin 8)) 6 (show 6 < 8 by decide) S1x1 y6 rfl rfl 6 rfl (ix2 (0 : Fin 1) (0 : Fin 1))
    (fun b hb => by
      match b with
      | ⟨0, _⟩ => rfl
      | ⟨1, _⟩ => exact absurd rfl hb) rfl

theorem cat8_7 (y0 y1 y2 y3 y4 y5 y6 y7 : FVec Ideal S1x1 .f32) (h : Shape.Concatenates [S1x1, S1x1, S1x1, S1x1, S1x1, S1x1, S1x1, S1x1] S1x8 1) :
    concatenate S1x8 1 [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (7 : Fin 8)) = y7 (ix2 (0 : Fin 1) (0 : Fin 1)) :=
  concatenate_apply_piece (t := S1x8) (1 : Fin 2) [⟨S1x1, y0⟩, ⟨S1x1, y1⟩, ⟨S1x1, y2⟩, ⟨S1x1, y3⟩, ⟨S1x1, y4⟩, ⟨S1x1, y5⟩, ⟨S1x1, y6⟩, ⟨S1x1, y7⟩] h (ix2 (0 : Fin 1) (7 : Fin 8)) 7 (show 7 < 8 by decide) S1x1 y7 rfl rfl 7 rfl (ix2 (0 : Fin 1) (0 : Fin 1))
    (fun b hb => by
      match b with
      | ⟨0, _⟩ => rfl
      | ⟨1, _⟩ => exact absurd rfl hb) rfl

theorem rowsum63_apply (src : FVec Ideal S32x63 .f32) (h : S32x63.Reduces [1] S32) (hφ : FKind.Formats .f32)
    (hacc : (0x00000000#32 : BitVec 32) = FKind.add.neutral .f32 hφ) (n : Fin 32) :
    multiReduction (F := Ideal) .add [1] S32 src 0x00000000#32 h hφ hacc (ix1 n) = ∑ k : Fin 63, src (ix2 n k) := by
  refine (Ideal.multiReduction_add_single src _ h hφ hacc (ix1 n)).trans ?_
  show ∑ k : Fin 63, src (h.lift (ix1 n) k) = _
  refine Finset.sum_congr rfl fun k _ => congrArg src (funext fun a => Fin.ext ?_)
  match a with
  | ⟨0, _⟩ => rfl
  | ⟨1, _⟩ => rfl

theorem col_of_vec32 {α : Type} (x : S32.Idx → α) (h : S32.ShapeCasts S32x1) (n : Fin 32) :
    shapeCast S32x1 x h (ix2 n (0 : Fin 1)) = x (ix1 n) :=
  shapeCast_apply x h _ _ (by
    rw [Shape.rowMajor_val_one, Shape.rowMajor_val_two]
    show n.val = n.val * 1 + 0
    omega)

theorem tcol0_apply (v8 : Vec Ideal S1x32x8 .f32) (h : S32x8.Slices ![0, 0] S32x1) (n : Fin 32) :
    extractStridedSlice S32x1 ![0, 0] (k0_pay4 (F := Ideal) v8) h (ix2 n (0 : Fin 1)) = v8 (ix3 (0 : Fin 1) n (0 : Fin 8)) := by
  unfold k0_pay4
  exact (slice2_axis1_apply 0 _ _ n (0 : Fin 1) (0 : Fin 8) rfl).trans (shapeCast_1ab_ab_apply _ _ _ _)
theorem tcol1_apply (v8 : Vec Ideal S1x32x8 .f32) (h : S32x8.Slices ![0, 1] S32x1) (n : Fin 32) :
    extractStridedSlice S32x1 ![0, 1] (k0_pay4 (F := Ideal) v8) h (ix2 n (0 : Fin 1)) = v8 (ix3 (0 : Fin 1) n (1 : Fin 8)) := by
  unfold k0_pay4
  exact (slice2_axis1_apply 1 _ _ n (0 : Fin 1) (1 : Fin 8) rfl).trans (shapeCast_1ab_ab_apply _ _ _ _)

section Statements
variable (v0 : Vec Ideal S1x9216x6 .f32) (v2 : Vec Ideal S1x9216x1 .f32) (v4 : Vec Ideal S1x9216x63 .f32)
  (v6 : Vec Ideal S1x32x1 .i32) (v8 : Vec Ideal S1x32x8 .f32) (v10 : Vec Ideal S1x32x63 .f32)
  (cell : Fin 32 → Fin 9216) (hcell : ∀ n, v6 (ix3 (0 : Fin 1) n (0 : Fin 1)) = BitVec.ofNat 32 (cell n).val)
include hcell

theorem P7_0 (n : Fin 32) : P7 v0 v6 v8 (ix3 (0 : Fin 1) n (0 : Fin 4)) = v0 (ix3 (0 : Fin 1) (cell n) (0 : Fin 6)) + v8 (ix3 (0 : Fin 1) n (6 : Fin 8)) := by
  unfold P7 k0_pay1
  rw [shapeCast_ab_1ab_apply]
  refine (cat4_0 _ _ _ _ _ n).trans ?_
  rw [addf_apply, pay9_apply v0 v6 cell hcell, pay19_apply]
theorem P7_1 (n : Fin 32) : P7 v0 v6 v8 (ix3 (0 : Fin 1) n (1 : Fin 4)) = v0 (ix3 (0 : Fin 1) (cell n) (1 : Fin 6)) + v8 (ix3 (0 : Fin 1) n (7 : Fin 8)) := by
  unfold P7 k0_pay1
  rw [shapeCast_ab_1ab_apply]
  refine (cat4_1 _ _ _ _ _ n).trans ?_
  rw [addf_apply, pay10_apply v0 v6 cell hcell, pay20_apply]
theorem P7_2 (n : Fin 32) : P7 v0 v6 v8 (ix3 (0 : Fin 1) n (2 : Fin 4)) = Ideal.exp (v0 (ix3 (0 : Fin 1) (cell n) (3 : Fin 6))) * Cert.Spec.c3 := by
  unfold P7 k0_pay1
  rw [shapeCast_ab_1ab_apply]
  refine (cat4_2 _ _ _ _ _ n).trans ?_
  show Ideal.exp (k0_pay12 (F := Ideal) v0 v6 (ix2 n (0 : Fin 1))) * Cert.Spec.c3 = _
  rw [pay12_apply v0 v6 cell hcell]
theorem P7_3 (n : Fin 32) : P7 v0 v6 v8 (ix3 (0 : Fin 1) n (3 : Fin 4)) = Ideal.exp (v0 (ix3 (0 : Fin 1) (cell n) (4 : Fin 6))) * Cert.Spec.c3 := by
  unfold P7 k0_pay1
  rw [shapeCast_ab_1ab_apply]
  refine (cat4_3 _ _ _ _ _ n).trans ?_
  show Ideal.exp (k0_pay13 (F := Ideal) v0 v6 (ix2 n (0 : Fin 1))) * Cert.Spec.c3 = _
  rw [pay13_apply v0 v6 cell hcell]

theorem P8_0 : P8 v0 v2 v4 v6 v8 v10 (ix3 (0 : Fin 1) (0 : Fin 1) (0 : Fin 8)) = ∑ n : Fin 32, Cert.Spec.absE (v0 (ix3 (0 : Fin 1) (cell n) (0 : Fin 6)) - v8 (ix3 (0 : Fin 1) n (0 : Fin 8))) := by
  unfold P8 k0_pay2
  rw [shapeCast_ab_1ab_apply]
  refine (cat8_0 _ _ _ _ _ _ _ _ _).trans ?_
  unfold k0_pay21
  refine (sum32_apply _ _ _ _ _).trans (Finset.sum_congr rfl fun n _ => ?_)
  show Cert.Spec.absE (k0_pay9 (F := Ideal) v0 v6 (ix2 n (0 : Fin 1)) - extractStridedSlice S32x1 ![0, 0] (k0_pay4 (F := Ideal) v8) _ (ix2 n (0 : Fin 1))) = _
  rw [pay9_apply v0 v6 cell hcell, tcol0_apply]
theorem P8_1 : P8 v0 v2 v4 v6 v8 v10 (ix3 (0 : Fin 1) (0 : Fin 1) (1 : Fin 8)) = ∑ n : Fin 32, Cert.Spec.absE (v0 (ix3 (0 : Fin 1) (cell n) (1 : Fin 6)) - v8 (ix3 (0 : Fin 1) n (1 : Fin 8))) := by
  unfold P8 k0_pay2
  rw [shapeCast_ab_1ab_apply]
  refine (cat8_1 _ _ _ _ _ _ _ _ _).trans ?_
  unfold k0_pay23 k0_pay22
  refine (sum32_apply _ _ _ _ _).trans (Finset.sum_congr rfl fun n _ => ?_)
  show Cert.Spec.absE (k0_pay10 (F := Ideal) v0 v6 (ix2 n (0 : Fin 1)) - extractStridedSlice S32x1 ![0, 1] (k0_pay4 (F := Ideal) v8) _ (ix2 n (0 : Fin 1))) = _
  rw [pay10_apply v0 v6 cell hcell, tcol1_apply]
theorem P8_2 : P8 v0 v2 v4 v6 v8 v10 (ix3 (0 : Fin 1) (0 : Fin 1) (2 : Fin 8)) = ∑ n : Fin 32, Cert.Spec.absE (v0 (ix3 (0 : Fin 1) (cell n) (3 : Fin 6)) - v8 (ix3 (0 : Fin 1) n (2 : Fin 8))) := by
  unfold P8 k0_pay2
  rw [shapeCast_ab_1ab_apply]
  refine (cat8_2 _ _ _ _ _ _ _ _ _).trans ?_
  unfold k0_pay24
  refine (sum32_apply _ _ _ _ _).trans (Finset.sum_congr rfl fun n _ => ?_)
  show Cert.Spec.absE (k0_pay12 (F := Ideal) v0 v6 (ix2 n (0 : Fin 1)) - k0_pay15 (F := Ideal) v8 (ix2 n (0 : Fin 1))) = _
  rw [pay12_apply v0 v6 cell hcell, pay15_apply]
theorem P8_3 : P8 v0 v2 v4 v6 v8 v10 (ix3 (0 : Fin 1) (0 : Fin 1) (3 : Fin 8)) = ∑ n : Fin 32, Cert.Spec.absE (v0 (ix3 (0 : Fin 1) (cell n) (4 : Fin 6)) - v8 (ix3 (0 : Fin 1) n (3 : Fin 8))) := by
  unfold P8 k0_pay2
  rw [shapeCast_ab_1ab_apply]
  refine (cat8_3 _ _ _ _ _ _ _ _ _).trans ?_
  unfold k0_pay25
  refine (sum32_apply _ _ _ _ _).trans (Finset.sum_congr rfl fun n _ => ?_)
  show Cert.Spec.absE (k0_pay13 (F := Ideal) v0 v6 (ix2 n (0 : Fin 1)) - k0_pay16 (F := Ideal) v8 (ix2 n (0 : Fin 1))) = _
  rw [pay13_apply v0 v6 cell hcell, pay16_apply]
theorem P8_4 : P8 v0 v2 v4 v6 v8 v10 (ix3 (0 : Fin 1) (0 : Fin 1) (4 : Fin 8)) = ∑ n : Fin 32, Cert.Spec.absE (v0 (ix3 (0 : Fin 1) (cell n) (2 : Fin 6)) - v8 (ix3 (0 : Fin 1) n (4 : Fin 8))) := by
  unfold P8 k0_pay2
  rw [shapeCast_ab_1ab_apply]
  refine (cat8_4 _ _ _ _ _ _ _ _ _).trans ?_
  unfold k0_pay26
  refine (sum32_apply _ _ _ _ _).trans (Finset.sum_congr rfl fun n _ => ?_)
  show Cert.Spec.absE (k0_pay11 (F := Ideal) v0 v6 (ix2 n (0 : Fin 1)) - k0_pay17 (F := Ideal) v8 (ix2 n (0 : Fin 1))) = _
  rw [pay11_apply v0 v6 cell hcell, pay17_apply]
theorem P8_5 : P8 v0 v2 v4 v6 v8 v10 (ix3 (0 : Fin 1) (0 : Fin 1) (5 : Fin 8)) = ∑ n : Fin 32, Cert.Spec.absE (v0 (ix3 (0 : Fin 1) (cell n) (5 : Fin 6)) - v8 (ix3 (0 : Fin 1) n (5 : Fin 8))) := by
  unfold P8 k0_pay2
  rw [shapeCast_ab_1ab_apply]
  refine (cat8_5 _ _ _ _ _ _ _ _ _).trans ?_
  unfold k0_pay27
  refine (sum32_apply _ _ _ _ _).trans (Finset.sum_congr rfl fun n _ => ?_)
  show Cert.Spec.absE (k0_pay14 (F := Ideal) v0 v6 (ix2 n (0 : Fin 1)) - k0_pay18 (F := Ideal) v8 (ix2 n (0 : Fin 1))) = _
  rw [pay14_apply v0 v6 cell hcell, pay18_apply]
theorem P8_6 : P8 v0 v2 v4 v6 v8 v10 (ix3 (0 : Fin 1) (0 : Fin 1) (6 : Fin 8)) = ∑ n : Fin 32, ∑ k : Fin 63, Cert.Spec.absE (v4 (ix3 (0 : Fin 1) (cell n) k) - v10 (ix3 (0 : Fin 1) n k)) := by
  unfold P8 k0_pay2
  rw [shapeCast_ab_1ab_apply]
  refine (cat8_6 _ _ _ _ _ _ _ _ _).trans ?_
  unfold k0_pay28
  refine (sum32_apply _ _ _ _ _).trans (Finset.sum_congr rfl fun n _ => ?_)
  refine (col_of_vec32 _ _ n).trans ((rowsum63_apply _ _ _ _ n).trans (Finset.sum_congr rfl fun k _ => ?_))
  show Cert.Spec.absE (k0_pay8 (F := Ideal) v4 v6 (ix2 n k) - k0_pay5 (F := Ideal) v10 (ix2 n k)) = _
  rw [gather63 v4 v6 cell hcell]
  unfold k0_pay5
  rw [shapeCast_1ab_ab_apply]
theorem P8_7 : P8 v0 v2 v4 v6 v8 v10 (ix3 (0 : Fin 1) (0 : Fin 1) (7 : Fin 8)) =
    Cert.Spec.c2 * (∑ g : Fin 9216, T cell g * Cert.Spec.softplus (-(v2 (ix3 (0 : Fin 1) g (0 : Fin 1)))))
      + (∑ g : Fin 9216, Cert.Spec.softplus (v2 (ix3 (0 : Fin 1) g (0 : Fin 1))))
      - (∑ g : Fin 9216, T cell g * Cert.Spec.softplus (v2 (ix3 (0 : Fin 1) g (0 : Fin 1)))) := by
  unfold P8 T
  exact conf_term (dec := _) v2 v6 cell hcell _ _ _ _ _ _ _
end Statements

end Cert.KernelIdeal.Val0
end
-- ==== Proof.KI.KOut0A.lean ====
import proofs.«431468_j28140625724039_3_alg».proof.Proof.KI.Run
import proofs.«431468_j28140625724039_3_alg».proof.Proof.KI.Val0
import proofs.«431468_j28140625724039_3_alg».proof.Proof.Spec
import Idealize.ShloMosaic.Lib.Pipeline.Value

set_option maxRecDepth 16384

noncomputable section

namespace Cert.KernelIdeal.KV

open Cert.KernelIdeal Cert.KernelIdeal.Gen Cert.KernelIdeal.Hand Cert.KernelIdeal.Val0
open Idealize.ShloMosaic Idealize.ShloMosaic.TcCoe Idealize.ShloMosaic.Tactic Idealize.ShloMosaic.ValueIdx
open Idealize.SL Idealize.SL.Sem
open Idealize.ShloMosaic.Pipeline (Dat Cfg Window cellOf)

variable (m : (ℓ : Loc nD τ sig) → Buf (Elt Ideal) ℓ) (ρ : Dev nD → PrngReg)

theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

abbrev a59 (c : Dev nD) : Vec Ideal S64x9216x6 .f32 := V2 (F := Ideal) m ρ c main_v59
abbrev a60 (c : Dev nD) : Vec Ideal S64x9216x1 .f32 := V2 (F := Ideal) m ρ c main_v60
abbrev a61 (c : Dev nD) : Vec Ideal S64x9216x63 .f32 := V2 (F := Ideal) m ρ c main_v61
abbrev a58 (c : Dev nD) : Vec Ideal S64x32x1 .i32 := V2 (F := Ideal) m ρ c main_v58
abbrev a52 (c : Dev nD) : Vec Ideal S64x32x8 .f32 := V2 (F := Ideal) m ρ c main_v52
abbrev a4 (c : Dev nD) : Vec Ideal S64x32x63 .f32 := V2 (F := Ideal) m ρ c main_arg4

abbrev k59 (c : Dev nD) (t : Fin cfg0.N) : Vec Ideal S1x9216x6 .f32 := iblk0 (V2 (F := Ideal) m ρ) c 0 t
abbrev k60 (c : Dev nD) (t : Fin cfg0.N) : Vec Ideal S1x9216x1 .f32 := iblk0 (V2 (F := Ideal) m ρ) c 1 t
abbrev k61 (c : Dev nD) (t : Fin cfg0.N) : Vec Ideal S1x9216x63 .f32 := iblk0 (V2 (F := Ideal) m ρ) c 2 t
abbrev k58 (c : Dev nD) (t : Fin cfg0.N) : Vec Ideal S1x32x1 .i32 := iblk0 (V2 (F := Ideal) m ρ) c 3 t
abbrev k52 (c : Dev nD) (t : Fin cfg0.N) : Vec Ideal S1x32x8 .f32 := iblk0 (V2 (F := Ideal) m ρ) c 4 t
abbrev k4 (c : Dev nD) (t : Fin cfg0.N) : Vec Ideal S1x32x63 .f32 := iblk0 (V2 (F := Ideal) m ρ) c 6 t

theorem k59_apply (c : Dev nD) (b : Fin 64) (g : Fin 9216) (ch : Fin 6) :
    k59 m ρ c b (ix3 (0 : Fin 1) g ch) = a59 m ρ c (ix3 b g ch) := by
  show V2 (F := Ideal) m ρ c main_v59 (((cfg0.win 0).blk b).view.emb (ix3 (0 : Fin 1) g ch)) = _
  obtain ⟨⟨e0, e1, e2⟩, -⟩ := idx_facts b
  refine congrArg _ ?_
  funext a; apply Fin.ext
  match a with
  | ⟨0, _⟩ => show win0_0.index b (0 : Fin 3) * 1 + 1 * 0 = b.val; omega
  | ⟨1, _⟩ => show win0_0.index b (1 : Fin 3) * 9216 + 1 * g.val = g.val; omega
  | ⟨2, _⟩ => show win0_0.index b (2 : Fin 3) * 6 + 1 * ch.val = ch.val; omega

theorem k60_apply (c : Dev nD) (b : Fin 64) (g : Fin 9216) (ch : Fin 1) :
    k60 m ρ c b (ix3 (0 : Fin 1) g ch) = a60 m ρ c (ix3 b g ch) := by
  show V2 (F := Ideal) m ρ c main_v60 (((cfg0.win 1).blk b).view.emb (ix3 (0 : Fin 1) g ch)) = _
  obtain ⟨-, ⟨e0, e1, e2⟩, -⟩ := idx_facts b
  refine congrArg _ ?_
  funext a; apply Fin.ext
  match a with
  | ⟨0, _⟩ => show win0_1.index b (0 : Fin 3) * 1 + 1 * 0 = b.val; omega
  | ⟨1, _⟩ => show win0_1.index b (1 : Fin 3) * 9216 + 1 * g.val = g.val; omega
  | ⟨2, _⟩ => show win0_1.index b (2 : Fin 3) * 1 + 1 * ch.val = ch.val; omega

theorem k61_apply (c : Dev nD) (b : Fin 64) (g : Fin 9216) (k : Fin 63) :
    k61 m ρ c b (ix3 (0 : Fin 1) g k) = a61 m ρ c (ix3 b g k) := by
  show V2 (F := Ideal) m ρ c main_v61 (((cfg0.win 2).blk b).view.emb (ix3 (0 : Fin 1) g k)) = _
  obtain ⟨-, -, ⟨e0, e1, e2⟩, -⟩ := idx_facts b
  refine congrArg _ ?_
  funext a; apply Fin.ext
  match a with
  | ⟨0, _⟩ => show win0_2.index b (0 : Fin 3) * 1 + 1 * 0 = b.val; omega
  | ⟨1, _⟩ => show win0_2.index b (1 : Fin 3) * 9216 + 1 * g.val = g.val; omega
  | ⟨2, _⟩ => show win0_2.index b (2 : Fin 3) * 63 + 1 * k.val = k.val; omega

theorem k58_apply (c : Dev nD) (b : Fin 64) (n : Fin 32) (z : Fin 1) :
    k58 m ρ c b (ix3 (0 : Fin 1) n z) = a58 m ρ c (ix3 b n z) := by
  show V2 (F := Ideal) m ρ c main_v58 (((cfg0.win 3).blk b).view.emb (ix3 (0 : Fin 1) n z)) = _
  obtain ⟨-, -, -, ⟨e0, e1, e2⟩, -⟩ := idx_facts b
  refine congrArg _ ?_
  funext a; apply Fin.ext
  match a with
  | ⟨0, _⟩ => show win0_3.index b (0 : Fin 3) * 1 + 1 * 0 = b.val; omega
  | ⟨1, _⟩ => show win0_3.index b (1 : Fin 3) * 32 + 1 * n.val = n.val; omega
  | ⟨2, _⟩ => show win0_3.index b (2 : Fin 3) * 1 + 1 * z.val = z.val; omega

theorem k52_apply (c : Dev nD) (b : Fin 64) (n : Fin 32) (j : Fin 8) :
    k52 m ρ c b (ix3 (0 : Fin 1) n j) = a52 m ρ c (ix3 b n j) := by
  show V2 (F := Ideal) m ρ c main_v52 (((cfg0.win 4).blk b).view.emb (ix3 (0 : Fin 1) n j)) = _
  obtain ⟨-, -, -, -, ⟨e0, e1, e2⟩, -⟩ := idx_facts b
  refine congrArg _ ?_
  funext a; apply Fin.ext
  match a with
  | ⟨0, _⟩ => show win0_4.index b (0 : Fin 3) * 1 + 1 * 0 = b.val; omega
  | ⟨1, _⟩ => show win0_4.index b (1 : Fin 3) * 32 + 1 * n.val = n.val; omega
  | ⟨2, _⟩ => show win0_4.index b (2 : Fin 3) * 8 + 1 * j.val = j.val; omega

theorem k4_apply (c : Dev nD) (b : Fin 64) (n : Fin 32) (k : Fin 63) :
    k4 m ρ c b (ix3 (0 : Fin 1) n k) = a4 m ρ c (ix3 b n k) := by
  show V2 (F := Ideal) m ρ c main_arg4 (((cfg0.win 6).blk b).view.emb (ix3 (0 : Fin 1) n k)) = _
  obtain ⟨-, -, -, -, -, ⟨e0, e1, e2⟩, -⟩ := idx_facts b
  refine congrArg _ ?_
  funext a; apply Fin.ext
  match a with
  | ⟨0, _⟩ => show win0_6.index b (0 : Fin 3) * 1 + 1 * 0 = b.val; omega
  | ⟨1, _⟩ => show win0_6.index b (1 : Fin 3) * 32 + 1 * n.val = n.val; omega
  | ⟨2, _⟩ => show win0_6.index b (2 : Fin 3) * 63 + 1 * k.val = k.val; omega

theorem hz3 : (![0, 0, 0] : Fin 3 → Nat) = fun _ => 0 := funext fun a => by fin_cases a <;> rfl

theorem out0_7_eq (x0 : Vec Ideal S1x9216x6 .f32) (x3 : Vec Ideal S1x32x1 .i32) (x4 : Vec Ideal S1x32x8 .f32) :
    out0_7 (F := Ideal) x0 x3 x4 = P7 x0 x3 x4 := by
  unfold out0_7
  rw [View.canon_unit_zero hz3]
  simp only [View.ld_unit_zero (S := S1x9216x6) hz3, View.ld_unit_zero (S := S1x32x1) hz3, View.ld_unit_zero (S := S1x32x8) hz3]

theorem out0_8_eq (x0 : Vec Ideal S1x9216x6 .f32) (x1 : Vec Ideal S1x9216x1 .f32) (x2 : Vec Ideal S1x9216x63 .f32)
    (x3 : Vec Ideal S1x32x1 .i32) (x4 : Vec Ideal S1x32x8 .f32) (x6 : Vec Ideal S1x32x63 .f32) :
    out0_8 (F := Ideal) x0 x1 x2 x3 x4 x6 = P8 x0 x1 x2 x3 x4 x6 := by
  unfold out0_8
  rw [View.canon_unit_zero hz3]
  simp only [View.ld_unit_zero (S := S1x9216x6) hz3, View.ld_unit_zero (S := S1x9216x1) hz3, View.ld_unit_zero (S := S1x9216x63) hz3,
    View.ld_unit_zero (S := S1x32x1) hz3, View.ld_unit_zero (S := S1x32x8) hz3, View.ld_unit_zero (S := S1x32x63) hz3]

def G7 (c : Dev nD) : Vec Ideal S64x32x4 .f32 := fun i =>
  P7 (k59 m ρ c (i 0)) (k58 m ρ c (i 0)) (k52 m ρ c (i 0)) (ix3 (0 : Fin 1) (i 1) (i 2))

def G8 (c : Dev nD) : Vec Ideal S64x1x8 .f32 := fun i =>
  P8 (k59 m ρ c (i 0)) (k60 m ρ c (i 0)) (k61 m ρ c (i 0)) (k58 m ρ c (i 0)) (k52 m ρ c (i 0)) (k4 m ρ c (i 0)) (ix3 (0 : Fin 1) (0 : Fin 1) (i 2))

theorem flushed7_eq (c : Dev nD) (t : Fin cfg0.N) :
    (dat0 (V2 (F := Ideal) m ρ) c).flushed 7 t = ((cfg0.win 7).blk t).view.read (Elt Ideal) (G7 m ρ c) := by
  show (cfg0.win 7).cut (grid0.coords t) ((dat0 (V2 (F := Ideal) m ρ) c).after 7 t) = _
  rw [after0_7]
  obtain ⟨-, -, -, -, -, -, ⟨e0, e1, e2⟩, -⟩ := idx_facts t
  funext j
  show out0_7 (F := Ideal) (k59 m ρ c t) (k58 m ρ c t) (k52 m ρ c t) j = G7 m ρ c (((cfg0.win 7).blk t).view.emb j)
  rw [out0_7_eq]
  have hemb : ((cfg0.win 7).blk t).view.emb j = ix3 (t : Fin 64) (j 1 : Fin 32) (j 2 : Fin 4) := by
    funext a; apply Fin.ext
    match a with
    | ⟨0, _⟩ => show win0_7.index t (0 : Fin 3) * 1 + 1 * (j 0).val = t.val; have hj : (j 0).val < 1 := (j 0).isLt; omega
    | ⟨1, _⟩ => show win0_7.index t (1 : Fin 3) * 32 + 1 * (j 1).val = (j 1).val; omega
    | ⟨2, _⟩ => show win0_7.index t (2 : Fin 3) * 4 + 1 * (j 2).val = (j 2).val; omega
  rw [hemb]
  show P7 (k59 m ρ c t) (k58 m ρ c t) (k52 m ρ c t) j = P7 (k59 m ρ c t) (k58 m ρ c t) (k52 m ρ c t) (ix3 (0 : Fin 1) (j 1) (j 2))
  refine congrArg _ ?_
  funext a
  match a with
  | ⟨0, _⟩ => apply Fin.ext; show (j 0).val = 0; have hj : (j 0).val < 1 := (j 0).isLt; omega
  | ⟨1, _⟩ => rfl
  | ⟨2, _⟩ => rfl

theorem flushed8_eq (c : Dev nD) (t : Fin cfg0.N) :
    (dat0 (V2 (F := Ideal) m ρ) c).flushed 8 t = ((cfg0.win 8).blk t).view.read (Elt Ideal) (G8 m ρ c) := by
  show (cfg0.win 8).cut (grid0.coords t) ((dat0 (V2 (F := Ideal) m ρ) c).after 8 t) = _
  rw [after0_8]
  obtain ⟨-, -, -, -, -, -, -, ⟨e0, e1, e2⟩⟩ := idx_facts t
  funext j
  show out0_8 (F := Ideal) (k59 m ρ c t) (k60 m ρ c t) (k61 m ρ c t) (k58 m ρ c t) (k52 m ρ c t) (k4 m ρ c t) j
    = G8 m ρ c (((cfg0.win 8).blk t).view.emb j)
  rw [out0_8_eq]
  have hemb : ((cfg0.win 8).blk t).view.emb j = ix3 (t : Fin 64) (0 : Fin 1) (j 2 : Fin 8) := by
    funext a; apply Fin.ext
    match a with
    | ⟨0, _⟩ => show win0_8.index t (0 : Fin 3) * 1 + 1 * (j 0).val = t.val; have hj : (j 0).val < 1 := (j 0).isLt; omega
    | ⟨1, _⟩ => show win0_8.index t (1 : Fin 3) * 1 + 1 * (j 1).val = 0; have hj : (j 1).val < 1 := (j 1).isLt; omega
    | ⟨2, _⟩ => show win0_8.index t (2 : Fin 3) * 8 + 1 * (j 2).val = (j 2).val; omega
  rw [hemb]
  show P8 (k59 m ρ c t) (k60 m ρ c t) (k61 m ρ c t) (k58 m ρ c t) (k52 m ρ c t) (k4 m ρ c t) j
    = P8 (k59 m ρ c t) (k60 m ρ c t) (k61 m ρ c t) (k58 m ρ c t) (k52 m ρ c t) (k4 m ρ c t) (ix3 (0 : Fin 1) (0 : Fin 1) (j 2))
  refine congrArg _ ?_
  funext a
  match a with
  | ⟨0, _⟩ => apply Fin.ext; show (j 0).val = 0; have hj : (j 0).val < 1 := (j 0).isLt; omega
  | ⟨1, _⟩ => apply Fin.ext; show (j 1).val = 0; have hj : (j 1).val < 1 := (j 1).isLt; omega
  | ⟨2, _⟩ => rfl

theorem mem_blk7 (t : Fin cfg0.N) (i : S64x32x4.Idx) :
    i ∈ ((cfg0.win 7).blk t).view.set ↔ ∀ a : Fin 3, win0_7.index t a * S1x32x4.size a ≤ (i a).val ∧ (i a).val < win0_7.index t a * S1x32x4.size a + S1x32x4.size a := by
  show i ∈ ((View.whole main_v62_0).slice (win0_7.rect t)).set ↔ _
  rw [View.set_slice_whole, Rect.mem_set_unit]
  exact Iff.rfl
theorem mem_blk8 (t : Fin cfg0.N) (i : S64x1x8.Idx) :
    i ∈ ((cfg0.win 8).blk t).view.set ↔ ∀ a : Fin 3, win0_8.index t a * S1x1x8.size a ≤ (i a).val ∧ (i a).val < win0_8.index t a * S1x1x8.size a + S1x1x8.size a := by
  show i ∈ ((View.whole main_v62_1).slice (win0_8.rect t)).set ↔ _
  rw [View.set_slice_whole, Rect.mem_set_unit]
  exact Iff.rfl

theorem cover7 (i : S64x32x4.Idx) : ∃ t : Fin cfg0.N, (cfg0.win 7).flush t = true ∧ i ∈ ((cfg0.win 7).blk t).view.set := by
  have h0 : (i 0).val < 64 := (i 0).isLt
  obtain ⟨t, ht⟩ : ∃ t : Fin cfg0.N, t.val = (i 0).val := ⟨⟨(i 0).val, h0⟩, rfl⟩
  refine ⟨t, flush0_7 t, ?_⟩
  rw [mem_blk7]
  obtain ⟨-, -, -, -, -, -, ⟨e0, e1, e2⟩, -⟩ := idx_facts t
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 32 ≤ (i 1).val ∧ (i 1).val < win0_7.index t (1 : Fin 3) * 32 + 32; have h1 : (i 1).val < 32 := (i 1).isLt; omega
  | ⟨2, _⟩ => show win0_7.index t (2 : Fin 3) * 4 ≤ (i 2).val ∧ (i 2).val < win0_7.index t (2 : Fin 3) * 4 + 4; have h2 : (i 2).val < 4 := (i 2).isLt; omega
theorem cover8 (i : S64x1x8.Idx) : ∃ t : Fin cfg0.N, (cfg0.win 8).flush t = true ∧ i ∈ ((cfg0.win 8).blk t).view.set := by
  have h0 : (i 0).val < 64 := (i 0).isLt
  obtain ⟨t, ht⟩ : ∃ t : Fin cfg0.N, t.val = (i 0).val := ⟨⟨(i 0).val, h0⟩, rfl⟩
  refine ⟨t, flush0_8 t, ?_⟩
  rw [mem_blk8]
  obtain ⟨-, -, -, -, -, -, -, ⟨e0, e1, e2⟩⟩ := idx_facts t
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1 ≤ (i 1).val ∧ (i 1).val < win0_8.index t (1 : Fin 3) * 1 + 1; have h1 : (i 1).val < 1 := (i 1).isLt; omega
  | ⟨2, _⟩ => show win0_8.index t (2 : Fin 3) * 8 ≤ (i 2).val ∧ (i 2).val < win0_8.index t (2 : Fin 3) * 8 + 8; have h2 : (i 2).val < 8 := (i 2).isLt; omega

theorem W3_v62_0 (c : Dev nD) (b : Fin 64) (n : Fin 32) (q : Fin 4) :
    Hand.W3 (F := Ideal) m ρ c (Proc.devRef .tc main_v62_0) (ix3 b n q)
      = P7 (k59 m ρ c b) (k58 m ρ c b) (k52 m ρ c b) (ix3 (0 : Fin 1) n q) := by
  have h := (W3_arr (F := Ideal) m ρ c 7).trans
    ((dat0 (V2 (F := Ideal) m ρ) c).arrAt_eq_of_cover 7 (G7 m ρ c) (fun t _ => flushed7_eq m ρ c t) cover7)
  exact congrFun h (ix3 b n q)

theorem W3_v62_1 (c : Dev nD) (b : Fin 64) (j : Fin 8) :
    Hand.W3 (F := Ideal) m ρ c (Proc.devRef .tc main_v62_1) (ix3 b (0 : Fin 1) j)
      = P8 (k59 m ρ c b) (k60 m ρ c b) (k61 m ρ c b) (k58 m ρ c b) (k52 m ρ c b) (k4 m ρ c b) (ix3 (0 : Fin 1) (0 : Fin 1) j) := by
  have h := (W3_arr (F := Ideal) m ρ c 8).trans
    ((dat0 (V2 (F := Ideal) m ρ) c).arrAt_eq_of_cover 8 (G8 m ρ c) (fun t _ => flushed8_eq m ρ c t) cover8)
  exact congrFun h (ix3 b (0 : Fin 1) j)

theorem W3_v57 (c : Dev nD) :
    Hand.W3 (F := Ideal) m ρ c (Proc.devRef .tc main_v57) = Hand.W2 (F := Ideal) m ρ c (Proc.devRef .tc main_v57) :=
  (W3_arr (F := Ideal) m ρ c 5).trans (((dat0 (V2 (F := Ideal) m ρ) c).arrAt_in 5 rfl _).trans (A_eq0 (V2 (F := Ideal) m ρ) c 5))

end Cert.KernelIdeal.KV
end
-- ==== Proof.KI.KOut0B.lean ====
import proofs.«431468_j28140625724039_3_alg».proof.Proof.KI.KOut0A
import proofs.«431468_j28140625724039_3_alg».proof.Proof.KI.Val0
import proofs.«431468_j28140625724039_3_alg».proof.Proof.Spec
import Idealize.ShloMosaic.PureOps.Ideal.Laws

set_option maxRecDepth 16384

noncomputable section

namespace Cert.KernelIdeal.KV

open Cert.KernelIdeal Cert.KernelIdeal.Gen Cert.KernelIdeal.Hand Cert.KernelIdeal.Val0
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

abbrev gRow (g : Fin 9216) : Fin 96 := ⟨g.val / 96, by have := g.isLt; omega⟩
abbrev gCol (g : Fin 9216) : Fin 96 := ⟨g.val % 96, Nat.mod_lt _ (by decide)⟩

theorem T_eq_occ (tb : Cert.Spec.S64x32x6.Idx → EReal) (b : Fin 64) (cell : Fin 32 → Fin 9216)
    (hcv : ∀ n, (cell n).val = 96 * (Cert.Spec.row tb b n).val + (Cert.Spec.col tb b n).val) (g : Fin 9216) :
    Cert.KernelIdeal.Val0.T cell g = Cert.Spec.occ tb b (gRow g) (gCol g) := by
  have hiff : (∃ n : Fin 32, cell n = g) ↔ ∃ n : Fin 32, Cert.Spec.row tb b n = gRow g ∧ Cert.Spec.col tb b n = gCol g := by
    constructor
    · rintro ⟨n, hn⟩
      have h1 := hcv n
      have h2 := (Cert.Spec.col tb b n).isLt
      have h3 : (cell n).val = g.val := congrArg Fin.val hn
      refine ⟨n, Fin.ext ?_, Fin.ext ?_⟩
      · show (Cert.Spec.row tb b n).val = g.val / 96
        omega
      · show (Cert.Spec.col tb b n).val = g.val % 96
        omega
    · rintro ⟨n, hr, hc⟩
      have h1 := hcv n
      have h2 : (Cert.Spec.row tb b n).val = g.val / 96 := congrArg Fin.val hr
      have h3 : (Cert.Spec.col tb b n).val = g.val % 96 := congrArg Fin.val hc
      exact ⟨n, Fin.ext (by omega)⟩
  unfold Cert.KernelIdeal.Val0.T Cert.Spec.occ
  by_cases h : ∃ n : Fin 32, cell n = g
  · rw [if_pos h, if_pos (hiff.mp h)]
  · rw [if_neg h, if_neg (fun h' => h (hiff.mpr h'))]
    exact Ideal.ofBits_zero_f32.symm

def cellOfT (tb : Cert.Spec.S64x32x6.Idx → EReal) (b : Fin 64) (n : Fin 32) : Fin 9216 :=
  ⟨96 * (Cert.Spec.row tb b n).val + (Cert.Spec.col tb b n).val, by
    have h1 := (Cert.Spec.row tb b n).isLt; have h2 := (Cert.Spec.col tb b n).isLt; omega⟩
theorem gRow_cellOfT (tb : Cert.Spec.S64x32x6.Idx → EReal) (b : Fin 64) (n : Fin 32) : gRow (cellOfT tb b n) = Cert.Spec.row tb b n := by
  apply Fin.ext; show (96 * (Cert.Spec.row tb b n).val + (Cert.Spec.col tb b n).val) / 96 = (Cert.Spec.row tb b n).val
  have h2 := (Cert.Spec.col tb b n).isLt; omega
theorem gCol_cellOfT (tb : Cert.Spec.S64x32x6.Idx → EReal) (b : Fin 64) (n : Fin 32) : gCol (cellOfT tb b n) = Cert.Spec.col tb b n := by
  apply Fin.ext; show (96 * (Cert.Spec.row tb b n).val + (Cert.Spec.col tb b n).val) % 96 = (Cert.Spec.col tb b n).val
  have h2 := (Cert.Spec.col tb b n).isLt; omega

open Cert.Spec in

def A8 (pb : S64x96x96x6.Idx → EReal) (pc : S64x96x96x1.Idx → EReal) (pk : S64x96x96x63.Idx → EReal)
    (tb : S64x32x6.Idx → EReal) (tk : S64x32x63.Idx → EReal) (b : Fin 64) : Fin 8 → EReal
  | 0 => ∑ n : Fin 32, absE (xo pb tb 0 b n - lX tb b n)
  | 1 => ∑ n : Fin 32, absE (xo pb tb 1 b n - lY tb b n)
  | 2 => ∑ n : Fin 32, absE (xo pb tb 3 b n - lW tb b n)
  | 3 => ∑ n : Fin 32, absE (xo pb tb 4 b n - lH tb b n)
  | 4 => ∑ n : Fin 32, absE (xo pb tb 2 b n - tZ tb b n)
  | 5 => ∑ n : Fin 32, absE (xo pb tb 5 b n - lD tb b n)
  | 6 => ∑ n : Fin 32, ∑ k : Fin 63, absE (ko pk tb b n k - tk (ix3 b n k))
  | 7 => c2 * (∑ g : Fin 9216, occ tb b (gRow g) (gCol g) * softplus (-(pc (ix4 b (gRow g) (gCol g) (0 : Fin 1)))))
        + (∑ g : Fin 9216, softplus (pc (ix4 b (gRow g) (gCol g) (0 : Fin 1))))
        - (∑ g : Fin 9216, occ tb b (gRow g) (gCol g) * softplus (pc (ix4 b (gRow g) (gCol g) (0 : Fin 1))))

def t8' (tb : Cert.Spec.S64x32x6.Idx → EReal) (b : Fin 64) (n : Fin 32) : Fin 8 → EReal
  | 0 => Cert.Spec.lX tb b n | 1 => Cert.Spec.lY tb b n | 2 => Cert.Spec.lW tb b n | 3 => Cert.Spec.lH tb b n
  | 4 => Cert.Spec.tZ tb b n | 5 => Cert.Spec.lD tb b n
  | 6 => (((Cert.Spec.gi tb b n).toInt : ℝ) : EReal) | 7 => (((Cert.Spec.gj tb b n).toInt : ℝ) : EReal)

section InSpec
variable (c : Dev nD) (pb : Cert.Spec.S64x96x96x6.Idx → EReal) (pc : Cert.Spec.S64x96x96x1.Idx → EReal)
  (pk : Cert.Spec.S64x96x96x63.Idx → EReal) (tb : Cert.Spec.S64x32x6.Idx → EReal) (tk : Cert.Spec.S64x32x63.Idx → EReal)
  (h59 : ∀ (b : Fin 64) (g : Fin 9216) (ch : Fin 6), a59 m ρ c (ix3 b g ch) = pb (ix4 b (gRow g) (gCol g) ch))
  (h60 : ∀ (b : Fin 64) (g : Fin 9216) (ch : Fin 1), a60 m ρ c (ix3 b g ch) = pc (ix4 b (gRow g) (gCol g) ch))
  (h61 : ∀ (b : Fin 64) (g : Fin 9216) (k : Fin 63), a61 m ρ c (ix3 b g k) = pk (ix4 b (gRow g) (gCol g) k))
  (h58 : ∀ (b : Fin 64) (n : Fin 32), a58 m ρ c (ix3 b n (0 : Fin 1)) = BitVec.ofNat 32 (96 * (Cert.Spec.row tb b n).val + (Cert.Spec.col tb b n).val))
  (h52 : ∀ (b : Fin 64) (n : Fin 32) (j : Fin 8), a52 m ρ c (ix3 b n j) = t8' tb b n j)
  (h4 : ∀ (b : Fin 64) (n : Fin 32) (k : Fin 63), a4 m ρ c (ix3 b n k) = tk (ix3 b n k))

include h58 in
theorem hcellB (b : Fin 64) (n : Fin 32) :
    k58 m ρ c b (ix3 (0 : Fin 1) n (0 : Fin 1)) = BitVec.ofNat 32 (cellOfT tb b n).val :=
  (k58_apply m ρ c b n 0).trans (h58 b n)

include h59 in
theorem gath59 (b : Fin 64) (n : Fin 32) (ch : Fin 6) :
    k59 m ρ c b (ix3 (0 : Fin 1) (cellOfT tb b n) ch) = Cert.Spec.xo pb tb ch b n := by
  rw [k59_apply, h59, gRow_cellOfT, gCol_cellOfT]; rfl

include h61 in
theorem gath61 (b : Fin 64) (n : Fin 32) (k : Fin 63) :
    k61 m ρ c b (ix3 (0 : Fin 1) (cellOfT tb b n) k) = Cert.Spec.ko pk tb b n k := by
  rw [k61_apply, h61, gRow_cellOfT, gCol_cellOfT]; rfl

include h52 in
theorem t52 (b : Fin 64) (n : Fin 32) (j : Fin 8) : k52 m ρ c b (ix3 (0 : Fin 1) n j) = t8' tb b n j :=
  (k52_apply m ρ c b n j).trans (h52 b n j)

include h59 h58 h52 in
theorem out7_0 (b : Fin 64) (n : Fin 32) :
    Hand.W3 (F := Ideal) m ρ c (Proc.devRef .tc main_v62_0) (ix3 b n (0 : Fin 4)) = Cert.Spec.pbox pb tb b n (0 : Fin 4) := by
  rw [W3_v62_0]
  refine (P7_0 (k59 m ρ c b) (k58 m ρ c b) (k52 m ρ c b) (cellOfT tb b) (hcellB m ρ c tb h58 b) n).trans ?_
  rw [gath59 m ρ c pb tb h59, t52 m ρ c tb h52]; rfl

include h59 h58 h52 in
theorem out7_1 (b : Fin 64) (n : Fin 32) :
    Hand.W3 (F := Ideal) m ρ c (Proc.devRef .tc main_v62_0) (ix3 b n (1 : Fin 4)) = Cert.Spec.pbox pb tb b n (1 : Fin 4) := by
  rw [W3_v62_0]
  refine (P7_1 (k59 m ρ c b) (k58 m ρ c b) (k52 m ρ c b) (cellOfT tb b) (hcellB m ρ c tb h58 b) n).trans ?_
  rw [gath59 m ρ c pb tb h59, t52 m ρ c tb h52]; rfl

include h59 h58 in
theorem out7_2 (b : Fin 64) (n : Fin 32) :
    Hand.W3 (F := Ideal) m ρ c (Proc.devRef .tc main_v62_0) (ix3 b n (2 : Fin 4)) = Cert.Spec.pbox pb tb b n (2 : Fin 4) := by
  rw [W3_v62_0]
  refine (P7_2 (k59 m ρ c b) (k58 m ρ c b) (k52 m ρ c b) (cellOfT tb b) (hcellB m ρ c tb h58 b) n).trans ?_
  rw [gath59 m ρ c pb tb h59]; rfl

include h59 h58 in
theorem out7_3 (b : Fin 64) (n : Fin 32) :
    Hand.W3 (F := Ideal) m ρ c (Proc.devRef .tc main_v62_0) (ix3 b n (3 : Fin 4)) = Cert.Spec.pbox pb tb b n (3 : Fin 4) := by
  rw [W3_v62_0]
  refine (P7_3 (k59 m ρ c b) (k58 m ρ c b) (k52 m ρ c b) (cellOfT tb b) (hcellB m ρ c tb h58 b) n).trans ?_
  rw [gath59 m ρ c pb tb h59]; rfl

include h59 h58 h52 in

theorem out7_of (b : Fin 64) (n : Fin 32) (q : Fin 4) :
    Hand.W3 (F := Ideal) m ρ c (Proc.devRef .tc main_v62_0) (ix3 b n q) = Cert.Spec.pbox pb tb b n q :=
  match q with
  | ⟨0, _⟩ => out7_0 m ρ c pb tb h59 h58 h52 b n
  | ⟨1, _⟩ => out7_1 m ρ c pb tb h59 h58 h52 b n
  | ⟨2, _⟩ => out7_2 m ρ c pb tb h59 h58 b n
  | ⟨3, _⟩ => out7_3 m ρ c pb tb h59 h58 b n

include h59 h58 h52 in
theorem out8_0 (b : Fin 64) :
    Hand.W3 (F := Ideal) m ρ c (Proc.devRef .tc main_v62_1) (ix3 b (0 : Fin 1) (0 : Fin 8)) = A8 pb pc pk tb tk b (0 : Fin 8) := by
  rw [W3_v62_1]
  refine (P8_0 (k59 m ρ c b) (k60 m ρ c b) (k61 m ρ c b) (k58 m ρ c b) (k52 m ρ c b) (k4 m ρ c b) (cellOfT tb b) (hcellB m ρ c tb h58 b)).trans ?_
  refine Finset.sum_congr rfl fun n _ => ?_
  rw [gath59 m ρ c pb tb h59, t52 m ρ c tb h52]; rfl

include h59 h58 h52 in
theorem out8_1 (b : Fin 64) :
    Hand.W3 (F := Ideal) m ρ c (Proc.devRef .tc main_v62_1) (ix3 b (0 : Fin 1) (1 : Fin 8)) = A8 pb pc pk tb tk b (1 : Fin 8) := by
  rw [W3_v62_1]
  refine (P8_1 (k59 m ρ c b) (k60 m ρ c b) (k61 m ρ c b) (k58 m ρ c b) (k52 m ρ c b) (k4 m ρ c b) (cellOfT tb b) (hcellB m ρ c tb h58 b)).trans ?_
  refine Finset.sum_congr rfl fun n _ => ?_
  rw [gath59 m ρ c pb tb h59, t52 m ρ c tb h52]; rfl

include h59 h58 h52 in
theorem out8_2 (b : Fin 64) :
    Hand.W3 (F := Ideal) m ρ c (Proc.devRef .tc main_v62_1) (ix3 b (0 : Fin 1) (2 : Fin 8)) = A8 pb pc pk tb tk b (2 : Fin 8) := by
  rw [W3_v62_1]
  refine (P8_2 (k59 m ρ c b) (k60 m ρ c b) (k61 m ρ c b) (k58 m ρ c b) (k52 m ρ c b) (k4 m ρ c b) (cellOfT tb b) (hcellB m ρ c tb h58 b)).trans ?_
  refine Finset.sum_congr rfl fun n _ => ?_
  rw [gath59 m ρ c pb tb h59, t52 m ρ c tb h52]; rfl

include h59 h58 h52 in
theorem out8_3 (b : Fin 64) :
    Hand.W3 (F := Ideal) m ρ c (Proc.devRef .tc main_v62_1) (ix3 b (0 : Fin 1) (3 : Fin 8)) = A8 pb pc pk tb tk b (3 : Fin 8) := by
  rw [W3_v62_1]
  refine (P8_3 (k59 m ρ c b) (k60 m ρ c b) (k61 m ρ c b) (k58 m ρ c b) (k52 m ρ c b) (k4 m ρ c b) (cellOfT tb b) (hcellB m ρ c tb h58 b)).trans ?_
  refine Finset.sum_congr rfl fun n _ => ?_
  rw [gath59 m ρ c pb tb h59, t52 m ρ c tb h52]; rfl

include h59 h58 h52 in
theorem out8_4 (b : Fin 64) :
    Hand.W3 (F := Ideal) m ρ c (Proc.devRef .tc main_v62_1) (ix3 b (0 : Fin 1) (4 : Fin 8)) = A8 pb pc pk tb tk b (4 : Fin 8) := by
  rw [W3_v62_1]
  refine (P8_4 (k59 m ρ c b) (k60 m ρ c b) (k61 m ρ c b) (k58 m ρ c b) (k52 m ρ c b) (k4 m ρ c b) (cellOfT tb b) (hcellB m ρ c tb h58 b)).trans ?_
  refine Finset.sum_congr rfl fun n _ => ?_
  rw [gath59 m ρ c pb tb h59, t52 m ρ c tb h52]; rfl

include h59 h58 h52 in
theorem out8_5 (b : Fin 64) :
    Hand.W3 (F := Ideal) m ρ c (Proc.devRef .tc main_v62_1) (ix3 b (0 : Fin 1) (5 : Fin 8)) = A8 pb pc pk tb tk b (5 : Fin 8) := by
  rw [W3_v62_1]
  refine (P8_5 (k59 m ρ c b) (k60 m ρ c b) (k61 m ρ c b) (k58 m ρ c b) (k52 m ρ c b) (k4 m ρ c b) (cellOfT tb b) (hcellB m ρ c tb h58 b)).trans ?_
  refine Finset.sum_congr rfl fun n _ => ?_
  rw [gath59 m ρ c pb tb h59, t52 m ρ c tb h52]; rfl

include h61 h58 h4 in
theorem out8_6 (b : Fin 64) :
    Hand.W3 (F := Ideal) m ρ c (Proc.devRef .tc main_v62_1) (ix3 b (0 : Fin 1) (6 : Fin 8)) = A8 pb pc pk tb tk b (6 : Fin 8) := by
  rw [W3_v62_1]
  refine (P8_6 (k59 m ρ c b) (k60 m ρ c b) (k61 m ρ c b) (k58 m ρ c b) (k52 m ρ c b) (k4 m ρ c b) (cellOfT tb b) (hcellB m ρ c tb h58 b)).trans ?_
  refine Finset.sum_congr rfl fun n _ => Finset.sum_congr rfl fun k _ => ?_
  rw [gath61 m ρ c pk tb h61, k4_apply, h4]

include h60 h58 in
theorem out8_7 (b : Fin 64) :
    Hand.W3 (F := Ideal) m ρ c (Proc.devRef .tc main_v62_1) (ix3 b (0 : Fin 1) (7 : Fin 8)) = A8 pb pc pk tb tk b (7 : Fin 8) := by
  rw [W3_v62_1]
  refine (P8_7 (k59 m ρ c b) (k60 m ρ c b) (k61 m ρ c b) (k58 m ρ c b) (k52 m ρ c b) (k4 m ρ c b) (cellOfT tb b) (hcellB m ρ c tb h58 b)).trans ?_
  have e1 : ∀ g : Fin 9216, k60 m ρ c b (ix3 (0 : Fin 1) g (0 : Fin 1)) = pc (ix4 b (gRow g) (gCol g) (0 : Fin 1)) :=
    fun g => (k60_apply m ρ c b g 0).trans (h60 b g 0)
  have e2 : ∀ g : Fin 9216, T (cellOfT tb b) g = Cert.Spec.occ tb b (gRow g) (gCol g) := T_eq_occ tb b (cellOfT tb b) (fun _ => rfl)
  have s1 : (∑ g : Fin 9216, T (cellOfT tb b) g * Cert.Spec.softplus (-(k60 m ρ c b (ix3 (0 : Fin 1) g (0 : Fin 1)))))
      = ∑ g : Fin 9216, Cert.Spec.occ tb b (gRow g) (gCol g) * Cert.Spec.softplus (-(pc (ix4 b (gRow g) (gCol g) (0 : Fin 1)))) :=
    Finset.sum_congr rfl fun g _ => by rw [e1 g, e2 g]
  have s2 : (∑ g : Fin 9216, Cert.Spec.softplus (k60 m ρ c b (ix3 (0 : Fin 1) g (0 : Fin 1))))
      = ∑ g : Fin 9216, Cert.Spec.softplus (pc (ix4 b (gRow g) (gCol g) (0 : Fin 1))) :=
    Finset.sum_congr rfl fun g _ => by rw [e1 g]
  have s3 : (∑ g : Fin 9216, T (cellOfT tb b) g * Cert.Spec.softplus (k60 m ρ c b (ix3 (0 : Fin 1) g (0 : Fin 1))))
      = ∑ g : Fin 9216, Cert.Spec.occ tb b (gRow g) (gCol g) * Cert.Spec.softplus (pc (ix4 b (gRow g) (gCol g) (0 : Fin 1))) :=
    Finset.sum_congr rfl fun g _ => by rw [e1 g, e2 g]
  rw [s1, s2, s3]; rfl

include h59 h60 h61 h58 h52 h4 in

theorem out8_of (b : Fin 64) (j : Fin 8) :
    Hand.W3 (F := Ideal) m ρ c (Proc.devRef .tc main_v62_1) (ix3 b (0 : Fin 1) j) = A8 pb pc pk tb tk b j :=
  match j with
  | ⟨0, _⟩ => out8_0 m ρ c pb pc pk tb tk h59 h58 h52 b
  | ⟨1, _⟩ => out8_1 m ρ c pb pc pk tb tk h59 h58 h52 b
  | ⟨2, _⟩ => out8_2 m ρ c pb pc pk tb tk h59 h58 h52 b
  | ⟨3, _⟩ => out8_3 m ρ c pb pc pk tb tk h59 h58 h52 b
  | ⟨4, _⟩ => out8_4 m ρ c pb pc pk tb tk h59 h58 h52 b
  | ⟨5, _⟩ => out8_5 m ρ c pb pc pk tb tk h59 h58 h52 b
  | ⟨6, _⟩ => out8_6 m ρ c pb pc pk tb tk h61 h58 h4 b
  | ⟨7, _⟩ => out8_7 m ρ c pb pc pk tb tk h60 h58 b

end InSpec

end Cert.KernelIdeal.KV
end
-- ==== Proof.KI.KIn.lean ====
import proofs.«431468_j28140625724039_3_alg».proof.Proof.KI.Run
import proofs.«431468_j28140625724039_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.KV

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

abbrev pbA (c : Dev nD) : Vec Ideal S64x96x96x6 .f32 := m ((c.tc : Thread nD τ).loc main_arg0)
abbrev pcA (c : Dev nD) : Vec Ideal S64x96x96x1 .f32 := m ((c.tc : Thread nD τ).loc main_arg1)
abbrev pkA (c : Dev nD) : Vec Ideal S64x96x96x63 .f32 := m ((c.tc : Thread nD τ).loc main_arg2)
abbrev tbA (c : Dev nD) : Vec Ideal S64x32x6 .f32 := m ((c.tc : Thread nD τ).loc main_arg3)
abbrev tkA (c : Dev nD) : Vec Ideal S64x32x63 .f32 := m ((c.tc : Thread nD τ).loc main_arg4)

abbrev v59 (c : Dev nD) : Vec Ideal S64x9216x6 .f32 := Hand.W2 (F := Ideal) m ρ c (Proc.devRef .tc main_v59)
abbrev v60 (c : Dev nD) : Vec Ideal S64x9216x1 .f32 := Hand.W2 (F := Ideal) m ρ c (Proc.devRef .tc main_v60)
abbrev v61 (c : Dev nD) : Vec Ideal S64x9216x63 .f32 := Hand.W2 (F := Ideal) m ρ c (Proc.devRef .tc main_v61)
abbrev v58 (c : Dev nD) : Vec Ideal S64x32x1 .i32 := Hand.W2 (F := Ideal) m ρ c (Proc.devRef .tc main_v58)
abbrev v4a (c : Dev nD) : Vec Ideal S64x32x63 .f32 := Hand.W2 (F := Ideal) m ρ c (Proc.devRef .tc main_arg4)

theorem cell_lt (g : Fin 9216) : g.val / 96 < 96 := by have := g.isLt; omega
theorem cell_mod_lt (g : Fin 9216) : g.val % 96 < 96 := Nat.mod_lt _ (by decide)

theorem r59 (V : Valuation τ sig (Elt Ideal)) :
    (StableHlo.after main_part1_ops0 V (Proc.devRef .tc main_v59) : Vec Ideal S64x9216x6 .f32)
      = shapeCast S64x9216x6 (V (Proc.devRef .tc main_arg0) : Vec Ideal S64x96x96x6 .f32) shapeCasts_S64x96x96x6_S64x9216x6 := by
  after_results
  rfl

theorem in59 (c : Dev nD) (b : Fin 64) (g : Fin 9216) (ch : Fin 6) :
    v59 m ρ c (ix3 b g ch) = pbA m c (ix4 b ⟨g.val / 96, cell_lt g⟩ ⟨g.val % 96, cell_mod_lt g⟩ ch) := by
  have e : v59 m ρ c = shapeCast S64x9216x6 (pbA m c) shapeCasts_S64x96x96x6_S64x9216x6 := by
    show StableHlo.after main_part1_ops0 (Hand.W1 (F := Ideal) m ρ c) (Proc.devRef .tc main_v59) = _
    rw [r59]
    exact congrArg (fun x => shapeCast S64x9216x6 x shapeCasts_S64x96x96x6_S64x9216x6) (Hand.keep_part0_ops0 _ main_arg0 (by decide))
  rw [e]
  refine shapeCast_apply _ _ _ _ ?_
  rw [Shape.rowMajor_val_four, Shape.rowMajor_val_three]
  show ((b.val * 96 + g.val / 96) * 96 + g.val % 96) * 6 + ch.val = (b.val * 9216 + g.val) * 6 + ch.val
  omega

theorem r60 (V : Valuation τ sig (Elt Ideal)) :
    (StableHlo.after main_part1_ops0 V (Proc.devRef .tc main_v60) : Vec Ideal S64x9216x1 .f32)
      = shapeCast S64x9216x1 (V (Proc.devRef .tc main_arg1) : Vec Ideal S64x96x96x1 .f32) shapeCasts_S64x96x96x1_S64x9216x1 := by
  after_results
  rfl

theorem in60 (c : Dev nD) (b : Fin 64) (g : Fin 9216) (ch : Fin 1) :
    v60 m ρ c (ix3 b g ch) = pcA m c (ix4 b ⟨g.val / 96, cell_lt g⟩ ⟨g.val % 96, cell_mod_lt g⟩ ch) := by
  have e : v60 m ρ c = shapeCast S64x9216x1 (pcA m c) shapeCasts_S64x96x96x1_S64x9216x1 := by
    show StableHlo.after main_part1_ops0 (Hand.W1 (F := Ideal) m ρ c) (Proc.devRef .tc main_v60) = _
    rw [r60]
    exact congrArg (fun x => shapeCast S64x9216x1 x shapeCasts_S64x96x96x1_S64x9216x1) (Hand.keep_part0_ops0 _ main_arg1 (by decide))
  rw [e]
  refine shapeCast_apply _ _ _ _ ?_
  rw [Shape.rowMajor_val_four, Shape.rowMajor_val_three]
  show ((b.val * 96 + g.val / 96) * 96 + g.val % 96) * 1 + ch.val = (b.val * 9216 + g.val) * 1 + ch.val
  omega

theorem r61 (V : Valuation τ sig (Elt Ideal)) :
    (StableHlo.after main_part1_ops0 V (Proc.devRef .tc main_v61) : Vec Ideal S64x9216x63 .f32)
      = shapeCast S64x9216x63 (V (Proc.devRef .tc main_arg2) : Vec Ideal S64x96x96x63 .f32) shapeCasts_S64x96x96x63_S64x9216x63 := by
  after_results
  rfl

theorem in61 (c : Dev nD) (b : Fin 64) (g : Fin 9216) (k : Fin 63) :
    v61 m ρ c (ix3 b g k) = pkA m c (ix4 b ⟨g.val / 96, cell_lt g⟩ ⟨g.val % 96, cell_mod_lt g⟩ k) := by
  have e : v61 m ρ c = shapeCast S64x9216x63 (pkA m c) shapeCasts_S64x96x96x63_S64x9216x63 := by
    show StableHlo.after main_part1_ops0 (Hand.W1 (F := Ideal) m ρ c) (Proc.devRef .tc main_v61) = _
    rw [r61]
    exact congrArg (fun x => shapeCast S64x9216x63 x shapeCasts_S64x96x96x63_S64x9216x63) (Hand.keep_part0_ops0 _ main_arg2 (by decide))
  rw [e]
  refine shapeCast_apply _ _ _ _ ?_
  rw [Shape.rowMajor_val_four, Shape.rowMajor_val_three]
  show ((b.val * 96 + g.val / 96) * 96 + g.val % 96) * 63 + k.val = (b.val * 9216 + g.val) * 63 + k.val
  omega

def tXa (tb : Vec Ideal S64x32x6 .f32) : FVec Ideal S64x32 .f32 :=
  mulf (shapeCast S64x32 (extractStridedSlice S64x32x1 ![0, 0, 0] tb slices_S64x32x6_S64x32x1_0_0_0) shapeCasts_S64x32x1_S64x32)
    (broadcastInDim S64x32 ![] bcast_S_S64x32 (constant (F := Ideal) S_ .f32 0x42C00000#32))
def tYa (tb : Vec Ideal S64x32x6 .f32) : FVec Ideal S64x32 .f32 :=
  mulf (shapeCast S64x32 (extractStridedSlice S64x32x1 ![0, 0, 1] tb slices_S64x32x6_S64x32x1_0_0_1) shapeCasts_S64x32x1_S64x32)
    (broadcastInDim S64x32 ![] bcast_S_S64x32 (constant (F := Ideal) S_ .f32 0x42C00000#32))

theorem tXa_apply (tb : Vec Ideal S64x32x6 .f32) (b : Fin 64) (n : Fin 32) : tXa tb (ix2 b n) = Cert.Spec.tX tb b n := by
  unfold tXa Cert.Spec.tX
  rw [mulf_apply, broadcastInDim_scalar_apply, constant_apply]
  congr 1
  refine (shapeCast_apply _ _ _ (ix3 b n (0 : Fin 1)) ?_).trans ?_
  · rw [Shape.rowMajor_val_three, Shape.rowMajor_val_two]
    show (b.val * 32 + n.val) * 1 + 0 = b.val * 32 + n.val
    omega
  · exact extractStridedSlice_apply _ _ _ _ (ix3 b n (0 : Fin 6)) (fun a => match a with
      | ⟨0, _⟩ => by show b.val = 0 + b.val; omega
      | ⟨1, _⟩ => by show n.val = 0 + n.val; omega
      | ⟨2, _⟩ => by show 0 = 0 + 0; omega)

theorem tYa_apply (tb : Vec Ideal S64x32x6 .f32) (b : Fin 64) (n : Fin 32) : tYa tb (ix2 b n) = Cert.Spec.tY tb b n := by
  unfold tYa Cert.Spec.tY
  rw [mulf_apply, broadcastInDim_scalar_apply, constant_apply]
  congr 1
  refine (shapeCast_apply _ _ _ (ix3 b n (0 : Fin 1)) ?_).trans ?_
  · rw [Shape.rowMajor_val_three, Shape.rowMajor_val_two]
    show (b.val * 32 + n.val) * 1 + 0 = b.val * 32 + n.val
    omega
  · exact extractStridedSlice_apply _ _ _ _ (ix3 b n (1 : Fin 6)) (fun a => match a with
      | ⟨0, _⟩ => by show b.val = 0 + b.val; omega
      | ⟨1, _⟩ => by show n.val = 0 + n.val; omega
      | ⟨2, _⟩ => by show 1 = 1 + 0; omega)

set_option maxHeartbeats 4000000 in
theorem r43 (V : Valuation τ sig (Elt Ideal)) :
    (StableHlo.after main_part0_ops0 V (Proc.devRef .tc main_v43) : Vec Ideal S64x32 .i32)
      = addi (muli (fptosi 32 (tYa (V (Proc.devRef .tc main_arg3)))) (broadcastInDim S64x32 ![] bcast_S_S64x32 (constantI S_ 32 96#32)))
          (fptosi 32 (tXa (V (Proc.devRef .tc main_arg3)))) := by
  after_results_simp
  rfl

theorem r58 (V : Valuation τ sig (Elt Ideal)) :
    (StableHlo.after main_part1_ops0 V (Proc.devRef .tc main_v58) : Vec Ideal S64x32x1 .i32)
      = broadcastInDim S64x32x1 ![0, 1] bcast_S64x32_S64x32x1_0_1 (V (Proc.devRef .tc main_v43) : Vec Ideal S64x32 .i32) := by
  after_results

theorem in58 (c : Dev nD) (b : Fin 64) (n : Fin 32) :
    v58 m ρ c (ix3 b n (0 : Fin 1)) = Cert.Spec.gj (tbA m c) b n * 96#32 + Cert.Spec.gi (tbA m c) b n := by
  have e : v58 m ρ c = broadcastInDim S64x32x1 ![0, 1] bcast_S64x32_S64x32x1_0_1
      (addi (muli (fptosi 32 (tYa (tbA m c))) (broadcastInDim S64x32 ![] bcast_S_S64x32 (constantI S_ 32 96#32))) (fptosi 32 (tXa (tbA m c)))) := by
    show StableHlo.after main_part1_ops0 (Hand.W1 (F := Ideal) m ρ c) (Proc.devRef .tc main_v58) = _
    rw [r58]
    show broadcastInDim S64x32x1 ![0, 1] bcast_S64x32_S64x32x1_0_1 (StableHlo.after main_part0_ops0 (Hand.W0 (F := Ideal) m ρ c) (Proc.devRef .tc main_v43) : Vec Ideal S64x32 .i32) = _
    rw [r43]
  rw [e]
  refine (broadcastInDim_apply _ _ _ _ (ix2 b n) (fun a => match a with
      | ⟨0, _⟩ => rfl
      | ⟨1, _⟩ => rfl)).trans ?_
  show IntOp.addi (IntOp.muli (Ideal.fptosi 32 (tYa (tbA m c) (ix2 b n))) (broadcastInDim S64x32 ![] bcast_S_S64x32 (constantI S_ 32 96#32) (ix2 b n))) (Ideal.fptosi 32 (tXa (tbA m c) (ix2 b n))) = _
  rw [broadcastInDim_scalar_apply, constantI_apply, tXa_apply, tYa_apply]
  rfl

theorem toNat_lt_of_toInt (x : BitVec 32) (h0 : 0 ≤ x.toInt) (h1 : x.toInt < 96) : x.toNat < 96 := by
  have := x.isLt
  rw [BitVec.toInt_eq_toNat_cond] at h0 h1
  split_ifs at h0 h1 <;> omega

theorem cell_word (x y : BitVec 32) (hx : x.toNat < 96) (hy : y.toNat < 96) :
    y * 96#32 + x = BitVec.ofNat 32 (96 * (y.toNat % 96) + x.toNat % 96) := by
  apply BitVec.eq_of_toNat_eq
  simp only [BitVec.toNat_add, BitVec.toNat_mul, BitVec.toNat_ofNat]
  show (y.toNat * 96 % 4294967296 + x.toNat) % 4294967296 = (96 * (y.toNat % 96) + x.toNat % 96) % 4294967296
  rw [Nat.mod_eq_of_lt hy, Nat.mod_eq_of_lt hx, Nat.mod_eq_of_lt (show y.toNat * 96 < 4294967296 by omega), Nat.mul_comm]

theorem cellNat_lt (tb : Cert.Spec.S64x32x6.Idx → EReal) (b : Fin 64) (n : Fin 32) :
    96 * (Cert.Spec.row tb b n).val + (Cert.Spec.col tb b n).val < 9216 := by
  have h1 := (Cert.Spec.row tb b n).isLt; have h2 := (Cert.Spec.col tb b n).isLt; omega

theorem in58_cell (c : Dev nD) (hg : Cert.Spec.InGrid (tbA m c)) (b : Fin 64) (n : Fin 32) :
    v58 m ρ c (ix3 b n (0 : Fin 1))
      = BitVec.ofNat 32 (96 * (Cert.Spec.row (tbA m c) b n).val + (Cert.Spec.col (tbA m c) b n).val) := by
  obtain ⟨hi0, hi1, hj0, hj1⟩ := hg b n
  rw [in58]
  exact cell_word _ _ (toNat_lt_of_toInt _ hi0 hi1) (toNat_lt_of_toInt _ hj0 hj1)

theorem in_arg4 (c : Dev nD) : v4a m ρ c = tkA m c :=
  (Hand.keep_part1_ops0 _ main_arg4 (by decide)).trans (Hand.keep_part0_ops0 _ main_arg4 (by decide))

end Cert.KernelIdeal.KV

end
-- ==== Proof.KI.KIn52.lean ====
import proofs.«431468_j28140625724039_3_alg».proof.Proof.KI.Run
import proofs.«431468_j28140625724039_3_alg».proof.Proof.Spec
import Idealize.ShloMosaic.Lib.Pipeline.Value
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

namespace In52

abbrev tb (c : Dev nD) : Vec Ideal S64x32x6 .f32 := m ((c : Thread nD τ).loc main_arg3)
end In52

def t8 (tb : Cert.Spec.S64x32x6.Idx → EReal) (b : Fin 64) (n : Fin 32) : Fin 8 → EReal
  | 0 => Cert.Spec.lX tb b n
  | 1 => Cert.Spec.lY tb b n
  | 2 => Cert.Spec.lW tb b n
  | 3 => Cert.Spec.lH tb b n
  | 4 => Cert.Spec.tZ tb b n
  | 5 => Cert.Spec.lD tb b n
  | 6 => (((Cert.Spec.gi tb b n).toInt : ℝ) : EReal)
  | 7 => (((Cert.Spec.gj tb b n).toInt : ℝ) : EReal)

theorem col_apply (tb : Vec Ideal S64x32x6 .f32) (k : Fin 6) (b : Fin 64) (n : Fin 32)
    (h1 : S64x32x6.Slices ![0, 0, k.val] S64x32x1) (h2 : S64x32x1.ShapeCasts S64x32) :
    shapeCast S64x32 (extractStridedSlice S64x32x1 ![0, 0, k.val] tb h1) h2 (ix2 b n) = tb (ix3 b n k) := by
  refine (shapeCast_apply _ _ (ix2 b n) (ix3 b n (0 : Fin 1))
    (by rw [Shape.rowMajor_val_two, Shape.rowMajor_val_three]
        show (b.val * 32 + n.val) * 1 + 0 = b.val * 32 + n.val
        omega)).trans ?_
  exact extractStridedSlice_apply _ _ _ _ (ix3 b n k) (fun a => match a with
    | ⟨0, _⟩ => by show b.val = 0 + b.val; omega
    | ⟨1, _⟩ => by show n.val = 0 + n.val; omega
    | ⟨2, _⟩ => by show k.val = k.val + 0; omega)

theorem bc_apply {α : Type} (x : S64x32.Idx → α) (h : S64x32.BroadcastsInDim S64x32x1 ![0, 1]) (b : Fin 64) (n : Fin 32) :
    broadcastInDim S64x32x1 ![0, 1] h x (ix3 b n (0 : Fin 1)) = x (ix2 b n) :=
  broadcastInDim_apply _ h x _ (ix2 b n) (fun a => match a with | ⟨0, _⟩ => rfl | ⟨1, _⟩ => rfl)

theorem w1_v3 (V : Valuation τ sig (Elt Ideal)) (b : Fin 64) (n : Fin 32) :
    (StableHlo.after (main_part0_ops0 : List (HloOp τ sig (Elt Ideal))) V (Proc.devRef .tc main_v3) : Vec Ideal S64x32 .f32) (ix2 b n)
      = Cert.Spec.tX (V (Proc.devRef .tc main_arg3)) b n := by
  after_results
  exact congrArg (fun x : EReal => x * Cert.Spec.c96) (col_apply _ 0 b n _ _)

theorem w1_v7 (V : Valuation τ sig (Elt Ideal)) (b : Fin 64) (n : Fin 32) :
    (StableHlo.after (main_part0_ops0 : List (HloOp τ sig (Elt Ideal))) V (Proc.devRef .tc main_v7) : Vec Ideal S64x32 .f32) (ix2 b n)
      = Cert.Spec.tY (V (Proc.devRef .tc main_arg3)) b n := by
  after_results
  exact congrArg (fun x : EReal => x * Cert.Spec.c96) (col_apply _ 1 b n _ _)

theorem w1_v13 (V : Valuation τ sig (Elt Ideal)) (b : Fin 64) (n : Fin 32) :
    (StableHlo.after (main_part0_ops0 : List (HloOp τ sig (Elt Ideal))) V (Proc.devRef .tc main_v13) : Vec Ideal S64x32 .f32) (ix2 b n)
      = Cert.Spec.tW (V (Proc.devRef .tc main_arg3)) b n := by
  after_results
  exact congrArg (fun x : EReal => x * Cert.Spec.c96) (col_apply _ 3 b n _ _)

theorem w1_v17 (V : Valuation τ sig (Elt Ideal)) (b : Fin 64) (n : Fin 32) :
    (StableHlo.after (main_part0_ops0 : List (HloOp τ sig (Elt Ideal))) V (Proc.devRef .tc main_v17) : Vec Ideal S64x32 .f32) (ix2 b n)
      = Cert.Spec.tH (V (Proc.devRef .tc main_arg3)) b n := by
  after_results
  exact congrArg (fun x : EReal => x * Cert.Spec.c96) (col_apply _ 4 b n _ _)

theorem w1_v39 (V : Valuation τ sig (Elt Ideal)) (b : Fin 64) (n : Fin 32) :
    (StableHlo.after (main_part0_ops0 : List (HloOp τ sig (Elt Ideal))) V (Proc.devRef .tc main_v39) : Vec Ideal S64x32 .f32) (ix2 b n)
      = (((Cert.Spec.gi (V (Proc.devRef .tc main_arg3)) b n).toInt : ℝ) : EReal) := by
  after_results
  exact congrArg (fun x : EReal => (((Ideal.fptosi 32 (x * Cert.Spec.c96)).toInt : ℝ) : EReal)) (col_apply _ 0 b n _ _)

theorem w1_v40 (V : Valuation τ sig (Elt Ideal)) (b : Fin 64) (n : Fin 32) :
    (StableHlo.after (main_part0_ops0 : List (HloOp τ sig (Elt Ideal))) V (Proc.devRef .tc main_v40) : Vec Ideal S64x32 .f32) (ix2 b n)
      = (((Cert.Spec.gj (V (Proc.devRef .tc main_arg3)) b n).toInt : ℝ) : EReal) := by
  after_results
  exact congrArg (fun x : EReal => (((Ideal.fptosi 32 (x * Cert.Spec.c96)).toInt : ℝ) : EReal)) (col_apply _ 1 b n _ _)

theorem w1_v44 (V : Valuation τ sig (Elt Ideal)) (b : Fin 64) (n : Fin 32) :
    (StableHlo.after (main_part0_ops0 : List (HloOp τ sig (Elt Ideal))) V (Proc.devRef .tc main_v44) : Vec Ideal S64x32x1 .f32) (ix3 b n (0 : Fin 1))
      = Cert.Spec.lX (V (Proc.devRef .tc main_arg3)) b n := by
  after_results
  refine (bc_apply _ _ b n).trans ?_
  exact congrArg (fun x : EReal => x * Cert.Spec.c96 - Ideal.liftRound Int.floor (x * Cert.Spec.c96)) (col_apply _ 0 b n _ _)

theorem w1_v45 (V : Valuation τ sig (Elt Ideal)) (b : Fin 64) (n : Fin 32) :
    (StableHlo.after (main_part0_ops0 : List (HloOp τ sig (Elt Ideal))) V (Proc.devRef .tc main_v45) : Vec Ideal S64x32x1 .f32) (ix3 b n (0 : Fin 1))
      = Cert.Spec.lY (V (Proc.devRef .tc main_arg3)) b n := by
  after_results
  refine (bc_apply _ _ b n).trans ?_
  exact congrArg (fun x : EReal => x * Cert.Spec.c96 - Ideal.liftRound Int.floor (x * Cert.Spec.c96)) (col_apply _ 1 b n _ _)

theorem w1_v46 (V : Valuation τ sig (Elt Ideal)) (b : Fin 64) (n : Fin 32) :
    (StableHlo.after (main_part0_ops0 : List (HloOp τ sig (Elt Ideal))) V (Proc.devRef .tc main_v46) : Vec Ideal S64x32x1 .f32) (ix3 b n (0 : Fin 1))
      = Cert.Spec.lW (V (Proc.devRef .tc main_arg3)) b n := by
  after_results
  refine (bc_apply _ _ b n).trans ?_
  exact congrArg (fun x : EReal => Ideal.log (Ideal.div (x * Cert.Spec.c96) Cert.Spec.c3 + Cert.Spec.ceps)) (col_apply _ 3 b n _ _)

theorem w1_v47 (V : Valuation τ sig (Elt Ideal)) (b : Fin 64) (n : Fin 32) :
    (StableHlo.after (main_part0_ops0 : List (HloOp τ sig (Elt Ideal))) V (Proc.devRef .tc main_v47) : Vec Ideal S64x32x1 .f32) (ix3 b n (0 : Fin 1))
      = Cert.Spec.lH (V (Proc.devRef .tc main_arg3)) b n := by
  after_results
  refine (bc_apply _ _ b n).trans ?_
  exact congrArg (fun x : EReal => Ideal.log (Ideal.div (x * Cert.Spec.c96) Cert.Spec.c3 + Cert.Spec.ceps)) (col_apply _ 4 b n _ _)

theorem w1_v48 (V : Valuation τ sig (Elt Ideal)) (b : Fin 64) (n : Fin 32) :
    (StableHlo.after (main_part0_ops0 : List (HloOp τ sig (Elt Ideal))) V (Proc.devRef .tc main_v48) : Vec Ideal S64x32x1 .f32) (ix3 b n (0 : Fin 1))
      = Cert.Spec.tZ (V (Proc.devRef .tc main_arg3)) b n := by
  after_results
  refine (bc_apply _ _ b n).trans ?_
  exact col_apply _ 2 b n _ _

theorem w1_v49 (V : Valuation τ sig (Elt Ideal)) (b : Fin 64) (n : Fin 32) :
    (StableHlo.after (main_part0_ops0 : List (HloOp τ sig (Elt Ideal))) V (Proc.devRef .tc main_v49) : Vec Ideal S64x32x1 .f32) (ix3 b n (0 : Fin 1))
      = Cert.Spec.lD (V (Proc.devRef .tc main_arg3)) b n := by
  after_results
  refine (bc_apply _ _ b n).trans ?_
  exact congrArg (fun x : EReal => Ideal.log (x + Cert.Spec.ceps)) (col_apply _ 5 b n _ _)

theorem nary8_result {Val : EltTy → Type} {x0 x1 x2 x3 x4 x5 x6 x7 y : Ref sig .tc}
    (f : ((k : Fin 8) → ((![x0, x1, x2, x3, x4, x5, x6, x7] : Fin 8 → Ref sig .tc) k).ty.Contents Val) → y.ty.Contents Val) (hxs hy)
    (F : Valuation τ sig Val) :
    (StableHlo.nary (τ := τ) ![x0, x1, x2, x3, x4, x5, x6, x7] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) := by
  rw [StableHlo.nary_result]; congr 1; funext k; fin_cases k <;> rfl

abbrev cat8 (x0 x1 x2 x3 x4 x5 x6 x7 : Vec Ideal S64x32x1 .f32) : Vec Ideal S64x32x8 .f32 :=
  concatenate S64x32x8 2 [⟨S64x32x1, x0⟩, ⟨S64x32x1, x1⟩, ⟨S64x32x1, x2⟩, ⟨S64x32x1, x3⟩, ⟨S64x32x1, x4⟩, ⟨S64x32x1, x5⟩,
    ⟨S64x32x1, x6⟩, ⟨S64x32x1, x7⟩] Gen.concatenates_S64x32x1_S64x32x1_S64x32x1_S64x32x1_S64x32x1_S64x32x1_S64x32x1_S64x32x1_S64x32x8_d2

abbrev cat4 (x0 x1 x2 x3 : Vec Ideal S64x32x1 .f32) : Vec Ideal S64x32x4 .f32 :=
  concatenate S64x32x4 2 [⟨S64x32x1, x0⟩, ⟨S64x32x1, x1⟩, ⟨S64x32x1, x2⟩, ⟨S64x32x1, x3⟩]
    Gen.concatenates_S64x32x1_S64x32x1_S64x32x1_S64x32x1_S64x32x4_d2

abbrev bc1 (x : Vec Ideal S64x32 .f32) : Vec Ideal S64x32x1 .f32 := broadcastInDim S64x32x1 ![0, 1] Gen.bcast_S64x32_S64x32x1_0_1 x

open Idealize.ShloMosaic.StableHlo in
theorem w2_v52 (V : Valuation τ sig (Elt Ideal)) :
    (StableHlo.after (main_part1_ops0 : List (HloOp τ sig (Elt Ideal))) V (Proc.devRef .tc main_v52) : Vec Ideal S64x32x8 .f32)
      = cat8 (V (Proc.devRef .tc main_v44)) (V (Proc.devRef .tc main_v45)) (V (Proc.devRef .tc main_v46)) (V (Proc.devRef .tc main_v47))
          (V (Proc.devRef .tc main_v48)) (V (Proc.devRef .tc main_v49)) (bc1 (V (Proc.devRef .tc main_v39))) (bc1 (V (Proc.devRef .tc main_v40))) := by
  simp only [after_cons, after_nil]
  repeat (first
    | rw [unary_result] | rw [reshape_result] | rw [nary8_result]
    | (rw [unary_result_ne]; rotate_left; decide)
    | (rw [reshape_result_ne]; rotate_left; decide)
    | (rw [nary_result_ne]; rotate_left; decide))
  rfl

open Idealize.ShloMosaic.StableHlo in
theorem w2_v57 (V : Valuation τ sig (Elt Ideal)) :
    (StableHlo.after (main_part1_ops0 : List (HloOp τ sig (Elt Ideal))) V (Proc.devRef .tc main_v57) : Vec Ideal S64x32x4 .f32)
      = cat4 (bc1 (V (Proc.devRef .tc main_v3))) (bc1 (V (Proc.devRef .tc main_v7))) (bc1 (V (Proc.devRef .tc main_v13)))
          (bc1 (V (Proc.devRef .tc main_v17))) := by
  after_results
  rfl

theorem cat8_apply (x0 x1 x2 x3 x4 x5 x6 x7 : Vec Ideal S64x32x1 .f32) (b : Fin 64) (n : Fin 32) (j : Fin 8) :
    cat8 x0 x1 x2 x3 x4 x5 x6 x7 (ix3 b n j)
      = (match j with | 0 => x0 | 1 => x1 | 2 => x2 | 3 => x3 | 4 => x4 | 5 => x5 | 6 => x6 | 7 => x7 : Vec Ideal S64x32x1 .f32) (ix3 b n (0 : Fin 1)) := by
  unfold cat8
  match j with
  | ⟨0, _⟩ => exact concatenate_apply_piece (2 : Fin 3) _ _ (ix3 b n (⟨0, by decide⟩ : Fin 8)) 0 (by simp) S64x32x1 x0 rfl rfl 0 rfl (ix3 b n (0 : Fin 1)) (fun a ha => match a, ha with | ⟨0, _⟩, _ => rfl | ⟨1, _⟩, _ => rfl | ⟨2, _⟩, ha => absurd rfl ha) rfl
  | ⟨1, _⟩ => exact concatenate_apply_piece (2 : Fin 3) _ _ (ix3 b n (⟨1, by decide⟩ : Fin 8)) 1 (by simp) S64x32x1 x1 rfl rfl 1 rfl (ix3 b n (0 : Fin 1)) (fun a ha => match a, ha with | ⟨0, _⟩, _ => rfl | ⟨1, _⟩, _ => rfl | ⟨2, _⟩, ha => absurd rfl ha) rfl
  | ⟨2, _⟩ => exact concatenate_apply_piece (2 : Fin 3) _ _ (ix3 b n (⟨2, by decide⟩ : Fin 8)) 2 (by simp) S64x32x1 x2 rfl rfl 2 rfl (ix3 b n (0 : Fin 1)) (fun a ha => match a, ha with | ⟨0, _⟩, _ => rfl | ⟨1, _⟩, _ => rfl | ⟨2, _⟩, ha => absurd rfl ha) rfl
  | ⟨3, _⟩ => exact concatenate_apply_piece (2 : Fin 3) _ _ (ix3 b n (⟨3, by decide⟩ : Fin 8)) 3 (by simp) S64x32x1 x3 rfl rfl 3 rfl (ix3 b n (0 : Fin 1)) (fun a ha => match a, ha with | ⟨0, _⟩, _ => rfl | ⟨1, _⟩, _ => rfl | ⟨2, _⟩, ha => absurd rfl ha) rfl
  | ⟨4, _⟩ => exact concatenate_apply_piece (2 : Fin 3) _ _ (ix3 b n (⟨4, by decide⟩ : Fin 8)) 4 (by simp) S64x32x1 x4 rfl rfl 4 rfl (ix3 b n (0 : Fin 1)) (fun a ha => match a, ha with | ⟨0, _⟩, _ => rfl | ⟨1, _⟩, _ => rfl | ⟨2, _⟩, ha => absurd rfl ha) rfl
  | ⟨5, _⟩ => exact concatenate_apply_piece (2 : Fin 3) _ _ (ix3 b n (⟨5, by decide⟩ : Fin 8)) 5 (by simp) S64x32x1 x5 rfl rfl 5 rfl (ix3 b n (0 : Fin 1)) (fun a ha => match a, ha with | ⟨0, _⟩, _ => rfl | ⟨1, _⟩, _ => rfl | ⟨2, _⟩, ha => absurd rfl ha) rfl
  | ⟨6, _⟩ => exact concatenate_apply_piece (2 : Fin 3) _ _ (ix3 b n (⟨6, by decide⟩ : Fin 8)) 6 (by simp) S64x32x1 x6 rfl rfl 6 rfl (ix3 b n (0 : Fin 1)) (fun a ha => match a, ha with | ⟨0, _⟩, _ => rfl | ⟨1, _⟩, _ => rfl | ⟨2, _⟩, ha => absurd rfl ha) rfl
  | ⟨7, _⟩ => exact concatenate_apply_piece (2 : Fin 3) _ _ (ix3 b n (⟨7, by decide⟩ : Fin 8)) 7 (by simp) S64x32x1 x7 rfl rfl 7 rfl (ix3 b n (0 : Fin 1)) (fun a ha => match a, ha with | ⟨0, _⟩, _ => rfl | ⟨1, _⟩, _ => rfl | ⟨2, _⟩, ha => absurd rfl ha) rfl

theorem cat4_apply (x0 x1 x2 x3 : Vec Ideal S64x32x1 .f32) (b : Fin 64) (n : Fin 32) (q : Fin 4) :
    cat4 x0 x1 x2 x3 (ix3 b n q)
      = (match q with | 0 => x0 | 1 => x1 | 2 => x2 | 3 => x3 : Vec Ideal S64x32x1 .f32) (ix3 b n (0 : Fin 1)) := by
  unfold cat4
  match q with
  | ⟨0, _⟩ => exact concatenate_apply_piece (2 : Fin 3) _ _ (ix3 b n (⟨0, by decide⟩ : Fin 4)) 0 (by simp) S64x32x1 x0 rfl rfl 0 rfl (ix3 b n (0 : Fin 1)) (fun a ha => match a, ha with | ⟨0, _⟩, _ => rfl | ⟨1, _⟩, _ => rfl | ⟨2, _⟩, ha => absurd rfl ha) rfl
  | ⟨1, _⟩ => exact concatenate_apply_piece (2 : Fin 3) _ _ (ix3 b n (⟨1, by decide⟩ : Fin 4)) 1 (by simp) S64x32x1 x1 rfl rfl 1 rfl (ix3 b n (0 : Fin 1)) (fun a ha => match a, ha with | ⟨0, _⟩, _ => rfl | ⟨1, _⟩, _ => rfl | ⟨2, _⟩, ha => absurd rfl ha) rfl
  | ⟨2, _⟩ => exact concatenate_apply_piece (2 : Fin 3) _ _ (ix3 b n (⟨2, by decide⟩ : Fin 4)) 2 (by simp) S64x32x1 x2 rfl rfl 2 rfl (ix3 b n (0 : Fin 1)) (fun a ha => match a, ha with | ⟨0, _⟩, _ => rfl | ⟨1, _⟩, _ => rfl | ⟨2, _⟩, ha => absurd rfl ha) rfl
  | ⟨3, _⟩ => exact concatenate_apply_piece (2 : Fin 3) _ _ (ix3 b n (⟨3, by decide⟩ : Fin 4)) 3 (by simp) S64x32x1 x3 rfl rfl 3 rfl (ix3 b n (0 : Fin 1)) (fun a ha => match a, ha with | ⟨0, _⟩, _ => rfl | ⟨1, _⟩, _ => rfl | ⟨2, _⟩, ha => absurd rfl ha) rfl

theorem in52 (c : Dev nD) (b : Fin 64) (n : Fin 32) (j : Fin 8) :
    (Hand.W2 (F := Ideal) m ρ c (Proc.devRef .tc main_v52) : Vec Ideal S64x32x8 .f32) (ix3 b n j)
      = t8 (In52.tb m c) b n j := by
  refine (congrFun (w2_v52 (Hand.W1 (F := Ideal) m ρ c)) (ix3 b n j)).trans ?_
  refine (cat8_apply _ _ _ _ _ _ _ _ b n j).trans ?_
  match j with
  | 0 => exact w1_v44 (Hand.W0 (F := Ideal) m ρ c) b n
  | 1 => exact w1_v45 (Hand.W0 (F := Ideal) m ρ c) b n
  | 2 => exact w1_v46 (Hand.W0 (F := Ideal) m ρ c) b n
  | 3 => exact w1_v47 (Hand.W0 (F := Ideal) m ρ c) b n
  | 4 => exact w1_v48 (Hand.W0 (F := Ideal) m ρ c) b n
  | 5 => exact w1_v49 (Hand.W0 (F := Ideal) m ρ c) b n
  | 6 => exact (bc_apply _ _ b n).trans (w1_v39 (Hand.W0 (F := Ideal) m ρ c) b n)
  | 7 => exact (bc_apply _ _ b n).trans (w1_v40 (Hand.W0 (F := Ideal) m ρ c) b n)

theorem in57 (c : Dev nD) (b : Fin 64) (n : Fin 32) (q : Fin 4) :
    (Hand.W2 (F := Ideal) m ρ c (Proc.devRef .tc main_v57) : Vec Ideal S64x32x4 .f32) (ix3 b n q)
      = Cert.Spec.tbox (In52.tb m c) b n q := by
  refine (congrFun (w2_v57 (Hand.W1 (F := Ideal) m ρ c)) (ix3 b n q)).trans ?_
  refine (cat4_apply _ _ _ _ b n q).trans ?_
  match q with
  | 0 => exact (bc_apply _ _ b n).trans (w1_v3 (Hand.W0 (F := Ideal) m ρ c) b n)
  | 1 => exact (bc_apply _ _ b n).trans (w1_v7 (Hand.W0 (F := Ideal) m ρ c) b n)
  | 2 => exact (bc_apply _ _ b n).trans (w1_v13 (Hand.W0 (F := Ideal) m ρ c) b n)
  | 3 => exact (bc_apply _ _ b n).trans (w1_v17 (Hand.W0 (F := Ideal) m ρ c) b n)

end Cert.KernelIdeal.KV

end
-- ==== Proof.KI.KOut0.lean ====
import proofs.«431468_j28140625724039_3_alg».proof.Proof.KI.KOut0B
import proofs.«431468_j28140625724039_3_alg».proof.Proof.KI.KIn
import proofs.«431468_j28140625724039_3_alg».proof.Proof.KI.KIn52

set_option maxRecDepth 16384

noncomputable section

namespace Cert.KernelIdeal.KV

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

theorem t8_eq (tb : Cert.Spec.S64x32x6.Idx → EReal) (b : Fin 64) (n : Fin 32) (j : Fin 8) : t8 tb b n j = t8' tb b n j :=
  match j with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

theorem out7 (c : Dev nD) (hg : Cert.Spec.InGrid (tbA m c)) (b : Fin 64) (n : Fin 32) (q : Fin 4) :
    Hand.W3 (F := Ideal) m ρ c (Proc.devRef .tc main_v62_0) (ix3 b n q) = Cert.Spec.pbox (pbA m c) (tbA m c) b n q :=
  out7_of m ρ c (pbA m c) (tbA m c) (fun b g ch => in59 m ρ c b g ch) (fun b n => in58_cell m ρ c hg b n)
    (fun b n j => (in52 m ρ c b n j).trans (t8_eq _ b n j)) b n q

theorem out8 (c : Dev nD) (hg : Cert.Spec.InGrid (tbA m c)) (b : Fin 64) (j : Fin 8) :
    Hand.W3 (F := Ideal) m ρ c (Proc.devRef .tc main_v62_1) (ix3 b (0 : Fin 1) j)
      = A8 (pbA m c) (pcA m c) (pkA m c) (tbA m c) (tkA m c) b j :=
  out8_of m ρ c (pbA m c) (pcA m c) (pkA m c) (tbA m c) (tkA m c) (fun b g ch => in59 m ρ c b g ch)
    (fun b g ch => in60 m ρ c b g ch) (fun b g k => in61 m ρ c b g k) (fun b n => in58_cell m ρ c hg b n)
    (fun b n j => (in52 m ρ c b n j).trans (t8_eq _ b n j)) (fun b n k => congrFun (in_arg4 m ρ c) (ix3 b n k)) b j

theorem t57 (c : Dev nD) (b : Fin 64) (n : Fin 32) (q : Fin 4) :
    Hand.W3 (F := Ideal) m ρ c (Proc.devRef .tc main_v57) (ix3 b n q) = Cert.Spec.tbox (tbA m c) b n q :=
  (congrFun (W3_v57 m ρ c) (ix3 b n q)).trans (in57 m ρ c b n q)

end Cert.KernelIdeal.KV

end
-- ==== Proof.KI.KFinal.lean ====
import Idealize.ShloMosaic.PureOps.Ideal
import Idealize.ShloMosaic.Lib.ValueIdx
import Mathlib.Algebra.BigOperators.Fin
import Mathlib.Data.Fintype.BigOperators
import Mathlib.Data.EReal.Operations
import proofs.«431468_j28140625724039_3_alg».proof.Proof.Spec
import proofs.«431468_j28140625724039_3_alg».proof.Proof.Algebra

noncomputable section

namespace Cert.KernelIdeal.KV

open Idealize.ShloMosaic Idealize.ShloMosaic.ValueIdx Cert.Spec Cert.Algebra

variable (pb : S64x96x96x6.Idx → EReal) (pc : S64x96x96x1.Idx → EReal) (pk : S64x96x96x63.Idx → EReal)
  (tb : S64x32x6.Idx → EReal) (tk : S64x32x63.Idx → EReal)

theorem cells' {M : Type*} [AddCommMonoid M] (f : Fin 96 → Fin 96 → M) :
    ∑ g : Fin 9216, f ⟨g.val / 96, by have := g.isLt; omega⟩ ⟨g.val % 96, Nat.mod_lt _ (by decide)⟩
      = ∑ j : Fin 96, ∑ i : Fin 96, f j i := by
  rw [← cells]
  refine Finset.sum_congr rfl fun j _ => Finset.sum_congr rfl fun i _ => ?_
  refine congrArg₂ f (Fin.ext ?_) (Fin.ext ?_)
  · have := j.isLt; have := i.isLt; simp only; omega
  · have := j.isLt; have := i.isLt; simp only; omega

theorem flat' {M : Type*} [AddCommMonoid M] (f : Fin 2048 → M) :
    ∑ p : Fin 2048, f p
      = ∑ b : Fin 64, ∑ n : Fin 32, f ⟨32 * b.val + n.val, by have := b.isLt; have := n.isLt; omega⟩ :=
  (flat f).symm

theorem bce_ereal {ι : Type*} [Fintype ι] (T SN SP : ι → EReal)
    (hT : ∀ i, T i = c0 ∨ T i = c1) (hSN : ∀ i, ∃ r : ℝ, SN i = (r : EReal))
    (hSP : ∀ i, ∃ r : ℝ, SP i = (r : EReal)) :
    (c2 * ∑ i, T i * SN i) + (∑ i, SP i) - (∑ i, T i * SP i)
      = ∑ i, ((c2 * T i) * SN i + (c1 - T i) * SP i) := by
  have hTr : ∀ i, ∃ r : ℝ, T i = (r : EReal) := fun i =>
    (hT i).elim (fun h => ⟨0, h.trans (c0_eq.trans EReal.coe_zero.symm)⟩) (fun h => ⟨1, h.trans c1_eq⟩)
  choose t ht using hTr
  choose sn hsn using hSN
  choose sp hsp using hSP
  have ht01 : ∀ i, t i = 0 ∨ t i = 1 := fun i =>
    (hT i).imp
      (fun h => by
        have h' : ((t i : ℝ) : EReal) = ((0 : ℝ) : EReal) := (ht i).symm.trans (h.trans (c0_eq.trans EReal.coe_zero.symm))
        exact_mod_cast h')
      (fun h => by
        have h' : ((t i : ℝ) : EReal) = ((1 : ℝ) : EReal) := (ht i).symm.trans (h.trans c1_eq)
        exact_mod_cast h')
  simp only [ht, hsn, hsp]
  exact bce t sn sp ht01

theorem occ_01 (b : Fin 64) (j i : Fin 96) : occ tb b j i = c0 ∨ occ tb b j i = c1 := by
  unfold occ
  split_ifs
  · exact Or.inr rfl
  · exact Or.inl rfl

theorem boxes_eq (A : Fin 64 → Fin 8 → EReal)
    (hA0 : ∀ b, A b 0 = ∑ n : Fin 32, absE (xo pb tb 0 b n - lX tb b n))
    (hA1 : ∀ b, A b 1 = ∑ n : Fin 32, absE (xo pb tb 1 b n - lY tb b n))
    (hA2 : ∀ b, A b 2 = ∑ n : Fin 32, absE (xo pb tb 3 b n - lW tb b n))
    (hA3 : ∀ b, A b 3 = ∑ n : Fin 32, absE (xo pb tb 4 b n - lH tb b n))
    (hA4 : ∀ b, A b 4 = ∑ n : Fin 32, absE (xo pb tb 2 b n - tZ tb b n))
    (hA5 : ∀ b, A b 5 = ∑ n : Fin 32, absE (xo pb tb 5 b n - lD tb b n)) :
    Ideal.div ((((((c0 + ∑ b, A b 0) + (c0 + ∑ b, A b 1)) + (c0 + ∑ b, A b 2)) + (c0 + ∑ b, A b 3))
        + (c0 + ∑ b, A b 4)) + (c0 + ∑ b, A b 5)) c2048
      = lossBoxes pb tb := by
  have hnn : ∀ (a t : Fin 64 → Fin 32 → EReal), 0 ≤ c0 + ∑ b : Fin 64, ∑ n : Fin 32, absE (a b n - t b n) := by
    intro a t
    rw [c0_eq, zero_add]
    exact Finset.sum_nonneg fun b _ => Finset.sum_nonneg fun n _ => absE_nonneg _
  simp only [hA0, hA1, hA2, hA3, hA4, hA5]
  rw [six_means _ _ _ _ _ _ (hnn _ _) (hnn _ _) (hnn _ _) (hnn _ _) (hnn _ _) (hnn _ _)]
  rfl

theorem keypoints_eq (A : Fin 64 → Fin 8 → EReal)
    (hA6 : ∀ b, A b 6 = ∑ n : Fin 32, ∑ k : Fin 63, absE (ko pk tb b n k - tk (ix3 b n k))) :
    Ideal.div (c0 + ∑ b, A b 6) c2048 = lossKeypoints pk tb tk := by
  simp only [hA6]
  rfl

theorem conf_eq (hpc : ∀ i, ∃ r : ℝ, pc i = (r : EReal)) (A : Fin 64 → Fin 8 → EReal)
    (hA7 : ∀ b, A b 7 =
      c2 * (∑ g : Fin 9216, occ tb b ⟨g.val / 96, by have := g.isLt; omega⟩ ⟨g.val % 96, Nat.mod_lt _ (by decide)⟩
              * softplus (-(pc (ix4 b ⟨g.val / 96, by have := g.isLt; omega⟩ ⟨g.val % 96, Nat.mod_lt _ (by decide)⟩ (0 : Fin 1)))))
        + (∑ g : Fin 9216, softplus (pc (ix4 b ⟨g.val / 96, by have := g.isLt; omega⟩ ⟨g.val % 96, Nat.mod_lt _ (by decide)⟩ (0 : Fin 1))))
        - (∑ g : Fin 9216, occ tb b ⟨g.val / 96, by have := g.isLt; omega⟩ ⟨g.val % 96, Nat.mod_lt _ (by decide)⟩
              * softplus (pc (ix4 b ⟨g.val / 96, by have := g.isLt; omega⟩ ⟨g.val % 96, Nat.mod_lt _ (by decide)⟩ (0 : Fin 1))))) :
    Ideal.div (c0 + ∑ b, A b 7) cGrid = lossConf pc tb := by
  have hsp : ∀ i, ∃ r : ℝ, softplus (pc i) = (r : EReal) := fun i => by
    obtain ⟨r, hr⟩ := hpc i
    rw [hr]; exact softplus_real r
  have hsn : ∀ i, ∃ r : ℝ, softplus (-(pc i)) = (r : EReal) := fun i => by
    obtain ⟨r, hr⟩ := hpc i
    rw [hr]; exact softplus_neg_real r
  unfold lossConf
  congr 2
  refine Finset.sum_congr rfl fun b _ => ?_
  rw [hA7 b]
  rw [bce_ereal (fun g : Fin 9216 => occ tb b ⟨g.val / 96, by have := g.isLt; omega⟩ ⟨g.val % 96, Nat.mod_lt _ (by decide)⟩)
    (fun g : Fin 9216 => softplus (-(pc (ix4 b ⟨g.val / 96, by have := g.isLt; omega⟩ ⟨g.val % 96, Nat.mod_lt _ (by decide)⟩ (0 : Fin 1)))))
    (fun g : Fin 9216 => softplus (pc (ix4 b ⟨g.val / 96, by have := g.isLt; omega⟩ ⟨g.val % 96, Nat.mod_lt _ (by decide)⟩ (0 : Fin 1))))
    (fun g => occ_01 tb b _ _) (fun g => hsn _) (fun g => hsp _)]
  exact cells' (fun j i => (c2 * occ tb b j i) * softplus (-(pc (ix4 b j i (0 : Fin 1))))
    + (c1 - occ tb b j i) * softplus (pc (ix4 b j i (0 : Fin 1))))

theorem iou_eq (P T : Fin 2048 → Fin 4 → EReal)
    (hP : ∀ (b : Fin 64) (n : Fin 32) (q : Fin 4),
      P ⟨32 * b.val + n.val, by have := b.isLt; have := n.isLt; omega⟩ q = pbox pb tb b n q)
    (hT : ∀ (b : Fin 64) (n : Fin 32) (q : Fin 4),
      T ⟨32 * b.val + n.val, by have := b.isLt; have := n.isLt; omega⟩ q = tbox tb b n q) :
    Ideal.div (∑ p : Fin 2048, ∑ q : Fin 2048, oneMinusIou (xyxy (P p)) (xyxy (T q))) c2048 = lossIou pb tb := by
  have hP' : ∀ (b : Fin 64) (n : Fin 32),
      P ⟨32 * b.val + n.val, by have := b.isLt; have := n.isLt; omega⟩ = pbox pb tb b n := fun b n => funext (hP b n)
  have hT' : ∀ (b : Fin 64) (n : Fin 32),
      T ⟨32 * b.val + n.val, by have := b.isLt; have := n.isLt; omega⟩ = tbox tb b n := fun b n => funext (hT b n)
  unfold lossIou
  rw [c0_eq, zero_add, flat']
  congr 1
  refine Finset.sum_congr rfl fun b _ => Finset.sum_congr rfl fun n _ => ?_
  rw [flat', hP']
  refine Finset.sum_congr rfl fun b' _ => Finset.sum_congr rfl fun n' _ => ?_
  rw [hT']

theorem iou_eq_ix (X0 X1 : (⟨2, ![2048, 4]⟩ : Shape).Idx → EReal)
    (hP : ∀ (b : Fin 64) (n : Fin 32) (q : Fin 4),
      X0 (ix2 ⟨32 * b.val + n.val, by have := b.isLt; have := n.isLt; omega⟩ q) = pbox pb tb b n q)
    (hT : ∀ (b : Fin 64) (n : Fin 32) (q : Fin 4),
      X1 (ix2 ⟨32 * b.val + n.val, by have := b.isLt; have := n.isLt; omega⟩ q) = tbox tb b n q) :
    Ideal.div (∑ p : Fin 2048, ∑ q : Fin 2048,
        oneMinusIou (xyxy fun d => X0 (ix2 p d)) (xyxy fun d => X1 (ix2 q d))) c2048 = lossIou pb tb :=
  iou_eq pb tb (fun p d => X0 (ix2 p d)) (fun q d => X1 (ix2 q d)) hP hT

theorem G_eq (R : Fin 4 → EReal)
    (hR0 : R 0 = lossBoxes pb tb) (hR1 : R 1 = lossKeypoints pk tb tk)
    (hR2 : R 2 = lossConf pc tb) (hR3 : R 3 = lossIou pb tb) (j : Fin 4) :
    R j = G pb pc pk tb tk (ix1 j) := by
  match j with
  | 0 => exact hR0
  | 1 => exact hR1
  | 2 => exact hR2
  | 3 => exact hR3

theorem G_of_kernel (hpc : ∀ i, ∃ r : ℝ, pc i = (r : EReal)) (A : Fin 64 → Fin 8 → EReal)
    (hA0 : ∀ b, A b 0 = ∑ n : Fin 32, absE (xo pb tb 0 b n - lX tb b n))
    (hA1 : ∀ b, A b 1 = ∑ n : Fin 32, absE (xo pb tb 1 b n - lY tb b n))
    (hA2 : ∀ b, A b 2 = ∑ n : Fin 32, absE (xo pb tb 3 b n - lW tb b n))
    (hA3 : ∀ b, A b 3 = ∑ n : Fin 32, absE (xo pb tb 4 b n - lH tb b n))
    (hA4 : ∀ b, A b 4 = ∑ n : Fin 32, absE (xo pb tb 2 b n - tZ tb b n))
    (hA5 : ∀ b, A b 5 = ∑ n : Fin 32, absE (xo pb tb 5 b n - lD tb b n))
    (hA6 : ∀ b, A b 6 = ∑ n : Fin 32, ∑ k : Fin 63, absE (ko pk tb b n k - tk (ix3 b n k)))
    (hA7 : ∀ b, A b 7 =
      c2 * (∑ g : Fin 9216, occ tb b ⟨g.val / 96, by have := g.isLt; omega⟩ ⟨g.val % 96, Nat.mod_lt _ (by decide)⟩
              * softplus (-(pc (ix4 b ⟨g.val / 96, by have := g.isLt; omega⟩ ⟨g.val % 96, Nat.mod_lt _ (by decide)⟩ (0 : Fin 1)))))
        + (∑ g : Fin 9216, softplus (pc (ix4 b ⟨g.val / 96, by have := g.isLt; omega⟩ ⟨g.val % 96, Nat.mod_lt _ (by decide)⟩ (0 : Fin 1))))
        - (∑ g : Fin 9216, occ tb b ⟨g.val / 96, by have := g.isLt; omega⟩ ⟨g.val % 96, Nat.mod_lt _ (by decide)⟩
              * softplus (pc (ix4 b ⟨g.val / 96, by have := g.isLt; omega⟩ ⟨g.val % 96, Nat.mod_lt _ (by decide)⟩ (0 : Fin 1)))))
    (P T : Fin 2048 → Fin 4 → EReal)
    (hP : ∀ (b : Fin 64) (n : Fin 32) (q : Fin 4),
      P ⟨32 * b.val + n.val, by have := b.isLt; have := n.isLt; omega⟩ q = pbox pb tb b n q)
    (hT : ∀ (b : Fin 64) (n : Fin 32) (q : Fin 4),
      T ⟨32 * b.val + n.val, by have := b.isLt; have := n.isLt; omega⟩ q = tbox tb b n q)
    (R : Fin 4 → EReal)
    (hR0 : R 0 = Ideal.div ((((((c0 + ∑ b, A b 0) + (c0 + ∑ b, A b 1)) + (c0 + ∑ b, A b 2)) + (c0 + ∑ b, A b 3))
        + (c0 + ∑ b, A b 4)) + (c0 + ∑ b, A b 5)) c2048)
    (hR1 : R 1 = Ideal.div (c0 + ∑ b, A b 6) c2048)
    (hR2 : R 2 = Ideal.div (c0 + ∑ b, A b 7) cGrid)
    (hR3 : R 3 = Ideal.div (∑ p : Fin 2048, ∑ q : Fin 2048, oneMinusIou (xyxy (P p)) (xyxy (T q))) c2048)
    (j : Fin 4) :
    R j = G pb pc pk tb tk (ix1 j) :=
  G_eq pb pc pk tb tk R (hR0.trans (boxes_eq pb tb A hA0 hA1 hA2 hA3 hA4 hA5))
    (hR1.trans (keypoints_eq pk tb tk A hA6)) (hR2.trans (conf_eq pc tb hpc A hA7))
    (hR3.trans (iou_eq pb tb P T hP hT)) j

end Cert.KernelIdeal.KV

end
-- ==== Proof.PreFacts.lean ====
import proofs.«431468_j28140625724039_3_alg».proof.Pre_finite_inputs
import proofs.«431468_j28140625724039_3_alg».proof.Proof.Gen.Pre_finite_inputs
import proofs.«431468_j28140625724039_3_alg».proof.Proof.Spec
import Idealize.ShloMosaic.Lib.ReduceAll
import Idealize.ShloMosaic.Lib.StableHlo.Predicate
import Idealize.ShloMosaic.Lib.Pipeline.Value

noncomputable section

namespace Cert.PreFacts

open Idealize.ShloMosaic Idealize.ShloMosaic.ValueIdx

instance : Subsingleton Cert.Pre_finite_inputs.S_.Idx := ⟨fun a b => funext fun d => d.elim0⟩

theorem ofBits_inf : Ideal.ofBits .f32 0x7F800000#32 = (⊤ : EReal) := by
  simp [Ideal.ofBits, Ideal.ieee]

theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

theorem slice0_apply (tb : Cert.Spec.S64x32x6.Idx → EReal) (b : Fin 64) (n : Fin 32)
    (h1 : Cert.Pre_finite_inputs.S64x32x6.Slices ![0, 0, 0] Cert.Pre_finite_inputs.S64x32x1)
    (h2 : Cert.Pre_finite_inputs.S64x32x1.ShapeCasts Cert.Pre_finite_inputs.S64x32) :
    shapeCast Cert.Pre_finite_inputs.S64x32 (extractStridedSlice Cert.Pre_finite_inputs.S64x32x1 ![0, 0, 0] tb h1) h2 (ix2 b n)
      = tb (ix3 b n (0 : Fin 6)) := by
  refine (shapeCast_apply _ _ (ix2 b n) (ix3 b n (0 : Fin 1))
    (by rw [Shape.rowMajor_val_two, Shape.rowMajor_val_three]
        show (b.val * 32 + n.val) * 1 + 0 = b.val * 32 + n.val
        omega)).trans ?_
  exact extractStridedSlice_apply _ _ _ _ (ix3 b n (0 : Fin 6)) (fun a => match a with
    | ⟨0, _⟩ => by show b.val = 0 + b.val; omega
    | ⟨1, _⟩ => by show n.val = 0 + n.val; omega
    | ⟨2, _⟩ => by show (0 : Nat) = 0 + 0; omega)

theorem slice1_apply (tb : Cert.Spec.S64x32x6.Idx → EReal) (b : Fin 64) (n : Fin 32)
    (h1 : Cert.Pre_finite_inputs.S64x32x6.Slices ![0, 0, 1] Cert.Pre_finite_inputs.S64x32x1)
    (h2 : Cert.Pre_finite_inputs.S64x32x1.ShapeCasts Cert.Pre_finite_inputs.S64x32) :
    shapeCast Cert.Pre_finite_inputs.S64x32 (extractStridedSlice Cert.Pre_finite_inputs.S64x32x1 ![0, 0, 1] tb h1) h2 (ix2 b n)
      = tb (ix3 b n (1 : Fin 6)) := by
  refine (shapeCast_apply _ _ (ix2 b n) (ix3 b n (0 : Fin 1))
    (by rw [Shape.rowMajor_val_two, Shape.rowMajor_val_three]
        show (b.val * 32 + n.val) * 1 + 0 = b.val * 32 + n.val
        omega)).trans ?_
  exact extractStridedSlice_apply _ _ _ _ (ix3 b n (1 : Fin 6)) (fun a => match a with
    | ⟨0, _⟩ => by show b.val = 0 + b.val; omega
    | ⟨1, _⟩ => by show n.val = 0 + n.val; omega
    | ⟨2, _⟩ => by show (1 : Nat) = 1 + 0; omega)

variable [Cert.Pre_finite_inputs.Facts]
variable (pb : Cert.Spec.S64x96x96x6.Idx → EReal) (pc : Cert.Spec.S64x96x96x1.Idx → EReal)
  (pk : Cert.Spec.S64x96x96x63.Idx → EReal) (tb : Cert.Spec.S64x32x6.Idx → EReal) (tk : Cert.Spec.S64x32x63.Idx → EReal)

theorem sge_zero (w : BitVec 32) (h : IntOp.cmpi .sge w 0#32 = 1#1) : 0 ≤ w.toInt := by
  unfold IntOp.cmpi at h
  rw [StableHlo.Predicate.ofBool_eq_one_iff] at h
  simp only [BitVec.sle, decide_eq_true_eq] at h
  have z : (0#32 : BitVec 32).toInt = 0 := by decide
  omega

theorem slt_96 (w : BitVec 32) (h : IntOp.cmpi .slt w 96#32 = 1#1) : w.toInt < 96 := by
  unfold IntOp.cmpi at h
  rw [StableHlo.Predicate.ofBool_eq_one_iff] at h
  simp only [BitVec.slt, decide_eq_true_eq] at h
  have z : (96#32 : BitVec 32).toInt = 96 := by decide
  omega

theorem decode (h : Cert.Pre_finite_inputs.fn (F := Ideal) pb pc pk tb tk = fun _ => 1#1) :
    (∀ i, Ideal.cmp .olt (max (pb i) (-(pb i))) (Ideal.ofBits .f32 0x7F800000#32) = 1#1)
    ∧ (∀ i, Ideal.cmp .olt (max (pc i) (-(pc i))) (Ideal.ofBits .f32 0x7F800000#32) = 1#1)
    ∧ (∀ i, Ideal.cmp .olt (max (pk i) (-(pk i))) (Ideal.ofBits .f32 0x7F800000#32) = 1#1)
    ∧ (∀ i, Ideal.cmp .olt (max (tb i) (-(tb i))) (Ideal.ofBits .f32 0x7F800000#32) = 1#1)
    ∧ (∀ i, Ideal.cmp .olt (max (tk i) (-(tk i))) (Ideal.ofBits .f32 0x7F800000#32) = 1#1)
    ∧ (∀ (b : Fin 64) (n : Fin 32), IntOp.cmpi .sge (Cert.Spec.gi tb b n) 0#32 = 1#1)
    ∧ (∀ (b : Fin 64) (n : Fin 32), IntOp.cmpi .slt (Cert.Spec.gi tb b n) 96#32 = 1#1)
    ∧ (∀ (b : Fin 64) (n : Fin 32), IntOp.cmpi .sge (Cert.Spec.gj tb b n) 0#32 = 1#1)
    ∧ (∀ (b : Fin 64) (n : Fin 32), IntOp.cmpi .slt (Cert.Spec.gj tb b n) 96#32 = 1#1) := by
  have e := congrFun h ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨h1, h2⟩, h3⟩, h4⟩, h5⟩, h6⟩, h7⟩, h8⟩, h9⟩ := e
  refine ⟨fun i => Host.reduce_andi_all _ _ _ _ ix0 h1 i, fun i => Host.reduce_andi_all _ _ _ _ ix0 h2 i,
    fun i => Host.reduce_andi_all _ _ _ _ ix0 h3 i, fun i => Host.reduce_andi_all _ _ _ _ ix0 h4 i,
    fun i => Host.reduce_andi_all _ _ _ _ ix0 h5 i, fun b n => ?_, fun b n => ?_, fun b n => ?_, fun b n => ?_⟩
  · have t := Host.reduce_andi_all _ _ _ _ ix0 h6 (ix2 b n)
    have s : Cert.Spec.gi tb b n = Ideal.fptosi 32 (shapeCast Cert.Pre_finite_inputs.S64x32
        (extractStridedSlice Cert.Pre_finite_inputs.S64x32x1 ![0, 0, 0] tb Cert.Pre_finite_inputs.Facts.slices_S64x32x6_S64x32x1_0_0_0)
        Cert.Pre_finite_inputs.Facts.shapeCasts_S64x32x1_S64x32 (ix2 b n) * Cert.Spec.c96) := by
      rw [slice0_apply]; rfl
    rw [s]; exact t
  · have t := Host.reduce_andi_all _ _ _ _ ix0 h7 (ix2 b n)
    have s : Cert.Spec.gi tb b n = Ideal.fptosi 32 (shapeCast Cert.Pre_finite_inputs.S64x32
        (extractStridedSlice Cert.Pre_finite_inputs.S64x32x1 ![0, 0, 0] tb Cert.Pre_finite_inputs.Facts.slices_S64x32x6_S64x32x1_0_0_0)
        Cert.Pre_finite_inputs.Facts.shapeCasts_S64x32x1_S64x32 (ix2 b n) * Cert.Spec.c96) := by
      rw [slice0_apply]; rfl
    rw [s]; exact t
  · have t := Host.reduce_andi_all _ _ _ _ ix0 h8 (ix2 b n)
    have s : Cert.Spec.gj tb b n = Ideal.fptosi 32 (shapeCast Cert.Pre_finite_inputs.S64x32
        (extractStridedSlice Cert.Pre_finite_inputs.S64x32x1 ![0, 0, 1] tb Cert.Pre_finite_inputs.Facts.slices_S64x32x6_S64x32x1_0_0_1)
        Cert.Pre_finite_inputs.Facts.shapeCasts_S64x32x1_S64x32 (ix2 b n) * Cert.Spec.c96) := by
      rw [slice1_apply]; rfl
    rw [s]; exact t
  · have t := Host.reduce_andi_all _ _ _ _ ix0 h9 (ix2 b n)
    have s : Cert.Spec.gj tb b n = Ideal.fptosi 32 (shapeCast Cert.Pre_finite_inputs.S64x32
        (extractStridedSlice Cert.Pre_finite_inputs.S64x32x1 ![0, 0, 1] tb Cert.Pre_finite_inputs.Facts.slices_S64x32x6_S64x32x1_0_0_1)
        Cert.Pre_finite_inputs.Facts.shapeCasts_S64x32x1_S64x32 (ix2 b n) * Cert.Spec.c96) := by
      rw [slice1_apply]; rfl
    rw [s]; exact t

theorem fin_pb (h : Cert.Pre_finite_inputs.fn (F := Ideal) pb pc pk tb tk = fun _ => 1#1) :
    ∀ i, ∃ r : ℝ, pb i = (r : EReal) :=
  fun i => real_of_abs_lt_top _ ((decode pb pc pk tb tk h).1 i)
theorem fin_pc (h : Cert.Pre_finite_inputs.fn (F := Ideal) pb pc pk tb tk = fun _ => 1#1) :
    ∀ i, ∃ r : ℝ, pc i = (r : EReal) :=
  fun i => real_of_abs_lt_top _ ((decode pb pc pk tb tk h).2.1 i)
theorem fin_pk (h : Cert.Pre_finite_inputs.fn (F := Ideal) pb pc pk tb tk = fun _ => 1#1) :
    ∀ i, ∃ r : ℝ, pk i = (r : EReal) :=
  fun i => real_of_abs_lt_top _ ((decode pb pc pk tb tk h).2.2.1 i)
theorem fin_tb (h : Cert.Pre_finite_inputs.fn (F := Ideal) pb pc pk tb tk = fun _ => 1#1) :
    ∀ i, ∃ r : ℝ, tb i = (r : EReal) :=
  fun i => real_of_abs_lt_top _ ((decode pb pc pk tb tk h).2.2.2.1 i)
theorem fin_tk (h : Cert.Pre_finite_inputs.fn (F := Ideal) pb pc pk tb tk = fun _ => 1#1) :
    ∀ i, ∃ r : ℝ, tk i = (r : EReal) :=
  fun i => real_of_abs_lt_top _ ((decode pb pc pk tb tk h).2.2.2.2.1 i)

/-- The four range tests of the precondition say that every target's cell is in the grid. -/
theorem inGrid (h : Cert.Pre_finite_inputs.fn (F := Ideal) pb pc pk tb tk = fun _ => 1#1) :
    Cert.Spec.InGrid tb := by
  obtain ⟨-, -, -, -, -, g1, g2, g3, g4⟩ := decode pb pc pk tb tk h
  exact fun b n => ⟨sge_zero _ (g1 b n), slt_96 _ (g2 b n), sge_zero _ (g3 b n), slt_96 _ (g4 b n)⟩

end Cert.PreFacts

end
-- ==== Proof.KI.KValue.lean ====
import proofs.«431468_j28140625724039_3_alg».proof.Proof.KI.Run
import proofs.«431468_j28140625724039_3_alg».proof.Proof.KI.Val1
import proofs.«431468_j28140625724039_3_alg».proof.Proof.KI.KTail
import proofs.«431468_j28140625724039_3_alg».proof.Proof.KI.KOut0
import proofs.«431468_j28140625724039_3_alg».proof.Proof.KI.KFinal
import proofs.«431468_j28140625724039_3_alg».proof.Proof.PreFacts
import proofs.«431468_j28140625724039_3_alg».proof.Proof.Spec
import proofs.«431468_j28140625724039_3_alg».proof.Proof.Algebra
import Idealize.ShloMosaic.Lib.ValueIdx
import Mathlib.Algebra.BigOperators.Fin

set_option maxRecDepth 16384

noncomputable section

namespace Cert.KernelIdeal.KV

open Cert.KernelIdeal Cert.KernelIdeal.Gen
open Idealize.ShloMosaic Idealize.ShloMosaic.TcCoe Idealize.ShloMosaic.ValueIdx

/-- Under the precondition the kernel's result array holds the four losses. -/
theorem kernel_value [Cert.Pre_finite_inputs.Facts] (m : (ℓ : Loc nD τ sig) → Buf (Elt Ideal) ℓ) (ρ : Dev nD → PrngReg) (c : Dev nD)
    (h : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1) :
    Hand.W6 (F := Ideal) m ρ c (Proc.devRef .tc main_v98) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have hg : Cert.Spec.InGrid (tbA m c) := Cert.PreFacts.inGrid (pbA m c) (pcA m c) (pkA m c) (tbA m c) (tkA m c) h
  have hpc : ∀ i, ∃ r : ℝ, pcA m c i = (r : EReal) := Cert.PreFacts.fin_pc (pbA m c) (pcA m c) (pkA m c) (tbA m c) (tkA m c) h
  have H8 := out8 m ρ c hg
  have H7 := out7 m ρ c hg
  have H57 := t57 m ρ c
  refine funext fun i => ?_
  obtain ⟨j, rfl⟩ : ∃ j : Fin 4, i = ix1 j := ⟨i 0, eq_ix1 i⟩
  exact G_of_kernel (pbA m c) (pcA m c) (pkA m c) (tbA m c) (tkA m c) hpc
    (fun b j => A8 (pbA m c) (pcA m c) (pkA m c) (tbA m c) (tkA m c) b j)
    (fun _ => rfl) (fun _ => rfl) (fun _ => rfl) (fun _ => rfl) (fun _ => rfl) (fun _ => rfl) (fun _ => rfl) (fun _ => rfl)
    (fun p d => flat (Cert.Spec.pbox (pbA m c) (tbA m c)) (ix2 p d))
    (fun q d => flat (Cert.Spec.tbox (tbA m c)) (ix2 q d))
    (fun b n q => flat_apply _ b n q) (fun b n q => flat_apply _ b n q)
    (fun j => Hand.W6 (F := Ideal) m ρ c (Proc.devRef .tc main_v98) (ix1 j))
    (W6_v98_0 m ρ c _ H8) (W6_v98_1 m ρ c _ H8) (W6_v98_2 m ρ c _ H8)
    ((W6_v98_3 m ρ c _ _ H7 H57).trans (congrArg (fun s => Ideal.div s Cert.Spec.c2048) (Cert.KernelIdeal.Val1.accAt_apply _ _)))
    j

end Cert.KernelIdeal.KV

end
-- ==== Proof.Ref.Read.lean ====
import proofs.«431468_j28140625724039_3_alg».proof.Proof.Gen.ReferenceIdeal
import Idealize.ShloMosaic.Lib.StableHlo.Run
import Idealize.ShloMosaic.Lib.Pipeline.Value
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S64x96x96x6, .f32⟩ : BufTy).Contents (Elt F)) (x1 : (⟨S64x96x96x1, .f32⟩ : BufTy).Contents (Elt F)) (x2 : (⟨S64x96x96x63, .f32⟩ : BufTy).Contents (Elt F)) (x3 : (⟨S64x32x6, .f32⟩ : BufTy).Contents (Elt F)) (x4 : (⟨S64x32x63, .f32⟩ : BufTy).Contents (Elt F))

/-- Each stage of the reference as a function of the inputs; a stage the program computes several times is named once. -/
def val_main_v0 : (⟨S64x96x96x1, .f32⟩ : BufTy).Contents (Elt F) :=
  extractStridedSlice S64x96x96x1 ![0, 0, 0, 0] (x0) slices_S64x96x96x6_S64x96x96x1_0_0_0_0

abbrev idx_main_v0 (i : S64x96x96x1.Idx) : S64x96x96x6.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, by have h3 : (i 3).val < 1 := (i 3).isLt; show (i 3).val < 6; omega⟩

theorem val_main_v0_apply (i : S64x96x96x1.Idx) :
    val_main_v0 (F := F) x0 i = x0 (idx_main_v0 i) := by
  unfold val_main_v0
  exact extractStridedSlice_apply ![0, 0, 0, 0] x0 slices_S64x96x96x6_S64x96x96x1_0_0_0_0 i (idx_main_v0 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v1 : (⟨S64x96x96, .f32⟩ : BufTy).Contents (Elt F) :=
  shapeCast _ (val_main_v0 (F := F) x0) shapeCasts_S64x96x96x1_S64x96x96

abbrev idx_main_v1 (i : S64x96x96.Idx) : S64x96x96x1.Idx := fun a => match a with
  | ⟨0, _⟩ => ⟨(((i 0).val * 96 + (i 1).val) * 96 + (i 2).val) / 9216, by have h0 : (i 0).val < 64 := (i 0).isLt; have h1 : (i 1).val < 96 := (i 1).isLt; have h2 : (i 2).val < 96 := (i 2).isLt; show (((i 0).val * 96 + (i 1).val) * 96 + (i 2).val) / 9216 < 64; omega⟩
  | ⟨1, _⟩ => ⟨(((i 0).val * 96 + (i 1).val) * 96 + (i 2).val) / 96 % 96, by have h0 : (i 0).val < 64 := (i 0).isLt; have h1 : (i 1).val < 96 := (i 1).isLt; have h2 : (i 2).val < 96 := (i 2).isLt; show (((i 0).val * 96 + (i 1).val) * 96 + (i 2).val) / 96 % 96 < 96; omega⟩
  | ⟨2, _⟩ => ⟨(((i 0).val * 96 + (i 1).val) * 96 + (i 2).val) / 1 % 96, by have h0 : (i 0).val < 64 := (i 0).isLt; have h1 : (i 1).val < 96 := (i 1).isLt; have h2 : (i 2).val < 96 := (i 2).isLt; show (((i 0).val * 96 + (i 1).val) * 96 + (i 2).val) / 1 % 96 < 96; omega⟩
  | ⟨3, _⟩ => ⟨0, Nat.one_pos⟩

theorem rd1 (y : (⟨S64x96x96x1, .f32⟩ : BufTy).Contents (Elt F)) (i : S64x96x96.Idx) :
    (shapeCast _ y shapeCasts_S64x96x96x1_S64x96x96 : (⟨S64x96x96, .f32⟩ : BufTy).Contents (Elt F)) i = y (idx_main_v1 i) :=
  shapeCast_apply y shapeCasts_S64x96x96x1_S64x96x96 i (idx_main_v1 i)
    (by rewrite [Shape.rowMajor_val_four, Shape.rowMajor_val_three]; have h0 : (i 0).val < 64 := (i 0).isLt; have h1 : (i 1).val < 96 := (i 1).isLt; have h2 : (i 2).val < 96 := (i 2).isLt; show (((((i 0).val * 96 + (i 1).val) * 96 + (i 2).val) / 9216 * 96 + (((i 0).val * 96 + (i 1).val) * 96 + (i 2).val) / 96 % 96) * 96 + (((i 0).val * 96 + (i 1).val) * 96 + (i 2).val) / 1 % 96) * 1 + 0 = ((i 0).val * 96 + (i 1).val) * 96 + (i 2).val; omega)

theorem val_main_v1_apply (i : S64x96x96.Idx) :
    val_main_v1 (F := F) x0 i = val_main_v0 (F := F) x0 (idx_main_v1 i) := rd1 _ i

def val_main_v2 : (⟨S64x96x96x1, .f32⟩ : BufTy).Contents (Elt F) :=
  extractStridedSlice S64x96x96x1 ![0, 0, 0, 1] (x0) slices_S64x96x96x6_S64x96x96x1_0_0_0_1

abbrev idx_main_v2 (i : S64x96x96x1.Idx) : S64x96x96x6.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨1 + (i 3).val, by have h3 : (i 3).val < 1 := (i 3).isLt; show 1 + (i 3).val < 6; omega⟩

theorem val_main_v2_apply (i : S64x96x96x1.Idx) :
    val_main_v2 (F := F) x0 i = x0 (idx_main_v2 i) := by
  unfold val_main_v2
  exact extractStridedSlice_apply ![0, 0, 0, 1] x0 slices_S64x96x96x6_S64x96x96x1_0_0_0_1 i (idx_main_v2 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show 1 + (i 3).val = 1 + (i 3).val; omega)

def val_main_v3 : (⟨S64x96x96, .f32⟩ : BufTy).Contents (Elt F) :=
  shapeCast _ (val_main_v2 (F := F) x0) shapeCasts_S64x96x96x1_S64x96x96

theorem val_main_v3_apply (i : S64x96x96.Idx) :
    val_main_v3 (F := F) x0 i = val_main_v2 (F := F) x0 (idx_main_v1 i) := rd1 _ i

def val_main_v4 : (⟨S64x96x96x1, .f32⟩ : BufTy).Contents (Elt F) :=
  extractStridedSlice S64x96x96x1 ![0, 0, 0, 2] (x0) slices_S64x96x96x6_S64x96x96x1_0_0_0_2

abbrev idx_main_v4 (i : S64x96x96x1.Idx) : S64x96x96x6.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨2 + (i 3).val, by have h3 : (i 3).val < 1 := (i 3).isLt; show 2 + (i 3).val < 6; omega⟩

theorem val_main_v4_apply (i : S64x96x96x1.Idx) :
    val_main_v4 (F := F) x0 i = x0 (idx_main_v4 i) := by
  unfold val_main_v4
  exact extractStridedSlice_apply ![0, 0, 0, 2] x0 slices_S64x96x96x6_S64x96x96x1_0_0_0_2 i (idx_main_v4 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show 2 + (i 3).val = 2 + (i 3).val; omega)

def val_main_v5 : (⟨S64x96x96, .f32⟩ : BufTy).Contents (Elt F) :=
  shapeCast _ (val_main_v4 (F := F) x0) shapeCasts_S64x96x96x1_S64x96x96

theorem val_main_v5_apply (i : S64x96x96.Idx) :
    val_main_v5 (F := F) x0 i = val_main_v4 (F := F) x0 (idx_main_v1 i) := rd1 _ i

def val_main_v6 : (⟨S64x96x96x1, .f32⟩ : BufTy).Contents (Elt F) :=
  extractStridedSlice S64x96x96x1 ![0, 0, 0, 3] (x0) slices_S64x96x96x6_S64x96x96x1_0_0_0_3

abbrev idx_main_v6 (i : S64x96x96x1.Idx) : S64x96x96x6.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨3 + (i 3).val, by have h3 : (i 3).val < 1 := (i 3).isLt; show 3 + (i 3).val < 6; omega⟩

theorem val_main_v6_apply (i : S64x96x96x1.Idx) :
    val_main_v6 (F := F) x0 i = x0 (idx_main_v6 i) := by
  unfold val_main_v6
  exact extractStridedSlice_apply ![0, 0, 0, 3] x0 slices_S64x96x96x6_S64x96x96x1_0_0_0_3 i (idx_main_v6 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show 3 + (i 3).val = 3 + (i 3).val; omega)

def val_main_v7 : (⟨S64x96x96, .f32⟩ : BufTy).Contents (Elt F) :=
  shapeCast _ (val_main_v6 (F := F) x0) shapeCasts_S64x96x96x1_S64x96x96

theorem val_main_v7_apply (i : S64x96x96.Idx) :
    val_main_v7 (F := F) x0 i = val_main_v6 (F := F) x0 (idx_main_v1 i) := rd1 _ i

def val_main_v8 : (⟨S64x96x96x1, .f32⟩ : BufTy).Contents (Elt F) :=
  extractStridedSlice S64x96x96x1 ![0, 0, 0, 4] (x0) slices_S64x96x96x6_S64x96x96x1_0_0_0_4

abbrev idx_main_v8 (i : S64x96x96x1.Idx) : S64x96x96x6.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨4 + (i 3).val, by have h3 : (i 3).val < 1 := (i 3).isLt; show 4 + (i 3).val < 6; omega⟩

theorem val_main_v8_apply (i : S64x96x96x1.Idx) :
    val_main_v8 (F := F) x0 i = x0 (idx_main_v8 i) := by
  unfold val_main_v8
  exact extractStridedSlice_apply ![0, 0, 0, 4] x0 slices_S64x96x96x6_S64x96x96x1_0_0_0_4 i (idx_main_v8 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show 4 + (i 3).val = 4 + (i 3).val; omega)

def val_main_v9 : (⟨S64x96x96, .f32⟩ : BufTy).Contents (Elt F) :=
  shapeCast _ (val_main_v8 (F := F) x0) shapeCasts_S64x96x96x1_S64x96x96

theorem val_main_v9_apply (i : S64x96x96.Idx) :
    val_main_v9 (F := F) x0 i = val_main_v8 (F := F) x0 (idx_main_v1 i) := rd1 _ i

def val_main_v10 : (⟨S64x96x96x1, .f32⟩ : BufTy).Contents (Elt F) :=
  extractStridedSlice S64x96x96x1 ![0, 0, 0, 5] (x0) slices_S64x96x96x6_S64x96x96x1_0_0_0_5

abbrev idx_main_v10 (i : S64x96x96x1.Idx) : S64x96x96x6.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨5 + (i 3).val, by have h3 : (i 3).val < 1 := (i 3).isLt; show 5 + (i 3).val < 6; omega⟩

theorem val_main_v10_apply (i : S64x96x96x1.Idx) :
    val_main_v10 (F := F) x0 i = x0 (idx_main_v10 i) := by
  unfold val_main_v10
  exact extractStridedSlice_apply ![0, 0, 0, 5] x0 slices_S64x96x96x6_S64x96x96x1_0_0_0_5 i (idx_main_v10 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show 5 + (i 3).val = 5 + (i 3).val; omega)

def val_main_v11 : (⟨S64x96x96, .f32⟩ : BufTy).Contents (Elt F) :=
  shapeCast _ (val_main_v10 (F := F) x0) shapeCasts_S64x96x96x1_S64x96x96

theorem val_main_v11_apply (i : S64x96x96.Idx) :
    val_main_v11 (F := F) x0 i = val_main_v10 (F := F) x0 (idx_main_v1 i) := rd1 _ i

def val_main_v12 : (⟨S64x96x96, .f32⟩ : BufTy).Contents (Elt F) :=
  shapeCast _ (x1) shapeCasts_S64x96x96x1_S64x96x96

theorem val_main_v12_apply (i : S64x96x96.Idx) :
    val_main_v12 (F := F) x1 i = x1 (idx_main_v1 i) := by
  unfold val_main_v12
  exact shapeCast_apply x1 shapeCasts_S64x96x96x1_S64x96x96 i (idx_main_v1 i)
    (by rewrite [Shape.rowMajor_val_four, Shape.rowMajor_val_three]; have h0 : (i 0).val < 64 := (i 0).isLt; have h1 : (i 1).val < 96 := (i 1).isLt; have h2 : (i 2).val < 96 := (i 2).isLt; show (((((i 0).val * 96 + (i 1).val) * 96 + (i 2).val) / 9216 * 96 + (((i 0).val * 96 + (i 1).val) * 96 + (i 2).val) / 96 % 96) * 96 + (((i 0).val * 96 + (i 1).val) * 96 + (i 2).val) / 1 % 96) * 1 + 0 = ((i 0).val * 96 + (i 1).val) * 96 + (i 2).val; omega)

def val_main_v13 : (⟨S64x32x1, .f32⟩ : BufTy).Contents (Elt F) :=
  extractStridedSlice S64x32x1 ![0, 0, 0] (x3) slices_S64x32x6_S64x32x1_0_0_0

abbrev idx_main_v13 (i : S64x32x1.Idx) : S64x32x6.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 6; omega⟩

theorem val_main_v13_apply (i : S64x32x1.Idx) :
    val_main_v13 (F := F) x3 i = x3 (idx_main_v13 i) := by
  unfold val_main_v13
  exact extractStridedSlice_apply ![0, 0, 0] x3 slices_S64x32x6_S64x32x1_0_0_0 i (idx_main_v13 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v14 : (⟨S64x32, .f32⟩ : BufTy).Contents (Elt F) :=
  shapeCast _ (val_main_v13 (F := F) x3) shapeCasts_S64x32x1_S64x32

abbrev idx_main_v14 (i : S64x32.Idx) : S64x32x1.Idx := fun a => match a with
  | ⟨0, _⟩ => ⟨((i 0).val * 32 + (i 1).val) / 32, by have h0 : (i 0).val < 64 := (i 0).isLt; have h1 : (i 1).val < 32 := (i 1).isLt; show ((i 0).val * 32 + (i 1).val) / 32 < 64; omega⟩
  | ⟨1, _⟩ => ⟨((i 0).val * 32 + (i 1).val) / 1 % 32, by have h0 : (i 0).val < 64 := (i 0).isLt; have h1 : (i 1).val < 32 := (i 1).isLt; show ((i 0).val * 32 + (i 1).val) / 1 % 32 < 32; omega⟩
  | ⟨2, _⟩ => ⟨0, Nat.one_pos⟩

theorem rd2 (y : (⟨S64x32x1, .f32⟩ : BufTy).Contents (Elt F)) (i : S64x32.Idx) :
    (shapeCast _ y shapeCasts_S64x32x1_S64x32 : (⟨S64x32, .f32⟩ : BufTy).Contents (Elt F)) i = y (idx_main_v14 i) :=
  shapeCast_apply y shapeCasts_S64x32x1_S64x32 i (idx_main_v14 i)
    (by rewrite [Shape.rowMajor_val_three, Shape.rowMajor_val_two]; have h0 : (i 0).val < 64 := (i 0).isLt; have h1 : (i 1).val < 32 := (i 1).isLt; show (((i 0).val * 32 + (i 1).val) / 32 * 32 + ((i 0).val * 32 + (i 1).val) / 1 % 32) * 1 + 0 = (i 0).val * 32 + (i 1).val; omega)

theorem val_main_v14_apply (i : S64x32.Idx) :
    val_main_v14 (F := F) x3 i = val_main_v13 (F := F) x3 (idx_main_v14 i) := rd2 _ i

def val_main_cst : (⟨S_, .f32⟩ : BufTy).Contents (Elt F) :=
  constant S_ .f32 0x42C00000#32

theorem val_main_cst_apply (i : S_.Idx) :
    val_main_cst (F := F) i = FloatOps.ofBits .f32 0x42C00000#32 := rfl

def val_main_v15 : (⟨S64x32, .f32⟩ : BufTy).Contents (Elt F) :=
  broadcastInDim S64x32 ![] bcast_S_S64x32 (val_main_cst (F := F))

abbrev idx_main_v15 (i : S64x32.Idx) : S_.Idx := fun a => a.elim0

theorem rd3 (y : (⟨S_, .f32⟩ : BufTy).Contents (Elt F)) (i : S64x32.Idx) :
    (broadcastInDim S64x32 ![] bcast_S_S64x32 y : (⟨S64x32, .f32⟩ : BufTy).Contents (Elt F)) i = y (idx_main_v15 i) :=
  broadcastInDim_apply _ bcast_S_S64x32 y i (idx_main_v15 i) (fun a => a.elim0)

theorem val_main_v15_apply (i : S64x32.Idx) :
    val_main_v15 (F := F) i = val_main_cst (F := F) (idx_main_v15 i) := rd3 _ i

def val_main_v16 : (⟨S64x32, .f32⟩ : BufTy).Contents (Elt F) :=
  mulf (val_main_v14 (F := F) x3) (val_main_v15 (F := F))

theorem val_main_v16_apply (i : S64x32.Idx) :
    val_main_v16 (F := F) x3 i = FloatOps.mulf (val_main_v14 (F := F) x3 i) (val_main_v15 (F := F) i) := rfl

def val_main_v17 : (⟨S64x32x1, .f32⟩ : BufTy).Contents (Elt F) :=
  extractStridedSlice S64x32x1 ![0, 0, 1] (x3) slices_S64x32x6_S64x32x1_0_0_1

abbrev idx_main_v17 (i : S64x32x1.Idx) : S64x32x6.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 6; omega⟩

theorem val_main_v17_apply (i : S64x32x1.Idx) :
    val_main_v17 (F := F) x3 i = x3 (idx_main_v17 i) := by
  unfold val_main_v17
  exact extractStridedSlice_apply ![0, 0, 1] x3 slices_S64x32x6_S64x32x1_0_0_1 i (idx_main_v17 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega)

def val_main_v18 : (⟨S64x32, .f32⟩ : BufTy).Contents (Elt F) :=
  shapeCast _ (val_main_v17 (F := F) x3) shapeCasts_S64x32x1_S64x32

theorem val_main_v18_apply (i : S64x32.Idx) :
    val_main_v18 (F := F) x3 i = val_main_v17 (F := F) x3 (idx_main_v14 i) := rd2 _ i

def val_main_v20 : (⟨S64x32, .f32⟩ : BufTy).Contents (Elt F) :=
  mulf (val_main_v18 (F := F) x3) (val_main_v15 (F := F))

theorem val_main_v20_apply (i : S64x32.Idx) :
    val_main_v20 (F := F) x3 i = FloatOps.mulf (val_main_v18 (F := F) x3 i) (val_main_v15 (F := F) i) := rfl

def val_main_v21 : (⟨S64x32x1, .f32⟩ : BufTy).Contents (Elt F) :=
  extractStridedSlice S64x32x1 ![0, 0, 2] (x3) slices_S64x32x6_S64x32x1_0_0_2

abbrev idx_main_v21 (i : S64x32x1.Idx) : S64x32x6.Idx := fun a => match a with
  | ⟨0, _⟩ => ⟨(i 0).val, (i 0).isLt⟩
  | ⟨1, _⟩ => ⟨(i 1).val, (i 1).isLt⟩
  | ⟨2, _⟩ => ⟨2 + (i 2).val, by have h2 : (i 2).val < 1 := (i 2).isLt; show 2 + (i 2).val < 6; omega⟩

theorem val_main_v21_apply (i : S64x32x1.Idx) :
    val_main_v21 (F := F) x3 i = x3 (idx_main_v21 i) := by
  unfold val_main_v21
  exact extractStridedSlice_apply ![0, 0, 2] x3 slices_S64x32x6_S64x32x1_0_0_2 i (idx_main_v21 i) (fun a => match a with
    | ⟨0, _⟩ => by show (i 0).val = 0 + (i 0).val; omega
    | ⟨1, _⟩ => by show (i 1).val = 0 + (i 1).val; omega
    | ⟨2, _⟩ => by show 2 + (i 2).val = 2 + (i 2).val; omega)

def val_main_v22 : (⟨S64x32, .f32⟩ : BufTy).Contents (Elt F) :=
  shapeCast _ (val_main_v21 (F := F) x3) shapeCasts_S64x32x1_S64x32

theorem val_main_v22_apply (i : S64x32.Idx) :
    val_main_v22 (F := F) x3 i = val_main_v21 (F := F) x3 (idx_main_v14 i) := rd2 _ i

def val_main_v23 : (⟨S64x32x1, .f32⟩ : BufTy).Contents (Elt F) :=
  extractStridedSlice S64x32x1 ![0, 0, 3] (x3) slices_S64x32x6_S64x32x1_0_0_3

abbrev idx_main_v23 (i : S64x32x1.Idx) : S64x32x6.Idx := fun a => match a with
  | ⟨0, _⟩ => ⟨(i 0).val, (i 0).isLt⟩
  | ⟨1, _⟩ => ⟨(i 1).val, (i 1).isLt⟩
  | ⟨2, _⟩ => ⟨3 + (i 2).val, by have h2 : (i 2).val < 1 := (i 2).isLt; show 3 + (i 2).val < 6; omega⟩

theorem val_main_v23_apply (i : S64x32x1.Idx) :
    val_main_v23 (F := F) x3 i = x3 (idx_main_v23 i) := by
  unfold val_main_v23
  exact extractStridedSlice_apply ![0, 0, 3] x3 slices_S64x32x6_S64x32x1_0_0_3 i (idx_main_v23 i) (fun a => match a with
    | ⟨0, _⟩ => by show (i 0).val = 0 + (i 0).val; omega
    | ⟨1, _⟩ => by show (i 1).val = 0 + (i 1).val; omega
    | ⟨2, _⟩ => by show 3 + (i 2).val = 3 + (i 2).val; omega)

def val_main_v24 : (⟨S64x32, .f32⟩ : BufTy).Contents (Elt F) :=
  shapeCast _ (val_main_v23 (F := F) x3) shapeCasts_S64x32x1_S64x32

theorem val_main_v24_apply (i : S64x32.Idx) :
    val_main_v24 (F := F) x3 i = val_main_v23 (F := F) x3 (idx_main_v14 i) := rd2 _ i

def val_main_v26 : (⟨S64x32, .f32⟩ : BufTy).Contents (Elt F) :=
  mulf (val_main_v24 (F := F) x3) (val_main_v15 (F := F))

theorem val_main_v26_apply (i : S64x32.Idx) :
    val_main_v26 (F := F) x3 i = FloatOps.mulf (val_main_v24 (F := F) x3 i) (val_main_v15 (F := F) i) := rfl

def val_main_v27 : (⟨S64x32x1, .f32⟩ : BufTy).Contents (Elt F) :=
  extractStridedSlice S64x32x1 ![0, 0, 4] (x3) slices_S64x32x6_S64x32x1_0_0_4

abbrev idx_main_v27 (i : S64x32x1.Idx) : S64x32x6.Idx := fun a => match a with
  | ⟨0, _⟩ => ⟨(i 0).val, (i 0).isLt⟩
  | ⟨1, _⟩ => ⟨(i 1).val, (i 1).isLt⟩
  | ⟨2, _⟩ => ⟨4 + (i 2).val, by have h2 : (i 2).val < 1 := (i 2).isLt; show 4 + (i 2).val < 6; omega⟩

theorem val_main_v27_apply (i : S64x32x1.Idx) :
    val_main_v27 (F := F) x3 i = x3 (idx_main_v27 i) := by
  unfold val_main_v27
  exact extractStridedSlice_apply ![0, 0, 4] x3 slices_S64x32x6_S64x32x1_0_0_4 i (idx_main_v27 i) (fun a => match a with
    | ⟨0, _⟩ => by show (i 0).val = 0 + (i 0).val; omega
    | ⟨1, _⟩ => by show (i 1).val = 0 + (i 1).val; omega
    | ⟨2, _⟩ => by show 4 + (i 2).val = 4 + (i 2).val; omega)

def val_main_v28 : (⟨S64x32, .f32⟩ : BufTy).Contents (Elt F) :=
  shapeCast _ (val_main_v27 (F := F) x3) shapeCasts_S64x32x1_S64x32

theorem val_main_v28_apply (i : S64x32.Idx) :
    val_main_v28 (F := F) x3 i = val_main_v27 (F := F) x3 (idx_main_v14 i) := rd2 _ i

def val_main_v30 : (⟨S64x32, .f32⟩ : BufTy).Contents (Elt F) :=
  mulf (val_main_v28 (F := F) x3) (val_main_v15 (F := F))

theorem val_main_v30_apply (i : S64x32.Idx) :
    val_main_v30 (F := F) x3 i = FloatOps.mulf (val_main_v28 (F := F) x3 i) (val_main_v15 (F := F) i) := rfl

def val_main_v31 : (⟨S64x32x1, .f32⟩ : BufTy).Contents (Elt F) :=
  extractStridedSlice S64x32x1 ![0, 0, 5] (x3) slices_S64x32x6_S64x32x1_0_0_5

abbrev idx_main_v31 (i : S64x32x1.Idx) : S64x32x6.Idx := fun a => match a with
  | ⟨0, _⟩ => ⟨(i 0).val, (i 0).isLt⟩
  | ⟨1, _⟩ => ⟨(i 1).val, (i 1).isLt⟩
  | ⟨2, _⟩ => ⟨5 + (i 2).val, by have h2 : (i 2).val < 1 := (i 2).isLt; show 5 + (i 2).val < 6; omega⟩

theorem val_main_v31_apply (i : S64x32x1.Idx) :
    val_main_v31 (F := F) x3 i = x3 (idx_main_v31 i) := by
  unfold val_main_v31
  exact extractStridedSlice_apply ![0, 0, 5] x3 slices_S64x32x6_S64x32x1_0_0_5 i (idx_main_v31 i) (fun a => match a with
    | ⟨0, _⟩ => by show (i 0).val = 0 + (i 0).val; omega
    | ⟨1, _⟩ => by show (i 1).val = 0 + (i 1).val; omega
    | ⟨2, _⟩ => by show 5 + (i 2).val = 5 + (i 2).val; omega)

def val_main_v32 : (⟨S64x32, .f32⟩ : BufTy).Contents (Elt F) :=
  shapeCast _ (val_main_v31 (F := F) x3) shapeCasts_S64x32x1_S64x32

theorem val_main_v32_apply (i : S64x32.Idx) :
    val_main_v32 (F := F) x3 i = val_main_v31 (F := F) x3 (idx_main_v14 i) := rd2 _ i

def val_main_v33 : (⟨S64x32, .i32⟩ : BufTy).Contents (Elt F) :=
  fptosi 32 (val_main_v16 (F := F) x3)

theorem val_main_v33_apply (i : S64x32.Idx) :
    val_main_v33 (F := F) x3 i = FloatOps.fptosi 32 (val_main_v16 (F := F) x3 i) := rfl

def val_main_v34 : (⟨S64x32, .i32⟩ : BufTy).Contents (Elt F) :=
  fptosi 32 (val_main_v20 (F := F) x3)

theorem val_main_v34_apply (i : S64x32.Idx) :
    val_main_v34 (F := F) x3 i = FloatOps.fptosi 32 (val_main_v20 (F := F) x3 i) := rfl

def val_main_v35 : (⟨S64, .i32⟩ : BufTy).Contents (Elt F) :=
  iotaInDim S64 32 0

theorem val_main_v35_apply (i : S64.Idx) :
    val_main_v35 (F := F) i = BitVec.ofNat 32 (i 0).val := rfl

def val_main_v36 : (⟨S64x1, .i32⟩ : BufTy).Contents (Elt F) :=
  broadcastInDim S64x1 ![0] bcast_S64_S64x1_0 (val_main_v35 (F := F))

abbrev idx_main_v36 (i : S64x1.Idx) : S64.Idx := fun a => match a with
  | ⟨0, _⟩ => ⟨(i 0).val, (i 0).isLt⟩

theorem val_main_v36_apply (i : S64x1.Idx) :
    val_main_v36 (F := F) i = val_main_v35 (F := F) (idx_main_v36 i) := by
  unfold val_main_v36
  generalize val_main_v35 (F := F) = y
  exact broadcastInDim_apply _ bcast_S64_S64x1_0 y i (idx_main_v36 i) (fun a => match a with
    | ⟨0, _⟩ => by show (i 0).val = if (64 : Nat) = 1 then 0 else (i 0).val; rw [if_neg (by decide)])

def val_main_c : (⟨S_, .i32⟩ : BufTy).Contents (Elt F) :=
  constantI S_ 32 0#32

theorem val_main_c_apply (i : S_.Idx) :
    val_main_c (F := F) i = 0#32 := rfl

def val_main_v37 : (⟨S64x1, .i32⟩ : BufTy).Contents (Elt F) :=
  broadcastInDim S64x1 ![] bcast_S_S64x1 (val_main_c (F := F))

abbrev idx_main_v37 (i : S64x1.Idx) : S_.Idx := fun a => a.elim0

theorem val_main_v37_apply (i : S64x1.Idx) :
    val_main_v37 (F := F) i = val_main_c (F := F) (idx_main_v37 i) := by
  unfold val_main_v37
  generalize val_main_c (F := F) = y
  exact broadcastInDim_apply _ bcast_S_S64x1 y i (idx_main_v37 i) (fun a => a.elim0)

def val_main_v38 : (⟨S64x1, .i1⟩ : BufTy).Contents (Elt F) :=
  cmpi .slt (val_main_v36 (F := F)) (val_main_v37 (F := F))

theorem val_main_v38_apply (i : S64x1.Idx) :
    val_main_v38 (F := F) i = IntOp.cmpi .slt (val_main_v36 (F := F) i) (val_main_v37 (F := F) i) := rfl

def val_main_c_3 : (⟨S_, .i32⟩ : BufTy).Contents (Elt F) :=
  constantI S_ 32 64#32

def val_main_v39 : (⟨S64x1, .i32⟩ : BufTy).Contents (Elt F) :=
  broadcastInDim S64x1 ![] bcast_S_S64x1 (val_main_c_3 (F := F))

def val_main_v40 : (⟨S64x1, .i32⟩ : BufTy).Contents (Elt F) :=
  addi (val_main_v36 (F := F)) (val_main_v39 (F := F))

theorem val_main_v40_apply (i : S64x1.Idx) :
    val_main_v40 (F := F) i = IntOp.addi (val_main_v36 (F := F) i) (val_main_v39 (F := F) i) := rfl

def val_main_v41 : (⟨S64x1, .i32⟩ : BufTy).Contents (Elt F) :=
  select (val_main_v38 (F := F)) (val_main_v40 (F := F)) (val_main_v36 (F := F))

theorem val_main_v41_apply (i : S64x1.Idx) :
    val_main_v41 (F := F) i = Scalar.select (val_main_v38 (F := F) i) (val_main_v40 (F := F) i) (val_main_v36 (F := F) i) := rfl

def val_main_v42 : (⟨S64x32, .i32⟩ : BufTy).Contents (Elt F) :=
  broadcastInDim S64x32 ![] bcast_S_S64x32 (val_main_c (F := F))

theorem val_main_v42_apply (i : S64x32.Idx) :
    val_main_v42 (F := F) i = val_main_c (F := F) (idx_main_v15 i) := by
  unfold val_main_v42
  generalize val_main_c (F := F) = y
  exact broadcastInDim_apply _ bcast_S_S64x32 y i (idx_main_v15 i) (fun a => a.elim0)

def val_main_v43 : (⟨S64x32, .i1⟩ : BufTy).Contents (Elt F) :=
  cmpi .slt (val_main_v34 (F := F) x3) (val_main_v42 (F := F))

theorem val_main_v43_apply (i : S64x32.Idx) :
    val_main_v43 (F := F) x3 i = IntOp.cmpi .slt (val_main_v34 (F := F) x3 i) (val_main_v42 (F := F) i) := rfl

def val_main_c_5 : (⟨S_, .i32⟩ : BufTy).Contents (Elt F) :=
  constantI S_ 32 96#32

def val_main_v44 : (⟨S64x32, .i32⟩ : BufTy).Contents (Elt F) :=
  broadcastInDim S64x32 ![] bcast_S_S64x32 (val_main_c_5 (F := F))

def val_main_v45 : (⟨S64x32, .i32⟩ : BufTy).Contents (Elt F) :=
  addi (val_main_v34 (F := F) x3) (val_main_v44 (F := F))

theorem val_main_v45_apply (i : S64x32.Idx) :
    val_main_v45 (F := F) x3 i = IntOp.addi (val_main_v34 (F := F) x3 i) (val_main_v44 (F := F) i) := rfl

def val_main_v46 : (⟨S64x32, .i32⟩ : BufTy).Contents (Elt F) :=
  select (val_main_v43 (F := F) x3) (val_main_v45 (F := F) x3) (val_main_v34 (F := F) x3)

theorem val_main_v46_apply (i : S64x32.Idx) :
    val_main_v46 (F := F) x3 i = Scalar.select (val_main_v43 (F := F) x3 i) (val_main_v45 (F := F) x3 i) (val_main_v34 (F := F) x3 i) := rfl

def val_main_v48 : (⟨S64x32, .i1⟩ : BufTy).Contents (Elt F) :=
  cmpi .slt (val_main_v33 (F := F) x3) (val_main_v42 (F := F))

theorem val_main_v48_apply (i : S64x32.Idx) :
    val_main_v48 (F := F) x3 i = IntOp.cmpi .slt (val_main_v33 (F := F) x3 i) (val_main_v42 (F := F) i) := rfl

def val_main_v50 : (⟨S64x32, .i32⟩ : BufTy).Contents (Elt F) :=
  addi (val_main_v33 (F := F) x3) (val_main_v44 (F := F))

theorem val_main_v50_apply (i : S64x32.Idx) :
    val_main_v50 (F := F) x3 i = IntOp.addi (val_main_v33 (F := F) x3 i) (val_main_v44 (F := F) i) := rfl

def val_main_v51 : (⟨S64x32, .i32⟩ : BufTy).Contents (Elt F) :=
  select (val_main_v48 (F := F) x3) (val_main_v50 (F := F) x3) (val_main_v33 (F := F) x3)

theorem val_main_v51_apply (i : S64x32.Idx) :
    val_main_v51 (F := F) x3 i = Scalar.select (val_main_v48 (F := F) x3 i) (val_main_v50 (F := F) x3 i) (val_main_v33 (F := F) x3 i) := rfl

def val_main_v52 : (⟨S64x32, .i32⟩ : BufTy).Contents (Elt F) :=
  broadcastInDim S64x32 ![0, 1] bcast_S64x1_S64x32_0_1 (val_main_v41 (F := F))

abbrev idx_main_v52 (i : S64x32.Idx) : S64x1.Idx := fun a => match a with
  | ⟨0, _⟩ => ⟨(i 0).val, (i 0).isLt⟩
  | ⟨1, _⟩ => ⟨0, Nat.one_pos⟩

theorem val_main_v52_apply (i : S64x32.Idx) :
    val_main_v52 (F := F) i = val_main_v41 (F := F) (idx_main_v52 i) := by
  unfold val_main_v52
  generalize val_main_v41 (F := F) = y
  exact broadcastInDim_apply _ bcast_S64x1_S64x32_0_1 y i (idx_main_v52 i) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

def val_main_v53 : (⟨S64x32x1, .i32⟩ : BufTy).Contents (Elt F) :=
  broadcastInDim S64x32x1 ![0, 1] bcast_S64x32_S64x32x1_0_1 (val_main_v52 (F := F))

abbrev idx_main_v53 (i : S64x32x1.Idx) : S64x32.Idx := fun a => match a with
  | ⟨0, _⟩ => ⟨(i 0).val, (i 0).isLt⟩
  | ⟨1, _⟩ => ⟨(i 1).val, (i 1).isLt⟩

theorem val_main_v53_apply (i : S64x32x1.Idx) :
    val_main_v53 (F := F) i = val_main_v52 (F := F) (idx_main_v53 i) := by
  unfold val_main_v53
  generalize val_main_v52 (F := F) = y
  exact broadcastInDim_apply _ bcast_S64x32_S64x32x1_0_1 y i (idx_main_v53 i) (fun a => match a with
    | ⟨0, _⟩ => by show (i 0).val = if (64 : Nat) = 1 then 0 else (i 0).val; rw [if_neg (by decide)]
    | ⟨1, _⟩ => by show (i 1).val = if (32 : Nat) = 1 then 0 else (i 1).val; rw [if_neg (by decide)])

def val_main_v54 : (⟨S64x32x1, .i32⟩ : BufTy).Contents (Elt F) :=
  broadcastInDim S64x32x1 ![0, 1] bcast_S64x32_S64x32x1_0_1 (val_main_v46 (F := F) x3)

theorem rd4 (y : (⟨S64x32, .i32⟩ : BufTy).Contents (Elt F)) (i : S64x32x1.Idx) :
    (broadcastInDim S64x32x1 ![0, 1] bcast_S64x32_S64x32x1_0_1 y : (⟨S64x32x1, .i32⟩ : BufTy).Contents (Elt F)) i = y (idx_main_v53 i) :=
  broadcastInDim_apply _ bcast_S64x32_S64x32x1_0_1 y i (idx_main_v53 i) (fun a => match a with
    | ⟨0, _⟩ => by show (i 0).val = if (64 : Nat) = 1 then 0 else (i 0).val; rw [if_neg (by decide)]
    | ⟨1, _⟩ => by show (i 1).val = if (32 : Nat) = 1 then 0 else (i 1).val; rw [if_neg (by decide)])

theorem val_main_v54_apply (i : S64x32x1.Idx) :
    val_main_v54 (F := F) x3 i = val_main_v46 (F := F) x3 (idx_main_v53 i) := rd4 _ i

def val_main_v55 : (⟨S64x32x1, .i32⟩ : BufTy).Contents (Elt F) :=
  broadcastInDim S64x32x1 ![0, 1] bcast_S64x32_S64x32x1_0_1 (val_main_v51 (F := F) x3)

theorem val_main_v55_apply (i : S64x32x1.Idx) :
    val_main_v55 (F := F) x3 i = val_main_v51 (F := F) x3 (idx_main_v53 i) := rd4 _ i

def val_main_v56 : (⟨S64x32x3, .i32⟩ : BufTy).Contents (Elt F) :=
  concatenate S64x32x3 2 [⟨S64x32x1, (val_main_v53 (F := F))⟩, ⟨S64x32x1, (val_main_v54 (F := F) x3)⟩, ⟨S64x32x1, (val_main_v55 (F := F) x3)⟩] concatenates_S64x32x1_S64x32x1_S64x32x1_S64x32x3_d2

def val_main_v57 : (⟨S64x32, .f32⟩ : BufTy).Contents (Elt F) :=
  Host.gather gather_S64x96x96_S64x32x3_S64x32_n_012_n_n_012_2_111 (val_main_v1 (F := F) x0) (val_main_v56 (F := F) x3)

def val_main_v78 : (⟨S64x32, .f32⟩ : BufTy).Contents (Elt F) :=
  Host.gather gather_S64x96x96_S64x32x3_S64x32_n_012_n_n_012_2_111 (val_main_v3 (F := F) x0) (val_main_v56 (F := F) x3)

def val_main_v99 : (⟨S64x32, .f32⟩ : BufTy).Contents (Elt F) :=
  Host.gather gather_S64x96x96_S64x32x3_S64x32_n_012_n_n_012_2_111 (val_main_v5 (F := F) x0) (val_main_v56 (F := F) x3)

def val_main_v120 : (⟨S64x32, .f32⟩ : BufTy).Contents (Elt F) :=
  Host.gather gather_S64x96x96_S64x32x3_S64x32_n_012_n_n_012_2_111 (val_main_v7 (F := F) x0) (val_main_v56 (F := F) x3)

def val_main_v141 : (⟨S64x32, .f32⟩ : BufTy).Contents (Elt F) :=
  Host.gather gather_S64x96x96_S64x32x3_S64x32_n_012_n_n_012_2_111 (val_main_v9 (F := F) x0) (val_main_v56 (F := F) x3)

def val_main_v162 : (⟨S64x32, .f32⟩ : BufTy).Contents (Elt F) :=
  Host.gather gather_S64x96x96_S64x32x3_S64x32_n_012_n_n_012_2_111 (val_main_v11 (F := F) x0) (val_main_v56 (F := F) x3)

def val_main_v183 : (⟨S64x32x63, .f32⟩ : BufTy).Contents (Elt F) :=
  Host.gather gather_S64x96x96x63_S64x32x3_S64x32x63_2_012_n_n_012_2_11163 (x2) (val_main_v56 (F := F) x3)

def val_main_v184 : (⟨S64x32, .f32⟩ : BufTy).Contents (Elt F) :=
  Host.floor (val_main_v16 (F := F) x3)

theorem val_main_v184_apply (i : S64x32.Idx) :
    val_main_v184 (F := F) x3 i = FloatOps.hostUnary .floor (val_main_v16 (F := F) x3 i) := rfl

def val_main_v185 : (⟨S64x32, .f32⟩ : BufTy).Contents (Elt F) :=
  subf (val_main_v16 (F := F) x3) (val_main_v184 (F := F) x3)

theorem val_main_v185_apply (i : S64x32.Idx) :
    val_main_v185 (F := F) x3 i = FloatOps.subf (val_main_v16 (F := F) x3 i) (val_main_v184 (F := F) x3 i) := rfl

def val_main_v186 : (⟨S64x32, .f32⟩ : BufTy).Contents (Elt F) :=
  Host.floor (val_main_v20 (F := F) x3)

theorem val_main_v186_apply (i : S64x32.Idx) :
    val_main_v186 (F := F) x3 i = FloatOps.hostUnary .floor (val_main_v20 (F := F) x3 i) := rfl

def val_main_v187 : (⟨S64x32, .f32⟩ : BufTy).Contents (Elt F) :=
  subf (val_main_v20 (F := F) x3) (val_main_v186 (F := F) x3)

theorem val_main_v187_apply (i : S64x32.Idx) :
    val_main_v187 (F := F) x3 i = FloatOps.subf (val_main_v20 (F := F) x3 i) (val_main_v186 (F := F) x3 i) := rfl

def val_main_cst_44 : (⟨S_, .f32⟩ : BufTy).Contents (Elt F) :=
  constant S_ .f32 0x40400000#32

theorem val_main_cst_44_apply (i : S_.Idx) :
    val_main_cst_44 (F := F) i = FloatOps.ofBits .f32 0x40400000#32 := rfl

def val_main_v188 : (⟨S64x32, .f32⟩ : BufTy).Contents (Elt F) :=
  broadcastInDim S64x32 ![] bcast_S_S64x32 (val_main_cst_44 (F := F))

theorem val_main_v188_apply (i : S64x32.Idx) :
    val_main_v188 (F := F) i = val_main_cst_44 (F := F) (idx_main_v15 i) := rd3 _ i

def val_main_v189 : (⟨S64x32, .f32⟩ : BufTy).Contents (Elt F) :=
  Host.divf (val_main_v26 (F := F) x3) (val_main_v188 (F := F))

theorem val_main_v189_apply (i : S64x32.Idx) :
    val_main_v189 (F := F) x3 i = FloatOps.hostDivf (val_main_v26 (F := F) x3 i) (val_main_v188 (F := F) i) := rfl

def val_main_cst_45 : (⟨S_, .f32⟩ : BufTy).Contents (Elt F) :=
  constant S_ .f32 0x24E69595#32

theorem val_main_cst_45_apply (i : S_.Idx) :
    val_main_cst_45 (F := F) i = FloatOps.ofBits .f32 0x24E69595#32 := rfl

def val_main_v190 : (⟨S64x32, .f32⟩ : BufTy).Contents (Elt F) :=
  broadcastInDim S64x32 ![] bcast_S_S64x32 (val_main_cst_45 (F := F))

theorem val_main_v190_apply (i : S64x32.Idx) :
    val_main_v190 (F := F) i = val_main_cst_45 (F := F) (idx_main_v15 i) := rd3 _ i

def val_main_v191 : (⟨S64x32, .f32⟩ : BufTy).Contents (Elt F) :=
  addf (val_main_v189 (F := F) x3) (val_main_v190 (F := F))

theorem val_main_v191_apply (i : S64x32.Idx) :
    val_main_v191 (F := F) x3 i = FloatOps.addf (val_main_v189 (F := F) x3 i) (val_main_v190 (F := F) i) := rfl

def val_main_v192 : (⟨S64x32, .f32⟩ : BufTy).Contents (Elt F) :=
  Host.log (val_main_v191 (F := F) x3)

theorem val_main_v192_apply (i : S64x32.Idx) :
    val_main_v192 (F := F) x3 i = FloatOps.hostUnary .log (val_main_v191 (F := F) x3 i) := rfl

def val_main_v194 : (⟨S64x32, .f32⟩ : BufTy).Contents (Elt F) :=
  Host.divf (val_main_v30 (F := F) x3) (val_main_v188 (F := F))

theorem val_main_v194_apply (i : S64x32.Idx) :
    val_main_v194 (F := F) x3 i = FloatOps.hostDivf (val_main_v30 (F := F) x3 i) (val_main_v188 (F := F) i) := rfl

def val_main_v196 : (⟨S64x32, .f32⟩ : BufTy).Contents (Elt F) :=
  addf (val_main_v194 (F := F) x3) (val_main_v190 (F := F))

theorem val_main_v196_apply (i : S64x32.Idx) :
    val_main_v196 (F := F) x3 i = FloatOps.addf (val_main_v194 (F := F) x3 i) (val_main_v190 (F := F) i) := rfl

def val_main_v197 : (⟨S64x32, .f32⟩ : BufTy).Contents (Elt F) :=
  Host.log (val_main_v196 (F := F) x3)

theorem val_main_v197_apply (i : S64x32.Idx) :
    val_main_v197 (F := F) x3 i = FloatOps.hostUnary .log (val_main_v196 (F := F) x3 i) := rfl

def val_main_v199 : (⟨S64x32, .f32⟩ : BufTy).Contents (Elt F) :=
  addf (val_main_v32 (F := F) x3) (val_main_v190 (F := F))

theorem val_main_v199_apply (i : S64x32.Idx) :
    val_main_v199 (F := F) x3 i = FloatOps.addf (val_main_v32 (F := F) x3 i) (val_main_v190 (F := F) i) := rfl

def val_main_v200 : (⟨S64x32, .f32⟩ : BufTy).Contents (Elt F) :=
  Host.log (val_main_v199 (F := F) x3)

theorem val_main_v200_apply (i : S64x32.Idx) :
    val_main_v200 (F := F) x3 i = FloatOps.hostUnary .log (val_main_v199 (F := F) x3 i) := rfl

def val_main_v201 : (⟨S64x32, .f32⟩ : BufTy).Contents (Elt F) :=
  subf (val_main_v57 (F := F) x0 x3) (val_main_v185 (F := F) x3)

theorem val_main_v201_apply (i : S64x32.Idx) :
    val_main_v201 (F := F) x0 x3 i = FloatOps.subf (val_main_v57 (F := F) x0 x3 i) (val_main_v185 (F := F) x3 i) := rfl

def val_main_v202 : (⟨S64x32, .f32⟩ : BufTy).Contents (Elt F) :=
  Host.absf (val_main_v201 (F := F) x0 x3)

theorem val_main_v202_apply (i : S64x32.Idx) :
    val_main_v202 (F := F) x0 x3 i = FloatOps.hostAbsf (val_main_v201 (F := F) x0 x3 i) := rfl

def val_main_cst_49 : (⟨S_, .f32⟩ : BufTy).Contents (Elt F) :=
  constant S_ .f32 0x00000000#32

theorem val_main_cst_49_apply (i : S_.Idx) :
    val_main_cst_49 (F := F) i = FloatOps.ofBits .f32 0x00000000#32 := rfl

def val_main_v203 : (⟨S_, .f32⟩ : BufTy).Contents (Elt F) :=
  Host.reduceAdd (val_main_v202 (F := F) x0 x3) (val_main_cst_49 (F := F)) reducesTo_S64x32_S_d0_1 h_S_

theorem val_main_v203_apply (x0 : (⟨S64x96x96x6, .f32⟩ : BufTy).Contents (Elt Ideal)) (x3 : (⟨S64x32x6, .f32⟩ : BufTy).Contents (Elt Ideal)) (i : S_.Idx) :
    val_main_v203 (F := Ideal) x0 x3 i = (val_main_cst_49 (F := Ideal)) (Shape.Idx.first h_S_) + ∑ j : S64x32.Idx, (val_main_v202 (F := Ideal) x0 x3) j := by
  unfold val_main_v203
  generalize val_main_v202 (F := Ideal) x0 x3 = y0
  simp only [Host.reduceAdd, Ideal.hostReduceAdd_def]
  exact Ideal.hostReduceAdd_total reducesTo_S64x32_S_d0_1 (fun b => b.elim0) y0 _ i

def val_main_cst_50 : (⟨S_, .f32⟩ : BufTy).Contents (Elt F) :=
  constant S_ .f32 0x45000000#32

theorem val_main_cst_50_apply (i : S_.Idx) :
    val_main_cst_50 (F := F) i = FloatOps.ofBits .f32 0x45000000#32 := rfl

def val_main_v204 : (⟨S_, .f32⟩ : BufTy).Contents (Elt F) :=
  Host.divf (val_main_v203 (F := F) x0 x3) (val_main_cst_50 (F := F))

theorem val_main_v204_apply (i : S_.Idx) :
    val_main_v204 (F := F) x0 x3 i = FloatOps.hostDivf (val_main_v203 (F := F) x0 x3 i) (val_main_cst_50 (F := F) i) := rfl

def val_main_v205 : (⟨S64x32, .f32⟩ : BufTy).Contents (Elt F) :=
  subf (val_main_v78 (F := F) x0 x3) (val_main_v187 (F := F) x3)

theorem val_main_v205_apply (i : S64x32.Idx) :
    val_main_v205 (F := F) x0 x3 i = FloatOps.subf (val_main_v78 (F := F) x0 x3 i) (val_main_v187 (F := F) x3 i) := rfl

def val_main_v206 : (⟨S64x32, .f32⟩ : BufTy).Contents (Elt F) :=
  Host.absf (val_main_v205 (F := F) x0 x3)

theorem val_main_v206_apply (i : S64x32.Idx) :
    val_main_v206 (F := F) x0 x3 i = FloatOps.hostAbsf (val_main_v205 (F := F) x0 x3 i) := rfl

def val_main_v207 : (⟨S_, .f32⟩ : BufTy).Contents (Elt F) :=
  Host.reduceAdd (val_main_v206 (F := F) x0 x3) (val_main_cst_49 (F := F)) reducesTo_S64x32_S_d0_1 h_S_

theorem val_main_v207_apply (x0 : (⟨S64x96x96x6, .f32⟩ : BufTy).Contents (Elt Ideal)) (x3 : (⟨S64x32x6, .f32⟩ : BufTy).Contents (Elt Ideal)) (i : S_.Idx) :
    val_main_v207 (F := Ideal) x0 x3 i = (val_main_cst_49 (F := Ideal)) (Shape.Idx.first h_S_) + ∑ j : S64x32.Idx, (val_main_v206 (F := Ideal) x0 x3) j := by
  unfold val_main_v207
  generalize val_main_v206 (F := Ideal) x0 x3 = y0
  simp only [Host.reduceAdd, Ideal.hostReduceAdd_def]
  exact Ideal.hostReduceAdd_total reducesTo_S64x32_S_d0_1 (fun b => b.elim0) y0 _ i

def val_main_v208 : (⟨S_, .f32⟩ : BufTy).Contents (Elt F) :=
  Host.divf (val_main_v207 (F := F) x0 x3) (val_main_cst_50 (F := F))

theorem val_main_v208_apply (i : S_.Idx) :
    val_main_v208 (F := F) x0 x3 i = FloatOps.hostDivf (val_main_v207 (F := F) x0 x3 i) (val_main_cst_50 (F := F) i) := rfl

def val_main_v209 : (⟨S_, .f32⟩ : BufTy).Contents (Elt F) :=
  addf (val_main_v204 (F := F) x0 x3) (val_main_v208 (F := F) x0 x3)

theorem val_main_v209_apply (i : S_.Idx) :
    val_main_v209 (F := F) x0 x3 i = FloatOps.addf (val_main_v204 (F := F) x0 x3 i) (val_main_v208 (F := F) x0 x3 i) := rfl

def val_main_v210 : (⟨S64x32, .f32⟩ : BufTy).Contents (Elt F) :=
  subf (val_main_v120 (F := F) x0 x3) (val_main_v192 (F := F) x3)

theorem val_main_v210_apply (i : S64x32.Idx) :
    val_main_v210 (F := F) x0 x3 i = FloatOps.subf (val_main_v120 (F := F) x0 x3 i) (val_main_v192 (F := F) x3 i) := rfl

def val_main_v211 : (⟨S64x32, .f32⟩ : BufTy).Contents (Elt F) :=
  Host.absf (val_main_v210 (F := F) x0 x3)

theorem val_main_v211_apply (i : S64x32.Idx) :
    val_main_v211 (F := F) x0 x3 i = FloatOps.hostAbsf (val_main_v210 (F := F) x0 x3 i) := rfl

def val_main_v212 : (⟨S_, .f32⟩ : BufTy).Contents (Elt F) :=
  Host.reduceAdd (val_main_v211 (F := F) x0 x3) (val_main_cst_49 (F := F)) reducesTo_S64x32_S_d0_1 h_S_

theorem val_main_v212_apply (x0 : (⟨S64x96x96x6, .f32⟩ : BufTy).Contents (Elt Ideal)) (x3 : (⟨S64x32x6, .f32⟩ : BufTy).Contents (Elt Ideal)) (i : S_.Idx) :
    val_main_v212 (F := Ideal) x0 x3 i = (val_main_cst_49 (F := Ideal)) (Shape.Idx.first h_S_) + ∑ j : S64x32.Idx, (val_main_v211 (F := Ideal) x0 x3) j := by
  unfold val_main_v212
  generalize val_main_v211 (F := Ideal) x0 x3 = y0
  simp only [Host.reduceAdd, Ideal.hostReduceAdd_def]
  exact Ideal.hostReduceAdd_total reducesTo_S64x32_S_d0_1 (fun b => b.elim0) y0 _ i

def val_main_v213 : (⟨S_, .f32⟩ : BufTy).Contents (Elt F) :=
  Host.divf (val_main_v212 (F := F) x0 x3) (val_main_cst_50 (F := F))

theorem val_main_v213_apply (i : S_.Idx) :
    val_main_v213 (F := F) x0 x3 i = FloatOps.hostDivf (val_main_v212 (F := F) x0 x3 i) (val_main_cst_50 (F := F) i) := rfl

def val_main_v214 : (⟨S_, .f32⟩ : BufTy).Contents (Elt F) :=
  addf (val_main_v209 (F := F) x0 x3) (val_main_v213 (F := F) x0 x3)

theorem val_main_v214_apply (i : S_.Idx) :
    val_main_v214 (F := F) x0 x3 i = FloatOps.addf (val_main_v209 (F := F) x0 x3 i) (val_main_v213 (F := F) x0 x3 i) := rfl

def val_main_v215 : (⟨S64x32, .f32⟩ : BufTy).Contents (Elt F) :=
  subf (val_main_v141 (F := F) x0 x3) (val_main_v197 (F := F) x3)

theorem val_main_v215_apply (i : S64x32.Idx) :
    val_main_v215 (F := F) x0 x3 i = FloatOps.subf (val_main_v141 (F := F) x0 x3 i) (val_main_v197 (F := F) x3 i) := rfl

def val_main_v216 : (⟨S64x32, .f32⟩ : BufTy).Contents (Elt F) :=
  Host.absf (val_main_v215 (F := F) x0 x3)

theorem val_main_v216_apply (i : S64x32.Idx) :
    val_main_v216 (F := F) x0 x3 i = FloatOps.hostAbsf (val_main_v215 (F := F) x0 x3 i) := rfl

def val_main_v217 : (⟨S_, .f32⟩ : BufTy).Contents (Elt F) :=
  Host.reduceAdd (val_main_v216 (F := F) x0 x3) (val_main_cst_49 (F := F)) reducesTo_S64x32_S_d0_1 h_S_

theorem val_main_v217_apply (x0 : (⟨S64x96x96x6, .f32⟩ : BufTy).Contents (Elt Ideal)) (x3 : (⟨S64x32x6, .f32⟩ : BufTy).Contents (Elt Ideal)) (i : S_.Idx) :
    val_main_v217 (F := Ideal) x0 x3 i = (val_main_cst_49 (F := Ideal)) (Shape.Idx.first h_S_) + ∑ j : S64x32.Idx, (val_main_v216 (F := Ideal) x0 x3) j := by
  unfold val_main_v217
  generalize val_main_v216 (F := Ideal) x0 x3 = y0
  simp only [Host.reduceAdd, Ideal.hostReduceAdd_def]
  exact Ideal.hostReduceAdd_total reducesTo_S64x32_S_d0_1 (fun b => b.elim0) y0 _ i

def val_main_v218 : (⟨S_, .f32⟩ : BufTy).Contents (Elt F) :=
  Host.divf (val_main_v217 (F := F) x0 x3) (val_main_cst_50 (F := F))

theorem val_main_v218_apply (i : S_.Idx) :
    val_main_v218 (F := F) x0 x3 i = FloatOps.hostDivf (val_main_v217 (F := F) x0 x3 i) (val_main_cst_50 (F := F) i) := rfl

def val_main_v219 : (⟨S_, .f32⟩ : BufTy).Contents (Elt F) :=
  addf (val_main_v214 (F := F) x0 x3) (val_main_v218 (F := F) x0 x3)

theorem val_main_v219_apply (i : S_.Idx) :
    val_main_v219 (F := F) x0 x3 i = FloatOps.addf (val_main_v214 (F := F) x0 x3 i) (val_main_v218 (F := F) x0 x3 i) := rfl

def val_main_v220 : (⟨S64x32, .f32⟩ : BufTy).Contents (Elt F) :=
  subf (val_main_v99 (F := F) x0 x3) (val_main_v22 (F := F) x3)

theorem val_main_v220_apply (i : S64x32.Idx) :
    val_main_v220 (F := F) x0 x3 i = FloatOps.subf (val_main_v99 (F := F) x0 x3 i) (val_main_v22 (F := F) x3 i) := rfl

def val_main_v221 : (⟨S64x32, .f32⟩ : BufTy).Contents (Elt F) :=
  Host.absf (val_main_v220 (F := F) x0 x3)

theorem val_main_v221_apply (i : S64x32.Idx) :
    val_main_v221 (F := F) x0 x3 i = FloatOps.hostAbsf (val_main_v220 (F := F) x0 x3 i) := rfl

def val_main_v222 : (⟨S_, .f32⟩ : BufTy).Contents (Elt F) :=
  Host.reduceAdd (val_main_v221 (F := F) x0 x3) (val_main_cst_49 (F := F)) reducesTo_S64x32_S_d0_1 h_S_

theorem val_main_v222_apply (x0 : (⟨S64x96x96x6, .f32⟩ : BufTy).Contents (Elt Ideal)) (x3 : (⟨S64x32x6, .f32⟩ : BufTy).Contents (Elt Ideal)) (i : S_.Idx) :
    val_main_v222 (F := Ideal) x0 x3 i = (val_main_cst_49 (F := Ideal)) (Shape.Idx.first h_S_) + ∑ j : S64x32.Idx, (val_main_v221 (F := Ideal) x0 x3) j := by
  unfold val_main_v222
  generalize val_main_v221 (F := Ideal) x0 x3 = y0
  simp only [Host.reduceAdd, Ideal.hostReduceAdd_def]
  exact Ideal.hostReduceAdd_total reducesTo_S64x32_S_d0_1 (fun b => b.elim0) y0 _ i

def val_main_v223 : (⟨S_, .f32⟩ : BufTy).Contents (Elt F) :=
  Host.divf (val_main_v222 (F := F) x0 x3) (val_main_cst_50 (F := F))

theorem val_main_v223_apply (i : S_.Idx) :
    val_main_v223 (F := F) x0 x3 i = FloatOps.hostDivf (val_main_v222 (F := F) x0 x3 i) (val_main_cst_50 (F := F) i) := rfl

def val_main_v224 : (⟨S_, .f32⟩ : BufTy).Contents (Elt F) :=
  addf (val_main_v219 (F := F) x0 x3) (val_main_v223 (F := F) x0 x3)

theorem val_main_v224_apply (i : S_.Idx) :
    val_main_v224 (F := F) x0 x3 i = FloatOps.addf (val_main_v219 (F := F) x0 x3 i) (val_main_v223 (F := F) x0 x3 i) := rfl

def val_main_v225 : (⟨S64x32, .f32⟩ : BufTy).Contents (Elt F) :=
  subf (val_main_v162 (F := F) x0 x3) (val_main_v200 (F := F) x3)

theorem val_main_v225_apply (i : S64x32.Idx) :
    val_main_v225 (F := F) x0 x3 i = FloatOps.subf (val_main_v162 (F := F) x0 x3 i) (val_main_v200 (F := F) x3 i) := rfl

def val_main_v226 : (⟨S64x32, .f32⟩ : BufTy).Contents (Elt F) :=
  Host.absf (val_main_v225 (F := F) x0 x3)

theorem val_main_v226_apply (i : S64x32.Idx) :
    val_main_v226 (F := F) x0 x3 i = FloatOps.hostAbsf (val_main_v225 (F := F) x0 x3 i) := rfl

def val_main_v227 : (⟨S_, .f32⟩ : BufTy).Contents (Elt F) :=
  Host.reduceAdd (val_main_v226 (F := F) x0 x3) (val_main_cst_49 (F := F)) reducesTo_S64x32_S_d0_1 h_S_

theorem val_main_v227_apply (x0 : (⟨S64x96x96x6, .f32⟩ : BufTy).Contents (Elt Ideal)) (x3 : (⟨S64x32x6, .f32⟩ : BufTy).Contents (Elt Ideal)) (i : S_.Idx) :
    val_main_v227 (F := Ideal) x0 x3 i = (val_main_cst_49 (F := Ideal)) (Shape.Idx.first h_S_) + ∑ j : S64x32.Idx, (val_main_v226 (F := Ideal) x0 x3) j := by
  unfold val_main_v227
  generalize val_main_v226 (F := Ideal) x0 x3 = y0
  simp only [Host.reduceAdd, Ideal.hostReduceAdd_def]
  exact Ideal.hostReduceAdd_total reducesTo_S64x32_S_d0_1 (fun b => b.elim0) y0 _ i

def val_main_v228 : (⟨S_, .f32⟩ : BufTy).Contents (Elt F) :=
  Host.divf (val_main_v227 (F := F) x0 x3) (val_main_cst_50 (F := F))

theorem val_main_v228_apply (i : S_.Idx) :
    val_main_v228 (F := F) x0 x3 i = FloatOps.hostDivf (val_main_v227 (F := F) x0 x3 i) (val_main_cst_50 (F := F) i) := rfl

def val_main_v229 : (⟨S_, .f32⟩ : BufTy).Contents (Elt F) :=
  addf (val_main_v224 (F := F) x0 x3) (val_main_v228 (F := F) x0 x3)

theorem val_main_v229_apply (i : S_.Idx) :
    val_main_v229 (F := F) x0 x3 i = FloatOps.addf (val_main_v224 (F := F) x0 x3 i) (val_main_v228 (F := F) x0 x3 i) := rfl

def val_main_v230 : (⟨S64x32x63, .f32⟩ : BufTy).Contents (Elt F) :=
  subf (val_main_v183 (F := F) x2 x3) (x4)

theorem val_main_v230_apply (i : S64x32x63.Idx) :
    val_main_v230 (F := F) x2 x3 x4 i = FloatOps.subf (val_main_v183 (F := F) x2 x3 i) (x4 i) := rfl

def val_main_v231 : (⟨S64x32x63, .f32⟩ : BufTy).Contents (Elt F) :=
  Host.absf (val_main_v230 (F := F) x2 x3 x4)

theorem val_main_v231_apply (i : S64x32x63.Idx) :
    val_main_v231 (F := F) x2 x3 x4 i = FloatOps.hostAbsf (val_main_v230 (F := F) x2 x3 x4 i) := rfl

def val_main_v232 : (⟨S_, .f32⟩ : BufTy).Contents (Elt F) :=
  Host.reduceAdd (val_main_v231 (F := F) x2 x3 x4) (val_main_cst_49 (F := F)) reducesTo_S64x32x63_S_d0_1_2 h_S_

theorem val_main_v232_apply (x2 : (⟨S64x96x96x63, .f32⟩ : BufTy).Contents (Elt Ideal)) (x3 : (⟨S64x32x6, .f32⟩ : BufTy).Contents (Elt Ideal)) (x4 : (⟨S64x32x63, .f32⟩ : BufTy).Contents (Elt Ideal)) (i : S_.Idx) :
    val_main_v232 (F := Ideal) x2 x3 x4 i = (val_main_cst_49 (F := Ideal)) (Shape.Idx.first h_S_) + ∑ j : S64x32x63.Idx, (val_main_v231 (F := Ideal) x2 x3 x4) j := by
  unfold val_main_v232
  generalize val_main_v231 (F := Ideal) x2 x3 x4 = y0
  simp only [Host.reduceAdd, Ideal.hostReduceAdd_def]
  exact Ideal.hostReduceAdd_total reducesTo_S64x32x63_S_d0_1_2 (fun b => b.elim0) y0 _ i

def val_main_v233 : (⟨S_, .f32⟩ : BufTy).Contents (Elt F) :=
  Host.divf (val_main_v232 (F := F) x2 x3 x4) (val_main_cst_50 (F := F))

theorem val_main_v233_apply (i : S_.Idx) :
    val_main_v233 (F := F) x2 x3 x4 i = FloatOps.hostDivf (val_main_v232 (F := F) x2 x3 x4 i) (val_main_cst_50 (F := F) i) := rfl

def val_main_v234 : (⟨S64x96x96, .f32⟩ : BufTy).Contents (Elt F) :=
  broadcastInDim S64x96x96 ![] bcast_S_S64x96x96 (val_main_cst_49 (F := F))

abbrev idx_main_v234 (i : S64x96x96.Idx) : S_.Idx := fun a => a.elim0

theorem rd5 (y : (⟨S_, .f32⟩ : BufTy).Contents (Elt F)) (i : S64x96x96.Idx) :
    (broadcastInDim S64x96x96 ![] bcast_S_S64x96x96 y : (⟨S64x96x96, .f32⟩ : BufTy).Contents (Elt F)) i = y (idx_main_v234 i) :=
  broadcastInDim_apply _ bcast_S_S64x96x96 y i (idx_main_v234 i) (fun a => a.elim0)

theorem val_main_v234_apply (i : S64x96x96.Idx) :
    val_main_v234 (F := F) i = val_main_cst_49 (F := F) (idx_main_v234 i) := rd5 _ i

def val_main_cst_70 : (⟨S_, .f32⟩ : BufTy).Contents (Elt F) :=
  constant S_ .f32 0x3F800000#32

theorem val_main_cst_70_apply (i : S_.Idx) :
    val_main_cst_70 (F := F) i = FloatOps.ofBits .f32 0x3F800000#32 := rfl

def val_main_v255 : (⟨S64x32, .f32⟩ : BufTy).Contents (Elt F) :=
  broadcastInDim S64x32 ![] bcast_S_S64x32 (val_main_cst_70 (F := F))

theorem val_main_v255_apply (i : S64x32.Idx) :
    val_main_v255 (F := F) i = val_main_cst_70 (F := F) (idx_main_v15 i) := rd3 _ i

def val_main_v256 : (⟨S64x96x96, .f32⟩ : BufTy).Contents (Elt F) :=
  Host.scatter scatter_S64x96x96_S64x32x3_S64x32_n_012_012_2 (fun _ b => b) (val_main_v234 (F := F)) (val_main_v56 (F := F) x3) (val_main_v255 (F := F))

def val_main_cst_71 : (⟨S_, .f32⟩ : BufTy).Contents (Elt F) :=
  constant S_ .f32 0x40000000#32

theorem val_main_cst_71_apply (i : S_.Idx) :
    val_main_cst_71 (F := F) i = FloatOps.ofBits .f32 0x40000000#32 := rfl

def val_main_v257 : (⟨S64x96x96, .f32⟩ : BufTy).Contents (Elt F) :=
  broadcastInDim S64x96x96 ![] bcast_S_S64x96x96 (val_main_cst_71 (F := F))

theorem val_main_v257_apply (i : S64x96x96.Idx) :
    val_main_v257 (F := F) i = val_main_cst_71 (F := F) (idx_main_v234 i) := rd5 _ i

def val_main_v258 : (⟨S64x96x96, .f32⟩ : BufTy).Contents (Elt F) :=
  mulf (val_main_v257 (F := F)) (val_main_v256 (F := F) x3)

theorem val_main_v258_apply (i : S64x96x96.Idx) :
    val_main_v258 (F := F) x3 i = FloatOps.mulf (val_main_v257 (F := F) i) (val_main_v256 (F := F) x3 i) := rfl

def val_main_v259 : (⟨S64x96x96, .f32⟩ : BufTy).Contents (Elt F) :=
  Host.negf (val_main_v12 (F := F) x1)

theorem val_main_v259_apply (i : S64x96x96.Idx) :
    val_main_v259 (F := F) x1 i = FloatOps.hostNegf (val_main_v12 (F := F) x1 i) := rfl

def val_main_call0_v1 : (⟨S64x96x96, .f32⟩ : BufTy).Contents (Elt F) :=
  maximumf (val_main_v259 (F := F) x1) (val_main_v234 (F := F))

theorem val_main_call0_v1_apply (i : S64x96x96.Idx) :
    val_main_call0_v1 (F := F) x1 i = FloatOps.maximumf (val_main_v259 (F := F) x1 i) (val_main_v234 (F := F) i) := rfl

def val_main_call0_v3 : (⟨S64x96x96, .f32⟩ : BufTy).Contents (Elt F) :=
  subf (val_main_v259 (F := F) x1) (val_main_v234 (F := F))

theorem val_main_call0_v3_apply (i : S64x96x96.Idx) :
    val_main_call0_v3 (F := F) x1 i = FloatOps.subf (val_main_v259 (F := F) x1 i) (val_main_v234 (F := F) i) := rfl

def val_main_call0_v4 : (⟨S64x96x96, .i1⟩ : BufTy).Contents (Elt F) :=
  cmpf .une (val_main_call0_v3 (F := F) x1) (val_main_call0_v3 (F := F) x1)

theorem val_main_call0_v4_apply (i : S64x96x96.Idx) :
    val_main_call0_v4 (F := F) x1 i = FloatOps.cmpf .une (val_main_call0_v3 (F := F) x1 i) (val_main_call0_v3 (F := F) x1 i) := rfl

def val_main_call0_v6 : (⟨S64x96x96, .f32⟩ : BufTy).Contents (Elt F) :=
  addf (val_main_v259 (F := F) x1) (val_main_v234 (F := F))

theorem val_main_call0_v6_apply (i : S64x96x96.Idx) :
    val_main_call0_v6 (F := F) x1 i = FloatOps.addf (val_main_v259 (F := F) x1 i) (val_main_v234 (F := F) i) := rfl

def val_main_call0_v7 : (⟨S64x96x96, .f32⟩ : BufTy).Contents (Elt F) :=
  Host.absf (val_main_call0_v3 (F := F) x1)

theorem val_main_call0_v7_apply (i : S64x96x96.Idx) :
    val_main_call0_v7 (F := F) x1 i = FloatOps.hostAbsf (val_main_call0_v3 (F := F) x1 i) := rfl

def val_main_call0_v8 : (⟨S64x96x96, .f32⟩ : BufTy).Contents (Elt F) :=
  Host.negf (val_main_call0_v7 (F := F) x1)

theorem val_main_call0_v8_apply (i : S64x96x96.Idx) :
    val_main_call0_v8 (F := F) x1 i = FloatOps.hostNegf (val_main_call0_v7 (F := F) x1 i) := rfl

def val_main_call0_v9 : (⟨S64x96x96, .f32⟩ : BufTy).Contents (Elt F) :=
  Host.exp (val_main_call0_v8 (F := F) x1)

theorem val_main_call0_v9_apply (i : S64x96x96.Idx) :
    val_main_call0_v9 (F := F) x1 i = FloatOps.hostUnary .exp (val_main_call0_v8 (F := F) x1 i) := rfl

def val_main_call0_v10 : (⟨S64x96x96, .f32⟩ : BufTy).Contents (Elt F) :=
  Host.log1p (val_main_call0_v9 (F := F) x1)

theorem val_main_call0_v10_apply (i : S64x96x96.Idx) :
    val_main_call0_v10 (F := F) x1 i = FloatOps.hostUnary .log1p (val_main_call0_v9 (F := F) x1 i) := rfl

def val_main_call0_v11 : (⟨S64x96x96, .f32⟩ : BufTy).Contents (Elt F) :=
  addf (val_main_call0_v1 (F := F) x1) (val_main_call0_v10 (F := F) x1)

theorem val_main_call0_v11_apply (i : S64x96x96.Idx) :
    val_main_call0_v11 (F := F) x1 i = FloatOps.addf (val_main_call0_v1 (F := F) x1 i) (val_main_call0_v10 (F := F) x1 i) := rfl

def val_main_v260 : (⟨S64x96x96, .f32⟩ : BufTy).Contents (Elt F) :=
  select (val_main_call0_v4 (F := F) x1) (val_main_call0_v6 (F := F) x1) (val_main_call0_v11 (F := F) x1)

theorem val_main_v260_apply (i : S64x96x96.Idx) :
    val_main_v260 (F := F) x1 i = Scalar.select (val_main_call0_v4 (F := F) x1 i) (val_main_call0_v6 (F := F) x1 i) (val_main_call0_v11 (F := F) x1 i) := rfl

def val_main_v261 : (⟨S64x96x96, .f32⟩ : BufTy).Contents (Elt F) :=
  mulf (val_main_v258 (F := F) x3) (val_main_v260 (F := F) x1)

theorem val_main_v261_apply (i : S64x96x96.Idx) :
    val_main_v261 (F := F) x1 x3 i = FloatOps.mulf (val_main_v258 (F := F) x3 i) (val_main_v260 (F := F) x1 i) := rfl

def val_main_v262 : (⟨S64x96x96, .f32⟩ : BufTy).Contents (Elt F) :=
  broadcastInDim S64x96x96 ![] bcast_S_S64x96x96 (val_main_cst_70 (F := F))

theorem val_main_v262_apply (i : S64x96x96.Idx) :
    val_main_v262 (F := F) i = val_main_cst_70 (F := F) (idx_main_v234 i) := rd5 _ i

def val_main_v263 : (⟨S64x96x96, .f32⟩ : BufTy).Contents (Elt F) :=
  subf (val_main_v262 (F := F)) (val_main_v256 (F := F) x3)

theorem val_main_v263_apply (i : S64x96x96.Idx) :
    val_main_v263 (F := F) x3 i = FloatOps.subf (val_main_v262 (F := F) i) (val_main_v256 (F := F) x3 i) := rfl

def val_main_call1_v1 : (⟨S64x96x96, .f32⟩ : BufTy).Contents (Elt F) :=
  maximumf (val_main_v12 (F := F) x1) (val_main_v234 (F := F))

theorem val_main_call1_v1_apply (i : S64x96x96.Idx) :
    val_main_call1_v1 (F := F) x1 i = FloatOps.maximumf (val_main_v12 (F := F) x1 i) (val_main_v234 (F := F) i) := rfl

def val_main_call1_v3 : (⟨S64x96x96, .f32⟩ : BufTy).Contents (Elt F) :=
  subf (val_main_v12 (F := F) x1) (val_main_v234 (F := F))

theorem val_main_call1_v3_apply (i : S64x96x96.Idx) :
    val_main_call1_v3 (F := F) x1 i = FloatOps.subf (val_main_v12 (F := F) x1 i) (val_main_v234 (F := F) i) := rfl

def val_main_call1_v4 : (⟨S64x96x96, .i1⟩ : BufTy).Contents (Elt F) :=
  cmpf .une (val_main_call1_v3 (F := F) x1) (val_main_call1_v3 (F := F) x1)

theorem val_main_call1_v4_apply (i : S64x96x96.Idx) :
    val_main_call1_v4 (F := F) x1 i = FloatOps.cmpf .une (val_main_call1_v3 (F := F) x1 i) (val_main_call1_v3 (F := F) x1 i) := rfl

def val_main_call1_v6 : (⟨S64x96x96, .f32⟩ : BufTy).Contents (Elt F) :=
  addf (val_main_v12 (F := F) x1) (val_main_v234 (F := F))

theorem val_main_call1_v6_apply (i : S64x96x96.Idx) :
    val_main_call1_v6 (F := F) x1 i = FloatOps.addf (val_main_v12 (F := F) x1 i) (val_main_v234 (F := F) i) := rfl

def val_main_call1_v7 : (⟨S64x96x96, .f32⟩ : BufTy).Contents (Elt F) :=
  Host.absf (val_main_call1_v3 (F := F) x1)

theorem val_main_call1_v7_apply (i : S64x96x96.Idx) :
    val_main_call1_v7 (F := F) x1 i = FloatOps.hostAbsf (val_main_call1_v3 (F := F) x1 i) := rfl

def val_main_call1_v8 : (⟨S64x96x96, .f32⟩ : BufTy).Contents (Elt F) :=
  Host.negf (val_main_call1_v7 (F := F) x1)

theorem val_main_call1_v8_apply (i : S64x96x96.Idx) :
    val_main_call1_v8 (F := F) x1 i = FloatOps.hostNegf (val_main_call1_v7 (F := F) x1 i) := rfl

def val_main_call1_v9 : (⟨S64x96x96, .f32⟩ : BufTy).Contents (Elt F) :=
  Host.exp (val_main_call1_v8 (F := F) x1)

theorem val_main_call1_v9_apply (i : S64x96x96.Idx) :
    val_main_call1_v9 (F := F) x1 i = FloatOps.hostUnary .exp (val_main_call1_v8 (F := F) x1 i) := rfl

def val_main_call1_v10 : (⟨S64x96x96, .f32⟩ : BufTy).Contents (Elt F) :=
  Host.log1p (val_main_call1_v9 (F := F) x1)

theorem val_main_call1_v10_apply (i : S64x96x96.Idx) :
    val_main_call1_v10 (F := F) x1 i = FloatOps.hostUnary .log1p (val_main_call1_v9 (F := F) x1 i) := rfl

def val_main_call1_v11 : (⟨S64x96x96, .f32⟩ : BufTy).Contents (Elt F) :=
  addf (val_main_call1_v1 (F := F) x1) (val_main_call1_v10 (F := F) x1)

theorem val_main_call1_v11_apply (i : S64x96x96.Idx) :
    val_main_call1_v11 (F := F) x1 i = FloatOps.addf (val_main_call1_v1 (F := F) x1 i) (val_main_call1_v10 (F := F) x1 i) := rfl

def val_main_v264 : (⟨S64x96x96, .f32⟩ : BufTy).Contents (Elt F) :=
  select (val_main_call1_v4 (F := F) x1) (val_main_call1_v6 (F := F) x1) (val_main_call1_v11 (F := F) x1)

theorem val_main_v264_apply (i : S64x96x96.Idx) :
    val_main_v264 (F := F) x1 i = Scalar.select (val_main_call1_v4 (F := F) x1 i) (val_main_call1_v6 (F := F) x1 i) (val_main_call1_v11 (F := F) x1 i) := rfl

def val_main_v265 : (⟨S64x96x96, .f32⟩ : BufTy).Contents (Elt F) :=
  mulf (val_main_v263 (F := F) x3) (val_main_v264 (F := F) x1)

theorem val_main_v265_apply (i : S64x96x96.Idx) :
    val_main_v265 (F := F) x1 x3 i = FloatOps.mulf (val_main_v263 (F := F) x3 i) (val_main_v264 (F := F) x1 i) := rfl

def val_main_v266 : (⟨S64x96x96, .f32⟩ : BufTy).Contents (Elt F) :=
  addf (val_main_v261 (F := F) x1 x3) (val_main_v265 (F := F) x1 x3)

theorem val_main_v266_apply (i : S64x96x96.Idx) :
    val_main_v266 (F := F) x1 x3 i = FloatOps.addf (val_main_v261 (F := F) x1 x3 i) (val_main_v265 (F := F) x1 x3 i) := rfl

def val_main_v267 : (⟨S_, .f32⟩ : BufTy).Contents (Elt F) :=
  Host.reduceAdd (val_main_v266 (F := F) x1 x3) (val_main_cst_49 (F := F)) reducesTo_S64x96x96_S_d0_1_2 h_S_

theorem val_main_v267_apply (x1 : (⟨S64x96x96x1, .f32⟩ : BufTy).Contents (Elt Ideal)) (x3 : (⟨S64x32x6, .f32⟩ : BufTy).Contents (Elt Ideal)) (i : S_.Idx) :
    val_main_v267 (F := Ideal) x1 x3 i = (val_main_cst_49 (F := Ideal)) (Shape.Idx.first h_S_) + ∑ j : S64x96x96.Idx, (val_main_v266 (F := Ideal) x1 x3) j := by
  unfold val_main_v267
  generalize val_main_v266 (F := Ideal) x1 x3 = y0
  simp only [Host.reduceAdd, Ideal.hostReduceAdd_def]
  exact Ideal.hostReduceAdd_total reducesTo_S64x96x96_S_d0_1_2 (fun b => b.elim0) y0 _ i

def val_main_cst_74 : (⟨S_, .f32⟩ : BufTy).Contents (Elt F) :=
  constant S_ .f32 0x49100000#32

theorem val_main_cst_74_apply (i : S_.Idx) :
    val_main_cst_74 (F := F) i = FloatOps.ofBits .f32 0x49100000#32 := rfl

def val_main_v268 : (⟨S_, .f32⟩ : BufTy).Contents (Elt F) :=
  Host.divf (val_main_v267 (F := F) x1 x3) (val_main_cst_74 (F := F))

theorem val_main_v268_apply (i : S_.Idx) :
    val_main_v268 (F := F) x1 x3 i = FloatOps.hostDivf (val_main_v267 (F := F) x1 x3 i) (val_main_cst_74 (F := F) i) := rfl

def val_main_v269 : (⟨S64x32, .f32⟩ : BufTy).Contents (Elt F) :=
  sitofp .f32 (val_main_v33 (F := F) x3)

theorem val_main_v269_apply (i : S64x32.Idx) :
    val_main_v269 (F := F) x3 i = FloatOps.sitofp .f32 (val_main_v33 (F := F) x3 i) := rfl

def val_main_v270 : (⟨S64x32, .f32⟩ : BufTy).Contents (Elt F) :=
  addf (val_main_v57 (F := F) x0 x3) (val_main_v269 (F := F) x3)

theorem val_main_v270_apply (i : S64x32.Idx) :
    val_main_v270 (F := F) x0 x3 i = FloatOps.addf (val_main_v57 (F := F) x0 x3 i) (val_main_v269 (F := F) x3 i) := rfl

def val_main_v271 : (⟨S64x32, .f32⟩ : BufTy).Contents (Elt F) :=
  sitofp .f32 (val_main_v34 (F := F) x3)

theorem val_main_v271_apply (i : S64x32.Idx) :
    val_main_v271 (F := F) x3 i = FloatOps.sitofp .f32 (val_main_v34 (F := F) x3 i) := rfl

def val_main_v272 : (⟨S64x32, .f32⟩ : BufTy).Contents (Elt F) :=
  addf (val_main_v78 (F := F) x0 x3) (val_main_v271 (F := F) x3)

theorem val_main_v272_apply (i : S64x32.Idx) :
    val_main_v272 (F := F) x0 x3 i = FloatOps.addf (val_main_v78 (F := F) x0 x3 i) (val_main_v271 (F := F) x3 i) := rfl

def val_main_v273 : (⟨S64x32, .f32⟩ : BufTy).Contents (Elt F) :=
  Host.exp (val_main_v120 (F := F) x0 x3)

theorem val_main_v273_apply (i : S64x32.Idx) :
    val_main_v273 (F := F) x0 x3 i = FloatOps.hostUnary .exp (val_main_v120 (F := F) x0 x3 i) := rfl

def val_main_v275 : (⟨S64x32, .f32⟩ : BufTy).Contents (Elt F) :=
  mulf (val_main_v273 (F := F) x0 x3) (val_main_v188 (F := F))

theorem val_main_v275_apply (i : S64x32.Idx) :
    val_main_v275 (F := F) x0 x3 i = FloatOps.mulf (val_main_v273 (F := F) x0 x3 i) (val_main_v188 (F := F) i) := rfl

def val_main_v276 : (⟨S64x32, .f32⟩ : BufTy).Contents (Elt F) :=
  Host.exp (val_main_v141 (F := F) x0 x3)

theorem val_main_v276_apply (i : S64x32.Idx) :
    val_main_v276 (F := F) x0 x3 i = FloatOps.hostUnary .exp (val_main_v141 (F := F) x0 x3 i) := rfl

def val_main_v278 : (⟨S64x32, .f32⟩ : BufTy).Contents (Elt F) :=
  mulf (val_main_v276 (F := F) x0 x3) (val_main_v188 (F := F))

theorem val_main_v278_apply (i : S64x32.Idx) :
    val_main_v278 (F := F) x0 x3 i = FloatOps.mulf (val_main_v276 (F := F) x0 x3 i) (val_main_v188 (F := F) i) := rfl

def val_main_v279 : (⟨S64x32x1, .f32⟩ : BufTy).Contents (Elt F) :=
  broadcastInDim S64x32x1 ![0, 1] bcast_S64x32_S64x32x1_0_1 (val_main_v270 (F := F) x0 x3)

theorem rd6 (y : (⟨S64x32, .f32⟩ : BufTy).Contents (Elt F)) (i : S64x32x1.Idx) :
    (broadcastInDim S64x32x1 ![0, 1] bcast_S64x32_S64x32x1_0_1 y : (⟨S64x32x1, .f32⟩ : BufTy).Contents (Elt F)) i = y (idx_main_v53 i) :=
  broadcastInDim_apply _ bcast_S64x32_S64x32x1_0_1 y i (idx_main_v53 i) (fun a => match a with
    | ⟨0, _⟩ => by show (i 0).val = if (64 : Nat) = 1 then 0 else (i 0).val; rw [if_neg (by decide)]
    | ⟨1, _⟩ => by show (i 1).val = if (32 : Nat) = 1 then 0 else (i 1).val; rw [if_neg (by decide)])

theorem val_main_v279_apply (i : S64x32x1.Idx) :
    val_main_v279 (F := F) x0 x3 i = val_main_v270 (F := F) x0 x3 (idx_main_v53 i) := rd6 _ i

def val_main_v280 : (⟨S64x32x1, .f32⟩ : BufTy).Contents (Elt F) :=
  broadcastInDim S64x32x1 ![0, 1] bcast_S64x32_S64x32x1_0_1 (val_main_v272 (F := F) x0 x3)

theorem val_main_v280_apply (i : S64x32x1.Idx) :
    val_main_v280 (F := F) x0 x3 i = val_main_v272 (F := F) x0 x3 (idx_main_v53 i) := rd6 _ i

def val_main_v281 : (⟨S64x32x1, .f32⟩ : BufTy).Contents (Elt F) :=
  broadcastInDim S64x32x1 ![0, 1] bcast_S64x32_S64x32x1_0_1 (val_main_v275 (F := F) x0 x3)

theorem val_main_v281_apply (i : S64x32x1.Idx) :
    val_main_v281 (F := F) x0 x3 i = val_main_v275 (F := F) x0 x3 (idx_main_v53 i) := rd6 _ i

def val_main_v282 : (⟨S64x32x1, .f32⟩ : BufTy).Contents (Elt F) :=
  broadcastInDim S64x32x1 ![0, 1] bcast_S64x32_S64x32x1_0_1 (val_main_v278 (F := F) x0 x3)

theorem val_main_v282_apply (i : S64x32x1.Idx) :
    val_main_v282 (F := F) x0 x3 i = val_main_v278 (F := F) x0 x3 (idx_main_v53 i) := rd6 _ i

def val_main_v283 : (⟨S64x32x4, .f32⟩ : BufTy).Contents (Elt F) :=
  concatenate S64x32x4 2 [⟨S64x32x1, (val_main_v279 (F := F) x0 x3)⟩, ⟨S64x32x1, (val_main_v280 (F := F) x0 x3)⟩, ⟨S64x32x1, (val_main_v281 (F := F) x0 x3)⟩, ⟨S64x32x1, (val_main_v282 (F := F) x0 x3)⟩] concatenates_S64x32x1_S64x32x1_S64x32x1_S64x32x1_S64x32x4_d2

def val_main_v284 : (⟨S2048x4, .f32⟩ : BufTy).Contents (Elt F) :=
  shapeCast _ (val_main_v283 (F := F) x0 x3) shapeCasts_S64x32x4_S2048x4

abbrev idx_main_v284 (i : S2048x4.Idx) : S64x32x4.Idx := fun a => match a with
  | ⟨0, _⟩ => ⟨((i 0).val * 4 + (i 1).val) / 128, by have h0 : (i 0).val < 2048 := (i 0).isLt; have h1 : (i 1).val < 4 := (i 1).isLt; show ((i 0).val * 4 + (i 1).val) / 128 < 64; omega⟩
  | ⟨1, _⟩ => ⟨((i 0).val * 4 + (i 1).val) / 4 % 32, by have h0 : (i 0).val < 2048 := (i 0).isLt; have h1 : (i 1).val < 4 := (i 1).isLt; show ((i 0).val * 4 + (i 1).val) / 4 % 32 < 32; omega⟩
  | ⟨2, _⟩ => ⟨((i 0).val * 4 + (i 1).val) % 4, by have h0 : (i 0).val < 2048 := (i 0).isLt; have h1 : (i 1).val < 4 := (i 1).isLt; show ((i 0).val * 4 + (i 1).val) % 4 < 4; omega⟩

theorem val_main_v284_apply (i : S2048x4.Idx) :
    val_main_v284 (F := F) x0 x3 i = val_main_v283 (F := F) x0 x3 (idx_main_v284 i) := by
  unfold val_main_v284
  generalize val_main_v283 (F := F) x0 x3 = y
  exact shapeCast_apply y shapeCasts_S64x32x4_S2048x4 i (idx_main_v284 i)
    (by rewrite [Shape.rowMajor_val_three, Shape.rowMajor_val_two]; have h0 : (i 0).val < 2048 := (i 0).isLt; have h1 : (i 1).val < 4 := (i 1).isLt; show (((i 0).val * 4 + (i 1).val) / 128 * 32 + ((i 0).val * 4 + (i 1).val) / 4 % 32) * 4 + ((i 0).val * 4 + (i 1).val) % 4 = (i 0).val * 4 + (i 1).val; omega)

def val_main_v285 : (⟨S64x32x1, .f32⟩ : BufTy).Contents (Elt F) :=
  broadcastInDim S64x32x1 ![0, 1] bcast_S64x32_S64x32x1_0_1 (val_main_v16 (F := F) x3)

theorem val_main_v285_apply (i : S64x32x1.Idx) :
    val_main_v285 (F := F) x3 i = val_main_v16 (F := F) x3 (idx_main_v53 i) := rd6 _ i

def val_main_v286 : (⟨S64x32x1, .f32⟩ : BufTy).Contents (Elt F) :=
  broadcastInDim S64x32x1 ![0, 1] bcast_S64x32_S64x32x1_0_1 (val_main_v20 (F := F) x3)

theorem val_main_v286_apply (i : S64x32x1.Idx) :
    val_main_v286 (F := F) x3 i = val_main_v20 (F := F) x3 (idx_main_v53 i) := rd6 _ i

def val_main_v287 : (⟨S64x32x1, .f32⟩ : BufTy).Contents (Elt F) :=
  broadcastInDim S64x32x1 ![0, 1] bcast_S64x32_S64x32x1_0_1 (val_main_v26 (F := F) x3)

theorem val_main_v287_apply (i : S64x32x1.Idx) :
    val_main_v287 (F := F) x3 i = val_main_v26 (F := F) x3 (idx_main_v53 i) := rd6 _ i

def val_main_v288 : (⟨S64x32x1, .f32⟩ : BufTy).Contents (Elt F) :=
  broadcastInDim S64x32x1 ![0, 1] bcast_S64x32_S64x32x1_0_1 (val_main_v30 (F := F) x3)

theorem val_main_v288_apply (i : S64x32x1.Idx) :
    val_main_v288 (F := F) x3 i = val_main_v30 (F := F) x3 (idx_main_v53 i) := rd6 _ i

def val_main_v289 : (⟨S64x32x4, .f32⟩ : BufTy).Contents (Elt F) :=
  concatenate S64x32x4 2 [⟨S64x32x1, (val_main_v285 (F := F) x3)⟩, ⟨S64x32x1, (val_main_v286 (F := F) x3)⟩, ⟨S64x32x1, (val_main_v287 (F := F) x3)⟩, ⟨S64x32x1, (val_main_v288 (F := F) x3)⟩] concatenates_S64x32x1_S64x32x1_S64x32x1_S64x32x1_S64x32x4_d2

def val_main_v290 : (⟨S2048x4, .f32⟩ : BufTy).Contents (Elt F) :=
  shapeCast _ (val_main_v289 (F := F) x3) shapeCasts_S64x32x4_S2048x4

theorem val_main_v290_apply (i : S2048x4.Idx) :
    val_main_v290 (F := F) x3 i = val_main_v289 (F := F) x3 (idx_main_v284 i) := by
  unfold val_main_v290
  generalize val_main_v289 (F := F) x3 = y
  exact shapeCast_apply y shapeCasts_S64x32x4_S2048x4 i (idx_main_v284 i)
    (by rewrite [Shape.rowMajor_val_three, Shape.rowMajor_val_two]; have h0 : (i 0).val < 2048 := (i 0).isLt; have h1 : (i 1).val < 4 := (i 1).isLt; show (((i 0).val * 4 + (i 1).val) / 128 * 32 + ((i 0).val * 4 + (i 1).val) / 4 % 32) * 4 + ((i 0).val * 4 + (i 1).val) % 4 = (i 0).val * 4 + (i 1).val; omega)

def val_main_v291 : (⟨S2048x1, .f32⟩ : BufTy).Contents (Elt F) :=
  extractStridedSlice S2048x1 ![0, 0] (val_main_v284 (F := F) x0 x3) slices_S2048x4_S2048x1_0_0

abbrev idx_main_v291 (i : S2048x1.Idx) : S2048x4.Idx := fun a => match a with
  | ⟨0, _⟩ => ⟨(i 0).val, (i 0).isLt⟩
  | ⟨1, _⟩ => ⟨(i 1).val, by have h1 : (i 1).val < 1 := (i 1).isLt; show (i 1).val < 4; omega⟩

theorem rd8 (y : (⟨S2048x4, .f32⟩ : BufTy).Contents (Elt F)) (i : S2048x1.Idx) :
    (extractStridedSlice S2048x1 ![0, 0] y slices_S2048x4_S2048x1_0_0 : (⟨S2048x1, .f32⟩ : BufTy).Contents (Elt F)) i = y (idx_main_v291 i) :=
  extractStridedSlice_apply ![0, 0] y slices_S2048x4_S2048x1_0_0 i (idx_main_v291 i) (fun a => match a with
    | ⟨0, _⟩ => by show (i 0).val = 0 + (i 0).val; omega
    | ⟨1, _⟩ => by show (i 1).val = 0 + (i 1).val; omega)

theorem val_main_v291_apply (i : S2048x1.Idx) :
    val_main_v291 (F := F) x0 x3 i = val_main_v284 (F := F) x0 x3 (idx_main_v291 i) := rd8 _ i

def val_main_v292 : (⟨S2048, .f32⟩ : BufTy).Contents (Elt F) :=
  shapeCast _ (val_main_v291 (F := F) x0 x3) shapeCasts_S2048x1_S2048

abbrev idx_main_v292 (i : S2048.Idx) : S2048x1.Idx := fun a => match a with
  | ⟨0, _⟩ => ⟨((i 0).val) / 1, by have h0 : (i 0).val < 2048 := (i 0).isLt; show ((i 0).val) / 1 < 2048; omega⟩
  | ⟨1, _⟩ => ⟨0, Nat.one_pos⟩

theorem rd9 (y : (⟨S2048x1, .f32⟩ : BufTy).Contents (Elt F)) (i : S2048.Idx) :
    (shapeCast _ y shapeCasts_S2048x1_S2048 : (⟨S2048, .f32⟩ : BufTy).Contents (Elt F)) i = y (idx_main_v292 i) :=
  shapeCast_apply y shapeCasts_S2048x1_S2048 i (idx_main_v292 i)
    (by rewrite [Shape.rowMajor_val_two, Shape.rowMajor_val_one]; have h0 : (i 0).val < 2048 := (i 0).isLt; show ((i 0).val) / 1 * 1 + 0 = (i 0).val; omega)

theorem val_main_v292_apply (i : S2048.Idx) :
    val_main_v292 (F := F) x0 x3 i = val_main_v291 (F := F) x0 x3 (idx_main_v292 i) := rd9 _ i

def val_main_v293 : (⟨S2048x1, .f32⟩ : BufTy).Contents (Elt F) :=
  extractStridedSlice S2048x1 ![0, 1] (val_main_v284 (F := F) x0 x3) slices_S2048x4_S2048x1_0_1

abbrev idx_main_v293 (i : S2048x1.Idx) : S2048x4.Idx := fun a => match a with
  | ⟨0, _⟩ => ⟨(i 0).val, (i 0).isLt⟩
  | ⟨1, _⟩ => ⟨1 + (i 1).val, by have h1 : (i 1).val < 1 := (i 1).isLt; show 1 + (i 1).val < 4; omega⟩

theorem rd10 (y : (⟨S2048x4, .f32⟩ : BufTy).Contents (Elt F)) (i : S2048x1.Idx) :
    (extractStridedSlice S2048x1 ![0, 1] y slices_S2048x4_S2048x1_0_1 : (⟨S2048x1, .f32⟩ : BufTy).Contents (Elt F)) i = y (idx_main_v293 i) :=
  extractStridedSlice_apply ![0, 1] y slices_S2048x4_S2048x1_0_1 i (idx_main_v293 i) (fun a => match a with
    | ⟨0, _⟩ => by show (i 0).val = 0 + (i 0).val; omega
    | ⟨1, _⟩ => by show 1 + (i 1).val = 1 + (i 1).val; omega)

theorem val_main_v293_apply (i : S2048x1.Idx) :
    val_main_v293 (F := F) x0 x3 i = val_main_v284 (F := F) x0 x3 (idx_main_v293 i) := rd10 _ i

def val_main_v294 : (⟨S2048, .f32⟩ : BufTy).Contents (Elt F) :=
  shapeCast _ (val_main_v293 (F := F) x0 x3) shapeCasts_S2048x1_S2048

theorem val_main_v294_apply (i : S2048.Idx) :
    val_main_v294 (F := F) x0 x3 i = val_main_v293 (F := F) x0 x3 (idx_main_v292 i) := rd9 _ i

def val_main_v295 : (⟨S2048x1, .f32⟩ : BufTy).Contents (Elt F) :=
  extractStridedSlice S2048x1 ![0, 2] (val_main_v284 (F := F) x0 x3) slices_S2048x4_S2048x1_0_2

abbrev idx_main_v295 (i : S2048x1.Idx) : S2048x4.Idx := fun a => match a with
  | ⟨0, _⟩ => ⟨(i 0).val, (i 0).isLt⟩
  | ⟨1, _⟩ => ⟨2 + (i 1).val, by have h1 : (i 1).val < 1 := (i 1).isLt; show 2 + (i 1).val < 4; omega⟩

theorem rd11 (y : (⟨S2048x4, .f32⟩ : BufTy).Contents (Elt F)) (i : S2048x1.Idx) :
    (extractStridedSlice S2048x1 ![0, 2] y slices_S2048x4_S2048x1_0_2 : (⟨S2048x1, .f32⟩ : BufTy).Contents (Elt F)) i = y (idx_main_v295 i) :=
  extractStridedSlice_apply ![0, 2] y slices_S2048x4_S2048x1_0_2 i (idx_main_v295 i) (fun a => match a with
    | ⟨0, _⟩ => by show (i 0).val = 0 + (i 0).val; omega
    | ⟨1, _⟩ => by show 2 + (i 1).val = 2 + (i 1).val; omega)

theorem val_main_v295_apply (i : S2048x1.Idx) :
    val_main_v295 (F := F) x0 x3 i = val_main_v284 (F := F) x0 x3 (idx_main_v295 i) := rd11 _ i

def val_main_v296 : (⟨S2048, .f32⟩ : BufTy).Contents (Elt F) :=
  shapeCast _ (val_main_v295 (F := F) x0 x3) shapeCasts_S2048x1_S2048

theorem val_main_v296_apply (i : S2048.Idx) :
    val_main_v296 (F := F) x0 x3 i = val_main_v295 (F := F) x0 x3 (idx_main_v292 i) := rd9 _ i

def val_main_v297 : (⟨S2048x1, .f32⟩ : BufTy).Contents (Elt F) :=
  extractStridedSlice S2048x1 ![0, 3] (val_main_v284 (F := F) x0 x3) slices_S2048x4_S2048x1_0_3

abbrev idx_main_v297 (i : S2048x1.Idx) : S2048x4.Idx := fun a => match a with
  | ⟨0, _⟩ => ⟨(i 0).val, (i 0).isLt⟩
  | ⟨1, _⟩ => ⟨3 + (i 1).val, by have h1 : (i 1).val < 1 := (i 1).isLt; show 3 + (i 1).val < 4; omega⟩

theorem rd12 (y : (⟨S2048x4, .f32⟩ : BufTy).Contents (Elt F)) (i : S2048x1.Idx) :
    (extractStridedSlice S2048x1 ![0, 3] y slices_S2048x4_S2048x1_0_3 : (⟨S2048x1, .f32⟩ : BufTy).Contents (Elt F)) i = y (idx_main_v297 i) :=
  extractStridedSlice_apply ![0, 3] y slices_S2048x4_S2048x1_0_3 i (idx_main_v297 i) (fun a => match a with
    | ⟨0, _⟩ => by show (i 0).val = 0 + (i 0).val; omega
    | ⟨1, _⟩ => by show 3 + (i 1).val = 3 + (i 1).val; omega)

theorem val_main_v297_apply (i : S2048x1.Idx) :
    val_main_v297 (F := F) x0 x3 i = val_main_v284 (F := F) x0 x3 (idx_main_v297 i) := rd12 _ i

def val_main_v298 : (⟨S2048, .f32⟩ : BufTy).Contents (Elt F) :=
  shapeCast _ (val_main_v297 (F := F) x0 x3) shapeCasts_S2048x1_S2048

theorem val_main_v298_apply (i : S2048.Idx) :
    val_main_v298 (F := F) x0 x3 i = val_main_v297 (F := F) x0 x3 (idx_main_v292 i) := rd9 _ i

def val_main_cst_77 : (⟨S_, .f32⟩ : BufTy).Contents (Elt F) :=
  constant S_ .f32 0x3F000000#32

theorem val_main_cst_77_apply (i : S_.Idx) :
    val_main_cst_77 (F := F) i = FloatOps.ofBits .f32 0x3F000000#32 := rfl

def val_main_v299 : (⟨S2048, .f32⟩ : BufTy).Contents (Elt F) :=
  broadcastInDim S2048 ![] bcast_S_S2048 (val_main_cst_77 (F := F))

abbrev idx_main_v299 (i : S2048.Idx) : S_.Idx := fun a => a.elim0

theorem val_main_v299_apply (i : S2048.Idx) :
    val_main_v299 (F := F) i = val_main_cst_77 (F := F) (idx_main_v299 i) := by
  unfold val_main_v299
  generalize val_main_cst_77 (F := F) = y
  exact broadcastInDim_apply _ bcast_S_S2048 y i (idx_main_v299 i) (fun a => a.elim0)

def val_main_v300 : (⟨S2048, .f32⟩ : BufTy).Contents (Elt F) :=
  mulf (val_main_v299 (F := F)) (val_main_v296 (F := F) x0 x3)

theorem val_main_v300_apply (i : S2048.Idx) :
    val_main_v300 (F := F) x0 x3 i = FloatOps.mulf (val_main_v299 (F := F) i) (val_main_v296 (F := F) x0 x3 i) := rfl

def val_main_v301 : (⟨S2048, .f32⟩ : BufTy).Contents (Elt F) :=
  subf (val_main_v292 (F := F) x0 x3) (val_main_v300 (F := F) x0 x3)

theorem val_main_v301_apply (i : S2048.Idx) :
    val_main_v301 (F := F) x0 x3 i = FloatOps.subf (val_main_v292 (F := F) x0 x3 i) (val_main_v300 (F := F) x0 x3 i) := rfl

def val_main_v303 : (⟨S2048, .f32⟩ : BufTy).Contents (Elt F) :=
  mulf (val_main_v299 (F := F)) (val_main_v298 (F := F) x0 x3)

theorem val_main_v303_apply (i : S2048.Idx) :
    val_main_v303 (F := F) x0 x3 i = FloatOps.mulf (val_main_v299 (F := F) i) (val_main_v298 (F := F) x0 x3 i) := rfl

def val_main_v304 : (⟨S2048, .f32⟩ : BufTy).Contents (Elt F) :=
  subf (val_main_v294 (F := F) x0 x3) (val_main_v303 (F := F) x0 x3)

theorem val_main_v304_apply (i : S2048.Idx) :
    val_main_v304 (F := F) x0 x3 i = FloatOps.subf (val_main_v294 (F := F) x0 x3 i) (val_main_v303 (F := F) x0 x3 i) := rfl

def val_main_v307 : (⟨S2048, .f32⟩ : BufTy).Contents (Elt F) :=
  addf (val_main_v292 (F := F) x0 x3) (val_main_v300 (F := F) x0 x3)

theorem val_main_v307_apply (i : S2048.Idx) :
    val_main_v307 (F := F) x0 x3 i = FloatOps.addf (val_main_v292 (F := F) x0 x3 i) (val_main_v300 (F := F) x0 x3 i) := rfl

def val_main_v310 : (⟨S2048, .f32⟩ : BufTy).Contents (Elt F) :=
  addf (val_main_v294 (F := F) x0 x3) (val_main_v303 (F := F) x0 x3)

theorem val_main_v310_apply (i : S2048.Idx) :
    val_main_v310 (F := F) x0 x3 i = FloatOps.addf (val_main_v294 (F := F) x0 x3 i) (val_main_v303 (F := F) x0 x3 i) := rfl

def val_main_v311 : (⟨S2048x1, .f32⟩ : BufTy).Contents (Elt F) :=
  broadcastInDim S2048x1 ![0] bcast_S2048_S2048x1_0 (val_main_v301 (F := F) x0 x3)

abbrev idx_main_v311 (i : S2048x1.Idx) : S2048.Idx := fun a => match a with
  | ⟨0, _⟩ => ⟨(i 0).val, (i 0).isLt⟩

theorem rd13 (y : (⟨S2048, .f32⟩ : BufTy).Contents (Elt F)) (i : S2048x1.Idx) :
    (broadcastInDim S2048x1 ![0] bcast_S2048_S2048x1_0 y : (⟨S2048x1, .f32⟩ : BufTy).Contents (Elt F)) i = y (idx_main_v311 i) :=
  broadcastInDim_apply _ bcast_S2048_S2048x1_0 y i (idx_main_v311 i) (fun a => match a with
    | ⟨0, _⟩ => by show (i 0).val = if (2048 : Nat) = 1 then 0 else (i 0).val; rw [if_neg (by decide)])

theorem val_main_v311_apply (i : S2048x1.Idx) :
    val_main_v311 (F := F) x0 x3 i = val_main_v301 (F := F) x0 x3 (idx_main_v311 i) := rd13 _ i

def val_main_v312 : (⟨S2048x1, .f32⟩ : BufTy).Contents (Elt F) :=
  broadcastInDim S2048x1 ![0] bcast_S2048_S2048x1_0 (val_main_v304 (F := F) x0 x3)

theorem val_main_v312_apply (i : S2048x1.Idx) :
    val_main_v312 (F := F) x0 x3 i = val_main_v304 (F := F) x0 x3 (idx_main_v311 i) := rd13 _ i

def val_main_v313 : (⟨S2048x1, .f32⟩ : BufTy).Contents (Elt F) :=
  broadcastInDim S2048x1 ![0] bcast_S2048_S2048x1_0 (val_main_v307 (F := F) x0 x3)

theorem val_main_v313_apply (i : S2048x1.Idx) :
    val_main_v313 (F := F) x0 x3 i = val_main_v307 (F := F) x0 x3 (idx_main_v311 i) := rd13 _ i

def val_main_v314 : (⟨S2048x1, .f32⟩ : BufTy).Contents (Elt F) :=
  broadcastInDim S2048x1 ![0] bcast_S2048_S2048x1_0 (val_main_v310 (F := F) x0 x3)

theorem val_main_v314_apply (i : S2048x1.Idx) :
    val_main_v314 (F := F) x0 x3 i = val_main_v310 (F := F) x0 x3 (idx_main_v311 i) := rd13 _ i

def val_main_v315 : (⟨S2048x4, .f32⟩ : BufTy).Contents (Elt F) :=
  concatenate S2048x4 1 [⟨S2048x1, (val_main_v311 (F := F) x0 x3)⟩, ⟨S2048x1, (val_main_v312 (F := F) x0 x3)⟩, ⟨S2048x1, (val_main_v313 (F := F) x0 x3)⟩, ⟨S2048x1, (val_main_v314 (F := F) x0 x3)⟩] concatenates_S2048x1_S2048x1_S2048x1_S2048x1_S2048x4_d1

def val_main_v316 : (⟨S2048x1, .f32⟩ : BufTy).Contents (Elt F) :=
  extractStridedSlice S2048x1 ![0, 0] (val_main_v290 (F := F) x3) slices_S2048x4_S2048x1_0_0

theorem val_main_v316_apply (i : S2048x1.Idx) :
    val_main_v316 (F := F) x3 i = val_main_v290 (F := F) x3 (idx_main_v291 i) := rd8 _ i

def val_main_v317 : (⟨S2048, .f32⟩ : BufTy).Contents (Elt F) :=
  shapeCast _ (val_main_v316 (F := F) x3) shapeCasts_S2048x1_S2048

theorem val_main_v317_apply (i : S2048.Idx) :
    val_main_v317 (F := F) x3 i = val_main_v316 (F := F) x3 (idx_main_v292 i) := rd9 _ i

def val_main_v318 : (⟨S2048x1, .f32⟩ : BufTy).Contents (Elt F) :=
  extractStridedSlice S2048x1 ![0, 1] (val_main_v290 (F := F) x3) slices_S2048x4_S2048x1_0_1

theorem val_main_v318_apply (i : S2048x1.Idx) :
    val_main_v318 (F := F) x3 i = val_main_v290 (F := F) x3 (idx_main_v293 i) := rd10 _ i

def val_main_v319 : (⟨S2048, .f32⟩ : BufTy).Contents (Elt F) :=
  shapeCast _ (val_main_v318 (F := F) x3) shapeCasts_S2048x1_S2048

theorem val_main_v319_apply (i : S2048.Idx) :
    val_main_v319 (F := F) x3 i = val_main_v318 (F := F) x3 (idx_main_v292 i) := rd9 _ i

def val_main_v320 : (⟨S2048x1, .f32⟩ : BufTy).Contents (Elt F) :=
  extractStridedSlice S2048x1 ![0, 2] (val_main_v290 (F := F) x3) slices_S2048x4_S2048x1_0_2

theorem val_main_v320_apply (i : S2048x1.Idx) :
    val_main_v320 (F := F) x3 i = val_main_v290 (F := F) x3 (idx_main_v295 i) := rd11 _ i

def val_main_v321 : (⟨S2048, .f32⟩ : BufTy).Contents (Elt F) :=
  shapeCast _ (val_main_v320 (F := F) x3) shapeCasts_S2048x1_S2048

theorem val_main_v321_apply (i : S2048.Idx) :
    val_main_v321 (F := F) x3 i = val_main_v320 (F := F) x3 (idx_main_v292 i) := rd9 _ i

def val_main_v322 : (⟨S2048x1, .f32⟩ : BufTy).Contents (Elt F) :=
  extractStridedSlice S2048x1 ![0, 3] (val_main_v290 (F := F) x3) slices_S2048x4_S2048x1_0_3

theorem val_main_v322_apply (i : S2048x1.Idx) :
    val_main_v322 (F := F) x3 i = val_main_v290 (F := F) x3 (idx_main_v297 i) := rd12 _ i

def val_main_v323 : (⟨S2048, .f32⟩ : BufTy).Contents (Elt F) :=
  shapeCast _ (val_main_v322 (F := F) x3) shapeCasts_S2048x1_S2048

theorem val_main_v323_apply (i : S2048.Idx) :
    val_main_v323 (F := F) x3 i = val_main_v322 (F := F) x3 (idx_main_v292 i) := rd9 _ i

def val_main_v325 : (⟨S2048, .f32⟩ : BufTy).Contents (Elt F) :=
  mulf (val_main_v299 (F := F)) (val_main_v321 (F := F) x3)

theorem val_main_v325_apply (i : S2048.Idx) :
    val_main_v325 (F := F) x3 i = FloatOps.mulf (val_main_v299 (F := F) i) (val_main_v321 (F := F) x3 i) := rfl

def val_main_v326 : (⟨S2048, .f32⟩ : BufTy).Contents (Elt F) :=
  subf (val_main_v317 (F := F) x3) (val_main_v325 (F := F) x3)

theorem val_main_v326_apply (i : S2048.Idx) :
    val_main_v326 (F := F) x3 i = FloatOps.subf (val_main_v317 (F := F) x3 i) (val_main_v325 (F := F) x3 i) := rfl

def val_main_v328 : (⟨S2048, .f32⟩ : BufTy).Contents (Elt F) :=
  mulf (val_main_v299 (F := F)) (val_main_v323 (F := F) x3)

theorem val_main_v328_apply (i : S2048.Idx) :
    val_main_v328 (F := F) x3 i = FloatOps.mulf (val_main_v299 (F := F) i) (val_main_v323 (F := F) x3 i) := rfl

def val_main_v329 : (⟨S2048, .f32⟩ : BufTy).Contents (Elt F) :=
  subf (val_main_v319 (F := F) x3) (val_main_v328 (F := F) x3)

theorem val_main_v329_apply (i : S2048.Idx) :
    val_main_v329 (F := F) x3 i = FloatOps.subf (val_main_v319 (F := F) x3 i) (val_main_v328 (F := F) x3 i) := rfl

def val_main_v332 : (⟨S2048, .f32⟩ : BufTy).Contents (Elt F) :=
  addf (val_main_v317 (F := F) x3) (val_main_v325 (F := F) x3)

theorem val_main_v332_apply (i : S2048.Idx) :
    val_main_v332 (F := F) x3 i = FloatOps.addf (val_main_v317 (F := F) x3 i) (val_main_v325 (F := F) x3 i) := rfl

def val_main_v335 : (⟨S2048, .f32⟩ : BufTy).Contents (Elt F) :=
  addf (val_main_v319 (F := F) x3) (val_main_v328 (F := F) x3)

theorem val_main_v335_apply (i : S2048.Idx) :
    val_main_v335 (F := F) x3 i = FloatOps.addf (val_main_v319 (F := F) x3 i) (val_main_v328 (F := F) x3 i) := rfl

def val_main_v336 : (⟨S2048x1, .f32⟩ : BufTy).Contents (Elt F) :=
  broadcastInDim S2048x1 ![0] bcast_S2048_S2048x1_0 (val_main_v326 (F := F) x3)

theorem val_main_v336_apply (i : S2048x1.Idx) :
    val_main_v336 (F := F) x3 i = val_main_v326 (F := F) x3 (idx_main_v311 i) := rd13 _ i

def val_main_v337 : (⟨S2048x1, .f32⟩ : BufTy).Contents (Elt F) :=
  broadcastInDim S2048x1 ![0] bcast_S2048_S2048x1_0 (val_main_v329 (F := F) x3)

theorem val_main_v337_apply (i : S2048x1.Idx) :
    val_main_v337 (F := F) x3 i = val_main_v329 (F := F) x3 (idx_main_v311 i) := rd13 _ i

def val_main_v338 : (⟨S2048x1, .f32⟩ : BufTy).Contents (Elt F) :=
  broadcastInDim S2048x1 ![0] bcast_S2048_S2048x1_0 (val_main_v332 (F := F) x3)

theorem val_main_v338_apply (i : S2048x1.Idx) :
    val_main_v338 (F := F) x3 i = val_main_v332 (F := F) x3 (idx_main_v311 i) := rd13 _ i

def val_main_v339 : (⟨S2048x1, .f32⟩ : BufTy).Contents (Elt F) :=
  broadcastInDim S2048x1 ![0] bcast_S2048_S2048x1_0 (val_main_v335 (F := F) x3)

theorem val_main_v339_apply (i : S2048x1.Idx) :
    val_main_v339 (F := F) x3 i = val_main_v335 (F := F) x3 (idx_main_v311 i) := rd13 _ i

def val_main_v340 : (⟨S2048x4, .f32⟩ : BufTy).Contents (Elt F) :=
  concatenate S2048x4 1 [⟨S2048x1, (val_main_v336 (F := F) x3)⟩, ⟨S2048x1, (val_main_v337 (F := F) x3)⟩, ⟨S2048x1, (val_main_v338 (F := F) x3)⟩, ⟨S2048x1, (val_main_v339 (F := F) x3)⟩] concatenates_S2048x1_S2048x1_S2048x1_S2048x1_S2048x4_d1

def val_main_v341 : (⟨S2048x1, .f32⟩ : BufTy).Contents (Elt F) :=
  extractStridedSlice S2048x1 ![0, 2] (val_main_v315 (F := F) x0 x3) slices_S2048x4_S2048x1_0_2

theorem val_main_v341_apply (i : S2048x1.Idx) :
    val_main_v341 (F := F) x0 x3 i = val_main_v315 (F := F) x0 x3 (idx_main_v295 i) := rd11 _ i

def val_main_v342 : (⟨S2048, .f32⟩ : BufTy).Contents (Elt F) :=
  shapeCast _ (val_main_v341 (F := F) x0 x3) shapeCasts_S2048x1_S2048

theorem val_main_v342_apply (i : S2048.Idx) :
    val_main_v342 (F := F) x0 x3 i = val_main_v341 (F := F) x0 x3 (idx_main_v292 i) := rd9 _ i

def val_main_v343 : (⟨S2048x1, .f32⟩ : BufTy).Contents (Elt F) :=
  extractStridedSlice S2048x1 ![0, 0] (val_main_v315 (F := F) x0 x3) slices_S2048x4_S2048x1_0_0

theorem val_main_v343_apply (i : S2048x1.Idx) :
    val_main_v343 (F := F) x0 x3 i = val_main_v315 (F := F) x0 x3 (idx_main_v291 i) := rd8 _ i

def val_main_v344 : (⟨S2048, .f32⟩ : BufTy).Contents (Elt F) :=
  shapeCast _ (val_main_v343 (F := F) x0 x3) shapeCasts_S2048x1_S2048

theorem val_main_v344_apply (i : S2048.Idx) :
    val_main_v344 (F := F) x0 x3 i = val_main_v343 (F := F) x0 x3 (idx_main_v292 i) := rd9 _ i

def val_main_v345 : (⟨S2048, .f32⟩ : BufTy).Contents (Elt F) :=
  subf (val_main_v342 (F := F) x0 x3) (val_main_v344 (F := F) x0 x3)

theorem val_main_v345_apply (i : S2048.Idx) :
    val_main_v345 (F := F) x0 x3 i = FloatOps.subf (val_main_v342 (F := F) x0 x3 i) (val_main_v344 (F := F) x0 x3 i) := rfl

def val_main_v346 : (⟨S2048x1, .f32⟩ : BufTy).Contents (Elt F) :=
  extractStridedSlice S2048x1 ![0, 3] (val_main_v315 (F := F) x0 x3) slices_S2048x4_S2048x1_0_3

theorem val_main_v346_apply (i : S2048x1.Idx) :
    val_main_v346 (F := F) x0 x3 i = val_main_v315 (F := F) x0 x3 (idx_main_v297 i) := rd12 _ i

def val_main_v347 : (⟨S2048, .f32⟩ : BufTy).Contents (Elt F) :=
  shapeCast _ (val_main_v346 (F := F) x0 x3) shapeCasts_S2048x1_S2048

theorem val_main_v347_apply (i : S2048.Idx) :
    val_main_v347 (F := F) x0 x3 i = val_main_v346 (F := F) x0 x3 (idx_main_v292 i) := rd9 _ i

def val_main_v348 : (⟨S2048x1, .f32⟩ : BufTy).Contents (Elt F) :=
  extractStridedSlice S2048x1 ![0, 1] (val_main_v315 (F := F) x0 x3) slices_S2048x4_S2048x1_0_1

theorem val_main_v348_apply (i : S2048x1.Idx) :
    val_main_v348 (F := F) x0 x3 i = val_main_v315 (F := F) x0 x3 (idx_main_v293 i) := rd10 _ i

def val_main_v349 : (⟨S2048, .f32⟩ : BufTy).Contents (Elt F) :=
  shapeCast _ (val_main_v348 (F := F) x0 x3) shapeCasts_S2048x1_S2048

theorem val_main_v349_apply (i : S2048.Idx) :
    val_main_v349 (F := F) x0 x3 i = val_main_v348 (F := F) x0 x3 (idx_main_v292 i) := rd9 _ i

def val_main_v350 : (⟨S2048, .f32⟩ : BufTy).Contents (Elt F) :=
  subf (val_main_v347 (F := F) x0 x3) (val_main_v349 (F := F) x0 x3)

theorem val_main_v350_apply (i : S2048.Idx) :
    val_main_v350 (F := F) x0 x3 i = FloatOps.subf (val_main_v347 (F := F) x0 x3 i) (val_main_v349 (F := F) x0 x3 i) := rfl

def val_main_v351 : (⟨S2048, .f32⟩ : BufTy).Contents (Elt F) :=
  mulf (val_main_v345 (F := F) x0 x3) (val_main_v350 (F := F) x0 x3)

theorem val_main_v351_apply (i : S2048.Idx) :
    val_main_v351 (F := F) x0 x3 i = FloatOps.mulf (val_main_v345 (F := F) x0 x3 i) (val_main_v350 (F := F) x0 x3 i) := rfl

def val_main_v352 : (⟨S2048x1, .f32⟩ : BufTy).Contents (Elt F) :=
  extractStridedSlice S2048x1 ![0, 2] (val_main_v340 (F := F) x3) slices_S2048x4_S2048x1_0_2

theorem val_main_v352_apply (i : S2048x1.Idx) :
    val_main_v352 (F := F) x3 i = val_main_v340 (F := F) x3 (idx_main_v295 i) := rd11 _ i

def val_main_v353 : (⟨S2048, .f32⟩ : BufTy).Contents (Elt F) :=
  shapeCast _ (val_main_v352 (F := F) x3) shapeCasts_S2048x1_S2048

theorem val_main_v353_apply (i : S2048.Idx) :
    val_main_v353 (F := F) x3 i = val_main_v352 (F := F) x3 (idx_main_v292 i) := rd9 _ i

def val_main_v354 : (⟨S2048x1, .f32⟩ : BufTy).Contents (Elt F) :=
  extractStridedSlice S2048x1 ![0, 0] (val_main_v340 (F := F) x3) slices_S2048x4_S2048x1_0_0

theorem val_main_v354_apply (i : S2048x1.Idx) :
    val_main_v354 (F := F) x3 i = val_main_v340 (F := F) x3 (idx_main_v291 i) := rd8 _ i

def val_main_v355 : (⟨S2048, .f32⟩ : BufTy).Contents (Elt F) :=
  shapeCast _ (val_main_v354 (F := F) x3) shapeCasts_S2048x1_S2048

theorem val_main_v355_apply (i : S2048.Idx) :
    val_main_v355 (F := F) x3 i = val_main_v354 (F := F) x3 (idx_main_v292 i) := rd9 _ i

def val_main_v356 : (⟨S2048, .f32⟩ : BufTy).Contents (Elt F) :=
  subf (val_main_v353 (F := F) x3) (val_main_v355 (F := F) x3)

theorem val_main_v356_apply (i : S2048.Idx) :
    val_main_v356 (F := F) x3 i = FloatOps.subf (val_main_v353 (F := F) x3 i) (val_main_v355 (F := F) x3 i) := rfl

def val_main_v357 : (⟨S2048x1, .f32⟩ : BufTy).Contents (Elt F) :=
  extractStridedSlice S2048x1 ![0, 3] (val_main_v340 (F := F) x3) slices_S2048x4_S2048x1_0_3

theorem val_main_v357_apply (i : S2048x1.Idx) :
    val_main_v357 (F := F) x3 i = val_main_v340 (F := F) x3 (idx_main_v297 i) := rd12 _ i

def val_main_v358 : (⟨S2048, .f32⟩ : BufTy).Contents (Elt F) :=
  shapeCast _ (val_main_v357 (F := F) x3) shapeCasts_S2048x1_S2048

theorem val_main_v358_apply (i : S2048.Idx) :
    val_main_v358 (F := F) x3 i = val_main_v357 (F := F) x3 (idx_main_v292 i) := rd9 _ i

def val_main_v359 : (⟨S2048x1, .f32⟩ : BufTy).Contents (Elt F) :=
  extractStridedSlice S2048x1 ![0, 1] (val_main_v340 (F := F) x3) slices_S2048x4_S2048x1_0_1

theorem val_main_v359_apply (i : S2048x1.Idx) :
    val_main_v359 (F := F) x3 i = val_main_v340 (F := F) x3 (idx_main_v293 i) := rd10 _ i

def val_main_v360 : (⟨S2048, .f32⟩ : BufTy).Contents (Elt F) :=
  shapeCast _ (val_main_v359 (F := F) x3) shapeCasts_S2048x1_S2048

theorem val_main_v360_apply (i : S2048.Idx) :
    val_main_v360 (F := F) x3 i = val_main_v359 (F := F) x3 (idx_main_v292 i) := rd9 _ i

def val_main_v361 : (⟨S2048, .f32⟩ : BufTy).Contents (Elt F) :=
  subf (val_main_v358 (F := F) x3) (val_main_v360 (F := F) x3)

theorem val_main_v361_apply (i : S2048.Idx) :
    val_main_v361 (F := F) x3 i = FloatOps.subf (val_main_v358 (F := F) x3 i) (val_main_v360 (F := F) x3 i) := rfl

def val_main_v362 : (⟨S2048, .f32⟩ : BufTy).Contents (Elt F) :=
  mulf (val_main_v356 (F := F) x3) (val_main_v361 (F := F) x3)

theorem val_main_v362_apply (i : S2048.Idx) :
    val_main_v362 (F := F) x3 i = FloatOps.mulf (val_main_v356 (F := F) x3 i) (val_main_v361 (F := F) x3 i) := rfl

def val_main_v363 : (⟨S2048x2, .f32⟩ : BufTy).Contents (Elt F) :=
  extractStridedSlice S2048x2 ![0, 0] (val_main_v315 (F := F) x0 x3) slices_S2048x4_S2048x2_0_0

abbrev idx_main_v363 (i : S2048x2.Idx) : S2048x4.Idx := fun a => match a with
  | ⟨0, _⟩ => ⟨(i 0).val, (i 0).isLt⟩
  | ⟨1, _⟩ => ⟨(i 1).val, by have h1 : (i 1).val < 2 := (i 1).isLt; show (i 1).val < 4; omega⟩

theorem val_main_v363_apply (i : S2048x2.Idx) :
    val_main_v363 (F := F) x0 x3 i = val_main_v315 (F := F) x0 x3 (idx_main_v363 i) := by
  unfold val_main_v363
  generalize val_main_v315 (F := F) x0 x3 = y
  exact extractStridedSlice_apply ![0, 0] y slices_S2048x4_S2048x2_0_0 i (idx_main_v363 i) (fun a => match a with
    | ⟨0, _⟩ => by show (i 0).val = 0 + (i 0).val; omega
    | ⟨1, _⟩ => by show (i 1).val = 0 + (i 1).val; omega)

def val_main_v364 : (⟨S2048x1x2, .f32⟩ : BufTy).Contents (Elt F) :=
  broadcastInDim S2048x1x2 ![0, 2] bcast_S2048x2_S2048x1x2_0_2 (val_main_v363 (F := F) x0 x3)

abbrev idx_main_v364 (i : S2048x1x2.Idx) : S2048x2.Idx := fun a => match a with
  | ⟨0, _⟩ => ⟨(i 0).val, (i 0).isLt⟩
  | ⟨1, _⟩ => ⟨(i 2).val, (i 2).isLt⟩

theorem rd20 (y : (⟨S2048x2, .f32⟩ : BufTy).Contents (Elt F)) (i : S2048x1x2.Idx) :
    (broadcastInDim S2048x1x2 ![0, 2] bcast_S2048x2_S2048x1x2_0_2 y : (⟨S2048x1x2, .f32⟩ : BufTy).Contents (Elt F)) i = y (idx_main_v364 i) :=
  broadcastInDim_apply _ bcast_S2048x2_S2048x1x2_0_2 y i (idx_main_v364 i) (fun a => match a with
    | ⟨0, _⟩ => by show (i 0).val = if (2048 : Nat) = 1 then 0 else (i 0).val; rw [if_neg (by decide)]
    | ⟨1, _⟩ => by show (i 2).val = if (2 : Nat) = 1 then 0 else (i 2).val; rw [if_neg (by decide)])

theorem val_main_v364_apply (i : S2048x1x2.Idx) :
    val_main_v364 (F := F) x0 x3 i = val_main_v363 (F := F) x0 x3 (idx_main_v364 i) := rd20 _ i

def val_main_v365 : (⟨S2048x2, .f32⟩ : BufTy).Contents (Elt F) :=
  extractStridedSlice S2048x2 ![0, 0] (val_main_v340 (F := F) x3) slices_S2048x4_S2048x2_0_0

theorem val_main_v365_apply (i : S2048x2.Idx) :
    val_main_v365 (F := F) x3 i = val_main_v340 (F := F) x3 (idx_main_v363 i) := by
  unfold val_main_v365
  generalize val_main_v340 (F := F) x3 = y
  exact extractStridedSlice_apply ![0, 0] y slices_S2048x4_S2048x2_0_0 i (idx_main_v363 i) (fun a => match a with
    | ⟨0, _⟩ => by show (i 0).val = 0 + (i 0).val; omega
    | ⟨1, _⟩ => by show (i 1).val = 0 + (i 1).val; omega)

def val_main_v366 : (⟨S1x2048x2, .f32⟩ : BufTy).Contents (Elt F) :=
  broadcastInDim S1x2048x2 ![1, 2] bcast_S2048x2_S1x2048x2_1_2 (val_main_v365 (F := F) x3)

abbrev idx_main_v366 (i : S1x2048x2.Idx) : S2048x2.Idx := fun a => match a with
  | ⟨0, _⟩ => ⟨(i 1).val, (i 1).isLt⟩
  | ⟨1, _⟩ => ⟨(i 2).val, (i 2).isLt⟩

theorem rd21 (y : (⟨S2048x2, .f32⟩ : BufTy).Contents (Elt F)) (i : S1x2048x2.Idx) :
    (broadcastInDim S1x2048x2 ![1, 2] bcast_S2048x2_S1x2048x2_1_2 y : (⟨S1x2048x2, .f32⟩ : BufTy).Contents (Elt F)) i = y (idx_main_v366 i) :=
  broadcastInDim_apply _ bcast_S2048x2_S1x2048x2_1_2 y i (idx_main_v366 i) (fun a => match a with
    | ⟨0, _⟩ => by show (i 1).val = if (2048 : Nat) = 1 then 0 else (i 1).val; rw [if_neg (by decide)]
    | ⟨1, _⟩ => by show (i 2).val = if (2 : Nat) = 1 then 0 else (i 2).val; rw [if_neg (by decide)])

theorem val_main_v366_apply (i : S1x2048x2.Idx) :
    val_main_v366 (F := F) x3 i = val_main_v365 (F := F) x3 (idx_main_v366 i) := rd21 _ i

def val_main_v367 : (⟨S2048x2048x2, .f32⟩ : BufTy).Contents (Elt F) :=
  broadcastInDim S2048x2048x2 ![0, 1, 2] bcast_S2048x1x2_S2048x2048x2_0_1_2 (val_main_v364 (F := F) x0 x3)

abbrev idx_main_v367 (i : S2048x2048x2.Idx) : S2048x1x2.Idx := fun a => match a with
  | ⟨0, _⟩ => ⟨(i 0).val, (i 0).isLt⟩
  | ⟨1, _⟩ => ⟨0, Nat.one_pos⟩
  | ⟨2, _⟩ => ⟨(i 2).val, (i 2).isLt⟩

theorem rd22 (y : (⟨S2048x1x2, .f32⟩ : BufTy).Contents (Elt F)) (i : S2048x2048x2.Idx) :
    (broadcastInDim S2048x2048x2 ![0, 1, 2] bcast_S2048x1x2_S2048x2048x2_0_1_2 y : (⟨S2048x2048x2, .f32⟩ : BufTy).Contents (Elt F)) i = y (idx_main_v367 i) :=
  broadcastInDim_apply _ bcast_S2048x1x2_S2048x2048x2_0_1_2 y i (idx_main_v367 i) (fun a => match a with
    | ⟨0, _⟩ => by show (i 0).val = if (2048 : Nat) = 1 then 0 else (i 0).val; rw [if_neg (by decide)]
    | ⟨1, _⟩ => by show 0 = if (1 : Nat) = 1 then 0 else (i 1).val; rw [if_pos rfl]
    | ⟨2, _⟩ => by show (i 2).val = if (2 : Nat) = 1 then 0 else (i 2).val; rw [if_neg (by decide)])

theorem val_main_v367_apply (i : S2048x2048x2.Idx) :
    val_main_v367 (F := F) x0 x3 i = val_main_v364 (F := F) x0 x3 (idx_main_v367 i) := rd22 _ i

def val_main_v368 : (⟨S2048x2048x2, .f32⟩ : BufTy).Contents (Elt F) :=
  broadcastInDim S2048x2048x2 ![0, 1, 2] bcast_S1x2048x2_S2048x2048x2_0_1_2 (val_main_v366 (F := F) x3)

abbrev idx_main_v368 (i : S2048x2048x2.Idx) : S1x2048x2.Idx := fun a => match a with
  | ⟨0, _⟩ => ⟨0, Nat.one_pos⟩
  | ⟨1, _⟩ => ⟨(i 1).val, (i 1).isLt⟩
  | ⟨2, _⟩ => ⟨(i 2).val, (i 2).isLt⟩

theorem rd23 (y : (⟨S1x2048x2, .f32⟩ : BufTy).Contents (Elt F)) (i : S2048x2048x2.Idx) :
    (broadcastInDim S2048x2048x2 ![0, 1, 2] bcast_S1x2048x2_S2048x2048x2_0_1_2 y : (⟨S2048x2048x2, .f32⟩ : BufTy).Contents (Elt F)) i = y (idx_main_v368 i) :=
  broadcastInDim_apply _ bcast_S1x2048x2_S2048x2048x2_0_1_2 y i (idx_main_v368 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)]
    | ⟨2, _⟩ => by show (i 2).val = if (2 : Nat) = 1 then 0 else (i 2).val; rw [if_neg (by decide)])

theorem val_main_v368_apply (i : S2048x2048x2.Idx) :
    val_main_v368 (F := F) x3 i = val_main_v366 (F := F) x3 (idx_main_v368 i) := rd23 _ i

def val_main_v369 : (⟨S2048x2048x2, .f32⟩ : BufTy).Contents (Elt F) :=
  maximumf (val_main_v367 (F := F) x0 x3) (val_main_v368 (F := F) x3)

theorem val_main_v369_apply (i : S2048x2048x2.Idx) :
    val_main_v369 (F := F) x0 x3 i = FloatOps.maximumf (val_main_v367 (F := F) x0 x3 i) (val_main_v368 (F := F) x3 i) := rfl

def val_main_v370 : (⟨S2048x2, .f32⟩ : BufTy).Contents (Elt F) :=
  extractStridedSlice S2048x2 ![0, 2] (val_main_v315 (F := F) x0 x3) slices_S2048x4_S2048x2_0_2

abbrev idx_main_v370 (i : S2048x2.Idx) : S2048x4.Idx := fun a => match a with
  | ⟨0, _⟩ => ⟨(i 0).val, (i 0).isLt⟩
  | ⟨1, _⟩ => ⟨2 + (i 1).val, by have h1 : (i 1).val < 2 := (i 1).isLt; show 2 + (i 1).val < 4; omega⟩

theorem val_main_v370_apply (i : S2048x2.Idx) :
    val_main_v370 (F := F) x0 x3 i = val_main_v315 (F := F) x0 x3 (idx_main_v370 i) := by
  unfold val_main_v370
  generalize val_main_v315 (F := F) x0 x3 = y
  exact extractStridedSlice_apply ![0, 2] y slices_S2048x4_S2048x2_0_2 i (idx_main_v370 i) (fun a => match a with
    | ⟨0, _⟩ => by show (i 0).val = 0 + (i 0).val; omega
    | ⟨1, _⟩ => by show 2 + (i 1).val = 2 + (i 1).val; omega)

def val_main_v371 : (⟨S2048x1x2, .f32⟩ : BufTy).Contents (Elt F) :=
  broadcastInDim S2048x1x2 ![0, 2] bcast_S2048x2_S2048x1x2_0_2 (val_main_v370 (F := F) x0 x3)

theorem val_main_v371_apply (i : S2048x1x2.Idx) :
    val_main_v371 (F := F) x0 x3 i = val_main_v370 (F := F) x0 x3 (idx_main_v364 i) := rd20 _ i

def val_main_v372 : (⟨S2048x2, .f32⟩ : BufTy).Contents (Elt F) :=
  extractStridedSlice S2048x2 ![0, 2] (val_main_v340 (F := F) x3) slices_S2048x4_S2048x2_0_2

theorem val_main_v372_apply (i : S2048x2.Idx) :
    val_main_v372 (F := F) x3 i = val_main_v340 (F := F) x3 (idx_main_v370 i) := by
  unfold val_main_v372
  generalize val_main_v340 (F := F) x3 = y
  exact extractStridedSlice_apply ![0, 2] y slices_S2048x4_S2048x2_0_2 i (idx_main_v370 i) (fun a => match a with
    | ⟨0, _⟩ => by show (i 0).val = 0 + (i 0).val; omega
    | ⟨1, _⟩ => by show 2 + (i 1).val = 2 + (i 1).val; omega)

def val_main_v373 : (⟨S1x2048x2, .f32⟩ : BufTy).Contents (Elt F) :=
  broadcastInDim S1x2048x2 ![1, 2] bcast_S2048x2_S1x2048x2_1_2 (val_main_v372 (F := F) x3)

theorem val_main_v373_apply (i : S1x2048x2.Idx) :
    val_main_v373 (F := F) x3 i = val_main_v372 (F := F) x3 (idx_main_v366 i) := rd21 _ i

def val_main_v374 : (⟨S2048x2048x2, .f32⟩ : BufTy).Contents (Elt F) :=
  broadcastInDim S2048x2048x2 ![0, 1, 2] bcast_S2048x1x2_S2048x2048x2_0_1_2 (val_main_v371 (F := F) x0 x3)

theorem val_main_v374_apply (i : S2048x2048x2.Idx) :
    val_main_v374 (F := F) x0 x3 i = val_main_v371 (F := F) x0 x3 (idx_main_v367 i) := rd22 _ i

def val_main_v375 : (⟨S2048x2048x2, .f32⟩ : BufTy).Contents (Elt F) :=
  broadcastInDim S2048x2048x2 ![0, 1, 2] bcast_S1x2048x2_S2048x2048x2_0_1_2 (val_main_v373 (F := F) x3)

theorem val_main_v375_apply (i : S2048x2048x2.Idx) :
    val_main_v375 (F := F) x3 i = val_main_v373 (F := F) x3 (idx_main_v368 i) := rd23 _ i

def val_main_v376 : (⟨S2048x2048x2, .f32⟩ : BufTy).Contents (Elt F) :=
  minimumf (val_main_v374 (F := F) x0 x3) (val_main_v375 (F := F) x3)

theorem val_main_v376_apply (i : S2048x2048x2.Idx) :
    val_main_v376 (F := F) x0 x3 i = FloatOps.minimumf (val_main_v374 (F := F) x0 x3 i) (val_main_v375 (F := F) x3 i) := rfl

def val_main_v377 : (⟨S2048x2048x2, .f32⟩ : BufTy).Contents (Elt F) :=
  subf (val_main_v376 (F := F) x0 x3) (val_main_v369 (F := F) x0 x3)

theorem val_main_v377_apply (i : S2048x2048x2.Idx) :
    val_main_v377 (F := F) x0 x3 i = FloatOps.subf (val_main_v376 (F := F) x0 x3 i) (val_main_v369 (F := F) x0 x3 i) := rfl

def val_main_call2_v0 : (⟨S_, .f32⟩ : BufTy).Contents (Elt F) :=
  id (val_main_cst_49 (F := F))

theorem val_main_call2_v0_apply (i : S_.Idx) :
    val_main_call2_v0 (F := F) i = (val_main_cst_49 (F := F) i) := rfl

def val_main_call2_v1 : (⟨S2048x2048x2, .f32⟩ : BufTy).Contents (Elt F) :=
  broadcastInDim S2048x2048x2 ![] bcast_S_S2048x2048x2 (val_main_call2_v0 (F := F))

abbrev idx_main_call2_v1 (i : S2048x2048x2.Idx) : S_.Idx := fun a => a.elim0

theorem val_main_call2_v1_apply (i : S2048x2048x2.Idx) :
    val_main_call2_v1 (F := F) i = val_main_call2_v0 (F := F) (idx_main_call2_v1 i) := by
  unfold val_main_call2_v1
  generalize val_main_call2_v0 (F := F) = y
  exact broadcastInDim_apply _ bcast_S_S2048x2048x2 y i (idx_main_call2_v1 i) (fun a => a.elim0)

def val_main_v378 : (⟨S2048x2048x2, .f32⟩ : BufTy).Contents (Elt F) :=
  maximumf (val_main_call2_v1 (F := F)) (val_main_v377 (F := F) x0 x3)

theorem val_main_v378_apply (i : S2048x2048x2.Idx) :
    val_main_v378 (F := F) x0 x3 i = FloatOps.maximumf (val_main_call2_v1 (F := F) i) (val_main_v377 (F := F) x0 x3 i) := rfl

def val_main_v379 : (⟨S2048x2048x1, .f32⟩ : BufTy).Contents (Elt F) :=
  extractStridedSlice S2048x2048x1 ![0, 0, 0] (val_main_v378 (F := F) x0 x3) slices_S2048x2048x2_S2048x2048x1_0_0_0

abbrev idx_main_v379 (i : S2048x2048x1.Idx) : S2048x2048x2.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩

theorem val_main_v379_apply (i : S2048x2048x1.Idx) :
    val_main_v379 (F := F) x0 x3 i = val_main_v378 (F := F) x0 x3 (idx_main_v379 i) := by
  unfold val_main_v379
  generalize val_main_v378 (F := F) x0 x3 = y
  exact extractStridedSlice_apply ![0, 0, 0] y slices_S2048x2048x2_S2048x2048x1_0_0_0 i (idx_main_v379 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v380 : (⟨S2048x2048, .f32⟩ : BufTy).Contents (Elt F) :=
  shapeCast _ (val_main_v379 (F := F) x0 x3) shapeCasts_S2048x2048x1_S2048x2048

abbrev idx_main_v380 (i : S2048x2048.Idx) : S2048x2048x1.Idx := fun a => match a with
  | ⟨0, _⟩ => ⟨((i 0).val * 2048 + (i 1).val) / 2048, by have h0 : (i 0).val < 2048 := (i 0).isLt; have h1 : (i 1).val < 2048 := (i 1).isLt; show ((i 0).val * 2048 + (i 1).val) / 2048 < 2048; omega⟩
  | ⟨1, _⟩ => ⟨((i 0).val * 2048 + (i 1).val) / 1 % 2048, by have h0 : (i 0).val < 2048 := (i 0).isLt; have h1 : (i 1).val < 2048 := (i 1).isLt; show ((i 0).val * 2048 + (i 1).val) / 1 % 2048 < 2048; omega⟩
  | ⟨2, _⟩ => ⟨0, Nat.one_pos⟩

theorem rd24 (y : (⟨S2048x2048x1, .f32⟩ : BufTy).Contents (Elt F)) (i : S2048x2048.Idx) :
    (shapeCast _ y shapeCasts_S2048x2048x1_S2048x2048 : (⟨S2048x2048, .f32⟩ : BufTy).Contents (Elt F)) i = y (idx_main_v380 i) :=
  shapeCast_apply y shapeCasts_S2048x2048x1_S2048x2048 i (idx_main_v380 i)
    (by rewrite [Shape.rowMajor_val_three, Shape.rowMajor_val_two]; have h0 : (i 0).val < 2048 := (i 0).isLt; have h1 : (i 1).val < 2048 := (i 1).isLt; show (((i 0).val * 2048 + (i 1).val) / 2048 * 2048 + ((i 0).val * 2048 + (i 1).val) / 1 % 2048) * 1 + 0 = (i 0).val * 2048 + (i 1).val; omega)

theorem val_main_v380_apply (i : S2048x2048.Idx) :
    val_main_v380 (F := F) x0 x3 i = val_main_v379 (F := F) x0 x3 (idx_main_v380 i) := rd24 _ i

def val_main_v381 : (⟨S2048x2048x1, .f32⟩ : BufTy).Contents (Elt F) :=
  extractStridedSlice S2048x2048x1 ![0, 0, 1] (val_main_v378 (F := F) x0 x3) slices_S2048x2048x2_S2048x2048x1_0_0_1

abbrev idx_main_v381 (i : S2048x2048x1.Idx) : S2048x2048x2.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩

theorem val_main_v381_apply (i : S2048x2048x1.Idx) :
    val_main_v381 (F := F) x0 x3 i = val_main_v378 (F := F) x0 x3 (idx_main_v381 i) := by
  unfold val_main_v381
  generalize val_main_v378 (F := F) x0 x3 = y
  exact extractStridedSlice_apply ![0, 0, 1] y slices_S2048x2048x2_S2048x2048x1_0_0_1 i (idx_main_v381 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega)

def val_main_v382 : (⟨S2048x2048, .f32⟩ : BufTy).Contents (Elt F) :=
  shapeCast _ (val_main_v381 (F := F) x0 x3) shapeCasts_S2048x2048x1_S2048x2048

theorem val_main_v382_apply (i : S2048x2048.Idx) :
    val_main_v382 (F := F) x0 x3 i = val_main_v381 (F := F) x0 x3 (idx_main_v380 i) := rd24 _ i

def val_main_v383 : (⟨S2048x2048, .f32⟩ : BufTy).Contents (Elt F) :=
  mulf (val_main_v380 (F := F) x0 x3) (val_main_v382 (F := F) x0 x3)

theorem val_main_v383_apply (i : S2048x2048.Idx) :
    val_main_v383 (F := F) x0 x3 i = FloatOps.mulf (val_main_v380 (F := F) x0 x3 i) (val_main_v382 (F := F) x0 x3 i) := rfl

def val_main_v384 : (⟨S2048x1, .f32⟩ : BufTy).Contents (Elt F) :=
  broadcastInDim S2048x1 ![0] bcast_S2048_S2048x1_0 (val_main_v351 (F := F) x0 x3)

theorem val_main_v384_apply (i : S2048x1.Idx) :
    val_main_v384 (F := F) x0 x3 i = val_main_v351 (F := F) x0 x3 (idx_main_v311 i) := rd13 _ i

def val_main_v385 : (⟨S1x2048, .f32⟩ : BufTy).Contents (Elt F) :=
  broadcastInDim S1x2048 ![1] bcast_S2048_S1x2048_1 (val_main_v362 (F := F) x3)

abbrev idx_main_v385 (i : S1x2048.Idx) : S2048.Idx := fun a => match a with
  | ⟨0, _⟩ => ⟨(i 1).val, (i 1).isLt⟩

theorem val_main_v385_apply (i : S1x2048.Idx) :
    val_main_v385 (F := F) x3 i = val_main_v362 (F := F) x3 (idx_main_v385 i) := by
  unfold val_main_v385
  generalize val_main_v362 (F := F) x3 = y
  exact broadcastInDim_apply _ bcast_S2048_S1x2048_1 y i (idx_main_v385 i) (fun a => match a with
    | ⟨0, _⟩ => by show (i 1).val = if (2048 : Nat) = 1 then 0 else (i 1).val; rw [if_neg (by decide)])

def val_main_v386 : (⟨S2048x2048, .f32⟩ : BufTy).Contents (Elt F) :=
  broadcastInDim S2048x2048 ![0, 1] bcast_S2048x1_S2048x2048_0_1 (val_main_v384 (F := F) x0 x3)

abbrev idx_main_v386 (i : S2048x2048.Idx) : S2048x1.Idx := fun a => match a with
  | ⟨0, _⟩ => ⟨(i 0).val, (i 0).isLt⟩
  | ⟨1, _⟩ => ⟨0, Nat.one_pos⟩

theorem val_main_v386_apply (i : S2048x2048.Idx) :
    val_main_v386 (F := F) x0 x3 i = val_main_v384 (F := F) x0 x3 (idx_main_v386 i) := by
  unfold val_main_v386
  generalize val_main_v384 (F := F) x0 x3 = y
  exact broadcastInDim_apply _ bcast_S2048x1_S2048x2048_0_1 y i (idx_main_v386 i) (fun a => match a with
    | ⟨0, _⟩ => by show (i 0).val = if (2048 : Nat) = 1 then 0 else (i 0).val; rw [if_neg (by decide)]
    | ⟨1, _⟩ => by show 0 = if (1 : Nat) = 1 then 0 else (i 1).val; rw [if_pos rfl])

def val_main_v387 : (⟨S2048x2048, .f32⟩ : BufTy).Contents (Elt F) :=
  broadcastInDim S2048x2048 ![0, 1] bcast_S1x2048_S2048x2048_0_1 (val_main_v385 (F := F) x3)

abbrev idx_main_v387 (i : S2048x2048.Idx) : S1x2048.Idx := fun a => match a with
  | ⟨0, _⟩ => ⟨0, Nat.one_pos⟩
  | ⟨1, _⟩ => ⟨(i 1).val, (i 1).isLt⟩

theorem val_main_v387_apply (i : S2048x2048.Idx) :
    val_main_v387 (F := F) x3 i = val_main_v385 (F := F) x3 (idx_main_v387 i) := by
  unfold val_main_v387
  generalize val_main_v385 (F := F) x3 = y
  exact broadcastInDim_apply _ bcast_S1x2048_S2048x2048_0_1 y i (idx_main_v387 i) (fun a => match a with
    | ⟨0, _⟩ => by show 0 = if (1 : Nat) = 1 then 0 else (i 0).val; rw [if_pos rfl]
    | ⟨1, _⟩ => by show (i 1).val = if (2048 : Nat) = 1 then 0 else (i 1).val; rw [if_neg (by decide)])

def val_main_v388 : (⟨S2048x2048, .f32⟩ : BufTy).Contents (Elt F) :=
  addf (val_main_v386 (F := F) x0 x3) (val_main_v387 (F := F) x3)

theorem val_main_v388_apply (i : S2048x2048.Idx) :
    val_main_v388 (F := F) x0 x3 i = FloatOps.addf (val_main_v386 (F := F) x0 x3 i) (val_main_v387 (F := F) x3 i) := rfl

def val_main_v389 : (⟨S2048x2048, .f32⟩ : BufTy).Contents (Elt F) :=
  subf (val_main_v388 (F := F) x0 x3) (val_main_v383 (F := F) x0 x3)

theorem val_main_v389_apply (i : S2048x2048.Idx) :
    val_main_v389 (F := F) x0 x3 i = FloatOps.subf (val_main_v388 (F := F) x0 x3 i) (val_main_v383 (F := F) x0 x3 i) := rfl

def val_main_v390 : (⟨S2048x2048, .f32⟩ : BufTy).Contents (Elt F) :=
  Host.divf (val_main_v383 (F := F) x0 x3) (val_main_v389 (F := F) x0 x3)

theorem val_main_v390_apply (i : S2048x2048.Idx) :
    val_main_v390 (F := F) x0 x3 i = FloatOps.hostDivf (val_main_v383 (F := F) x0 x3 i) (val_main_v389 (F := F) x0 x3 i) := rfl

def val_main_v391 : (⟨S2048x2048, .f32⟩ : BufTy).Contents (Elt F) :=
  broadcastInDim S2048x2048 ![] bcast_S_S2048x2048 (val_main_cst_70 (F := F))

abbrev idx_main_v391 (i : S2048x2048.Idx) : S_.Idx := fun a => a.elim0

theorem val_main_v391_apply (i : S2048x2048.Idx) :
    val_main_v391 (F := F) i = val_main_cst_70 (F := F) (idx_main_v391 i) := by
  unfold val_main_v391
  generalize val_main_cst_70 (F := F) = y
  exact broadcastInDim_apply _ bcast_S_S2048x2048 y i (idx_main_v391 i) (fun a => a.elim0)

def val_main_v392 : (⟨S2048x2048, .f32⟩ : BufTy).Contents (Elt F) :=
  subf (val_main_v391 (F := F)) (val_main_v390 (F := F) x0 x3)

theorem val_main_v392_apply (i : S2048x2048.Idx) :
    val_main_v392 (F := F) x0 x3 i = FloatOps.subf (val_main_v391 (F := F) i) (val_main_v390 (F := F) x0 x3 i) := rfl

def val_main_v393 : (⟨S_, .f32⟩ : BufTy).Contents (Elt F) :=
  Host.reduceAdd (val_main_v392 (F := F) x0 x3) (val_main_cst_49 (F := F)) reducesTo_S2048x2048_S_d0_1 h_S_

theorem val_main_v393_apply (x0 : (⟨S64x96x96x6, .f32⟩ : BufTy).Contents (Elt Ideal)) (x3 : (⟨S64x32x6, .f32⟩ : BufTy).Contents (Elt Ideal)) (i : S_.Idx) :
    val_main_v393 (F := Ideal) x0 x3 i = (val_main_cst_49 (F := Ideal)) (Shape.Idx.first h_S_) + ∑ j : S2048x2048.Idx, (val_main_v392 (F := Ideal) x0 x3) j := by
  unfold val_main_v393
  generalize val_main_v392 (F := Ideal) x0 x3 = y0
  simp only [Host.reduceAdd, Ideal.hostReduceAdd_def]
  exact Ideal.hostReduceAdd_total reducesTo_S2048x2048_S_d0_1 (fun b => b.elim0) y0 _ i

def val_main_v394 : (⟨S_, .f32⟩ : BufTy).Contents (Elt F) :=
  Host.divf (val_main_v393 (F := F) x0 x3) (val_main_cst_50 (F := F))

theorem val_main_v394_apply (i : S_.Idx) :
    val_main_v394 (F := F) x0 x3 i = FloatOps.hostDivf (val_main_v393 (F := F) x0 x3 i) (val_main_cst_50 (F := F) i) := rfl

def val_main_v395 : (⟨S1, .f32⟩ : BufTy).Contents (Elt F) :=
  broadcastInDim S1 ![] bcast_S_S1 (val_main_v229 (F := F) x0 x3)

abbrev idx_main_v395 (i : S1.Idx) : S_.Idx := fun a => a.elim0

theorem rd25 (y : (⟨S_, .f32⟩ : BufTy).Contents (Elt F)) (i : S1.Idx) :
    (broadcastInDim S1 ![] bcast_S_S1 y : (⟨S1, .f32⟩ : BufTy).Contents (Elt F)) i = y (idx_main_v395 i) :=
  broadcastInDim_apply _ bcast_S_S1 y i (idx_main_v395 i) (fun a => a.elim0)

theorem val_main_v395_apply (i : S1.Idx) :
    val_main_v395 (F := F) x0 x3 i = val_main_v229 (F := F) x0 x3 (idx_main_v395 i) := rd25 _ i

def val_main_v396 : (⟨S1, .f32⟩ : BufTy).Contents (Elt F) :=
  broadcastInDim S1 ![] bcast_S_S1 (val_main_v233 (F := F) x2 x3 x4)

theorem val_main_v396_apply (i : S1.Idx) :
    val_main_v396 (F := F) x2 x3 x4 i = val_main_v233 (F := F) x2 x3 x4 (idx_main_v395 i) := by
  unfold val_main_v396
  generalize val_main_v233 (F := F) x2 x3 x4 = y
  exact broadcastInDim_apply _ bcast_S_S1 y i (idx_main_v395 i) (fun a => a.elim0)

def val_main_v397 : (⟨S1, .f32⟩ : BufTy).Contents (Elt F) :=
  broadcastInDim S1 ![] bcast_S_S1 (val_main_v268 (F := F) x1 x3)

theorem val_main_v397_apply (i : S1.Idx) :
    val_main_v397 (F := F) x1 x3 i = val_main_v268 (F := F) x1 x3 (idx_main_v395 i) := by
  unfold val_main_v397
  generalize val_main_v268 (F := F) x1 x3 = y
  exact broadcastInDim_apply _ bcast_S_S1 y i (idx_main_v395 i) (fun a => a.elim0)

def val_main_v398 : (⟨S1, .f32⟩ : BufTy).Contents (Elt F) :=
  broadcastInDim S1 ![] bcast_S_S1 (val_main_v394 (F := F) x0 x3)

theorem val_main_v398_apply (i : S1.Idx) :
    val_main_v398 (F := F) x0 x3 i = val_main_v394 (F := F) x0 x3 (idx_main_v395 i) := rd25 _ i

def val_main_v399 : (⟨S4, .f32⟩ : BufTy).Contents (Elt F) :=
  concatenate S4 0 [⟨S1, (val_main_v395 (F := F) x0 x3)⟩, ⟨S1, (val_main_v396 (F := F) x2 x3 x4)⟩, ⟨S1, (val_main_v397 (F := F) x1 x3)⟩, ⟨S1, (val_main_v398 (F := F) x0 x3)⟩] concatenates_S1_S1_S1_S1_S4_d0

end Cert.ReferenceIdeal.ReadP

end
-- ==== Proof.Ref.RunInv.lean ====
import proofs.«431468_j28140625724039_3_alg».proof.Proof.Ref.Read

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable (x0 : (⟨S64x96x96x6, .f32⟩ : BufTy).Contents (Elt F)) (x1 : (⟨S64x96x96x1, .f32⟩ : BufTy).Contents (Elt F)) (x2 : (⟨S64x96x96x63, .f32⟩ : BufTy).Contents (Elt F)) (x3 : (⟨S64x32x6, .f32⟩ : BufTy).Contents (Elt F)) (x4 : (⟨S64x32x63, .f32⟩ : BufTy).Contents (Elt F)) (V : Valuation τ sig (Elt F))

theorem forall_append {α : Type} {p : α → Prop} {l₁ l₂ : List α} (h₁ : l₁.Forall p) (h₂ : l₂.Forall p) : (l₁ ++ l₂).Forall p :=
  List.forall_iff_forall_mem.2 (List.forall_mem_append.2 ⟨List.forall_iff_forall_mem.1 h₁, List.forall_iff_forall_mem.1 h₂⟩)

theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

set_option maxRecDepth 8192 in
set_option maxHeartbeats 4000000 in

def Inv_0 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4

set_option maxRecDepth 8192 in
set_option maxHeartbeats 4000000 in

def Inv_30 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v1) = val_main_v1 (F := F) x0
  ∧ V (Proc.devRef .tc main_v3) = val_main_v3 (F := F) x0
  ∧ V (Proc.devRef .tc main_v5) = val_main_v5 (F := F) x0
  ∧ V (Proc.devRef .tc main_v7) = val_main_v7 (F := F) x0
  ∧ V (Proc.devRef .tc main_v9) = val_main_v9 (F := F) x0
  ∧ V (Proc.devRef .tc main_v11) = val_main_v11 (F := F) x0
  ∧ V (Proc.devRef .tc main_v12) = val_main_v12 (F := F) x1
  ∧ V (Proc.devRef .tc main_v16) = val_main_v16 (F := F) x3
  ∧ V (Proc.devRef .tc main_v20) = val_main_v20 (F := F) x3
  ∧ V (Proc.devRef .tc main_v22) = val_main_v22 (F := F) x3
  ∧ V (Proc.devRef .tc main_v26) = val_main_v26 (F := F) x3

set_option maxRecDepth 8192 in
set_option maxHeartbeats 4000000 in

def Inv_60 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v1) = val_main_v1 (F := F) x0
  ∧ V (Proc.devRef .tc main_v3) = val_main_v3 (F := F) x0
  ∧ V (Proc.devRef .tc main_v5) = val_main_v5 (F := F) x0
  ∧ V (Proc.devRef .tc main_v7) = val_main_v7 (F := F) x0
  ∧ V (Proc.devRef .tc main_v9) = val_main_v9 (F := F) x0
  ∧ V (Proc.devRef .tc main_v11) = val_main_v11 (F := F) x0
  ∧ V (Proc.devRef .tc main_v12) = val_main_v12 (F := F) x1
  ∧ V (Proc.devRef .tc main_v16) = val_main_v16 (F := F) x3
  ∧ V (Proc.devRef .tc main_v20) = val_main_v20 (F := F) x3
  ∧ V (Proc.devRef .tc main_v22) = val_main_v22 (F := F) x3
  ∧ V (Proc.devRef .tc main_v26) = val_main_v26 (F := F) x3
  ∧ V (Proc.devRef .tc main_v30) = val_main_v30 (F := F) x3
  ∧ V (Proc.devRef .tc main_v32) = val_main_v32 (F := F) x3
  ∧ V (Proc.devRef .tc main_v33) = val_main_v33 (F := F) x3
  ∧ V (Proc.devRef .tc main_v34) = val_main_v34 (F := F) x3
  ∧ V (Proc.devRef .tc main_v36) = val_main_v36 (F := F)
  ∧ V (Proc.devRef .tc main_v41) = val_main_v41 (F := F)
  ∧ V (Proc.devRef .tc main_v46) = val_main_v46 (F := F) x3
  ∧ V (Proc.devRef .tc main_v48) = val_main_v48 (F := F) x3
  ∧ V (Proc.devRef .tc main_v49) = val_main_v44 (F := F)

set_option maxRecDepth 8192 in
set_option maxHeartbeats 4000000 in

def Inv_90 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v3) = val_main_v3 (F := F) x0
  ∧ V (Proc.devRef .tc main_v5) = val_main_v5 (F := F) x0
  ∧ V (Proc.devRef .tc main_v7) = val_main_v7 (F := F) x0
  ∧ V (Proc.devRef .tc main_v9) = val_main_v9 (F := F) x0
  ∧ V (Proc.devRef .tc main_v11) = val_main_v11 (F := F) x0
  ∧ V (Proc.devRef .tc main_v12) = val_main_v12 (F := F) x1
  ∧ V (Proc.devRef .tc main_v16) = val_main_v16 (F := F) x3
  ∧ V (Proc.devRef .tc main_v20) = val_main_v20 (F := F) x3
  ∧ V (Proc.devRef .tc main_v22) = val_main_v22 (F := F) x3
  ∧ V (Proc.devRef .tc main_v26) = val_main_v26 (F := F) x3
  ∧ V (Proc.devRef .tc main_v30) = val_main_v30 (F := F) x3
  ∧ V (Proc.devRef .tc main_v32) = val_main_v32 (F := F) x3
  ∧ V (Proc.devRef .tc main_v33) = val_main_v33 (F := F) x3
  ∧ V (Proc.devRef .tc main_v34) = val_main_v34 (F := F) x3
  ∧ V (Proc.devRef .tc main_v36) = val_main_v36 (F := F)
  ∧ V (Proc.devRef .tc main_v57) = val_main_v57 (F := F) x0 x3
  ∧ V (Proc.devRef .tc main_v67) = val_main_v46 (F := F) x3
  ∧ V (Proc.devRef .tc main_v72) = val_main_v51 (F := F) x3
  ∧ V (Proc.devRef .tc main_v73) = val_main_v52 (F := F)

set_option maxRecDepth 8192 in
set_option maxHeartbeats 4000000 in

def Inv_120 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v5) = val_main_v5 (F := F) x0
  ∧ V (Proc.devRef .tc main_v7) = val_main_v7 (F := F) x0
  ∧ V (Proc.devRef .tc main_v9) = val_main_v9 (F := F) x0
  ∧ V (Proc.devRef .tc main_v11) = val_main_v11 (F := F) x0
  ∧ V (Proc.devRef .tc main_v12) = val_main_v12 (F := F) x1
  ∧ V (Proc.devRef .tc main_v16) = val_main_v16 (F := F) x3
  ∧ V (Proc.devRef .tc main_v20) = val_main_v20 (F := F) x3
  ∧ V (Proc.devRef .tc main_v22) = val_main_v22 (F := F) x3
  ∧ V (Proc.devRef .tc main_v26) = val_main_v26 (F := F) x3
  ∧ V (Proc.devRef .tc main_v30) = val_main_v30 (F := F) x3
  ∧ V (Proc.devRef .tc main_v32) = val_main_v32 (F := F) x3
  ∧ V (Proc.devRef .tc main_v33) = val_main_v33 (F := F) x3
  ∧ V (Proc.devRef .tc main_v34) = val_main_v34 (F := F) x3
  ∧ V (Proc.devRef .tc main_v36) = val_main_v36 (F := F)
  ∧ V (Proc.devRef .tc main_v57) = val_main_v57 (F := F) x0 x3
  ∧ V (Proc.devRef .tc main_v78) = val_main_v78 (F := F) x0 x3
  ∧ V (Proc.devRef .tc main_v95) = val_main_v53 (F := F)
  ∧ V (Proc.devRef .tc main_v96) = val_main_v54 (F := F) x3
  ∧ V (Proc.devRef .tc main_v97) = val_main_v55 (F := F) x3

set_option maxRecDepth 8192 in
set_option maxHeartbeats 4000000 in

def Inv_150 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v9) = val_main_v9 (F := F) x0
  ∧ V (Proc.devRef .tc main_v11) = val_main_v11 (F := F) x0
  ∧ V (Proc.devRef .tc main_v12) = val_main_v12 (F := F) x1
  ∧ V (Proc.devRef .tc main_v16) = val_main_v16 (F := F) x3
  ∧ V (Proc.devRef .tc main_v20) = val_main_v20 (F := F) x3
  ∧ V (Proc.devRef .tc main_v22) = val_main_v22 (F := F) x3
  ∧ V (Proc.devRef .tc main_v26) = val_main_v26 (F := F) x3
  ∧ V (Proc.devRef .tc main_v30) = val_main_v30 (F := F) x3
  ∧ V (Proc.devRef .tc main_v32) = val_main_v32 (F := F) x3
  ∧ V (Proc.devRef .tc main_v33) = val_main_v33 (F := F) x3
  ∧ V (Proc.devRef .tc main_v34) = val_main_v34 (F := F) x3
  ∧ V (Proc.devRef .tc main_v36) = val_main_v36 (F := F)
  ∧ V (Proc.devRef .tc main_v57) = val_main_v57 (F := F) x0 x3
  ∧ V (Proc.devRef .tc main_v78) = val_main_v78 (F := F) x0 x3
  ∧ V (Proc.devRef .tc main_v99) = val_main_v99 (F := F) x0 x3
  ∧ V (Proc.devRef .tc main_v120) = val_main_v120 (F := F) x0 x3
  ∧ V (Proc.devRef .tc main_c_26) = val_main_c (F := F)

set_option maxRecDepth 8192 in
set_option maxHeartbeats 4000000 in

def Inv_180 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v11) = val_main_v11 (F := F) x0
  ∧ V (Proc.devRef .tc main_v12) = val_main_v12 (F := F) x1
  ∧ V (Proc.devRef .tc main_v16) = val_main_v16 (F := F) x3
  ∧ V (Proc.devRef .tc main_v20) = val_main_v20 (F := F) x3
  ∧ V (Proc.devRef .tc main_v22) = val_main_v22 (F := F) x3
  ∧ V (Proc.devRef .tc main_v26) = val_main_v26 (F := F) x3
  ∧ V (Proc.devRef .tc main_v30) = val_main_v30 (F := F) x3
  ∧ V (Proc.devRef .tc main_v32) = val_main_v32 (F := F) x3
  ∧ V (Proc.devRef .tc main_v33) = val_main_v33 (F := F) x3
  ∧ V (Proc.devRef .tc main_v34) = val_main_v34 (F := F) x3
  ∧ V (Proc.devRef .tc main_v36) = val_main_v36 (F := F)
  ∧ V (Proc.devRef .tc main_v57) = val_main_v57 (F := F) x0 x3
  ∧ V (Proc.devRef .tc main_v78) = val_main_v78 (F := F) x0 x3
  ∧ V (Proc.devRef .tc main_v99) = val_main_v99 (F := F) x0 x3
  ∧ V (Proc.devRef .tc main_v120) = val_main_v120 (F := F) x0 x3
  ∧ V (Proc.devRef .tc main_v141) = val_main_v141 (F := F) x0 x3
  ∧ V (Proc.devRef .tc main_v143) = val_main_v38 (F := F)
  ∧ V (Proc.devRef .tc main_c_33) = val_main_c_3 (F := F)

set_option maxRecDepth 8192 in
set_option maxHeartbeats 4000000 in

def Inv_210 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v12) = val_main_v12 (F := F) x1
  ∧ V (Proc.devRef .tc main_v16) = val_main_v16 (F := F) x3
  ∧ V (Proc.devRef .tc main_v20) = val_main_v20 (F := F) x3
  ∧ V (Proc.devRef .tc main_v22) = val_main_v22 (F := F) x3
  ∧ V (Proc.devRef .tc main_v26) = val_main_v26 (F := F) x3
  ∧ V (Proc.devRef .tc main_v30) = val_main_v30 (F := F) x3
  ∧ V (Proc.devRef .tc main_v32) = val_main_v32 (F := F) x3
  ∧ V (Proc.devRef .tc main_v33) = val_main_v33 (F := F) x3
  ∧ V (Proc.devRef .tc main_v34) = val_main_v34 (F := F) x3
  ∧ V (Proc.devRef .tc main_v36) = val_main_v36 (F := F)
  ∧ V (Proc.devRef .tc main_v57) = val_main_v57 (F := F) x0 x3
  ∧ V (Proc.devRef .tc main_v78) = val_main_v78 (F := F) x0 x3
  ∧ V (Proc.devRef .tc main_v99) = val_main_v99 (F := F) x0 x3
  ∧ V (Proc.devRef .tc main_v120) = val_main_v120 (F := F) x0 x3
  ∧ V (Proc.devRef .tc main_v141) = val_main_v141 (F := F) x0 x3
  ∧ V (Proc.devRef .tc main_v162) = val_main_v162 (F := F) x0 x3
  ∧ V (Proc.devRef .tc main_v167) = val_main_v41 (F := F)

set_option maxRecDepth 8192 in
set_option maxHeartbeats 4000000 in

def Inv_240 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v12) = val_main_v12 (F := F) x1
  ∧ V (Proc.devRef .tc main_v16) = val_main_v16 (F := F) x3
  ∧ V (Proc.devRef .tc main_v20) = val_main_v20 (F := F) x3
  ∧ V (Proc.devRef .tc main_v22) = val_main_v22 (F := F) x3
  ∧ V (Proc.devRef .tc main_v26) = val_main_v26 (F := F) x3
  ∧ V (Proc.devRef .tc main_v30) = val_main_v30 (F := F) x3
  ∧ V (Proc.devRef .tc main_v32) = val_main_v32 (F := F) x3
  ∧ V (Proc.devRef .tc main_v33) = val_main_v33 (F := F) x3
  ∧ V (Proc.devRef .tc main_v34) = val_main_v34 (F := F) x3
  ∧ V (Proc.devRef .tc main_v36) = val_main_v36 (F := F)
  ∧ V (Proc.devRef .tc main_v57) = val_main_v57 (F := F) x0 x3
  ∧ V (Proc.devRef .tc main_v78) = val_main_v78 (F := F) x0 x3
  ∧ V (Proc.devRef .tc main_v99) = val_main_v99 (F := F) x0 x3
  ∧ V (Proc.devRef .tc main_v120) = val_main_v120 (F := F) x0 x3
  ∧ V (Proc.devRef .tc main_v141) = val_main_v141 (F := F) x0 x3
  ∧ V (Proc.devRef .tc main_v162) = val_main_v162 (F := F) x0 x3
  ∧ V (Proc.devRef .tc main_v183) = val_main_v183 (F := F) x2 x3
  ∧ V (Proc.devRef .tc main_v185) = val_main_v185 (F := F) x3
  ∧ V (Proc.devRef .tc main_v187) = val_main_v187 (F := F) x3
  ∧ V (Proc.devRef .tc main_v191) = val_main_v191 (F := F) x3

set_option maxRecDepth 8192 in
set_option maxHeartbeats 4000000 in

def Inv_270 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v12) = val_main_v12 (F := F) x1
  ∧ V (Proc.devRef .tc main_v16) = val_main_v16 (F := F) x3
  ∧ V (Proc.devRef .tc main_v20) = val_main_v20 (F := F) x3
  ∧ V (Proc.devRef .tc main_v22) = val_main_v22 (F := F) x3
  ∧ V (Proc.devRef .tc main_v26) = val_main_v26 (F := F) x3
  ∧ V (Proc.devRef .tc main_v30) = val_main_v30 (F := F) x3
  ∧ V (Proc.devRef .tc main_v33) = val_main_v33 (F := F) x3
  ∧ V (Proc.devRef .tc main_v34) = val_main_v34 (F := F) x3
  ∧ V (Proc.devRef .tc main_v36) = val_main_v36 (F := F)
  ∧ V (Proc.devRef .tc main_v57) = val_main_v57 (F := F) x0 x3
  ∧ V (Proc.devRef .tc main_v78) = val_main_v78 (F := F) x0 x3
  ∧ V (Proc.devRef .tc main_v99) = val_main_v99 (F := F) x0 x3
  ∧ V (Proc.devRef .tc main_v120) = val_main_v120 (F := F) x0 x3
  ∧ V (Proc.devRef .tc main_v141) = val_main_v141 (F := F) x0 x3
  ∧ V (Proc.devRef .tc main_v162) = val_main_v162 (F := F) x0 x3
  ∧ V (Proc.devRef .tc main_v183) = val_main_v183 (F := F) x2 x3
  ∧ V (Proc.devRef .tc main_v197) = val_main_v197 (F := F) x3
  ∧ V (Proc.devRef .tc main_v200) = val_main_v200 (F := F) x3
  ∧ V (Proc.devRef .tc main_v209) = val_main_v209 (F := F) x0 x3
  ∧ V (Proc.devRef .tc main_v212) = val_main_v212 (F := F) x0 x3
  ∧ V (Proc.devRef .tc main_cst_54) = val_main_cst_50 (F := F)

set_option maxRecDepth 8192 in
set_option maxHeartbeats 4000000 in

def Inv_300 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v12) = val_main_v12 (F := F) x1
  ∧ V (Proc.devRef .tc main_v16) = val_main_v16 (F := F) x3
  ∧ V (Proc.devRef .tc main_v20) = val_main_v20 (F := F) x3
  ∧ V (Proc.devRef .tc main_v26) = val_main_v26 (F := F) x3
  ∧ V (Proc.devRef .tc main_v30) = val_main_v30 (F := F) x3
  ∧ V (Proc.devRef .tc main_v33) = val_main_v33 (F := F) x3
  ∧ V (Proc.devRef .tc main_v34) = val_main_v34 (F := F) x3
  ∧ V (Proc.devRef .tc main_v36) = val_main_v36 (F := F)
  ∧ V (Proc.devRef .tc main_v57) = val_main_v57 (F := F) x0 x3
  ∧ V (Proc.devRef .tc main_v78) = val_main_v78 (F := F) x0 x3
  ∧ V (Proc.devRef .tc main_v120) = val_main_v120 (F := F) x0 x3
  ∧ V (Proc.devRef .tc main_v141) = val_main_v141 (F := F) x0 x3
  ∧ V (Proc.devRef .tc main_v229) = val_main_v229 (F := F) x0 x3
  ∧ V (Proc.devRef .tc main_v233) = val_main_v233 (F := F) x2 x3 x4
  ∧ V (Proc.devRef .tc main_cst_63) = val_main_cst_49 (F := F)

set_option maxRecDepth 8192 in
set_option maxHeartbeats 4000000 in

def Inv_329 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v12) = val_main_v12 (F := F) x1
  ∧ V (Proc.devRef .tc main_v16) = val_main_v16 (F := F) x3
  ∧ V (Proc.devRef .tc main_v20) = val_main_v20 (F := F) x3
  ∧ V (Proc.devRef .tc main_v26) = val_main_v26 (F := F) x3
  ∧ V (Proc.devRef .tc main_v30) = val_main_v30 (F := F) x3
  ∧ V (Proc.devRef .tc main_v33) = val_main_v33 (F := F) x3
  ∧ V (Proc.devRef .tc main_v34) = val_main_v34 (F := F) x3
  ∧ V (Proc.devRef .tc main_v57) = val_main_v57 (F := F) x0 x3
  ∧ V (Proc.devRef .tc main_v78) = val_main_v78 (F := F) x0 x3
  ∧ V (Proc.devRef .tc main_v120) = val_main_v120 (F := F) x0 x3
  ∧ V (Proc.devRef .tc main_v141) = val_main_v141 (F := F) x0 x3
  ∧ V (Proc.devRef .tc main_v229) = val_main_v229 (F := F) x0 x3
  ∧ V (Proc.devRef .tc main_v233) = val_main_v233 (F := F) x2 x3 x4
  ∧ V (Proc.devRef .tc main_v234) = val_main_v234 (F := F)
  ∧ V (Proc.devRef .tc main_v254) = val_main_v56 (F := F) x3
  ∧ V (Proc.devRef .tc main_v255) = val_main_v255 (F := F)

set_option maxRecDepth 8192 in
set_option maxHeartbeats 4000000 in

def Inv_358 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v12) = val_main_v12 (F := F) x1
  ∧ V (Proc.devRef .tc main_v16) = val_main_v16 (F := F) x3
  ∧ V (Proc.devRef .tc main_v20) = val_main_v20 (F := F) x3
  ∧ V (Proc.devRef .tc main_v26) = val_main_v26 (F := F) x3
  ∧ V (Proc.devRef .tc main_v30) = val_main_v30 (F := F) x3
  ∧ V (Proc.devRef .tc main_v33) = val_main_v33 (F := F) x3
  ∧ V (Proc.devRef .tc main_v34) = val_main_v34 (F := F) x3
  ∧ V (Proc.devRef .tc main_v57) = val_main_v57 (F := F) x0 x3
  ∧ V (Proc.devRef .tc main_v78) = val_main_v78 (F := F) x0 x3
  ∧ V (Proc.devRef .tc main_v120) = val_main_v120 (F := F) x0 x3
  ∧ V (Proc.devRef .tc main_v141) = val_main_v141 (F := F) x0 x3
  ∧ V (Proc.devRef .tc main_v229) = val_main_v229 (F := F) x0 x3
  ∧ V (Proc.devRef .tc main_v233) = val_main_v233 (F := F) x2 x3 x4
  ∧ V (Proc.devRef .tc main_v261) = val_main_v261 (F := F) x1 x3
  ∧ V (Proc.devRef .tc main_v263) = val_main_v263 (F := F) x3
  ∧ V (Proc.devRef .tc main_call1_cst) = val_main_cst_49 (F := F)
  ∧ V (Proc.devRef .tc main_call1_v1) = val_main_call1_v1 (F := F) x1
  ∧ V (Proc.devRef .tc main_call1_v3) = val_main_call1_v3 (F := F) x1
  ∧ V (Proc.devRef .tc main_call1_v4) = val_main_call1_v4 (F := F) x1

set_option maxRecDepth 8192 in
set_option maxHeartbeats 4000000 in

def Inv_386 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v16) = val_main_v16 (F := F) x3
  ∧ V (Proc.devRef .tc main_v20) = val_main_v20 (F := F) x3
  ∧ V (Proc.devRef .tc main_v26) = val_main_v26 (F := F) x3
  ∧ V (Proc.devRef .tc main_v30) = val_main_v30 (F := F) x3
  ∧ V (Proc.devRef .tc main_v229) = val_main_v229 (F := F) x0 x3
  ∧ V (Proc.devRef .tc main_v233) = val_main_v233 (F := F) x2 x3 x4
  ∧ V (Proc.devRef .tc main_v268) = val_main_v268 (F := F) x1 x3
  ∧ V (Proc.devRef .tc main_v275) = val_main_v275 (F := F) x0 x3
  ∧ V (Proc.devRef .tc main_v278) = val_main_v278 (F := F) x0 x3
  ∧ V (Proc.devRef .tc main_v279) = val_main_v279 (F := F) x0 x3
  ∧ V (Proc.devRef .tc main_v280) = val_main_v280 (F := F) x0 x3

set_option maxRecDepth 8192 in
set_option maxHeartbeats 4000000 in

def Inv_416 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v229) = val_main_v229 (F := F) x0 x3
  ∧ V (Proc.devRef .tc main_v233) = val_main_v233 (F := F) x2 x3 x4
  ∧ V (Proc.devRef .tc main_v268) = val_main_v268 (F := F) x1 x3
  ∧ V (Proc.devRef .tc main_v290) = val_main_v290 (F := F) x3
  ∧ V (Proc.devRef .tc main_v294) = val_main_v294 (F := F) x0 x3
  ∧ V (Proc.devRef .tc main_v298) = val_main_v298 (F := F) x0 x3
  ∧ V (Proc.devRef .tc main_v301) = val_main_v301 (F := F) x0 x3
  ∧ V (Proc.devRef .tc main_v304) = val_main_v304 (F := F) x0 x3
  ∧ V (Proc.devRef .tc main_v307) = val_main_v307 (F := F) x0 x3

set_option maxRecDepth 8192 in
set_option maxHeartbeats 4000000 in

def Inv_446 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v229) = val_main_v229 (F := F) x0 x3
  ∧ V (Proc.devRef .tc main_v233) = val_main_v233 (F := F) x2 x3 x4
  ∧ V (Proc.devRef .tc main_v268) = val_main_v268 (F := F) x1 x3
  ∧ V (Proc.devRef .tc main_v315) = val_main_v315 (F := F) x0 x3
  ∧ V (Proc.devRef .tc main_v319) = val_main_v319 (F := F) x3
  ∧ V (Proc.devRef .tc main_v323) = val_main_v323 (F := F) x3
  ∧ V (Proc.devRef .tc main_v326) = val_main_v326 (F := F) x3
  ∧ V (Proc.devRef .tc main_v329) = val_main_v329 (F := F) x3
  ∧ V (Proc.devRef .tc main_v332) = val_main_v332 (F := F) x3
  ∧ V (Proc.devRef .tc main_cst_84) = val_main_cst_77 (F := F)

set_option maxRecDepth 8192 in
set_option maxHeartbeats 4000000 in

def Inv_477 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v229) = val_main_v229 (F := F) x0 x3
  ∧ V (Proc.devRef .tc main_v233) = val_main_v233 (F := F) x2 x3 x4
  ∧ V (Proc.devRef .tc main_v268) = val_main_v268 (F := F) x1 x3
  ∧ V (Proc.devRef .tc main_v315) = val_main_v315 (F := F) x0 x3
  ∧ V (Proc.devRef .tc main_v340) = val_main_v340 (F := F) x3
  ∧ V (Proc.devRef .tc main_v351) = val_main_v351 (F := F) x0 x3
  ∧ V (Proc.devRef .tc main_v362) = val_main_v362 (F := F) x3
  ∧ V (Proc.devRef .tc main_v363) = val_main_v363 (F := F) x0 x3

set_option maxRecDepth 8192 in
set_option maxHeartbeats 4000000 in

def Inv_508 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v229) = val_main_v229 (F := F) x0 x3
  ∧ V (Proc.devRef .tc main_v233) = val_main_v233 (F := F) x2 x3 x4
  ∧ V (Proc.devRef .tc main_v268) = val_main_v268 (F := F) x1 x3
  ∧ V (Proc.devRef .tc main_v390) = val_main_v390 (F := F) x0 x3
  ∧ V (Proc.devRef .tc main_cst_86) = val_main_cst_70 (F := F)

set_option maxRecDepth 8192 in
set_option maxHeartbeats 4000000 in

def Inv_519 : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_v399) = val_main_v399 (F := F) x0 x1 x2 x3 x4

end Cert.ReferenceIdeal.ValueP

end
-- ==== Proof.Ref.RunW0.lean ====
import proofs.«431468_j28140625724039_3_alg».proof.Proof.Ref.RunInv
import Idealize.ShloMosaic.Lib.Pipeline.Regions

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S64x96x96x6, .f32⟩ : BufTy).Contents (Elt F)} {x1 : (⟨S64x96x96x1, .f32⟩ : BufTy).Contents (Elt F)} {x2 : (⟨S64x96x96x63, .f32⟩ : BufTy).Contents (Elt F)} {x3 : (⟨S64x32x6, .f32⟩ : BufTy).Contents (Elt F)} {x4 : (⟨S64x32x63, .f32⟩ : BufTy).Contents (Elt F)} {V : Valuation τ sig (Elt F)}

set_option maxRecDepth 8192 in
set_option maxHeartbeats 4000000 in

abbrev ops_0 : List (HloOp τ sig (Elt F)) :=
  [ unary main_arg0 main_v0 ((extractStridedSlice S64x96x96x1 ![0, 0, 0, 0] · slices_S64x96x96x6_S64x96x96x1_0_0_0_0) : (⟨S64x96x96x6, .f32⟩ : BufTy).Contents (Elt F) → (⟨S64x96x96x1, .f32⟩ : BufTy).Contents (Elt F)),
    reshape main_v0 main_v1 rfl shapeCasts_S64x96x96x1_S64x96x96,
    unary main_arg0 main_v2 ((extractStridedSlice S64x96x96x1 ![0, 0, 0, 1] · slices_S64x96x96x6_S64x96x96x1_0_0_0_1) : (⟨S64x96x96x6, .f32⟩ : BufTy).Contents (Elt F) → (⟨S64x96x96x1, .f32⟩ : BufTy).Contents (Elt F)),
    reshape main_v2 main_v3 rfl shapeCasts_S64x96x96x1_S64x96x96,
    unary main_arg0 main_v4 ((extractStridedSlice S64x96x96x1 ![0, 0, 0, 2] · slices_S64x96x96x6_S64x96x96x1_0_0_0_2) : (⟨S64x96x96x6, .f32⟩ : BufTy).Contents (Elt F) → (⟨S64x96x96x1, .f32⟩ : BufTy).Contents (Elt F)),
    reshape main_v4 main_v5 rfl shapeCasts_S64x96x96x1_S64x96x96,
    unary main_arg0 main_v6 ((extractStridedSlice S64x96x96x1 ![0, 0, 0, 3] · slices_S64x96x96x6_S64x96x96x1_0_0_0_3) : (⟨S64x96x96x6, .f32⟩ : BufTy).Contents (Elt F) → (⟨S64x96x96x1, .f32⟩ : BufTy).Contents (Elt F)),
    reshape main_v6 main_v7 rfl shapeCasts_S64x96x96x1_S64x96x96,
    unary main_arg0 main_v8 ((extractStridedSlice S64x96x96x1 ![0, 0, 0, 4] · slices_S64x96x96x6_S64x96x96x1_0_0_0_4) : (⟨S64x96x96x6, .f32⟩ : BufTy).Contents (Elt F) → (⟨S64x96x96x1, .f32⟩ : BufTy).Contents (Elt F)),
    reshape main_v8 main_v9 rfl shapeCasts_S64x96x96x1_S64x96x96,
    unary main_arg0 main_v10 ((extractStridedSlice S64x96x96x1 ![0, 0, 0, 5] · slices_S64x96x96x6_S64x96x96x1_0_0_0_5) : (⟨S64x96x96x6, .f32⟩ : BufTy).Contents (Elt F) → (⟨S64x96x96x1, .f32⟩ : BufTy).Contents (Elt F)),
    reshape main_v10 main_v11 rfl shapeCasts_S64x96x96x1_S64x96x96,
    reshape main_arg1 main_v12 rfl shapeCasts_S64x96x96x1_S64x96x96,
    unary main_arg3 main_v13 ((extractStridedSlice S64x32x1 ![0, 0, 0] · slices_S64x32x6_S64x32x1_0_0_0) : (⟨S64x32x6, .f32⟩ : BufTy).Contents (Elt F) → (⟨S64x32x1, .f32⟩ : BufTy).Contents (Elt F)),
    reshape main_v13 main_v14 rfl shapeCasts_S64x32x1_S64x32,
    nullary main_cst (constant S_ .f32 0x42C00000#32),
    unary main_cst main_v15 (broadcastInDim S64x32 ![] bcast_S_S64x32 : (⟨S_, .f32⟩ : BufTy).Contents (Elt F) → (⟨S64x32, .f32⟩ : BufTy).Contents (Elt F)),
    binary main_v14 main_v15 main_v16 (mulf : (⟨S64x32, .f32⟩ : BufTy).Contents (Elt F) → (⟨S64x32, .f32⟩ : BufTy).Contents (Elt F) → (⟨S64x32, .f32⟩ : BufTy).Contents (Elt F)),
    unary main_arg3 main_v17 ((extractStridedSlice S64x32x1 ![0, 0, 1] · slices_S64x32x6_S64x32x1_0_0_1) : (⟨S64x32x6, .f32⟩ : BufTy).Contents (Elt F) → (⟨S64x32x1, .f32⟩ : BufTy).Contents (Elt F)),
    reshape main_v17 main_v18 rfl shapeCasts_S64x32x1_S64x32,
    nullary main_cst_0 (constant S_ .f32 0x42C00000#32),
    unary main_cst_0 main_v19 (broadcastInDim S64x32 ![] bcast_S_S64x32 : (⟨S_, .f32⟩ : BufTy).Contents (Elt F) → (⟨S64x32, .f32⟩ : BufTy).Contents (Elt F)),
    binary main_v18 main_v19 main_v20 (mulf : (⟨S64x32, .f32⟩ : BufTy).Contents (Elt F) → (⟨S64x32, .f32⟩ : BufTy).Contents (Elt F) → (⟨S64x32, .f32⟩ : BufTy).Contents (Elt F)),
    unary main_arg3 main_v21 ((extractStridedSlice S64x32x1 ![0, 0, 2] · slices_S64x32x6_S64x32x1_0_0_2) : (⟨S64x32x6, .f32⟩ : BufTy).Contents (Elt F) → (⟨S64x32x1, .f32⟩ : BufTy).Contents (Elt F)),
    reshape main_v21 main_v22 rfl shapeCasts_S64x32x1_S64x32,
    unary main_arg3 main_v23 ((extractStridedSlice S64x32x1 ![0, 0, 3] · slices_S64x32x6_S64x32x1_0_0_3) : (⟨S64x32x6, .f32⟩ : BufTy).Contents (Elt F) → (⟨S64x32x1, .f32⟩ : BufTy).Contents (Elt F)),
    reshape main_v23 main_v24 rfl shapeCasts_S64x32x1_S64x32,
    nullary main_cst_1 (constant S_ .f32 0x42C00000#32),
    unary main_cst_1 main_v25 (broadcastInDim S64x32 ![] bcast_S_S64x32 : (⟨S_, .f32⟩ : BufTy).Contents (Elt F) → (⟨S64x32, .f32⟩ : BufTy).Contents (Elt F)),
    binary main_v24 main_v25 main_v26 (mulf : (⟨S64x32, .f32⟩ : BufTy).Contents (Elt F) → (⟨S64x32, .f32⟩ : BufTy).Contents (Elt F) → (⟨S64x32, .f32⟩ : BufTy).Contents (Elt F)) ]

set_option maxRecDepth 8192 in
theorem ops_0_sub : (ops_0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., reshape_bufs_sub .., unary_bufs_sub .., reshape_bufs_sub .., nullary_bufs_sub .., unary_bufs_sub .., binary_bufs_sub .., unary_bufs_sub .., reshape_bufs_sub .., nullary_bufs_sub .., unary_bufs_sub .., binary_bufs_sub .., unary_bufs_sub .., reshape_bufs_sub .., unary_bufs_sub .., reshape_bufs_sub .., nullary_bufs_sub .., unary_bufs_sub .., binary_bufs_sub ..⟩

set_option maxRecDepth 8192 in
theorem ops_0_fresh : (ops_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_0 (h : Inv_0 (F := F) x0 x1 x2 x3 x4 V) :
    Inv_30 (F := F) x0 x1 x2 x3 x4 (after ops_0 V) := by
  unfold Inv_0 at h
  obtain ⟨ha0, ha1, ha2, ha3, ha4⟩ := h
  unfold Inv_30
  refine ⟨?_, ?_, ?_, ?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4])) <;>
      (try simp only [TRef.ofBuf, TRef.toBuf, cast_eq]) <;> rfl)

set_option maxRecDepth 8192 in
set_option maxHeartbeats 4000000 in

abbrev ops_30 : List (HloOp τ sig (Elt F)) :=
  [ unary main_arg3 main_v27 ((extractStridedSlice S64x32x1 ![0, 0, 4] · slices_S64x32x6_S64x32x1_0_0_4) : (⟨S64x32x6, .f32⟩ : BufTy).Contents (Elt F) → (⟨S64x32x1, .f32⟩ : BufTy).Contents (Elt F)),
    reshape main_v27 main_v28 rfl shapeCasts_S64x32x1_S64x32,
    nullary main_cst_2 (constant S_ .f32 0x42C00000#32),
    unary main_cst_2 main_v29 (broadcastInDim S64x32 ![] bcast_S_S64x32 : (⟨S_, .f32⟩ : BufTy).Contents (Elt F) → (⟨S64x32, .f32⟩ : BufTy).Contents (Elt F)),
    binary main_v28 main_v29 main_v30 (mulf : (⟨S64x32, .f32⟩ : BufTy).Contents (Elt F) → (⟨S64x32, .f32⟩ : BufTy).Contents (Elt F) → (⟨S64x32, .f32⟩ : BufTy).Contents (Elt F)),
    unary main_arg3 main_v31 ((extractStridedSlice S64x32x1 ![0, 0, 5] · slices_S64x32x6_S64x32x1_0_0_5) : (⟨S64x32x6, .f32⟩ : BufTy).Contents (Elt F) → (⟨S64x32x1, .f32⟩ : BufTy).Contents (Elt F)),
    reshape main_v31 main_v32 rfl shapeCasts_S64x32x1_S64x32,
    unary main_v16 main_v33 (fptosi 32 : (⟨S64x32, .f32⟩ : BufTy).Contents (Elt F) → (⟨S64x32, .i32⟩ : BufTy).Contents (Elt F)),
    unary main_v20 main_v34 (fptosi 32 : (⟨S64x32, .f32⟩ : BufTy).Contents (Elt F) → (⟨S64x32, .i32⟩ : BufTy).Contents (Elt F)),
    nullary main_v35 (iotaInDim S64 32 0),
    unary main_v35 main_v36 (broadcastInDim S64x1 ![0] bcast_S64_S64x1_0 : (⟨S64, .i32⟩ : BufTy).Contents (Elt F) → (⟨S64x1, .i32⟩ : BufTy).Contents (Elt F)),
    nullary main_c (constantI S_ 32 0#32),
    unary main_c main_v37 (broadcastInDim S64x1 ![] bcast_S_S64x1 : (⟨S_, .i32⟩ : BufTy).Contents (Elt F) → (⟨S64x1, .i32⟩ : BufTy).Contents (Elt F)),
    binary main_v36 main_v37 main_v38 (cmpi .slt : (⟨S64x1, .i32⟩ : BufTy).Contents (Elt F) → (⟨S64x1, .i32⟩ : BufTy).Contents (Elt F) → (⟨S64x1, .i1⟩ : BufTy).Contents (Elt F)),
    nullary main_c_3 (constantI S_ 32 64#32),
    unary main_c_3 main_v39 (broadcastInDim S64x1 ![] bcast_S_S64x1 : (⟨S_, .i32⟩ : BufTy).Contents (Elt F) → (⟨S64x1, .i32⟩ : BufTy).Contents (Elt F)),
    binary main_v36 main_v39 main_v40 (addi : (⟨S64x1, .i32⟩ : BufTy).Contents (Elt F) → (⟨S64x1, .i32⟩ : BufTy).Contents (Elt F) → (⟨S64x1, .i32⟩ : BufTy).Contents (Elt F)),
    ternary main_v38 main_v40 main_v36 main_v41 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_4 (constantI S_ 32 0#32),
    unary main_c_4 main_v42 (broadcastInDim S64x32 ![] bcast_S_S64x32 : (⟨S_, .i32⟩ : BufTy).Contents (Elt F) → (⟨S64x32, .i32⟩ : BufTy).Contents (Elt F)),
    binary main_v34 main_v42 main_v43 (cmpi .slt : (⟨S64x32, .i32⟩ : BufTy).Contents (Elt F) → (⟨S64x32, .i32⟩ : BufTy).Contents (Elt F) → (⟨S64x32, .i1⟩ : BufTy).Contents (Elt F)),
    nullary main_c_5 (constantI S_ 32 96#32),
    unary main_c_5 main_v44 (broadcastInDim S64x32 ![] bcast_S_S64x32 : (⟨S_, .i32⟩ : BufTy).Contents (Elt F) → (⟨S64x32, .i32⟩ : BufTy).Contents (Elt F)),
    binary main_v34 main_v44 main_v45 (addi : (⟨S64x32, .i32⟩ : BufTy).Contents (Elt F) → (⟨S64x32, .i32⟩ : BufTy).Contents (Elt F) → (⟨S64x32, .i32⟩ : BufTy).Contents (Elt F)),
    ternary main_v43 main_v45 main_v34 main_v46 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_6 (constantI S_ 32 0#32),
    unary main_c_6 main_v47 (broadcastInDim S64x32 ![] bcast_S_S64x32 : (⟨S_, .i32⟩ : BufTy).Contents (Elt F) → (⟨S64x32, .i32⟩ : BufTy).Contents (Elt F)),
    binary main_v33 main_v47 main_v48 (cmpi .slt : (⟨S64x32, .i32⟩ : BufTy).Contents (Elt F) → (⟨S64x32, .i32⟩ : BufTy).Contents (Elt F) → (⟨S64x32, .i1⟩ : BufTy).Contents (Elt F)),
    nullary main_c_7 (constantI S_ 32 96#32),
    unary main_c_7 main_v49 (broadcastInDim S64x32 ![] bcast_S_S64x32 : (⟨S_, .i32⟩ : BufTy).Contents (Elt F) → (⟨S64x32, .i32⟩ : BufTy).Contents (Elt F)) ]

set_option maxRecDepth 8192 in
theorem ops_30_sub : (ops_30 : List (HloOp τ sig (Elt F))).Forall fun op => op.bufs ⊆ tcRefs τ sig :=
  ⟨unary_bufs_sub .., reshape_bufs_sub .., nullary_bufs_sub .., unary_bufs_sub .., binary_bufs_sub .., unary_bufs_sub .., reshape_bufs_sub .., unary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

set_option maxRecDepth 8192 in
theorem ops_30_fresh : (ops_30 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_30 (h : Inv_30 (F := F) x0 x1 x2 x3 x4 V) :
    Inv_60 (F := F) x0 x1 x2 x3 x4 (after ops_30 V) := by
  unfold Inv_30 at h
  obtain ⟨ha0, ha1, ha2, ha3, ha4, h_main_v1, h_main_v3, h_main_v5, h_main_v7, h_main_v9, h_main_v11, h_main_v12, h_main_v16, h_main_v20, h_main_v22, h_main_v26⟩ := h
  unfold Inv_60
  refine ⟨?_, ?_, ?_, ?_, ?_, ?_, ?_, ?_, ?_, ?_, ?_, ?_, ?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v1, h_main_v3, h_main_v5, h_main_v7, h_main_v9, h_main_v11, h_main_v12, h_main_v16, h_main_v20, h_main_v22, h_main_v26] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v1] | rw [h_main_v3] | rw [h_main_v5] | rw [h_main_v7] | rw [h_main_v9] | rw [h_main_v11] | rw [h_main_v12] | rw [h_main_v16] | rw [h_main_v20] | rw [h_main_v22] | rw [h_main_v26])) <;>
      (try simp only [TRef.ofBuf, TRef.toBuf, cast_eq]) <;> rfl)

def w0 : List (HloOp τ sig (Elt F)) := ops_0 ++ ops_30

theorem w0_sub : (w0 : List (HloOp τ sig (Elt F))).Forall fun op => op.bufs ⊆ tcRefs τ sig := forall_append ops_0_sub ops_30_sub

theorem w0_fresh : (w0 : List (HloOp τ sig (Elt F))).Forall fun op => op.fresh = ∅ := forall_append ops_0_fresh ops_30_fresh

theorem step_w0 (h : Inv_0 (F := F) x0 x1 x2 x3 x4 V) :
    Inv_60 (F := F) x0 x1 x2 x3 x4 (after w0 V) := by
  unfold w0
  simp only [StableHlo.after_append]
  exact step_30 (step_0 h)

set_option maxRecDepth 65536 in

theorem main_part0_eq (c : Dev nD) : main_part0 (F := F) c = seq w0 := by chain_rfl

end Cert.ReferenceIdeal.ValueP

end
-- ==== Proof.Ref.RunW1.lean ====
import proofs.«431468_j28140625724039_3_alg».proof.Proof.Ref.RunInv
import Idealize.ShloMosaic.Lib.Pipeline.Regions

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S64x96x96x6, .f32⟩ : BufTy).Contents (Elt F)} {x1 : (⟨S64x96x96x1, .f32⟩ : BufTy).Contents (Elt F)} {x2 : (⟨S64x96x96x63, .f32⟩ : BufTy).Contents (Elt F)} {x3 : (⟨S64x32x6, .f32⟩ : BufTy).Contents (Elt F)} {x4 : (⟨S64x32x63, .f32⟩ : BufTy).Contents (Elt F)} {V : Valuation τ sig (Elt F)}

set_option maxRecDepth 8192 in
set_option maxHeartbeats 4000000 in

abbrev ops_60 : List (HloOp τ sig (Elt F)) :=
  [ binary main_v33 main_v49 main_v50 (addi : (⟨S64x32, .i32⟩ : BufTy).Contents (Elt F) → (⟨S64x32, .i32⟩ : BufTy).Contents (Elt F) → (⟨S64x32, .i32⟩ : BufTy).Contents (Elt F)),
    ternary main_v48 main_v50 main_v33 main_v51 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    unary main_v41 main_v52 (broadcastInDim S64x32 ![0, 1] bcast_S64x1_S64x32_0_1 : (⟨S64x1, .i32⟩ : BufTy).Contents (Elt F) → (⟨S64x32, .i32⟩ : BufTy).Contents (Elt F)),
    unary main_v52 main_v53 (broadcastInDim S64x32x1 ![0, 1] bcast_S64x32_S64x32x1_0_1 : (⟨S64x32, .i32⟩ : BufTy).Contents (Elt F) → (⟨S64x32x1, .i32⟩ : BufTy).Contents (Elt F)),
    unary main_v46 main_v54 (broadcastInDim S64x32x1 ![0, 1] bcast_S64x32_S64x32x1_0_1 : (⟨S64x32, .i32⟩ : BufTy).Contents (Elt F) → (⟨S64x32x1, .i32⟩ : BufTy).Contents (Elt F)),
    unary main_v51 main_v55 (broadcastInDim S64x32x1 ![0, 1] bcast_S64x32_S64x32x1_0_1 : (⟨S64x32, .i32⟩ : BufTy).Contents (Elt F) → (⟨S64x32x1, .i32⟩ : BufTy).Contents (Elt F)),
    nary ![main_v53, main_v54, main_v55] main_v56 (fun u => concatenate S64x32x3 2 [⟨S64x32x1, u 0⟩, ⟨S64x32x1, u 1⟩, ⟨S64x32x1, u 2⟩] concatenates_S64x32x1_S64x32x1_S64x32x1_S64x32x3_d2),
    binary main_v1 main_v56 main_v57 ((fun x i => Host.gather gather_S64x96x96_S64x32x3_S64x32_n_012_n_n_012_2_111 x i) : (⟨S64x96x96, .f32⟩ : BufTy).Contents (Elt F) → (⟨S64x32x3, .i32⟩ : BufTy).Contents (Elt F) → (⟨S64x32, .f32⟩ : BufTy).Contents (Elt F)),
    nullary main_c_8 (constantI S_ 32 0#32),
    unary main_c_8 main_v58 (broadcastInDim S64x1 ![] bcast_S_S64x1 : (⟨S_, .i32⟩ : BufTy).Contents (Elt F) → (⟨S64x1, .i32⟩ : BufTy).Contents (Elt F)),
    binary main_v36 main_v58 main_v59 (cmpi .slt : (⟨S64x1, .i32⟩ : BufTy).Contents (Elt F) → (⟨S64x1, .i32⟩ : BufTy).Contents (Elt F) → (⟨S64x1, .i1⟩ : BufTy).Contents (Elt F)),
    nullary main_c_9 (constantI S_ 32 64#32),
    unary main_c_9 main_v60 (broadcastInDim S64x1 ![] bcast_S_S64x1 : (⟨S_, .i32⟩ : BufTy).Contents (Elt F) → (⟨S64x1, .i32⟩ : BufTy).Contents (Elt F)),
    binary main_v36 main_v60 main_v61 (addi : (⟨S64x1, .i32⟩ : BufTy).Contents (Elt F) → (⟨S64x1, .i32⟩ : BufTy).Contents (Elt F) → (⟨S64x1, .i32⟩ : BufTy).Contents (Elt F)),
    ternary main_v59 main_v61 main_v36 main_v62 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_10 (constantI S_ 32 0#32),
    unary main_c_10 main_v63 (broadcastInDim S64x32 ![] bcast_S_S64x32 : (⟨S_, .i32⟩ : BufTy).Contents (Elt F) → (⟨S64x32, .i32⟩ : BufTy).Contents (Elt F)),
    binary main_v34 main_v63 main_v64 (cmpi .slt : (⟨S64x32, .i32⟩ : BufTy).Contents (Elt F) → (⟨S64x32, .i32⟩ : BufTy).Contents (Elt F) → (⟨S64x32, .i1⟩ : BufTy).Contents (Elt F)),
    nullary main_c_11 (constantI S_ 32 96#32),
    unary main_c_11 main_v65 (broadcastInDim S64x32 ![] bcast_S_S64x32 : (⟨S_, .i32⟩ : BufTy).Contents (Elt F) → (⟨S64x32, .i32⟩ : BufTy).Contents (Elt F)),
    binary main_v34 main_v65 main_v66 (addi : (⟨S64x32, .i32⟩ : BufTy).Contents (Elt F) → (⟨S64x32, .i32⟩ : BufTy).Contents (Elt F) → (⟨S64x32, .i32⟩ : BufTy).Contents (Elt F)),
    ternary main_v64 main_v66 main_v34 main_v67 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_12 (constantI S_ 32 0#32),
    unary main_c_12 main_v68 (broadcastInDim S64x32 ![] bcast_S_S64x32 : (⟨S_, .i32⟩ : BufTy).Contents (Elt F) → (⟨S64x32, .i32⟩ : BufTy).Contents (Elt F)),
    binary main_v33 main_v68 main_v69 (cmpi .slt : (⟨S64x32, .i32⟩ : BufTy).Contents (Elt F) → (⟨S64x32, .i32⟩ : BufTy).Contents (Elt F) → (⟨S64x32, .i1⟩ : BufTy).Contents (Elt F)),
    nullary main_c_13 (constantI S_ 32 96#32),
    unary main_c_13 main_v70 (broadcastInDim S64x32 ![] bcast_S_S64x32 : (⟨S_, .i32⟩ : BufTy).Contents (Elt F) → (⟨S64x32, .i32⟩ : BufTy).Contents (Elt F)),
    binary main_v33 main_v70 main_v71 (addi : (⟨S64x32, .i32⟩ : BufTy).Contents (Elt F) → (⟨S64x32, .i32⟩ : BufTy).Contents (Elt F) → (⟨S64x32, .i32⟩ : BufTy).Contents (Elt F)),
    ternary main_v69 main_v71 main_v33 main_v72 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    unary main_v62 main_v73 (broadcastInDim S64x32 ![0, 1] bcast_S64x1_S64x32_0_1 : (⟨S64x1, .i32⟩ : BufTy).Contents (Elt F) → (⟨S64x32, .i32⟩ : BufTy).Contents (Elt F)) ]

set_option maxRecDepth 8192 in
theorem ops_60_sub : (ops_60 : List (HloOp τ sig (Elt F))).Forall fun op => op.bufs ⊆ tcRefs τ sig :=
  ⟨binary_bufs_sub .., ternary_bufs_sub .., unary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub ..⟩

set_option maxRecDepth 8192 in
theorem ops_60_fresh : (ops_60 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_60 (h : Inv_60 (F := F) x0 x1 x2 x3 x4 V) :
    Inv_90 (F := F) x0 x1 x2 x3 x4 (after ops_60 V) := by
  unfold Inv_60 at h
  obtain ⟨ha0, ha1, ha2, ha3, ha4, h_main_v1, h_main_v3, h_main_v5, h_main_v7, h_main_v9, h_main_v11, h_main_v12, h_main_v16, h_main_v20, h_main_v22, h_main_v26, h_main_v30, h_main_v32, h_main_v33, h_main_v34, h_main_v36, h_main_v41, h_main_v46, h_main_v48, h_main_v49⟩ := h
  unfold Inv_90
  refine ⟨?_, ?_, ?_, ?_, ?_, ?_, ?_, ?_, ?_, ?_, ?_, ?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v1, h_main_v3, h_main_v5, h_main_v7, h_main_v9, h_main_v11, h_main_v12, h_main_v16, h_main_v20, h_main_v22, h_main_v26, h_main_v30, h_main_v32, h_main_v33, h_main_v34, h_main_v36, h_main_v41, h_main_v46, h_main_v48, h_main_v49] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v1] | rw [h_main_v3] | rw [h_main_v5] | rw [h_main_v7] | rw [h_main_v9] | rw [h_main_v11] | rw [h_main_v12] | rw [h_main_v16] | rw [h_main_v20] | rw [h_main_v22] | rw [h_main_v26] | rw [h_main_v30] | rw [h_main_v32] | rw [h_main_v33] | rw [h_main_v34] | rw [h_main_v36] | rw [h_main_v41] | rw [h_main_v46] | rw [h_main_v48] | rw [h_main_v49])) <;>
      (try simp only [TRef.ofBuf, TRef.toBuf, cast_eq]) <;> rfl)

set_option maxRecDepth 8192 in
set_option maxHeartbeats 4000000 in

abbrev ops_90 : List (HloOp τ sig (Elt F)) :=
  [ unary main_v73 main_v74 (broadcastInDim S64x32x1 ![0, 1] bcast_S64x32_S64x32x1_0_1 : (⟨S64x32, .i32⟩ : BufTy).Contents (Elt F) → (⟨S64x32x1, .i32⟩ : BufTy).Contents (Elt F)),
    unary main_v67 main_v75 (broadcastInDim S64x32x1 ![0, 1] bcast_S64x32_S64x32x1_0_1 : (⟨S64x32, .i32⟩ : BufTy).Contents (Elt F) → (⟨S64x32x1, .i32⟩ : BufTy).Contents (Elt F)),
    unary main_v72 main_v76 (broadcastInDim S64x32x1 ![0, 1] bcast_S64x32_S64x32x1_0_1 : (⟨S64x32, .i32⟩ : BufTy).Contents (Elt F) → (⟨S64x32x1, .i32⟩ : BufTy).Contents (Elt F)),
    nary ![main_v74, main_v75, main_v76] main_v77 (fun u => concatenate S64x32x3 2 [⟨S64x32x1, u 0⟩, ⟨S64x32x1, u 1⟩, ⟨S64x32x1, u 2⟩] concatenates_S64x32x1_S64x32x1_S64x32x1_S64x32x3_d2),
    binary main_v3 main_v77 main_v78 ((fun x i => Host.gather gather_S64x96x96_S64x32x3_S64x32_n_012_n_n_012_2_111 x i) : (⟨S64x96x96, .f32⟩ : BufTy).Contents (Elt F) → (⟨S64x32x3, .i32⟩ : BufTy).Contents (Elt F) → (⟨S64x32, .f32⟩ : BufTy).Contents (Elt F)),
    nullary main_c_14 (constantI S_ 32 0#32),
    unary main_c_14 main_v79 (broadcastInDim S64x1 ![] bcast_S_S64x1 : (⟨S_, .i32⟩ : BufTy).Contents (Elt F) → (⟨S64x1, .i32⟩ : BufTy).Contents (Elt F)),
    binary main_v36 main_v79 main_v80 (cmpi .slt : (⟨S64x1, .i32⟩ : BufTy).Contents (Elt F) → (⟨S64x1, .i32⟩ : BufTy).Contents (Elt F) → (⟨S64x1, .i1⟩ : BufTy).Contents (Elt F)),
    nullary main_c_15 (constantI S_ 32 64#32),
    unary main_c_15 main_v81 (broadcastInDim S64x1 ![] bcast_S_S64x1 : (⟨S_, .i32⟩ : BufTy).Contents (Elt F) → (⟨S64x1, .i32⟩ : BufTy).Contents (Elt F)),
    binary main_v36 main_v81 main_v82 (addi : (⟨S64x1, .i32⟩ : BufTy).Contents (Elt F) → (⟨S64x1, .i32⟩ : BufTy).Contents (Elt F) → (⟨S64x1, .i32⟩ : BufTy).Contents (Elt F)),
    ternary main_v80 main_v82 main_v36 main_v83 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_16 (constantI S_ 32 0#32),
    unary main_c_16 main_v84 (broadcastInDim S64x32 ![] bcast_S_S64x32 : (⟨S_, .i32⟩ : BufTy).Contents (Elt F) → (⟨S64x32, .i32⟩ : BufTy).Contents (Elt F)),
    binary main_v34 main_v84 main_v85 (cmpi .slt : (⟨S64x32, .i32⟩ : BufTy).Contents (Elt F) → (⟨S64x32, .i32⟩ : BufTy).Contents (Elt F) → (⟨S64x32, .i1⟩ : BufTy).Contents (Elt F)),
    nullary main_c_17 (constantI S_ 32 96#32),
    unary main_c_17 main_v86 (broadcastInDim S64x32 ![] bcast_S_S64x32 : (⟨S_, .i32⟩ : BufTy).Contents (Elt F) → (⟨S64x32, .i32⟩ : BufTy).Contents (Elt F)),
    binary main_v34 main_v86 main_v87 (addi : (⟨S64x32, .i32⟩ : BufTy).Contents (Elt F) → (⟨S64x32, .i32⟩ : BufTy).Contents (Elt F) → (⟨S64x32, .i32⟩ : BufTy).Contents (Elt F)),
    ternary main_v85 main_v87 main_v34 main_v88 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_18 (constantI S_ 32 0#32),
    unary main_c_18 main_v89 (broadcastInDim S64x32 ![] bcast_S_S64x32 : (⟨S_, .i32⟩ : BufTy).Contents (Elt F) → (⟨S64x32, .i32⟩ : BufTy).Contents (Elt F)),
    binary main_v33 main_v89 main_v90 (cmpi .slt : (⟨S64x32, .i32⟩ : BufTy).Contents (Elt F) → (⟨S64x32, .i32⟩ : BufTy).Contents (Elt F) → (⟨S64x32, .i1⟩ : BufTy).Contents (Elt F)),
    nullary main_c_19 (constantI S_ 32 96#32),
    unary main_c_19 main_v91 (broadcastInDim S64x32 ![] bcast_S_S64x32 : (⟨S_, .i32⟩ : BufTy).Contents (Elt F) → (⟨S64x32, .i32⟩ : BufTy).Contents (Elt F)),
    binary main_v33 main_v91 main_v92 (addi : (⟨S64x32, .i32⟩ : BufTy).Contents (Elt F) → (⟨S64x32, .i32⟩ : BufTy).Contents (Elt F) → (⟨S64x32, .i32⟩ : BufTy).Contents (Elt F)),
    ternary main_v90 main_v92 main_v33 main_v93 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    unary main_v83 main_v94 (broadcastInDim S64x32 ![0, 1] bcast_S64x1_S64x32_0_1 : (⟨S64x1, .i32⟩ : BufTy).Contents (Elt F) → (⟨S64x32, .i32⟩ : BufTy).Contents (Elt F)),
    unary main_v94 main_v95 (broadcastInDim S64x32x1 ![0, 1] bcast_S64x32_S64x32x1_0_1 : (⟨S64x32, .i32⟩ : BufTy).Contents (Elt F) → (⟨S64x32x1, .i32⟩ : BufTy).Contents (Elt F)),
    unary main_v88 main_v96 (broadcastInDim S64x32x1 ![0, 1] bcast_S64x32_S64x32x1_0_1 : (⟨S64x32, .i32⟩ : BufTy).Contents (Elt F) → (⟨S64x32x1, .i32⟩ : BufTy).Contents (Elt F)),
    unary main_v93 main_v97 (broadcastInDim S64x32x1 ![0, 1] bcast_S64x32_S64x32x1_0_1 : (⟨S64x32, .i32⟩ : BufTy).Contents (Elt F) → (⟨S64x32x1, .i32⟩ : BufTy).Contents (Elt F)) ]

set_option maxRecDepth 8192 in
theorem ops_90_sub : (ops_90 : List (HloOp τ sig (Elt F))).Forall fun op => op.bufs ⊆ tcRefs τ sig :=
  ⟨unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub ..⟩

set_option maxRecDepth 8192 in
theorem ops_90_fresh : (ops_90 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_90 (h : Inv_90 (F := F) x0 x1 x2 x3 x4 V) :
    Inv_120 (F := F) x0 x1 x2 x3 x4 (after ops_90 V) := by
  unfold Inv_90 at h
  obtain ⟨ha0, ha1, ha2, ha3, ha4, h_main_v3, h_main_v5, h_main_v7, h_main_v9, h_main_v11, h_main_v12, h_main_v16, h_main_v20, h_main_v22, h_main_v26, h_main_v30, h_main_v32, h_main_v33, h_main_v34, h_main_v36, h_main_v57, h_main_v67, h_main_v72, h_main_v73⟩ := h
  unfold Inv_120
  refine ⟨?_, ?_, ?_, ?_, ?_, ?_, ?_, ?_, ?_, ?_, ?_, ?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v3, h_main_v5, h_main_v7, h_main_v9, h_main_v11, h_main_v12, h_main_v16, h_main_v20, h_main_v22, h_main_v26, h_main_v30, h_main_v32, h_main_v33, h_main_v34, h_main_v36, h_main_v57, h_main_v67, h_main_v72, h_main_v73] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v3] | rw [h_main_v5] | rw [h_main_v7] | rw [h_main_v9] | rw [h_main_v11] | rw [h_main_v12] | rw [h_main_v16] | rw [h_main_v20] | rw [h_main_v22] | rw [h_main_v26] | rw [h_main_v30] | rw [h_main_v32] | rw [h_main_v33] | rw [h_main_v34] | rw [h_main_v36] | rw [h_main_v57] | rw [h_main_v67] | rw [h_main_v72] | rw [h_main_v73])) <;>
      (try simp only [TRef.ofBuf, TRef.toBuf, cast_eq]) <;> rfl)

def w1 : List (HloOp τ sig (Elt F)) := ops_60 ++ ops_90

theorem w1_sub : (w1 : List (HloOp τ sig (Elt F))).Forall fun op => op.bufs ⊆ tcRefs τ sig := forall_append ops_60_sub ops_90_sub

theorem w1_fresh : (w1 : List (HloOp τ sig (Elt F))).Forall fun op => op.fresh = ∅ := forall_append ops_60_fresh ops_90_fresh

theorem step_w1 (h : Inv_60 (F := F) x0 x1 x2 x3 x4 V) :
    Inv_120 (F := F) x0 x1 x2 x3 x4 (after w1 V) := by
  unfold w1
  simp only [StableHlo.after_append]
  exact step_90 (step_60 h)

set_option maxRecDepth 65536 in

theorem main_part1_eq (c : Dev nD) : main_part1 (F := F) c = seq w1 := by chain_rfl

end Cert.ReferenceIdeal.ValueP

end
-- ==== Proof.Ref.RunW2.lean ====
import proofs.«431468_j28140625724039_3_alg».proof.Proof.Ref.RunInv
import Idealize.ShloMosaic.Lib.Pipeline.Regions

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S64x96x96x6, .f32⟩ : BufTy).Contents (Elt F)} {x1 : (⟨S64x96x96x1, .f32⟩ : BufTy).Contents (Elt F)} {x2 : (⟨S64x96x96x63, .f32⟩ : BufTy).Contents (Elt F)} {x3 : (⟨S64x32x6, .f32⟩ : BufTy).Contents (Elt F)} {x4 : (⟨S64x32x63, .f32⟩ : BufTy).Contents (Elt F)} {V : Valuation τ sig (Elt F)}

set_option maxRecDepth 8192 in
set_option maxHeartbeats 4000000 in

abbrev ops_120 : List (HloOp τ sig (Elt F)) :=
  [ nary ![main_v95, main_v96, main_v97] main_v98 (fun u => concatenate S64x32x3 2 [⟨S64x32x1, u 0⟩, ⟨S64x32x1, u 1⟩, ⟨S64x32x1, u 2⟩] concatenates_S64x32x1_S64x32x1_S64x32x1_S64x32x3_d2),
    binary main_v5 main_v98 main_v99 ((fun x i => Host.gather gather_S64x96x96_S64x32x3_S64x32_n_012_n_n_012_2_111 x i) : (⟨S64x96x96, .f32⟩ : BufTy).Contents (Elt F) → (⟨S64x32x3, .i32⟩ : BufTy).Contents (Elt F) → (⟨S64x32, .f32⟩ : BufTy).Contents (Elt F)),
    nullary main_c_20 (constantI S_ 32 0#32),
    unary main_c_20 main_v100 (broadcastInDim S64x1 ![] bcast_S_S64x1 : (⟨S_, .i32⟩ : BufTy).Contents (Elt F) → (⟨S64x1, .i32⟩ : BufTy).Contents (Elt F)),
    binary main_v36 main_v100 main_v101 (cmpi .slt : (⟨S64x1, .i32⟩ : BufTy).Contents (Elt F) → (⟨S64x1, .i32⟩ : BufTy).Contents (Elt F) → (⟨S64x1, .i1⟩ : BufTy).Contents (Elt F)),
    nullary main_c_21 (constantI S_ 32 64#32),
    unary main_c_21 main_v102 (broadcastInDim S64x1 ![] bcast_S_S64x1 : (⟨S_, .i32⟩ : BufTy).Contents (Elt F) → (⟨S64x1, .i32⟩ : BufTy).Contents (Elt F)),
    binary main_v36 main_v102 main_v103 (addi : (⟨S64x1, .i32⟩ : BufTy).Contents (Elt F) → (⟨S64x1, .i32⟩ : BufTy).Contents (Elt F) → (⟨S64x1, .i32⟩ : BufTy).Contents (Elt F)),
    ternary main_v101 main_v103 main_v36 main_v104 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_22 (constantI S_ 32 0#32),
    unary main_c_22 main_v105 (broadcastInDim S64x32 ![] bcast_S_S64x32 : (⟨S_, .i32⟩ : BufTy).Contents (Elt F) → (⟨S64x32, .i32⟩ : BufTy).Contents (Elt F)),
    binary main_v34 main_v105 main_v106 (cmpi .slt : (⟨S64x32, .i32⟩ : BufTy).Contents (Elt F) → (⟨S64x32, .i32⟩ : BufTy).Contents (Elt F) → (⟨S64x32, .i1⟩ : BufTy).Contents (Elt F)),
    nullary main_c_23 (constantI S_ 32 96#32),
    unary main_c_23 main_v107 (broadcastInDim S64x32 ![] bcast_S_S64x32 : (⟨S_, .i32⟩ : BufTy).Contents (Elt F) → (⟨S64x32, .i32⟩ : BufTy).Contents (Elt F)),
    binary main_v34 main_v107 main_v108 (addi : (⟨S64x32, .i32⟩ : BufTy).Contents (Elt F) → (⟨S64x32, .i32⟩ : BufTy).Contents (Elt F) → (⟨S64x32, .i32⟩ : BufTy).Contents (Elt F)),
    ternary main_v106 main_v108 main_v34 main_v109 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_24 (constantI S_ 32 0#32),
    unary main_c_24 main_v110 (broadcastInDim S64x32 ![] bcast_S_S64x32 : (⟨S_, .i32⟩ : BufTy).Contents (Elt F) → (⟨S64x32, .i32⟩ : BufTy).Contents (Elt F)),
    binary main_v33 main_v110 main_v111 (cmpi .slt : (⟨S64x32, .i32⟩ : BufTy).Contents (Elt F) → (⟨S64x32, .i32⟩ : BufTy).Contents (Elt F) → (⟨S64x32, .i1⟩ : BufTy).Contents (Elt F)),
    nullary main_c_25 (constantI S_ 32 96#32),
    unary main_c_25 main_v112 (broadcastInDim S64x32 ![] bcast_S_S64x32 : (⟨S_, .i32⟩ : BufTy).Contents (Elt F) → (⟨S64x32, .i32⟩ : BufTy).Contents (Elt F)),
    binary main_v33 main_v112 main_v113 (addi : (⟨S64x32, .i32⟩ : BufTy).Contents (Elt F) → (⟨S64x32, .i32⟩ : BufTy).Contents (Elt F) → (⟨S64x32, .i32⟩ : BufTy).Contents (Elt F)),
    ternary main_v111 main_v113 main_v33 main_v114 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    unary main_v104 main_v115 (broadcastInDim S64x32 ![0, 1] bcast_S64x1_S64x32_0_1 : (⟨S64x1, .i32⟩ : BufTy).Contents (Elt F) → (⟨S64x32, .i32⟩ : BufTy).Contents (Elt F)),
    unary main_v115 main_v116 (broadcastInDim S64x32x1 ![0, 1] bcast_S64x32_S64x32x1_0_1 : (⟨S64x32, .i32⟩ : BufTy).Contents (Elt F) → (⟨S64x32x1, .i32⟩ : BufTy).Contents (Elt F)),
    unary main_v109 main_v117 (broadcastInDim S64x32x1 ![0, 1] bcast_S64x32_S64x32x1_0_1 : (⟨S64x32, .i32⟩ : BufTy).Contents (Elt F) → (⟨S64x32x1, .i32⟩ : BufTy).Contents (Elt F)),
    unary main_v114 main_v118 (broadcastInDim S64x32x1 ![0, 1] bcast_S64x32_S64x32x1_0_1 : (⟨S64x32, .i32⟩ : BufTy).Contents (Elt F) → (⟨S64x32x1, .i32⟩ : BufTy).Contents (Elt F)),
    nary ![main_v116, main_v117, main_v118] main_v119 (fun u => concatenate S64x32x3 2 [⟨S64x32x1, u 0⟩, ⟨S64x32x1, u 1⟩, ⟨S64x32x1, u 2⟩] concatenates_S64x32x1_S64x32x1_S64x32x1_S64x32x3_d2),
    binary main_v7 main_v119 main_v120 ((fun x i => Host.gather gather_S64x96x96_S64x32x3_S64x32_n_012_n_n_012_2_111 x i) : (⟨S64x96x96, .f32⟩ : BufTy).Contents (Elt F) → (⟨S64x32x3, .i32⟩ : BufTy).Contents (Elt F) → (⟨S64x32, .f32⟩ : BufTy).Contents (Elt F)),
    nullary main_c_26 (constantI S_ 32 0#32) ]

set_option maxRecDepth 8192 in
theorem ops_120_sub : (ops_120 : List (HloOp τ sig (Elt F))).Forall fun op => op.bufs ⊆ tcRefs τ sig :=
  ⟨nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub ..⟩

set_option maxRecDepth 8192 in
theorem ops_120_fresh : (ops_120 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_120 (h : Inv_120 (F := F) x0 x1 x2 x3 x4 V) :
    Inv_150 (F := F) x0 x1 x2 x3 x4 (after ops_120 V) := by
  unfold Inv_120 at h
  obtain ⟨ha0, ha1, ha2, ha3, ha4, h_main_v5, h_main_v7, h_main_v9, h_main_v11, h_main_v12, h_main_v16, h_main_v20, h_main_v22, h_main_v26, h_main_v30, h_main_v32, h_main_v33, h_main_v34, h_main_v36, h_main_v57, h_main_v78, h_main_v95, h_main_v96, h_main_v97⟩ := h
  unfold Inv_150
  refine ⟨?_, ?_, ?_, ?_, ?_, ?_, ?_, ?_, ?_, ?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v5, h_main_v7, h_main_v9, h_main_v11, h_main_v12, h_main_v16, h_main_v20, h_main_v22, h_main_v26, h_main_v30, h_main_v32, h_main_v33, h_main_v34, h_main_v36, h_main_v57, h_main_v78, h_main_v95, h_main_v96, h_main_v97] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v5] | rw [h_main_v7] | rw [h_main_v9] | rw [h_main_v11] | rw [h_main_v12] | rw [h_main_v16] | rw [h_main_v20] | rw [h_main_v22] | rw [h_main_v26] | rw [h_main_v30] | rw [h_main_v32] | rw [h_main_v33] | rw [h_main_v34] | rw [h_main_v36] | rw [h_main_v57] | rw [h_main_v78] | rw [h_main_v95] | rw [h_main_v96] | rw [h_main_v97])) <;>
      (try simp only [TRef.ofBuf, TRef.toBuf, cast_eq]) <;> rfl)

set_option maxRecDepth 8192 in
set_option maxHeartbeats 4000000 in

abbrev ops_150 : List (HloOp τ sig (Elt F)) :=
  [ unary main_c_26 main_v121 (broadcastInDim S64x1 ![] bcast_S_S64x1 : (⟨S_, .i32⟩ : BufTy).Contents (Elt F) → (⟨S64x1, .i32⟩ : BufTy).Contents (Elt F)),
    binary main_v36 main_v121 main_v122 (cmpi .slt : (⟨S64x1, .i32⟩ : BufTy).Contents (Elt F) → (⟨S64x1, .i32⟩ : BufTy).Contents (Elt F) → (⟨S64x1, .i1⟩ : BufTy).Contents (Elt F)),
    nullary main_c_27 (constantI S_ 32 64#32),
    unary main_c_27 main_v123 (broadcastInDim S64x1 ![] bcast_S_S64x1 : (⟨S_, .i32⟩ : BufTy).Contents (Elt F) → (⟨S64x1, .i32⟩ : BufTy).Contents (Elt F)),
    binary main_v36 main_v123 main_v124 (addi : (⟨S64x1, .i32⟩ : BufTy).Contents (Elt F) → (⟨S64x1, .i32⟩ : BufTy).Contents (Elt F) → (⟨S64x1, .i32⟩ : BufTy).Contents (Elt F)),
    ternary main_v122 main_v124 main_v36 main_v125 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_28 (constantI S_ 32 0#32),
    unary main_c_28 main_v126 (broadcastInDim S64x32 ![] bcast_S_S64x32 : (⟨S_, .i32⟩ : BufTy).Contents (Elt F) → (⟨S64x32, .i32⟩ : BufTy).Contents (Elt F)),
    binary main_v34 main_v126 main_v127 (cmpi .slt : (⟨S64x32, .i32⟩ : BufTy).Contents (Elt F) → (⟨S64x32, .i32⟩ : BufTy).Contents (Elt F) → (⟨S64x32, .i1⟩ : BufTy).Contents (Elt F)),
    nullary main_c_29 (constantI S_ 32 96#32),
    unary main_c_29 main_v128 (broadcastInDim S64x32 ![] bcast_S_S64x32 : (⟨S_, .i32⟩ : BufTy).Contents (Elt F) → (⟨S64x32, .i32⟩ : BufTy).Contents (Elt F)),
    binary main_v34 main_v128 main_v129 (addi : (⟨S64x32, .i32⟩ : BufTy).Contents (Elt F) → (⟨S64x32, .i32⟩ : BufTy).Contents (Elt F) → (⟨S64x32, .i32⟩ : BufTy).Contents (Elt F)),
    ternary main_v127 main_v129 main_v34 main_v130 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_30 (constantI S_ 32 0#32),
    unary main_c_30 main_v131 (broadcastInDim S64x32 ![] bcast_S_S64x32 : (⟨S_, .i32⟩ : BufTy).Contents (Elt F) → (⟨S64x32, .i32⟩ : BufTy).Contents (Elt F)),
    binary main_v33 main_v131 main_v132 (cmpi .slt : (⟨S64x32, .i32⟩ : BufTy).Contents (Elt F) → (⟨S64x32, .i32⟩ : BufTy).Contents (Elt F) → (⟨S64x32, .i1⟩ : BufTy).Contents (Elt F)),
    nullary main_c_31 (constantI S_ 32 96#32),
    unary main_c_31 main_v133 (broadcastInDim S64x32 ![] bcast_S_S64x32 : (⟨S_, .i32⟩ : BufTy).Contents (Elt F) → (⟨S64x32, .i32⟩ : BufTy).Contents (Elt F)),
    binary main_v33 main_v133 main_v134 (addi : (⟨S64x32, .i32⟩ : BufTy).Contents (Elt F) → (⟨S64x32, .i32⟩ : BufTy).Contents (Elt F) → (⟨S64x32, .i32⟩ : BufTy).Contents (Elt F)),
    ternary main_v132 main_v134 main_v33 main_v135 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    unary main_v125 main_v136 (broadcastInDim S64x32 ![0, 1] bcast_S64x1_S64x32_0_1 : (⟨S64x1, .i32⟩ : BufTy).Contents (Elt F) → (⟨S64x32, .i32⟩ : BufTy).Contents (Elt F)),
    unary main_v136 main_v137 (broadcastInDim S64x32x1 ![0, 1] bcast_S64x32_S64x32x1_0_1 : (⟨S64x32, .i32⟩ : BufTy).Contents (Elt F) → (⟨S64x32x1, .i32⟩ : BufTy).Contents (Elt F)),
    unary main_v130 main_v138 (broadcastInDim S64x32x1 ![0, 1] bcast_S64x32_S64x32x1_0_1 : (⟨S64x32, .i32⟩ : BufTy).Contents (Elt F) → (⟨S64x32x1, .i32⟩ : BufTy).Contents (Elt F)),
    unary main_v135 main_v139 (broadcastInDim S64x32x1 ![0, 1] bcast_S64x32_S64x32x1_0_1 : (⟨S64x32, .i32⟩ : BufTy).Contents (Elt F) → (⟨S64x32x1, .i32⟩ : BufTy).Contents (Elt F)),
    nary ![main_v137, main_v138, main_v139] main_v140 (fun u => concatenate S64x32x3 2 [⟨S64x32x1, u 0⟩, ⟨S64x32x1, u 1⟩, ⟨S64x32x1, u 2⟩] concatenates_S64x32x1_S64x32x1_S64x32x1_S64x32x3_d2),
    binary main_v9 main_v140 main_v141 ((fun x i => Host.gather gather_S64x96x96_S64x32x3_S64x32_n_012_n_n_012_2_111 x i) : (⟨S64x96x96, .f32⟩ : BufTy).Contents (Elt F) → (⟨S64x32x3, .i32⟩ : BufTy).Contents (Elt F) → (⟨S64x32, .f32⟩ : BufTy).Contents (Elt F)),
    nullary main_c_32 (constantI S_ 32 0#32),
    unary main_c_32 main_v142 (broadcastInDim S64x1 ![] bcast_S_S64x1 : (⟨S_, .i32⟩ : BufTy).Contents (Elt F) → (⟨S64x1, .i32⟩ : BufTy).Contents (Elt F)),
    binary main_v36 main_v142 main_v143 (cmpi .slt : (⟨S64x1, .i32⟩ : BufTy).Contents (Elt F) → (⟨S64x1, .i32⟩ : BufTy).Contents (Elt F) → (⟨S64x1, .i1⟩ : BufTy).Contents (Elt F)),
    nullary main_c_33 (constantI S_ 32 64#32) ]

set_option maxRecDepth 8192 in
theorem ops_150_sub : (ops_150 : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., binary_bufs_sub .., nullary_bufs_sub ..⟩

set_option maxRecDepth 8192 in
theorem ops_150_fresh : (ops_150 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_150 (h : Inv_150 (F := F) x0 x1 x2 x3 x4 V) :
    Inv_180 (F := F) x0 x1 x2 x3 x4 (after ops_150 V) := by
  unfold Inv_150 at h
  obtain ⟨ha0, ha1, ha2, ha3, ha4, h_main_v9, h_main_v11, h_main_v12, h_main_v16, h_main_v20, h_main_v22, h_main_v26, h_main_v30, h_main_v32, h_main_v33, h_main_v34, h_main_v36, h_main_v57, h_main_v78, h_main_v99, h_main_v120, h_main_c_26⟩ := h
  unfold Inv_180
  refine ⟨?_, ?_, ?_, ?_, ?_, ?_, ?_, ?_, ?_, ?_, ?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v9, h_main_v11, h_main_v12, h_main_v16, h_main_v20, h_main_v22, h_main_v26, h_main_v30, h_main_v32, h_main_v33, h_main_v34, h_main_v36, h_main_v57, h_main_v78, h_main_v99, h_main_v120, h_main_c_26] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v9] | rw [h_main_v11] | rw [h_main_v12] | rw [h_main_v16] | rw [h_main_v20] | rw [h_main_v22] | rw [h_main_v26] | rw [h_main_v30] | rw [h_main_v32] | rw [h_main_v33] | rw [h_main_v34] | rw [h_main_v36] | rw [h_main_v57] | rw [h_main_v78] | rw [h_main_v99] | rw [h_main_v120] | rw [h_main_c_26])) <;>
      (try simp only [TRef.ofBuf, TRef.toBuf, cast_eq]) <;> rfl)

def w2 : List (HloOp τ sig (Elt F)) := ops_120 ++ ops_150

theorem w2_sub : (w2 : List (HloOp τ sig (Elt F))).Forall fun op => op.bufs ⊆ tcRefs τ sig := forall_append ops_120_sub ops_150_sub

theorem w2_fresh : (w2 : List (HloOp τ sig (Elt F))).Forall fun op => op.fresh = ∅ := forall_append ops_120_fresh ops_150_fresh

theorem step_w2 (h : Inv_120 (F := F) x0 x1 x2 x3 x4 V) :
    Inv_180 (F := F) x0 x1 x2 x3 x4 (after w2 V) := by
  unfold w2
  simp only [StableHlo.after_append]
  exact step_150 (step_120 h)

set_option maxRecDepth 65536 in

theorem main_part2_eq (c : Dev nD) : main_part2 (F := F) c = seq w2 := by chain_rfl

end Cert.ReferenceIdeal.ValueP

end
-- ==== Proof.Ref.RunW3.lean ====
import proofs.«431468_j28140625724039_3_alg».proof.Proof.Ref.RunInv
import Idealize.ShloMosaic.Lib.Pipeline.Regions

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S64x96x96x6, .f32⟩ : BufTy).Contents (Elt F)} {x1 : (⟨S64x96x96x1, .f32⟩ : BufTy).Contents (Elt F)} {x2 : (⟨S64x96x96x63, .f32⟩ : BufTy).Contents (Elt F)} {x3 : (⟨S64x32x6, .f32⟩ : BufTy).Contents (Elt F)} {x4 : (⟨S64x32x63, .f32⟩ : BufTy).Contents (Elt F)} {V : Valuation τ sig (Elt F)}

set_option maxRecDepth 8192 in
set_option maxHeartbeats 4000000 in

abbrev ops_180 : List (HloOp τ sig (Elt F)) :=
  [ unary main_c_33 main_v144 (broadcastInDim S64x1 ![] bcast_S_S64x1 : (⟨S_, .i32⟩ : BufTy).Contents (Elt F) → (⟨S64x1, .i32⟩ : BufTy).Contents (Elt F)),
    binary main_v36 main_v144 main_v145 (addi : (⟨S64x1, .i32⟩ : BufTy).Contents (Elt F) → (⟨S64x1, .i32⟩ : BufTy).Contents (Elt F) → (⟨S64x1, .i32⟩ : BufTy).Contents (Elt F)),
    ternary main_v143 main_v145 main_v36 main_v146 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_34 (constantI S_ 32 0#32),
    unary main_c_34 main_v147 (broadcastInDim S64x32 ![] bcast_S_S64x32 : (⟨S_, .i32⟩ : BufTy).Contents (Elt F) → (⟨S64x32, .i32⟩ : BufTy).Contents (Elt F)),
    binary main_v34 main_v147 main_v148 (cmpi .slt : (⟨S64x32, .i32⟩ : BufTy).Contents (Elt F) → (⟨S64x32, .i32⟩ : BufTy).Contents (Elt F) → (⟨S64x32, .i1⟩ : BufTy).Contents (Elt F)),
    nullary main_c_35 (constantI S_ 32 96#32),
    unary main_c_35 main_v149 (broadcastInDim S64x32 ![] bcast_S_S64x32 : (⟨S_, .i32⟩ : BufTy).Contents (Elt F) → (⟨S64x32, .i32⟩ : BufTy).Contents (Elt F)),
    binary main_v34 main_v149 main_v150 (addi : (⟨S64x32, .i32⟩ : BufTy).Contents (Elt F) → (⟨S64x32, .i32⟩ : BufTy).Contents (Elt F) → (⟨S64x32, .i32⟩ : BufTy).Contents (Elt F)),
    ternary main_v148 main_v150 main_v34 main_v151 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_36 (constantI S_ 32 0#32),
    unary main_c_36 main_v152 (broadcastInDim S64x32 ![] bcast_S_S64x32 : (⟨S_, .i32⟩ : BufTy).Contents (Elt F) → (⟨S64x32, .i32⟩ : BufTy).Contents (Elt F)),
    binary main_v33 main_v152 main_v153 (cmpi .slt : (⟨S64x32, .i32⟩ : BufTy).Contents (Elt F) → (⟨S64x32, .i32⟩ : BufTy).Contents (Elt F) → (⟨S64x32, .i1⟩ : BufTy).Contents (Elt F)),
    nullary main_c_37 (constantI S_ 32 96#32),
    unary main_c_37 main_v154 (broadcastInDim S64x32 ![] bcast_S_S64x32 : (⟨S_, .i32⟩ : BufTy).Contents (Elt F) → (⟨S64x32, .i32⟩ : BufTy).Contents (Elt F)),
    binary main_v33 main_v154 main_v155 (addi : (⟨S64x32, .i32⟩ : BufTy).Contents (Elt F) → (⟨S64x32, .i32⟩ : BufTy).Contents (Elt F) → (⟨S64x32, .i32⟩ : BufTy).Contents (Elt F)),
    ternary main_v153 main_v155 main_v33 main_v156 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    unary main_v146 main_v157 (broadcastInDim S64x32 ![0, 1] bcast_S64x1_S64x32_0_1 : (⟨S64x1, .i32⟩ : BufTy).Contents (Elt F) → (⟨S64x32, .i32⟩ : BufTy).Contents (Elt F)),
    unary main_v157 main_v158 (broadcastInDim S64x32x1 ![0, 1] bcast_S64x32_S64x32x1_0_1 : (⟨S64x32, .i32⟩ : BufTy).Contents (Elt F) → (⟨S64x32x1, .i32⟩ : BufTy).Contents (Elt F)),
    unary main_v151 main_v159 (broadcastInDim S64x32x1 ![0, 1] bcast_S64x32_S64x32x1_0_1 : (⟨S64x32, .i32⟩ : BufTy).Contents (Elt F) → (⟨S64x32x1, .i32⟩ : BufTy).Contents (Elt F)),
    unary main_v156 main_v160 (broadcastInDim S64x32x1 ![0, 1] bcast_S64x32_S64x32x1_0_1 : (⟨S64x32, .i32⟩ : BufTy).Contents (Elt F) → (⟨S64x32x1, .i32⟩ : BufTy).Contents (Elt F)),
    nary ![main_v158, main_v159, main_v160] main_v161 (fun u => concatenate S64x32x3 2 [⟨S64x32x1, u 0⟩, ⟨S64x32x1, u 1⟩, ⟨S64x32x1, u 2⟩] concatenates_S64x32x1_S64x32x1_S64x32x1_S64x32x3_d2),
    binary main_v11 main_v161 main_v162 ((fun x i => Host.gather gather_S64x96x96_S64x32x3_S64x32_n_012_n_n_012_2_111 x i) : (⟨S64x96x96, .f32⟩ : BufTy).Contents (Elt F) → (⟨S64x32x3, .i32⟩ : BufTy).Contents (Elt F) → (⟨S64x32, .f32⟩ : BufTy).Contents (Elt F)),
    nullary main_c_38 (constantI S_ 32 0#32),
    unary main_c_38 main_v163 (broadcastInDim S64x1 ![] bcast_S_S64x1 : (⟨S_, .i32⟩ : BufTy).Contents (Elt F) → (⟨S64x1, .i32⟩ : BufTy).Contents (Elt F)),
    binary main_v36 main_v163 main_v164 (cmpi .slt : (⟨S64x1, .i32⟩ : BufTy).Contents (Elt F) → (⟨S64x1, .i32⟩ : BufTy).Contents (Elt F) → (⟨S64x1, .i1⟩ : BufTy).Contents (Elt F)),
    nullary main_c_39 (constantI S_ 32 64#32),
    unary main_c_39 main_v165 (broadcastInDim S64x1 ![] bcast_S_S64x1 : (⟨S_, .i32⟩ : BufTy).Contents (Elt F) → (⟨S64x1, .i32⟩ : BufTy).Contents (Elt F)),
    binary main_v36 main_v165 main_v166 (addi : (⟨S64x1, .i32⟩ : BufTy).Contents (Elt F) → (⟨S64x1, .i32⟩ : BufTy).Contents (Elt F) → (⟨S64x1, .i32⟩ : BufTy).Contents (Elt F)),
    ternary main_v164 main_v166 main_v36 main_v167 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)) ]

set_option maxRecDepth 8192 in
theorem ops_180_sub : (ops_180 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub ..⟩

set_option maxRecDepth 8192 in
theorem ops_180_fresh : (ops_180 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_180 (h : Inv_180 (F := F) x0 x1 x2 x3 x4 V) :
    Inv_210 (F := F) x0 x1 x2 x3 x4 (after ops_180 V) := by
  unfold Inv_180 at h
  obtain ⟨ha0, ha1, ha2, ha3, ha4, h_main_v11, h_main_v12, h_main_v16, h_main_v20, h_main_v22, h_main_v26, h_main_v30, h_main_v32, h_main_v33, h_main_v34, h_main_v36, h_main_v57, h_main_v78, h_main_v99, h_main_v120, h_main_v141, h_main_v143, h_main_c_33⟩ := h
  unfold Inv_210
  refine ⟨?_, ?_, ?_, ?_, ?_, ?_, ?_, ?_, ?_, ?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v11, h_main_v12, h_main_v16, h_main_v20, h_main_v22, h_main_v26, h_main_v30, h_main_v32, h_main_v33, h_main_v34, h_main_v36, h_main_v57, h_main_v78, h_main_v99, h_main_v120, h_main_v141, h_main_v143, h_main_c_33] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v11] | rw [h_main_v12] | rw [h_main_v16] | rw [h_main_v20] | rw [h_main_v22] | rw [h_main_v26] | rw [h_main_v30] | rw [h_main_v32] | rw [h_main_v33] | rw [h_main_v34] | rw [h_main_v36] | rw [h_main_v57] | rw [h_main_v78] | rw [h_main_v99] | rw [h_main_v120] | rw [h_main_v141] | rw [h_main_v143] | rw [h_main_c_33])) <;>
      (try simp only [TRef.ofBuf, TRef.toBuf, cast_eq]) <;> rfl)

set_option maxRecDepth 8192 in
set_option maxHeartbeats 4000000 in

abbrev ops_210 : List (HloOp τ sig (Elt F)) :=
  [ nullary main_c_40 (constantI S_ 32 0#32),
    unary main_c_40 main_v168 (broadcastInDim S64x32 ![] bcast_S_S64x32 : (⟨S_, .i32⟩ : BufTy).Contents (Elt F) → (⟨S64x32, .i32⟩ : BufTy).Contents (Elt F)),
    binary main_v34 main_v168 main_v169 (cmpi .slt : (⟨S64x32, .i32⟩ : BufTy).Contents (Elt F) → (⟨S64x32, .i32⟩ : BufTy).Contents (Elt F) → (⟨S64x32, .i1⟩ : BufTy).Contents (Elt F)),
    nullary main_c_41 (constantI S_ 32 96#32),
    unary main_c_41 main_v170 (broadcastInDim S64x32 ![] bcast_S_S64x32 : (⟨S_, .i32⟩ : BufTy).Contents (Elt F) → (⟨S64x32, .i32⟩ : BufTy).Contents (Elt F)),
    binary main_v34 main_v170 main_v171 (addi : (⟨S64x32, .i32⟩ : BufTy).Contents (Elt F) → (⟨S64x32, .i32⟩ : BufTy).Contents (Elt F) → (⟨S64x32, .i32⟩ : BufTy).Contents (Elt F)),
    ternary main_v169 main_v171 main_v34 main_v172 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_42 (constantI S_ 32 0#32),
    unary main_c_42 main_v173 (broadcastInDim S64x32 ![] bcast_S_S64x32 : (⟨S_, .i32⟩ : BufTy).Contents (Elt F) → (⟨S64x32, .i32⟩ : BufTy).Contents (Elt F)),
    binary main_v33 main_v173 main_v174 (cmpi .slt : (⟨S64x32, .i32⟩ : BufTy).Contents (Elt F) → (⟨S64x32, .i32⟩ : BufTy).Contents (Elt F) → (⟨S64x32, .i1⟩ : BufTy).Contents (Elt F)),
    nullary main_c_43 (constantI S_ 32 96#32),
    unary main_c_43 main_v175 (broadcastInDim S64x32 ![] bcast_S_S64x32 : (⟨S_, .i32⟩ : BufTy).Contents (Elt F) → (⟨S64x32, .i32⟩ : BufTy).Contents (Elt F)),
    binary main_v33 main_v175 main_v176 (addi : (⟨S64x32, .i32⟩ : BufTy).Contents (Elt F) → (⟨S64x32, .i32⟩ : BufTy).Contents (Elt F) → (⟨S64x32, .i32⟩ : BufTy).Contents (Elt F)),
    ternary main_v174 main_v176 main_v33 main_v177 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    unary main_v167 main_v178 (broadcastInDim S64x32 ![0, 1] bcast_S64x1_S64x32_0_1 : (⟨S64x1, .i32⟩ : BufTy).Contents (Elt F) → (⟨S64x32, .i32⟩ : BufTy).Contents (Elt F)),
    unary main_v178 main_v179 (broadcastInDim S64x32x1 ![0, 1] bcast_S64x32_S64x32x1_0_1 : (⟨S64x32, .i32⟩ : BufTy).Contents (Elt F) → (⟨S64x32x1, .i32⟩ : BufTy).Contents (Elt F)),
    unary main_v172 main_v180 (broadcastInDim S64x32x1 ![0, 1] bcast_S64x32_S64x32x1_0_1 : (⟨S64x32, .i32⟩ : BufTy).Contents (Elt F) → (⟨S64x32x1, .i32⟩ : BufTy).Contents (Elt F)),
    unary main_v177 main_v181 (broadcastInDim S64x32x1 ![0, 1] bcast_S64x32_S64x32x1_0_1 : (⟨S64x32, .i32⟩ : BufTy).Contents (Elt F) → (⟨S64x32x1, .i32⟩ : BufTy).Contents (Elt F)),
    nary ![main_v179, main_v180, main_v181] main_v182 (fun u => concatenate S64x32x3 2 [⟨S64x32x1, u 0⟩, ⟨S64x32x1, u 1⟩, ⟨S64x32x1, u 2⟩] concatenates_S64x32x1_S64x32x1_S64x32x1_S64x32x3_d2),
    binary main_arg2 main_v182 main_v183 ((fun x i => Host.gather gather_S64x96x96x63_S64x32x3_S64x32x63_2_012_n_n_012_2_11163 x i) : (⟨S64x96x96x63, .f32⟩ : BufTy).Contents (Elt F) → (⟨S64x32x3, .i32⟩ : BufTy).Contents (Elt F) → (⟨S64x32x63, .f32⟩ : BufTy).Contents (Elt F)),
    unary main_v16 main_v184 (Host.floor : (⟨S64x32, .f32⟩ : BufTy).Contents (Elt F) → (⟨S64x32, .f32⟩ : BufTy).Contents (Elt F)),
    binary main_v16 main_v184 main_v185 (subf : (⟨S64x32, .f32⟩ : BufTy).Contents (Elt F) → (⟨S64x32, .f32⟩ : BufTy).Contents (Elt F) → (⟨S64x32, .f32⟩ : BufTy).Contents (Elt F)),
    unary main_v20 main_v186 (Host.floor : (⟨S64x32, .f32⟩ : BufTy).Contents (Elt F) → (⟨S64x32, .f32⟩ : BufTy).Contents (Elt F)),
    binary main_v20 main_v186 main_v187 (subf : (⟨S64x32, .f32⟩ : BufTy).Contents (Elt F) → (⟨S64x32, .f32⟩ : BufTy).Contents (Elt F) → (⟨S64x32, .f32⟩ : BufTy).Contents (Elt F)),
    nullary main_cst_44 (constant S_ .f32 0x40400000#32),
    unary main_cst_44 main_v188 (broadcastInDim S64x32 ![] bcast_S_S64x32 : (⟨S_, .f32⟩ : BufTy).Contents (Elt F) → (⟨S64x32, .f32⟩ : BufTy).Contents (Elt F)),
    binary main_v26 main_v188 main_v189 (Host.divf : (⟨S64x32, .f32⟩ : BufTy).Contents (Elt F) → (⟨S64x32, .f32⟩ : BufTy).Contents (Elt F) → (⟨S64x32, .f32⟩ : BufTy).Contents (Elt F)),
    nullary main_cst_45 (constant S_ .f32 0x24E69595#32),
    unary main_cst_45 main_v190 (broadcastInDim S64x32 ![] bcast_S_S64x32 : (⟨S_, .f32⟩ : BufTy).Contents (Elt F) → (⟨S64x32, .f32⟩ : BufTy).Contents (Elt F)),
    binary main_v189 main_v190 main_v191 (addf : (⟨S64x32, .f32⟩ : BufTy).Contents (Elt F) → (⟨S64x32, .f32⟩ : BufTy).Contents (Elt F) → (⟨S64x32, .f32⟩ : BufTy).Contents (Elt F)) ]

set_option maxRecDepth 8192 in
theorem ops_210_sub : (ops_210 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub ..⟩

set_option maxRecDepth 8192 in
theorem ops_210_fresh : (ops_210 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_210 (h : Inv_210 (F := F) x0 x1 x2 x3 x4 V) :
    Inv_240 (F := F) x0 x1 x2 x3 x4 (after ops_210 V) := by
  unfold Inv_210 at h
  obtain ⟨ha0, ha1, ha2, ha3, ha4, h_main_v12, h_main_v16, h_main_v20, h_main_v22, h_main_v26, h_main_v30, h_main_v32, h_main_v33, h_main_v34, h_main_v36, h_main_v57, h_main_v78, h_main_v99, h_main_v120, h_main_v141, h_main_v162, h_main_v167⟩ := h
  unfold Inv_240
  refine ⟨?_, ?_, ?_, ?_, ?_, ?_, ?_, ?_, ?_, ?_, ?_, ?_, ?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v12, h_main_v16, h_main_v20, h_main_v22, h_main_v26, h_main_v30, h_main_v32, h_main_v33, h_main_v34, h_main_v36, h_main_v57, h_main_v78, h_main_v99, h_main_v120, h_main_v141, h_main_v162, h_main_v167] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v12] | rw [h_main_v16] | rw [h_main_v20] | rw [h_main_v22] | rw [h_main_v26] | rw [h_main_v30] | rw [h_main_v32] | rw [h_main_v33] | rw [h_main_v34] | rw [h_main_v36] | rw [h_main_v57] | rw [h_main_v78] | rw [h_main_v99] | rw [h_main_v120] | rw [h_main_v141] | rw [h_main_v162] | rw [h_main_v167])) <;>
      (try simp only [TRef.ofBuf, TRef.toBuf, cast_eq]) <;> rfl)

def w3 : List (HloOp τ sig (Elt F)) := ops_180 ++ ops_210

theorem w3_sub : (w3 : List (HloOp τ sig (Elt F))).Forall fun op => op.bufs ⊆ tcRefs τ sig := forall_append ops_180_sub ops_210_sub

theorem w3_fresh : (w3 : List (HloOp τ sig (Elt F))).Forall fun op => op.fresh = ∅ := forall_append ops_180_fresh ops_210_fresh

theorem step_w3 (h : Inv_180 (F := F) x0 x1 x2 x3 x4 V) :
    Inv_240 (F := F) x0 x1 x2 x3 x4 (after w3 V) := by
  unfold w3
  simp only [StableHlo.after_append]
  exact step_210 (step_180 h)

set_option maxRecDepth 65536 in

theorem main_part3_eq (c : Dev nD) : main_part3 (F := F) c = seq w3 := by chain_rfl

end Cert.ReferenceIdeal.ValueP

end
-- ==== Proof.Ref.RunW4.lean ====
import proofs.«431468_j28140625724039_3_alg».proof.Proof.Ref.RunInv
import Idealize.ShloMosaic.Lib.Pipeline.Regions

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S64x96x96x6, .f32⟩ : BufTy).Contents (Elt F)} {x1 : (⟨S64x96x96x1, .f32⟩ : BufTy).Contents (Elt F)} {x2 : (⟨S64x96x96x63, .f32⟩ : BufTy).Contents (Elt F)} {x3 : (⟨S64x32x6, .f32⟩ : BufTy).Contents (Elt F)} {x4 : (⟨S64x32x63, .f32⟩ : BufTy).Contents (Elt F)} {V : Valuation τ sig (Elt F)}

set_option maxRecDepth 8192 in
set_option maxHeartbeats 4000000 in

abbrev ops_240 : List (HloOp τ sig (Elt F)) :=
  [ unary main_v191 main_v192 (Host.log : (⟨S64x32, .f32⟩ : BufTy).Contents (Elt F) → (⟨S64x32, .f32⟩ : BufTy).Contents (Elt F)),
    nullary main_cst_46 (constant S_ .f32 0x40400000#32),
    unary main_cst_46 main_v193 (broadcastInDim S64x32 ![] bcast_S_S64x32 : (⟨S_, .f32⟩ : BufTy).Contents (Elt F) → (⟨S64x32, .f32⟩ : BufTy).Contents (Elt F)),
    binary main_v30 main_v193 main_v194 (Host.divf : (⟨S64x32, .f32⟩ : BufTy).Contents (Elt F) → (⟨S64x32, .f32⟩ : BufTy).Contents (Elt F) → (⟨S64x32, .f32⟩ : BufTy).Contents (Elt F)),
    nullary main_cst_47 (constant S_ .f32 0x24E69595#32),
    unary main_cst_47 main_v195 (broadcastInDim S64x32 ![] bcast_S_S64x32 : (⟨S_, .f32⟩ : BufTy).Contents (Elt F) → (⟨S64x32, .f32⟩ : BufTy).Contents (Elt F)),
    binary main_v194 main_v195 main_v196 (addf : (⟨S64x32, .f32⟩ : BufTy).Contents (Elt F) → (⟨S64x32, .f32⟩ : BufTy).Contents (Elt F) → (⟨S64x32, .f32⟩ : BufTy).Contents (Elt F)),
    unary main_v196 main_v197 (Host.log : (⟨S64x32, .f32⟩ : BufTy).Contents (Elt F) → (⟨S64x32, .f32⟩ : BufTy).Contents (Elt F)),
    nullary main_cst_48 (constant S_ .f32 0x24E69595#32),
    unary main_cst_48 main_v198 (broadcastInDim S64x32 ![] bcast_S_S64x32 : (⟨S_, .f32⟩ : BufTy).Contents (Elt F) → (⟨S64x32, .f32⟩ : BufTy).Contents (Elt F)),
    binary main_v32 main_v198 main_v199 (addf : (⟨S64x32, .f32⟩ : BufTy).Contents (Elt F) → (⟨S64x32, .f32⟩ : BufTy).Contents (Elt F) → (⟨S64x32, .f32⟩ : BufTy).Contents (Elt F)),
    unary main_v199 main_v200 (Host.log : (⟨S64x32, .f32⟩ : BufTy).Contents (Elt F) → (⟨S64x32, .f32⟩ : BufTy).Contents (Elt F)),
    binary main_v57 main_v185 main_v201 (subf : (⟨S64x32, .f32⟩ : BufTy).Contents (Elt F) → (⟨S64x32, .f32⟩ : BufTy).Contents (Elt F) → (⟨S64x32, .f32⟩ : BufTy).Contents (Elt F)),
    unary main_v201 main_v202 (Host.absf : (⟨S64x32, .f32⟩ : BufTy).Contents (Elt F) → (⟨S64x32, .f32⟩ : BufTy).Contents (Elt F)),
    nullary main_cst_49 (constant S_ .f32 0x00000000#32),
    binary main_v202 main_cst_49 main_v203 ((fun x v => Host.reduceAdd x v reducesTo_S64x32_S_d0_1 h_S_) : (⟨S64x32, .f32⟩ : BufTy).Contents (Elt F) → (⟨S_, .f32⟩ : BufTy).Contents (Elt F) → (⟨S_, .f32⟩ : BufTy).Contents (Elt F)),
    nullary main_cst_50 (constant S_ .f32 0x45000000#32),
    binary main_v203 main_cst_50 main_v204 (Host.divf : (⟨S_, .f32⟩ : BufTy).Contents (Elt F) → (⟨S_, .f32⟩ : BufTy).Contents (Elt F) → (⟨S_, .f32⟩ : BufTy).Contents (Elt F)),
    binary main_v78 main_v187 main_v205 (subf : (⟨S64x32, .f32⟩ : BufTy).Contents (Elt F) → (⟨S64x32, .f32⟩ : BufTy).Contents (Elt F) → (⟨S64x32, .f32⟩ : BufTy).Contents (Elt F)),
    unary main_v205 main_v206 (Host.absf : (⟨S64x32, .f32⟩ : BufTy).Contents (Elt F) → (⟨S64x32, .f32⟩ : BufTy).Contents (Elt F)),
    nullary main_cst_51 (constant S_ .f32 0x00000000#32),
    binary main_v206 main_cst_51 main_v207 ((fun x v => Host.reduceAdd x v reducesTo_S64x32_S_d0_1 h_S_) : (⟨S64x32, .f32⟩ : BufTy).Contents (Elt F) → (⟨S_, .f32⟩ : BufTy).Contents (Elt F) → (⟨S_, .f32⟩ : BufTy).Contents (Elt F)),
    nullary main_cst_52 (constant S_ .f32 0x45000000#32),
    binary main_v207 main_cst_52 main_v208 (Host.divf : (⟨S_, .f32⟩ : BufTy).Contents (Elt F) → (⟨S_, .f32⟩ : BufTy).Contents (Elt F) → (⟨S_, .f32⟩ : BufTy).Contents (Elt F)),
    binary main_v204 main_v208 main_v209 (addf : (⟨S_, .f32⟩ : BufTy).Contents (Elt F) → (⟨S_, .f32⟩ : BufTy).Contents (Elt F) → (⟨S_, .f32⟩ : BufTy).Contents (Elt F)),
    binary main_v120 main_v192 main_v210 (subf : (⟨S64x32, .f32⟩ : BufTy).Contents (Elt F) → (⟨S64x32, .f32⟩ : BufTy).Contents (Elt F) → (⟨S64x32, .f32⟩ : BufTy).Contents (Elt F)),
    unary main_v210 main_v211 (Host.absf : (⟨S64x32, .f32⟩ : BufTy).Contents (Elt F) → (⟨S64x32, .f32⟩ : BufTy).Contents (Elt F)),
    nullary main_cst_53 (constant S_ .f32 0x00000000#32),
    binary main_v211 main_cst_53 main_v212 ((fun x v => Host.reduceAdd x v reducesTo_S64x32_S_d0_1 h_S_) : (⟨S64x32, .f32⟩ : BufTy).Contents (Elt F) → (⟨S_, .f32⟩ : BufTy).Contents (Elt F) → (⟨S_, .f32⟩ : BufTy).Contents (Elt F)),
    nullary main_cst_54 (constant S_ .f32 0x45000000#32) ]

set_option maxRecDepth 8192 in
theorem ops_240_sub : (ops_240 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., unary_bufs_sub .., nullary_bufs_sub .., binary_bufs_sub .., nullary_bufs_sub .., binary_bufs_sub .., binary_bufs_sub .., unary_bufs_sub .., nullary_bufs_sub .., binary_bufs_sub .., nullary_bufs_sub .., binary_bufs_sub .., binary_bufs_sub .., binary_bufs_sub .., unary_bufs_sub .., nullary_bufs_sub .., binary_bufs_sub .., nullary_bufs_sub ..⟩

set_option maxRecDepth 8192 in
theorem ops_240_fresh : (ops_240 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_240 (h : Inv_240 (F := F) x0 x1 x2 x3 x4 V) :
    Inv_270 (F := F) x0 x1 x2 x3 x4 (after ops_240 V) := by
  unfold Inv_240 at h
  obtain ⟨ha0, ha1, ha2, ha3, ha4, h_main_v12, h_main_v16, h_main_v20, h_main_v22, h_main_v26, h_main_v30, h_main_v32, h_main_v33, h_main_v34, h_main_v36, h_main_v57, h_main_v78, h_main_v99, h_main_v120, h_main_v141, h_main_v162, h_main_v183, h_main_v185, h_main_v187, h_main_v191⟩ := h
  unfold Inv_270
  refine ⟨?_, ?_, ?_, ?_, ?_, ?_, ?_, ?_, ?_, ?_, ?_, ?_, ?_, ?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v12, h_main_v16, h_main_v20, h_main_v22, h_main_v26, h_main_v30, h_main_v32, h_main_v33, h_main_v34, h_main_v36, h_main_v57, h_main_v78, h_main_v99, h_main_v120, h_main_v141, h_main_v162, h_main_v183, h_main_v185, h_main_v187, h_main_v191] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v12] | rw [h_main_v16] | rw [h_main_v20] | rw [h_main_v22] | rw [h_main_v26] | rw [h_main_v30] | rw [h_main_v32] | rw [h_main_v33] | rw [h_main_v34] | rw [h_main_v36] | rw [h_main_v57] | rw [h_main_v78] | rw [h_main_v99] | rw [h_main_v120] | rw [h_main_v141] | rw [h_main_v162] | rw [h_main_v183] | rw [h_main_v185] | rw [h_main_v187] | rw [h_main_v191])) <;>
      (try simp only [TRef.ofBuf, TRef.toBuf, cast_eq]) <;> rfl)

set_option maxRecDepth 8192 in
set_option maxHeartbeats 4000000 in

abbrev ops_270 : List (HloOp τ sig (Elt F)) :=
  [ binary main_v212 main_cst_54 main_v213 (Host.divf : (⟨S_, .f32⟩ : BufTy).Contents (Elt F) → (⟨S_, .f32⟩ : BufTy).Contents (Elt F) → (⟨S_, .f32⟩ : BufTy).Contents (Elt F)),
    binary main_v209 main_v213 main_v214 (addf : (⟨S_, .f32⟩ : BufTy).Contents (Elt F) → (⟨S_, .f32⟩ : BufTy).Contents (Elt F) → (⟨S_, .f32⟩ : BufTy).Contents (Elt F)),
    binary main_v141 main_v197 main_v215 (subf : (⟨S64x32, .f32⟩ : BufTy).Contents (Elt F) → (⟨S64x32, .f32⟩ : BufTy).Contents (Elt F) → (⟨S64x32, .f32⟩ : BufTy).Contents (Elt F)),
    unary main_v215 main_v216 (Host.absf : (⟨S64x32, .f32⟩ : BufTy).Contents (Elt F) → (⟨S64x32, .f32⟩ : BufTy).Contents (Elt F)),
    nullary main_cst_55 (constant S_ .f32 0x00000000#32),
    binary main_v216 main_cst_55 main_v217 ((fun x v => Host.reduceAdd x v reducesTo_S64x32_S_d0_1 h_S_) : (⟨S64x32, .f32⟩ : BufTy).Contents (Elt F) → (⟨S_, .f32⟩ : BufTy).Contents (Elt F) → (⟨S_, .f32⟩ : BufTy).Contents (Elt F)),
    nullary main_cst_56 (constant S_ .f32 0x45000000#32),
    binary main_v217 main_cst_56 main_v218 (Host.divf : (⟨S_, .f32⟩ : BufTy).Contents (Elt F) → (⟨S_, .f32⟩ : BufTy).Contents (Elt F) → (⟨S_, .f32⟩ : BufTy).Contents (Elt F)),
    binary main_v214 main_v218 main_v219 (addf : (⟨S_, .f32⟩ : BufTy).Contents (Elt F) → (⟨S_, .f32⟩ : BufTy).Contents (Elt F) → (⟨S_, .f32⟩ : BufTy).Contents (Elt F)),
    binary main_v99 main_v22 main_v220 (subf : (⟨S64x32, .f32⟩ : BufTy).Contents (Elt F) → (⟨S64x32, .f32⟩ : BufTy).Contents (Elt F) → (⟨S64x32, .f32⟩ : BufTy).Contents (Elt F)),
    unary main_v220 main_v221 (Host.absf : (⟨S64x32, .f32⟩ : BufTy).Contents (Elt F) → (⟨S64x32, .f32⟩ : BufTy).Contents (Elt F)),
    nullary main_cst_57 (constant S_ .f32 0x00000000#32),
    binary main_v221 main_cst_57 main_v222 ((fun x v => Host.reduceAdd x v reducesTo_S64x32_S_d0_1 h_S_) : (⟨S64x32, .f32⟩ : BufTy).Contents (Elt F) → (⟨S_, .f32⟩ : BufTy).Contents (Elt F) → (⟨S_, .f32⟩ : BufTy).Contents (Elt F)),
    nullary main_cst_58 (constant S_ .f32 0x45000000#32),
    binary main_v222 main_cst_58 main_v223 (Host.divf : (⟨S_, .f32⟩ : BufTy).Contents (Elt F) → (⟨S_, .f32⟩ : BufTy).Contents (Elt F) → (⟨S_, .f32⟩ : BufTy).Contents (Elt F)),
    binary main_v219 main_v223 main_v224 (addf : (⟨S_, .f32⟩ : BufTy).Contents (Elt F) → (⟨S_, .f32⟩ : BufTy).Contents (Elt F) → (⟨S_, .f32⟩ : BufTy).Contents (Elt F)),
    binary main_v162 main_v200 main_v225 (subf : (⟨S64x32, .f32⟩ : BufTy).Contents (Elt F) → (⟨S64x32, .f32⟩ : BufTy).Contents (Elt F) → (⟨S64x32, .f32⟩ : BufTy).Contents (Elt F)),
    unary main_v225 main_v226 (Host.absf : (⟨S64x32, .f32⟩ : BufTy).Contents (Elt F) → (⟨S64x32, .f32⟩ : BufTy).Contents (Elt F)),
    nullary main_cst_59 (constant S_ .f32 0x00000000#32),
    binary main_v226 main_cst_59 main_v227 ((fun x v => Host.reduceAdd x v reducesTo_S64x32_S_d0_1 h_S_) : (⟨S64x32, .f32⟩ : BufTy).Contents (Elt F) → (⟨S_, .f32⟩ : BufTy).Contents (Elt F) → (⟨S_, .f32⟩ : BufTy).Contents (Elt F)),
    nullary main_cst_60 (constant S_ .f32 0x45000000#32),
    binary main_v227 main_cst_60 main_v228 (Host.divf : (⟨S_, .f32⟩ : BufTy).Contents (Elt F) → (⟨S_, .f32⟩ : BufTy).Contents (Elt F) → (⟨S_, .f32⟩ : BufTy).Contents (Elt F)),
    binary main_v224 main_v228 main_v229 (addf : (⟨S_, .f32⟩ : BufTy).Contents (Elt F) → (⟨S_, .f32⟩ : BufTy).Contents (Elt F) → (⟨S_, .f32⟩ : BufTy).Contents (Elt F)),
    binary main_v183 main_arg4 main_v230 (subf : (⟨S64x32x63, .f32⟩ : BufTy).Contents (Elt F) → (⟨S64x32x63, .f32⟩ : BufTy).Contents (Elt F) → (⟨S64x32x63, .f32⟩ : BufTy).Contents (Elt F)),
    unary main_v230 main_v231 (Host.absf : (⟨S64x32x63, .f32⟩ : BufTy).Contents (Elt F) → (⟨S64x32x63, .f32⟩ : BufTy).Contents (Elt F)),
    nullary main_cst_61 (constant S_ .f32 0x00000000#32),
    binary main_v231 main_cst_61 main_v232 ((fun x v => Host.reduceAdd x v reducesTo_S64x32x63_S_d0_1_2 h_S_) : (⟨S64x32x63, .f32⟩ : BufTy).Contents (Elt F) → (⟨S_, .f32⟩ : BufTy).Contents (Elt F) → (⟨S_, .f32⟩ : BufTy).Contents (Elt F)),
    nullary main_cst_62 (constant S_ .f32 0x45000000#32),
    binary main_v232 main_cst_62 main_v233 (Host.divf : (⟨S_, .f32⟩ : BufTy).Contents (Elt F) → (⟨S_, .f32⟩ : BufTy).Contents (Elt F) → (⟨S_, .f32⟩ : BufTy).Contents (Elt F)),
    nullary main_cst_63 (constant S_ .f32 0x00000000#32) ]

set_option maxRecDepth 8192 in
theorem ops_270_sub : (ops_270 : List (HloOp τ sig (Elt F))).Forall fun op => op.bufs ⊆ tcRefs τ sig :=
  ⟨binary_bufs_sub .., binary_bufs_sub .., binary_bufs_sub .., unary_bufs_sub .., nullary_bufs_sub .., binary_bufs_sub .., nullary_bufs_sub .., binary_bufs_sub .., binary_bufs_sub .., binary_bufs_sub .., unary_bufs_sub .., nullary_bufs_sub .., binary_bufs_sub .., nullary_bufs_sub .., binary_bufs_sub .., binary_bufs_sub .., binary_bufs_sub .., unary_bufs_sub .., nullary_bufs_sub .., binary_bufs_sub .., nullary_bufs_sub .., binary_bufs_sub .., binary_bufs_sub .., binary_bufs_sub .., unary_bufs_sub .., nullary_bufs_sub .., binary_bufs_sub .., nullary_bufs_sub .., binary_bufs_sub .., nullary_bufs_sub ..⟩

set_option maxRecDepth 8192 in
theorem ops_270_fresh : (ops_270 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_270 (h : Inv_270 (F := F) x0 x1 x2 x3 x4 V) :
    Inv_300 (F := F) x0 x1 x2 x3 x4 (after ops_270 V) := by
  unfold Inv_270 at h
  obtain ⟨ha0, ha1, ha2, ha3, ha4, h_main_v12, h_main_v16, h_main_v20, h_main_v22, h_main_v26, h_main_v30, h_main_v33, h_main_v34, h_main_v36, h_main_v57, h_main_v78, h_main_v99, h_main_v120, h_main_v141, h_main_v162, h_main_v183, h_main_v197, h_main_v200, h_main_v209, h_main_v212, h_main_cst_54⟩ := h
  unfold Inv_300
  refine ⟨?_, ?_, ?_, ?_, ?_, ?_, ?_, ?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v12, h_main_v16, h_main_v20, h_main_v22, h_main_v26, h_main_v30, h_main_v33, h_main_v34, h_main_v36, h_main_v57, h_main_v78, h_main_v99, h_main_v120, h_main_v141, h_main_v162, h_main_v183, h_main_v197, h_main_v200, h_main_v209, h_main_v212, h_main_cst_54] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v12] | rw [h_main_v16] | rw [h_main_v20] | rw [h_main_v22] | rw [h_main_v26] | rw [h_main_v30] | rw [h_main_v33] | rw [h_main_v34] | rw [h_main_v36] | rw [h_main_v57] | rw [h_main_v78] | rw [h_main_v99] | rw [h_main_v120] | rw [h_main_v141] | rw [h_main_v162] | rw [h_main_v183] | rw [h_main_v197] | rw [h_main_v200] | rw [h_main_v209] | rw [h_main_v212] | rw [h_main_cst_54])) <;>
      (try simp only [TRef.ofBuf, TRef.toBuf, cast_eq]) <;> rfl)

def w4 : List (HloOp τ sig (Elt F)) := ops_240 ++ ops_270

theorem w4_sub : (w4 : List (HloOp τ sig (Elt F))).Forall fun op => op.bufs ⊆ tcRefs τ sig := forall_append ops_240_sub ops_270_sub

theorem w4_fresh : (w4 : List (HloOp τ sig (Elt F))).Forall fun op => op.fresh = ∅ := forall_append ops_240_fresh ops_270_fresh

theorem step_w4 (h : Inv_240 (F := F) x0 x1 x2 x3 x4 V) :
    Inv_300 (F := F) x0 x1 x2 x3 x4 (after w4 V) := by
  unfold w4
  simp only [StableHlo.after_append]
  exact step_270 (step_240 h)

set_option maxRecDepth 65536 in

theorem main_part4_eq (c : Dev nD) : main_part4 (F := F) c = seq w4 := by chain_rfl

end Cert.ReferenceIdeal.ValueP

end
-- ==== Proof.Ref.RunW5.lean ====
import proofs.«431468_j28140625724039_3_alg».proof.Proof.Ref.RunInv
import Idealize.ShloMosaic.Lib.Pipeline.Regions

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S64x96x96x6, .f32⟩ : BufTy).Contents (Elt F)} {x1 : (⟨S64x96x96x1, .f32⟩ : BufTy).Contents (Elt F)} {x2 : (⟨S64x96x96x63, .f32⟩ : BufTy).Contents (Elt F)} {x3 : (⟨S64x32x6, .f32⟩ : BufTy).Contents (Elt F)} {x4 : (⟨S64x32x63, .f32⟩ : BufTy).Contents (Elt F)} {V : Valuation τ sig (Elt F)}

set_option maxRecDepth 8192 in
set_option maxHeartbeats 4000000 in

abbrev ops_300 : List (HloOp τ sig (Elt F)) :=
  [ unary main_cst_63 main_v234 (broadcastInDim S64x96x96 ![] bcast_S_S64x96x96 : (⟨S_, .f32⟩ : BufTy).Contents (Elt F) → (⟨S64x96x96, .f32⟩ : BufTy).Contents (Elt F)),
    nullary main_c_64 (constantI S_ 32 0#32),
    unary main_c_64 main_v235 (broadcastInDim S64x1 ![] bcast_S_S64x1 : (⟨S_, .i32⟩ : BufTy).Contents (Elt F) → (⟨S64x1, .i32⟩ : BufTy).Contents (Elt F)),
    binary main_v36 main_v235 main_v236 (cmpi .slt : (⟨S64x1, .i32⟩ : BufTy).Contents (Elt F) → (⟨S64x1, .i32⟩ : BufTy).Contents (Elt F) → (⟨S64x1, .i1⟩ : BufTy).Contents (Elt F)),
    nullary main_c_65 (constantI S_ 32 64#32),
    unary main_c_65 main_v237 (broadcastInDim S64x1 ![] bcast_S_S64x1 : (⟨S_, .i32⟩ : BufTy).Contents (Elt F) → (⟨S64x1, .i32⟩ : BufTy).Contents (Elt F)),
    binary main_v36 main_v237 main_v238 (addi : (⟨S64x1, .i32⟩ : BufTy).Contents (Elt F) → (⟨S64x1, .i32⟩ : BufTy).Contents (Elt F) → (⟨S64x1, .i32⟩ : BufTy).Contents (Elt F)),
    ternary main_v236 main_v238 main_v36 main_v239 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_66 (constantI S_ 32 0#32),
    unary main_c_66 main_v240 (broadcastInDim S64x32 ![] bcast_S_S64x32 : (⟨S_, .i32⟩ : BufTy).Contents (Elt F) → (⟨S64x32, .i32⟩ : BufTy).Contents (Elt F)),
    binary main_v34 main_v240 main_v241 (cmpi .slt : (⟨S64x32, .i32⟩ : BufTy).Contents (Elt F) → (⟨S64x32, .i32⟩ : BufTy).Contents (Elt F) → (⟨S64x32, .i1⟩ : BufTy).Contents (Elt F)),
    nullary main_c_67 (constantI S_ 32 96#32),
    unary main_c_67 main_v242 (broadcastInDim S64x32 ![] bcast_S_S64x32 : (⟨S_, .i32⟩ : BufTy).Contents (Elt F) → (⟨S64x32, .i32⟩ : BufTy).Contents (Elt F)),
    binary main_v34 main_v242 main_v243 (addi : (⟨S64x32, .i32⟩ : BufTy).Contents (Elt F) → (⟨S64x32, .i32⟩ : BufTy).Contents (Elt F) → (⟨S64x32, .i32⟩ : BufTy).Contents (Elt F)),
    ternary main_v241 main_v243 main_v34 main_v244 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_68 (constantI S_ 32 0#32),
    unary main_c_68 main_v245 (broadcastInDim S64x32 ![] bcast_S_S64x32 : (⟨S_, .i32⟩ : BufTy).Contents (Elt F) → (⟨S64x32, .i32⟩ : BufTy).Contents (Elt F)),
    binary main_v33 main_v245 main_v246 (cmpi .slt : (⟨S64x32, .i32⟩ : BufTy).Contents (Elt F) → (⟨S64x32, .i32⟩ : BufTy).Contents (Elt F) → (⟨S64x32, .i1⟩ : BufTy).Contents (Elt F)),
    nullary main_c_69 (constantI S_ 32 96#32),
    unary main_c_69 main_v247 (broadcastInDim S64x32 ![] bcast_S_S64x32 : (⟨S_, .i32⟩ : BufTy).Contents (Elt F) → (⟨S64x32, .i32⟩ : BufTy).Contents (Elt F)),
    binary main_v33 main_v247 main_v248 (addi : (⟨S64x32, .i32⟩ : BufTy).Contents (Elt F) → (⟨S64x32, .i32⟩ : BufTy).Contents (Elt F) → (⟨S64x32, .i32⟩ : BufTy).Contents (Elt F)),
    ternary main_v246 main_v248 main_v33 main_v249 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    unary main_v239 main_v250 (broadcastInDim S64x32 ![0, 1] bcast_S64x1_S64x32_0_1 : (⟨S64x1, .i32⟩ : BufTy).Contents (Elt F) → (⟨S64x32, .i32⟩ : BufTy).Contents (Elt F)),
    unary main_v250 main_v251 (broadcastInDim S64x32x1 ![0, 1] bcast_S64x32_S64x32x1_0_1 : (⟨S64x32, .i32⟩ : BufTy).Contents (Elt F) → (⟨S64x32x1, .i32⟩ : BufTy).Contents (Elt F)),
    unary main_v244 main_v252 (broadcastInDim S64x32x1 ![0, 1] bcast_S64x32_S64x32x1_0_1 : (⟨S64x32, .i32⟩ : BufTy).Contents (Elt F) → (⟨S64x32x1, .i32⟩ : BufTy).Contents (Elt F)),
    unary main_v249 main_v253 (broadcastInDim S64x32x1 ![0, 1] bcast_S64x32_S64x32x1_0_1 : (⟨S64x32, .i32⟩ : BufTy).Contents (Elt F) → (⟨S64x32x1, .i32⟩ : BufTy).Contents (Elt F)),
    nary ![main_v251, main_v252, main_v253] main_v254 (fun u => concatenate S64x32x3 2 [⟨S64x32x1, u 0⟩, ⟨S64x32x1, u 1⟩, ⟨S64x32x1, u 2⟩] concatenates_S64x32x1_S64x32x1_S64x32x1_S64x32x3_d2),
    nullary main_cst_70 (constant S_ .f32 0x3F800000#32),
    unary main_cst_70 main_v255 (broadcastInDim S64x32 ![] bcast_S_S64x32 : (⟨S_, .f32⟩ : BufTy).Contents (Elt F) → (⟨S64x32, .f32⟩ : BufTy).Contents (Elt F)) ]

set_option maxRecDepth 8192 in
theorem ops_300_sub : (ops_300 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., nullary_bufs_sub .., unary_bufs_sub ..⟩

set_option maxRecDepth 8192 in
theorem ops_300_fresh : (ops_300 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_300 (h : Inv_300 (F := F) x0 x1 x2 x3 x4 V) :
    Inv_329 (F := F) x0 x1 x2 x3 x4 (after ops_300 V) := by
  unfold Inv_300 at h
  obtain ⟨ha0, ha1, ha2, ha3, ha4, h_main_v12, h_main_v16, h_main_v20, h_main_v26, h_main_v30, h_main_v33, h_main_v34, h_main_v36, h_main_v57, h_main_v78, h_main_v120, h_main_v141, h_main_v229, h_main_v233, h_main_cst_63⟩ := h
  unfold Inv_329
  refine ⟨?_, ?_, ?_, ?_, ?_, ?_, ?_, ?_, ?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v12, h_main_v16, h_main_v20, h_main_v26, h_main_v30, h_main_v33, h_main_v34, h_main_v36, h_main_v57, h_main_v78, h_main_v120, h_main_v141, h_main_v229, h_main_v233, h_main_cst_63] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v12] | rw [h_main_v16] | rw [h_main_v20] | rw [h_main_v26] | rw [h_main_v30] | rw [h_main_v33] | rw [h_main_v34] | rw [h_main_v36] | rw [h_main_v57] | rw [h_main_v78] | rw [h_main_v120] | rw [h_main_v141] | rw [h_main_v229] | rw [h_main_v233] | rw [h_main_cst_63])) <;>
      (try simp only [TRef.ofBuf, TRef.toBuf, cast_eq]) <;> rfl)

set_option maxRecDepth 8192 in
set_option maxHeartbeats 4000000 in

abbrev ops_329 : List (HloOp τ sig (Elt F)) :=
  [ ternary main_v234 main_v254 main_v255 main_v256 ((fun x i u => Host.scatter scatter_S64x96x96_S64x32x3_S64x32_n_012_012_2 (fun _ b => b) x i u) : (⟨S64x96x96, .f32⟩ : BufTy).Contents (Elt F) → (⟨S64x32x3, .i32⟩ : BufTy).Contents (Elt F) → (⟨S64x32, .f32⟩ : BufTy).Contents (Elt F) → (⟨S64x96x96, .f32⟩ : BufTy).Contents (Elt F)),
    nullary main_cst_71 (constant S_ .f32 0x40000000#32),
    unary main_cst_71 main_v257 (broadcastInDim S64x96x96 ![] bcast_S_S64x96x96 : (⟨S_, .f32⟩ : BufTy).Contents (Elt F) → (⟨S64x96x96, .f32⟩ : BufTy).Contents (Elt F)),
    binary main_v257 main_v256 main_v258 (mulf : (⟨S64x96x96, .f32⟩ : BufTy).Contents (Elt F) → (⟨S64x96x96, .f32⟩ : BufTy).Contents (Elt F) → (⟨S64x96x96, .f32⟩ : BufTy).Contents (Elt F)),
    unary main_v12 main_v259 (Host.negf : (⟨S64x96x96, .f32⟩ : BufTy).Contents (Elt F) → (⟨S64x96x96, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S64x96x96, .f32⟩) main_call0_v0) (broadcastInDim S64x96x96 ![] bcast_S_S64x96x96),
    TRef.binary (TRef.of (T := ⟨S64x96x96, .f32⟩) main_v259) (TRef.of (T := ⟨S64x96x96, .f32⟩) main_call0_v0) (TRef.of (T := ⟨S64x96x96, .f32⟩) main_call0_v1) maximumf,
    TRef.unary (TRef.of (T := ⟨S_, .f32⟩) main_call0_cst) (TRef.of (T := ⟨S64x96x96, .f32⟩) main_call0_v2) (broadcastInDim S64x96x96 ![] bcast_S_S64x96x96),
    TRef.binary (TRef.of (T := ⟨S64x96x96, .f32⟩) main_v259) (TRef.of (T := ⟨S64x96x96, .f32⟩) main_call0_v2) (TRef.of (T := ⟨S64x96x96, .f32⟩) main_call0_v3) subf,
    TRef.binary (TRef.of (T := ⟨S64x96x96, .f32⟩) main_call0_v3) (TRef.of (T := ⟨S64x96x96, .f32⟩) main_call0_v3) (TRef.of (T := ⟨S64x96x96, .i1⟩) main_call0_v4) (cmpf .une),
    TRef.unary (TRef.of (T := ⟨S_, .f32⟩) main_call0_cst) (TRef.of (T := ⟨S64x96x96, .f32⟩) main_call0_v5) (broadcastInDim S64x96x96 ![] bcast_S_S64x96x96),
    TRef.binary (TRef.of (T := ⟨S64x96x96, .f32⟩) main_v259) (TRef.of (T := ⟨S64x96x96, .f32⟩) main_call0_v5) (TRef.of (T := ⟨S64x96x96, .f32⟩) main_call0_v6) addf,
    TRef.unary (TRef.of (T := ⟨S64x96x96, .f32⟩) main_call0_v3) (TRef.of (T := ⟨S64x96x96, .f32⟩) main_call0_v7) Host.absf,
    TRef.unary (TRef.of (T := ⟨S64x96x96, .f32⟩) main_call0_v7) (TRef.of (T := ⟨S64x96x96, .f32⟩) main_call0_v8) Host.negf,
    TRef.unary (TRef.of (T := ⟨S64x96x96, .f32⟩) main_call0_v8) (TRef.of (T := ⟨S64x96x96, .f32⟩) main_call0_v9) Host.exp,
    TRef.unary (TRef.of (T := ⟨S64x96x96, .f32⟩) main_call0_v9) (TRef.of (T := ⟨S64x96x96, .f32⟩) main_call0_v10) Host.log1p,
    TRef.binary (TRef.of (T := ⟨S64x96x96, .f32⟩) main_call0_v1) (TRef.of (T := ⟨S64x96x96, .f32⟩) main_call0_v10) (TRef.of (T := ⟨S64x96x96, .f32⟩) main_call0_v11) addf,
    TRef.ternary (TRef.of (T := ⟨S64x96x96, .i1⟩) main_call0_v4) (TRef.of (T := ⟨S64x96x96, .f32⟩) main_call0_v6) (TRef.of (T := ⟨S64x96x96, .f32⟩) main_call0_v11) (TRef.of (T := ⟨S64x96x96, .f32⟩) main_v260) select,
    binary main_v258 main_v260 main_v261 (mulf : (⟨S64x96x96, .f32⟩ : BufTy).Contents (Elt F) → (⟨S64x96x96, .f32⟩ : BufTy).Contents (Elt F) → (⟨S64x96x96, .f32⟩ : BufTy).Contents (Elt F)),
    nullary main_cst_72 (constant S_ .f32 0x3F800000#32),
    unary main_cst_72 main_v262 (broadcastInDim S64x96x96 ![] bcast_S_S64x96x96 : (⟨S_, .f32⟩ : BufTy).Contents (Elt F) → (⟨S64x96x96, .f32⟩ : BufTy).Contents (Elt F)),
    binary main_v262 main_v256 main_v263 (subf : (⟨S64x96x96, .f32⟩ : BufTy).Contents (Elt F) → (⟨S64x96x96, .f32⟩ : BufTy).Contents (Elt F) → (⟨S64x96x96, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S64x96x96, .f32⟩) main_call1_v0) (broadcastInDim S64x96x96 ![] bcast_S_S64x96x96),
    TRef.binary (TRef.of (T := ⟨S64x96x96, .f32⟩) main_v12) (TRef.of (T := ⟨S64x96x96, .f32⟩) main_call1_v0) (TRef.of (T := ⟨S64x96x96, .f32⟩) main_call1_v1) maximumf,
    TRef.unary (TRef.of (T := ⟨S_, .f32⟩) main_call1_cst) (TRef.of (T := ⟨S64x96x96, .f32⟩) main_call1_v2) (broadcastInDim S64x96x96 ![] bcast_S_S64x96x96),
    TRef.binary (TRef.of (T := ⟨S64x96x96, .f32⟩) main_v12) (TRef.of (T := ⟨S64x96x96, .f32⟩) main_call1_v2) (TRef.of (T := ⟨S64x96x96, .f32⟩) main_call1_v3) subf,
    TRef.binary (TRef.of (T := ⟨S64x96x96, .f32⟩) main_call1_v3) (TRef.of (T := ⟨S64x96x96, .f32⟩) main_call1_v3) (TRef.of (T := ⟨S64x96x96, .i1⟩) main_call1_v4) (cmpf .une) ]

set_option maxRecDepth 8192 in
theorem ops_329_sub : (ops_329 : List (HloOp τ sig (Elt F))).Forall fun op => op.bufs ⊆ tcRefs τ sig :=
  ⟨ternary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., binary_bufs_sub ..⟩

set_option maxRecDepth 8192 in
theorem ops_329_fresh : (ops_329 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_329 (h : Inv_329 (F := F) x0 x1 x2 x3 x4 V) :
    Inv_358 (F := F) x0 x1 x2 x3 x4 (after ops_329 V) := by
  unfold Inv_329 at h
  obtain ⟨ha0, ha1, ha2, ha3, ha4, h_main_v12, h_main_v16, h_main_v20, h_main_v26, h_main_v30, h_main_v33, h_main_v34, h_main_v57, h_main_v78, h_main_v120, h_main_v141, h_main_v229, h_main_v233, h_main_v234, h_main_v254, h_main_v255⟩ := h
  unfold Inv_358
  refine ⟨?_, ?_, ?_, ?_, ?_, ?_, ?_, ?_, ?_, ?_, ?_, ?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v12, h_main_v16, h_main_v20, h_main_v26, h_main_v30, h_main_v33, h_main_v34, h_main_v57, h_main_v78, h_main_v120, h_main_v141, h_main_v229, h_main_v233, h_main_v234, h_main_v254, h_main_v255] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v12] | rw [h_main_v16] | rw [h_main_v20] | rw [h_main_v26] | rw [h_main_v30] | rw [h_main_v33] | rw [h_main_v34] | rw [h_main_v57] | rw [h_main_v78] | rw [h_main_v120] | rw [h_main_v141] | rw [h_main_v229] | rw [h_main_v233] | rw [h_main_v234] | rw [h_main_v254] | rw [h_main_v255])) <;>
      (try simp only [TRef.ofBuf, TRef.toBuf, cast_eq]) <;> rfl)

set_option maxRecDepth 8192 in
set_option maxHeartbeats 4000000 in

abbrev ops_358 : List (HloOp τ sig (Elt F)) :=
  [ TRef.unary (TRef.of (T := ⟨S_, .f32⟩) main_call1_cst) (TRef.of (T := ⟨S64x96x96, .f32⟩) main_call1_v5) (broadcastInDim S64x96x96 ![] bcast_S_S64x96x96),
    TRef.binary (TRef.of (T := ⟨S64x96x96, .f32⟩) main_v12) (TRef.of (T := ⟨S64x96x96, .f32⟩) main_call1_v5) (TRef.of (T := ⟨S64x96x96, .f32⟩) main_call1_v6) addf,
    TRef.unary (TRef.of (T := ⟨S64x96x96, .f32⟩) main_call1_v3) (TRef.of (T := ⟨S64x96x96, .f32⟩) main_call1_v7) Host.absf,
    TRef.unary (TRef.of (T := ⟨S64x96x96, .f32⟩) main_call1_v7) (TRef.of (T := ⟨S64x96x96, .f32⟩) main_call1_v8) Host.negf,
    TRef.unary (TRef.of (T := ⟨S64x96x96, .f32⟩) main_call1_v8) (TRef.of (T := ⟨S64x96x96, .f32⟩) main_call1_v9) Host.exp,
    TRef.unary (TRef.of (T := ⟨S64x96x96, .f32⟩) main_call1_v9) (TRef.of (T := ⟨S64x96x96, .f32⟩) main_call1_v10) Host.log1p,
    TRef.binary (TRef.of (T := ⟨S64x96x96, .f32⟩) main_call1_v1) (TRef.of (T := ⟨S64x96x96, .f32⟩) main_call1_v10) (TRef.of (T := ⟨S64x96x96, .f32⟩) main_call1_v11) addf,
    TRef.ternary (TRef.of (T := ⟨S64x96x96, .i1⟩) main_call1_v4) (TRef.of (T := ⟨S64x96x96, .f32⟩) main_call1_v6) (TRef.of (T := ⟨S64x96x96, .f32⟩) main_call1_v11) (TRef.of (T := ⟨S64x96x96, .f32⟩) main_v264) select,
    binary main_v263 main_v264 main_v265 (mulf : (⟨S64x96x96, .f32⟩ : BufTy).Contents (Elt F) → (⟨S64x96x96, .f32⟩ : BufTy).Contents (Elt F) → (⟨S64x96x96, .f32⟩ : BufTy).Contents (Elt F)),
    binary main_v261 main_v265 main_v266 (addf : (⟨S64x96x96, .f32⟩ : BufTy).Contents (Elt F) → (⟨S64x96x96, .f32⟩ : BufTy).Contents (Elt F) → (⟨S64x96x96, .f32⟩ : BufTy).Contents (Elt F)),
    nullary main_cst_73 (constant S_ .f32 0x00000000#32),
    binary main_v266 main_cst_73 main_v267 ((fun x v => Host.reduceAdd x v reducesTo_S64x96x96_S_d0_1_2 h_S_) : (⟨S64x96x96, .f32⟩ : BufTy).Contents (Elt F) → (⟨S_, .f32⟩ : BufTy).Contents (Elt F) → (⟨S_, .f32⟩ : BufTy).Contents (Elt F)),
    nullary main_cst_74 (constant S_ .f32 0x49100000#32),
    binary main_v267 main_cst_74 main_v268 (Host.divf : (⟨S_, .f32⟩ : BufTy).Contents (Elt F) → (⟨S_, .f32⟩ : BufTy).Contents (Elt F) → (⟨S_, .f32⟩ : BufTy).Contents (Elt F)),
    unary main_v33 main_v269 (sitofp .f32 : (⟨S64x32, .i32⟩ : BufTy).Contents (Elt F) → (⟨S64x32, .f32⟩ : BufTy).Contents (Elt F)),
    binary main_v57 main_v269 main_v270 (addf : (⟨S64x32, .f32⟩ : BufTy).Contents (Elt F) → (⟨S64x32, .f32⟩ : BufTy).Contents (Elt F) → (⟨S64x32, .f32⟩ : BufTy).Contents (Elt F)),
    unary main_v34 main_v271 (sitofp .f32 : (⟨S64x32, .i32⟩ : BufTy).Contents (Elt F) → (⟨S64x32, .f32⟩ : BufTy).Contents (Elt F)),
    binary main_v78 main_v271 main_v272 (addf : (⟨S64x32, .f32⟩ : BufTy).Contents (Elt F) → (⟨S64x32, .f32⟩ : BufTy).Contents (Elt F) → (⟨S64x32, .f32⟩ : BufTy).Contents (Elt F)),
    unary main_v120 main_v273 (Host.exp : (⟨S64x32, .f32⟩ : BufTy).Contents (Elt F) → (⟨S64x32, .f32⟩ : BufTy).Contents (Elt F)),
    nullary main_cst_75 (constant S_ .f32 0x40400000#32),
    unary main_cst_75 main_v274 (broadcastInDim S64x32 ![] bcast_S_S64x32 : (⟨S_, .f32⟩ : BufTy).Contents (Elt F) → (⟨S64x32, .f32⟩ : BufTy).Contents (Elt F)),
    binary main_v273 main_v274 main_v275 (mulf : (⟨S64x32, .f32⟩ : BufTy).Contents (Elt F) → (⟨S64x32, .f32⟩ : BufTy).Contents (Elt F) → (⟨S64x32, .f32⟩ : BufTy).Contents (Elt F)),
    unary main_v141 main_v276 (Host.exp : (⟨S64x32, .f32⟩ : BufTy).Contents (Elt F) → (⟨S64x32, .f32⟩ : BufTy).Contents (Elt F)),
    nullary main_cst_76 (constant S_ .f32 0x40400000#32),
    unary main_cst_76 main_v277 (broadcastInDim S64x32 ![] bcast_S_S64x32 : (⟨S_, .f32⟩ : BufTy).Contents (Elt F) → (⟨S64x32, .f32⟩ : BufTy).Contents (Elt F)),
    binary main_v276 main_v277 main_v278 (mulf : (⟨S64x32, .f32⟩ : BufTy).Contents (Elt F) → (⟨S64x32, .f32⟩ : BufTy).Contents (Elt F) → (⟨S64x32, .f32⟩ : BufTy).Contents (Elt F)),
    unary main_v270 main_v279 (broadcastInDim S64x32x1 ![0, 1] bcast_S64x32_S64x32x1_0_1 : (⟨S64x32, .f32⟩ : BufTy).Contents (Elt F) → (⟨S64x32x1, .f32⟩ : BufTy).Contents (Elt F)),
    unary main_v272 main_v280 (broadcastInDim S64x32x1 ![0, 1] bcast_S64x32_S64x32x1_0_1 : (⟨S64x32, .f32⟩ : BufTy).Contents (Elt F) → (⟨S64x32x1, .f32⟩ : BufTy).Contents (Elt F)) ]

set_option maxRecDepth 8192 in
theorem ops_358_sub : (ops_358 : List (HloOp τ sig (Elt F))).Forall fun op => op.bufs ⊆ tcRefs τ sig :=
  ⟨unary_bufs_sub .., binary_bufs_sub .., unary_bufs_sub .., unary_bufs_sub .., unary_bufs_sub .., unary_bufs_sub .., binary_bufs_sub .., ternary_bufs_sub .., binary_bufs_sub .., binary_bufs_sub .., nullary_bufs_sub .., binary_bufs_sub .., nullary_bufs_sub .., binary_bufs_sub .., unary_bufs_sub .., binary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., unary_bufs_sub ..⟩

set_option maxRecDepth 8192 in
theorem ops_358_fresh : (ops_358 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_358 (h : Inv_358 (F := F) x0 x1 x2 x3 x4 V) :
    Inv_386 (F := F) x0 x1 x2 x3 x4 (after ops_358 V) := by
  unfold Inv_358 at h
  obtain ⟨ha0, ha1, ha2, ha3, ha4, h_main_v12, h_main_v16, h_main_v20, h_main_v26, h_main_v30, h_main_v33, h_main_v34, h_main_v57, h_main_v78, h_main_v120, h_main_v141, h_main_v229, h_main_v233, h_main_v261, h_main_v263, h_main_call1_cst, h_main_call1_v1, h_main_call1_v3, h_main_call1_v4⟩ := h
  unfold Inv_386
  refine ⟨?_, ?_, ?_, ?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v12, h_main_v16, h_main_v20, h_main_v26, h_main_v30, h_main_v33, h_main_v34, h_main_v57, h_main_v78, h_main_v120, h_main_v141, h_main_v229, h_main_v233, h_main_v261, h_main_v263, h_main_call1_cst, h_main_call1_v1, h_main_call1_v3, h_main_call1_v4] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v12] | rw [h_main_v16] | rw [h_main_v20] | rw [h_main_v26] | rw [h_main_v30] | rw [h_main_v33] | rw [h_main_v34] | rw [h_main_v57] | rw [h_main_v78] | rw [h_main_v120] | rw [h_main_v141] | rw [h_main_v229] | rw [h_main_v233] | rw [h_main_v261] | rw [h_main_v263] | rw [h_main_call1_cst] | rw [h_main_call1_v1] | rw [h_main_call1_v3] | rw [h_main_call1_v4])) <;>
      (try simp only [TRef.ofBuf, TRef.toBuf, cast_eq]) <;> rfl)

def w5 : List (HloOp τ sig (Elt F)) := ops_300 ++ (ops_329 ++ ops_358)

theorem w5_sub : (w5 : List (HloOp τ sig (Elt F))).Forall fun op => op.bufs ⊆ tcRefs τ sig := forall_append ops_300_sub (forall_append ops_329_sub ops_358_sub)

theorem w5_fresh : (w5 : List (HloOp τ sig (Elt F))).Forall fun op => op.fresh = ∅ := forall_append ops_300_fresh (forall_append ops_329_fresh ops_358_fresh)

theorem step_w5 (h : Inv_300 (F := F) x0 x1 x2 x3 x4 V) :
    Inv_386 (F := F) x0 x1 x2 x3 x4 (after w5 V) := by
  unfold w5
  simp only [StableHlo.after_append]
  exact step_358 (step_329 (step_300 h))

set_option maxRecDepth 65536 in

theorem main_part5_eq (c : Dev nD) : main_part5 (F := F) c = seq w5 := by chain_rfl

end Cert.ReferenceIdeal.ValueP

end
-- ==== Proof.Ref.RunW6.lean ====
import proofs.«431468_j28140625724039_3_alg».proof.Proof.Ref.RunInv
import Idealize.ShloMosaic.Lib.Pipeline.Regions

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S64x96x96x6, .f32⟩ : BufTy).Contents (Elt F)} {x1 : (⟨S64x96x96x1, .f32⟩ : BufTy).Contents (Elt F)} {x2 : (⟨S64x96x96x63, .f32⟩ : BufTy).Contents (Elt F)} {x3 : (⟨S64x32x6, .f32⟩ : BufTy).Contents (Elt F)} {x4 : (⟨S64x32x63, .f32⟩ : BufTy).Contents (Elt F)} {V : Valuation τ sig (Elt F)}

set_option maxRecDepth 8192 in
set_option maxHeartbeats 4000000 in

abbrev ops_386 : List (HloOp τ sig (Elt F)) :=
  [ unary main_v275 main_v281 (broadcastInDim S64x32x1 ![0, 1] bcast_S64x32_S64x32x1_0_1 : (⟨S64x32, .f32⟩ : BufTy).Contents (Elt F) → (⟨S64x32x1, .f32⟩ : BufTy).Contents (Elt F)),
    unary main_v278 main_v282 (broadcastInDim S64x32x1 ![0, 1] bcast_S64x32_S64x32x1_0_1 : (⟨S64x32, .f32⟩ : BufTy).Contents (Elt F) → (⟨S64x32x1, .f32⟩ : BufTy).Contents (Elt F)),
    nary ![main_v279, main_v280, main_v281, main_v282] main_v283 (fun u => concatenate S64x32x4 2 [⟨S64x32x1, u 0⟩, ⟨S64x32x1, u 1⟩, ⟨S64x32x1, u 2⟩, ⟨S64x32x1, u 3⟩] concatenates_S64x32x1_S64x32x1_S64x32x1_S64x32x1_S64x32x4_d2),
    reshape main_v283 main_v284 rfl shapeCasts_S64x32x4_S2048x4,
    unary main_v16 main_v285 (broadcastInDim S64x32x1 ![0, 1] bcast_S64x32_S64x32x1_0_1 : (⟨S64x32, .f32⟩ : BufTy).Contents (Elt F) → (⟨S64x32x1, .f32⟩ : BufTy).Contents (Elt F)),
    unary main_v20 main_v286 (broadcastInDim S64x32x1 ![0, 1] bcast_S64x32_S64x32x1_0_1 : (⟨S64x32, .f32⟩ : BufTy).Contents (Elt F) → (⟨S64x32x1, .f32⟩ : BufTy).Contents (Elt F)),
    unary main_v26 main_v287 (broadcastInDim S64x32x1 ![0, 1] bcast_S64x32_S64x32x1_0_1 : (⟨S64x32, .f32⟩ : BufTy).Contents (Elt F) → (⟨S64x32x1, .f32⟩ : BufTy).Contents (Elt F)),
    unary main_v30 main_v288 (broadcastInDim S64x32x1 ![0, 1] bcast_S64x32_S64x32x1_0_1 : (⟨S64x32, .f32⟩ : BufTy).Contents (Elt F) → (⟨S64x32x1, .f32⟩ : BufTy).Contents (Elt F)),
    nary ![main_v285, main_v286, main_v287, main_v288] main_v289 (fun u => concatenate S64x32x4 2 [⟨S64x32x1, u 0⟩, ⟨S64x32x1, u 1⟩, ⟨S64x32x1, u 2⟩, ⟨S64x32x1, u 3⟩] concatenates_S64x32x1_S64x32x1_S64x32x1_S64x32x1_S64x32x4_d2),
    reshape main_v289 main_v290 rfl shapeCasts_S64x32x4_S2048x4,
    unary main_v284 main_v291 ((extractStridedSlice S2048x1 ![0, 0] · slices_S2048x4_S2048x1_0_0) : (⟨S2048x4, .f32⟩ : BufTy).Contents (Elt F) → (⟨S2048x1, .f32⟩ : BufTy).Contents (Elt F)),
    reshape main_v291 main_v292 rfl shapeCasts_S2048x1_S2048,
    unary main_v284 main_v293 ((extractStridedSlice S2048x1 ![0, 1] · slices_S2048x4_S2048x1_0_1) : (⟨S2048x4, .f32⟩ : BufTy).Contents (Elt F) → (⟨S2048x1, .f32⟩ : BufTy).Contents (Elt F)),
    reshape main_v293 main_v294 rfl shapeCasts_S2048x1_S2048,
    unary main_v284 main_v295 ((extractStridedSlice S2048x1 ![0, 2] · slices_S2048x4_S2048x1_0_2) : (⟨S2048x4, .f32⟩ : BufTy).Contents (Elt F) → (⟨S2048x1, .f32⟩ : BufTy).Contents (Elt F)),
    reshape main_v295 main_v296 rfl shapeCasts_S2048x1_S2048,
    unary main_v284 main_v297 ((extractStridedSlice S2048x1 ![0, 3] · slices_S2048x4_S2048x1_0_3) : (⟨S2048x4, .f32⟩ : BufTy).Contents (Elt F) → (⟨S2048x1, .f32⟩ : BufTy).Contents (Elt F)),
    reshape main_v297 main_v298 rfl shapeCasts_S2048x1_S2048,
    nullary main_cst_77 (constant S_ .f32 0x3F000000#32),
    unary main_cst_77 main_v299 (broadcastInDim S2048 ![] bcast_S_S2048 : (⟨S_, .f32⟩ : BufTy).Contents (Elt F) → (⟨S2048, .f32⟩ : BufTy).Contents (Elt F)),
    binary main_v299 main_v296 main_v300 (mulf : (⟨S2048, .f32⟩ : BufTy).Contents (Elt F) → (⟨S2048, .f32⟩ : BufTy).Contents (Elt F) → (⟨S2048, .f32⟩ : BufTy).Contents (Elt F)),
    binary main_v292 main_v300 main_v301 (subf : (⟨S2048, .f32⟩ : BufTy).Contents (Elt F) → (⟨S2048, .f32⟩ : BufTy).Contents (Elt F) → (⟨S2048, .f32⟩ : BufTy).Contents (Elt F)),
    nullary main_cst_78 (constant S_ .f32 0x3F000000#32),
    unary main_cst_78 main_v302 (broadcastInDim S2048 ![] bcast_S_S2048 : (⟨S_, .f32⟩ : BufTy).Contents (Elt F) → (⟨S2048, .f32⟩ : BufTy).Contents (Elt F)),
    binary main_v302 main_v298 main_v303 (mulf : (⟨S2048, .f32⟩ : BufTy).Contents (Elt F) → (⟨S2048, .f32⟩ : BufTy).Contents (Elt F) → (⟨S2048, .f32⟩ : BufTy).Contents (Elt F)),
    binary main_v294 main_v303 main_v304 (subf : (⟨S2048, .f32⟩ : BufTy).Contents (Elt F) → (⟨S2048, .f32⟩ : BufTy).Contents (Elt F) → (⟨S2048, .f32⟩ : BufTy).Contents (Elt F)),
    nullary main_cst_79 (constant S_ .f32 0x3F000000#32),
    unary main_cst_79 main_v305 (broadcastInDim S2048 ![] bcast_S_S2048 : (⟨S_, .f32⟩ : BufTy).Contents (Elt F) → (⟨S2048, .f32⟩ : BufTy).Contents (Elt F)),
    binary main_v305 main_v296 main_v306 (mulf : (⟨S2048, .f32⟩ : BufTy).Contents (Elt F) → (⟨S2048, .f32⟩ : BufTy).Contents (Elt F) → (⟨S2048, .f32⟩ : BufTy).Contents (Elt F)),
    binary main_v292 main_v306 main_v307 (addf : (⟨S2048, .f32⟩ : BufTy).Contents (Elt F) → (⟨S2048, .f32⟩ : BufTy).Contents (Elt F) → (⟨S2048, .f32⟩ : BufTy).Contents (Elt F)) ]

set_option maxRecDepth 8192 in
theorem ops_386_sub : (ops_386 : List (HloOp τ sig (Elt F))).Forall fun op => op.bufs ⊆ tcRefs τ sig :=
  ⟨unary_bufs_sub .., unary_bufs_sub .., nary_bufs_sub .., reshape_bufs_sub .., unary_bufs_sub .., unary_bufs_sub .., unary_bufs_sub .., unary_bufs_sub .., nary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub ..⟩

set_option maxRecDepth 8192 in
theorem ops_386_fresh : (ops_386 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_386 (h : Inv_386 (F := F) x0 x1 x2 x3 x4 V) :
    Inv_416 (F := F) x0 x1 x2 x3 x4 (after ops_386 V) := by
  unfold Inv_386 at h
  obtain ⟨ha0, ha1, ha2, ha3, ha4, h_main_v16, h_main_v20, h_main_v26, h_main_v30, h_main_v229, h_main_v233, h_main_v268, h_main_v275, h_main_v278, h_main_v279, h_main_v280⟩ := h
  unfold Inv_416
  refine ⟨?_, ?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v16, h_main_v20, h_main_v26, h_main_v30, h_main_v229, h_main_v233, h_main_v268, h_main_v275, h_main_v278, h_main_v279, h_main_v280] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v16] | rw [h_main_v20] | rw [h_main_v26] | rw [h_main_v30] | rw [h_main_v229] | rw [h_main_v233] | rw [h_main_v268] | rw [h_main_v275] | rw [h_main_v278] | rw [h_main_v279] | rw [h_main_v280])) <;>
      (try simp only [TRef.ofBuf, TRef.toBuf, cast_eq]) <;> rfl)

set_option maxRecDepth 8192 in
set_option maxHeartbeats 4000000 in

abbrev ops_416 : List (HloOp τ sig (Elt F)) :=
  [ nullary main_cst_80 (constant S_ .f32 0x3F000000#32),
    unary main_cst_80 main_v308 (broadcastInDim S2048 ![] bcast_S_S2048 : (⟨S_, .f32⟩ : BufTy).Contents (Elt F) → (⟨S2048, .f32⟩ : BufTy).Contents (Elt F)),
    binary main_v308 main_v298 main_v309 (mulf : (⟨S2048, .f32⟩ : BufTy).Contents (Elt F) → (⟨S2048, .f32⟩ : BufTy).Contents (Elt F) → (⟨S2048, .f32⟩ : BufTy).Contents (Elt F)),
    binary main_v294 main_v309 main_v310 (addf : (⟨S2048, .f32⟩ : BufTy).Contents (Elt F) → (⟨S2048, .f32⟩ : BufTy).Contents (Elt F) → (⟨S2048, .f32⟩ : BufTy).Contents (Elt F)),
    unary main_v301 main_v311 (broadcastInDim S2048x1 ![0] bcast_S2048_S2048x1_0 : (⟨S2048, .f32⟩ : BufTy).Contents (Elt F) → (⟨S2048x1, .f32⟩ : BufTy).Contents (Elt F)),
    unary main_v304 main_v312 (broadcastInDim S2048x1 ![0] bcast_S2048_S2048x1_0 : (⟨S2048, .f32⟩ : BufTy).Contents (Elt F) → (⟨S2048x1, .f32⟩ : BufTy).Contents (Elt F)),
    unary main_v307 main_v313 (broadcastInDim S2048x1 ![0] bcast_S2048_S2048x1_0 : (⟨S2048, .f32⟩ : BufTy).Contents (Elt F) → (⟨S2048x1, .f32⟩ : BufTy).Contents (Elt F)),
    unary main_v310 main_v314 (broadcastInDim S2048x1 ![0] bcast_S2048_S2048x1_0 : (⟨S2048, .f32⟩ : BufTy).Contents (Elt F) → (⟨S2048x1, .f32⟩ : BufTy).Contents (Elt F)),
    nary ![main_v311, main_v312, main_v313, main_v314] main_v315 (fun u => concatenate S2048x4 1 [⟨S2048x1, u 0⟩, ⟨S2048x1, u 1⟩, ⟨S2048x1, u 2⟩, ⟨S2048x1, u 3⟩] concatenates_S2048x1_S2048x1_S2048x1_S2048x1_S2048x4_d1),
    unary main_v290 main_v316 ((extractStridedSlice S2048x1 ![0, 0] · slices_S2048x4_S2048x1_0_0) : (⟨S2048x4, .f32⟩ : BufTy).Contents (Elt F) → (⟨S2048x1, .f32⟩ : BufTy).Contents (Elt F)),
    reshape main_v316 main_v317 rfl shapeCasts_S2048x1_S2048,
    unary main_v290 main_v318 ((extractStridedSlice S2048x1 ![0, 1] · slices_S2048x4_S2048x1_0_1) : (⟨S2048x4, .f32⟩ : BufTy).Contents (Elt F) → (⟨S2048x1, .f32⟩ : BufTy).Contents (Elt F)),
    reshape main_v318 main_v319 rfl shapeCasts_S2048x1_S2048,
    unary main_v290 main_v320 ((extractStridedSlice S2048x1 ![0, 2] · slices_S2048x4_S2048x1_0_2) : (⟨S2048x4, .f32⟩ : BufTy).Contents (Elt F) → (⟨S2048x1, .f32⟩ : BufTy).Contents (Elt F)),
    reshape main_v320 main_v321 rfl shapeCasts_S2048x1_S2048,
    unary main_v290 main_v322 ((extractStridedSlice S2048x1 ![0, 3] · slices_S2048x4_S2048x1_0_3) : (⟨S2048x4, .f32⟩ : BufTy).Contents (Elt F) → (⟨S2048x1, .f32⟩ : BufTy).Contents (Elt F)),
    reshape main_v322 main_v323 rfl shapeCasts_S2048x1_S2048,
    nullary main_cst_81 (constant S_ .f32 0x3F000000#32),
    unary main_cst_81 main_v324 (broadcastInDim S2048 ![] bcast_S_S2048 : (⟨S_, .f32⟩ : BufTy).Contents (Elt F) → (⟨S2048, .f32⟩ : BufTy).Contents (Elt F)),
    binary main_v324 main_v321 main_v325 (mulf : (⟨S2048, .f32⟩ : BufTy).Contents (Elt F) → (⟨S2048, .f32⟩ : BufTy).Contents (Elt F) → (⟨S2048, .f32⟩ : BufTy).Contents (Elt F)),
    binary main_v317 main_v325 main_v326 (subf : (⟨S2048, .f32⟩ : BufTy).Contents (Elt F) → (⟨S2048, .f32⟩ : BufTy).Contents (Elt F) → (⟨S2048, .f32⟩ : BufTy).Contents (Elt F)),
    nullary main_cst_82 (constant S_ .f32 0x3F000000#32),
    unary main_cst_82 main_v327 (broadcastInDim S2048 ![] bcast_S_S2048 : (⟨S_, .f32⟩ : BufTy).Contents (Elt F) → (⟨S2048, .f32⟩ : BufTy).Contents (Elt F)),
    binary main_v327 main_v323 main_v328 (mulf : (⟨S2048, .f32⟩ : BufTy).Contents (Elt F) → (⟨S2048, .f32⟩ : BufTy).Contents (Elt F) → (⟨S2048, .f32⟩ : BufTy).Contents (Elt F)),
    binary main_v319 main_v328 main_v329 (subf : (⟨S2048, .f32⟩ : BufTy).Contents (Elt F) → (⟨S2048, .f32⟩ : BufTy).Contents (Elt F) → (⟨S2048, .f32⟩ : BufTy).Contents (Elt F)),
    nullary main_cst_83 (constant S_ .f32 0x3F000000#32),
    unary main_cst_83 main_v330 (broadcastInDim S2048 ![] bcast_S_S2048 : (⟨S_, .f32⟩ : BufTy).Contents (Elt F) → (⟨S2048, .f32⟩ : BufTy).Contents (Elt F)),
    binary main_v330 main_v321 main_v331 (mulf : (⟨S2048, .f32⟩ : BufTy).Contents (Elt F) → (⟨S2048, .f32⟩ : BufTy).Contents (Elt F) → (⟨S2048, .f32⟩ : BufTy).Contents (Elt F)),
    binary main_v317 main_v331 main_v332 (addf : (⟨S2048, .f32⟩ : BufTy).Contents (Elt F) → (⟨S2048, .f32⟩ : BufTy).Contents (Elt F) → (⟨S2048, .f32⟩ : BufTy).Contents (Elt F)),
    nullary main_cst_84 (constant S_ .f32 0x3F000000#32) ]

set_option maxRecDepth 8192 in
theorem ops_416_sub : (ops_416 : List (HloOp τ sig (Elt F))).Forall fun op => op.bufs ⊆ tcRefs τ sig :=
  ⟨nullary_bufs_sub .., unary_bufs_sub .., binary_bufs_sub .., binary_bufs_sub .., unary_bufs_sub .., unary_bufs_sub .., unary_bufs_sub .., unary_bufs_sub .., nary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub ..⟩

set_option maxRecDepth 8192 in
theorem ops_416_fresh : (ops_416 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_416 (h : Inv_416 (F := F) x0 x1 x2 x3 x4 V) :
    Inv_446 (F := F) x0 x1 x2 x3 x4 (after ops_416 V) := by
  unfold Inv_416 at h
  obtain ⟨ha0, ha1, ha2, ha3, ha4, h_main_v229, h_main_v233, h_main_v268, h_main_v290, h_main_v294, h_main_v298, h_main_v301, h_main_v304, h_main_v307⟩ := h
  unfold Inv_446
  refine ⟨?_, ?_, ?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v229, h_main_v233, h_main_v268, h_main_v290, h_main_v294, h_main_v298, h_main_v301, h_main_v304, h_main_v307] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v229] | rw [h_main_v233] | rw [h_main_v268] | rw [h_main_v290] | rw [h_main_v294] | rw [h_main_v298] | rw [h_main_v301] | rw [h_main_v304] | rw [h_main_v307])) <;>
      (try simp only [TRef.ofBuf, TRef.toBuf, cast_eq]) <;> rfl)

def w6 : List (HloOp τ sig (Elt F)) := ops_386 ++ ops_416

theorem w6_sub : (w6 : List (HloOp τ sig (Elt F))).Forall fun op => op.bufs ⊆ tcRefs τ sig := forall_append ops_386_sub ops_416_sub

theorem w6_fresh : (w6 : List (HloOp τ sig (Elt F))).Forall fun op => op.fresh = ∅ := forall_append ops_386_fresh ops_416_fresh

theorem step_w6 (h : Inv_386 (F := F) x0 x1 x2 x3 x4 V) :
    Inv_446 (F := F) x0 x1 x2 x3 x4 (after w6 V) := by
  unfold w6
  simp only [StableHlo.after_append]
  exact step_416 (step_386 h)

set_option maxRecDepth 65536 in

theorem main_part6_eq (c : Dev nD) : main_part6 (F := F) c = seq w6 := by chain_rfl

end Cert.ReferenceIdeal.ValueP

end
-- ==== Proof.Ref.RunW7.lean ====
import proofs.«431468_j28140625724039_3_alg».proof.Proof.Ref.RunInv
import Idealize.ShloMosaic.Lib.Pipeline.Regions

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S64x96x96x6, .f32⟩ : BufTy).Contents (Elt F)} {x1 : (⟨S64x96x96x1, .f32⟩ : BufTy).Contents (Elt F)} {x2 : (⟨S64x96x96x63, .f32⟩ : BufTy).Contents (Elt F)} {x3 : (⟨S64x32x6, .f32⟩ : BufTy).Contents (Elt F)} {x4 : (⟨S64x32x63, .f32⟩ : BufTy).Contents (Elt F)} {V : Valuation τ sig (Elt F)}

set_option maxRecDepth 8192 in
set_option maxHeartbeats 4000000 in

abbrev ops_446 : List (HloOp τ sig (Elt F)) :=
  [ unary main_cst_84 main_v333 (broadcastInDim S2048 ![] bcast_S_S2048 : (⟨S_, .f32⟩ : BufTy).Contents (Elt F) → (⟨S2048, .f32⟩ : BufTy).Contents (Elt F)),
    binary main_v333 main_v323 main_v334 (mulf : (⟨S2048, .f32⟩ : BufTy).Contents (Elt F) → (⟨S2048, .f32⟩ : BufTy).Contents (Elt F) → (⟨S2048, .f32⟩ : BufTy).Contents (Elt F)),
    binary main_v319 main_v334 main_v335 (addf : (⟨S2048, .f32⟩ : BufTy).Contents (Elt F) → (⟨S2048, .f32⟩ : BufTy).Contents (Elt F) → (⟨S2048, .f32⟩ : BufTy).Contents (Elt F)),
    unary main_v326 main_v336 (broadcastInDim S2048x1 ![0] bcast_S2048_S2048x1_0 : (⟨S2048, .f32⟩ : BufTy).Contents (Elt F) → (⟨S2048x1, .f32⟩ : BufTy).Contents (Elt F)),
    unary main_v329 main_v337 (broadcastInDim S2048x1 ![0] bcast_S2048_S2048x1_0 : (⟨S2048, .f32⟩ : BufTy).Contents (Elt F) → (⟨S2048x1, .f32⟩ : BufTy).Contents (Elt F)),
    unary main_v332 main_v338 (broadcastInDim S2048x1 ![0] bcast_S2048_S2048x1_0 : (⟨S2048, .f32⟩ : BufTy).Contents (Elt F) → (⟨S2048x1, .f32⟩ : BufTy).Contents (Elt F)),
    unary main_v335 main_v339 (broadcastInDim S2048x1 ![0] bcast_S2048_S2048x1_0 : (⟨S2048, .f32⟩ : BufTy).Contents (Elt F) → (⟨S2048x1, .f32⟩ : BufTy).Contents (Elt F)),
    nary ![main_v336, main_v337, main_v338, main_v339] main_v340 (fun u => concatenate S2048x4 1 [⟨S2048x1, u 0⟩, ⟨S2048x1, u 1⟩, ⟨S2048x1, u 2⟩, ⟨S2048x1, u 3⟩] concatenates_S2048x1_S2048x1_S2048x1_S2048x1_S2048x4_d1),
    unary main_v315 main_v341 ((extractStridedSlice S2048x1 ![0, 2] · slices_S2048x4_S2048x1_0_2) : (⟨S2048x4, .f32⟩ : BufTy).Contents (Elt F) → (⟨S2048x1, .f32⟩ : BufTy).Contents (Elt F)),
    reshape main_v341 main_v342 rfl shapeCasts_S2048x1_S2048,
    unary main_v315 main_v343 ((extractStridedSlice S2048x1 ![0, 0] · slices_S2048x4_S2048x1_0_0) : (⟨S2048x4, .f32⟩ : BufTy).Contents (Elt F) → (⟨S2048x1, .f32⟩ : BufTy).Contents (Elt F)),
    reshape main_v343 main_v344 rfl shapeCasts_S2048x1_S2048,
    binary main_v342 main_v344 main_v345 (subf : (⟨S2048, .f32⟩ : BufTy).Contents (Elt F) → (⟨S2048, .f32⟩ : BufTy).Contents (Elt F) → (⟨S2048, .f32⟩ : BufTy).Contents (Elt F)),
    unary main_v315 main_v346 ((extractStridedSlice S2048x1 ![0, 3] · slices_S2048x4_S2048x1_0_3) : (⟨S2048x4, .f32⟩ : BufTy).Contents (Elt F) → (⟨S2048x1, .f32⟩ : BufTy).Contents (Elt F)),
    reshape main_v346 main_v347 rfl shapeCasts_S2048x1_S2048,
    unary main_v315 main_v348 ((extractStridedSlice S2048x1 ![0, 1] · slices_S2048x4_S2048x1_0_1) : (⟨S2048x4, .f32⟩ : BufTy).Contents (Elt F) → (⟨S2048x1, .f32⟩ : BufTy).Contents (Elt F)),
    reshape main_v348 main_v349 rfl shapeCasts_S2048x1_S2048,
    binary main_v347 main_v349 main_v350 (subf : (⟨S2048, .f32⟩ : BufTy).Contents (Elt F) → (⟨S2048, .f32⟩ : BufTy).Contents (Elt F) → (⟨S2048, .f32⟩ : BufTy).Contents (Elt F)),
    binary main_v345 main_v350 main_v351 (mulf : (⟨S2048, .f32⟩ : BufTy).Contents (Elt F) → (⟨S2048, .f32⟩ : BufTy).Contents (Elt F) → (⟨S2048, .f32⟩ : BufTy).Contents (Elt F)),
    unary main_v340 main_v352 ((extractStridedSlice S2048x1 ![0, 2] · slices_S2048x4_S2048x1_0_2) : (⟨S2048x4, .f32⟩ : BufTy).Contents (Elt F) → (⟨S2048x1, .f32⟩ : BufTy).Contents (Elt F)),
    reshape main_v352 main_v353 rfl shapeCasts_S2048x1_S2048,
    unary main_v340 main_v354 ((extractStridedSlice S2048x1 ![0, 0] · slices_S2048x4_S2048x1_0_0) : (⟨S2048x4, .f32⟩ : BufTy).Contents (Elt F) → (⟨S2048x1, .f32⟩ : BufTy).Contents (Elt F)),
    reshape main_v354 main_v355 rfl shapeCasts_S2048x1_S2048,
    binary main_v353 main_v355 main_v356 (subf : (⟨S2048, .f32⟩ : BufTy).Contents (Elt F) → (⟨S2048, .f32⟩ : BufTy).Contents (Elt F) → (⟨S2048, .f32⟩ : BufTy).Contents (Elt F)),
    unary main_v340 main_v357 ((extractStridedSlice S2048x1 ![0, 3] · slices_S2048x4_S2048x1_0_3) : (⟨S2048x4, .f32⟩ : BufTy).Contents (Elt F) → (⟨S2048x1, .f32⟩ : BufTy).Contents (Elt F)),
    reshape main_v357 main_v358 rfl shapeCasts_S2048x1_S2048,
    unary main_v340 main_v359 ((extractStridedSlice S2048x1 ![0, 1] · slices_S2048x4_S2048x1_0_1) : (⟨S2048x4, .f32⟩ : BufTy).Contents (Elt F) → (⟨S2048x1, .f32⟩ : BufTy).Contents (Elt F)),
    reshape main_v359 main_v360 rfl shapeCasts_S2048x1_S2048,
    binary main_v358 main_v360 main_v361 (subf : (⟨S2048, .f32⟩ : BufTy).Contents (Elt F) → (⟨S2048, .f32⟩ : BufTy).Contents (Elt F) → (⟨S2048, .f32⟩ : BufTy).Contents (Elt F)),
    binary main_v356 main_v361 main_v362 (mulf : (⟨S2048, .f32⟩ : BufTy).Contents (Elt F) → (⟨S2048, .f32⟩ : BufTy).Contents (Elt F) → (⟨S2048, .f32⟩ : BufTy).Contents (Elt F)),
    unary main_v315 main_v363 ((extractStridedSlice S2048x2 ![0, 0] · slices_S2048x4_S2048x2_0_0) : (⟨S2048x4, .f32⟩ : BufTy).Contents (Elt F) → (⟨S2048x2, .f32⟩ : BufTy).Contents (Elt F)) ]

set_option maxRecDepth 8192 in
theorem ops_446_sub : (ops_446 : List (HloOp τ sig (Elt F))).Forall fun op => op.bufs ⊆ tcRefs τ sig :=
  ⟨unary_bufs_sub .., binary_bufs_sub .., binary_bufs_sub .., unary_bufs_sub .., unary_bufs_sub .., unary_bufs_sub .., unary_bufs_sub .., nary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub ..⟩

set_option maxRecDepth 8192 in
theorem ops_446_fresh : (ops_446 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_446 (h : Inv_446 (F := F) x0 x1 x2 x3 x4 V) :
    Inv_477 (F := F) x0 x1 x2 x3 x4 (after ops_446 V) := by
  unfold Inv_446 at h
  obtain ⟨ha0, ha1, ha2, ha3, ha4, h_main_v229, h_main_v233, h_main_v268, h_main_v315, h_main_v319, h_main_v323, h_main_v326, h_main_v329, h_main_v332, h_main_cst_84⟩ := h
  unfold Inv_477
  refine ⟨?_, ?_, ?_, ?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v229, h_main_v233, h_main_v268, h_main_v315, h_main_v319, h_main_v323, h_main_v326, h_main_v329, h_main_v332, h_main_cst_84] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v229] | rw [h_main_v233] | rw [h_main_v268] | rw [h_main_v315] | rw [h_main_v319] | rw [h_main_v323] | rw [h_main_v326] | rw [h_main_v329] | rw [h_main_v332] | rw [h_main_cst_84])) <;>
      (try simp only [TRef.ofBuf, TRef.toBuf, cast_eq]) <;> rfl)

set_option maxRecDepth 8192 in
set_option maxHeartbeats 4000000 in

abbrev ops_477 : List (HloOp τ sig (Elt F)) :=
  [ unary main_v363 main_v364 (broadcastInDim S2048x1x2 ![0, 2] bcast_S2048x2_S2048x1x2_0_2 : (⟨S2048x2, .f32⟩ : BufTy).Contents (Elt F) → (⟨S2048x1x2, .f32⟩ : BufTy).Contents (Elt F)),
    unary main_v340 main_v365 ((extractStridedSlice S2048x2 ![0, 0] · slices_S2048x4_S2048x2_0_0) : (⟨S2048x4, .f32⟩ : BufTy).Contents (Elt F) → (⟨S2048x2, .f32⟩ : BufTy).Contents (Elt F)),
    unary main_v365 main_v366 (broadcastInDim S1x2048x2 ![1, 2] bcast_S2048x2_S1x2048x2_1_2 : (⟨S2048x2, .f32⟩ : BufTy).Contents (Elt F) → (⟨S1x2048x2, .f32⟩ : BufTy).Contents (Elt F)),
    unary main_v364 main_v367 (broadcastInDim S2048x2048x2 ![0, 1, 2] bcast_S2048x1x2_S2048x2048x2_0_1_2 : (⟨S2048x1x2, .f32⟩ : BufTy).Contents (Elt F) → (⟨S2048x2048x2, .f32⟩ : BufTy).Contents (Elt F)),
    unary main_v366 main_v368 (broadcastInDim S2048x2048x2 ![0, 1, 2] bcast_S1x2048x2_S2048x2048x2_0_1_2 : (⟨S1x2048x2, .f32⟩ : BufTy).Contents (Elt F) → (⟨S2048x2048x2, .f32⟩ : BufTy).Contents (Elt F)),
    binary main_v367 main_v368 main_v369 (maximumf : (⟨S2048x2048x2, .f32⟩ : BufTy).Contents (Elt F) → (⟨S2048x2048x2, .f32⟩ : BufTy).Contents (Elt F) → (⟨S2048x2048x2, .f32⟩ : BufTy).Contents (Elt F)),
    unary main_v315 main_v370 ((extractStridedSlice S2048x2 ![0, 2] · slices_S2048x4_S2048x2_0_2) : (⟨S2048x4, .f32⟩ : BufTy).Contents (Elt F) → (⟨S2048x2, .f32⟩ : BufTy).Contents (Elt F)),
    unary main_v370 main_v371 (broadcastInDim S2048x1x2 ![0, 2] bcast_S2048x2_S2048x1x2_0_2 : (⟨S2048x2, .f32⟩ : BufTy).Contents (Elt F) → (⟨S2048x1x2, .f32⟩ : BufTy).Contents (Elt F)),
    unary main_v340 main_v372 ((extractStridedSlice S2048x2 ![0, 2] · slices_S2048x4_S2048x2_0_2) : (⟨S2048x4, .f32⟩ : BufTy).Contents (Elt F) → (⟨S2048x2, .f32⟩ : BufTy).Contents (Elt F)),
    unary main_v372 main_v373 (broadcastInDim S1x2048x2 ![1, 2] bcast_S2048x2_S1x2048x2_1_2 : (⟨S2048x2, .f32⟩ : BufTy).Contents (Elt F) → (⟨S1x2048x2, .f32⟩ : BufTy).Contents (Elt F)),
    unary main_v371 main_v374 (broadcastInDim S2048x2048x2 ![0, 1, 2] bcast_S2048x1x2_S2048x2048x2_0_1_2 : (⟨S2048x1x2, .f32⟩ : BufTy).Contents (Elt F) → (⟨S2048x2048x2, .f32⟩ : BufTy).Contents (Elt F)),
    unary main_v373 main_v375 (broadcastInDim S2048x2048x2 ![0, 1, 2] bcast_S1x2048x2_S2048x2048x2_0_1_2 : (⟨S1x2048x2, .f32⟩ : BufTy).Contents (Elt F) → (⟨S2048x2048x2, .f32⟩ : BufTy).Contents (Elt F)),
    binary main_v374 main_v375 main_v376 (minimumf : (⟨S2048x2048x2, .f32⟩ : BufTy).Contents (Elt F) → (⟨S2048x2048x2, .f32⟩ : BufTy).Contents (Elt F) → (⟨S2048x2048x2, .f32⟩ : BufTy).Contents (Elt F)),
    binary main_v376 main_v369 main_v377 (subf : (⟨S2048x2048x2, .f32⟩ : BufTy).Contents (Elt F) → (⟨S2048x2048x2, .f32⟩ : BufTy).Contents (Elt F) → (⟨S2048x2048x2, .f32⟩ : BufTy).Contents (Elt F)),
    nullary main_cst_85 (constant S_ .f32 0x00000000#32),
    TRef.unary (TRef.of (T := ⟨S_, .f32⟩) main_cst_85) (TRef.of (T := ⟨S_, .f32⟩) main_call2_v0) id,
    TRef.unary (TRef.of (T := ⟨S_, .f32⟩) main_call2_v0) (TRef.of (T := ⟨S2048x2048x2, .f32⟩) main_call2_v1) (broadcastInDim S2048x2048x2 ![] bcast_S_S2048x2048x2),
    TRef.binary (TRef.of (T := ⟨S2048x2048x2, .f32⟩) main_call2_v1) (TRef.of (T := ⟨S2048x2048x2, .f32⟩) main_v377) (TRef.of (T := ⟨S2048x2048x2, .f32⟩) main_v378) maximumf,
    unary main_v378 main_v379 ((extractStridedSlice S2048x2048x1 ![0, 0, 0] · slices_S2048x2048x2_S2048x2048x1_0_0_0) : (⟨S2048x2048x2, .f32⟩ : BufTy).Contents (Elt F) → (⟨S2048x2048x1, .f32⟩ : BufTy).Contents (Elt F)),
    reshape main_v379 main_v380 rfl shapeCasts_S2048x2048x1_S2048x2048,
    unary main_v378 main_v381 ((extractStridedSlice S2048x2048x1 ![0, 0, 1] · slices_S2048x2048x2_S2048x2048x1_0_0_1) : (⟨S2048x2048x2, .f32⟩ : BufTy).Contents (Elt F) → (⟨S2048x2048x1, .f32⟩ : BufTy).Contents (Elt F)),
    reshape main_v381 main_v382 rfl shapeCasts_S2048x2048x1_S2048x2048,
    binary main_v380 main_v382 main_v383 (mulf : (⟨S2048x2048, .f32⟩ : BufTy).Contents (Elt F) → (⟨S2048x2048, .f32⟩ : BufTy).Contents (Elt F) → (⟨S2048x2048, .f32⟩ : BufTy).Contents (Elt F)),
    unary main_v351 main_v384 (broadcastInDim S2048x1 ![0] bcast_S2048_S2048x1_0 : (⟨S2048, .f32⟩ : BufTy).Contents (Elt F) → (⟨S2048x1, .f32⟩ : BufTy).Contents (Elt F)),
    unary main_v362 main_v385 (broadcastInDim S1x2048 ![1] bcast_S2048_S1x2048_1 : (⟨S2048, .f32⟩ : BufTy).Contents (Elt F) → (⟨S1x2048, .f32⟩ : BufTy).Contents (Elt F)),
    unary main_v384 main_v386 (broadcastInDim S2048x2048 ![0, 1] bcast_S2048x1_S2048x2048_0_1 : (⟨S2048x1, .f32⟩ : BufTy).Contents (Elt F) → (⟨S2048x2048, .f32⟩ : BufTy).Contents (Elt F)),
    unary main_v385 main_v387 (broadcastInDim S2048x2048 ![0, 1] bcast_S1x2048_S2048x2048_0_1 : (⟨S1x2048, .f32⟩ : BufTy).Contents (Elt F) → (⟨S2048x2048, .f32⟩ : BufTy).Contents (Elt F)),
    binary main_v386 main_v387 main_v388 (addf : (⟨S2048x2048, .f32⟩ : BufTy).Contents (Elt F) → (⟨S2048x2048, .f32⟩ : BufTy).Contents (Elt F) → (⟨S2048x2048, .f32⟩ : BufTy).Contents (Elt F)),
    binary main_v388 main_v383 main_v389 (subf : (⟨S2048x2048, .f32⟩ : BufTy).Contents (Elt F) → (⟨S2048x2048, .f32⟩ : BufTy).Contents (Elt F) → (⟨S2048x2048, .f32⟩ : BufTy).Contents (Elt F)),
    binary main_v383 main_v389 main_v390 (Host.divf : (⟨S2048x2048, .f32⟩ : BufTy).Contents (Elt F) → (⟨S2048x2048, .f32⟩ : BufTy).Contents (Elt F) → (⟨S2048x2048, .f32⟩ : BufTy).Contents (Elt F)),
    nullary main_cst_86 (constant S_ .f32 0x3F800000#32) ]

set_option maxRecDepth 8192 in
theorem ops_477_sub : (ops_477 : List (HloOp τ sig (Elt F))).Forall fun op => op.bufs ⊆ tcRefs τ sig :=
  ⟨unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., unary_bufs_sub .., unary_bufs_sub .., unary_bufs_sub .., binary_bufs_sub .., binary_bufs_sub .., binary_bufs_sub .., nullary_bufs_sub ..⟩

set_option maxRecDepth 8192 in
theorem ops_477_fresh : (ops_477 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 40000000 in

theorem step_477 (h : Inv_477 (F := F) x0 x1 x2 x3 x4 V) :
    Inv_508 (F := F) x0 x1 x2 x3 x4 (after ops_477 V) := by
  unfold Inv_477 at h
  obtain ⟨ha0, ha1, ha2, ha3, ha4, h_main_v229, h_main_v233, h_main_v268, h_main_v315, h_main_v340, h_main_v351, h_main_v362, h_main_v363⟩ := h
  unfold Inv_508
  refine ⟨?_, ?_, ?_, ?_, ?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v229, h_main_v233, h_main_v268, h_main_v315, h_main_v340, h_main_v351, h_main_v362, h_main_v363] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v229] | rw [h_main_v233] | rw [h_main_v268] | rw [h_main_v315] | rw [h_main_v340] | rw [h_main_v351] | rw [h_main_v362] | rw [h_main_v363])) <;>
      (try simp only [TRef.ofBuf, TRef.toBuf, cast_eq]) <;> rfl)

def w7 : List (HloOp τ sig (Elt F)) := ops_446 ++ ops_477

theorem w7_sub : (w7 : List (HloOp τ sig (Elt F))).Forall fun op => op.bufs ⊆ tcRefs τ sig := forall_append ops_446_sub ops_477_sub

theorem w7_fresh : (w7 : List (HloOp τ sig (Elt F))).Forall fun op => op.fresh = ∅ := forall_append ops_446_fresh ops_477_fresh

theorem step_w7 (h : Inv_446 (F := F) x0 x1 x2 x3 x4 V) :
    Inv_508 (F := F) x0 x1 x2 x3 x4 (after w7 V) := by
  unfold w7
  simp only [StableHlo.after_append]
  exact step_477 (step_446 h)

set_option maxRecDepth 65536 in

theorem main_part7_eq (c : Dev nD) : main_part7 (F := F) c = seq w7 := by chain_rfl

end Cert.ReferenceIdeal.ValueP

end
-- ==== Proof.Ref.RunW8.lean ====
import proofs.«431468_j28140625724039_3_alg».proof.Proof.Ref.RunInv
import Idealize.ShloMosaic.Lib.Pipeline.Regions

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]
variable {x0 : (⟨S64x96x96x6, .f32⟩ : BufTy).Contents (Elt F)} {x1 : (⟨S64x96x96x1, .f32⟩ : BufTy).Contents (Elt F)} {x2 : (⟨S64x96x96x63, .f32⟩ : BufTy).Contents (Elt F)} {x3 : (⟨S64x32x6, .f32⟩ : BufTy).Contents (Elt F)} {x4 : (⟨S64x32x63, .f32⟩ : BufTy).Contents (Elt F)} {V : Valuation τ sig (Elt F)}

set_option maxRecDepth 8192 in
set_option maxHeartbeats 4000000 in

abbrev ops_508 : List (HloOp τ sig (Elt F)) :=
  [ unary main_cst_86 main_v391 (broadcastInDim S2048x2048 ![] bcast_S_S2048x2048 : (⟨S_, .f32⟩ : BufTy).Contents (Elt F) → (⟨S2048x2048, .f32⟩ : BufTy).Contents (Elt F)),
    binary main_v391 main_v390 main_v392 (subf : (⟨S2048x2048, .f32⟩ : BufTy).Contents (Elt F) → (⟨S2048x2048, .f32⟩ : BufTy).Contents (Elt F) → (⟨S2048x2048, .f32⟩ : BufTy).Contents (Elt F)),
    nullary main_cst_87 (constant S_ .f32 0x00000000#32),
    binary main_v392 main_cst_87 main_v393 ((fun x v => Host.reduceAdd x v reducesTo_S2048x2048_S_d0_1 h_S_) : (⟨S2048x2048, .f32⟩ : BufTy).Contents (Elt F) → (⟨S_, .f32⟩ : BufTy).Contents (Elt F) → (⟨S_, .f32⟩ : BufTy).Contents (Elt F)),
    nullary main_cst_88 (constant S_ .f32 0x45000000#32),
    binary main_v393 main_cst_88 main_v394 (Host.divf : (⟨S_, .f32⟩ : BufTy).Contents (Elt F) → (⟨S_, .f32⟩ : BufTy).Contents (Elt F) → (⟨S_, .f32⟩ : BufTy).Contents (Elt F)),
    unary main_v229 main_v395 (broadcastInDim S1 ![] bcast_S_S1 : (⟨S_, .f32⟩ : BufTy).Contents (Elt F) → (⟨S1, .f32⟩ : BufTy).Contents (Elt F)),
    unary main_v233 main_v396 (broadcastInDim S1 ![] bcast_S_S1 : (⟨S_, .f32⟩ : BufTy).Contents (Elt F) → (⟨S1, .f32⟩ : BufTy).Contents (Elt F)),
    unary main_v268 main_v397 (broadcastInDim S1 ![] bcast_S_S1 : (⟨S_, .f32⟩ : BufTy).Contents (Elt F) → (⟨S1, .f32⟩ : BufTy).Contents (Elt F)),
    unary main_v394 main_v398 (broadcastInDim S1 ![] bcast_S_S1 : (⟨S_, .f32⟩ : BufTy).Contents (Elt F) → (⟨S1, .f32⟩ : BufTy).Contents (Elt F)),
    nary ![main_v395, main_v396, main_v397, main_v398] main_v399 (fun u => concatenate S4 0 [⟨S1, u 0⟩, ⟨S1, u 1⟩, ⟨S1, u 2⟩, ⟨S1, u 3⟩] concatenates_S1_S1_S1_S1_S4_d0) ]

set_option maxRecDepth 8192 in
theorem ops_508_sub : (ops_508 : List (HloOp τ sig (Elt F))).Forall fun op => op.bufs ⊆ tcRefs τ sig :=
  ⟨unary_bufs_sub .., binary_bufs_sub .., nullary_bufs_sub .., binary_bufs_sub .., nullary_bufs_sub .., binary_bufs_sub .., unary_bufs_sub .., unary_bufs_sub .., unary_bufs_sub .., unary_bufs_sub .., nary_bufs_sub ..⟩

set_option maxRecDepth 8192 in
theorem ops_508_fresh : (ops_508 : List (HloOp τ sig (Elt F))).Forall fun op => op.fresh = ∅ :=
  ⟨rfl, rfl, rfl, rfl, rfl, rfl, rfl, rfl, rfl, rfl, rfl⟩

set_option maxRecDepth 8192 in
set_option maxHeartbeats 40000000 in

theorem step_508 (h : Inv_508 (F := F) x0 x1 x2 x3 x4 V) :
    Inv_519 (F := F) x0 x1 x2 x3 x4 (after ops_508 V) := by
  unfold Inv_508 at h
  obtain ⟨ha0, ha1, ha2, ha3, ha4, h_main_v229, h_main_v233, h_main_v268, h_main_v390, h_main_cst_86⟩ := h
  unfold Inv_519
  refine ⟨?_, ?_, ?_, ?_, ?_, ?_⟩ <;>
    (simp (disch := decide) only [after_cons, after_nil, nullary_result', unary_result', binary_result', ternary_result', quaternary_result', reshape_result', nary4_result', nary3_result', nullary_result_ne', unary_result_ne', binary_result_ne', ternary_result_ne', quaternary_result_ne', reshape_result_ne', nary_result_ne',
      ha0, ha1, ha2, ha3, ha4, h_main_v229, h_main_v233, h_main_v268, h_main_v390, h_main_cst_86] <;>
      (repeat (first
        | rw [nullary_result] | rw [unary_result] | rw [binary_result] | rw [ternary_result] | rw [quaternary_result]
        | rw [reshape_result] | rw [nary4_result] | rw [nary3_result']
        | (rw [nullary_result_ne]; rotate_left; decide) | (rw [unary_result_ne]; rotate_left; decide)
        | (rw [binary_result_ne]; rotate_left; decide) | (rw [ternary_result_ne]; rotate_left; decide)
        | (rw [quaternary_result_ne]; rotate_left; decide) | (rw [reshape_result_ne]; rotate_left; decide)
        | (rw [nary_result_ne]; rotate_left; decide))) <;>
      (repeat (first | rw [ha0] | rw [ha1] | rw [ha2] | rw [ha3] | rw [ha4] | rw [h_main_v229] | rw [h_main_v233] | rw [h_main_v268] | rw [h_main_v390] | rw [h_main_cst_86])) <;>
      (try simp only [TRef.ofBuf, TRef.toBuf, cast_eq]) <;> rfl)

def w8 : List (HloOp τ sig (Elt F)) := ops_508

theorem w8_sub : (w8 : List (HloOp τ sig (Elt F))).Forall fun op => op.bufs ⊆ tcRefs τ sig := ops_508_sub

theorem w8_fresh : (w8 : List (HloOp τ sig (Elt F))).Forall fun op => op.fresh = ∅ := ops_508_fresh

theorem step_w8 (h : Inv_508 (F := F) x0 x1 x2 x3 x4 V) :
    Inv_519 (F := F) x0 x1 x2 x3 x4 (after w8 V) := by
  unfold w8
  exact step_508 h

set_option maxRecDepth 65536 in

theorem main_part8_eq (c : Dev nD) : main_part8 (F := F) c = seq w8 := by chain_rfl

end Cert.ReferenceIdeal.ValueP

end
-- ==== Proof.Ref.Run.lean ====
import proofs.«431468_j28140625724039_3_alg».proof.Proof.Ref.RunW0
import proofs.«431468_j28140625724039_3_alg».proof.Proof.Ref.RunW1
import proofs.«431468_j28140625724039_3_alg».proof.Proof.Ref.RunW2
import proofs.«431468_j28140625724039_3_alg».proof.Proof.Ref.RunW3
import proofs.«431468_j28140625724039_3_alg».proof.Proof.Ref.RunW4
import proofs.«431468_j28140625724039_3_alg».proof.Proof.Ref.RunW5
import proofs.«431468_j28140625724039_3_alg».proof.Proof.Ref.RunW6
import proofs.«431468_j28140625724039_3_alg».proof.Proof.Ref.RunW7
import proofs.«431468_j28140625724039_3_alg».proof.Proof.Ref.RunW8

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 519 operations, in order, window after window. -/
def ops : List (HloOp τ sig (Elt F)) := w0 ++ (w1 ++ (w2 ++ (w3 ++ (w4 ++ (w5 ++ (w6 ++ (w7 ++ (w8))))))))

/-- @main is the line of its operations. -/
theorem main_eq (c : Dev nD) : main (F := F) c = seq ops := by
  unfold ops
  simp only [seq_append]
  rw [← main_part0_eq c, ← main_part1_eq c, ← main_part2_eq c, ← main_part3_eq c, ← main_part4_eq c, ← main_part5_eq c, ← main_part6_eq c, ← main_part7_eq c, ← main_part8_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := forall_append w0_sub (forall_append w1_sub (forall_append w2_sub (forall_append w3_sub (forall_append w4_sub (forall_append w5_sub (forall_append w6_sub (forall_append w7_sub (w8_sub))))))))

theorem ops_fresh : (ops : List (HloOp τ sig (Elt F))).Forall fun op => op.fresh = ∅ := forall_append w0_fresh (forall_append w1_fresh (forall_append w2_fresh (forall_append w3_fresh (forall_append w4_fresh (forall_append w5_fresh (forall_append w6_fresh (forall_append w7_fresh (w8_fresh))))))))

/-- The whole line carries the arguments' contents to the last stage at the result buffer, the arguments unchanged. -/
theorem inv_end {x0 : (⟨S64x96x96x6, .f32⟩ : BufTy).Contents (Elt F)} {x1 : (⟨S64x96x96x1, .f32⟩ : BufTy).Contents (Elt F)} {x2 : (⟨S64x96x96x63, .f32⟩ : BufTy).Contents (Elt F)} {x3 : (⟨S64x32x6, .f32⟩ : BufTy).Contents (Elt F)} {x4 : (⟨S64x32x63, .f32⟩ : BufTy).Contents (Elt F)} {V : Valuation τ sig (Elt F)} (h : Inv_0 (F := F) x0 x1 x2 x3 x4 V) :
    Inv_519 (F := F) x0 x1 x2 x3 x4 (after ops V) := by
  unfold ops
  simp only [StableHlo.after_append]
  exact step_w8 (step_w7 (step_w6 (step_w5 (step_w4 (step_w3 (step_w2 (step_w1 (step_w0 h))))))))

/-- On every device, for any float values, from any memory with zero counters: every weakly fair execution of
    @main terminates with the result buffer at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v399) = val_main_v399 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
      have hi := inv_end (F := F) (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4)))
        (V := launchContents m c) (by unfold Inv_0; exact ⟨rfl, rfl, rfl, rfl, rfl⟩)
      unfold Inv_519 at hi
      obtain ⟨h0, h1, h2, h3, h4, h399⟩ := hi
      exact ⟨(h c main_v399).trans h399, (h c main_arg0).trans h0, (h c main_arg1).trans h1, (h c main_arg2).trans h2,
        (h c main_arg3).trans h3, (h c main_arg4).trans h4⟩)
    (run_seq scopedRefs_eq scopedSems_eq defs main (fun _ => ops) main_eq (fun _ => ops_sub) m ρ
      (fun _ => List.forall_iff_forall_mem.1 ops_fresh))

end Cert.ReferenceIdeal.ValueP

end
-- ==== Proof.Ref.Gather.lean ====
import proofs.«431468_j28140625724039_3_alg».proof.Proof.Ref.Read
import proofs.«431468_j28140625724039_3_alg».proof.Proof.Spec

noncomputable section

namespace Cert.ReferenceIdeal.ValG

open Cert.ReferenceIdeal Cert.ReferenceIdeal.Gen Idealize.ShloMosaic Idealize.ShloMosaic.ValueIdx

local notation "dG" => gather_S64x96x96_S64x32x3_S64x32_n_012_n_n_012_2_111

theorem dG_nb (a : Fin 3) : a ∉ (dG).operandBatchingDims := List.not_mem_nil
theorem dG_nk (a : Fin 3) : a ∉ (dG).sKept := fun h =>
  ((GatherDims.mem_sKept _ _).mp h).1 (by
    show a ∈ ([0, 1, 2] : List (Fin 3))
    revert a; decide)
theorem dG_sim (a : Fin 3) : a ∈ (dG).startIndexMap := by
  show a ∈ ([0, 1, 2] : List (Fin 3))
  revert a; decide

theorem dG_siIdx (b : Fin 64) (n : Fin 32) (a : Fin 3) :
    (dG).siIdx (ix2 b n) ⟨List.idxOf a (dG).startIndexMap, List.idxOf_lt_length_iff.2 (dG_sim a)⟩ = ix3 b n a := by
  funext c; refine Fin.ext ?_
  match a, c with
  | ⟨0, _⟩, ⟨0, _⟩ => rfl
  | ⟨0, _⟩, ⟨1, _⟩ => rfl
  | ⟨0, _⟩, ⟨2, _⟩ => rfl
  | ⟨1, _⟩, ⟨0, _⟩ => rfl
  | ⟨1, _⟩, ⟨1, _⟩ => rfl
  | ⟨1, _⟩, ⟨2, _⟩ => rfl
  | ⟨2, _⟩, ⟨0, _⟩ => rfl
  | ⟨2, _⟩, ⟨1, _⟩ => rfl
  | ⟨2, _⟩, ⟨2, _⟩ => rfl

theorem dG_coord {w : Nat} (idx : IVec S64x32x3 w) (b : Fin 64) (n : Fin 32) (a : Fin 3) :
    ((dG).operandIdx (ix2 b n) idx a).val = min (idx (ix3 b n a)).toInt.toNat (S64x96x96.size a - 1) := by
  show (dG).start (ix2 b n) idx a + (dG).batchCoord (ix2 b n) a + (dG).offCoord (ix2 b n) a = _
  rw [GatherDims.batchCoord_eq_zero _ _ _ (dG_nb a), GatherDims.offCoord_eq_zero _ _ _ (dG_nk a)]
  simp only [Nat.add_zero]
  unfold GatherDims.start
  rw [dif_pos (dG_sim a), dG_siIdx b n a]
  match a with
  | ⟨0, _⟩ => rfl
  | ⟨1, _⟩ => rfl
  | ⟨2, _⟩ => rfl

theorem gather3_at {α : Type} (x : S64x96x96.Idx → α) (idx : IVec S64x32x3 32) (b : Fin 64) (n : Fin 32)
    (i0 : Fin 64) (i1 i2 : Fin 96)
    (h0 : min (idx (ix3 b n (0 : Fin 3))).toInt.toNat 63 = i0.val)
    (h1 : min (idx (ix3 b n (1 : Fin 3))).toInt.toNat 95 = i1.val)
    (h2 : min (idx (ix3 b n (2 : Fin 3))).toInt.toNat 95 = i2.val) :
    Host.gather dG x idx (ix2 b n) = x (ix3 i0 i1 i2) := by
  unfold Host.gather
  congr 1
  funext a
  refine Fin.ext ?_
  match a with
  | ⟨0, _⟩ => exact (dG_coord idx b n 0).trans h0
  | ⟨1, _⟩ => exact (dG_coord idx b n 1).trans h1
  | ⟨2, _⟩ => exact (dG_coord idx b n 2).trans h2

local notation "dK" => gather_S64x96x96x63_S64x32x3_S64x32x63_2_012_n_n_012_2_11163

abbrev ax3 (a : Fin 3) : Fin 4 := ⟨a.val, by omega⟩

theorem dK_nb (a : Fin 4) : a ∉ (dK).operandBatchingDims := List.not_mem_nil
theorem dK_nk (a : Fin 3) : ax3 a ∉ (dK).sKept := fun h =>
  ((GatherDims.mem_sKept _ _).mp h).1 (by
    show ax3 a ∈ ([0, 1, 2] : List (Fin 4))
    revert a; decide)
theorem dK_k3 : (3 : Fin 4) ∈ (dK).sKept :=
  (GatherDims.mem_sKept _ _).mpr ⟨by show (3 : Fin 4) ∉ ([0, 1, 2] : List (Fin 4)); decide, List.not_mem_nil⟩
theorem dK_sim (a : Fin 3) : ax3 a ∈ (dK).startIndexMap := by
  show ax3 a ∈ ([0, 1, 2] : List (Fin 4))
  revert a; decide
theorem dK_nsim3 : (3 : Fin 4) ∉ (dK).startIndexMap := by
  show (3 : Fin 4) ∉ ([0, 1, 2] : List (Fin 4)); decide

theorem dK_siIdx (b : Fin 64) (n : Fin 32) (k : Fin 63) (a : Fin 3) :
    (dK).siIdx (ix3 b n k) ⟨List.idxOf (ax3 a) (dK).startIndexMap, List.idxOf_lt_length_iff.2 (dK_sim a)⟩ = ix3 b n a := by
  funext c; refine Fin.ext ?_
  match a, c with
  | ⟨0, _⟩, ⟨0, _⟩ => rfl
  | ⟨0, _⟩, ⟨1, _⟩ => rfl
  | ⟨0, _⟩, ⟨2, _⟩ => rfl
  | ⟨1, _⟩, ⟨0, _⟩ => rfl
  | ⟨1, _⟩, ⟨1, _⟩ => rfl
  | ⟨1, _⟩, ⟨2, _⟩ => rfl
  | ⟨2, _⟩, ⟨0, _⟩ => rfl
  | ⟨2, _⟩, ⟨1, _⟩ => rfl
  | ⟨2, _⟩, ⟨2, _⟩ => rfl

theorem dK_coord {w : Nat} (idx : IVec S64x32x3 w) (b : Fin 64) (n : Fin 32) (k : Fin 63) (a : Fin 3) :
    ((dK).operandIdx (ix3 b n k) idx (ax3 a)).val = min (idx (ix3 b n a)).toInt.toNat (S64x96x96x63.size (ax3 a) - 1) := by
  show (dK).start (ix3 b n k) idx (ax3 a) + (dK).batchCoord (ix3 b n k) (ax3 a) + (dK).offCoord (ix3 b n k) (ax3 a) = _
  rw [GatherDims.batchCoord_eq_zero _ _ _ (dK_nb _), GatherDims.offCoord_eq_zero _ _ _ (dK_nk a)]
  simp only [Nat.add_zero]
  unfold GatherDims.start
  rw [dif_pos (dK_sim a), dK_siIdx b n k a]
  match a with
  | ⟨0, _⟩ => rfl
  | ⟨1, _⟩ => rfl
  | ⟨2, _⟩ => rfl

theorem dK_coord3 {w : Nat} (idx : IVec S64x32x3 w) (b : Fin 64) (n : Fin 32) (k : Fin 63) :
    ((dK).operandIdx (ix3 b n k) idx (3 : Fin 4)).val = k.val := by
  show (dK).start (ix3 b n k) idx 3 + (dK).batchCoord (ix3 b n k) 3 + (dK).offCoord (ix3 b n k) 3 = _
  rw [GatherDims.batchCoord_eq_zero _ _ _ (dK_nb _)]
  unfold GatherDims.start
  rw [dif_neg dK_nsim3]
  unfold GatherDims.offCoord
  rw [dif_pos dK_k3]
  show 0 + 0 + (ix3 b n k ((dK).offsetDims[List.idxOf (3 : Fin 4) (dK).sKept]'_)).val = k.val
  refine (Nat.zero_add _).trans ?_
  exact congrArg (fun a => (ix3 b n k a).val) (show (dK).offsetDims[List.idxOf (3 : Fin 4) (dK).sKept]'_ = (2 : Fin 3) by decide)

theorem gather4_at {α : Type} (x : S64x96x96x63.Idx → α) (idx : IVec S64x32x3 32) (b : Fin 64) (n : Fin 32) (k : Fin 63)
    (i0 : Fin 64) (i1 i2 : Fin 96)
    (h0 : min (idx (ix3 b n (0 : Fin 3))).toInt.toNat 63 = i0.val)
    (h1 : min (idx (ix3 b n (1 : Fin 3))).toInt.toNat 95 = i1.val)
    (h2 : min (idx (ix3 b n (2 : Fin 3))).toInt.toNat 95 = i2.val) :
    Host.gather dK x idx (ix3 b n k) = x (ix4 i0 i1 i2 k) := by
  unfold Host.gather
  congr 1
  funext a
  refine Fin.ext ?_
  match a with
  | ⟨0, _⟩ => exact (dK_coord idx b n k 0).trans h0
  | ⟨1, _⟩ => exact (dK_coord idx b n k 1).trans h1
  | ⟨2, _⟩ => exact (dK_coord idx b n k 2).trans h2
  | ⟨3, _⟩ => exact dK_coord3 idx b n k

theorem concat3_0 {α : Type} (p0 p1 p2 : S64x32x1.Idx → α) (b : Fin 64) (n : Fin 32) :
    concatenate S64x32x3 2 [⟨S64x32x1, p0⟩, ⟨S64x32x1, p1⟩, ⟨S64x32x1, p2⟩]
      concatenates_S64x32x1_S64x32x1_S64x32x1_S64x32x3_d2 (ix3 b n (0 : Fin 3)) = p0 (ix3 b n (0 : Fin 1)) := by
  refine concatenate_apply_piece 2 [⟨S64x32x1, p0⟩, ⟨S64x32x1, p1⟩, ⟨S64x32x1, p2⟩]
    concatenates_S64x32x1_S64x32x1_S64x32x1_S64x32x3_d2 (ix3 b n (0 : Fin 3)) 0 (show (0 : Nat) < 3 by omega) S64x32x1 p0 rfl rfl 0 rfl
    (ix3 b n (0 : Fin 1)) ?_ rfl
  intro c hc
  match c with
  | ⟨0, _⟩ => rfl
  | ⟨1, _⟩ => rfl
  | ⟨2, _⟩ => exact absurd rfl hc

theorem concat3_1 {α : Type} (p0 p1 p2 : S64x32x1.Idx → α) (b : Fin 64) (n : Fin 32) :
    concatenate S64x32x3 2 [⟨S64x32x1, p0⟩, ⟨S64x32x1, p1⟩, ⟨S64x32x1, p2⟩]
      concatenates_S64x32x1_S64x32x1_S64x32x1_S64x32x3_d2 (ix3 b n (1 : Fin 3)) = p1 (ix3 b n (0 : Fin 1)) := by
  refine concatenate_apply_piece 2 [⟨S64x32x1, p0⟩, ⟨S64x32x1, p1⟩, ⟨S64x32x1, p2⟩]
    concatenates_S64x32x1_S64x32x1_S64x32x1_S64x32x3_d2 (ix3 b n (1 : Fin 3)) 1 (show (1 : Nat) < 3 by omega) S64x32x1 p1 rfl rfl 1 rfl
    (ix3 b n (0 : Fin 1)) ?_ rfl
  intro c hc
  match c with
  | ⟨0, _⟩ => rfl
  | ⟨1, _⟩ => rfl
  | ⟨2, _⟩ => exact absurd rfl hc

theorem concat3_2 {α : Type} (p0 p1 p2 : S64x32x1.Idx → α) (b : Fin 64) (n : Fin 32) :
    concatenate S64x32x3 2 [⟨S64x32x1, p0⟩, ⟨S64x32x1, p1⟩, ⟨S64x32x1, p2⟩]
      concatenates_S64x32x1_S64x32x1_S64x32x1_S64x32x3_d2 (ix3 b n (2 : Fin 3)) = p2 (ix3 b n (0 : Fin 1)) := by
  refine concatenate_apply_piece 2 [⟨S64x32x1, p0⟩, ⟨S64x32x1, p1⟩, ⟨S64x32x1, p2⟩]
    concatenates_S64x32x1_S64x32x1_S64x32x1_S64x32x3_d2 (ix3 b n (2 : Fin 3)) 2 (show (2 : Nat) < 3 by omega) S64x32x1 p2 rfl rfl 2 rfl
    (ix3 b n (0 : Fin 1)) ?_ rfl
  intro c hc
  match c with
  | ⟨0, _⟩ => rfl
  | ⟨1, _⟩ => rfl
  | ⟨2, _⟩ => exact absurd rfl hc

theorem v33_at (x3 : S64x32x6.Idx → EReal) (b : Fin 64) (n : Fin 32) :
    ReadP.val_main_v33 (F := Ideal) x3 (ix2 b n) = Cert.Spec.gi x3 b n := by
  rw [ReadP.val_main_v33_apply, ReadP.val_main_v16_apply, ReadP.val_main_v14_apply, ReadP.val_main_v13_apply,
    ReadP.val_main_v15_apply, ReadP.val_main_cst_apply]
  show Ideal.fptosi 32 (x3 _ * Ideal.ofBits .f32 0x42C00000#32) = Ideal.fptosi 32 (x3 (ix3 b n (0 : Fin 6)) * Cert.Spec.c96)
  congr 3
  funext a
  have hb := b.isLt
  have hn := n.isLt
  match a with
  | ⟨0, _⟩ => exact Fin.ext (show (b.val * 32 + n.val) / 32 = b.val by omega)
  | ⟨1, _⟩ => exact Fin.ext (show (b.val * 32 + n.val) / 1 % 32 = n.val by omega)
  | ⟨2, _⟩ => rfl

theorem v34_at (x3 : S64x32x6.Idx → EReal) (b : Fin 64) (n : Fin 32) :
    ReadP.val_main_v34 (F := Ideal) x3 (ix2 b n) = Cert.Spec.gj x3 b n := by
  rw [ReadP.val_main_v34_apply, ReadP.val_main_v20_apply, ReadP.val_main_v18_apply, ReadP.val_main_v17_apply,
    ReadP.val_main_v15_apply, ReadP.val_main_cst_apply]
  show Ideal.fptosi 32 (x3 _ * Ideal.ofBits .f32 0x42C00000#32) = Ideal.fptosi 32 (x3 (ix3 b n (1 : Fin 6)) * Cert.Spec.c96)
  congr 3
  funext a
  have hb := b.isLt
  have hn := n.isLt
  match a with
  | ⟨0, _⟩ => exact Fin.ext (show (b.val * 32 + n.val) / 32 = b.val by omega)
  | ⟨1, _⟩ => exact Fin.ext (show (b.val * 32 + n.val) / 1 % 32 = n.val by omega)
  | ⟨2, _⟩ => rfl

theorem wrap_id (w c : BitVec 32) (h0 : 0 ≤ w.toInt) :
    Scalar.select (IntOp.cmpi .slt w 0#32) (IntOp.addi w c) w = w := by
  have hc : IntOp.cmpi .slt w 0#32 = 0#1 := by
    unfold IntOp.cmpi
    show BitVec.ofBool (w.slt 0#32) = 0#1
    have : w.slt 0#32 = false := by
      rw [BitVec.slt_eq_decide]
      have h0' : (0#32 : BitVec 32).toInt = 0 := by decide
      rw [h0']
      exact decide_eq_false (by omega)
    rw [this]; rfl
  rw [hc]
  exact select_zero _ _

theorem ofNat_nonneg (b : Fin 64) : 0 ≤ (BitVec.ofNat 32 b.val).toInt := by
  have hb := b.isLt
  have h1 : (BitVec.ofNat 32 b.val).toNat = b.val := by rw [BitVec.toNat_ofNat]; exact Nat.mod_eq_of_lt (by omega)
  have hc := BitVec.toInt_eq_toNat_cond (BitVec.ofNat 32 b.val)
  rw [h1] at hc
  split at hc <;> omega

theorem clampB (b : Fin 64) : min (BitVec.ofNat 32 b.val).toInt.toNat 63 = b.val := by
  have hb := b.isLt
  have h1 : (BitVec.ofNat 32 b.val).toNat = b.val := by rw [BitVec.toNat_ofNat]; exact Nat.mod_eq_of_lt (by omega)
  have hc := BitVec.toInt_eq_toNat_cond (BitVec.ofNat 32 b.val)
  rw [h1] at hc
  split at hc <;> omega

theorem clamp96 (w : BitVec 32) (h0 : 0 ≤ w.toInt) (h1 : w.toInt < 96) : min w.toInt.toNat 95 = w.toNat % 96 := by
  have hc := BitVec.toInt_eq_toNat_cond w
  split at hc <;> omega

theorem v1_at (x0 : S64x96x96x6.Idx → EReal) (b : Fin 64) (j i : Fin 96) :
    ReadP.val_main_v1 (F := Ideal) x0 (ix3 b j i) = x0 (ix4 b j i (0 : Fin 6)) := by
  rw [ReadP.val_main_v1_apply, ReadP.val_main_v0_apply]
  congr 1
  funext a
  have hb := b.isLt
  have hj := j.isLt
  have hi := i.isLt
  match a with
  | ⟨0, _⟩ => exact Fin.ext (show ((b.val * 96 + j.val) * 96 + i.val) / 9216 = b.val by omega)
  | ⟨1, _⟩ => exact Fin.ext (show ((b.val * 96 + j.val) * 96 + i.val) / 96 % 96 = j.val by omega)
  | ⟨2, _⟩ => exact Fin.ext (show ((b.val * 96 + j.val) * 96 + i.val) / 1 % 96 = i.val by omega)
  | ⟨3, _⟩ => rfl

theorem v3_at (x0 : S64x96x96x6.Idx → EReal) (b : Fin 64) (j i : Fin 96) :
    ReadP.val_main_v3 (F := Ideal) x0 (ix3 b j i) = x0 (ix4 b j i (1 : Fin 6)) := by
  rw [ReadP.val_main_v3_apply, ReadP.val_main_v2_apply]
  congr 1
  funext a
  have hb := b.isLt
  have hj := j.isLt
  have hi := i.isLt
  match a with
  | ⟨0, _⟩ => exact Fin.ext (show ((b.val * 96 + j.val) * 96 + i.val) / 9216 = b.val by omega)
  | ⟨1, _⟩ => exact Fin.ext (show ((b.val * 96 + j.val) * 96 + i.val) / 96 % 96 = j.val by omega)
  | ⟨2, _⟩ => exact Fin.ext (show ((b.val * 96 + j.val) * 96 + i.val) / 1 % 96 = i.val by omega)
  | ⟨3, _⟩ => rfl

theorem v5_at (x0 : S64x96x96x6.Idx → EReal) (b : Fin 64) (j i : Fin 96) :
    ReadP.val_main_v5 (F := Ideal) x0 (ix3 b j i) = x0 (ix4 b j i (2 : Fin 6)) := by
  rw [ReadP.val_main_v5_apply, ReadP.val_main_v4_apply]
  congr 1
  funext a
  have hb := b.isLt
  have hj := j.isLt
  have hi := i.isLt
  match a with
  | ⟨0, _⟩ => exact Fin.ext (show ((b.val * 96 + j.val) * 96 + i.val) / 9216 = b.val by omega)
  | ⟨1, _⟩ => exact Fin.ext (show ((b.val * 96 + j.val) * 96 + i.val) / 96 % 96 = j.val by omega)
  | ⟨2, _⟩ => exact Fin.ext (show ((b.val * 96 + j.val) * 96 + i.val) / 1 % 96 = i.val by omega)
  | ⟨3, _⟩ => rfl

theorem v7_at (x0 : S64x96x96x6.Idx → EReal) (b : Fin 64) (j i : Fin 96) :
    ReadP.val_main_v7 (F := Ideal) x0 (ix3 b j i) = x0 (ix4 b j i (3 : Fin 6)) := by
  rw [ReadP.val_main_v7_apply, ReadP.val_main_v6_apply]
  congr 1
  funext a
  have hb := b.isLt
  have hj := j.isLt
  have hi := i.isLt
  match a with
  | ⟨0, _⟩ => exact Fin.ext (show ((b.val * 96 + j.val) * 96 + i.val) / 9216 = b.val by omega)
  | ⟨1, _⟩ => exact Fin.ext (show ((b.val * 96 + j.val) * 96 + i.val) / 96 % 96 = j.val by omega)
  | ⟨2, _⟩ => exact Fin.ext (show ((b.val * 96 + j.val) * 96 + i.val) / 1 % 96 = i.val by omega)
  | ⟨3, _⟩ => rfl

theorem v9_at (x0 : S64x96x96x6.Idx → EReal) (b : Fin 64) (j i : Fin 96) :
    ReadP.val_main_v9 (F := Ideal) x0 (ix3 b j i) = x0 (ix4 b j i (4 : Fin 6)) := by
  rw [ReadP.val_main_v9_apply, ReadP.val_main_v8_apply]
  congr 1
  funext a
  have hb := b.isLt
  have hj := j.isLt
  have hi := i.isLt
  match a with
  | ⟨0, _⟩ => exact Fin.ext (show ((b.val * 96 + j.val) * 96 + i.val) / 9216 = b.val by omega)
  | ⟨1, _⟩ => exact Fin.ext (show ((b.val * 96 + j.val) * 96 + i.val) / 96 % 96 = j.val by omega)
  | ⟨2, _⟩ => exact Fin.ext (show ((b.val * 96 + j.val) * 96 + i.val) / 1 % 96 = i.val by omega)
  | ⟨3, _⟩ => rfl

theorem v11_at (x0 : S64x96x96x6.Idx → EReal) (b : Fin 64) (j i : Fin 96) :
    ReadP.val_main_v11 (F := Ideal) x0 (ix3 b j i) = x0 (ix4 b j i (5 : Fin 6)) := by
  rw [ReadP.val_main_v11_apply, ReadP.val_main_v10_apply]
  congr 1
  funext a
  have hb := b.isLt
  have hj := j.isLt
  have hi := i.isLt
  match a with
  | ⟨0, _⟩ => exact Fin.ext (show ((b.val * 96 + j.val) * 96 + i.val) / 9216 = b.val by omega)
  | ⟨1, _⟩ => exact Fin.ext (show ((b.val * 96 + j.val) * 96 + i.val) / 96 % 96 = j.val by omega)
  | ⟨2, _⟩ => exact Fin.ext (show ((b.val * 96 + j.val) * 96 + i.val) / 1 % 96 = i.val by omega)
  | ⟨3, _⟩ => rfl

/-- All seven gathers share one start-index array (sample, cell row, cell column); a non-negative word is unchanged by the wrap. -/
theorem i56_0 (x3 : S64x32x6.Idx → EReal) (b : Fin 64) (n : Fin 32) :
    ReadP.val_main_v56 (F := Ideal) x3 (ix3 b n (0 : Fin 3)) = BitVec.ofNat 32 b.val := by
  unfold ReadP.val_main_v56
  rw [concat3_0, ReadP.val_main_v53_apply, ReadP.val_main_v52_apply, ReadP.val_main_v41_apply, ReadP.val_main_v38_apply, ReadP.val_main_v37_apply,
    ReadP.val_main_c_apply, ReadP.val_main_v40_apply, ReadP.val_main_v36_apply, ReadP.val_main_v35_apply]
  exact wrap_id _ _ (ofNat_nonneg b)

theorem i56_1 (x3 : S64x32x6.Idx → EReal) (hg : Cert.Spec.InGrid x3) (b : Fin 64) (n : Fin 32) :
    ReadP.val_main_v56 (F := Ideal) x3 (ix3 b n (1 : Fin 3)) = Cert.Spec.gj x3 b n := by
  unfold ReadP.val_main_v56
  rw [concat3_1, ReadP.val_main_v54_apply, ReadP.val_main_v46_apply, ReadP.val_main_v43_apply, ReadP.val_main_v42_apply,
    ReadP.val_main_c_apply, ReadP.val_main_v45_apply]
  have e : ReadP.idx_main_v53 (ix3 b n (0 : Fin 1)) = ix2 b n := by
    funext a
    match a with
    | ⟨0, _⟩ => rfl
    | ⟨1, _⟩ => rfl
  rw [e, v34_at]
  exact wrap_id _ _ (hg b n).2.2.1

theorem i56_2 (x3 : S64x32x6.Idx → EReal) (hg : Cert.Spec.InGrid x3) (b : Fin 64) (n : Fin 32) :
    ReadP.val_main_v56 (F := Ideal) x3 (ix3 b n (2 : Fin 3)) = Cert.Spec.gi x3 b n := by
  unfold ReadP.val_main_v56
  rw [concat3_2, ReadP.val_main_v55_apply, ReadP.val_main_v51_apply, ReadP.val_main_v48_apply, ReadP.val_main_v42_apply,
    ReadP.val_main_c_apply, ReadP.val_main_v50_apply]
  have e : ReadP.idx_main_v53 (ix3 b n (0 : Fin 1)) = ix2 b n := by
    funext a
    match a with
    | ⟨0, _⟩ => rfl
    | ⟨1, _⟩ => rfl
  rw [e, v33_at]
  exact wrap_id _ _ (hg b n).1

theorem gather_v57 (x0 : S64x96x96x6.Idx → EReal) (x3 : S64x32x6.Idx → EReal) (hg : Cert.Spec.InGrid x3) (b : Fin 64) (n : Fin 32) :
    ReadP.val_main_v57 (F := Ideal) x0 x3 (ix2 b n) = x0 (ix4 b (Cert.Spec.row x3 b n) (Cert.Spec.col x3 b n) (0 : Fin 6)) := by
  unfold ReadP.val_main_v57
  refine (gather3_at _ _ b n b (Cert.Spec.row x3 b n) (Cert.Spec.col x3 b n) ?_ ?_ ?_).trans (v1_at x0 _ _ _)
  · rw [i56_0]; exact clampB b
  · rw [i56_1 x3 hg]; exact clamp96 _ (hg b n).2.2.1 (hg b n).2.2.2
  · rw [i56_2 x3 hg]; exact clamp96 _ (hg b n).1 (hg b n).2.1

theorem gather_v78 (x0 : S64x96x96x6.Idx → EReal) (x3 : S64x32x6.Idx → EReal) (hg : Cert.Spec.InGrid x3) (b : Fin 64) (n : Fin 32) :
    ReadP.val_main_v78 (F := Ideal) x0 x3 (ix2 b n) = x0 (ix4 b (Cert.Spec.row x3 b n) (Cert.Spec.col x3 b n) (1 : Fin 6)) := by
  unfold ReadP.val_main_v78
  refine (gather3_at _ _ b n b (Cert.Spec.row x3 b n) (Cert.Spec.col x3 b n) ?_ ?_ ?_).trans (v3_at x0 _ _ _)
  · rw [i56_0]; exact clampB b
  · rw [i56_1 x3 hg]; exact clamp96 _ (hg b n).2.2.1 (hg b n).2.2.2
  · rw [i56_2 x3 hg]; exact clamp96 _ (hg b n).1 (hg b n).2.1

theorem gather_v99 (x0 : S64x96x96x6.Idx → EReal) (x3 : S64x32x6.Idx → EReal) (hg : Cert.Spec.InGrid x3) (b : Fin 64) (n : Fin 32) :
    ReadP.val_main_v99 (F := Ideal) x0 x3 (ix2 b n) = x0 (ix4 b (Cert.Spec.row x3 b n) (Cert.Spec.col x3 b n) (2 : Fin 6)) := by
  unfold ReadP.val_main_v99
  refine (gather3_at _ _ b n b (Cert.Spec.row x3 b n) (Cert.Spec.col x3 b n) ?_ ?_ ?_).trans (v5_at x0 _ _ _)
  · rw [i56_0]; exact clampB b
  · rw [i56_1 x3 hg]; exact clamp96 _ (hg b n).2.2.1 (hg b n).2.2.2
  · rw [i56_2 x3 hg]; exact clamp96 _ (hg b n).1 (hg b n).2.1

theorem gather_v120 (x0 : S64x96x96x6.Idx → EReal) (x3 : S64x32x6.Idx → EReal) (hg : Cert.Spec.InGrid x3) (b : Fin 64) (n : Fin 32) :
    ReadP.val_main_v120 (F := Ideal) x0 x3 (ix2 b n) = x0 (ix4 b (Cert.Spec.row x3 b n) (Cert.Spec.col x3 b n) (3 : Fin 6)) := by
  unfold ReadP.val_main_v120
  refine (gather3_at _ _ b n b (Cert.Spec.row x3 b n) (Cert.Spec.col x3 b n) ?_ ?_ ?_).trans (v7_at x0 _ _ _)
  · rw [i56_0]; exact clampB b
  · rw [i56_1 x3 hg]; exact clamp96 _ (hg b n).2.2.1 (hg b n).2.2.2
  · rw [i56_2 x3 hg]; exact clamp96 _ (hg b n).1 (hg b n).2.1

theorem gather_v141 (x0 : S64x96x96x6.Idx → EReal) (x3 : S64x32x6.Idx → EReal) (hg : Cert.Spec.InGrid x3) (b : Fin 64) (n : Fin 32) :
    ReadP.val_main_v141 (F := Ideal) x0 x3 (ix2 b n) = x0 (ix4 b (Cert.Spec.row x3 b n) (Cert.Spec.col x3 b n) (4 : Fin 6)) := by
  unfold ReadP.val_main_v141
  refine (gather3_at _ _ b n b (Cert.Spec.row x3 b n) (Cert.Spec.col x3 b n) ?_ ?_ ?_).trans (v9_at x0 _ _ _)
  · rw [i56_0]; exact clampB b
  · rw [i56_1 x3 hg]; exact clamp96 _ (hg b n).2.2.1 (hg b n).2.2.2
  · rw [i56_2 x3 hg]; exact clamp96 _ (hg b n).1 (hg b n).2.1

theorem gather_v162 (x0 : S64x96x96x6.Idx → EReal) (x3 : S64x32x6.Idx → EReal) (hg : Cert.Spec.InGrid x3) (b : Fin 64) (n : Fin 32) :
    ReadP.val_main_v162 (F := Ideal) x0 x3 (ix2 b n) = x0 (ix4 b (Cert.Spec.row x3 b n) (Cert.Spec.col x3 b n) (5 : Fin 6)) := by
  unfold ReadP.val_main_v162
  refine (gather3_at _ _ b n b (Cert.Spec.row x3 b n) (Cert.Spec.col x3 b n) ?_ ?_ ?_).trans (v11_at x0 _ _ _)
  · rw [i56_0]; exact clampB b
  · rw [i56_1 x3 hg]; exact clamp96 _ (hg b n).2.2.1 (hg b n).2.2.2
  · rw [i56_2 x3 hg]; exact clamp96 _ (hg b n).1 (hg b n).2.1

theorem gather_v183 (x2 : S64x96x96x63.Idx → EReal) (x3 : S64x32x6.Idx → EReal) (hg : Cert.Spec.InGrid x3) (b : Fin 64) (n : Fin 32) (k : Fin 63) :
    ReadP.val_main_v183 (F := Ideal) x2 x3 (ix3 b n k) = x2 (ix4 b (Cert.Spec.row x3 b n) (Cert.Spec.col x3 b n) k) := by
  unfold ReadP.val_main_v183
  refine gather4_at _ _ b n k b (Cert.Spec.row x3 b n) (Cert.Spec.col x3 b n) ?_ ?_ ?_
  · rw [i56_0]; exact clampB b
  · rw [i56_1 x3 hg]; exact clamp96 _ (hg b n).2.2.1 (hg b n).2.2.2
  · rw [i56_2 x3 hg]; exact clamp96 _ (hg b n).1 (hg b n).2.1

end Cert.ReferenceIdeal.ValG

end
-- ==== Proof.Ref.ValBoxes.lean ====
import proofs.«431468_j28140625724039_3_alg».proof.Proof.Ref.Read
import proofs.«431468_j28140625724039_3_alg».proof.Proof.Spec
import proofs.«431468_j28140625724039_3_alg».proof.Proof.Ref.Gather

noncomputable section

namespace Cert.ReferenceIdeal.ValL

open Idealize.ShloMosaic Idealize.ShloMosaic.ValueIdx Cert.ReferenceIdeal Cert.ReferenceIdeal.Gen Cert.ReferenceIdeal.ReadP

theorem absf_eq (x : EReal) : FloatOps.absf (F := Ideal) (φ := .f32) x = Cert.Spec.absE x := rfl

theorem idx_ch0 (b : Fin 64) (n : Fin 32) : idx_main_v13 (idx_main_v14 (ix2 b n)) = ix3 b n (0 : Fin 6) := by
  funext a
  match a with
  | ⟨0, _⟩ => exact Fin.ext (by show (b.val * 32 + n.val) / 32 = b.val; omega)
  | ⟨1, _⟩ => exact Fin.ext (by show (b.val * 32 + n.val) / 1 % 32 = n.val; omega)
  | ⟨2, _⟩ => rfl

theorem idx_ch1 (b : Fin 64) (n : Fin 32) : idx_main_v17 (idx_main_v14 (ix2 b n)) = ix3 b n (1 : Fin 6) := by
  funext a
  match a with
  | ⟨0, _⟩ => exact Fin.ext (by show (b.val * 32 + n.val) / 32 = b.val; omega)
  | ⟨1, _⟩ => exact Fin.ext (by show (b.val * 32 + n.val) / 1 % 32 = n.val; omega)
  | ⟨2, _⟩ => rfl

theorem idx_ch2 (b : Fin 64) (n : Fin 32) : idx_main_v21 (idx_main_v14 (ix2 b n)) = ix3 b n (2 : Fin 6) := by
  funext a
  match a with
  | ⟨0, _⟩ => exact Fin.ext (by show (b.val * 32 + n.val) / 32 = b.val; omega)
  | ⟨1, _⟩ => exact Fin.ext (by show (b.val * 32 + n.val) / 1 % 32 = n.val; omega)
  | ⟨2, _⟩ => rfl

theorem idx_ch3 (b : Fin 64) (n : Fin 32) : idx_main_v23 (idx_main_v14 (ix2 b n)) = ix3 b n (3 : Fin 6) := by
  funext a
  match a with
  | ⟨0, _⟩ => exact Fin.ext (by show (b.val * 32 + n.val) / 32 = b.val; omega)
  | ⟨1, _⟩ => exact Fin.ext (by show (b.val * 32 + n.val) / 1 % 32 = n.val; omega)
  | ⟨2, _⟩ => rfl

theorem idx_ch4 (b : Fin 64) (n : Fin 32) : idx_main_v27 (idx_main_v14 (ix2 b n)) = ix3 b n (4 : Fin 6) := by
  funext a
  match a with
  | ⟨0, _⟩ => exact Fin.ext (by show (b.val * 32 + n.val) / 32 = b.val; omega)
  | ⟨1, _⟩ => exact Fin.ext (by show (b.val * 32 + n.val) / 1 % 32 = n.val; omega)
  | ⟨2, _⟩ => rfl

theorem idx_ch5 (b : Fin 64) (n : Fin 32) : idx_main_v31 (idx_main_v14 (ix2 b n)) = ix3 b n (5 : Fin 6) := by
  funext a
  match a with
  | ⟨0, _⟩ => exact Fin.ext (by show (b.val * 32 + n.val) / 32 = b.val; omega)
  | ⟨1, _⟩ => exact Fin.ext (by show (b.val * 32 + n.val) / 1 % 32 = n.val; omega)
  | ⟨2, _⟩ => rfl

theorem tX_at (x3 : (⟨S64x32x6, .f32⟩ : BufTy).Contents (Elt Ideal)) (b : Fin 64) (n : Fin 32) :
    val_main_v16 (F := Ideal) x3 (ix2 b n) = Cert.Spec.tX x3 b n := by
  rw [val_main_v16_apply, val_main_v14_apply, val_main_v13_apply, val_main_v15_apply, val_main_cst_apply, idx_ch0]
  rfl

theorem tY_at (x3 : (⟨S64x32x6, .f32⟩ : BufTy).Contents (Elt Ideal)) (b : Fin 64) (n : Fin 32) :
    val_main_v20 (F := Ideal) x3 (ix2 b n) = Cert.Spec.tY x3 b n := by
  rw [val_main_v20_apply, val_main_v18_apply, val_main_v17_apply, val_main_v15_apply, val_main_cst_apply, idx_ch1]
  rfl

theorem tZ_at (x3 : (⟨S64x32x6, .f32⟩ : BufTy).Contents (Elt Ideal)) (b : Fin 64) (n : Fin 32) :
    val_main_v22 (F := Ideal) x3 (ix2 b n) = Cert.Spec.tZ x3 b n := by
  rw [val_main_v22_apply, val_main_v21_apply, idx_ch2]
  rfl

theorem tW_at (x3 : (⟨S64x32x6, .f32⟩ : BufTy).Contents (Elt Ideal)) (b : Fin 64) (n : Fin 32) :
    val_main_v26 (F := Ideal) x3 (ix2 b n) = Cert.Spec.tW x3 b n := by
  rw [val_main_v26_apply, val_main_v24_apply, val_main_v23_apply, val_main_v15_apply, val_main_cst_apply, idx_ch3]
  rfl

theorem tH_at (x3 : (⟨S64x32x6, .f32⟩ : BufTy).Contents (Elt Ideal)) (b : Fin 64) (n : Fin 32) :
    val_main_v30 (F := Ideal) x3 (ix2 b n) = Cert.Spec.tH x3 b n := by
  rw [val_main_v30_apply, val_main_v28_apply, val_main_v27_apply, val_main_v15_apply, val_main_cst_apply, idx_ch4]
  rfl

theorem tD_at (x3 : (⟨S64x32x6, .f32⟩ : BufTy).Contents (Elt Ideal)) (b : Fin 64) (n : Fin 32) :
    val_main_v32 (F := Ideal) x3 (ix2 b n) = Cert.Spec.tD x3 b n := by
  rw [val_main_v32_apply, val_main_v31_apply, idx_ch5]
  rfl

theorem lX_at (x3 : (⟨S64x32x6, .f32⟩ : BufTy).Contents (Elt Ideal)) (b : Fin 64) (n : Fin 32) :
    val_main_v185 (F := Ideal) x3 (ix2 b n) = Cert.Spec.lX x3 b n := by
  rw [val_main_v185_apply, val_main_v184_apply, tX_at]
  rfl

theorem lY_at (x3 : (⟨S64x32x6, .f32⟩ : BufTy).Contents (Elt Ideal)) (b : Fin 64) (n : Fin 32) :
    val_main_v187 (F := Ideal) x3 (ix2 b n) = Cert.Spec.lY x3 b n := by
  rw [val_main_v187_apply, val_main_v186_apply, tY_at]
  rfl

theorem lW_at (x3 : (⟨S64x32x6, .f32⟩ : BufTy).Contents (Elt Ideal)) (b : Fin 64) (n : Fin 32) :
    val_main_v192 (F := Ideal) x3 (ix2 b n) = Cert.Spec.lW x3 b n := by
  rw [val_main_v192_apply, val_main_v191_apply, val_main_v189_apply, val_main_v188_apply, val_main_cst_44_apply,
    val_main_v190_apply, val_main_cst_45_apply, tW_at]
  rfl

theorem lH_at (x3 : (⟨S64x32x6, .f32⟩ : BufTy).Contents (Elt Ideal)) (b : Fin 64) (n : Fin 32) :
    val_main_v197 (F := Ideal) x3 (ix2 b n) = Cert.Spec.lH x3 b n := by
  rw [val_main_v197_apply, val_main_v196_apply, val_main_v194_apply, val_main_v188_apply, val_main_cst_44_apply,
    val_main_v190_apply, val_main_cst_45_apply, tH_at]
  rfl

theorem lD_at (x3 : (⟨S64x32x6, .f32⟩ : BufTy).Contents (Elt Ideal)) (b : Fin 64) (n : Fin 32) :
    val_main_v200 (F := Ideal) x3 (ix2 b n) = Cert.Spec.lD x3 b n := by
  rw [val_main_v200_apply, val_main_v199_apply, val_main_v190_apply, val_main_cst_45_apply, tD_at]
  rfl

theorem l1_of (v : S64x32.Idx → EReal) (a t : Fin 64 → Fin 32 → EReal)
    (h : ∀ (b : Fin 64) (n : Fin 32), v (ix2 b n) = Cert.Spec.absE (a b n - t b n)) :
    Ideal.div (Cert.Spec.c0 + ∑ j : S64x32.Idx, v j) Cert.Spec.c2048 = Cert.Spec.l1 a t := by
  have hs : (∑ j : S64x32.Idx, v j) = ∑ b : Fin 64, ∑ n : Fin 32, Cert.Spec.absE (a b n - t b n) :=
    (sum_idx2 v).trans (Finset.sum_congr rfl fun b _ => Finset.sum_congr rfl fun n _ => h b n)
  rw [hs]
  rfl

section Terms

variable (x0 : (⟨S64x96x96x6, .f32⟩ : BufTy).Contents (Elt Ideal)) (x3 : (⟨S64x32x6, .f32⟩ : BufTy).Contents (Elt Ideal))

theorem l1x_at
    (h57 : ∀ (b : Fin 64) (n : Fin 32), val_main_v57 (F := Ideal) x0 x3 (ix2 b n) = Cert.Spec.xo x0 x3 0 b n)
    (i : S_.Idx) :
    val_main_v204 (F := Ideal) x0 x3 i = Cert.Spec.l1 (Cert.Spec.xo x0 x3 0) (Cert.Spec.lX x3) := by
  rw [val_main_v204_apply, val_main_v203_apply, val_main_cst_49_apply, val_main_cst_50_apply]
  refine l1_of _ _ _ fun b n => ?_
  rw [val_main_v202_apply, val_main_v201_apply, h57, lX_at]
  rfl

theorem l1y_at
    (h78 : ∀ (b : Fin 64) (n : Fin 32), val_main_v78 (F := Ideal) x0 x3 (ix2 b n) = Cert.Spec.xo x0 x3 1 b n)
    (i : S_.Idx) :
    val_main_v208 (F := Ideal) x0 x3 i = Cert.Spec.l1 (Cert.Spec.xo x0 x3 1) (Cert.Spec.lY x3) := by
  rw [val_main_v208_apply, val_main_v207_apply, val_main_cst_49_apply, val_main_cst_50_apply]
  refine l1_of _ _ _ fun b n => ?_
  rw [val_main_v206_apply, val_main_v205_apply, h78, lY_at]
  rfl

theorem l1w_at
    (h120 : ∀ (b : Fin 64) (n : Fin 32), val_main_v120 (F := Ideal) x0 x3 (ix2 b n) = Cert.Spec.xo x0 x3 3 b n)
    (i : S_.Idx) :
    val_main_v213 (F := Ideal) x0 x3 i = Cert.Spec.l1 (Cert.Spec.xo x0 x3 3) (Cert.Spec.lW x3) := by
  rw [val_main_v213_apply, val_main_v212_apply, val_main_cst_49_apply, val_main_cst_50_apply]
  refine l1_of _ _ _ fun b n => ?_
  rw [val_main_v211_apply, val_main_v210_apply, h120, lW_at]
  rfl

theorem l1h_at
    (h141 : ∀ (b : Fin 64) (n : Fin 32), val_main_v141 (F := Ideal) x0 x3 (ix2 b n) = Cert.Spec.xo x0 x3 4 b n)
    (i : S_.Idx) :
    val_main_v218 (F := Ideal) x0 x3 i = Cert.Spec.l1 (Cert.Spec.xo x0 x3 4) (Cert.Spec.lH x3) := by
  rw [val_main_v218_apply, val_main_v217_apply, val_main_cst_49_apply, val_main_cst_50_apply]
  refine l1_of _ _ _ fun b n => ?_
  rw [val_main_v216_apply, val_main_v215_apply, h141, lH_at]
  rfl

theorem l1z_at
    (h99 : ∀ (b : Fin 64) (n : Fin 32), val_main_v99 (F := Ideal) x0 x3 (ix2 b n) = Cert.Spec.xo x0 x3 2 b n)
    (i : S_.Idx) :
    val_main_v223 (F := Ideal) x0 x3 i = Cert.Spec.l1 (Cert.Spec.xo x0 x3 2) (Cert.Spec.tZ x3) := by
  rw [val_main_v223_apply, val_main_v222_apply, val_main_cst_49_apply, val_main_cst_50_apply]
  refine l1_of _ _ _ fun b n => ?_
  rw [val_main_v221_apply, val_main_v220_apply, h99, tZ_at]
  rfl

theorem l1d_at
    (h162 : ∀ (b : Fin 64) (n : Fin 32), val_main_v162 (F := Ideal) x0 x3 (ix2 b n) = Cert.Spec.xo x0 x3 5 b n)
    (i : S_.Idx) :
    val_main_v228 (F := Ideal) x0 x3 i = Cert.Spec.l1 (Cert.Spec.xo x0 x3 5) (Cert.Spec.lD x3) := by
  rw [val_main_v228_apply, val_main_v227_apply, val_main_cst_49_apply, val_main_cst_50_apply]
  refine l1_of _ _ _ fun b n => ?_
  rw [val_main_v226_apply, val_main_v225_apply, h162, lD_at]
  rfl

theorem val_boxes_of
    (h57 : ∀ (b : Fin 64) (n : Fin 32), val_main_v57 (F := Ideal) x0 x3 (ix2 b n) = Cert.Spec.xo x0 x3 0 b n)
    (h78 : ∀ (b : Fin 64) (n : Fin 32), val_main_v78 (F := Ideal) x0 x3 (ix2 b n) = Cert.Spec.xo x0 x3 1 b n)
    (h99 : ∀ (b : Fin 64) (n : Fin 32), val_main_v99 (F := Ideal) x0 x3 (ix2 b n) = Cert.Spec.xo x0 x3 2 b n)
    (h120 : ∀ (b : Fin 64) (n : Fin 32), val_main_v120 (F := Ideal) x0 x3 (ix2 b n) = Cert.Spec.xo x0 x3 3 b n)
    (h141 : ∀ (b : Fin 64) (n : Fin 32), val_main_v141 (F := Ideal) x0 x3 (ix2 b n) = Cert.Spec.xo x0 x3 4 b n)
    (h162 : ∀ (b : Fin 64) (n : Fin 32), val_main_v162 (F := Ideal) x0 x3 (ix2 b n) = Cert.Spec.xo x0 x3 5 b n) :
    val_main_v229 (F := Ideal) x0 x3 = fun _ => Cert.Spec.lossBoxes x0 x3 := by
  funext i
  rw [val_main_v229_apply, val_main_v224_apply, val_main_v219_apply, val_main_v214_apply, val_main_v209_apply,
    l1x_at x0 x3 h57, l1y_at x0 x3 h78, l1w_at x0 x3 h120, l1h_at x0 x3 h141, l1z_at x0 x3 h99, l1d_at x0 x3 h162]
  rfl

end Terms

theorem val_boxes (x0 : (⟨S64x96x96x6, .f32⟩ : BufTy).Contents (Elt Ideal)) (x3 : (⟨S64x32x6, .f32⟩ : BufTy).Contents (Elt Ideal))
    (hg : Cert.Spec.InGrid x3) :
    val_main_v229 (F := Ideal) x0 x3 = fun _ => Cert.Spec.lossBoxes x0 x3 :=
  val_boxes_of x0 x3 (fun b n => ValG.gather_v57 x0 x3 hg b n) (fun b n => ValG.gather_v78 x0 x3 hg b n)
    (fun b n => ValG.gather_v99 x0 x3 hg b n) (fun b n => ValG.gather_v120 x0 x3 hg b n)
    (fun b n => ValG.gather_v141 x0 x3 hg b n) (fun b n => ValG.gather_v162 x0 x3 hg b n)

end Cert.ReferenceIdeal.ValL

end
-- ==== Proof.Ref.ValKey.lean ====
import proofs.«431468_j28140625724039_3_alg».proof.Proof.Ref.Read
import proofs.«431468_j28140625724039_3_alg».proof.Proof.Spec
import proofs.«431468_j28140625724039_3_alg».proof.Proof.Ref.Gather

noncomputable section

namespace Cert.ReferenceIdeal.ValL

open Idealize.ShloMosaic Idealize.ShloMosaic.ValueIdx Cert.ReferenceIdeal Cert.ReferenceIdeal.Gen Cert.ReferenceIdeal.ReadP

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

theorem val_key_of (x2 : (⟨S64x96x96x63, .f32⟩ : BufTy).Contents (Elt Ideal)) (x3 : (⟨S64x32x6, .f32⟩ : BufTy).Contents (Elt Ideal))
    (x4 : (⟨S64x32x63, .f32⟩ : BufTy).Contents (Elt Ideal))
    (h183 : ∀ (b : Fin 64) (n : Fin 32) (k : Fin 63),
      val_main_v183 (F := Ideal) x2 x3 (ix3 b n k) = Cert.Spec.ko x2 x3 b n k) :
    val_main_v233 (F := Ideal) x2 x3 x4 = fun _ => Cert.Spec.lossKeypoints x2 x3 x4 := by
  funext i
  rw [val_main_v233_apply, val_main_v232_apply, val_main_cst_49_apply, val_main_cst_50_apply]
  have hs : (∑ j : S64x32x63.Idx, val_main_v231 (F := Ideal) x2 x3 x4 j)
      = ∑ b : Fin 64, ∑ n : Fin 32, ∑ k : Fin 63, Cert.Spec.absE (Cert.Spec.ko x2 x3 b n k - x4 (ix3 b n k)) := by
    refine (sum_idx3 _).trans (Finset.sum_congr rfl fun b _ => Finset.sum_congr rfl fun n _ =>
      Finset.sum_congr rfl fun k _ => ?_)
    rw [val_main_v231_apply, val_main_v230_apply, h183]
    rfl
  rw [hs]
  rfl

theorem val_key (x2 : (⟨S64x96x96x63, .f32⟩ : BufTy).Contents (Elt Ideal)) (x3 : (⟨S64x32x6, .f32⟩ : BufTy).Contents (Elt Ideal))
    (x4 : (⟨S64x32x63, .f32⟩ : BufTy).Contents (Elt Ideal)) (hg : Cert.Spec.InGrid x3) :
    val_main_v233 (F := Ideal) x2 x3 x4 = fun _ => Cert.Spec.lossKeypoints x2 x3 x4 :=
  val_key_of x2 x3 x4 fun b n k => ValG.gather_v183 x2 x3 hg b n k

end Cert.ReferenceIdeal.ValL

end
-- ==== Proof.Ref.ValConf.lean ====
import proofs.«431468_j28140625724039_3_alg».proof.Proof.Ref.Read
import proofs.«431468_j28140625724039_3_alg».proof.Proof.Spec
import proofs.«431468_j28140625724039_3_alg».proof.Proof.Ref.ValKey

noncomputable section

namespace Cert.ReferenceIdeal.ValC

open Cert.ReferenceIdeal Cert.ReferenceIdeal.Gen Cert.ReferenceIdeal.ReadP Idealize.ShloMosaic Idealize.ShloMosaic.ValueIdx

theorem scatter_miss {α : Type} {s si u : Shape} {w : Nat} (d : ScatterDims s si u) (f : α → α → α) (x : s.Idx → α)
    (idx : IVec si w) (upd : u.Idx → α) (i : s.Idx) (h : ∀ j : u.Idx, d.resultIdx? j idx ≠ some i) :
    Host.scatter d f x idx upd i = x i := by
  unfold Host.scatter
  generalize List.finRange u.numel = l
  induction l using List.reverseRecOn with
  | nil => rfl
  | append_singleton l m ih =>
    rw [List.foldl_append, List.foldl_cons, List.foldl_nil]
    cases hres : d.resultIdx? (u.rowMajor.symm m) idx with
    | none => exact ih
    | some i0 =>
      have hne : i ≠ i0 := fun e => h _ (e ▸ hres)
      dsimp only
      rw [if_neg hne]; exact ih

theorem scatter_hit {α : Type} {s si u : Shape} {w : Nat} (d : ScatterDims s si u) (x : s.Idx → α)
    (idx : IVec si w) (v : α) (i : s.Idx) (h : ∃ j : u.Idx, d.resultIdx? j idx = some i) :
    Host.scatter d (fun _ b => b) x idx (fun _ => v) i = v := by
  obtain ⟨j, hj⟩ := h
  have hmem : u.rowMajor j ∈ List.finRange u.numel := List.mem_finRange _
  have hj' : d.resultIdx? (u.rowMajor.symm (u.rowMajor j)) idx = some i := by
    rw [Equiv.symm_apply_apply]; exact hj
  unfold Host.scatter
  generalize u.rowMajor j = n at hmem hj'
  generalize List.finRange u.numel = l at hmem
  induction l using List.reverseRecOn with
  | nil => cases hmem
  | append_singleton l m ih =>
    rw [List.foldl_append, List.foldl_cons, List.foldl_nil]
    rcases List.mem_append.1 hmem with hl | hm
    · cases hres : d.resultIdx? (u.rowMajor.symm m) idx with
      | none => exact ih hl
      | some i0 =>
        dsimp only
        by_cases e : i = i0
        · rw [if_pos e]
        · rw [if_neg e]; exact ih hl
    · have hmn : m = n := (List.mem_singleton.1 hm).symm
      subst hmn
      rw [hj']
      exact if_pos rfl

theorem v16_apply (x3 : (⟨S64x32x6, .f32⟩ : BufTy).Contents (Elt Ideal)) (b : Fin 64) (n : Fin 32) :
    val_main_v16 (F := Ideal) x3 (ix2 b n) = Cert.Spec.tX x3 b n := by
  rw [val_main_v16_apply, val_main_v14_apply, val_main_v13_apply, val_main_v15_apply, val_main_cst_apply]
  show x3 _ * _ = x3 _ * _
  congr 2
  funext a
  match a with
  | ⟨0, _⟩ => exact Fin.ext (by show (b.val * 32 + n.val) / 32 = b.val; omega)
  | ⟨1, _⟩ => exact Fin.ext (by show (b.val * 32 + n.val) / 1 % 32 = n.val; omega)
  | ⟨2, _⟩ => rfl

theorem v20_apply (x3 : (⟨S64x32x6, .f32⟩ : BufTy).Contents (Elt Ideal)) (b : Fin 64) (n : Fin 32) :
    val_main_v20 (F := Ideal) x3 (ix2 b n) = Cert.Spec.tY x3 b n := by
  rw [val_main_v20_apply, val_main_v18_apply, val_main_v17_apply, val_main_v15_apply, val_main_cst_apply]
  show x3 _ * _ = x3 _ * _
  congr 2
  funext a
  match a with
  | ⟨0, _⟩ => exact Fin.ext (by show (b.val * 32 + n.val) / 32 = b.val; omega)
  | ⟨1, _⟩ => exact Fin.ext (by show (b.val * 32 + n.val) / 1 % 32 = n.val; omega)
  | ⟨2, _⟩ => rfl

theorem v33_apply (x3 : (⟨S64x32x6, .f32⟩ : BufTy).Contents (Elt Ideal)) (b : Fin 64) (n : Fin 32) :
    val_main_v33 (F := Ideal) x3 (ix2 b n) = Cert.Spec.gi x3 b n := by
  rw [val_main_v33_apply, v16_apply]; rfl

theorem v34_apply (x3 : (⟨S64x32x6, .f32⟩ : BufTy).Contents (Elt Ideal)) (b : Fin 64) (n : Fin 32) :
    val_main_v34 (F := Ideal) x3 (ix2 b n) = Cert.Spec.gj x3 b n := by
  rw [val_main_v34_apply, v20_apply]; rfl

theorem slt_zero_of_nonneg (w : BitVec 32) (h : 0 ≤ w.toInt) : IntOp.cmpi .slt w 0#32 = 0#1 := by
  unfold IntOp.cmpi
  have : w.slt 0#32 = false := by
    rw [BitVec.slt_eq_decide]; simp only [BitVec.toInt_zero, decide_eq_false_iff_not, not_lt]; exact h
  rw [this]; rfl

theorem toInt_eq_mod96 (w : BitVec 32) (h0 : 0 ≤ w.toInt) (h1 : w.toInt < 96) : w.toInt = ((w.toNat % 96 : Nat) : Int) := by
  have hc := BitVec.toInt_eq_toNat_cond w
  have hl := w.isLt
  split_ifs at hc with h <;> omega

theorem toInt_ofNat_fin64 (b : Fin 64) : (BitVec.ofNat 32 b.val).toInt = (b.val : Int) := by
  have hc := BitVec.toInt_eq_toNat_cond (BitVec.ofNat 32 b.val)
  have hn : (BitVec.ofNat 32 b.val).toNat = b.val := by
    rw [BitVec.toNat_ofNat]; have := b.isLt; omega
  rw [hn] at hc
  have := b.isLt
  split_ifs at hc with h <;> omega

theorem v251_apply (b : Fin 64) (n : Fin 32) :
    val_main_v53 (F := Ideal) (ix3 b n (0 : Fin 1)) = BitVec.ofNat 32 b.val := by
  rw [val_main_v53_apply, val_main_v52_apply, val_main_v41_apply, val_main_v38_apply, val_main_v37_apply,
    val_main_c_apply, val_main_v36_apply, val_main_v35_apply]
  show Scalar.select (IntOp.cmpi .slt (BitVec.ofNat 32 b.val) 0#32) _ (BitVec.ofNat 32 b.val) = _
  rw [slt_zero_of_nonneg _ (by rw [toInt_ofNat_fin64]; exact Int.natCast_nonneg _), select_zero]

theorem v252_apply (x3 : (⟨S64x32x6, .f32⟩ : BufTy).Contents (Elt Ideal)) (hg : Cert.Spec.InGrid x3) (b : Fin 64) (n : Fin 32) :
    val_main_v54 (F := Ideal) x3 (ix3 b n (0 : Fin 1)) = Cert.Spec.gj x3 b n := by
  have e : idx_main_v53 (ix3 b n (0 : Fin 1)) = ix2 b n := by
    funext a; match a with | ⟨0, _⟩ => rfl | ⟨1, _⟩ => rfl
  rw [val_main_v54_apply, e, val_main_v46_apply, val_main_v43_apply, val_main_v42_apply, val_main_c_apply, v34_apply]
  rw [slt_zero_of_nonneg _ (hg b n).2.2.1, select_zero]

theorem v253_apply (x3 : (⟨S64x32x6, .f32⟩ : BufTy).Contents (Elt Ideal)) (hg : Cert.Spec.InGrid x3) (b : Fin 64) (n : Fin 32) :
    val_main_v55 (F := Ideal) x3 (ix3 b n (0 : Fin 1)) = Cert.Spec.gi x3 b n := by
  have e : idx_main_v53 (ix3 b n (0 : Fin 1)) = ix2 b n := by
    funext a; match a with | ⟨0, _⟩ => rfl | ⟨1, _⟩ => rfl
  rw [val_main_v55_apply, e, val_main_v51_apply, val_main_v48_apply, val_main_v42_apply, val_main_c_apply, v33_apply]
  rw [slt_zero_of_nonneg _ (hg b n).1, select_zero]

theorem v254_apply0 (x3 : (⟨S64x32x6, .f32⟩ : BufTy).Contents (Elt Ideal)) (b : Fin 64) (n : Fin 32) :
    val_main_v56 (F := Ideal) x3 (ix3 b n (0 : Fin 3)) = BitVec.ofNat 32 b.val := by
  unfold val_main_v56
  refine (concatenate_apply_piece (α := BitVec 32) (t := S64x32x3) (2 : Fin 3)
    [⟨S64x32x1, val_main_v53 (F := Ideal)⟩, ⟨S64x32x1, val_main_v54 (F := Ideal) x3⟩, ⟨S64x32x1, val_main_v55 (F := Ideal) x3⟩]
    concatenates_S64x32x1_S64x32x1_S64x32x1_S64x32x3_d2 (ix3 b n (0 : Fin 3))
    0 (Nat.lt_of_sub_eq_succ rfl) S64x32x1 (val_main_v53 (F := Ideal)) rfl rfl 0 rfl (ix3 b n (0 : Fin 1))
    (fun a ha => match a with | ⟨0, _⟩ => rfl | ⟨1, _⟩ => rfl | ⟨2, _⟩ => absurd rfl ha) rfl).trans ?_
  exact v251_apply b n

theorem v254_apply1 (x3 : (⟨S64x32x6, .f32⟩ : BufTy).Contents (Elt Ideal)) (hg : Cert.Spec.InGrid x3) (b : Fin 64) (n : Fin 32) :
    val_main_v56 (F := Ideal) x3 (ix3 b n (1 : Fin 3)) = Cert.Spec.gj x3 b n := by
  unfold val_main_v56
  refine (concatenate_apply_piece (α := BitVec 32) (t := S64x32x3) (2 : Fin 3)
    [⟨S64x32x1, val_main_v53 (F := Ideal)⟩, ⟨S64x32x1, val_main_v54 (F := Ideal) x3⟩, ⟨S64x32x1, val_main_v55 (F := Ideal) x3⟩]
    concatenates_S64x32x1_S64x32x1_S64x32x1_S64x32x3_d2 (ix3 b n (1 : Fin 3))
    1 (Nat.lt_of_sub_eq_succ rfl) S64x32x1 (val_main_v54 (F := Ideal) x3) rfl rfl 1 rfl (ix3 b n (0 : Fin 1))
    (fun a ha => match a with | ⟨0, _⟩ => rfl | ⟨1, _⟩ => rfl | ⟨2, _⟩ => absurd rfl ha) rfl).trans ?_
  exact v252_apply x3 hg b n

theorem v254_apply2 (x3 : (⟨S64x32x6, .f32⟩ : BufTy).Contents (Elt Ideal)) (hg : Cert.Spec.InGrid x3) (b : Fin 64) (n : Fin 32) :
    val_main_v56 (F := Ideal) x3 (ix3 b n (2 : Fin 3)) = Cert.Spec.gi x3 b n := by
  unfold val_main_v56
  refine (concatenate_apply_piece (α := BitVec 32) (t := S64x32x3) (2 : Fin 3)
    [⟨S64x32x1, val_main_v53 (F := Ideal)⟩, ⟨S64x32x1, val_main_v54 (F := Ideal) x3⟩, ⟨S64x32x1, val_main_v55 (F := Ideal) x3⟩]
    concatenates_S64x32x1_S64x32x1_S64x32x1_S64x32x3_d2 (ix3 b n (2 : Fin 3))
    2 (Nat.lt_of_sub_eq_succ rfl) S64x32x1 (val_main_v55 (F := Ideal) x3) rfl rfl 2 rfl (ix3 b n (0 : Fin 1))
    (fun a ha => match a with | ⟨0, _⟩ => rfl | ⟨1, _⟩ => rfl | ⟨2, _⟩ => absurd rfl ha) rfl).trans ?_
  exact v253_apply x3 hg b n

theorem resultIdx?_eq_some {s si u : Shape} {w : Nat} (d : ScatterDims s si u) (j : u.Idx) (idx : IVec si w) (i : s.Idx)
    (h : ∀ a, d.start j idx a + (d.window j a : Int) = ((i a).val : Int)) : d.resultIdx? j idx = some i := by
  unfold ScatterDims.resultIdx?
  rw [dif_pos (fun a => by rw [h a]; exact ⟨Int.natCast_nonneg _, by exact_mod_cast (i a).isLt⟩)]
  congr 1
  funext a
  apply Fin.ext
  show (d.start j idx a + (d.window j a : Int)).toNat = (i a).val
  rw [h a]; exact Int.toNat_natCast _

theorem window_zero (j : S64x32.Idx) (a : Fin 3) :
    scatter_S64x96x96_S64x32x3_S64x32_n_012_012_2.window j a = 0 := by
  unfold ScatterDims.window
  exact dif_neg (by revert a; decide)

theorem start_eq0 (j : S64x32.Idx) (idx : IVec S64x32x3 32) :
    scatter_S64x96x96_S64x32x3_S64x32_n_012_012_2.start j idx (0 : Fin 3) = (idx (ix3 (j 0) (j 1) (0 : Fin 3))).toInt := by
  unfold ScatterDims.start
  rw [dif_pos (by decide)]
  congr 2
  funext c; refine Fin.ext ?_
  match c with | ⟨0, _⟩ => rfl | ⟨1, _⟩ => rfl | ⟨2, _⟩ => rfl

theorem start_eq1 (j : S64x32.Idx) (idx : IVec S64x32x3 32) :
    scatter_S64x96x96_S64x32x3_S64x32_n_012_012_2.start j idx (1 : Fin 3) = (idx (ix3 (j 0) (j 1) (1 : Fin 3))).toInt := by
  unfold ScatterDims.start
  rw [dif_pos (by decide)]
  congr 2
  funext c; refine Fin.ext ?_
  match c with | ⟨0, _⟩ => rfl | ⟨1, _⟩ => rfl | ⟨2, _⟩ => rfl

theorem start_eq2 (j : S64x32.Idx) (idx : IVec S64x32x3 32) :
    scatter_S64x96x96_S64x32x3_S64x32_n_012_012_2.start j idx (2 : Fin 3) = (idx (ix3 (j 0) (j 1) (2 : Fin 3))).toInt := by
  unfold ScatterDims.start
  rw [dif_pos (by decide)]
  congr 2
  funext c; refine Fin.ext ?_
  match c with | ⟨0, _⟩ => rfl | ⟨1, _⟩ => rfl | ⟨2, _⟩ => rfl

theorem resultIdx_eq (x3 : (⟨S64x32x6, .f32⟩ : BufTy).Contents (Elt Ideal)) (hg : Cert.Spec.InGrid x3) (b : Fin 64) (n : Fin 32) :
    scatter_S64x96x96_S64x32x3_S64x32_n_012_012_2.resultIdx? (ix2 b n) (val_main_v56 (F := Ideal) x3)
      = some (ix3 b (Cert.Spec.row x3 b n) (Cert.Spec.col x3 b n)) := by
  refine resultIdx?_eq_some _ _ _ _ (fun a => ?_)
  rw [window_zero]
  match a with
  | ⟨0, _⟩ =>
    show scatter_S64x96x96_S64x32x3_S64x32_n_012_012_2.start (ix2 b n) (val_main_v56 (F := Ideal) x3) (0 : Fin 3)
      + ((0 : Nat) : Int) = (b.val : Int)
    rw [start_eq0]
    show ((val_main_v56 (F := Ideal) x3) (ix3 b n (0 : Fin 3))).toInt + ((0 : Nat) : Int) = (b.val : Int)
    rw [v254_apply0, toInt_ofNat_fin64]; simp
  | ⟨1, _⟩ =>
    show scatter_S64x96x96_S64x32x3_S64x32_n_012_012_2.start (ix2 b n) (val_main_v56 (F := Ideal) x3) (1 : Fin 3)
      + ((0 : Nat) : Int) = ((Cert.Spec.row x3 b n).val : Int)
    rw [start_eq1]
    show ((val_main_v56 (F := Ideal) x3) (ix3 b n (1 : Fin 3))).toInt + ((0 : Nat) : Int) = ((Cert.Spec.row x3 b n).val : Int)
    rw [v254_apply1 x3 hg, toInt_eq_mod96 _ (hg b n).2.2.1 (hg b n).2.2.2]; simp [Cert.Spec.row]
  | ⟨2, _⟩ =>
    show scatter_S64x96x96_S64x32x3_S64x32_n_012_012_2.start (ix2 b n) (val_main_v56 (F := Ideal) x3) (2 : Fin 3)
      + ((0 : Nat) : Int) = ((Cert.Spec.col x3 b n).val : Int)
    rw [start_eq2]
    show ((val_main_v56 (F := Ideal) x3) (ix3 b n (2 : Fin 3))).toInt + ((0 : Nat) : Int) = ((Cert.Spec.col x3 b n).val : Int)
    rw [v254_apply2 x3 hg, toInt_eq_mod96 _ (hg b n).1 (hg b n).2.1]; simp [Cert.Spec.col]

theorem occ_apply (x3 : (⟨S64x32x6, .f32⟩ : BufTy).Contents (Elt Ideal)) (hg : Cert.Spec.InGrid x3) (b : Fin 64) (j i : Fin 96) :
    val_main_v256 (F := Ideal) x3 (ix3 b j i) = Cert.Spec.occ x3 b j i := by
  have h255 : val_main_v255 (F := Ideal) = fun _ => Cert.Spec.c1 := by
    funext k; rw [val_main_v255_apply, val_main_cst_70_apply]; rfl
  unfold val_main_v256 Cert.Spec.occ
  rw [h255]
  by_cases h : ∃ n : Fin 32, Cert.Spec.row x3 b n = j ∧ Cert.Spec.col x3 b n = i
  · rw [if_pos h]
    obtain ⟨n, hj, hi⟩ := h
    exact scatter_hit _ _ _ _ _ ⟨ix2 b n, by rw [resultIdx_eq x3 hg b n, hj, hi]⟩
  · rw [if_neg h, scatter_miss, val_main_v234_apply, val_main_cst_49_apply]
    · rfl
    · intro q hq
      obtain ⟨b', n', rfl⟩ : ∃ (b' : Fin 64) (n' : Fin 32), q = ix2 b' n' := ⟨q 0, q 1, eq_ix2 q⟩
      rw [resultIdx_eq x3 hg] at hq
      have e := Option.some.inj hq
      have e0 : b' = b := congrFun e 0
      have e1 : Cert.Spec.row x3 b' n' = j := congrFun e 1
      have e2 : Cert.Spec.col x3 b' n' = i := congrFun e 2
      rw [e0] at e1 e2
      exact h ⟨n', e1, e2⟩

theorem v12_apply (x1 : (⟨S64x96x96x1, .f32⟩ : BufTy).Contents (Elt Ideal)) (b : Fin 64) (j i : Fin 96) :
    val_main_v12 (F := Ideal) x1 (ix3 b j i) = x1 (ix4 b j i (0 : Fin 1)) := by
  rw [val_main_v12_apply]
  congr 1
  funext a
  have hb := b.isLt
  have hj := j.isLt
  have hi := i.isLt
  match a with
  | ⟨0, _⟩ => exact Fin.ext (by show ((b.val * 96 + j.val) * 96 + i.val) / 9216 = b.val; omega)
  | ⟨1, _⟩ => exact Fin.ext (by show ((b.val * 96 + j.val) * 96 + i.val) / 96 % 96 = j.val; omega)
  | ⟨2, _⟩ => exact Fin.ext (by show ((b.val * 96 + j.val) * 96 + i.val) / 1 % 96 = i.val; omega)
  | ⟨3, _⟩ => rfl

theorem softplus_text (a : EReal) :
    Scalar.select (Ideal.cmp .une (a - Cert.Spec.c0) (a - Cert.Spec.c0)) (a + Cert.Spec.c0)
      (max a Cert.Spec.c0 + Ideal.log1p (Ideal.exp (-(max (a - Cert.Spec.c0) (-(a - Cert.Spec.c0)))))) = Cert.Spec.softplus a := by
  have h : Ideal.cmp .une (a - Cert.Spec.c0) (a - Cert.Spec.c0) = 0#1 := by
    unfold Ideal.cmp; simp
  rw [h, select_zero]
  rfl

theorem softplus_neg_apply (x1 : (⟨S64x96x96x1, .f32⟩ : BufTy).Contents (Elt Ideal)) (b : Fin 64) (j i : Fin 96) :
    val_main_v260 (F := Ideal) x1 (ix3 b j i) = Cert.Spec.softplus (-(x1 (ix4 b j i (0 : Fin 1)))) := by
  rw [val_main_v260_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_v234_apply, val_main_cst_49_apply, val_main_v259_apply, v12_apply]
  exact softplus_text _

theorem softplus_apply (x1 : (⟨S64x96x96x1, .f32⟩ : BufTy).Contents (Elt Ideal)) (b : Fin 64) (j i : Fin 96) :
    val_main_v264 (F := Ideal) x1 (ix3 b j i) = Cert.Spec.softplus (x1 (ix4 b j i (0 : Fin 1))) := by
  rw [val_main_v264_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_v234_apply, val_main_cst_49_apply, v12_apply]
  exact softplus_text _

theorem bce_apply (x1 : (⟨S64x96x96x1, .f32⟩ : BufTy).Contents (Elt Ideal)) (x3 : (⟨S64x32x6, .f32⟩ : BufTy).Contents (Elt Ideal))
    (hg : Cert.Spec.InGrid x3) (b : Fin 64) (j i : Fin 96) :
    val_main_v266 (F := Ideal) x1 x3 (ix3 b j i)
      = (Cert.Spec.c2 * Cert.Spec.occ x3 b j i) * Cert.Spec.softplus (-(x1 (ix4 b j i (0 : Fin 1))))
        + (Cert.Spec.c1 - Cert.Spec.occ x3 b j i) * Cert.Spec.softplus (x1 (ix4 b j i (0 : Fin 1))) := by
  rw [val_main_v266_apply, val_main_v261_apply, val_main_v265_apply, val_main_v258_apply, val_main_v263_apply,
    val_main_v257_apply, val_main_v262_apply, val_main_cst_71_apply, val_main_cst_70_apply,
    occ_apply x3 hg, softplus_neg_apply, softplus_apply]
  rfl

theorem val_conf (x1 : (⟨S64x96x96x1, .f32⟩ : BufTy).Contents (Elt Ideal)) (x3 : (⟨S64x32x6, .f32⟩ : BufTy).Contents (Elt Ideal))
    (hg : Cert.Spec.InGrid x3) :
    val_main_v268 (F := Ideal) x1 x3 = fun _ => Cert.Spec.lossConf x1 x3 := by
  funext k
  rw [val_main_v268_apply, val_main_v267_apply, val_main_cst_74_apply, val_main_cst_49_apply]
  have hs : (∑ q : S64x96x96.Idx, val_main_v266 (F := Ideal) x1 x3 q)
      = ∑ b : Fin 64, ∑ j : Fin 96, ∑ i : Fin 96,
          ((Cert.Spec.c2 * Cert.Spec.occ x3 b j i) * Cert.Spec.softplus (-(x1 (ix4 b j i (0 : Fin 1))))
            + (Cert.Spec.c1 - Cert.Spec.occ x3 b j i) * Cert.Spec.softplus (x1 (ix4 b j i (0 : Fin 1)))) := by
    refine (Cert.ReferenceIdeal.ValL.sum_idx3 _).trans (Finset.sum_congr rfl fun b _ => Finset.sum_congr rfl fun j _ =>
      Finset.sum_congr rfl fun i _ => ?_)
    exact bce_apply x1 x3 hg b j i
  rw [hs]
  rfl

end Cert.ReferenceIdeal.ValC

end
-- ==== Proof.Ref.ValG.lean ====
import proofs.«431468_j28140625724039_3_alg».proof.Proof.Ref.Read
import proofs.«431468_j28140625724039_3_alg».proof.Proof.Spec

noncomputable section

namespace Cert.ReferenceIdeal.ValI

open Cert.ReferenceIdeal Cert.ReferenceIdeal.Gen Idealize.ShloMosaic Idealize.ShloMosaic.ValueIdx

theorem concat4_unit_apply {α : Type} {t s₁ : Shape} (a : Fin t.rank) (y0 y1 y2 y3 : s₁.Idx → α)
    (h : Shape.Concatenates (([⟨s₁, y0⟩, ⟨s₁, y1⟩, ⟨s₁, y2⟩, ⟨s₁, y3⟩] : List ((s : Shape) × (s.Idx → α))).map (·.1)) t a)
    (hr : s₁.rank = t.rank) (h1 : s₁.size (a.cast hr.symm) = 1) (j : t.Idx) (i : s₁.Idx)
    (hi : ∀ b : Fin s₁.rank, b.cast hr ≠ a → (i b).val = (j (b.cast hr)).val) :
    concatenate t a [⟨s₁, y0⟩, ⟨s₁, y1⟩, ⟨s₁, y2⟩, ⟨s₁, y3⟩] h j =
      (match (j a).val with | 0 => y0 i | 1 => y1 i | 2 => y2 i | _ => y3 i) := by
  have hia : (i (a.cast hr.symm)).val = 0 := by have := (i (a.cast hr.symm)).isLt; omega
  have hj : (j a).val < 4 := by
    have := h.2.2
    have hlt := (j a).isLt
    simp only [List.map_cons, List.map_nil, dif_pos hr, h1, List.sum_cons, List.sum_nil] at this
    omega
  have hs : (if h' : s₁.rank = t.rank then s₁.size (a.cast h'.symm) else 0) = 1 := by rw [dif_pos hr, h1]
  rcases Nat.lt_succ_iff_lt_or_eq.mp hj with h3 | h3
  · rcases Nat.lt_succ_iff_lt_or_eq.mp h3 with h2 | h2
    · rcases Nat.lt_succ_iff_lt_or_eq.mp h2 with h1' | h1'
      · have h0 : (j a).val = 0 := by omega
        rw [h0]
        exact concatenate_apply_piece a _ h j 0 (by simp) s₁ y0 rfl hr 0 (by simp) i hi (by omega)
      · rw [h1']
        exact concatenate_apply_piece a _ h j 1 (by simp) s₁ y1 rfl hr 1 (by simp [hs]) i hi (by omega)
    · rw [h2]
      exact concatenate_apply_piece a _ h j 2 (by simp) s₁ y2 rfl hr 2 (by simp [hs]) i hi (by omega)
  · rw [h3]
    exact concatenate_apply_piece a _ h j 3 (by simp) s₁ y3 rfl hr 3 (by simp [hs]) i hi (by omega)

theorem val_G (x0 : (⟨S64x96x96x6, .f32⟩ : BufTy).Contents (Elt Ideal)) (x1 : (⟨S64x96x96x1, .f32⟩ : BufTy).Contents (Elt Ideal))
    (x2 : (⟨S64x96x96x63, .f32⟩ : BufTy).Contents (Elt Ideal)) (x3 : (⟨S64x32x6, .f32⟩ : BufTy).Contents (Elt Ideal))
    (x4 : (⟨S64x32x63, .f32⟩ : BufTy).Contents (Elt Ideal))
    (hB : ReadP.val_main_v229 (F := Ideal) x0 x3 = fun _ => Cert.Spec.lossBoxes x0 x3)
    (hK : ReadP.val_main_v233 (F := Ideal) x2 x3 x4 = fun _ => Cert.Spec.lossKeypoints x2 x3 x4)
    (hC : ReadP.val_main_v268 (F := Ideal) x1 x3 = fun _ => Cert.Spec.lossConf x1 x3)
    (hI : ReadP.val_main_v394 (F := Ideal) x0 x3 = fun _ => Cert.Spec.lossIou x0 x3) :
    ReadP.val_main_v399 (F := Ideal) x0 x1 x2 x3 x4 = Cert.Spec.G x0 x1 x2 x3 x4 := by
  funext j
  unfold ReadP.val_main_v399
  refine (concat4_unit_apply (t := S4) (s₁ := S1) (0 : Fin 1) _ _ _ _ _ rfl rfl j (ix1 (0 : Fin 1)) ?_).trans ?_
  · intro b hb
    exact absurd (Subsingleton.elim _ _) hb
  · rw [ReadP.val_main_v395_apply, ReadP.val_main_v396_apply, ReadP.val_main_v397_apply, ReadP.val_main_v398_apply,
      hB, hK, hC, hI]
    rfl

end Cert.ReferenceIdeal.ValI

end
-- ==== Proof.Ref.ValIou.lean ====
import proofs.«431468_j28140625724039_3_alg».proof.Proof.Ref.Read
import proofs.«431468_j28140625724039_3_alg».proof.Proof.Spec
import proofs.«431468_j28140625724039_3_alg».proof.Proof.Ref.ValG
import proofs.«431468_j28140625724039_3_alg».proof.Proof.Ref.Gather

noncomputable section

namespace Cert.ReferenceIdeal.ValI

open Cert.ReferenceIdeal Cert.ReferenceIdeal.Gen Idealize.ShloMosaic Idealize.ShloMosaic.ValueIdx

open scoped BigOperators

theorem idx1_ext {n0 : Nat} {i j : (⟨1, ![n0]⟩ : Shape).Idx} (h0 : (i 0).val = (j 0).val) : i = j := by
  funext a; match a with | ⟨0, _⟩ => exact Fin.ext h0
theorem idx2_ext {n0 n1 : Nat} {i j : (⟨2, ![n0, n1]⟩ : Shape).Idx} (h0 : (i 0).val = (j 0).val) (h1 : (i 1).val = (j 1).val) :
    i = j := by
  funext a; match a with | ⟨0, _⟩ => exact Fin.ext h0 | ⟨1, _⟩ => exact Fin.ext h1
theorem idx3_ext {n0 n1 n2 : Nat} {i j : (⟨3, ![n0, n1, n2]⟩ : Shape).Idx} (h0 : (i 0).val = (j 0).val)
    (h1 : (i 1).val = (j 1).val) (h2 : (i 2).val = (j 2).val) : i = j := by
  funext a; match a with | ⟨0, _⟩ => exact Fin.ext h0 | ⟨1, _⟩ => exact Fin.ext h1 | ⟨2, _⟩ => exact Fin.ext h2

def pq (b : Fin 64) (n : Fin 32) : Fin 2048 := ⟨32 * b.val + n.val, by have := b.isLt; have := n.isLt; omega⟩

theorem v16_at (x3 : (⟨S64x32x6, .f32⟩ : BufTy).Contents (Elt Ideal)) (b : Fin 64) (n : Fin 32) :
    ReadP.val_main_v16 (F := Ideal) x3 (ix2 b n) = Cert.Spec.tX x3 b n := by
  rw [ReadP.val_main_v16_apply, ReadP.val_main_v14_apply, ReadP.val_main_v13_apply, ReadP.val_main_v15_apply,
    ReadP.val_main_cst_apply]
  have e : ReadP.idx_main_v13 (ReadP.idx_main_v14 (ix2 b n)) = ix3 b n (0 : Fin 6) :=
    idx3_ext (by show (b.val * 32 + n.val) / 32 = b.val; omega) (by show (b.val * 32 + n.val) / 1 % 32 = n.val; have := n.isLt; omega) rfl
  rw [e]; rfl

theorem v20_at (x3 : (⟨S64x32x6, .f32⟩ : BufTy).Contents (Elt Ideal)) (b : Fin 64) (n : Fin 32) :
    ReadP.val_main_v20 (F := Ideal) x3 (ix2 b n) = Cert.Spec.tY x3 b n := by
  rw [ReadP.val_main_v20_apply, ReadP.val_main_v18_apply, ReadP.val_main_v17_apply, ReadP.val_main_v15_apply,
    ReadP.val_main_cst_apply]
  have e : ReadP.idx_main_v17 (ReadP.idx_main_v14 (ix2 b n)) = ix3 b n (1 : Fin 6) :=
    idx3_ext (by show (b.val * 32 + n.val) / 32 = b.val; omega) (by show (b.val * 32 + n.val) / 1 % 32 = n.val; have := n.isLt; omega) rfl
  rw [e]; rfl

theorem v26_at (x3 : (⟨S64x32x6, .f32⟩ : BufTy).Contents (Elt Ideal)) (b : Fin 64) (n : Fin 32) :
    ReadP.val_main_v26 (F := Ideal) x3 (ix2 b n) = Cert.Spec.tW x3 b n := by
  rw [ReadP.val_main_v26_apply, ReadP.val_main_v24_apply, ReadP.val_main_v23_apply, ReadP.val_main_v15_apply,
    ReadP.val_main_cst_apply]
  have e : ReadP.idx_main_v23 (ReadP.idx_main_v14 (ix2 b n)) = ix3 b n (3 : Fin 6) :=
    idx3_ext (by show (b.val * 32 + n.val) / 32 = b.val; omega) (by show (b.val * 32 + n.val) / 1 % 32 = n.val; have := n.isLt; omega) rfl
  rw [e]; rfl

theorem v30_at (x3 : (⟨S64x32x6, .f32⟩ : BufTy).Contents (Elt Ideal)) (b : Fin 64) (n : Fin 32) :
    ReadP.val_main_v30 (F := Ideal) x3 (ix2 b n) = Cert.Spec.tH x3 b n := by
  rw [ReadP.val_main_v30_apply, ReadP.val_main_v28_apply, ReadP.val_main_v27_apply, ReadP.val_main_v15_apply,
    ReadP.val_main_cst_apply]
  have e : ReadP.idx_main_v27 (ReadP.idx_main_v14 (ix2 b n)) = ix3 b n (4 : Fin 6) :=
    idx3_ext (by show (b.val * 32 + n.val) / 32 = b.val; omega) (by show (b.val * 32 + n.val) / 1 % 32 = n.val; have := n.isLt; omega) rfl
  rw [e]; rfl

theorem v269_at (x3 : (⟨S64x32x6, .f32⟩ : BufTy).Contents (Elt Ideal)) (b : Fin 64) (n : Fin 32) :
    ReadP.val_main_v269 (F := Ideal) x3 (ix2 b n) = (((Cert.Spec.gi x3 b n).toInt : ℝ) : EReal) := by
  rw [ReadP.val_main_v269_apply, ReadP.val_main_v33_apply, v16_at]; rfl
theorem v271_at (x3 : (⟨S64x32x6, .f32⟩ : BufTy).Contents (Elt Ideal)) (b : Fin 64) (n : Fin 32) :
    ReadP.val_main_v271 (F := Ideal) x3 (ix2 b n) = (((Cert.Spec.gj x3 b n).toInt : ℝ) : EReal) := by
  rw [ReadP.val_main_v271_apply, ReadP.val_main_v34_apply, v20_at]; rfl

theorem v270_at (x0 : (⟨S64x96x96x6, .f32⟩ : BufTy).Contents (Elt Ideal)) (x3 : (⟨S64x32x6, .f32⟩ : BufTy).Contents (Elt Ideal)) (hg : Cert.Spec.InGrid x3) (b : Fin 64) (n : Fin 32) :
    ReadP.val_main_v270 (F := Ideal) x0 x3 (ix2 b n) = Cert.Spec.pbox x0 x3 b n 0 := by
  rw [ReadP.val_main_v270_apply, ValG.gather_v57 x0 x3 hg b n, v269_at]; rfl
theorem v272_at (x0 : (⟨S64x96x96x6, .f32⟩ : BufTy).Contents (Elt Ideal)) (x3 : (⟨S64x32x6, .f32⟩ : BufTy).Contents (Elt Ideal)) (hg : Cert.Spec.InGrid x3) (b : Fin 64) (n : Fin 32) :
    ReadP.val_main_v272 (F := Ideal) x0 x3 (ix2 b n) = Cert.Spec.pbox x0 x3 b n 1 := by
  rw [ReadP.val_main_v272_apply, ValG.gather_v78 x0 x3 hg b n, v271_at]; rfl
theorem v275_at (x0 : (⟨S64x96x96x6, .f32⟩ : BufTy).Contents (Elt Ideal)) (x3 : (⟨S64x32x6, .f32⟩ : BufTy).Contents (Elt Ideal)) (hg : Cert.Spec.InGrid x3) (b : Fin 64) (n : Fin 32) :
    ReadP.val_main_v275 (F := Ideal) x0 x3 (ix2 b n) = Cert.Spec.pbox x0 x3 b n 2 := by
  rw [ReadP.val_main_v275_apply, ReadP.val_main_v273_apply, ValG.gather_v120 x0 x3 hg b n, ReadP.val_main_v188_apply, ReadP.val_main_cst_44_apply]; rfl
theorem v278_at (x0 : (⟨S64x96x96x6, .f32⟩ : BufTy).Contents (Elt Ideal)) (x3 : (⟨S64x32x6, .f32⟩ : BufTy).Contents (Elt Ideal)) (hg : Cert.Spec.InGrid x3) (b : Fin 64) (n : Fin 32) :
    ReadP.val_main_v278 (F := Ideal) x0 x3 (ix2 b n) = Cert.Spec.pbox x0 x3 b n 3 := by
  rw [ReadP.val_main_v278_apply, ReadP.val_main_v276_apply, ValG.gather_v141 x0 x3 hg b n, ReadP.val_main_v188_apply, ReadP.val_main_cst_44_apply]; rfl

theorem v284_at (x0 : (⟨S64x96x96x6, .f32⟩ : BufTy).Contents (Elt Ideal)) (x3 : (⟨S64x32x6, .f32⟩ : BufTy).Contents (Elt Ideal)) (hg : Cert.Spec.InGrid x3) (b : Fin 64) (n : Fin 32) (c : Fin 4) :
    ReadP.val_main_v284 (F := Ideal) x0 x3 (ix2 (pq b n) c) = Cert.Spec.pbox x0 x3 b n c := by
  have hb := b.isLt; have hn := n.isLt; have hc := c.isLt
  rw [ReadP.val_main_v284_apply]
  have e : ReadP.idx_main_v284 (ix2 (pq b n) c) = ix3 b n c :=
    idx3_ext (by show ((32 * b.val + n.val) * 4 + c.val) / 128 = b.val; omega)
      (by show ((32 * b.val + n.val) * 4 + c.val) / 4 % 32 = n.val; omega)
      (by show ((32 * b.val + n.val) * 4 + c.val) % 4 = c.val; omega)
  rw [e]; unfold ReadP.val_main_v283
  refine (concat4_unit_apply (t := S64x32x4) (s₁ := S64x32x1) (2 : Fin 3) _ _ _ _ _ rfl rfl (ix3 b n c) (ix3 b n (0 : Fin 1)) ?_).trans ?_
  · intro a ha
    match a with
    | ⟨0, _⟩ => rfl
    | ⟨1, _⟩ => rfl
    | ⟨2, _⟩ => exact absurd rfl ha
  · match c with
    | ⟨0, _⟩ =>
      show ReadP.val_main_v279 (F := Ideal) x0 x3 (ix3 b n (0 : Fin 1)) = _
      rw [ReadP.val_main_v279_apply, (idx2_ext rfl rfl : ReadP.idx_main_v53 (ix3 b n (0 : Fin 1)) = ix2 b n), v270_at x0 x3 hg]; rfl
    | ⟨1, _⟩ =>
      show ReadP.val_main_v280 (F := Ideal) x0 x3 (ix3 b n (0 : Fin 1)) = _
      rw [ReadP.val_main_v280_apply, (idx2_ext rfl rfl : ReadP.idx_main_v53 (ix3 b n (0 : Fin 1)) = ix2 b n), v272_at x0 x3 hg]; rfl
    | ⟨2, _⟩ =>
      show ReadP.val_main_v281 (F := Ideal) x0 x3 (ix3 b n (0 : Fin 1)) = _
      rw [ReadP.val_main_v281_apply, (idx2_ext rfl rfl : ReadP.idx_main_v53 (ix3 b n (0 : Fin 1)) = ix2 b n), v275_at x0 x3 hg]; rfl
    | ⟨3, _⟩ =>
      show ReadP.val_main_v282 (F := Ideal) x0 x3 (ix3 b n (0 : Fin 1)) = _
      rw [ReadP.val_main_v282_apply, (idx2_ext rfl rfl : ReadP.idx_main_v53 (ix3 b n (0 : Fin 1)) = ix2 b n), v278_at x0 x3 hg]; rfl

theorem v290_at (x3 : (⟨S64x32x6, .f32⟩ : BufTy).Contents (Elt Ideal)) (b : Fin 64) (n : Fin 32) (c : Fin 4) :
    ReadP.val_main_v290 (F := Ideal) x3 (ix2 (pq b n) c) = Cert.Spec.tbox x3 b n c := by
  have hb := b.isLt; have hn := n.isLt; have hc := c.isLt
  rw [ReadP.val_main_v290_apply]
  have e : ReadP.idx_main_v284 (ix2 (pq b n) c) = ix3 b n c :=
    idx3_ext (by show ((32 * b.val + n.val) * 4 + c.val) / 128 = b.val; omega)
      (by show ((32 * b.val + n.val) * 4 + c.val) / 4 % 32 = n.val; omega)
      (by show ((32 * b.val + n.val) * 4 + c.val) % 4 = c.val; omega)
  rw [e]; unfold ReadP.val_main_v289
  refine (concat4_unit_apply (t := S64x32x4) (s₁ := S64x32x1) (2 : Fin 3) _ _ _ _ _ rfl rfl (ix3 b n c) (ix3 b n (0 : Fin 1)) ?_).trans ?_
  · intro a ha
    match a with
    | ⟨0, _⟩ => rfl
    | ⟨1, _⟩ => rfl
    | ⟨2, _⟩ => exact absurd rfl ha
  · match c with
    | ⟨0, _⟩ =>
      show ReadP.val_main_v285 (F := Ideal) x3 (ix3 b n (0 : Fin 1)) = _
      rw [ReadP.val_main_v285_apply, (idx2_ext rfl rfl : ReadP.idx_main_v53 (ix3 b n (0 : Fin 1)) = ix2 b n), v16_at]; rfl
    | ⟨1, _⟩ =>
      show ReadP.val_main_v286 (F := Ideal) x3 (ix3 b n (0 : Fin 1)) = _
      rw [ReadP.val_main_v286_apply, (idx2_ext rfl rfl : ReadP.idx_main_v53 (ix3 b n (0 : Fin 1)) = ix2 b n), v20_at]; rfl
    | ⟨2, _⟩ =>
      show ReadP.val_main_v287 (F := Ideal) x3 (ix3 b n (0 : Fin 1)) = _
      rw [ReadP.val_main_v287_apply, (idx2_ext rfl rfl : ReadP.idx_main_v53 (ix3 b n (0 : Fin 1)) = ix2 b n), v26_at]; rfl
    | ⟨3, _⟩ =>
      show ReadP.val_main_v288 (F := Ideal) x3 (ix3 b n (0 : Fin 1)) = _
      rw [ReadP.val_main_v288_apply, (idx2_ext rfl rfl : ReadP.idx_main_v53 (ix3 b n (0 : Fin 1)) = ix2 b n), v30_at]; rfl

theorem v292_at (x0 : (⟨S64x96x96x6, .f32⟩ : BufTy).Contents (Elt Ideal)) (x3 : (⟨S64x32x6, .f32⟩ : BufTy).Contents (Elt Ideal)) (p : Fin 2048) :
    ReadP.val_main_v292 (F := Ideal) x0 x3 (ix1 p) = ReadP.val_main_v284 (F := Ideal) x0 x3 (ix2 p (0 : Fin 4)) := by
  rw [ReadP.val_main_v292_apply, ReadP.val_main_v291_apply]
  exact congrArg _ (idx2_ext (by show p.val / 1 = p.val; omega) rfl)

theorem v294_at (x0 : (⟨S64x96x96x6, .f32⟩ : BufTy).Contents (Elt Ideal)) (x3 : (⟨S64x32x6, .f32⟩ : BufTy).Contents (Elt Ideal)) (p : Fin 2048) :
    ReadP.val_main_v294 (F := Ideal) x0 x3 (ix1 p) = ReadP.val_main_v284 (F := Ideal) x0 x3 (ix2 p (1 : Fin 4)) := by
  rw [ReadP.val_main_v294_apply, ReadP.val_main_v293_apply]
  exact congrArg _ (idx2_ext (by show p.val / 1 = p.val; omega) rfl)

theorem v296_at (x0 : (⟨S64x96x96x6, .f32⟩ : BufTy).Contents (Elt Ideal)) (x3 : (⟨S64x32x6, .f32⟩ : BufTy).Contents (Elt Ideal)) (p : Fin 2048) :
    ReadP.val_main_v296 (F := Ideal) x0 x3 (ix1 p) = ReadP.val_main_v284 (F := Ideal) x0 x3 (ix2 p (2 : Fin 4)) := by
  rw [ReadP.val_main_v296_apply, ReadP.val_main_v295_apply]
  exact congrArg _ (idx2_ext (by show p.val / 1 = p.val; omega) rfl)

theorem v298_at (x0 : (⟨S64x96x96x6, .f32⟩ : BufTy).Contents (Elt Ideal)) (x3 : (⟨S64x32x6, .f32⟩ : BufTy).Contents (Elt Ideal)) (p : Fin 2048) :
    ReadP.val_main_v298 (F := Ideal) x0 x3 (ix1 p) = ReadP.val_main_v284 (F := Ideal) x0 x3 (ix2 p (3 : Fin 4)) := by
  rw [ReadP.val_main_v298_apply, ReadP.val_main_v297_apply]
  exact congrArg _ (idx2_ext (by show p.val / 1 = p.val; omega) rfl)

theorem v301_at (x0 : (⟨S64x96x96x6, .f32⟩ : BufTy).Contents (Elt Ideal)) (x3 : (⟨S64x32x6, .f32⟩ : BufTy).Contents (Elt Ideal)) (p : Fin 2048) :
    ReadP.val_main_v301 (F := Ideal) x0 x3 (ix1 p) = Cert.Spec.xyxy (fun c => ReadP.val_main_v284 (F := Ideal) x0 x3 (ix2 p c)) (0 : Fin 4) := by
  rw [ReadP.val_main_v301_apply, ReadP.val_main_v300_apply, ReadP.val_main_v299_apply, ReadP.val_main_cst_77_apply,
    v292_at, v296_at]
  try rfl

theorem v304_at (x0 : (⟨S64x96x96x6, .f32⟩ : BufTy).Contents (Elt Ideal)) (x3 : (⟨S64x32x6, .f32⟩ : BufTy).Contents (Elt Ideal)) (p : Fin 2048) :
    ReadP.val_main_v304 (F := Ideal) x0 x3 (ix1 p) = Cert.Spec.xyxy (fun c => ReadP.val_main_v284 (F := Ideal) x0 x3 (ix2 p c)) (1 : Fin 4) := by
  rw [ReadP.val_main_v304_apply, ReadP.val_main_v303_apply, ReadP.val_main_v299_apply, ReadP.val_main_cst_77_apply,
    v294_at, v298_at]
  try rfl

theorem v307_at (x0 : (⟨S64x96x96x6, .f32⟩ : BufTy).Contents (Elt Ideal)) (x3 : (⟨S64x32x6, .f32⟩ : BufTy).Contents (Elt Ideal)) (p : Fin 2048) :
    ReadP.val_main_v307 (F := Ideal) x0 x3 (ix1 p) = Cert.Spec.xyxy (fun c => ReadP.val_main_v284 (F := Ideal) x0 x3 (ix2 p c)) (2 : Fin 4) := by
  rw [ReadP.val_main_v307_apply, ReadP.val_main_v300_apply, ReadP.val_main_v299_apply, ReadP.val_main_cst_77_apply,
    v292_at, v296_at]
  try rfl

theorem v310_at (x0 : (⟨S64x96x96x6, .f32⟩ : BufTy).Contents (Elt Ideal)) (x3 : (⟨S64x32x6, .f32⟩ : BufTy).Contents (Elt Ideal)) (p : Fin 2048) :
    ReadP.val_main_v310 (F := Ideal) x0 x3 (ix1 p) = Cert.Spec.xyxy (fun c => ReadP.val_main_v284 (F := Ideal) x0 x3 (ix2 p c)) (3 : Fin 4) := by
  rw [ReadP.val_main_v310_apply, ReadP.val_main_v303_apply, ReadP.val_main_v299_apply, ReadP.val_main_cst_77_apply,
    v294_at, v298_at]
  try rfl

theorem v315_at (x0 : (⟨S64x96x96x6, .f32⟩ : BufTy).Contents (Elt Ideal)) (x3 : (⟨S64x32x6, .f32⟩ : BufTy).Contents (Elt Ideal)) (p : Fin 2048) (c : Fin 4) :
    ReadP.val_main_v315 (F := Ideal) x0 x3 (ix2 p c) = Cert.Spec.xyxy (fun c' => ReadP.val_main_v284 (F := Ideal) x0 x3 (ix2 p c')) c := by
  unfold ReadP.val_main_v315
  refine (concat4_unit_apply (t := S2048x4) (s₁ := S2048x1) (1 : Fin 2) _ _ _ _ _ rfl rfl (ix2 p c) (ix2 p (0 : Fin 1)) ?_).trans ?_
  · intro a ha
    match a with
    | ⟨0, _⟩ => rfl
    | ⟨1, _⟩ => exact absurd rfl ha
  · match c with
    | ⟨0, _⟩ =>
      show ReadP.val_main_v311 (F := Ideal) x0 x3 (ix2 p (0 : Fin 1)) = _
      rw [ReadP.val_main_v311_apply, (idx1_ext rfl : ReadP.idx_main_v311 (ix2 p (0 : Fin 1)) = ix1 p), v301_at]
      try rfl
    | ⟨1, _⟩ =>
      show ReadP.val_main_v312 (F := Ideal) x0 x3 (ix2 p (0 : Fin 1)) = _
      rw [ReadP.val_main_v312_apply, (idx1_ext rfl : ReadP.idx_main_v311 (ix2 p (0 : Fin 1)) = ix1 p), v304_at]
      try rfl
    | ⟨2, _⟩ =>
      show ReadP.val_main_v313 (F := Ideal) x0 x3 (ix2 p (0 : Fin 1)) = _
      rw [ReadP.val_main_v313_apply, (idx1_ext rfl : ReadP.idx_main_v311 (ix2 p (0 : Fin 1)) = ix1 p), v307_at]
      try rfl
    | ⟨3, _⟩ =>
      show ReadP.val_main_v314 (F := Ideal) x0 x3 (ix2 p (0 : Fin 1)) = _
      rw [ReadP.val_main_v314_apply, (idx1_ext rfl : ReadP.idx_main_v311 (ix2 p (0 : Fin 1)) = ix1 p), v310_at]
      try rfl

theorem v317_at (x3 : (⟨S64x32x6, .f32⟩ : BufTy).Contents (Elt Ideal)) (p : Fin 2048) :
    ReadP.val_main_v317 (F := Ideal) x3 (ix1 p) = ReadP.val_main_v290 (F := Ideal) x3 (ix2 p (0 : Fin 4)) := by
  rw [ReadP.val_main_v317_apply, ReadP.val_main_v316_apply]
  exact congrArg _ (idx2_ext (by show p.val / 1 = p.val; omega) rfl)

theorem v319_at (x3 : (⟨S64x32x6, .f32⟩ : BufTy).Contents (Elt Ideal)) (p : Fin 2048) :
    ReadP.val_main_v319 (F := Ideal) x3 (ix1 p) = ReadP.val_main_v290 (F := Ideal) x3 (ix2 p (1 : Fin 4)) := by
  rw [ReadP.val_main_v319_apply, ReadP.val_main_v318_apply]
  exact congrArg _ (idx2_ext (by show p.val / 1 = p.val; omega) rfl)

theorem v321_at (x3 : (⟨S64x32x6, .f32⟩ : BufTy).Contents (Elt Ideal)) (p : Fin 2048) :
    ReadP.val_main_v321 (F := Ideal) x3 (ix1 p) = ReadP.val_main_v290 (F := Ideal) x3 (ix2 p (2 : Fin 4)) := by
  rw [ReadP.val_main_v321_apply, ReadP.val_main_v320_apply]
  exact congrArg _ (idx2_ext (by show p.val / 1 = p.val; omega) rfl)

theorem v323_at (x3 : (⟨S64x32x6, .f32⟩ : BufTy).Contents (Elt Ideal)) (p : Fin 2048) :
    ReadP.val_main_v323 (F := Ideal) x3 (ix1 p) = ReadP.val_main_v290 (F := Ideal) x3 (ix2 p (3 : Fin 4)) := by
  rw [ReadP.val_main_v323_apply, ReadP.val_main_v322_apply]
  exact congrArg _ (idx2_ext (by show p.val / 1 = p.val; omega) rfl)

theorem v326_at (x3 : (⟨S64x32x6, .f32⟩ : BufTy).Contents (Elt Ideal)) (p : Fin 2048) :
    ReadP.val_main_v326 (F := Ideal) x3 (ix1 p) = Cert.Spec.xyxy (fun c => ReadP.val_main_v290 (F := Ideal) x3 (ix2 p c)) (0 : Fin 4) := by
  rw [ReadP.val_main_v326_apply, ReadP.val_main_v325_apply, ReadP.val_main_v299_apply, ReadP.val_main_cst_77_apply,
    v317_at, v321_at]
  try rfl

theorem v329_at (x3 : (⟨S64x32x6, .f32⟩ : BufTy).Contents (Elt Ideal)) (p : Fin 2048) :
    ReadP.val_main_v329 (F := Ideal) x3 (ix1 p) = Cert.Spec.xyxy (fun c => ReadP.val_main_v290 (F := Ideal) x3 (ix2 p c)) (1 : Fin 4) := by
  rw [ReadP.val_main_v329_apply, ReadP.val_main_v328_apply, ReadP.val_main_v299_apply, ReadP.val_main_cst_77_apply,
    v319_at, v323_at]
  try rfl

theorem v332_at (x3 : (⟨S64x32x6, .f32⟩ : BufTy).Contents (Elt Ideal)) (p : Fin 2048) :
    ReadP.val_main_v332 (F := Ideal) x3 (ix1 p) = Cert.Spec.xyxy (fun c => ReadP.val_main_v290 (F := Ideal) x3 (ix2 p c)) (2 : Fin 4) := by
  rw [ReadP.val_main_v332_apply, ReadP.val_main_v325_apply, ReadP.val_main_v299_apply, ReadP.val_main_cst_77_apply,
    v317_at, v321_at]
  try rfl

theorem v335_at (x3 : (⟨S64x32x6, .f32⟩ : BufTy).Contents (Elt Ideal)) (p : Fin 2048) :
    ReadP.val_main_v335 (F := Ideal) x3 (ix1 p) = Cert.Spec.xyxy (fun c => ReadP.val_main_v290 (F := Ideal) x3 (ix2 p c)) (3 : Fin 4) := by
  rw [ReadP.val_main_v335_apply, ReadP.val_main_v328_apply, ReadP.val_main_v299_apply, ReadP.val_main_cst_77_apply,
    v319_at, v323_at]
  try rfl

theorem v340_at (x3 : (⟨S64x32x6, .f32⟩ : BufTy).Contents (Elt Ideal)) (p : Fin 2048) (c : Fin 4) :
    ReadP.val_main_v340 (F := Ideal) x3 (ix2 p c) = Cert.Spec.xyxy (fun c' => ReadP.val_main_v290 (F := Ideal) x3 (ix2 p c')) c := by
  unfold ReadP.val_main_v340
  refine (concat4_unit_apply (t := S2048x4) (s₁ := S2048x1) (1 : Fin 2) _ _ _ _ _ rfl rfl (ix2 p c) (ix2 p (0 : Fin 1)) ?_).trans ?_
  · intro a ha
    match a with
    | ⟨0, _⟩ => rfl
    | ⟨1, _⟩ => exact absurd rfl ha
  · match c with
    | ⟨0, _⟩ =>
      show ReadP.val_main_v336 (F := Ideal) x3 (ix2 p (0 : Fin 1)) = _
      rw [ReadP.val_main_v336_apply, (idx1_ext rfl : ReadP.idx_main_v311 (ix2 p (0 : Fin 1)) = ix1 p), v326_at]
      try rfl
    | ⟨1, _⟩ =>
      show ReadP.val_main_v337 (F := Ideal) x3 (ix2 p (0 : Fin 1)) = _
      rw [ReadP.val_main_v337_apply, (idx1_ext rfl : ReadP.idx_main_v311 (ix2 p (0 : Fin 1)) = ix1 p), v329_at]
      try rfl
    | ⟨2, _⟩ =>
      show ReadP.val_main_v338 (F := Ideal) x3 (ix2 p (0 : Fin 1)) = _
      rw [ReadP.val_main_v338_apply, (idx1_ext rfl : ReadP.idx_main_v311 (ix2 p (0 : Fin 1)) = ix1 p), v332_at]
      try rfl
    | ⟨3, _⟩ =>
      show ReadP.val_main_v339 (F := Ideal) x3 (ix2 p (0 : Fin 1)) = _
      rw [ReadP.val_main_v339_apply, (idx1_ext rfl : ReadP.idx_main_v311 (ix2 p (0 : Fin 1)) = ix1 p), v335_at]
      try rfl

theorem v342_at (x0 : (⟨S64x96x96x6, .f32⟩ : BufTy).Contents (Elt Ideal)) (x3 : (⟨S64x32x6, .f32⟩ : BufTy).Contents (Elt Ideal)) (p : Fin 2048) :
    ReadP.val_main_v342 (F := Ideal) x0 x3 (ix1 p) = ReadP.val_main_v315 (F := Ideal) x0 x3 (ix2 p (2 : Fin 4)) := by
  rw [ReadP.val_main_v342_apply, ReadP.val_main_v341_apply]
  exact congrArg _ (idx2_ext (by show p.val / 1 = p.val; omega) rfl)

theorem v344_at (x0 : (⟨S64x96x96x6, .f32⟩ : BufTy).Contents (Elt Ideal)) (x3 : (⟨S64x32x6, .f32⟩ : BufTy).Contents (Elt Ideal)) (p : Fin 2048) :
    ReadP.val_main_v344 (F := Ideal) x0 x3 (ix1 p) = ReadP.val_main_v315 (F := Ideal) x0 x3 (ix2 p (0 : Fin 4)) := by
  rw [ReadP.val_main_v344_apply, ReadP.val_main_v343_apply]
  exact congrArg _ (idx2_ext (by show p.val / 1 = p.val; omega) rfl)

theorem v347_at (x0 : (⟨S64x96x96x6, .f32⟩ : BufTy).Contents (Elt Ideal)) (x3 : (⟨S64x32x6, .f32⟩ : BufTy).Contents (Elt Ideal)) (p : Fin 2048) :
    ReadP.val_main_v347 (F := Ideal) x0 x3 (ix1 p) = ReadP.val_main_v315 (F := Ideal) x0 x3 (ix2 p (3 : Fin 4)) := by
  rw [ReadP.val_main_v347_apply, ReadP.val_main_v346_apply]
  exact congrArg _ (idx2_ext (by show p.val / 1 = p.val; omega) rfl)

theorem v349_at (x0 : (⟨S64x96x96x6, .f32⟩ : BufTy).Contents (Elt Ideal)) (x3 : (⟨S64x32x6, .f32⟩ : BufTy).Contents (Elt Ideal)) (p : Fin 2048) :
    ReadP.val_main_v349 (F := Ideal) x0 x3 (ix1 p) = ReadP.val_main_v315 (F := Ideal) x0 x3 (ix2 p (1 : Fin 4)) := by
  rw [ReadP.val_main_v349_apply, ReadP.val_main_v348_apply]
  exact congrArg _ (idx2_ext (by show p.val / 1 = p.val; omega) rfl)

theorem v351_at (x0 : (⟨S64x96x96x6, .f32⟩ : BufTy).Contents (Elt Ideal)) (x3 : (⟨S64x32x6, .f32⟩ : BufTy).Contents (Elt Ideal)) (p : Fin 2048) :
    ReadP.val_main_v351 (F := Ideal) x0 x3 (ix1 p) = (ReadP.val_main_v315 (F := Ideal) x0 x3 (ix2 p (2 : Fin 4)) - ReadP.val_main_v315 (F := Ideal) x0 x3 (ix2 p (0 : Fin 4))) * (ReadP.val_main_v315 (F := Ideal) x0 x3 (ix2 p (3 : Fin 4)) - ReadP.val_main_v315 (F := Ideal) x0 x3 (ix2 p (1 : Fin 4))) := by
  rw [ReadP.val_main_v351_apply, ReadP.val_main_v345_apply, ReadP.val_main_v350_apply,
    v342_at, v344_at, v347_at, v349_at]
  try rfl

theorem v353_at (x3 : (⟨S64x32x6, .f32⟩ : BufTy).Contents (Elt Ideal)) (p : Fin 2048) :
    ReadP.val_main_v353 (F := Ideal) x3 (ix1 p) = ReadP.val_main_v340 (F := Ideal) x3 (ix2 p (2 : Fin 4)) := by
  rw [ReadP.val_main_v353_apply, ReadP.val_main_v352_apply]
  exact congrArg _ (idx2_ext (by show p.val / 1 = p.val; omega) rfl)

theorem v355_at (x3 : (⟨S64x32x6, .f32⟩ : BufTy).Contents (Elt Ideal)) (p : Fin 2048) :
    ReadP.val_main_v355 (F := Ideal) x3 (ix1 p) = ReadP.val_main_v340 (F := Ideal) x3 (ix2 p (0 : Fin 4)) := by
  rw [ReadP.val_main_v355_apply, ReadP.val_main_v354_apply]
  exact congrArg _ (idx2_ext (by show p.val / 1 = p.val; omega) rfl)

theorem v358_at (x3 : (⟨S64x32x6, .f32⟩ : BufTy).Contents (Elt Ideal)) (p : Fin 2048) :
    ReadP.val_main_v358 (F := Ideal) x3 (ix1 p) = ReadP.val_main_v340 (F := Ideal) x3 (ix2 p (3 : Fin 4)) := by
  rw [ReadP.val_main_v358_apply, ReadP.val_main_v357_apply]
  exact congrArg _ (idx2_ext (by show p.val / 1 = p.val; omega) rfl)

theorem v360_at (x3 : (⟨S64x32x6, .f32⟩ : BufTy).Contents (Elt Ideal)) (p : Fin 2048) :
    ReadP.val_main_v360 (F := Ideal) x3 (ix1 p) = ReadP.val_main_v340 (F := Ideal) x3 (ix2 p (1 : Fin 4)) := by
  rw [ReadP.val_main_v360_apply, ReadP.val_main_v359_apply]
  exact congrArg _ (idx2_ext (by show p.val / 1 = p.val; omega) rfl)

theorem v362_at (x3 : (⟨S64x32x6, .f32⟩ : BufTy).Contents (Elt Ideal)) (p : Fin 2048) :
    ReadP.val_main_v362 (F := Ideal) x3 (ix1 p) = (ReadP.val_main_v340 (F := Ideal) x3 (ix2 p (2 : Fin 4)) - ReadP.val_main_v340 (F := Ideal) x3 (ix2 p (0 : Fin 4))) * (ReadP.val_main_v340 (F := Ideal) x3 (ix2 p (3 : Fin 4)) - ReadP.val_main_v340 (F := Ideal) x3 (ix2 p (1 : Fin 4))) := by
  rw [ReadP.val_main_v362_apply, ReadP.val_main_v356_apply, ReadP.val_main_v361_apply,
    v353_at, v355_at, v358_at, v360_at]
  try rfl

theorem v367_at0 (x0 : (⟨S64x96x96x6, .f32⟩ : BufTy).Contents (Elt Ideal)) (x3 : (⟨S64x32x6, .f32⟩ : BufTy).Contents (Elt Ideal)) (p t : Fin 2048) :
    ReadP.val_main_v367 (F := Ideal) x0 x3 (ix3 p t (0 : Fin 2)) = ReadP.val_main_v315 (F := Ideal) x0 x3 (ix2 p (0 : Fin 4)) := by
  rw [ReadP.val_main_v367_apply, ReadP.val_main_v364_apply, ReadP.val_main_v363_apply]
  exact congrArg _ (idx2_ext rfl rfl)

theorem v367_at1 (x0 : (⟨S64x96x96x6, .f32⟩ : BufTy).Contents (Elt Ideal)) (x3 : (⟨S64x32x6, .f32⟩ : BufTy).Contents (Elt Ideal)) (p t : Fin 2048) :
    ReadP.val_main_v367 (F := Ideal) x0 x3 (ix3 p t (1 : Fin 2)) = ReadP.val_main_v315 (F := Ideal) x0 x3 (ix2 p (1 : Fin 4)) := by
  rw [ReadP.val_main_v367_apply, ReadP.val_main_v364_apply, ReadP.val_main_v363_apply]
  exact congrArg _ (idx2_ext rfl rfl)

theorem v368_at0 (x3 : (⟨S64x32x6, .f32⟩ : BufTy).Contents (Elt Ideal)) (p t : Fin 2048) :
    ReadP.val_main_v368 (F := Ideal) x3 (ix3 p t (0 : Fin 2)) = ReadP.val_main_v340 (F := Ideal) x3 (ix2 t (0 : Fin 4)) := by
  rw [ReadP.val_main_v368_apply, ReadP.val_main_v366_apply, ReadP.val_main_v365_apply]
  exact congrArg _ (idx2_ext rfl rfl)

theorem v368_at1 (x3 : (⟨S64x32x6, .f32⟩ : BufTy).Contents (Elt Ideal)) (p t : Fin 2048) :
    ReadP.val_main_v368 (F := Ideal) x3 (ix3 p t (1 : Fin 2)) = ReadP.val_main_v340 (F := Ideal) x3 (ix2 t (1 : Fin 4)) := by
  rw [ReadP.val_main_v368_apply, ReadP.val_main_v366_apply, ReadP.val_main_v365_apply]
  exact congrArg _ (idx2_ext rfl rfl)

theorem v374_at0 (x0 : (⟨S64x96x96x6, .f32⟩ : BufTy).Contents (Elt Ideal)) (x3 : (⟨S64x32x6, .f32⟩ : BufTy).Contents (Elt Ideal)) (p t : Fin 2048) :
    ReadP.val_main_v374 (F := Ideal) x0 x3 (ix3 p t (0 : Fin 2)) = ReadP.val_main_v315 (F := Ideal) x0 x3 (ix2 p (2 : Fin 4)) := by
  rw [ReadP.val_main_v374_apply, ReadP.val_main_v371_apply, ReadP.val_main_v370_apply]
  exact congrArg _ (idx2_ext rfl rfl)

theorem v374_at1 (x0 : (⟨S64x96x96x6, .f32⟩ : BufTy).Contents (Elt Ideal)) (x3 : (⟨S64x32x6, .f32⟩ : BufTy).Contents (Elt Ideal)) (p t : Fin 2048) :
    ReadP.val_main_v374 (F := Ideal) x0 x3 (ix3 p t (1 : Fin 2)) = ReadP.val_main_v315 (F := Ideal) x0 x3 (ix2 p (3 : Fin 4)) := by
  rw [ReadP.val_main_v374_apply, ReadP.val_main_v371_apply, ReadP.val_main_v370_apply]
  exact congrArg _ (idx2_ext rfl rfl)

theorem v375_at0 (x3 : (⟨S64x32x6, .f32⟩ : BufTy).Contents (Elt Ideal)) (p t : Fin 2048) :
    ReadP.val_main_v375 (F := Ideal) x3 (ix3 p t (0 : Fin 2)) = ReadP.val_main_v340 (F := Ideal) x3 (ix2 t (2 : Fin 4)) := by
  rw [ReadP.val_main_v375_apply, ReadP.val_main_v373_apply, ReadP.val_main_v372_apply]
  exact congrArg _ (idx2_ext rfl rfl)

theorem v375_at1 (x3 : (⟨S64x32x6, .f32⟩ : BufTy).Contents (Elt Ideal)) (p t : Fin 2048) :
    ReadP.val_main_v375 (F := Ideal) x3 (ix3 p t (1 : Fin 2)) = ReadP.val_main_v340 (F := Ideal) x3 (ix2 t (3 : Fin 4)) := by
  rw [ReadP.val_main_v375_apply, ReadP.val_main_v373_apply, ReadP.val_main_v372_apply]
  exact congrArg _ (idx2_ext rfl rfl)

theorem v378_at0 (x0 : (⟨S64x96x96x6, .f32⟩ : BufTy).Contents (Elt Ideal)) (x3 : (⟨S64x32x6, .f32⟩ : BufTy).Contents (Elt Ideal)) (p t : Fin 2048) :
    ReadP.val_main_v378 (F := Ideal) x0 x3 (ix3 p t (0 : Fin 2)) = max (min (ReadP.val_main_v315 (F := Ideal) x0 x3 (ix2 p (2 : Fin 4))) (ReadP.val_main_v340 (F := Ideal) x3 (ix2 t (2 : Fin 4))) - max (ReadP.val_main_v315 (F := Ideal) x0 x3 (ix2 p (0 : Fin 4))) (ReadP.val_main_v340 (F := Ideal) x3 (ix2 t (0 : Fin 4)))) Cert.Spec.c0 := by
  rw [ReadP.val_main_v378_apply, ReadP.val_main_call2_v1_apply, ReadP.val_main_call2_v0_apply, ReadP.val_main_cst_49_apply,
    ReadP.val_main_v377_apply, ReadP.val_main_v376_apply, ReadP.val_main_v369_apply, v374_at0, v375_at0, v367_at0, v368_at0]
  exact max_comm _ _

theorem v378_at1 (x0 : (⟨S64x96x96x6, .f32⟩ : BufTy).Contents (Elt Ideal)) (x3 : (⟨S64x32x6, .f32⟩ : BufTy).Contents (Elt Ideal)) (p t : Fin 2048) :
    ReadP.val_main_v378 (F := Ideal) x0 x3 (ix3 p t (1 : Fin 2)) = max (min (ReadP.val_main_v315 (F := Ideal) x0 x3 (ix2 p (3 : Fin 4))) (ReadP.val_main_v340 (F := Ideal) x3 (ix2 t (3 : Fin 4))) - max (ReadP.val_main_v315 (F := Ideal) x0 x3 (ix2 p (1 : Fin 4))) (ReadP.val_main_v340 (F := Ideal) x3 (ix2 t (1 : Fin 4)))) Cert.Spec.c0 := by
  rw [ReadP.val_main_v378_apply, ReadP.val_main_call2_v1_apply, ReadP.val_main_call2_v0_apply, ReadP.val_main_cst_49_apply,
    ReadP.val_main_v377_apply, ReadP.val_main_v376_apply, ReadP.val_main_v369_apply, v374_at1, v375_at1, v367_at1, v368_at1]
  exact max_comm _ _

theorem v380_at (x0 : (⟨S64x96x96x6, .f32⟩ : BufTy).Contents (Elt Ideal)) (x3 : (⟨S64x32x6, .f32⟩ : BufTy).Contents (Elt Ideal)) (p t : Fin 2048) :
    ReadP.val_main_v380 (F := Ideal) x0 x3 (ix2 p t) = ReadP.val_main_v378 (F := Ideal) x0 x3 (ix3 p t (0 : Fin 2)) := by
  have hp := p.isLt; have ht := t.isLt
  rw [ReadP.val_main_v380_apply, ReadP.val_main_v379_apply]
  exact congrArg _ (idx3_ext (by show (p.val * 2048 + t.val) / 2048 = p.val; omega)
    (by show (p.val * 2048 + t.val) / 1 % 2048 = t.val; omega) rfl)

theorem v382_at (x0 : (⟨S64x96x96x6, .f32⟩ : BufTy).Contents (Elt Ideal)) (x3 : (⟨S64x32x6, .f32⟩ : BufTy).Contents (Elt Ideal)) (p t : Fin 2048) :
    ReadP.val_main_v382 (F := Ideal) x0 x3 (ix2 p t) = ReadP.val_main_v378 (F := Ideal) x0 x3 (ix3 p t (1 : Fin 2)) := by
  have hp := p.isLt; have ht := t.isLt
  rw [ReadP.val_main_v382_apply, ReadP.val_main_v381_apply]
  exact congrArg _ (idx3_ext (by show (p.val * 2048 + t.val) / 2048 = p.val; omega)
    (by show (p.val * 2048 + t.val) / 1 % 2048 = t.val; omega) rfl)

theorem v386_at (x0 : (⟨S64x96x96x6, .f32⟩ : BufTy).Contents (Elt Ideal)) (x3 : (⟨S64x32x6, .f32⟩ : BufTy).Contents (Elt Ideal)) (p t : Fin 2048) :
    ReadP.val_main_v386 (F := Ideal) x0 x3 (ix2 p t) = ReadP.val_main_v351 (F := Ideal) x0 x3 (ix1 p) := by
  rw [ReadP.val_main_v386_apply, ReadP.val_main_v384_apply]
  exact congrArg _ (idx1_ext rfl)
theorem v387_at (x3 : (⟨S64x32x6, .f32⟩ : BufTy).Contents (Elt Ideal)) (p t : Fin 2048) :
    ReadP.val_main_v387 (F := Ideal) x3 (ix2 p t) = ReadP.val_main_v362 (F := Ideal) x3 (ix1 t) := by
  rw [ReadP.val_main_v387_apply, ReadP.val_main_v385_apply]
  exact congrArg _ (idx1_ext rfl)

theorem v392_at (x0 : (⟨S64x96x96x6, .f32⟩ : BufTy).Contents (Elt Ideal)) (x3 : (⟨S64x32x6, .f32⟩ : BufTy).Contents (Elt Ideal)) (p t : Fin 2048) :
    ReadP.val_main_v392 (F := Ideal) x0 x3 (ix2 p t) =
      Cert.Spec.oneMinusIou (fun c => ReadP.val_main_v315 (F := Ideal) x0 x3 (ix2 p c)) (fun c => ReadP.val_main_v340 (F := Ideal) x3 (ix2 t c)) := by
  rw [ReadP.val_main_v392_apply, ReadP.val_main_v391_apply, ReadP.val_main_cst_70_apply, ReadP.val_main_v390_apply,
    ReadP.val_main_v389_apply, ReadP.val_main_v388_apply, ReadP.val_main_v383_apply, v386_at, v387_at, v380_at, v382_at,
    v351_at, v362_at, v378_at0, v378_at1]
  try rfl

theorem sum_pq {M : Type*} [AddCommMonoid M] (g : Fin 2048 → M) : ∑ p, g p = ∑ b : Fin 64, ∑ n : Fin 32, g (pq b n) := by
  rw [← Equiv.sum_comp (finProdFinEquiv (m := 64) (n := 32)) g, Fintype.sum_prod_type]
  refine Finset.sum_congr rfl fun b _ => Finset.sum_congr rfl fun n _ => congrArg g (Fin.ext ?_)
  show n.val + 32 * b.val = 32 * b.val + n.val
  omega

theorem v393_at (x0 : (⟨S64x96x96x6, .f32⟩ : BufTy).Contents (Elt Ideal)) (x3 : (⟨S64x32x6, .f32⟩ : BufTy).Contents (Elt Ideal)) (hg : Cert.Spec.InGrid x3) :
    ReadP.val_main_v393 (F := Ideal) x0 x3 ix0 = Cert.Spec.c0 + ∑ b : Fin 64, ∑ n : Fin 32, ∑ b' : Fin 64, ∑ n' : Fin 32,
      Cert.Spec.oneMinusIou (Cert.Spec.xyxy (Cert.Spec.pbox x0 x3 b n)) (Cert.Spec.xyxy (Cert.Spec.tbox x3 b' n')) := by
  rw [ReadP.val_main_v393_apply, sum_idx2, sum_pq]
  refine congrArg₂ (· + ·) rfl ?_
  refine Finset.sum_congr rfl fun b _ => Finset.sum_congr rfl fun n _ => ?_
  rw [sum_pq]
  refine Finset.sum_congr rfl fun b' _ => Finset.sum_congr rfl fun n' _ => ?_
  have hP : (fun c => ReadP.val_main_v315 (F := Ideal) x0 x3 (ix2 (pq b n) c)) = Cert.Spec.xyxy (Cert.Spec.pbox x0 x3 b n) := by
    funext c
    rw [v315_at]
    exact congrArg (fun q => Cert.Spec.xyxy q c) (funext fun c' => v284_at x0 x3 hg b n c')
  have hT : (fun c => ReadP.val_main_v340 (F := Ideal) x3 (ix2 (pq b' n') c)) = Cert.Spec.xyxy (Cert.Spec.tbox x3 b' n') := by
    funext c
    rw [v340_at]
    exact congrArg (fun q => Cert.Spec.xyxy q c) (funext fun c' => v290_at x3 b' n' c')
  rw [v392_at, hP, hT]

theorem val_iou (x0 : (⟨S64x96x96x6, .f32⟩ : BufTy).Contents (Elt Ideal)) (x3 : (⟨S64x32x6, .f32⟩ : BufTy).Contents (Elt Ideal)) (hg : Cert.Spec.InGrid x3) :
    ReadP.val_main_v394 (F := Ideal) x0 x3 = fun _ => Cert.Spec.lossIou x0 x3 := by
  funext j
  obtain rfl : j = ix0 := eq_ix0 j
  rw [ReadP.val_main_v394_apply, v393_at x0 x3 hg, ReadP.val_main_cst_50_apply]
  try rfl

end Cert.ReferenceIdeal.ValI

end
-- ==== Proof.Ref.ValAll.lean ====
import proofs.«431468_j28140625724039_3_alg».proof.Proof.Ref.ValBoxes
import proofs.«431468_j28140625724039_3_alg».proof.Proof.Ref.ValKey
import proofs.«431468_j28140625724039_3_alg».proof.Proof.Ref.ValConf
import proofs.«431468_j28140625724039_3_alg».proof.Proof.Ref.ValIou
import proofs.«431468_j28140625724039_3_alg».proof.Proof.Ref.ValG
import proofs.«431468_j28140625724039_3_alg».proof.Proof.PreFacts

noncomputable section

namespace Cert.ReferenceIdeal.ValAll

open Cert.ReferenceIdeal Idealize.ShloMosaic

/-- Under the precondition the reference's last stage holds the four losses. -/
theorem ref_value [Cert.Pre_finite_inputs.Facts] (x0 : (⟨S64x96x96x6, .f32⟩ : BufTy).Contents (Elt Ideal)) (x1 : (⟨S64x96x96x1, .f32⟩ : BufTy).Contents (Elt Ideal))
    (x2 : (⟨S64x96x96x63, .f32⟩ : BufTy).Contents (Elt Ideal)) (x3 : (⟨S64x32x6, .f32⟩ : BufTy).Contents (Elt Ideal)) (x4 : (⟨S64x32x63, .f32⟩ : BufTy).Contents (Elt Ideal))
    (h : Cert.Pre_finite_inputs.fn (F := Ideal) x0 x1 x2 x3 x4 = fun _ => 1#1) :
    ReadP.val_main_v399 (F := Ideal) x0 x1 x2 x3 x4 = Cert.Spec.G x0 x1 x2 x3 x4 :=
  have hg : Cert.Spec.InGrid x3 := Cert.PreFacts.inGrid x0 x1 x2 x3 x4 h
  ValI.val_G x0 x1 x2 x3 x4 (ValL.val_boxes x0 x3 hg) (ValL.val_key x2 x3 x4 hg) (ValC.val_conf x1 x3 hg) (ValI.val_iou x0 x3 hg)

end Cert.ReferenceIdeal.ValAll

end
-- ==== Proof.lean ====
import proofs.«431468_j28140625724039_3_alg».proof.Defs
import proofs.«431468_j28140625724039_3_alg».proof.Proof.Gen.Kernel
import proofs.«431468_j28140625724039_3_alg».proof.Proof.Gen.KernelIdeal
import proofs.«431468_j28140625724039_3_alg».proof.Proof.Gen.ReferenceIdeal
import proofs.«431468_j28140625724039_3_alg».proof.Proof.Gen.Pre_finite_inputs
import proofs.«431468_j28140625724039_3_alg».proof.Proof.K.Run
import proofs.«431468_j28140625724039_3_alg».proof.Proof.KI.Run
import proofs.«431468_j28140625724039_3_alg».proof.Proof.KI.KValue
import proofs.«431468_j28140625724039_3_alg».proof.Proof.Ref.Run
import proofs.«431468_j28140625724039_3_alg».proof.Proof.Ref.ValAll
import proofs.«431468_j28140625724039_3_alg».proof.Proof.PreFacts
import Idealize.ShloMosaic.Adequacy
import Idealize.ShloMosaic.Init

noncomputable section

namespace Cert.Proof

open Idealize.ShloMosaic Idealize.SL.Sem

/-- Both programs end with the four losses of the same inputs. -/
theorem algebraic [hK : Cert.KernelIdeal.Facts] [hR : Cert.ReferenceIdeal.Facts] [hP : Cert.Pre_finite_inputs.Facts] :
    Cert.algebraic_KernelIdeal_ReferenceIdeal := by
  intro m g m' g' hpre hag
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run _ _ _).mono (fun r h c =>
      ⟨(h c Cert.KernelIdeal.main_v98 (by decide)).trans (Cert.KernelIdeal.KV.kernel_value m g c (hpre c)),
       (h c Cert.KernelIdeal.main_arg0 (by decide)).trans (Cert.KernelIdeal.Hand.W6_main_arg0 m g c),
       (h c Cert.KernelIdeal.main_arg1 (by decide)).trans (Cert.KernelIdeal.Hand.W6_main_arg1 m g c),
       (h c Cert.KernelIdeal.main_arg2 (by decide)).trans (Cert.KernelIdeal.Hand.W6_main_arg2 m g c),
       (h c Cert.KernelIdeal.main_arg3 (by decide)).trans (Cert.KernelIdeal.Hand.W6_main_arg3 m g c),
       (h c Cert.KernelIdeal.main_arg4 (by decide)).trans (Cert.KernelIdeal.Hand.W6_main_arg4 m g c)⟩)
      (Cert.KernelIdeal.Hand.run_main m g)
  · refine (θ_run _ _ _).mono (fun r h c => ⟨(h c).1.trans ?_, (h c).2⟩) (Cert.ReferenceIdeal.ValueP.run m' g')
    obtain ⟨e0, e1, e2, e3, e4⟩ := hag c
    rw [e0, e1, e2, e3, e4]
    exact Cert.ReferenceIdeal.ValAll.ref_value _ _ _ _ _ (hpre c)

theorem claim : Cert.Claim := ⟨Cert.Kernel.Gen.facts, Cert.KernelIdeal.Gen.facts, Cert.ReferenceIdeal.Gen.facts, Cert.Pre_finite_inputs.Gen.facts,
  fun m g _ => Cert.Kernel.Hand.frame m g,
  fun m g _ => Cert.KernelIdeal.Hand.frame m g,
  fun m g _ => (θ_run _ _ _).mono (fun _ h c => (h c).2) (Cert.ReferenceIdeal.ValueP.run m g),
  trivial,
  algebraic⟩

end Cert.Proof

end
